-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1000000 : Shape := ⟨2, ![2, 1000000]⟩
abbrev S100000 : Shape := ⟨1, ![100000]⟩
abbrev S1000000 : Shape := ⟨1, ![1000000]⟩
abbrev S1000000x1 : Shape := ⟨2, ![1000000, 1]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000000x1 : S_.BroadcastsInDim S1000000x1 (![] : Fin 0 → Fin S1000000x1.rank)
  reducesTo_S1000000x1_S_d0_1 : S1000000x1.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S2x1000000 : S_.BroadcastsInDim S2x1000000 (![] : Fin 0 → Fin S2x1000000.rank)
  reducesTo_S2x1000000_S_d0_1 : S2x1000000.ReducesTo [0, 1] S_

variable [Facts]

def fn_part4 {F : FTy → Type} [FloatOps F] (main_arg1 : IVec S2x1000000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x1000000 32 := broadcastInDim S2x1000000 ![] bcast_S_S2x1000000 main_c_26
  let main_v70 : IVec S2x1000000 1 := cmpi .sge main_arg1 main_v69
  let main_c_27 : IVec S_ 32 := constantI S_ 32 100000#32
  let main_v71 : IVec S2x1000000 32 := broadcastInDim S2x1000000 ![] bcast_S_S2x1000000 main_c_27
  let main_v72 : IVec S2x1000000 1 := cmpi .slt main_arg1 main_v71
  let main_v73 : IVec S2x1000000 1 := andi main_v70 main_v72
  let main_c_28 : IVec S_ 1 := constantI S_ 1 1#1
  let main_v74 : IVec S_ 1 := (fun x v => Host.reduce IntOp.andi x v reducesTo_S2x1000000_S_d0_1 h_S_) main_v73 main_c_28
  let main_v75 : IVec S_ 1 := andi main_v68 main_v74
  main_v75

def fn_part3 {F : FTy → Type} [FloatOps F] (main_arg1 : IVec S2x1000000 32) (main_arg13 : FVec F S128 .f32) (main_arg14 : FVec F S128x3 .f32) (main_arg15 : FVec F S3 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x3 .f32 := Host.absf main_arg14
  let main_cst_22 : FVec F S_ .f32 := constant S_ .f32 0x7F800000#32
  let main_v60 : FVec F S128x3 .f32 := broadcastInDim S128x3 ![] bcast_S_S128x3 main_cst_22
  let main_v61 : IVec S128x3 1 := cmpf .olt main_v59 main_v60
  let main_c_23 : IVec S_ 1 := constantI S_ 1 1#1
  let main_v62 : IVec S_ 1 := (fun x v => Host.reduce IntOp.andi x v reducesTo_S128x3_S_d0_1 h_S_) main_v61 main_c_23
  let main_v63 : IVec S_ 1 := andi main_v58 main_v62
  let main_v64 : FVec F S3 .f32 := Host.absf main_arg15
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg1 main_v63 main_v67

def fn_part2 {F : FTy → Type} [FloatOps F] (main_arg1 : IVec S2x1000000 32) (main_arg9 : FVec F S3x64x64 .f32) (main_arg10 : FVec F S3x64x64 .f32) (main_arg11 : FVec F S3x64 .f32) (main_arg12 : FVec F S64x128 .f32) (main_arg13 : FVec F S128 .f32) (main_arg14 : FVec F S128x3 .f32) (main_arg15 : FVec F S3 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64x64 .f32 := Host.absf main_arg10
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg1 main_arg13 main_arg14 main_arg15 main_v48 main_v49 main_v50

def fn_part1 {F : FTy → Type} [FloatOps F] (main_arg1 : IVec S2x1000000 32) (main_arg6 : FVec F S64 .f32) (main_arg7 : FVec F S3x64x64 .f32) (main_arg8 : FVec F S3x64 .f32) (main_arg9 : FVec F S3x64x64 .f32) (main_arg10 : FVec F S3x64x64 .f32) (main_arg11 : FVec F S3x64 .f32) (main_arg12 : FVec F S64x128 .f32) (main_arg13 : FVec F S128 .f32) (main_arg14 : FVec F S128x3 .f32) (main_arg15 : FVec F S3 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg9 main_arg10 main_arg11 main_arg12 main_arg13 main_arg14 main_arg15 main_v33

def fn {F : FTy → Type} [FloatOps F] (main_arg0 : FVec F S100000x4 .f32) (main_arg1 : IVec S2x1000000 32) (main_arg2 : IVec S100000 32) (main_arg3 : FVec F S1000000 .f32) (main_arg4 : FVec F S1000000x1 .f32) (main_arg5 : FVec F S4x64 .f32) (main_arg6 : FVec F S64 .f32) (main_arg7 : FVec F S3x64x64 .f32) (main_arg8 : FVec F S3x64 .f32) (main_arg9 : FVec F S3x64x64 .f32) (main_arg10 : FVec F S3x64x64 .f32) (main_arg11 : FVec F S3x64 .f32) (main_arg12 : FVec F S64x128 .f32) (main_arg13 : FVec F S128 .f32) (main_arg14 : FVec F S128x3 .f32) (main_arg15 : FVec F S3 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg1 main_arg6 main_arg7 main_arg8 main_arg9 main_arg10 main_arg11 main_arg12 main_arg13 main_arg14 main_arg15 main_v13 main_v16
-- ==== Kernel.lean ====
abbrev S100000x4 : Shape := ⟨2, ![100000, 4]⟩
abbrev S2x1000000 : Shape := ⟨2, ![2, 1000000]⟩
abbrev S100000 : Shape := ⟨1, ![100000]⟩
abbrev S1000000 : Shape := ⟨1, ![1000000]⟩
abbrev S1000000x1 : Shape := ⟨2, ![1000000, 1]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S1x64 : Shape := ⟨2, ![1, 64]⟩
abbrev S100000x64 : Shape := ⟨2, ![100000, 64]⟩
abbrev S5000x4 : Shape := ⟨2, ![5000, 4]⟩
abbrev S5000x64 : Shape := ⟨2, ![5000, 64]⟩
abbrev S1x64x64 : Shape := ⟨3, ![1, 64, 64]⟩
abbrev S64x64 : Shape := ⟨2, ![64, 64]⟩
abbrev S_ : Shape := ⟨0, ![]⟩
abbrev S1 : Shape := ⟨1, ![1]⟩
abbrev S1x1 : Shape := ⟨2, ![1, 1]⟩
abbrev S1000000x64 : Shape := ⟨2, ![1000000, 64]⟩
abbrev S2000x1 : Shape := ⟨2, ![2000, 1]⟩
abbrev S2000x64 : Shape := ⟨2, ![2000, 64]⟩
abbrev S100000x1 : Shape := ⟨2, ![100000, 1]⟩
abbrev S100352x1 : Shape := ⟨2, ![100352, 1]⟩
abbrev S100352x2 : Shape := ⟨2, ![100352, 2]⟩
abbrev S512x2 : Shape := ⟨2, ![512, 2]⟩
abbrev S1024x2 : Shape := ⟨2, ![1024, 2]⟩
abbrev S1024x1 : Shape := ⟨2, ![1024, 1]⟩
abbrev S1024x512 : Shape := ⟨2, ![1024, 512]⟩
abbrev S512x1 : Shape := ⟨2, ![512, 1]⟩
abbrev S100352x64 : Shape := ⟨2, ![100352, 64]⟩
abbrev S100352x65 : Shape := ⟨2, ![100352, 65]⟩
abbrev S512x65 : Shape := ⟨2, ![512, 65]⟩
abbrev S1024x65 : Shape := ⟨2, ![1024, 65]⟩
abbrev S512x64 : Shape := ⟨2, ![512, 64]⟩
abbrev S1x128 : Shape := ⟨2, ![1, 128]⟩
abbrev S512x128 : Shape := ⟨2, ![512, 128]⟩
abbrev S1x3 : Shape := ⟨2, ![1, 3]⟩
abbrev S512x3 : Shape := ⟨2, ![512, 3]⟩

abbrev nBuf : Space → Nat
  | .hbm => 299
  | .vmem => 118
  | .smem => 0
  | _ => 0

abbrev hbmTy0_0 (i : Nat) : BufTy := match i % 128 with
  | 0 => ⟨S100000x4, .f32⟩
  | 1 => ⟨S2x1000000, .i32⟩
  | 2 => ⟨S100000, .i32⟩
  | 3 => ⟨S1000000, .f32⟩
  | 4 => ⟨S1000000x1, .f32⟩
  | 5 => ⟨S4x64, .f32⟩
  | 6 => ⟨S64, .f32⟩
  | 7 => ⟨S3x64x64, .f32⟩
  | 8 => ⟨S3x64, .f32⟩
  | 9 => ⟨S3x64x64, .f32⟩
  | 10 => ⟨S3x64x64, .f32⟩
  | 11 => ⟨S3x64, .f32⟩
  | 12 => ⟨S64x128, .f32⟩
  | 13 => ⟨S128, .f32⟩
  | 14 => ⟨S128x3, .f32⟩
  | 15 => ⟨S3, .f32⟩
  | 16 => ⟨S1x1000000, .i32⟩
  | 17 => ⟨S1000000, .i32⟩
  | 18 => ⟨S1x1000000, .i32⟩
  | 19 => ⟨S1000000, .i32⟩
  | 20 => ⟨S1x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S100000x64, .f32⟩
  | 28 => ⟨S1x64x64, .f32⟩
  | 29 => ⟨S64x64, .f32⟩
  | 30 => ⟨S100000x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1, .i32⟩
  | 40 => ⟨S_, .i32⟩
  | 41 => ⟨S1000000x1, .i32⟩
  | 42 => ⟨S1000000x1, .i1⟩
  | 43 => ⟨S1x1, .i32⟩
  | 44 => ⟨S1000000x1, .i32⟩
  | 45 => ⟨S1000000x1, .i1⟩
  | 46 => ⟨S1000000x1, .i1⟩
  | 47 => ⟨S_, .i1⟩
  | 48 => ⟨S1000000, .i1⟩
  | 49 => ⟨S1000000x64, .f32⟩
  | 50 => ⟨S1000000x64, .i1⟩
  | 51 => ⟨S_, .f32⟩
  | 52 => ⟨S1000000x64, .f32⟩
  | 53 => ⟨S1000000x64, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1, .i32⟩
  | 63 => ⟨S_, .i32⟩
  | 64 => ⟨S1000000x1, .i32⟩
  | 65 => ⟨S1000000x1, .i1⟩
  | 66 => ⟨S1x1, .i32⟩
  | 67 => ⟨S1000000x1, .i32⟩
  | 68 => ⟨S1000000x1, .i1⟩
  | 69 => ⟨S1000000x1, .i1⟩
  | 70 => ⟨S_, .i1⟩
  | 71 => ⟨S1000000, .i1⟩
  | 72 => ⟨S1000000x64, .f32⟩
  | 73 => ⟨S1000000x64, .i1⟩
  | 74 => ⟨S_, .f32⟩
  | 75 => ⟨S1000000x64, .f32⟩
  | 76 => ⟨S1000000x64, .f32⟩
  | 77 => ⟨S1000000x1, .f32⟩
  | 78 => ⟨S1000000x64, .f32⟩
  | 79 => ⟨S_, .f32⟩
  | 80 => ⟨S100000x64, .f32⟩
  | 81 => ⟨S1000000x1, .i32⟩
  | 82 => ⟨S100000x64, .f32⟩
  | 83 => ⟨S1x64x64, .f32⟩
  | 84 => ⟨S64x64, .f32⟩
  | 85 => ⟨S1x64, .f32⟩
  | 86 => ⟨S64, .f32⟩
  | 87 => ⟨S1x64, .f32⟩
  | 88 => ⟨S100000x64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S100000x64, .f32⟩
  | 95 => ⟨S1x64x64, .f32⟩
  | 96 => ⟨S64x64, .f32⟩
  | 97 => ⟨S100000x64, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1, .i32⟩
  | 107 => ⟨S_, .i32⟩
  | 108 => ⟨S1000000x1, .i32⟩
  | 109 => ⟨S1000000x1, .i1⟩
  | 110 => ⟨S1x1, .i32⟩
  | 111 => ⟨S1000000x1, .i32⟩
  | 112 => ⟨S1000000x1, .i1⟩
  | 113 => ⟨S1000000x1, .i1⟩
  | 114 => ⟨S_, .i1⟩
  | 115 => ⟨S1000000, .i1⟩
  | 116 => ⟨S1000000x64, .f32⟩
  | 117 => ⟨S1000000x64, .i1⟩
  | 118 => ⟨S_, .f32⟩
  | 119 => ⟨S1000000x64, .f32⟩
  | 120 => ⟨S1000000x64, .f32⟩
  | 121 => ⟨S_, .i32⟩
  | 122 => ⟨S1000000, .i32⟩
  | 123 => ⟨S1000000, .i1⟩
  | 124 => ⟨S_, .i32⟩
  | 125 => ⟨S1000000, .i32⟩
  | 126 => ⟨S1000000, .i32⟩
  | 127 => ⟨S1000000, .i32⟩
  | _ => ⟨S100000x4, .f32⟩

abbrev hbmTy0_1 (i : Nat) : BufTy := match i % 128 with
  | 0 => ⟨S1000000x1, .i32⟩
  | 1 => ⟨S1, .i32⟩
  | 2 => ⟨S_, .i32⟩
  | 3 => ⟨S1000000x1, .i32⟩
  | 4 => ⟨S1000000x1, .i1⟩
  | 5 => ⟨S1x1, .i32⟩
  | 6 => ⟨S1000000x1, .i32⟩
  | 7 => ⟨S1000000x1, .i1⟩
  | 8 => ⟨S1000000x1, .i1⟩
  | 9 => ⟨S_, .i1⟩
  | 10 => ⟨S1000000, .i1⟩
  | 11 => ⟨S1000000x64, .f32⟩
  | 12 => ⟨S1000000x64, .i1⟩
  | 13 => ⟨S_, .f32⟩
  | 14 => ⟨S1000000x64, .f32⟩
  | 15 => ⟨S1000000x64, .f32⟩
  | 16 => ⟨S1000000x1, .f32⟩
  | 17 => ⟨S1000000x64, .f32⟩
  | 18 => ⟨S_, .f32⟩
  | 19 => ⟨S100000x64, .f32⟩
  | 20 => ⟨S1000000x1, .i32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S1x64, .f32⟩
  | 27 => ⟨S100000x64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S100000x64, .f32⟩
  | 34 => ⟨S1x64x64, .f32⟩
  | 35 => ⟨S64x64, .f32⟩
  | 36 => ⟨S100000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1, .i32⟩
  | 46 => ⟨S_, .i32⟩
  | 47 => ⟨S1000000x1, .i32⟩
  | 48 => ⟨S1000000x1, .i1⟩
  | 49 => ⟨S1x1, .i32⟩
  | 50 => ⟨S1000000x1, .i32⟩
  | 51 => ⟨S1000000x1, .i1⟩
  | 52 => ⟨S1000000x1, .i1⟩
  | 53 => ⟨S_, .i1⟩
  | 54 => ⟨S1000000, .i1⟩
  | 55 => ⟨S1000000x64, .f32⟩
  | 56 => ⟨S1000000x64, .i1⟩
  | 57 => ⟨S_, .f32⟩
  | 58 => ⟨S1000000x64, .f32⟩
  | 59 => ⟨S1000000x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1, .i32⟩
  | 69 => ⟨S_, .i32⟩
  | 70 => ⟨S1000000x1, .i32⟩
  | 71 => ⟨S1000000x1, .i1⟩
  | 72 => ⟨S1x1, .i32⟩
  | 73 => ⟨S1000000x1, .i32⟩
  | 74 => ⟨S1000000x1, .i1⟩
  | 75 => ⟨S1000000x1, .i1⟩
  | 76 => ⟨S_, .i1⟩
  | 77 => ⟨S1000000, .i1⟩
  | 78 => ⟨S1000000x64, .f32⟩
  | 79 => ⟨S1000000x64, .i1⟩
  | 80 => ⟨S_, .f32⟩
  | 81 => ⟨S1000000x64, .f32⟩
  | 82 => ⟨S1000000x64, .f32⟩
  | 83 => ⟨S1000000x1, .f32⟩
  | 84 => ⟨S1000000x64, .f32⟩
  | 85 => ⟨S_, .f32⟩
  | 86 => ⟨S100000x64, .f32⟩
  | 87 => ⟨S1000000x1, .i32⟩
  | 88 => ⟨S100000x64, .f32⟩
  | 89 => ⟨S1x64x64, .f32⟩
  | 90 => ⟨S64x64, .f32⟩
  | 91 => ⟨S1x64, .f32⟩
  | 92 => ⟨S64, .f32⟩
  | 93 => ⟨S1x64, .f32⟩
  | 94 => ⟨S100000x64, .f32⟩
  | 95 => ⟨S_, .f32⟩
  | 96 => ⟨S1000000x1, .f32⟩
  | 97 => ⟨S_, .f32⟩
  | 98 => ⟨S100000x1, .f32⟩
  | 99 => ⟨S1000000x1, .i32⟩
  | 100 => ⟨S100000x1, .f32⟩
  | 101 => ⟨S_, .f32⟩
  | 102 => ⟨S100000x1, .f32⟩
  | 103 => ⟨S1000000x1, .i32⟩
  | 104 => ⟨S100000x1, .f32⟩
  | 105 => ⟨S100000x1, .f32⟩
  | 106 => ⟨S_, .f32⟩
  | 107 => ⟨S100000x1, .f32⟩
  | 108 => ⟨S1000000x1, .i32⟩
  | 109 => ⟨S100000x1, .f32⟩
  | 110 => ⟨S_, .f32⟩
  | 111 => ⟨S100000x1, .f32⟩
  | 112 => ⟨S1000000x1, .i32⟩
  | 113 => ⟨S100000x1, .f32⟩
  | 114 => ⟨S100000x1, .f32⟩
  | 115 => ⟨S_, .f32⟩
  | 116 => ⟨S100000x1, .f32⟩
  | 117 => ⟨S100000x1, .i1⟩
  | 118 => ⟨S_, .f32⟩
  | 119 => ⟨S_, .f32⟩
  | 120 => ⟨S100000x1, .f32⟩
  | 121 => ⟨S100000x1, .f32⟩
  | 122 => ⟨S100000x1, .f32⟩
  | 123 => ⟨S100000x1, .i32⟩
  | 124 => ⟨S_, .i32⟩
  | 125 => ⟨S_, .i32⟩
  | 126 => ⟨S100352x1, .i32⟩
  | 127 => ⟨S_, .f32⟩
  | _ => ⟨S100000x4, .f32⟩

abbrev hbmTy0_2 (i : Nat) : BufTy := match i % 128 with
  | 0 => ⟨S100000x1, .f32⟩
  | 1 => ⟨S_, .i32⟩
  | 2 => ⟨S_, .f32⟩
  | 3 => ⟨S100352x1, .f32⟩
  | 4 => ⟨S_, .i32⟩
  | 5 => ⟨S_, .f32⟩
  | 6 => ⟨S100352x1, .f32⟩
  | 7 => ⟨S100352x2, .f32⟩
  | 8 => ⟨S512x2, .f32⟩
  | 9 => ⟨S512x1, .f32⟩
  | 10 => ⟨S512x1, .f32⟩
  | 11 => ⟨S_, .f32⟩
  | 12 => ⟨S512x1, .f32⟩
  | 13 => ⟨S512x1, .i1⟩
  | 14 => ⟨S_, .f32⟩
  | 15 => ⟨S_, .f32⟩
  | 16 => ⟨S512x1, .f32⟩
  | 17 => ⟨S512x1, .f32⟩
  | 18 => ⟨S512x1, .f32⟩
  | 19 => ⟨S100352x1, .f32⟩
  | 20 => ⟨S100000x1, .f32⟩
  | 21 => ⟨S100000x1, .f32⟩
  | 22 => ⟨S100000x64, .f32⟩
  | 23 => ⟨S100000x64, .f32⟩
  | 24 => ⟨S_, .i32⟩
  | 25 => ⟨S_, .f32⟩
  | 26 => ⟨S100352x64, .f32⟩
  | 27 => ⟨S_, .i32⟩
  | 28 => ⟨S_, .f32⟩
  | 29 => ⟨S100352x1, .f32⟩
  | 30 => ⟨S100352x65, .f32⟩
  | 31 => ⟨S512x65, .f32⟩
  | 32 => ⟨S512x64, .f32⟩
  | 33 => ⟨S512x1, .f32⟩
  | 34 => ⟨S_, .f32⟩
  | 35 => ⟨S512x1, .f32⟩
  | 36 => ⟨S512x1, .f32⟩
  | 37 => ⟨S512x64, .f32⟩
  | 38 => ⟨S512x64, .f32⟩
  | 39 => ⟨S1x128, .f32⟩
  | 40 => ⟨S512x128, .f32⟩
  | 41 => ⟨S1x3, .f32⟩
  | 42 => ⟨S512x3, .f32⟩
  | _ => ⟨S100000x4, .f32⟩

abbrev hbmTy (i : Nat) : BufTy := match i / 128 with
  | 0 => hbmTy0_0 i
  | 1 => hbmTy0_1 i
  | 2 => hbmTy0_2 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S2000x1, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S5000x64, .f32⟩
  | .local _ .vmem, ⟨28, _⟩ => ⟨S5000x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64x64, .f32⟩
  | .local _ .vmem, ⟨38, _⟩ => ⟨S1x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S5000x64, .f32⟩
  | .local _ .vmem, ⟨45, _⟩ => ⟨S5000x64, .f32⟩
  | .local _ .vmem, ⟨46, _⟩ => ⟨S2000x1, .f32⟩
  | .local _ .vmem, ⟨47, _⟩ => ⟨S2000x1, .f32⟩
  | .local _ .vmem, ⟨48, _⟩ => ⟨S2000x1, .f32⟩
  | .local _ .vmem, ⟨49, _⟩ => ⟨S2000x1, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x64, .f32⟩
  | .local _ .vmem, ⟨67, _⟩ => ⟨S1x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S64x64, .f32⟩
  | .local _ .vmem, ⟨73, _⟩ => ⟨S5000x64, .f32⟩
  | .local _ .vmem, ⟨74, _⟩ => ⟨S5000x64, .f32⟩
  | .local _ .vmem, ⟨75, _⟩ => ⟨S2000x1, .f32⟩
  | .local _ .vmem, ⟨76, _⟩ => ⟨S2000x1, .f32⟩
  | .local _ .vmem, ⟨77, _⟩ => ⟨S2000x1, .f32⟩
  | .local _ .vmem, ⟨78, _⟩ => ⟨S2000x1, .f32⟩
  | .local _ .vmem, ⟨79, _⟩ => ⟨S2000x64, .f32⟩
  | .local _ .vmem, ⟨80, _⟩ => ⟨S2000x64, .f32⟩
  | .local _ .vmem, ⟨81, _⟩ => ⟨S2000x64, .f32⟩
  | .local _ .vmem, ⟨82, _⟩ => ⟨S2000x64, .f32⟩
  | .local _ .vmem, ⟨83, _⟩ => ⟨S2000x64, .f32⟩
  | .local _ .vmem, ⟨84, _⟩ => ⟨S2000x64, .f32⟩
  | .local _ .vmem, ⟨85, _⟩ => ⟨S5000x64, .f32⟩
  | .local _ .vmem, ⟨86, _⟩ => ⟨S5000x64, .f32⟩
  | .local _ .vmem, ⟨87, _⟩ => ⟨S64x64, .f32⟩
  | .local _ .vmem, ⟨88, _⟩ => ⟨S1x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S1024x2, .f32⟩
  | .local _ .vmem, ⟨94, _⟩ => ⟨S1024x2, .f32⟩
  | .local _ .vmem, ⟨95, _⟩ => ⟨S1024x1, .i32⟩
  | .local _ .vmem, ⟨96, _⟩ => ⟨S1024x1, .i32⟩
  | .local _ .vmem, ⟨97, _⟩ => ⟨S512x2, .f32⟩
  | .local _ .vmem, ⟨98, _⟩ => ⟨S512x2, .f32⟩
  | .local _ .vmem, ⟨99, _⟩ => ⟨S512x1, .f32⟩
  | .local _ .vmem, ⟨100, _⟩ => ⟨S1024x1, .i32⟩
  | .local _ .vmem, ⟨101, _⟩ => ⟨S1024x1, .i32⟩
  | .local _ .vmem, ⟨102, _⟩ => ⟨S1024x1, .f32⟩
  | .local _ .vmem, ⟨103, _⟩ => ⟨S1024x1, .f32⟩
  | .local _ .vmem, ⟨104, _⟩ => ⟨S1024x65, .f32⟩
  | .local _ .vmem, ⟨105, _⟩ => ⟨S1024x65, .f32⟩
  | .local _ .vmem, ⟨106, _⟩ => ⟨S1024x1, .i32⟩
  | .local _ .vmem, ⟨107, _⟩ => ⟨S1024x1, .i32⟩
  | .local _ .vmem, ⟨108, _⟩ => ⟨S512x65, .f32⟩
  | .local _ .vmem, ⟨109, _⟩ => ⟨S512x65, .f32⟩
  | .local _ .vmem, ⟨110, _⟩ => ⟨S512x64, .f32⟩
  | .local _ .vmem, ⟨111, _⟩ => ⟨S64x128, .f32⟩
  | .local _ .vmem, ⟨112, _⟩ => ⟨S1x128, .f32⟩
  | .local _ .vmem, ⟨113, _⟩ => ⟨S512x128, .f32⟩
  | .local _ .vmem, ⟨114, _⟩ => ⟨S512x128, .f32⟩
  | .local _ .vmem, ⟨115, _⟩ => ⟨S128x3, .f32⟩
  | .local _ .vmem, ⟨116, _⟩ => ⟨S1x3, .f32⟩
  | .local _ .vmem, ⟨117, _⟩ => ⟨S512x3, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  ofTc nBuf bufTy 0 116 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v15 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_cst : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v37 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_cst_0 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_call4_c : Ref sig .tc := ⟨.hbm, 165, rfl⟩
abbrev main_call4_v0 : Ref sig .tc := ⟨.hbm, 166, rfl⟩
abbrev main_call4_v1 : Ref sig .tc := ⟨.hbm, 167, rfl⟩
abbrev main_call4_c_0 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_c_1 : Ref sig .tc := ⟨.hbm, 173, rfl⟩
abbrev main_call4_c_2 : Ref sig .tc := ⟨.hbm, 174, rfl⟩
abbrev main_call4_v6 : Ref sig .tc := ⟨.hbm, 175, rfl⟩
abbrev main_call4_v7 : Ref sig .tc := ⟨.hbm, 176, rfl⟩
abbrev main_call4_v8 : Ref sig .tc := ⟨.hbm, 177, rfl⟩
abbrev main_call4_v9 : Ref sig .tc := ⟨.hbm, 178, rfl⟩
abbrev main_call4_v10 : Ref sig .tc := ⟨.hbm, 179, rfl⟩
abbrev main_call4_v11 : Ref sig .tc := ⟨.hbm, 180, rfl⟩
abbrev main_call4_c_3 : Ref sig .tc := ⟨.hbm, 181, rfl⟩
abbrev main_call4_v12 : Ref sig .tc := ⟨.hbm, 182, rfl⟩
abbrev main_call4_v13 : Ref sig .tc := ⟨.hbm, 183, rfl⟩
abbrev main_call4_v14 : Ref sig .tc := ⟨.hbm, 184, rfl⟩
abbrev main_call4_cst : Ref sig .tc := ⟨.hbm, 185, rfl⟩
abbrev main_call4_v15 : Ref sig .tc := ⟨.hbm, 186, rfl⟩
abbrev main_v59 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_c_1 : Ref sig .tc := ⟨.hbm, 196, rfl⟩
abbrev main_call5_c_2 : Ref sig .tc := ⟨.hbm, 197, rfl⟩
abbrev main_call5_v6 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_c_3 : Ref sig .tc := ⟨.hbm, 204, rfl⟩
abbrev main_call5_v12 : Ref sig .tc := ⟨.hbm, 205, rfl⟩
abbrev main_call5_v13 : Ref sig .tc := ⟨.hbm, 206, rfl⟩
abbrev main_call5_v14 : Ref sig .tc := ⟨.hbm, 207, rfl⟩
abbrev main_call5_cst : Ref sig .tc := ⟨.hbm, 208, rfl⟩
abbrev main_call5_v15 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_cst_1 : Ref sig .tc := ⟨.hbm, 213, rfl⟩
abbrev main_v63 : Ref sig .tc := ⟨.hbm, 214, rfl⟩
abbrev main_v64 : Ref sig .tc := ⟨.hbm, 215, rfl⟩
abbrev main_v65 : Ref sig .tc := ⟨.hbm, 216, rfl⟩
abbrev main_v66 : Ref sig .tc := ⟨.hbm, 217, rfl⟩
abbrev main_v67 : Ref sig .tc := ⟨.hbm, 218, rfl⟩
abbrev main_v68 : Ref sig .tc := ⟨.hbm, 219, rfl⟩
abbrev main_v69 : Ref sig .tc := ⟨.hbm, 220, rfl⟩
abbrev main_v70 : Ref sig .tc := ⟨.hbm, 221, rfl⟩
abbrev main_v71 : Ref sig .tc := ⟨.hbm, 222, rfl⟩
abbrev main_cst_2 : Ref sig .tc := ⟨.hbm, 223, rfl⟩
abbrev main_v72 : Ref sig .tc := ⟨.hbm, 224, rfl⟩
abbrev main_cst_3 : Ref sig .tc := ⟨.hbm, 225, rfl⟩
abbrev main_v73 : Ref sig .tc := ⟨.hbm, 226, rfl⟩
abbrev main_v74 : Ref sig .tc := ⟨.hbm, 227, rfl⟩
abbrev main_v75 : Ref sig .tc := ⟨.hbm, 228, rfl⟩
abbrev main_cst_4 : Ref sig .tc := ⟨.hbm, 229, rfl⟩
abbrev main_v76 : Ref sig .tc := ⟨.hbm, 230, rfl⟩
abbrev main_v77 : Ref sig .tc := ⟨.hbm, 231, rfl⟩
abbrev main_v78 : Ref sig .tc := ⟨.hbm, 232, rfl⟩
abbrev main_v79 : Ref sig .tc := ⟨.hbm, 233, rfl⟩
abbrev main_cst_5 : Ref sig .tc := ⟨.hbm, 234, rfl⟩
abbrev main_v80 : Ref sig .tc := ⟨.hbm, 235, rfl⟩
abbrev main_v81 : Ref sig .tc := ⟨.hbm, 236, rfl⟩
abbrev main_v82 : Ref sig .tc := ⟨.hbm, 237, rfl⟩
abbrev main_cst_6 : Ref sig .tc := ⟨.hbm, 238, rfl⟩
abbrev main_v83 : Ref sig .tc := ⟨.hbm, 239, rfl⟩
abbrev main_v84 : Ref sig .tc := ⟨.hbm, 240, rfl⟩
abbrev main_v85 : Ref sig .tc := ⟨.hbm, 241, rfl⟩
abbrev main_v86 : Ref sig .tc := ⟨.hbm, 242, rfl⟩
abbrev main_cst_7 : Ref sig .tc := ⟨.hbm, 243, rfl⟩
abbrev main_v87 : Ref sig .tc := ⟨.hbm, 244, rfl⟩
abbrev main_v88 : Ref sig .tc := ⟨.hbm, 245, rfl⟩
abbrev main_cst_8 : Ref sig .tc := ⟨.hbm, 246, rfl⟩
abbrev main_call6_v0 : Ref sig .tc := ⟨.hbm, 247, rfl⟩
abbrev main_call6_v1 : Ref sig .tc := ⟨.hbm, 248, rfl⟩
abbrev main_v89 : Ref sig .tc := ⟨.hbm, 249, rfl⟩
abbrev main_v90 : Ref sig .tc := ⟨.hbm, 250, rfl⟩
abbrev main_v91 : Ref sig .tc := ⟨.hbm, 251, rfl⟩
abbrev main_c : Ref sig .tc := ⟨.hbm, 252, rfl⟩
abbrev main_call7_v0 : Ref sig .tc := ⟨.hbm, 253, rfl⟩
abbrev main_v92 : Ref sig .tc := ⟨.hbm, 254, rfl⟩
abbrev main_cst_9 : Ref sig .tc := ⟨.hbm, 255, rfl⟩
abbrev main_v93 : Ref sig .tc := ⟨.hbm, 256, rfl⟩
abbrev main_c_10 : Ref sig .tc := ⟨.hbm, 257, rfl⟩
abbrev main_call8_v0 : Ref sig .tc := ⟨.hbm, 258, rfl⟩
abbrev main_v94 : Ref sig .tc := ⟨.hbm, 259, rfl⟩
abbrev main_c_11 : Ref sig .tc := ⟨.hbm, 260, rfl⟩
abbrev main_call9_v0 : Ref sig .tc := ⟨.hbm, 261, rfl⟩
abbrev main_v95 : Ref sig .tc := ⟨.hbm, 262, rfl⟩
abbrev main_v96 : Ref sig .tc := ⟨.hbm, 263, rfl⟩
abbrev main_v97 : Ref sig .tc := ⟨.hbm, 264, rfl⟩
abbrev main_v98 : Ref sig .tc := ⟨.hbm, 265, rfl⟩
abbrev main_v99 : Ref sig .tc := ⟨.hbm, 266, rfl⟩
abbrev main_cst_12 : Ref sig .tc := ⟨.hbm, 267, rfl⟩
abbrev main_v100 : Ref sig .tc := ⟨.hbm, 268, rfl⟩
abbrev main_v101 : Ref sig .tc := ⟨.hbm, 269, rfl⟩
abbrev main_cst_13 : Ref sig .tc := ⟨.hbm, 270, rfl⟩
abbrev main_call10_v0 : Ref sig .tc := ⟨.hbm, 271, rfl⟩
abbrev main_call10_v1 : Ref sig .tc := ⟨.hbm, 272, rfl⟩
abbrev main_v102 : Ref sig .tc := ⟨.hbm, 273, rfl⟩
abbrev main_v103 : Ref sig .tc := ⟨.hbm, 274, rfl⟩
abbrev main_v104 : Ref sig .tc := ⟨.hbm, 275, rfl⟩
abbrev main_v105 : Ref sig .tc := ⟨.hbm, 276, rfl⟩
abbrev main_v106 : Ref sig .tc := ⟨.hbm, 277, rfl⟩
abbrev main_v107 : Ref sig .tc := ⟨.hbm, 278, rfl⟩
abbrev main_v108 : Ref sig .tc := ⟨.hbm, 279, rfl⟩
abbrev main_c_14 : Ref sig .tc := ⟨.hbm, 280, rfl⟩
abbrev main_call11_v0 : Ref sig .tc := ⟨.hbm, 281, rfl⟩
abbrev main_v109 : Ref sig .tc := ⟨.hbm, 282, rfl⟩
abbrev main_c_15 : Ref sig .tc := ⟨.hbm, 283, rfl⟩
abbrev main_call12_v0 : Ref sig .tc := ⟨.hbm, 284, rfl⟩
abbrev main_v110 : Ref sig .tc := ⟨.hbm, 285, rfl⟩
abbrev main_v111 : Ref sig .tc := ⟨.hbm, 286, rfl⟩
abbrev main_v112 : Ref sig .tc := ⟨.hbm, 287, rfl⟩
abbrev main_v113 : Ref sig .tc := ⟨.hbm, 288, rfl⟩
abbrev main_v114 : Ref sig .tc := ⟨.hbm, 289, rfl⟩
abbrev main_cst_16 : Ref sig .tc := ⟨.hbm, 290, rfl⟩
abbrev main_v115 : Ref sig .tc := ⟨.hbm, 291, rfl⟩
abbrev main_v116 : Ref sig .tc := ⟨.hbm, 292, rfl⟩
abbrev main_v117 : Ref sig .tc := ⟨.hbm, 293, rfl⟩
abbrev main_v118 : Ref sig .tc := ⟨.hbm, 294, rfl⟩
abbrev main_v119 : Ref sig .tc := ⟨.hbm, 295, rfl⟩
abbrev main_v120 : Ref sig .tc := ⟨.hbm, 296, rfl⟩
abbrev main_v121 : Ref sig .tc := ⟨.hbm, 297, rfl⟩
abbrev main_v122 : Ref sig .tc := ⟨.hbm, 298, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc7_stg4_0 : Ref sig .tc := ⟨.vmem, 54, rfl⟩
abbrev cc7_stg4_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg3_0 : Ref sig .tc := ⟨.vmem, 60, rfl⟩
abbrev cc8_stg3_1 : Ref sig .tc := ⟨.vmem, 61, rfl⟩
abbrev cc8_stg4_0 : Ref sig .tc := ⟨.vmem, 62, rfl⟩
abbrev cc8_stg4_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg2_0 : Ref sig .tc := ⟨.vmem, 67, rfl⟩
abbrev cc9_stg3_0 : Ref sig .tc := ⟨.vmem, 68, rfl⟩
abbrev cc9_stg3_1 : Ref sig .tc := ⟨.vmem, 69, rfl⟩
abbrev cc10_stg0_0 : Ref sig .tc := ⟨.vmem, 70, rfl⟩
abbrev cc10_stg0_1 : Ref sig .tc := ⟨.vmem, 71, rfl⟩
abbrev cc10_stg1_0 : Ref sig .tc := ⟨.vmem, 72, rfl⟩
abbrev cc10_stg2_0 : Ref sig .tc := ⟨.vmem, 73, rfl⟩
abbrev cc10_stg2_1 : Ref sig .tc := ⟨.vmem, 74, rfl⟩
abbrev cc11_stg0_0 : Ref sig .tc := ⟨.vmem, 75, rfl⟩
abbrev cc11_stg0_1 : Ref sig .tc := ⟨.vmem, 76, rfl⟩
abbrev cc11_stg1_0 : Ref sig .tc := ⟨.vmem, 77, rfl⟩
abbrev cc11_stg1_1 : Ref sig .tc := ⟨.vmem, 78, rfl⟩
abbrev cc11_stg2_0 : Ref sig .tc := ⟨.vmem, 79, rfl⟩
abbrev cc11_stg2_1 : Ref sig .tc := ⟨.vmem, 80, rfl⟩
abbrev cc11_stg3_0 : Ref sig .tc := ⟨.vmem, 81, rfl⟩
abbrev cc11_stg3_1 : Ref sig .tc := ⟨.vmem, 82, rfl⟩
abbrev cc11_stg4_0 : Ref sig .tc := ⟨.vmem, 83, rfl⟩
abbrev cc11_stg4_1 : Ref sig .tc := ⟨.vmem, 84, rfl⟩
abbrev cc12_stg0_0 : Ref sig .tc := ⟨.vmem, 85, rfl⟩
abbrev cc12_stg0_1 : Ref sig .tc := ⟨.vmem, 86, rfl⟩
abbrev cc12_stg1_0 : Ref sig .tc := ⟨.vmem, 87, rfl⟩
abbrev cc12_stg2_0 : Ref sig .tc := ⟨.vmem, 88, rfl⟩
abbrev cc12_stg3_0 : Ref sig .tc := ⟨.vmem, 89, rfl⟩
abbrev cc12_stg3_1 : Ref sig .tc := ⟨.vmem, 90, rfl⟩
abbrev cc12_stg4_0 : Ref sig .tc := ⟨.vmem, 91, rfl⟩
abbrev cc12_stg4_1 : Ref sig .tc := ⟨.vmem, 92, rfl⟩
abbrev cc13_stg0_0 : Ref sig .tc := ⟨.vmem, 93, rfl⟩
abbrev cc13_stg0_1 : Ref sig .tc := ⟨.vmem, 94, rfl⟩
abbrev cc13_stg1_0 : Ref sig .tc := ⟨.vmem, 95, rfl⟩
abbrev cc13_stg1_1 : Ref sig .tc := ⟨.vmem, 96, rfl⟩
abbrev cc13_stg2_0 : Ref sig .tc := ⟨.vmem, 97, rfl⟩
abbrev cc13_scratch0 : Ref sig .tc := ⟨.vmem, 98, rfl⟩
abbrev cc14_stg0_0 : Ref sig .tc := ⟨.vmem, 99, rfl⟩
abbrev cc14_stg1_0 : Ref sig .tc := ⟨.vmem, 100, rfl⟩
abbrev cc14_stg1_1 : Ref sig .tc := ⟨.vmem, 101, rfl⟩
abbrev cc14_stg2_0 : Ref sig .tc := ⟨.vmem, 102, rfl⟩
abbrev cc14_stg2_1 : Ref sig .tc := ⟨.vmem, 103, rfl⟩
abbrev cc15_stg0_0 : Ref sig .tc := ⟨.vmem, 104, rfl⟩
abbrev cc15_stg0_1 : Ref sig .tc := ⟨.vmem, 105, rfl⟩
abbrev cc15_stg1_0 : Ref sig .tc := ⟨.vmem, 106, rfl⟩
abbrev cc15_stg1_1 : Ref sig .tc := ⟨.vmem, 107, rfl⟩
abbrev cc15_stg2_0 : Ref sig .tc := ⟨.vmem, 108, rfl⟩
abbrev cc15_scratch0 : Ref sig .tc := ⟨.vmem, 109, rfl⟩
abbrev cc16_stg0_0 : Ref sig .tc := ⟨.vmem, 110, rfl⟩
abbrev cc16_stg1_0 : Ref sig .tc := ⟨.vmem, 111, rfl⟩
abbrev cc16_stg2_0 : Ref sig .tc := ⟨.vmem, 112, rfl⟩
abbrev cc16_stg3_0 : Ref sig .tc := ⟨.vmem, 113, rfl⟩
abbrev cc17_stg0_0 : Ref sig .tc := ⟨.vmem, 114, rfl⟩
abbrev cc17_stg1_0 : Ref sig .tc := ⟨.vmem, 115, rfl⟩
abbrev cc17_stg2_0 : Ref sig .tc := ⟨.vmem, 116, rfl⟩
abbrev cc17_stg3_0 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53
abbrev cc7_sem4_0 : DmaSem sig := 54
abbrev cc7_sem4_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61
abbrev cc8_sem4_0 : DmaSem sig := 62
abbrev cc8_sem4_1 : DmaSem sig := 63
abbrev cc9_sem0_0 : DmaSem sig := 64
abbrev cc9_sem0_1 : DmaSem sig := 65
abbrev cc9_sem1_0 : DmaSem sig := 66
abbrev cc9_sem2_0 : DmaSem sig := 67
abbrev cc9_sem3_0 : DmaSem sig := 68
abbrev cc9_sem3_1 : DmaSem sig := 69
abbrev cc10_sem0_0 : DmaSem sig := 70
abbrev cc10_sem0_1 : DmaSem sig := 71
abbrev cc10_sem1_0 : DmaSem sig := 72
abbrev cc10_sem2_0 : DmaSem sig := 73
abbrev cc10_sem2_1 : DmaSem sig := 74
abbrev cc11_sem0_0 : DmaSem sig := 75
abbrev cc11_sem0_1 : DmaSem sig := 76
abbrev cc11_sem1_0 : DmaSem sig := 77
abbrev cc11_sem1_1 : DmaSem sig := 78
abbrev cc11_sem2_0 : DmaSem sig := 79
abbrev cc11_sem2_1 : DmaSem sig := 80
abbrev cc11_sem3_0 : DmaSem sig := 81
abbrev cc11_sem3_1 : DmaSem sig := 82
abbrev cc11_sem4_0 : DmaSem sig := 83
abbrev cc11_sem4_1 : DmaSem sig := 84
abbrev cc12_sem0_0 : DmaSem sig := 85
abbrev cc12_sem0_1 : DmaSem sig := 86
abbrev cc12_sem1_0 : DmaSem sig := 87
abbrev cc12_sem2_0 : DmaSem sig := 88
abbrev cc12_sem3_0 : DmaSem sig := 89
abbrev cc12_sem3_1 : DmaSem sig := 90
abbrev cc12_sem4_0 : DmaSem sig := 91
abbrev cc12_sem4_1 : DmaSem sig := 92
abbrev cc13_sem0_0 : DmaSem sig := 93
abbrev cc13_sem0_1 : DmaSem sig := 94
abbrev cc13_sem1_0 : DmaSem sig := 95
abbrev cc13_sem1_1 : DmaSem sig := 96
abbrev cc13_sem2_0 : DmaSem sig := 97
abbrev cc14_sem0_0 : DmaSem sig := 98
abbrev cc14_sem1_0 : DmaSem sig := 99
abbrev cc14_sem1_1 : DmaSem sig := 100
abbrev cc14_sem2_0 : DmaSem sig := 101
abbrev cc14_sem2_1 : DmaSem sig := 102
abbrev cc15_sem0_0 : DmaSem sig := 103
abbrev cc15_sem0_1 : DmaSem sig := 104
abbrev cc15_sem1_0 : DmaSem sig := 105
abbrev cc15_sem1_1 : DmaSem sig := 106
abbrev cc15_sem2_0 : DmaSem sig := 107
abbrev cc16_sem0_0 : DmaSem sig := 108
abbrev cc16_sem1_0 : DmaSem sig := 109
abbrev cc16_sem2_0 : DmaSem sig := 110
abbrev cc16_sem3_0 : DmaSem sig := 111
abbrev cc17_sem0_0 : DmaSem sig := 112
abbrev cc17_sem1_0 : DmaSem sig := 113
abbrev cc17_sem2_0 : DmaSem sig := 114
abbrev cc17_sem3_0 : DmaSem sig := 115

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![500], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![500], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x1 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![500], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x1 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x1 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 2 → Memref sig .tc .vmem S2000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S2000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S5000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![98], ![false]⟩

def k13_cond2 (i : grid13.Coords) : BitVec 1 :=
  let arg0 : BitVec 32 := BitVec.ofNat 32 (i 0).val
  let c97_i32 : BitVec 32 := 97#32
  let v20 : BitVec 1 := Scalar.cmpi .eq arg0 c97_i32
  let v21 : BitVec 32 := Scalar.extui v20
  let c0_i32_8 : BitVec 32 := 0#32
  let v22 : BitVec 1 := Scalar.cmpi .ne v21 c0_i32_8
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1024x2 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1024x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S512x2 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![98], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S512x1 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 2 → Memref sig .tc .vmem S1024x1 .i32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S1024x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![98], ![false]⟩

def k15_cond2 (i : grid15.Coords) : BitVec 1 :=
  let arg0 : BitVec 32 := BitVec.ofNat 32 (i 0).val
  let c97_i32 : BitVec 32 := 97#32
  let v20 : BitVec 1 := Scalar.cmpi .eq arg0 c97_i32
  let v21 : BitVec 32 := Scalar.extui v20
  let c0_i32_8 : BitVec 32 := 0#32
  let v22 : BitVec 1 := Scalar.cmpi .ne v21 c0_i32_8
  v22

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S1024x65 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1024x1 .i32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S512x65 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S512x64 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S64x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S512x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S512x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S128x3 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x3 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S512x3 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  shapeCasts_S1000000_S1000000x1 : S1000000.ShapeCasts S1000000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S100000x1 : S_.BroadcastsInDim S100000x1 (![] : Fin 0 → Fin S100000x1.rank)
  shapeCasts_S100000_S100000x1 : S100000.ShapeCasts S100000x1
  pads_S100000x1_S100352x1_03520_000 : S100000x1.Pads (![0, 0] : Fin 2 → Nat) ![352, 0] ![0, 0] S100352x1
  concatenates_S100352x1_S100352x1_S100352x2_d1 : Shape.Concatenates [S100352x1, S100352x1] S100352x2 1
  inb_S512x2_S512x2_0_0 : ∀ a, (![0, 0] : Fin 2 → Nat) a + S512x2.size a ≤ S512x2.size a
  h_S512x2 : 0 < S512x2.numel
  shapeCasts_S512x2_S512x2 : S512x2.ShapeCasts S512x2
  iota_S1024x512_d1_w32 : S1024x512.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  natLt_1_32 : 1 < 32
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  slices_S512x2_S512x1_0_0 : S512x2.Slices ![0, 0] S512x1
  slices_S512x2_S512x1_0_1 : S512x2.Slices ![0, 1] S512x1
  bcast_S_S512x1 : S_.BroadcastsInDim S512x1 (![] : Fin 0 → Fin S512x1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  slices_S100352x1_S100000x1_0_0 : S100352x1.Slices ![0, 0] S100000x1
  bcast_S100000x1_S100000x64_0_1 : S100000x1.BroadcastsInDim S100000x64 (![0, 1] : Fin 2 → Fin S100000x64.rank)
  pads_S100000x64_S100352x64_03520_000 : S100000x64.Pads (![0, 0] : Fin 2 → Nat) ![352, 0] ![0, 0] S100352x64
  concatenates_S100352x64_S100352x1_S100352x65_d1 : Shape.Concatenates [S100352x64, S100352x1] S100352x65 1
  inb_S512x65_S512x65_0_0 : ∀ a, (![0, 0] : Fin 2 → Nat) a + S512x65.size a ≤ S512x65.size a
  h_S512x65 : 0 < S512x65.numel
  shapeCasts_S512x65_S512x65 : S512x65.ShapeCasts S512x65
  inb_S1024x65_S1024x65_0_0 : ∀ a, (![0, 0] : Fin 2 → Nat) a + S1024x65.size a ≤ S1024x65.size a
  h_S1024x65 : 0 < S1024x65.numel
  shapeCasts_S1024x65_S1024x65 : S1024x65.ShapeCasts S1024x65
  slices_S512x65_S512x64_0_0 : S512x65.Slices ![0, 0] S512x64
  slices_S512x65_S512x1_0_64 : S512x65.Slices ![0, 64] S512x1
  bcast_S512x1_S512x64_0_1 : S512x1.BroadcastsInDim S512x64 (![0, 1] : Fin 2 → Fin S512x64.rank)
  shapeCasts_S128_S1x128 : S128.ShapeCasts S1x128
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S3_S1x3 : S3.ShapeCasts S1x3
  shapeCasts_S512x128_S512x128 : S512x128.ShapeCasts S512x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  dot_S5000x4_S4x64_S5000x64_1_0_0_1_n_n_wf : DotDims.WF S5000x4 S4x64 S5000x64 [1] [0] [0] [1] [] []
  dot_S5000x64_S64x64_S5000x64_1_0_0_1_n_n_wf : DotDims.WF S5000x64 S64x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S1024x512_S1024x2_S512x2_0_0_1_1_n_n_wf : DotDims.WF S1024x512 S1024x2 S512x2 [0] [0] [1] [1] [] []
  dot_S1024x512_S512x1_S1024x1_1_0_0_1_n_n_wf : DotDims.WF S1024x512 S512x1 S1024x1 [1] [0] [0] [1] [] []
  dot_S1024x512_S1024x65_S512x65_0_0_1_1_n_n_wf : DotDims.WF S1024x512 S1024x65 S512x65 [0] [0] [1] [1] [] []
  dot_S512x64_S64x128_S512x128_1_0_0_1_n_n_wf : DotDims.WF S512x64 S64x128 S512x128 [1] [0] [0] [1] [] []
  dot_S512x128_S128x3_S512x3_1_0_0_1_n_n_wf : DotDims.WF S512x128 S128x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1.size a ≤ S1000000x1.size a
  hwx3_0 : ∀ i : grid3.Coords, EltTy.bits .f32 = 32 ∨ (Rect.block (s := S1000000x1) S2000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S1000000x1.size a
  hwx3_1 : ∀ i : grid3.Coords, EltTy.bits .f32 = 32 ∨ (Rect.block (s := S1000000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S1000000x64.size a
  hwx3_2 : ∀ i : grid3.Coords, EltTy.bits .f32 = 32 ∨ (Rect.block (s := S1000000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S1000000x64.size a
  hwx3_3 : ∀ i : grid3.Coords, EltTy.bits .f32 = 32 ∨ (Rect.block (s := S1000000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S1000000x64.size a
  hwx3_4 : ∀ i : grid3.Coords, EltTy.bits .f32 = 32 ∨ (Rect.block (s := S1000000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x1.size a ≤ S1000000x1.size a
  hwx7_0 : ∀ i : grid7.Coords, EltTy.bits .f32 = 32 ∨ (Rect.block (s := S1000000x1) S2000x1.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S1000000x1.size a
  hwx7_1 : ∀ i : grid7.Coords, EltTy.bits .f32 = 32 ∨ (Rect.block (s := S1000000x1) S2000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S1000000x64.size a
  hwx7_2 : ∀ i : grid7.Coords, EltTy.bits .f32 = 32 ∨ (Rect.block (s := S1000000x64) S2000x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S1000000x64.size a
  hwx7_3 : ∀ i : grid7.Coords, EltTy.bits .f32 = 32 ∨ (Rect.block (s := S1000000x64) S2000x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x64.size a ≤ S1000000x64.size a
  hwx7_4 : ∀ i : grid7.Coords, EltTy.bits .f32 = 32 ∨ (Rect.block (s := S1000000x64) S2000x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S100000x64.size a
  hwx8_3 : ∀ i : grid8.Coords, EltTy.bits .f32 = 32 ∨ (Rect.block (s := S100000x64) S5000x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S100000x64.size a
  hwx8_4 : ∀ i : grid8.Coords, EltTy.bits .f32 = 32 ∨ (Rect.block (s := S100000x64) S5000x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x64.size a ≤ S100000x64.size a
  hwx9_3 : ∀ i : grid9.Coords, EltTy.bits .f32 = 32 ∨ (Rect.block (s := S100000x64) S5000x64.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x64.size a ≤ S100000x64.size a
  hwx10_2 : ∀ i : grid10.Coords, EltTy.bits .f32 = 32 ∨ (Rect.block (s := S100000x64) S5000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x1.size a ≤ S1000000x1.size a
  hwx11_0 : ∀ i : grid11.Coords, EltTy.bits .f32 = 32 ∨ (Rect.block (s := S1000000x1) S2000x1.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x1.size a ≤ S1000000x1.size a
  hwx11_1 : ∀ i : grid11.Coords, EltTy.bits .f32 = 32 ∨ (Rect.block (s := S1000000x1) S2000x1.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x64.size a ≤ S1000000x64.size a
  hwx11_2 : ∀ i : grid11.Coords, EltTy.bits .f32 = 32 ∨ (Rect.block (s := S1000000x64) S2000x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x64.size a ≤ S1000000x64.size a
  hwx11_3 : ∀ i : grid11.Coords, EltTy.bits .f32 = 32 ∨ (Rect.block (s := S1000000x64) S2000x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x64.size a ≤ S1000000x64.size a
  hwx11_4 : ∀ i : grid11.Coords, EltTy.bits .f32 = 32 ∨ (Rect.block (s := S1000000x64) S2000x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x64.size a ≤ S1x64.size a
  hwx12_2 : ∀ i : grid12.Coords, EltTy.bits .f32 = 32 ∨ (Rect.block (s := S1x64) S1x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x64.size a ≤ S100000x64.size a
  hwx12_3 : ∀ i : grid12.Coords, EltTy.bits .f32 = 32 ∨ (Rect.block (s := S100000x64) S5000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x64.size a ≤ S100000x64.size a
  hwx12_4 : ∀ i : grid12.Coords, EltTy.bits .f32 = 32 ∨ (Rect.block (s := S100000x64) S5000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x2.size a ≤ S100352x2.size a
  hwx13_0 : ∀ i : grid13.Coords, EltTy.bits .f32 = 32 ∨ (Rect.block (s := S100352x2) S1024x2.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x1.size a ≤ S100352x1.size a
  hwx13_1 : ∀ i : grid13.Coords, EltTy.bits .i32 = 32 ∨ (Rect.block (s := S100352x1) S1024x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x2.size a ≤ S512x2.size a
  hwx13_2 : ∀ i : grid13.Coords, EltTy.bits .f32 = 32 ∨ (Rect.block (s := S512x2) S512x2.size (cc13_transform_2 i) (hinb13_2 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S512x1.size a ≤ S512x1.size a
  hwx14_0 : ∀ i : grid14.Coords, EltTy.bits .f32 = 32 ∨ (Rect.block (s := S512x1) S512x1.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1024x1.size a ≤ S100352x1.size a
  hwx14_1 : ∀ i : grid14.Coords, EltTy.bits .i32 = 32 ∨ (Rect.block (s := S100352x1) S1024x1.size (cc14_transform_1 i) (hinb14_1 i)).WholeWords (EltTy.packing .i32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1024x1.size a ≤ S100352x1.size a
  hwx14_2 : ∀ i : grid14.Coords, EltTy.bits .f32 = 32 ∨ (Rect.block (s := S100352x1) S1024x1.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S1024x65.size a ≤ S100352x65.size a
  hwx15_0 : ∀ i : grid15.Coords, EltTy.bits .f32 = 32 ∨ (Rect.block (s := S100352x65) S1024x65.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x1.size a ≤ S100352x1.size a
  hwx15_1 : ∀ i : grid15.Coords, EltTy.bits .i32 = 32 ∨ (Rect.block (s := S100352x1) S1024x1.size (cc15_transform_1 i) (hinb15_1 i)).WholeWords (EltTy.packing .i32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S512x65.size a ≤ S512x65.size a
  hwx15_2 : ∀ i : grid15.Coords, EltTy.bits .f32 = 32 ∨ (Rect.block (s := S512x65) S512x65.size (cc15_transform_2 i) (hinb15_2 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S512x64.size a ≤ S512x64.size a
  hwx16_0 : ∀ i : grid16.Coords, EltTy.bits .f32 = 32 ∨ (Rect.block (s := S512x64) S512x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x128.size a ≤ S64x128.size a
  hwx16_1 : ∀ i : grid16.Coords, EltTy.bits .f32 = 32 ∨ (Rect.block (s := S64x128) S64x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S512x128.size a ≤ S512x128.size a
  hwx16_3 : ∀ i : grid16.Coords, EltTy.bits .f32 = 32 ∨ (Rect.block (s := S512x128) S512x128.size (cc16_transform_3 i) (hinb16_3 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S512x128.size a ≤ S512x128.size a
  hwx17_0 : ∀ i : grid17.Coords, EltTy.bits .f32 = 32 ∨ (Rect.block (s := S512x128) S512x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S128x3.size a ≤ S128x3.size a
  hwx17_1 : ∀ i : grid17.Coords, EltTy.bits .f32 = 32 ∨ (Rect.block (s := S128x3) S128x3.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x3.size a ≤ S1x3.size a
  hwx17_2 : ∀ i : grid17.Coords, EltTy.bits .f32 = 32 ∨ (Rect.block (s := S1x3) S1x3.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S512x3.size a ≤ S512x3.size a
  hwx17_3 : ∀ i : grid17.Coords, EltTy.bits .f32 = 32 ∨ (Rect.block (s := S512x3) S512x3.size (cc17_transform_3 i) (hinb17_3 i)).WholeWords (EltTy.packing .f32)

variable [Facts₀]

def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S1024x512_S1024x2_S512x2_0_0_1_1_n_n : DotDims S1024x512 S1024x2 S512x2 where
  lhsContracting := [0]
  rhsContracting := [0]
  lhsNonContracting := [1]
  rhsNonContracting := [1]
  lhsBatch := []
  rhsBatch := []
  wf := dot_S1024x512_S1024x2_S512x2_0_0_1_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf
def dot_S1024x512_S1024x65_S512x65_0_0_1_1_n_n : DotDims S1024x512 S1024x65 S512x65 where
  lhsContracting := [0]
  rhsContracting := [0]
  lhsNonContracting := [1]
  rhsNonContracting := [1]
  lhsBatch := []
  rhsBatch := []
  wf := dot_S1024x512_S1024x65_S512x65_0_0_1_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v17) S2000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v18) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v5) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v23) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S5000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v27) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v27) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v29) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v32) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v33) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v27) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v35) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v36) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v39) S2000x1.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v37) S2000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v38) S2000x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v40) S2000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v27) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v45) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v48) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v43) S5000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v49) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v49) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v51) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v54) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v55) S5000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v49) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v57) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v58) S5000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v61) S2000x1.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg4) S2000x1.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v59) S2000x64.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v60) S2000x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v62) S2000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v49) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v67) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v70) S1x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v65) S5000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v71) S5000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v96) S1024x2.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v92) S1024x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v97) S512x2.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v103) S512x1.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v92) S1024x1.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v104) S1024x1.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v111) S1024x65.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v92) S1024x1.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v112) S512x65.size cc15_transform_2 reads15_2 true true 1 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev idle15 : Fin 3 → grid15.Coords → Bool := fun | 0 => fun _ => false | 1 => fun _ => false | 2 => fun i => !(k15_cond2 i == 1#1) | ⟨_ + 3, h⟩ => absurd h (Nat.not_lt.2 (Nat.le_add_left _ _))

abbrev win16_0 : Pipeline.Window sig grid16 :=
  Pipeline.Window.ofSpec (Memref.whole main_v118) S512x64.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_arg12) S64x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v119) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v120) S512x128.size cc16_transform_3 reads16_3 true false 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v120) S512x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_arg14) S128x3.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v121) S1x3.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v122) S512x3.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

class Facts : Prop extends Facts₀ where

variable [Facts]
-- ==== ReferenceIdeal.lean ====
abbrev S100000x4 : Shape := ⟨2, ![100000, 4]⟩
abbrev S2x1000000 : Shape := ⟨2, ![2, 1000000]⟩
abbrev S100000 : Shape := ⟨1, ![100000]⟩
abbrev S1000000 : Shape := ⟨1, ![1000000]⟩
abbrev S1000000x1 : Shape := ⟨2, ![1000000, 1]⟩
abbrev S4x64 : Shape := ⟨2, ![4, 64]⟩
abbrev S64 : Shape := ⟨1, ![64]⟩
abbrev S3x64x64 : Shape := ⟨3, ![3, 64, 64]⟩
abbrev S3x64 : Shape := ⟨2, ![3, 64]⟩
abbrev S64x128 : Shape := ⟨2, ![64, 128]⟩
abbrev S128 : Shape := ⟨1, ![128]⟩
abbrev S128x3 : Shape := ⟨2, ![128, 3]⟩
abbrev S3 : Shape := ⟨1, ![3]⟩
abbrev S1x1000000 : Shape := ⟨2, ![1, 1000000]⟩
abbrev S100000x64 : Shape := ⟨2, ![100000, 64]⟩
abbrev S1x64 : Shape := ⟨2, ![1, 64]⟩
abbrev S1x64x64 : Shape := ⟨3, ![1, 64, 64]⟩
abbrev S64x64 : Shape := ⟨2, ![64, 64]⟩
abbrev S_ : Shape := ⟨0, ![]⟩
abbrev S1000000x64 : Shape := ⟨2, ![1000000, 64]⟩
abbrev S100000x1 : Shape := ⟨2, ![100000, 1]⟩
abbrev S512x1 : Shape := ⟨2, ![512, 1]⟩
abbrev S512x64 : Shape := ⟨2, ![512, 64]⟩
abbrev S512x128 : Shape := ⟨2, ![512, 128]⟩
abbrev S1x128 : Shape := ⟨2, ![1, 128]⟩
abbrev S512x3 : Shape := ⟨2, ![512, 3]⟩
abbrev S1x3 : Shape := ⟨2, ![1, 3]⟩

abbrev nBuf : Space → Nat
  | .hbm => 254
  | .vmem => 0
  | .smem => 0
  | _ => 0

abbrev hbmTy0_0 (i : Nat) : BufTy := match i % 128 with
  | 0 => ⟨S100000x4, .f32⟩
  | 1 => ⟨S2x1000000, .i32⟩
  | 2 => ⟨S100000, .i32⟩
  | 3 => ⟨S1000000, .f32⟩
  | 4 => ⟨S1000000x1, .f32⟩
  | 5 => ⟨S4x64, .f32⟩
  | 6 => ⟨S64, .f32⟩
  | 7 => ⟨S3x64x64, .f32⟩
  | 8 => ⟨S3x64, .f32⟩
  | 9 => ⟨S3x64x64, .f32⟩
  | 10 => ⟨S3x64x64, .f32⟩
  | 11 => ⟨S3x64, .f32⟩
  | 12 => ⟨S64x128, .f32⟩
  | 13 => ⟨S128, .f32⟩
  | 14 => ⟨S128x3, .f32⟩
  | 15 => ⟨S3, .f32⟩
  | 16 => ⟨S1x1000000, .i32⟩
  | 17 => ⟨S1000000, .i32⟩
  | 18 => ⟨S1x1000000, .i32⟩
  | 19 => ⟨S1000000, .i32⟩
  | 20 => ⟨S1000000x1, .f32⟩
  | 21 => ⟨S1000000x1, .f32⟩
  | 22 => ⟨S100000x64, .f32⟩
  | 23 => ⟨S1x64, .f32⟩
  | 24 => ⟨S100000x64, .f32⟩
  | 25 => ⟨S100000x64, .f32⟩
  | 26 => ⟨S1x64x64, .f32⟩
  | 27 => ⟨S64x64, .f32⟩
  | 28 => ⟨S100000x64, .f32⟩
  | 29 => ⟨S1x64, .f32⟩
  | 30 => ⟨S64, .f32⟩
  | 31 => ⟨S1x64, .f32⟩
  | 32 => ⟨S100000x64, .f32⟩
  | 33 => ⟨S100000x64, .f32⟩
  | 34 => ⟨S1x64x64, .f32⟩
  | 35 => ⟨S64x64, .f32⟩
  | 36 => ⟨S100000x64, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000x64, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000x64, .f32⟩
  | 55 => ⟨S1000000x64, .f32⟩
  | 56 => ⟨S1000000x64, .f32⟩
  | 57 => ⟨S1000000x64, .f32⟩
  | 58 => ⟨S_, .f32⟩
  | 59 => ⟨S100000x64, .f32⟩
  | 60 => ⟨S1000000x1, .i32⟩
  | 61 => ⟨S100000x64, .f32⟩
  | 62 => ⟨S1x64x64, .f32⟩
  | 63 => ⟨S64x64, .f32⟩
  | 64 => ⟨S100000x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x64x64, .f32⟩
  | 75 => ⟨S64x64, .f32⟩
  | 76 => ⟨S100000x64, .f32⟩
  | 77 => ⟨S1x64, .f32⟩
  | 78 => ⟨S64, .f32⟩
  | 79 => ⟨S1x64, .f32⟩
  | 80 => ⟨S100000x64, .f32⟩
  | 81 => ⟨S100000x64, .f32⟩
  | 82 => ⟨S1x64x64, .f32⟩
  | 83 => ⟨S64x64, .f32⟩
  | 84 => ⟨S100000x64, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x64, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000x64, .f32⟩
  | 103 => ⟨S1000000x64, .f32⟩
  | 104 => ⟨S1000000x64, .f32⟩
  | 105 => ⟨S1000000x64, .f32⟩
  | 106 => ⟨S_, .f32⟩
  | 107 => ⟨S100000x64, .f32⟩
  | 108 => ⟨S1000000x1, .i32⟩
  | 109 => ⟨S100000x64, .f32⟩
  | 110 => ⟨S1x64x64, .f32⟩
  | 111 => ⟨S64x64, .f32⟩
  | 112 => ⟨S100000x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S1x64, .f32⟩
  | 126 => ⟨S64, .f32⟩
  | 127 => ⟨S1x64, .f32⟩
  | _ => ⟨S100000x4, .f32⟩

abbrev hbmTy0_1 (i : Nat) : BufTy := match i % 128 with
  | 0 => ⟨S100000x64, .f32⟩
  | 1 => ⟨S100000x64, .f32⟩
  | 2 => ⟨S1x64x64, .f32⟩
  | 3 => ⟨S64x64, .f32⟩
  | 4 => ⟨S100000x64, .f32⟩
  | 5 => ⟨S_, .i32⟩
  | 6 => ⟨S1000000, .i32⟩
  | 7 => ⟨S1000000, .i1⟩
  | 8 => ⟨S_, .i32⟩
  | 9 => ⟨S1000000, .i32⟩
  | 10 => ⟨S1000000, .i32⟩
  | 11 => ⟨S1000000, .i32⟩
  | 12 => ⟨S1000000x1, .i32⟩
  | 13 => ⟨S1000000x64, .f32⟩
  | 14 => ⟨S_, .i32⟩
  | 15 => ⟨S1000000, .i32⟩
  | 16 => ⟨S1000000, .i1⟩
  | 17 => ⟨S_, .i32⟩
  | 18 => ⟨S1000000, .i32⟩
  | 19 => ⟨S1000000, .i32⟩
  | 20 => ⟨S1000000, .i32⟩
  | 21 => ⟨S1000000x1, .i32⟩
  | 22 => ⟨S1000000x64, .f32⟩
  | 23 => ⟨S1000000x64, .f32⟩
  | 24 => ⟨S1000000x64, .f32⟩
  | 25 => ⟨S1000000x64, .f32⟩
  | 26 => ⟨S_, .f32⟩
  | 27 => ⟨S100000x64, .f32⟩
  | 28 => ⟨S1000000x1, .i32⟩
  | 29 => ⟨S100000x64, .f32⟩
  | 30 => ⟨S1x64x64, .f32⟩
  | 31 => ⟨S64x64, .f32⟩
  | 32 => ⟨S100000x64, .f32⟩
  | 33 => ⟨S100000x64, .f32⟩
  | 34 => ⟨S1x64, .f32⟩
  | 35 => ⟨S64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S1000000x1, .f32⟩
  | 44 => ⟨S_, .f32⟩
  | 45 => ⟨S100000x1, .f32⟩
  | 46 => ⟨S1000000x1, .i32⟩
  | 47 => ⟨S100000x1, .f32⟩
  | 48 => ⟨S_, .f32⟩
  | 49 => ⟨S100000x1, .f32⟩
  | 50 => ⟨S1000000x1, .i32⟩
  | 51 => ⟨S100000x1, .f32⟩
  | 52 => ⟨S100000x1, .f32⟩
  | 53 => ⟨S_, .f32⟩
  | 54 => ⟨S100000x1, .f32⟩
  | 55 => ⟨S1000000x1, .i32⟩
  | 56 => ⟨S100000x1, .f32⟩
  | 57 => ⟨S_, .f32⟩
  | 58 => ⟨S100000x1, .f32⟩
  | 59 => ⟨S1000000x1, .i32⟩
  | 60 => ⟨S100000x1, .f32⟩
  | 61 => ⟨S100000x1, .f32⟩
  | 62 => ⟨S_, .f32⟩
  | 63 => ⟨S100000x1, .f32⟩
  | 64 => ⟨S100000x1, .i1⟩
  | 65 => ⟨S_, .f32⟩
  | 66 => ⟨S_, .f32⟩
  | 67 => ⟨S100000x1, .f32⟩
  | 68 => ⟨S100000x1, .f32⟩
  | 69 => ⟨S100000x1, .f32⟩
  | 70 => ⟨S_, .f32⟩
  | 71 => ⟨S512x1, .f32⟩
  | 72 => ⟨S100000x1, .i32⟩
  | 73 => ⟨S512x1, .f32⟩
  | 74 => ⟨S_, .f32⟩
  | 75 => ⟨S512x1, .f32⟩
  | 76 => ⟨S512x1, .i1⟩
  | 77 => ⟨S_, .f32⟩
  | 78 => ⟨S_, .f32⟩
  | 79 => ⟨S512x1, .f32⟩
  | 80 => ⟨S512x1, .f32⟩
  | 81 => ⟨S_, .f32⟩
  | 82 => ⟨S100000x1, .f32⟩
  | 83 => ⟨S_, .f32⟩
  | 84 => ⟨S512x1, .f32⟩
  | 85 => ⟨S100000x1, .i32⟩
  | 86 => ⟨S512x1, .f32⟩
  | 87 => ⟨S512x1, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x1, .f32⟩
  | 97 => ⟨S100000x1, .f32⟩
  | 98 => ⟨S100000x64, .f32⟩
  | 99 => ⟨S100000x64, .f32⟩
  | 100 => ⟨S_, .f32⟩
  | 101 => ⟨S512x64, .f32⟩
  | 102 => ⟨S100000x1, .i32⟩
  | 103 => ⟨S512x64, .f32⟩
  | 104 => ⟨S_, .f32⟩
  | 105 => ⟨S100000x1, .f32⟩
  | 106 => ⟨S_, .f32⟩
  | 107 => ⟨S512x1, .f32⟩
  | 108 => ⟨S100000x1, .i32⟩
  | 109 => ⟨S512x1, .f32⟩
  | 110 => ⟨S_, .f32⟩
  | 111 => ⟨S512x1, .f32⟩
  | 112 => ⟨S512x1, .f32⟩
  | 113 => ⟨S512x64, .f32⟩
  | 114 => ⟨S512x64, .f32⟩
  | 115 => ⟨S512x128, .f32⟩
  | 116 => ⟨S1x128, .f32⟩
  | 117 => ⟨S512x128, .f32⟩
  | 118 => ⟨S512x128, .f32⟩
  | 119 => ⟨S_, .f32⟩
  | 120 => ⟨S512x128, .f32⟩
  | 121 => ⟨S512x128, .f32⟩
  | 122 => ⟨S512x3, .f32⟩
  | 123 => ⟨S1x3, .f32⟩
  | 124 => ⟨S512x3, .f32⟩
  | 125 => ⟨S512x3, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_1 : Ref sig .tc := ⟨.hbm, 46, rfl⟩
abbrev main_v28 : Ref sig .tc := ⟨.hbm, 47, rfl⟩
abbrev main_v29 : Ref sig .tc := ⟨.hbm, 48, rfl⟩
abbrev main_c_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_cst : Ref sig .tc := ⟨.hbm, 71, rfl⟩
abbrev main_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_3 : Ref sig .tc := ⟨.hbm, 85, rfl⟩
abbrev main_v62 : Ref sig .tc := ⟨.hbm, 86, rfl⟩
abbrev main_v63 : Ref sig .tc := ⟨.hbm, 87, rfl⟩
abbrev main_c_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_5 : Ref sig .tc := ⟨.hbm, 94, rfl⟩
abbrev main_v69 : Ref sig .tc := ⟨.hbm, 95, rfl⟩
abbrev main_v70 : Ref sig .tc := ⟨.hbm, 96, rfl⟩
abbrev main_c_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_7 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_8 : Ref sig .tc := ⟨.hbm, 133, rfl⟩
abbrev main_v103 : Ref sig .tc := ⟨.hbm, 134, rfl⟩
abbrev main_v104 : Ref sig .tc := ⟨.hbm, 135, rfl⟩
abbrev main_c_9 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_10 : Ref sig .tc := ⟨.hbm, 142, rfl⟩
abbrev main_v110 : Ref sig .tc := ⟨.hbm, 143, rfl⟩
abbrev main_v111 : Ref sig .tc := ⟨.hbm, 144, rfl⟩
abbrev main_c_11 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_12 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_call2_cst : Ref sig .tc := ⟨.hbm, 167, rfl⟩
abbrev main_call2_v0 : Ref sig .tc := ⟨.hbm, 168, rfl⟩
abbrev main_v132 : Ref sig .tc := ⟨.hbm, 169, rfl⟩
abbrev main_cst_13 : Ref sig .tc := ⟨.hbm, 170, rfl⟩
abbrev main_v133 : Ref sig .tc := ⟨.hbm, 171, rfl⟩
abbrev main_cst_14 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_cst_15 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_16 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_17 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_18 : Ref sig .tc := ⟨.hbm, 190, rfl⟩
abbrev main_v148 : Ref sig .tc := ⟨.hbm, 191, rfl⟩
abbrev main_v149 : Ref sig .tc := ⟨.hbm, 192, rfl⟩
abbrev main_cst_19 : Ref sig .tc := ⟨.hbm, 193, rfl⟩
abbrev main_call3_v0 : Ref sig .tc := ⟨.hbm, 194, rfl⟩
abbrev main_call3_v1 : Ref sig .tc := ⟨.hbm, 195, rfl⟩
abbrev main_v150 : Ref sig .tc := ⟨.hbm, 196, rfl⟩
abbrev main_v151 : Ref sig .tc := ⟨.hbm, 197, rfl⟩
abbrev main_cst_20 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_21 : Ref sig .tc := ⟨.hbm, 202, rfl⟩
abbrev main_v155 : Ref sig .tc := ⟨.hbm, 203, rfl⟩
abbrev main_v156 : Ref sig .tc := ⟨.hbm, 204, rfl⟩
abbrev main_cst_22 : Ref sig .tc := ⟨.hbm, 205, rfl⟩
abbrev main_call4_v0 : Ref sig .tc := ⟨.hbm, 206, rfl⟩
abbrev main_call4_v1 : Ref sig .tc := ⟨.hbm, 207, rfl⟩
abbrev main_v157 : Ref sig .tc := ⟨.hbm, 208, rfl⟩
abbrev main_cst_23 : Ref sig .tc := ⟨.hbm, 209, rfl⟩
abbrev main_v158 : Ref sig .tc := ⟨.hbm, 210, rfl⟩
abbrev main_cst_24 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_25 : Ref sig .tc := ⟨.hbm, 216, rfl⟩
abbrev main_v163 : Ref sig .tc := ⟨.hbm, 217, rfl⟩
abbrev main_v164 : Ref sig .tc := ⟨.hbm, 218, rfl⟩
abbrev main_c_26 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_27 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_cst_28 : Ref sig .tc := ⟨.hbm, 232, rfl⟩
abbrev main_v176 : Ref sig .tc := ⟨.hbm, 233, rfl⟩
abbrev main_cst_29 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_30 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_call5_cst : Ref sig .tc := ⟨.hbm, 247, rfl⟩
abbrev main_call5_v0 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S1000000x1 : S_.BroadcastsInDim S1000000x1 (![] : Fin 0 → Fin S1000000x1.rank)
  bcast_S_S100000x1 : S_.BroadcastsInDim S100000x1 (![] : Fin 0 → Fin S100000x1.rank)
  bcast_S_S512x1 : S_.BroadcastsInDim S512x1 (![] : Fin 0 → Fin S512x1.rank)
  bcast_S100000_S100000x1_0 : S100000.BroadcastsInDim S100000x1 (![0] : Fin 1 → Fin S100000x1.rank)
  bcast_S_S100000 : S_.BroadcastsInDim S100000 (![] : Fin 0 → Fin S100000.rank)
  bcast_S100000x1_S100000x64_0_1 : S100000x1.BroadcastsInDim S100000x64 (![0, 1] : Fin 2 → Fin S100000x64.rank)
  bcast_S_S512x64 : S_.BroadcastsInDim S512x64 (![] : Fin 0 → Fin S512x64.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  dot_S100000x4_S4x64_S100000x64_1_0_0_1_n_n_wf : DotDims.WF S100000x4 S4x64 S100000x64 [1] [0] [0] [1] [] []
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  scatter_S512x1_S100000x1_S100000x1_1_0_0_1_wf : ScatterDims.WF S512x1 S100000x1 S100000x1 [1] [0] [0] 1
  gather_S512x1_S100000x1_S100000x1_1_0_n_n_0_1_11_wf : GatherDims.WF S512x1 S100000x1 S100000x1 [1] [0] [] [0] [] 1 ![1, 1]
  scatter_S512x64_S100000x1_S100000x64_1_0_0_1_wf : ScatterDims.WF S512x64 S100000x1 S100000x64 [1] [0] [0] 1
  dot_S512x64_S64x128_S512x128_1_0_0_1_n_n_wf : DotDims.WF S512x64 S64x128 S512x128 [1] [0] [0] [1] [] []
  dot_S512x128_S128x3_S512x3_1_0_0_1_n_n_wf : DotDims.WF S512x128 S128x3 S512x3 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def gather_S512x1_S100000x1_S100000x1_1_0_n_n_0_1_11 : GatherDims S512x1 S100000x1 S100000x1 where
  offsetDims := [1]
  collapsedSliceDims := [0]
  operandBatchingDims := []
  startIndicesBatchingDims := []
  startIndexMap := [0]
  indexVectorDim := 1
  sliceSizes := ![1, 1]
  wf := gather_S512x1_S100000x1_S100000x1_1_0_n_n_0_1_11_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x3_S512x3_1_0_0_1_n_n : DotDims S512x128 S128x3 S512x3 where
  lhsContracting := [1]
  rhsContracting := [0]
  lhsNonContracting := [0]
  rhsNonContracting := [1]
  lhsBatch := []
  rhsBatch := []
  wf := dot_S512x128_S128x3_S512x3_1_0_0_1_n_n_wf

class Facts : Prop extends Facts₀ where

variable [Facts]
-- ==== Proof.K.RegionsP.lean ====
import proofs.«408151_j68813966016636_2_alg».proof.Proof.Gen.Kernel.Launch
import Idealize.ShloMosaic.Lib.Pipeline.Frame
import Idealize.ShloMosaic.Lib.Pipeline.Regions

set_option maxRecDepth 2180

noncomputable section

namespace Cert.Kernel.GenP

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v5 (outs 2 main_v5 c)
abbrev V3 (c : Dev nD) : Valuation τ sig (Elt F) := StableHlo.after hostOps1 (V2 m outs c)
abbrev V4 (c : Dev nD) : Valuation τ sig (Elt F) := Function.update (V3 m outs c) main_v11 (outs 4 main_v11 c)
abbrev V5 (c : Dev nD) : Valuation τ sig (Elt F) := StableHlo.after hostOps2 (V4 m outs c)
abbrev V6 (c : Dev nD) : Valuation τ sig (Elt F) := Function.update (V5 m outs c) main_v14 (outs 6 main_v14 c)
abbrev V7 (c : Dev nD) : Valuation τ sig (Elt F) := StableHlo.after hostOps3 (V6 m outs c)
abbrev V8 (c : Dev nD) : Valuation τ sig (Elt F) := StableHlo.after hostOps3_1 (V7 m outs c)
abbrev V9 (c : Dev nD) : Valuation τ sig (Elt F) := StableHlo.after hostOps3_2 (V8 m outs c)
abbrev V10 (c : Dev nD) : Valuation τ sig (Elt F) := Function.update (V9 m outs c) main_v18 (outs 10 main_v18 c)
abbrev V11 (c : Dev nD) : Valuation τ sig (Elt F) := StableHlo.after hostOps4 (V10 m outs c)
abbrev V12 (c : Dev nD) : Valuation τ sig (Elt F) := Function.update (V11 m outs c) main_v27 (outs 12 main_v27 c)
abbrev V13 (c : Dev nD) : Valuation τ sig (Elt F) := StableHlo.after hostOps5 (V12 m outs c)
abbrev V14 (c : Dev nD) : Valuation τ sig (Elt F) := Function.update (V13 m outs c) main_v33 (outs 14 main_v33 c)
abbrev V15 (c : Dev nD) : Valuation τ sig (Elt F) := StableHlo.after hostOps6 (V14 m outs c)
abbrev V16 (c : Dev nD) : Valuation τ sig (Elt F) := Function.update (V15 m outs c) main_v36 (outs 16 main_v36 c)
abbrev V17 (c : Dev nD) : Valuation τ sig (Elt F) := StableHlo.after hostOps7 (V16 m outs c)
abbrev V18 (c : Dev nD) : Valuation τ sig (Elt F) := StableHlo.after hostOps7_1 (V17 m outs c)
abbrev V19 (c : Dev nD) : Valuation τ sig (Elt F) := StableHlo.after hostOps7_2 (V18 m outs c)
abbrev V20 (c : Dev nD) : Valuation τ sig (Elt F) := Function.update (V19 m outs c) main_v40 (outs 20 main_v40 c)
abbrev V21 (c : Dev nD) : Valuation τ sig (Elt F) := StableHlo.after hostOps8 (V20 m outs c)
abbrev V22 (c : Dev nD) : Valuation τ sig (Elt F) := Function.update (V21 m outs c) main_v49 (outs 22 main_v49 c)
abbrev V23 (c : Dev nD) : Valuation τ sig (Elt F) := StableHlo.after hostOps9 (V22 m outs c)
abbrev V24 (c : Dev nD) : Valuation τ sig (Elt F) := Function.update (V23 m outs c) main_v55 (outs 24 main_v55 c)
abbrev V25 (c : Dev nD) : Valuation τ sig (Elt F) := StableHlo.after hostOps10 (V24 m outs c)
abbrev V26 (c : Dev nD) : Valuation τ sig (Elt F) := Function.update (V25 m outs c) main_v58 (outs 26 main_v58 c)
abbrev V27 (c : Dev nD) : Valuation τ sig (Elt F) := StableHlo.after hostOps11 (V26 m outs c)
abbrev V28 (c : Dev nD) : Valuation τ sig (Elt F) := StableHlo.after hostOps11_1 (V27 m outs c)
abbrev V29 (c : Dev nD) : Valuation τ sig (Elt F) := StableHlo.after hostOps11_2 (V28 m outs c)
abbrev V30 (c : Dev nD) : Valuation τ sig (Elt F) := Function.update (V29 m outs c) main_v62 (outs 30 main_v62 c)
abbrev V31 (c : Dev nD) : Valuation τ sig (Elt F) := StableHlo.after hostOps12 (V30 m outs c)
abbrev V32 (c : Dev nD) : Valuation τ sig (Elt F) := Function.update (V31 m outs c) main_v71 (outs 32 main_v71 c)
abbrev V33 (c : Dev nD) : Valuation τ sig (Elt F) := StableHlo.after hostOps13 (V32 m outs c)
abbrev V34 (c : Dev nD) : Valuation τ sig (Elt F) := StableHlo.after hostOps13_1 (V33 m outs c)
abbrev V35 (c : Dev nD) : Valuation τ sig (Elt F) := StableHlo.after hostOps13_2 (V34 m outs c)
abbrev V36 (c : Dev nD) : Valuation τ sig (Elt F) := StableHlo.after hostOps13_3 (V35 m outs c)
abbrev V37 (c : Dev nD) : Valuation τ sig (Elt F) := StableHlo.after hostOps13_4 (V36 m outs c)
abbrev V38 (c : Dev nD) : Valuation τ sig (Elt F) := StableHlo.after hostOps13_5 (V37 m outs c)
abbrev V39 (c : Dev nD) : Valuation τ sig (Elt F) := StableHlo.after hostOps13_6 (V38 m outs c)
abbrev V40 (c : Dev nD) : Valuation τ sig (Elt F) := StableHlo.after hostOps13_7 (V39 m outs c)
abbrev V41 (c : Dev nD) : Valuation τ sig (Elt F) := StableHlo.after hostOps13_8 (V40 m outs c)
abbrev V42 (c : Dev nD) : Valuation τ sig (Elt F) := Function.update (V41 m outs c) main_v97 (outs 42 main_v97 c)
abbrev V43 (c : Dev nD) : Valuation τ sig (Elt F) := StableHlo.after hostOps14 (V42 m outs c)
abbrev V44 (c : Dev nD) : Valuation τ sig (Elt F) := StableHlo.after hostOps14_1 (V43 m outs c)
abbrev V45 (c : Dev nD) : Valuation τ sig (Elt F) := StableHlo.after hostOps14_2 (V44 m outs c)
abbrev V46 (c : Dev nD) : Valuation τ sig (Elt F) := Function.update (V45 m outs c) main_v104 (outs 46 main_v104 c)
abbrev V47 (c : Dev nD) : Valuation τ sig (Elt F) := StableHlo.after hostOps15 (V46 m outs c)
abbrev V48 (c : Dev nD) : Valuation τ sig (Elt F) := StableHlo.after hostOps15_1 (V47 m outs c)
abbrev V49 (c : Dev nD) : Valuation τ sig (Elt F) := StableHlo.after hostOps15_2 (V48 m outs c)
abbrev V50 (c : Dev nD) : Valuation τ sig (Elt F) := StableHlo.after hostOps15_3 (V49 m outs c)
abbrev V51 (c : Dev nD) : Valuation τ sig (Elt F) := StableHlo.after hostOps15_4 (V50 m outs c)
abbrev V52 (c : Dev nD) : Valuation τ sig (Elt F) := Function.update (V51 m outs c) main_v112 (outs 52 main_v112 c)
abbrev V53 (c : Dev nD) : Valuation τ sig (Elt F) := StableHlo.after hostOps16 (V52 m outs c)
abbrev V54 (c : Dev nD) : Valuation τ sig (Elt F) := Function.update (V53 m outs c) main_v120 (outs 54 main_v120 c)
abbrev V55 (c : Dev nD) : Valuation τ sig (Elt F) := StableHlo.after hostOps17 (V54 m outs c)
abbrev V56 (c : Dev nD) : Valuation τ sig (Elt F) := Function.update (V55 m outs c) main_v122 (outs 56 main_v122 c)

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor
abbrev hostOps2_W : List (Ref sig .tc) := [main_v12, main_v13]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_fresh : (hostOps3 : List (HloOp τ sig (Elt F))).Forall fun op => op.fresh = ∅ := by
  simp only [List.Forall]; repeat' constructor
abbrev hostOps3_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v15]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_1_fresh : (hostOps3_1 : List (HloOp τ sig (Elt F))).Forall fun op => op.fresh = ∅ := by
  simp only [List.Forall]; repeat' constructor
abbrev hostOps3_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_2_fresh : (hostOps3_2 : List (HloOp τ sig (Elt F))).Forall fun op => op.fresh = ∅ := by
  simp only [List.Forall]; repeat' constructor
abbrev hostOps3_2_W : List (Ref sig .tc) := [main_v17]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_fresh : (hostOps4 : List (HloOp τ sig (Elt F))).Forall fun op => op.fresh = ∅ := by
  simp only [List.Forall]; repeat' constructor
abbrev hostOps4_W : List (Ref sig .tc) := [main_cst, main_v19, main_v20, main_v21, main_v22, main_v23, main_v24, main_v25, main_v26]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_fresh : (hostOps5 : List (HloOp τ sig (Elt F))).Forall fun op => op.fresh = ∅ := by
  simp only [List.Forall]; repeat' constructor
abbrev hostOps5_W : List (Ref sig .tc) := [main_v28, main_v29, main_v30, main_v31, main_v32]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_fresh : (hostOps6 : List (HloOp τ sig (Elt F))).Forall fun op => op.fresh = ∅ := by
  simp only [List.Forall]; repeat' constructor
abbrev hostOps6_W : List (Ref sig .tc) := [main_v34, main_v35]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_fresh : (hostOps7 : List (HloOp τ sig (Elt F))).Forall fun op => op.fresh = ∅ := by
  simp only [List.Forall]; repeat' constructor
abbrev hostOps7_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_1_fresh : (hostOps7_1 : List (HloOp τ sig (Elt F))).Forall fun op => op.fresh = ∅ := by
  simp only [List.Forall]; repeat' constructor
abbrev hostOps7_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_2_fresh : (hostOps7_2 : List (HloOp τ sig (Elt F))).Forall fun op => op.fresh = ∅ := by
  simp only [List.Forall]; repeat' constructor
abbrev hostOps7_2_W : List (Ref sig .tc) := [main_v39]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_fresh : (hostOps8 : List (HloOp τ sig (Elt F))).Forall fun op => op.fresh = ∅ := by
  simp only [List.Forall]; repeat' constructor
abbrev hostOps8_W : List (Ref sig .tc) := [main_cst_0, main_v41, main_v42, main_v43, main_v44, main_v45, main_v46, main_v47, main_v48]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_fresh : (hostOps9 : List (HloOp τ sig (Elt F))).Forall fun op => op.fresh = ∅ := by
  simp only [List.Forall]; repeat' constructor
abbrev hostOps9_W : List (Ref sig .tc) := [main_v50, main_v51, main_v52, main_v53, main_v54]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_fresh : (hostOps10 : List (HloOp τ sig (Elt F))).Forall fun op => op.fresh = ∅ := by
  simp only [List.Forall]; repeat' constructor
abbrev hostOps10_W : List (Ref sig .tc) := [main_v56, main_v57]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_fresh : (hostOps11 : List (HloOp τ sig (Elt F))).Forall fun op => op.fresh = ∅ := by
  simp only [List.Forall]; repeat' constructor
abbrev hostOps11_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v59]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_1_fresh : (hostOps11_1 : List (HloOp τ sig (Elt F))).Forall fun op => op.fresh = ∅ := by
  simp only [List.Forall]; repeat' constructor
abbrev hostOps11_1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v60]
theorem hostOps11_1_writes : (hostOps11_1 : List (HloOp τ sig (Elt F))).Forall fun op => op.writes ⊆ (hostOps11_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_2_fresh : (hostOps11_2 : List (HloOp τ sig (Elt F))).Forall fun op => op.fresh = ∅ := by
  simp only [List.Forall]; repeat' constructor
abbrev hostOps11_2_W : List (Ref sig .tc) := [main_v61]
theorem hostOps11_2_writes : (hostOps11_2 : List (HloOp τ sig (Elt F))).Forall fun op => op.writes ⊆ (hostOps11_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps12_fresh : (hostOps12 : List (HloOp τ sig (Elt F))).Forall fun op => op.fresh = ∅ := by
  simp only [List.Forall]; repeat' constructor
abbrev hostOps12_W : List (Ref sig .tc) := [main_cst_1, main_v63, main_v64, main_v65, main_v66, main_v67, main_v68, main_v69, main_v70]
theorem hostOps12_writes : (hostOps12 : List (HloOp τ sig (Elt F))).Forall fun op => op.writes ⊆ (hostOps12_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_fresh : (hostOps13 : List (HloOp τ sig (Elt F))).Forall fun op => op.fresh = ∅ := by
  simp only [List.Forall]; repeat' constructor
abbrev hostOps13_W : List (Ref sig .tc) := [main_cst_2, main_v72, main_cst_3, main_v73, main_v74, main_v75, main_cst_4, main_v76, main_v77, main_v78, main_v79, main_cst_5, main_v80, main_v81, main_v82, main_cst_6, main_v83, main_v84, main_v85, main_v86, main_cst_7, main_v87, main_v88, main_cst_8]
theorem hostOps13_writes : (hostOps13 : List (HloOp τ sig (Elt F))).Forall fun op => op.writes ⊆ (hostOps13_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_1_fresh : (hostOps13_1 : List (HloOp τ sig (Elt F))).Forall fun op => op.fresh = ∅ := by
  simp only [List.Forall]; repeat' constructor
abbrev hostOps13_1_W : List (Ref sig .tc) := [main_call6_v0, main_call6_v1, main_v89]
theorem hostOps13_1_writes : (hostOps13_1 : List (HloOp τ sig (Elt F))).Forall fun op => op.writes ⊆ (hostOps13_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_2_fresh : (hostOps13_2 : List (HloOp τ sig (Elt F))).Forall fun op => op.fresh = ∅ := by
  simp only [List.Forall]; repeat' constructor
abbrev hostOps13_2_W : List (Ref sig .tc) := [main_v90, main_v91, main_c]
theorem hostOps13_2_writes : (hostOps13_2 : List (HloOp τ sig (Elt F))).Forall fun op => op.writes ⊆ (hostOps13_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_3_fresh : (hostOps13_3 : List (HloOp τ sig (Elt F))).Forall fun op => op.fresh = ∅ := by
  simp only [List.Forall]; repeat' constructor
abbrev hostOps13_3_W : List (Ref sig .tc) := [main_call7_v0, main_v92]
theorem hostOps13_3_writes : (hostOps13_3 : List (HloOp τ sig (Elt F))).Forall fun op => op.writes ⊆ (hostOps13_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_4_fresh : (hostOps13_4 : List (HloOp τ sig (Elt F))).Forall fun op => op.fresh = ∅ := by
  simp only [List.Forall]; repeat' constructor
abbrev hostOps13_4_W : List (Ref sig .tc) := [main_cst_9, main_v93, main_c_10]
theorem hostOps13_4_writes : (hostOps13_4 : List (HloOp τ sig (Elt F))).Forall fun op => op.writes ⊆ (hostOps13_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_5_fresh : (hostOps13_5 : List (HloOp τ sig (Elt F))).Forall fun op => op.fresh = ∅ := by
  simp only [List.Forall]; repeat' constructor
abbrev hostOps13_5_W : List (Ref sig .tc) := [main_call8_v0, main_v94]
theorem hostOps13_5_writes : (hostOps13_5 : List (HloOp τ sig (Elt F))).Forall fun op => op.writes ⊆ (hostOps13_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_6_fresh : (hostOps13_6 : List (HloOp τ sig (Elt F))).Forall fun op => op.fresh = ∅ := by
  simp only [List.Forall]; repeat' constructor
abbrev hostOps13_6_W : List (Ref sig .tc) := [main_c_11]
theorem hostOps13_6_writes : (hostOps13_6 : List (HloOp τ sig (Elt F))).Forall fun op => op.writes ⊆ (hostOps13_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_7_fresh : (hostOps13_7 : List (HloOp τ sig (Elt F))).Forall fun op => op.fresh = ∅ := by
  simp only [List.Forall]; repeat' constructor
abbrev hostOps13_7_W : List (Ref sig .tc) := [main_call9_v0, main_v95]
theorem hostOps13_7_writes : (hostOps13_7 : List (HloOp τ sig (Elt F))).Forall fun op => op.writes ⊆ (hostOps13_7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_8_fresh : (hostOps13_8 : List (HloOp τ sig (Elt F))).Forall fun op => op.fresh = ∅ := by
  simp only [List.Forall]; repeat' constructor
abbrev hostOps13_8_W : List (Ref sig .tc) := [main_v96]
theorem hostOps13_8_writes : (hostOps13_8 : List (HloOp τ sig (Elt F))).Forall fun op => op.writes ⊆ (hostOps13_8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_fresh : (hostOps14 : List (HloOp τ sig (Elt F))).Forall fun op => op.fresh = ∅ := by
  simp only [List.Forall]; repeat' constructor
abbrev hostOps14_W : List (Ref sig .tc) := [main_v98, main_v99, main_cst_12, main_v100, main_v101, main_cst_13]
theorem hostOps14_writes : (hostOps14 : List (HloOp τ sig (Elt F))).Forall fun op => op.writes ⊆ (hostOps14_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_1_fresh : (hostOps14_1 : List (HloOp τ sig (Elt F))).Forall fun op => op.fresh = ∅ := by
  simp only [List.Forall]; repeat' constructor
abbrev hostOps14_1_W : List (Ref sig .tc) := [main_call10_v0, main_call10_v1, main_v102]
theorem hostOps14_1_writes : (hostOps14_1 : List (HloOp τ sig (Elt F))).Forall fun op => op.writes ⊆ (hostOps14_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_2_fresh : (hostOps14_2 : List (HloOp τ sig (Elt F))).Forall fun op => op.fresh = ∅ := by
  simp only [List.Forall]; repeat' constructor
abbrev hostOps14_2_W : List (Ref sig .tc) := [main_v103]
theorem hostOps14_2_writes : (hostOps14_2 : List (HloOp τ sig (Elt F))).Forall fun op => op.writes ⊆ (hostOps14_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_fresh : (hostOps15 : List (HloOp τ sig (Elt F))).Forall fun op => op.fresh = ∅ := by
  simp only [List.Forall]; repeat' constructor
abbrev hostOps15_W : List (Ref sig .tc) := [main_v105, main_v106, main_v107, main_v108, main_c_14]
theorem hostOps15_writes : (hostOps15 : List (HloOp τ sig (Elt F))).Forall fun op => op.writes ⊆ (hostOps15_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_1_fresh : (hostOps15_1 : List (HloOp τ sig (Elt F))).Forall fun op => op.fresh = ∅ := by
  simp only [List.Forall]; repeat' constructor
abbrev hostOps15_1_W : List (Ref sig .tc) := [main_call11_v0, main_v109]
theorem hostOps15_1_writes : (hostOps15_1 : List (HloOp τ sig (Elt F))).Forall fun op => op.writes ⊆ (hostOps15_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_2_fresh : (hostOps15_2 : List (HloOp τ sig (Elt F))).Forall fun op => op.fresh = ∅ := by
  simp only [List.Forall]; repeat' constructor
abbrev hostOps15_2_W : List (Ref sig .tc) := [main_c_15]
theorem hostOps15_2_writes : (hostOps15_2 : List (HloOp τ sig (Elt F))).Forall fun op => op.writes ⊆ (hostOps15_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_3_fresh : (hostOps15_3 : List (HloOp τ sig (Elt F))).Forall fun op => op.fresh = ∅ := by
  simp only [List.Forall]; repeat' constructor
abbrev hostOps15_3_W : List (Ref sig .tc) := [main_call12_v0, main_v110]
theorem hostOps15_3_writes : (hostOps15_3 : List (HloOp τ sig (Elt F))).Forall fun op => op.writes ⊆ (hostOps15_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_4_fresh : (hostOps15_4 : List (HloOp τ sig (Elt F))).Forall fun op => op.fresh = ∅ := by
  simp only [List.Forall]; repeat' constructor
abbrev hostOps15_4_W : List (Ref sig .tc) := [main_v111]
theorem hostOps15_4_writes : (hostOps15_4 : List (HloOp τ sig (Elt F))).Forall fun op => op.writes ⊆ (hostOps15_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps16_fresh : (hostOps16 : List (HloOp τ sig (Elt F))).Forall fun op => op.fresh = ∅ := by
  simp only [List.Forall]; repeat' constructor
abbrev hostOps16_W : List (Ref sig .tc) := [main_v113, main_v114, main_cst_16, main_v115, main_v116, main_v117, main_v118, main_v119]
theorem hostOps16_writes : (hostOps16 : List (HloOp τ sig (Elt F))).Forall fun op => op.writes ⊆ (hostOps16_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps17_fresh : (hostOps17 : List (HloOp τ sig (Elt F))).Forall fun op => op.fresh = ∅ := by
  simp only [List.Forall]; repeat' constructor
abbrev hostOps17_W : List (Ref sig .tc) := [main_v121]
theorem hostOps17_writes : (hostOps17 : List (HloOp τ sig (Elt F))).Forall fun op => op.writes ⊆ (hostOps17_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v5] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v5)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v11] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v11)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v14] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v14)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ hostOps3_2_W) : V9 m outs c r = V8 m outs c r :=
  StableHlo.after_of_writes_sub hostOps3_2 _ hostOps3_2_writes h
theorem V10_of (c : Dev nD) (r : Ref sig .tc) (h : r ∉ ([main_v18] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v18)]
theorem V11_of (c : Dev nD) (r : Ref sig .tc) (h : r ∉ hostOps4_W) : V11 m outs c r = V10 m outs c r :=
  StableHlo.after_of_writes_sub hostOps4 _ hostOps4_writes h
theorem V12_of (c : Dev nD) (r : Ref sig .tc) (h : r ∉ ([main_v27] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v27)]
theorem V13_of (c : Dev nD) (r : Ref sig .tc) (h : r ∉ hostOps5_W) : V13 m outs c r = V12 m outs c r :=
  StableHlo.after_of_writes_sub hostOps5 _ hostOps5_writes h
theorem V14_of (c : Dev nD) (r : Ref sig .tc) (h : r ∉ ([main_v33] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v33)]
theorem V15_of (c : Dev nD) (r : Ref sig .tc) (h : r ∉ hostOps6_W) : V15 m outs c r = V14 m outs c r :=
  StableHlo.after_of_writes_sub hostOps6 _ hostOps6_writes h
theorem V16_of (c : Dev nD) (r : Ref sig .tc) (h : r ∉ ([main_v36] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v36)]
theorem V17_of (c : Dev nD) (r : Ref sig .tc) (h : r ∉ hostOps7_W) : V17 m outs c r = V16 m outs c r :=
  StableHlo.after_of_writes_sub hostOps7 _ hostOps7_writes h
theorem V18_of (c : Dev nD) (r : Ref sig .tc) (h : r ∉ hostOps7_1_W) : V18 m outs c r = V17 m outs c r :=
  StableHlo.after_of_writes_sub hostOps7_1 _ hostOps7_1_writes h
theorem V19_of (c : Dev nD) (r : Ref sig .tc) (h : r ∉ hostOps7_2_W) : V19 m outs c r = V18 m outs c r :=
  StableHlo.after_of_writes_sub hostOps7_2 _ hostOps7_2_writes h
theorem V20_of (c : Dev nD) (r : Ref sig .tc) (h : r ∉ ([main_v40] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v40)]
theorem V21_of (c : Dev nD) (r : Ref sig .tc) (h : r ∉ hostOps8_W) : V21 m outs c r = V20 m outs c r :=
  StableHlo.after_of_writes_sub hostOps8 _ hostOps8_writes h
theorem V22_of (c : Dev nD) (r : Ref sig .tc) (h : r ∉ ([main_v49] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v49)]
theorem V23_of (c : Dev nD) (r : Ref sig .tc) (h : r ∉ hostOps9_W) : V23 m outs c r = V22 m outs c r :=
  StableHlo.after_of_writes_sub hostOps9 _ hostOps9_writes h
theorem V24_of (c : Dev nD) (r : Ref sig .tc) (h : r ∉ ([main_v55] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v55)]
theorem V25_of (c : Dev nD) (r : Ref sig .tc) (h : r ∉ hostOps10_W) : V25 m outs c r = V24 m outs c r :=
  StableHlo.after_of_writes_sub hostOps10 _ hostOps10_writes h
theorem V26_of (c : Dev nD) (r : Ref sig .tc) (h : r ∉ ([main_v58] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v58)]
theorem V27_of (c : Dev nD) (r : Ref sig .tc) (h : r ∉ hostOps11_W) : V27 m outs c r = V26 m outs c r :=
  StableHlo.after_of_writes_sub hostOps11 _ hostOps11_writes h
theorem V28_of (c : Dev nD) (r : Ref sig .tc) (h : r ∉ hostOps11_1_W) : V28 m outs c r = V27 m outs c r :=
  StableHlo.after_of_writes_sub hostOps11_1 _ hostOps11_1_writes h
theorem V29_of (c : Dev nD) (r : Ref sig .tc) (h : r ∉ hostOps11_2_W) : V29 m outs c r = V28 m outs c r :=
  StableHlo.after_of_writes_sub hostOps11_2 _ hostOps11_2_writes h
theorem V30_of (c : Dev nD) (r : Ref sig .tc) (h : r ∉ ([main_v62] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v62)]
theorem V31_of (c : Dev nD) (r : Ref sig .tc) (h : r ∉ hostOps12_W) : V31 m outs c r = V30 m outs c r :=
  StableHlo.after_of_writes_sub hostOps12 _ hostOps12_writes h
theorem V32_of (c : Dev nD) (r : Ref sig .tc) (h : r ∉ ([main_v71] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v71)]
theorem V33_of (c : Dev nD) (r : Ref sig .tc) (h : r ∉ hostOps13_W) : V33 m outs c r = V32 m outs c r :=
  StableHlo.after_of_writes_sub hostOps13 _ hostOps13_writes h
theorem V34_of (c : Dev nD) (r : Ref sig .tc) (h : r ∉ hostOps13_1_W) : V34 m outs c r = V33 m outs c r :=
  StableHlo.after_of_writes_sub hostOps13_1 _ hostOps13_1_writes h
theorem V35_of (c : Dev nD) (r : Ref sig .tc) (h : r ∉ hostOps13_2_W) : V35 m outs c r = V34 m outs c r :=
  StableHlo.after_of_writes_sub hostOps13_2 _ hostOps13_2_writes h
theorem V36_of (c : Dev nD) (r : Ref sig .tc) (h : r ∉ hostOps13_3_W) : V36 m outs c r = V35 m outs c r :=
  StableHlo.after_of_writes_sub hostOps13_3 _ hostOps13_3_writes h
theorem V37_of (c : Dev nD) (r : Ref sig .tc) (h : r ∉ hostOps13_4_W) : V37 m outs c r = V36 m outs c r :=
  StableHlo.after_of_writes_sub hostOps13_4 _ hostOps13_4_writes h
theorem V38_of (c : Dev nD) (r : Ref sig .tc) (h : r ∉ hostOps13_5_W) : V38 m outs c r = V37 m outs c r :=
  StableHlo.after_of_writes_sub hostOps13_5 _ hostOps13_5_writes h
theorem V39_of (c : Dev nD) (r : Ref sig .tc) (h : r ∉ hostOps13_6_W) : V39 m outs c r = V38 m outs c r :=
  StableHlo.after_of_writes_sub hostOps13_6 _ hostOps13_6_writes h
theorem V40_of (c : Dev nD) (r : Ref sig .tc) (h : r ∉ hostOps13_7_W) : V40 m outs c r = V39 m outs c r :=
  StableHlo.after_of_writes_sub hostOps13_7 _ hostOps13_7_writes h
theorem V41_of (c : Dev nD) (r : Ref sig .tc) (h : r ∉ hostOps13_8_W) : V41 m outs c r = V40 m outs c r :=
  StableHlo.after_of_writes_sub hostOps13_8 _ hostOps13_8_writes h
theorem V42_of (c : Dev nD) (r : Ref sig .tc) (h : r ∉ ([main_v97] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v97)]
theorem V43_of (c : Dev nD) (r : Ref sig .tc) (h : r ∉ hostOps14_W) : V43 m outs c r = V42 m outs c r :=
  StableHlo.after_of_writes_sub hostOps14 _ hostOps14_writes h
theorem V44_of (c : Dev nD) (r : Ref sig .tc) (h : r ∉ hostOps14_1_W) : V44 m outs c r = V43 m outs c r :=
  StableHlo.after_of_writes_sub hostOps14_1 _ hostOps14_1_writes h
theorem V45_of (c : Dev nD) (r : Ref sig .tc) (h : r ∉ hostOps14_2_W) : V45 m outs c r = V44 m outs c r :=
  StableHlo.after_of_writes_sub hostOps14_2 _ hostOps14_2_writes h
theorem V46_of (c : Dev nD) (r : Ref sig .tc) (h : r ∉ ([main_v104] : List (Ref sig .tc))) : V46 m outs c r = V45 m outs c r := by
  simp only [V46, Function.update_of_ne (StableHlo.devRef_ne_of_ne (List.ne_of_not_mem_cons h) : (Proc.devRef .tc r : DevRef τ sig) ≠ Proc.devRef .tc main_v104)]
theorem V47_of (c : Dev nD) (r : Ref sig .tc) (h : r ∉ hostOps15_W) : V47 m outs c r = V46 m outs c r :=
  StableHlo.after_of_writes_sub hostOps15 _ hostOps15_writes h
theorem V48_of (c : Dev nD) (r : Ref sig .tc) (h : r ∉ hostOps15_1_W) : V48 m outs c r = V47 m outs c r :=
  StableHlo.after_of_writes_sub hostOps15_1 _ hostOps15_1_writes h
theorem V49_of (c : Dev nD) (r : Ref sig .tc) (h : r ∉ hostOps15_2_W) : V49 m outs c r = V48 m outs c r :=
  StableHlo.after_of_writes_sub hostOps15_2 _ hostOps15_2_writes h
theorem V50_of (c : Dev nD) (r : Ref sig .tc) (h : r ∉ hostOps15_3_W) : V50 m outs c r = V49 m outs c r :=
  StableHlo.after_of_writes_sub hostOps15_3 _ hostOps15_3_writes h
theorem V51_of (c : Dev nD) (r : Ref sig .tc) (h : r ∉ hostOps15_4_W) : V51 m outs c r = V50 m outs c r :=
  StableHlo.after_of_writes_sub hostOps15_4 _ hostOps15_4_writes h
theorem V52_of (c : Dev nD) (r : Ref sig .tc) (h : r ∉ ([main_v112] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v112)]
theorem V53_of (c : Dev nD) (r : Ref sig .tc) (h : r ∉ hostOps16_W) : V53 m outs c r = V52 m outs c r :=
  StableHlo.after_of_writes_sub hostOps16 _ hostOps16_writes h
theorem V54_of (c : Dev nD) (r : Ref sig .tc) (h : r ∉ ([main_v120] : List (Ref sig .tc))) : V54 m outs c r = V53 m outs c r := by
  simp only [V54, Function.update_of_ne (StableHlo.devRef_ne_of_ne (List.ne_of_not_mem_cons h) : (Proc.devRef .tc r : DevRef τ sig) ≠ Proc.devRef .tc main_v120)]
theorem V55_of (c : Dev nD) (r : Ref sig .tc) (h : r ∉ hostOps17_W) : V55 m outs c r = V54 m outs c r :=
  StableHlo.after_of_writes_sub hostOps17 _ hostOps17_writes h
theorem V56_of (c : Dev nD) (r : Ref sig .tc) (h : r ∉ ([main_v122] : List (Ref sig .tc))) : V56 m outs c r = V55 m outs c r := by
  simp only [V56, Function.update_of_ne (StableHlo.devRef_ne_of_ne (List.ne_of_not_mem_cons h) : (Proc.devRef .tc r : DevRef τ sig) ≠ Proc.devRef .tc main_v122)]

abbrev args : List (Ref sig .tc) := [main_arg0, main_arg1, main_arg2, main_arg3, main_arg4, main_arg5, main_arg6, main_arg7, main_arg8, main_arg9, main_arg10, main_arg11, main_arg12, main_arg13, main_arg14, main_arg15]

-- no host stretch writes an argument and no region may change one, so each is read unchanged through every valuation
theorem V56_arg (c : Dev nD) (r : Ref sig .tc) (h : r ∈ (args : List (Ref sig .tc))) : V56 m outs c r = m ((c : Thread nD τ).loc r) :=
  have n : ∀ {W : List (Ref sig .tc)}, (∀ a ∈ (args : List (Ref sig .tc)), a ∉ W) → r ∉ W := fun hW => hW r h
  (V56_of m outs c r (n (by decide))).trans <|
  (V55_of m outs c r (n (by decide))).trans <|
  (V54_of m outs c r (n (by decide))).trans <|
  (V53_of m outs c r (n (by decide))).trans <|
  (V52_of m outs c r (n (by decide))).trans <|
  (V51_of m outs c r (n (by decide))).trans <|
  (V50_of m outs c r (n (by decide))).trans <|
  (V49_of m outs c r (n (by decide))).trans <|
  (V48_of m outs c r (n (by decide))).trans <|
  (V47_of m outs c r (n (by decide))).trans <|
  (V46_of m outs c r (n (by decide))).trans <|
  (V45_of m outs c r (n (by decide))).trans <|
  (V44_of m outs c r (n (by decide))).trans <|
  (V43_of m outs c r (n (by decide))).trans <|
  (V42_of m outs c r (n (by decide))).trans <|
  (V41_of m outs c r (n (by decide))).trans <|
  (V40_of m outs c r (n (by decide))).trans <|
  (V39_of m outs c r (n (by decide))).trans <|
  (V38_of m outs c r (n (by decide))).trans <|
  (V37_of m outs c r (n (by decide))).trans <|
  (V36_of m outs c r (n (by decide))).trans <|
  (V35_of m outs c r (n (by decide))).trans <|
  (V34_of m outs c r (n (by decide))).trans <|
  (V33_of m outs c r (n (by decide))).trans <|
  (V32_of m outs c r (n (by decide))).trans <|
  (V31_of m outs c r (n (by decide))).trans <|
  (V30_of m outs c r (n (by decide))).trans <|
  (V29_of m outs c r (n (by decide))).trans <|
  (V28_of m outs c r (n (by decide))).trans <|
  (V27_of m outs c r (n (by decide))).trans <|
  (V26_of m outs c r (n (by decide))).trans <|
  (V25_of m outs c r (n (by decide))).trans <|
  (V24_of m outs c r (n (by decide))).trans <|
  (V23_of m outs c r (n (by decide))).trans <|
  (V22_of m outs c r (n (by decide))).trans <|
  (V21_of m outs c r (n (by decide))).trans <|
  (V20_of m outs c r (n (by decide))).trans <|
  (V19_of m outs c r (n (by decide))).trans <|
  (V18_of m outs c r (n (by decide))).trans <|
  (V17_of m outs c r (n (by decide))).trans <|
  (V16_of m outs c r (n (by decide))).trans <|
  (V15_of m outs c r (n (by decide))).trans <|
  (V14_of m outs c r (n (by decide))).trans <|
  (V13_of m outs c r (n (by decide))).trans <|
  (V12_of m outs c r (n (by decide))).trans <|
  (V11_of m outs c r (n (by decide))).trans <|
  (V10_of m outs c r (n (by decide))).trans <|
  (V9_of m outs c r (n (by decide))).trans <|
  (V8_of m outs c r (n (by decide))).trans <|
  (V7_of m outs c r (n (by decide))).trans <|
  (V6_of m outs c r (n (by decide))).trans <|
  (V5_of m outs c r (n (by decide))).trans <|
  (V4_of m outs c r (n (by decide))).trans <|
  (V3_of m outs c r (n (by decide))).trans <|
  (V2_of m outs c r (n (by decide))).trans <|
  (V1_of m c r (n (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

def hostSeg (ops : List (HloOp τ sig (Elt F))) (hsub : ops.Forall fun op => op.bufs ⊆ StableHlo.tcRefs τ sig) (hfresh : ops.Forall fun op => op.fresh = ∅)
    (V : Dev nD → Valuation τ sig (Elt F)) (Ek : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V Ek

def seg0 : HostSeg (Ix := Ix) (Name := ℕ) (U := U) (Lvl := Lvl) (pcfgs (F := F)) defs₀ 𝒱₀ L lv :=
  hostSeg 𝒱₀ L lv hostOps0 hostOps0_sub hostOps0_fresh (V0 m) (E 0)
def seg2 : HostSeg (Ix := Ix) (Name := ℕ) (U := U) (Lvl := Lvl) (pcfgs (F := F)) defs₀ 𝒱₀ L lv :=
  hostSeg 𝒱₀ L lv hostOps1 hostOps1_sub hostOps1_fresh (V2 m outs) (E 1)
def seg4 : HostSeg (Ix := Ix) (Name := ℕ) (U := U) (Lvl := Lvl) (pcfgs (F := F)) defs₀ 𝒱₀ L lv :=
  hostSeg 𝒱₀ L lv hostOps2 hostOps2_sub hostOps2_fresh (V4 m outs) (E 2)
def seg6 : HostSeg (Ix := Ix) (Name := ℕ) (U := U) (Lvl := Lvl) (pcfgs (F := F)) defs₀ 𝒱₀ L lv :=
  hostSeg 𝒱₀ L lv hostOps3 hostOps3_sub hostOps3_fresh (V6 m outs) (E 3)
def seg7 : HostSeg (Ix := Ix) (Name := ℕ) (U := U) (Lvl := Lvl) (pcfgs (F := F)) defs₀ 𝒱₀ L lv :=
  hostSeg 𝒱₀ L lv hostOps3_1 hostOps3_1_sub hostOps3_1_fresh (V7 m outs) (E 3)
def seg8 : HostSeg (Ix := Ix) (Name := ℕ) (U := U) (Lvl := Lvl) (pcfgs (F := F)) defs₀ 𝒱₀ L lv :=
  hostSeg 𝒱₀ L lv hostOps3_2 hostOps3_2_sub hostOps3_2_fresh (V8 m outs) (E 3)
def seg10 : HostSeg (Ix := Ix) (Name := ℕ) (U := U) (Lvl := Lvl) (pcfgs (F := F)) defs₀ 𝒱₀ L lv :=
  hostSeg 𝒱₀ L lv hostOps4 hostOps4_sub hostOps4_fresh (V10 m outs) (E 4)
def seg12 : HostSeg (Ix := Ix) (Name := ℕ) (U := U) (Lvl := Lvl) (pcfgs (F := F)) defs₀ 𝒱₀ L lv :=
  hostSeg 𝒱₀ L lv hostOps5 hostOps5_sub hostOps5_fresh (V12 m outs) (E 5)
def seg14 : HostSeg (Ix := Ix) (Name := ℕ) (U := U) (Lvl := Lvl) (pcfgs (F := F)) defs₀ 𝒱₀ L lv :=
  hostSeg 𝒱₀ L lv hostOps6 hostOps6_sub hostOps6_fresh (V14 m outs) (E 6)
def seg16 : HostSeg (Ix := Ix) (Name := ℕ) (U := U) (Lvl := Lvl) (pcfgs (F := F)) defs₀ 𝒱₀ L lv :=
  hostSeg 𝒱₀ L lv hostOps7 hostOps7_sub hostOps7_fresh (V16 m outs) (E 7)
def seg17 : HostSeg (Ix := Ix) (Name := ℕ) (U := U) (Lvl := Lvl) (pcfgs (F := F)) defs₀ 𝒱₀ L lv :=
  hostSeg 𝒱₀ L lv hostOps7_1 hostOps7_1_sub hostOps7_1_fresh (V17 m outs) (E 7)
def seg18 : HostSeg (Ix := Ix) (Name := ℕ) (U := U) (Lvl := Lvl) (pcfgs (F := F)) defs₀ 𝒱₀ L lv :=
  hostSeg 𝒱₀ L lv hostOps7_2 hostOps7_2_sub hostOps7_2_fresh (V18 m outs) (E 7)
def seg20 : HostSeg (Ix := Ix) (Name := ℕ) (U := U) (Lvl := Lvl) (pcfgs (F := F)) defs₀ 𝒱₀ L lv :=
  hostSeg 𝒱₀ L lv hostOps8 hostOps8_sub hostOps8_fresh (V20 m outs) (E 8)
def seg22 : HostSeg (Ix := Ix) (Name := ℕ) (U := U) (Lvl := Lvl) (pcfgs (F := F)) defs₀ 𝒱₀ L lv :=
  hostSeg 𝒱₀ L lv hostOps9 hostOps9_sub hostOps9_fresh (V22 m outs) (E 9)
def seg24 : HostSeg (Ix := Ix) (Name := ℕ) (U := U) (Lvl := Lvl) (pcfgs (F := F)) defs₀ 𝒱₀ L lv :=
  hostSeg 𝒱₀ L lv hostOps10 hostOps10_sub hostOps10_fresh (V24 m outs) (E 10)
def seg26 : HostSeg (Ix := Ix) (Name := ℕ) (U := U) (Lvl := Lvl) (pcfgs (F := F)) defs₀ 𝒱₀ L lv :=
  hostSeg 𝒱₀ L lv hostOps11 hostOps11_sub hostOps11_fresh (V26 m outs) (E 11)
def seg27 : HostSeg (Ix := Ix) (Name := ℕ) (U := U) (Lvl := Lvl) (pcfgs (F := F)) defs₀ 𝒱₀ L lv :=
  hostSeg 𝒱₀ L lv hostOps11_1 hostOps11_1_sub hostOps11_1_fresh (V27 m outs) (E 11)
def seg28 : HostSeg (Ix := Ix) (Name := ℕ) (U := U) (Lvl := Lvl) (pcfgs (F := F)) defs₀ 𝒱₀ L lv :=
  hostSeg 𝒱₀ L lv hostOps11_2 hostOps11_2_sub hostOps11_2_fresh (V28 m outs) (E 11)
def seg30 : HostSeg (Ix := Ix) (Name := ℕ) (U := U) (Lvl := Lvl) (pcfgs (F := F)) defs₀ 𝒱₀ L lv :=
  hostSeg 𝒱₀ L lv hostOps12 hostOps12_sub hostOps12_fresh (V30 m outs) (E 12)
def seg32 : HostSeg (Ix := Ix) (Name := ℕ) (U := U) (Lvl := Lvl) (pcfgs (F := F)) defs₀ 𝒱₀ L lv :=
  hostSeg 𝒱₀ L lv hostOps13 hostOps13_sub hostOps13_fresh (V32 m outs) (E 13)
def seg33 : HostSeg (Ix := Ix) (Name := ℕ) (U := U) (Lvl := Lvl) (pcfgs (F := F)) defs₀ 𝒱₀ L lv :=
  hostSeg 𝒱₀ L lv hostOps13_1 hostOps13_1_sub hostOps13_1_fresh (V33 m outs) (E 13)
def seg34 : HostSeg (Ix := Ix) (Name := ℕ) (U := U) (Lvl := Lvl) (pcfgs (F := F)) defs₀ 𝒱₀ L lv :=
  hostSeg 𝒱₀ L lv hostOps13_2 hostOps13_2_sub hostOps13_2_fresh (V34 m outs) (E 13)
def seg35 : HostSeg (Ix := Ix) (Name := ℕ) (U := U) (Lvl := Lvl) (pcfgs (F := F)) defs₀ 𝒱₀ L lv :=
  hostSeg 𝒱₀ L lv hostOps13_3 hostOps13_3_sub hostOps13_3_fresh (V35 m outs) (E 13)
def seg36 : HostSeg (Ix := Ix) (Name := ℕ) (U := U) (Lvl := Lvl) (pcfgs (F := F)) defs₀ 𝒱₀ L lv :=
  hostSeg 𝒱₀ L lv hostOps13_4 hostOps13_4_sub hostOps13_4_fresh (V36 m outs) (E 13)
def seg37 : HostSeg (Ix := Ix) (Name := ℕ) (U := U) (Lvl := Lvl) (pcfgs (F := F)) defs₀ 𝒱₀ L lv :=
  hostSeg 𝒱₀ L lv hostOps13_5 hostOps13_5_sub hostOps13_5_fresh (V37 m outs) (E 13)
def seg38 : HostSeg (Ix := Ix) (Name := ℕ) (U := U) (Lvl := Lvl) (pcfgs (F := F)) defs₀ 𝒱₀ L lv :=
  hostSeg 𝒱₀ L lv hostOps13_6 hostOps13_6_sub hostOps13_6_fresh (V38 m outs) (E 13)
def seg39 : HostSeg (Ix := Ix) (Name := ℕ) (U := U) (Lvl := Lvl) (pcfgs (F := F)) defs₀ 𝒱₀ L lv :=
  hostSeg 𝒱₀ L lv hostOps13_7 hostOps13_7_sub hostOps13_7_fresh (V39 m outs) (E 13)
def seg40 : HostSeg (Ix := Ix) (Name := ℕ) (U := U) (Lvl := Lvl) (pcfgs (F := F)) defs₀ 𝒱₀ L lv :=
  hostSeg 𝒱₀ L lv hostOps13_8 hostOps13_8_sub hostOps13_8_fresh (V40 m outs) (E 13)
def seg42 : HostSeg (Ix := Ix) (Name := ℕ) (U := U) (Lvl := Lvl) (pcfgs (F := F)) defs₀ 𝒱₀ L lv :=
  hostSeg 𝒱₀ L lv hostOps14 hostOps14_sub hostOps14_fresh (V42 m outs) (E 14)
def seg43 : HostSeg (Ix := Ix) (Name := ℕ) (U := U) (Lvl := Lvl) (pcfgs (F := F)) defs₀ 𝒱₀ L lv :=
  hostSeg 𝒱₀ L lv hostOps14_1 hostOps14_1_sub hostOps14_1_fresh (V43 m outs) (E 14)
def seg44 : HostSeg (Ix := Ix) (Name := ℕ) (U := U) (Lvl := Lvl) (pcfgs (F := F)) defs₀ 𝒱₀ L lv :=
  hostSeg 𝒱₀ L lv hostOps14_2 hostOps14_2_sub hostOps14_2_fresh (V44 m outs) (E 14)
def seg46 : HostSeg (Ix := Ix) (Name := ℕ) (U := U) (Lvl := Lvl) (pcfgs (F := F)) defs₀ 𝒱₀ L lv :=
  hostSeg 𝒱₀ L lv hostOps15 hostOps15_sub hostOps15_fresh (V46 m outs) (E 15)
def seg47 : HostSeg (Ix := Ix) (Name := ℕ) (U := U) (Lvl := Lvl) (pcfgs (F := F)) defs₀ 𝒱₀ L lv :=
  hostSeg 𝒱₀ L lv hostOps15_1 hostOps15_1_sub hostOps15_1_fresh (V47 m outs) (E 15)
def seg48 : HostSeg (Ix := Ix) (Name := ℕ) (U := U) (Lvl := Lvl) (pcfgs (F := F)) defs₀ 𝒱₀ L lv :=
  hostSeg 𝒱₀ L lv hostOps15_2 hostOps15_2_sub hostOps15_2_fresh (V48 m outs) (E 15)
def seg49 : HostSeg (Ix := Ix) (Name := ℕ) (U := U) (Lvl := Lvl) (pcfgs (F := F)) defs₀ 𝒱₀ L lv :=
  hostSeg 𝒱₀ L lv hostOps15_3 hostOps15_3_sub hostOps15_3_fresh (V49 m outs) (E 15)
def seg50 : HostSeg (Ix := Ix) (Name := ℕ) (U := U) (Lvl := Lvl) (pcfgs (F := F)) defs₀ 𝒱₀ L lv :=
  hostSeg 𝒱₀ L lv hostOps15_4 hostOps15_4_sub hostOps15_4_fresh (V50 m outs) (E 15)
def seg52 : HostSeg (Ix := Ix) (Name := ℕ) (U := U) (Lvl := Lvl) (pcfgs (F := F)) defs₀ 𝒱₀ L lv :=
  hostSeg 𝒱₀ L lv hostOps16 hostOps16_sub hostOps16_fresh (V52 m outs) (E 16)
def seg54 : HostSeg (Ix := Ix) (Name := ℕ) (U := U) (Lvl := Lvl) (pcfgs (F := F)) defs₀ 𝒱₀ L lv :=
  hostSeg 𝒱₀ L lv hostOps17 hostOps17_sub hostOps17_fresh (V54 m outs) (E 17)

end Segs

section

variable {Ix : Type} [DecidableEq Ix] {U : Type} [URA U] {Lvl : Type} [Preorder Lvl]

abbrev adm : (p : Fin 18) → (pcfgs (F := F) p).Adm := fun p => (cfgs p).toPCfg_adm

abbrev segs (𝒱₀ : Variants) (L : GSem nD τ sig → Finset Ix) (lv : GSem nD τ sig → Ix → Lvl) (E : Fin 19 → Dev nD → sProp (MT nD τ sig Ix (Elt F) ℕ U Lvl)) (ι : Ix)
    (pdats : (p : Fin 18) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .host (seg7 m outs 𝒱₀ L lv E), .host (seg8 m outs 𝒱₀ L lv E), .region R3, .host (seg10 m outs 𝒱₀ L lv E), .region R4, .host (seg12 m outs 𝒱₀ L lv E), .region R5, .host (seg14 m outs 𝒱₀ L lv E), .region R6, .host (seg16 m outs 𝒱₀ L lv E), .host (seg17 m outs 𝒱₀ L lv E), .host (seg18 m outs 𝒱₀ L lv E), .region R7, .host (seg20 m outs 𝒱₀ L lv E), .region R8, .host (seg22 m outs 𝒱₀ L lv E), .region R9, .host (seg24 m outs 𝒱₀ L lv E), .region R10, .host (seg26 m outs 𝒱₀ L lv E), .host (seg27 m outs 𝒱₀ L lv E), .host (seg28 m outs 𝒱₀ L lv E), .region R11, .host (seg30 m outs 𝒱₀ L lv E), .region R12, .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E), .host (seg40 m outs 𝒱₀ L lv E), .region R13, .host (seg42 m outs 𝒱₀ L lv E), .host (seg43 m outs 𝒱₀ L lv E), .host (seg44 m outs 𝒱₀ L lv E), .region R14, .host (seg46 m outs 𝒱₀ L lv E), .host (seg47 m outs 𝒱₀ L lv E), .host (seg48 m outs 𝒱₀ L lv E), .host (seg49 m outs 𝒱₀ L lv E), .host (seg50 m outs 𝒱₀ L lv E), .region R15, .host (seg52 m outs 𝒱₀ L lv E), .region R16, .host (seg54 m outs 𝒱₀ L lv E), .region R17]

end

end Cert.Kernel.GenP

end
-- ==== Proof.K.Reg0.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0 (x0 : Vec F S5000x4 .f32) (x1 : Vec F S4x64 .f32) (x2 : Vec F S1x64 .f32) : Vec F S5000x64 .f32 :=
  View.canon [⟨r0_3, k0_pay1 (View.ld x0 r0_0) (View.ld x1 r0_1) (View.ld x2 r0_2)⟩]

theorem cover0 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
theorem sound_kernel0 (c : Dev nD) (E : Set ℕ) (i : grid0.Coords)
    (arg1 : Memref sig .tc .vmem S5000x4 .f32) (harg1 : arg1.IsWhole) (arg2 : Memref sig .tc .vmem S4x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x4 .f32) (x1 : Vec F S4x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem PhiIn0 (c : Dev nD) : Pipeline.ΦA spec0 c ⊢ (dat0 V c).Φ 0 := .rfl
theorem PhiOut0 (c : Dev nD) : (dat0 V c).Φ (Fin.last _) ⊢ Pipeline.ΦA spec0 c := .rfl
theorem owed0 (c : Dev nD) (t) : (dat0 V c).owed t = 0 := rfl
theorem q0 (c : Dev nD) (w) : (dat0 V c).q w = fullShare := rfl

end Cert.Kernel.Hand
-- ==== Proof.K.Reg2.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0

def out2 (x0 : Vec F S5000x64 .f32) (x1 : Vec F S64x64 .f32) : Vec F S5000x64 .f32 :=
  View.canon [⟨r2_0, k2_pay1 (View.ld x0 r2_0) (View.ld x1 r2_1)⟩]

theorem cover2 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

theorem PhiIn2 (c : Dev nD) : Pipeline.ΦA spec2 c ⊢ (dat2 V c).Φ 0 := by
  dsimp only [dat2]; exact .rfl

theorem PhiOut2 (c : Dev nD) : (dat2 V c).Φ (Fin.last _) ⊢ Pipeline.ΦA spec2 c := by
  dsimp only [dat2]; exact .rfl

theorem owed2 (c : Dev nD) (t) : (dat2 V c).owed t = 0 := by dsimp only [dat2]

theorem q2 (c : Dev nD) (w) : (dat2 V c).q w = fullShare := by dsimp only [dat2]

end Cert.Kernel.Hand
-- ==== Proof.K.Reg3.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2000x1 := Rect.unit (s := S2000x1) ![0, 0] S2000x1.size inb_S2000x1_S2000x1_0_0
abbrev r3_b : Rect S2000x64 := Rect.unit (s := S2000x64) ![0, 0] S2000x64.size inb_S2000x64_S2000x64_0_0

def out3 (x0 : Vec F S2000x1 .f32) (x1 : Vec F S2000x1 .f32) (x2 : Vec F S2000x64 .f32) (x3 : Vec F S2000x64 .f32) : Vec F S2000x64 .f32 :=
  View.canon [⟨r3_b, k3_pay1 (View.ld x0 r3_a) (View.ld x1 r3_a) (View.ld x2 r3_b) (View.ld x3 r3_b)⟩]

theorem cover3 (p0 : Vec F S2000x64 .f32) (y : S2000x64.Idx) :
    ∃ pc ∈ ([⟨r3_b, p0⟩] : List (View.Piece (Elt F) S2000x64 .f32)), y ∈ pc.1.set :=
  View.cover_of_tiled [⟨r3_b, p0⟩] S2000x64.size (by rfl) y

set_option maxHeartbeats 1000000 in
theorem sound_kernel3 (c : Dev nD) (E : Set ℕ) (i : grid3.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__edge_combine_kernel i arg1 harg1 arg2 harg2 arg3 harg3 arg4 harg4 arg5 harg5) K := by
  simp only [cc3__edge_combine_kernel_eq_skeleton]; unfold cc3__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem PhiIn3 (c : Dev nD) : Pipeline.ΦA spec3 c ⊢ (dat3 V c).Φ 0 := by dsimp only [dat3]; exact .rfl
theorem PhiOut3 (c : Dev nD) : (dat3 V c).Φ (Fin.last _) ⊢ Pipeline.ΦA spec3 c := by dsimp only [dat3]; exact .rfl
theorem owed3 (c : Dev nD) (t) : (dat3 V c).owed t = 0 := by dsimp only [dat3]
theorem q3 (c : Dev nD) (w) : (dat3 V c).q w = fullShare := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.K.Reg4.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_S5000x64 : Rect S5000x64 := Rect.unit (s := S5000x64) ![0, 0] S5000x64.size inb_S5000x64_S5000x64_0_0
abbrev r4_S64x64 : Rect S64x64 := Rect.unit (s := S64x64) ![0, 0] S64x64.size inb_S64x64_S64x64_0_0
abbrev r4_S1x64 : Rect S1x64 := Rect.unit (s := S1x64) ![0, 0] S1x64.size inb_S1x64_S1x64_0_0

def out4 (x0 : Vec F S5000x64 .f32) (x1 : Vec F S64x64 .f32) (x2 : Vec F S1x64 .f32) (x3 : Vec F S5000x64 .f32) : Vec F S5000x64 .f32 :=
  View.canon [⟨r4_S5000x64, k4_pay1 (View.ld x0 r4_S5000x64) (View.ld x1 r4_S64x64) (View.ld x2 r4_S1x64) (View.ld x3 r4_S5000x64)⟩]

theorem cover4 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 1000000 in
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4_kernel i arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem PhiIn4 (c : Dev nD) : Pipeline.ΦA spec4 c ⊢ (dat4 V c).Φ 0 := by dsimp only [dat4]; exact .rfl
theorem PhiOut4 (c : Dev nD) : (dat4 V c).Φ (Fin.last _) ⊢ Pipeline.ΦA spec4 c := by dsimp only [dat4]; exact .rfl
theorem owed4 (c : Dev nD) (t) : (dat4 V c).owed t = 0 := by dsimp only [dat4]
theorem q4 (c : Dev nD) (w) : (dat4 V c).q w = fullShare := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.Kernel.Hand
-- ==== Proof.K.Reg6.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0

def out6 (x0 : Vec F S5000x64 .f32) (x1 : Vec F S64x64 .f32) : Vec F S5000x64 .f32 :=
  View.canon [⟨r6_0, k6_pay1 (View.ld x0 r6_0) (View.ld x1 r6_1)⟩]

theorem cover6 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

set_option maxHeartbeats 1000000 in
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6_kernel i arg1 harg1 arg2 harg2 arg3 harg3) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

theorem PhiIn6 (c : Dev nD) : Pipeline.ΦA spec6 c ⊢ (dat6 V c).Φ 0 := by
  dsimp only [dat6]; exact .rfl

theorem PhiOut6 (c : Dev nD) : (dat6 V c).Φ (Fin.last _) ⊢ Pipeline.ΦA spec6 c := by
  dsimp only [dat6]; exact .rfl

theorem owed6 (c : Dev nD) (t) : (dat6 V c).owed t = 0 := by dsimp only [dat6]

theorem q6 (c : Dev nD) (w) : (dat6 V c).q w = fullShare := by dsimp only [dat6]

end Cert.Kernel.Hand
-- ==== Proof.K.Reg7.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_a : Rect S2000x1 := Rect.unit (s := S2000x1) ![0, 0] S2000x1.size inb_S2000x1_S2000x1_0_0
abbrev r7_b : Rect S2000x64 := Rect.unit (s := S2000x64) ![0, 0] S2000x64.size inb_S2000x64_S2000x64_0_0

def out7 (x0 : Vec F S2000x1 .f32) (x1 : Vec F S2000x1 .f32) (x2 : Vec F S2000x64 .f32) (x3 : Vec F S2000x64 .f32) : Vec F S2000x64 .f32 :=
  View.canon [⟨r7_b, k7_pay1 (View.ld x0 r7_a) (View.ld x1 r7_a) (View.ld x2 r7_b) (View.ld x3 r7_b)⟩]

theorem cover7 (p0 : Vec F S2000x64 .f32) (y : S2000x64.Idx) :
    ∃ pc ∈ ([⟨r7_b, p0⟩] : List (View.Piece (Elt F) S2000x64 .f32)), y ∈ pc.1.set :=
  View.cover_of_tiled [⟨r7_b, p0⟩] S2000x64.size (by rfl) y

set_option maxHeartbeats 1000000 in
theorem sound_kernel7 (c : Dev nD) (E : Set ℕ) (i : grid7.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7 x0 x1 x2 x3)) -∗ K ⟨⟩))
      ⊢ wp frame (wpE (defs₀ (F := F)) Variants.none c none) E (cc7__edge_combine_kernel i arg1 harg1 arg2 harg2 arg3 harg3 arg4 harg4 arg5 harg5) K := by
  simp only [cc7__edge_combine_kernel_eq_skeleton]; unfold cc7__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7 (iblk7 V c 0 t) (iblk7 V c 1 t) (iblk7 V c 2 t) (iblk7 V c 3 t) := by dsimp only [dat7]

theorem PhiIn7 (c : Dev nD) : Pipeline.ΦA spec7 c ⊢ (dat7 V c).Φ 0 := by dsimp only [dat7]; exact .rfl
theorem PhiOut7 (c : Dev nD) : (dat7 V c).Φ (Fin.last _) ⊢ Pipeline.ΦA spec7 c := by dsimp only [dat7]; exact .rfl
theorem owed7 (c : Dev nD) (t) : (dat7 V c).owed t = 0 := by dsimp only [dat7]
theorem q7 (c : Dev nD) (w) : (dat7 V c).q w = fullShare := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.Kernel.Hand
-- ==== Proof.K.Reg8.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_S5000x64 : Rect S5000x64 := Rect.unit (s := S5000x64) ![0, 0] S5000x64.size inb_S5000x64_S5000x64_0_0
abbrev r8_S64x64 : Rect S64x64 := Rect.unit (s := S64x64) ![0, 0] S64x64.size inb_S64x64_S64x64_0_0
abbrev r8_S1x64 : Rect S1x64 := Rect.unit (s := S1x64) ![0, 0] S1x64.size inb_S1x64_S1x64_0_0

def out8 (x0 : Vec F S5000x64 .f32) (x1 : Vec F S64x64 .f32) (x2 : Vec F S1x64 .f32) (x3 : Vec F S5000x64 .f32) : Vec F S5000x64 .f32 :=
  View.canon [⟨r8_S5000x64, k8_pay1 (View.ld x0 r8_S5000x64) (View.ld x1 r8_S64x64) (View.ld x2 r8_S1x64) (View.ld x3 r8_S5000x64)⟩]

theorem cover8 (p0 : Vec F S5000x64 .f32) (y : S5000x64.Idx) :
    ∃ pc ∈ ([⟨r8_S5000x64, p0⟩] : List (View.Piece (Elt F) S5000x64 .f32)), y ∈ pc.1.set :=
  View.cover_of_tiled [⟨r8_S5000x64, p0⟩] S5000x64.size (by rfl) y

set_option maxHeartbeats 1000000 in
theorem sound_kernel8 (c : Dev nD) (E : Set ℕ) (i : grid8.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8 x0 x1 x2 x3)) -∗ K ⟨⟩))
      ⊢ wp frame (wpE (defs₀ (F := F)) Variants.none c none) E (cc8_kernel i arg1 harg1 arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8 (iblk8 V c 0 t) (iblk8 V c 1 t) (iblk8 V c 2 t) (iblk8 V c 3 t) := by dsimp only [dat8]

theorem PhiIn8 (c : Dev nD) : Pipeline.ΦA spec8 c ⊢ (dat8 V c).Φ 0 := by dsimp only [dat8]; exact .rfl
theorem PhiOut8 (c : Dev nD) : (dat8 V c).Φ (Fin.last _) ⊢ Pipeline.ΦA spec8 c := by dsimp only [dat8]; exact .rfl
theorem owed8 (c : Dev nD) (t) : (dat8 V c).owed t = 0 := by dsimp only [dat8]
theorem q8 (c : Dev nD) (w) : (dat8 V c).q w = fullShare := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

end Cert.Kernel.Hand
-- ==== Proof.K.Reg10.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S5000x64 := Rect.unit (s := S5000x64) ![0, 0] S5000x64.size inb_S5000x64_S5000x64_0_0
abbrev r10_1 : Rect S64x64 := Rect.unit (s := S64x64) ![0, 0] S64x64.size inb_S64x64_S64x64_0_0

def out10 (x0 : Vec F S5000x64 .f32) (x1 : Vec F S64x64 .f32) : Vec F S5000x64 .f32 :=
  View.canon [⟨r10_0, k10_pay1 (View.ld x0 r10_0) (View.ld x1 r10_1)⟩]

theorem cover10 (p0 : Vec F S5000x64 .f32) (y : S5000x64.Idx) :
    ∃ pc ∈ ([⟨r10_0, p0⟩] : List (View.Piece (Elt F) S5000x64 .f32)), y ∈ pc.1.set :=
  View.cover_of_tiled [⟨r10_0, p0⟩] S5000x64.size (by rfl) y

set_option maxHeartbeats 1000000 in
theorem sound_kernel10 (c : Dev nD) (E : Set ℕ) (i : grid10.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10 x0 x1)) -∗ K ⟨⟩))
      ⊢ wp frame (wpE (defs₀ (F := F)) Variants.none c none) E (cc10_kernel i arg1 harg1 arg2 harg2 arg3 harg3) K := by
  simp only [cc10_kernel_eq_skeleton]; unfold cc10_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

theorem PhiIn10 (c : Dev nD) : Pipeline.ΦA spec10 c ⊢ (dat10 V c).Φ 0 := by
  dsimp only [dat10]; exact .rfl

theorem PhiOut10 (c : Dev nD) : (dat10 V c).Φ (Fin.last _) ⊢ Pipeline.ΦA spec10 c := by
  dsimp only [dat10]; exact .rfl

theorem owed10 (c : Dev nD) (t) : (dat10 V c).owed t = 0 := by dsimp only [dat10]

theorem q10 (c : Dev nD) (w) : (dat10 V c).q w = fullShare := by dsimp only [dat10]

end Cert.Kernel.Hand
-- ==== Proof.K.Reg11.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

abbrev r11_a : Rect S2000x1 := Rect.unit (s := S2000x1) ![0, 0] S2000x1.size inb_S2000x1_S2000x1_0_0
abbrev r11_b : Rect S2000x64 := Rect.unit (s := S2000x64) ![0, 0] S2000x64.size inb_S2000x64_S2000x64_0_0

def out11 (x0 : Vec F S2000x1 .f32) (x1 : Vec F S2000x1 .f32) (x2 : Vec F S2000x64 .f32) (x3 : Vec F S2000x64 .f32) : Vec F S2000x64 .f32 :=
  View.canon [⟨r11_b, k11_pay1 (View.ld x0 r11_a) (View.ld x1 r11_a) (View.ld x2 r11_b) (View.ld x3 r11_b)⟩]

theorem cover11 (p0 : Vec F S2000x64 .f32) (y : S2000x64.Idx) :
    ∃ pc ∈ ([⟨r11_b, p0⟩] : List (View.Piece (Elt F) S2000x64 .f32)), y ∈ pc.1.set :=
  View.cover_of_tiled [⟨r11_b, p0⟩] S2000x64.size (by rfl) y

set_option maxHeartbeats 1000000 in
theorem sound_kernel11 (c : Dev nD) (E : Set ℕ) (i : grid11.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out11 x0 x1 x2 x3)) -∗ K ⟨⟩))
      ⊢ wp frame (wpE (defs₀ (F := F)) Variants.none c none) E (cc11__edge_combine_kernel i arg1 harg1 arg2 harg2 arg3 harg3 arg4 harg4 arg5 harg5) K := by
  simp only [cc11__edge_combine_kernel_eq_skeleton]; unfold cc11__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out11 (iblk11 V c 0 t) (iblk11 V c 1 t) (iblk11 V c 2 t) (iblk11 V c 3 t) := by dsimp only [dat11]

theorem PhiIn11 (c : Dev nD) : Pipeline.ΦA spec11 c ⊢ (dat11 V c).Φ 0 := by dsimp only [dat11]; exact .rfl
theorem PhiOut11 (c : Dev nD) : (dat11 V c).Φ (Fin.last _) ⊢ Pipeline.ΦA spec11 c := by dsimp only [dat11]; exact .rfl
theorem owed11 (c : Dev nD) (t) : (dat11 V c).owed t = 0 := by dsimp only [dat11]
theorem q11 (c : Dev nD) (w) : (dat11 V c).q w = fullShare := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) : BodyObligation (dat11 (F := F) V c) (defs₀ (F := F)) Variants.none () Set.univ := fun t => by
  rw [bigSep_W11, bigSep_W11]
  exact sound_body11 V c t

end Cert.Kernel.Hand
-- ==== Proof.K.Reg12.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

abbrev r12_S5000x64 : Rect S5000x64 := Rect.unit (s := S5000x64) ![0, 0] S5000x64.size inb_S5000x64_S5000x64_0_0
abbrev r12_S64x64 : Rect S64x64 := Rect.unit (s := S64x64) ![0, 0] S64x64.size inb_S64x64_S64x64_0_0
abbrev r12_S1x64 : Rect S1x64 := Rect.unit (s := S1x64) ![0, 0] S1x64.size inb_S1x64_S1x64_0_0

def out12 (x0 : Vec F S5000x64 .f32) (x1 : Vec F S64x64 .f32) (x2 : Vec F S1x64 .f32) (x3 : Vec F S5000x64 .f32) : Vec F S5000x64 .f32 :=
  View.canon [⟨r12_S5000x64, k12_pay1 (View.ld x0 r12_S5000x64) (View.ld x1 r12_S64x64) (View.ld x2 r12_S1x64) (View.ld x3 r12_S5000x64)⟩]

theorem cover12 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

set_option maxHeartbeats 1000000 in
theorem sound_kernel12 (c : Dev nD) (E : Set ℕ) (i : grid12.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out12 x0 x1 x2 x3)) -∗ K ⟨⟩))
      ⊢ wp frame (wpE (defs₀ (F := F)) Variants.none c none) E (cc12_kernel i arg1 harg1 arg2 harg2 arg3 harg3 arg4 harg4 arg5 harg5) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12 (iblk12 V c 0 t) (iblk12 V c 1 t) (iblk12 V c 2 t) (iblk12 V c 3 t) := by dsimp only [dat12]

theorem PhiIn12 (c : Dev nD) : Pipeline.ΦA spec12 c ⊢ (dat12 V c).Φ 0 := by dsimp only [dat12]; exact .rfl
theorem PhiOut12 (c : Dev nD) : (dat12 V c).Φ (Fin.last _) ⊢ Pipeline.ΦA spec12 c := by dsimp only [dat12]; exact .rfl
theorem owed12 (c : Dev nD) (t) : (dat12 V c).owed t = 0 := by dsimp only [dat12]
theorem q12 (c : Dev nD) (w) : (dat12 V c).q w = fullShare := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.K.Reg13.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond13_1 (i : grid13.Coords) : Prop :=
  (Scalar.cmpi .ne (Scalar.extui (Scalar.cmpi .eq (BitVec.ofNat 32 (i 0).val) 0#32)) 0#32) = 1#1
theorem hcond13_1 : ∀ t : Fin cfg13.N, cond13_1 (grid13.coords t) ↔ t.val = 0 :=
  (by decide +kernel : ∀ t : Fin grid13.N, cond13_1 (grid13.coords t) ↔ t.val = 0)
abbrev cond13_2 (i : grid13.Coords) : Prop := k13_cond2 i = 1#1
theorem hcond13_2 : ∀ t : Fin cfg13.N, cond13_2 (grid13.coords t) ↔ t.val = 97 :=
  (by decide +kernel : ∀ t : Fin grid13.N, cond13_2 (grid13.coords t) ↔ t.val = 97)

theorem liveAt13_0 : ∀ t : Fin cfg13.N, cfg13.idle 0 (grid13.coords t) = false := fun _ => rfl
theorem liveAt13_1 : ∀ t : Fin cfg13.N, cfg13.idle 1 (grid13.coords t) = false := fun _ => rfl
theorem idleAt13_2 : ∀ t : Fin cfg13.N, ¬cond13_2 (grid13.coords t) → cfg13.idle 2 (grid13.coords t) = true := by decide +kernel
theorem noFlush13_2 : ∀ t : Fin cfg13.N, ¬cond13_2 (grid13.coords t) → (cfg13.win 2).flush t = false := by decide +kernel
theorem liveAt13_2 : ∀ t : Fin cfg13.N, cond13_2 (grid13.coords t) → cfg13.idle 2 (grid13.coords t) = false := by decide +kernel

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem off2_zero13 : (![0, 0] : Fin 2 → ℕ) = fun _ => 0 := by funext a; fin_cases a <;> rfl

abbrev scM13 : Memref sig .tc .vmem S512x2 .f32 := Memref.whole cc13_scratch0

local macro "whole_store_read13" : tactic => `(tactic| (
  sl_unfold_run_names
  refine (View.read_writes_eq_canon _ _ _ (fun y => ⟨_, List.mem_cons_self, View.mem_set_unit_zero off2_zero13 inb_S512x2_S512x2_0_0 y⟩)).trans ?_
  simp only [View.canon_cons_unit_zero (S := S512x2) off2_zero13, View.readCov_cons_toLoadRect, View.readAt_eq_ld,
    View.ld_unit_zero (S := S512x2) off2_zero13, View.ld_unit_zero (S := S1024x2) off2_zero13, View.ld_unit_zero (S := S1024x1) off2_zero13]))

set_option maxHeartbeats 1000000 in
theorem sound_kernel13_first (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : cond13_1 i) (hc2 : ¬cond13_2 i)
    (x0 : Vec F S1024x2 .f32) (x1 : Vec F S1024x1 .i32) (xi : Vec F S512x2 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k13_pay2 x1 x0 (k13_pay1 (F := F)))) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f3, %hf3, H3⟩, ⟨%d4, %f4, -, H4⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read13

set_option maxHeartbeats 1000000 in
theorem sound_kernel13_mid (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : ¬cond13_1 i) (hc2 : ¬cond13_2 i)
    (x0 : Vec F S1024x2 .f32) (x1 : Vec F S1024x1 .i32) (xi : Vec F S512x2 .f32) (xs : Vec F S512x2 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k13_pay2 x1 x0 xs)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f3, %hf3, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read13

set_option maxHeartbeats 1000000 in
theorem sound_kernel13_last (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : ¬cond13_1 i) (hc2 : cond13_2 i)
    (x0 : Vec F S1024x2 .f32) (x1 : Vec F S1024x1 .i32) (xs : Vec F S512x2 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k13_pay2 x1 x0 xs)
            ∗ owns (c : Thread nD τ) arg4 fullShare (k13_pay2 x1 x0 xs)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    whole_store_read13
  iexists _; isplitr
  swap; · iexact H4
  ipureintro
  whole_store_read13

def accAt13 (c : Dev nD) : (n : ℕ) → n ≤ cfg13.N → Vec F S512x2 .f32
  | 0, _ => k13_pay1
  | n + 1, hn => k13_pay2 (iblk13 V c 1 ⟨n, hn⟩) (iblk13 V c 0 ⟨n, hn⟩) (accAt13 c n (Nat.le_of_succ_le hn))

theorem accAt13_zero (c : Dev nD) (n : ℕ) (h : n ≤ cfg13.N) (hz : n = 0) : accAt13 V c n h = k13_pay1 := by
  subst hz; rfl

theorem accAt13_succ (c : Dev nD) (t : Fin cfg13.N) :
    accAt13 V c (t.val + 1) t.isLt = k13_pay2 (iblk13 V c 1 t) (iblk13 V c 0 t) (accAt13 V c t.val (Nat.le_of_lt t.isLt)) := rfl

def out13 (c : Dev nD) (t : Fin cfg13.N) : Vec F S512x2 .f32 := accAt13 V c (t.val + 1) t.isLt

def PhiS13 (c : Dev nD) : (n : ℕ) → n ≤ cfg13.N → sProp 𝕄
  | 0, _ => Pipeline.ΦA spec13 c
  | n + 1, hn => iprop(iprop(owns (c : Thread nD τ) scM13 fullShare (accAt13 V c (n + 1) hn)
      ∗ Pipeline.scopedRestBut (Ix := Unit) (Name := ℕ) (U := UR sig nD τ) (Lvl := ℕ) (Val := Elt F) spec13 c [cc13_scratch0]) ∗ (∃ r, prngReg c r))

theorem PhiS13_zero (c : Dev nD) (n : ℕ) (h : n ≤ cfg13.N) (hz : n = 0) : PhiS13 V c n h = Pipeline.ΦA spec13 c := by
  subst hz; rfl

theorem PhiS13_pos (c : Dev nD) (n : ℕ) (h : n ≤ cfg13.N) (hz : n ≠ 0) :
    PhiS13 V c n h = iprop(iprop(owns (c : Thread nD τ) scM13 fullShare (accAt13 V c n h)
      ∗ Pipeline.scopedRestBut (Ix := Unit) (Name := ℕ) (U := UR sig nD τ) (Lvl := ℕ) (Val := Elt F) spec13 c [cc13_scratch0]) ∗ (∃ r, prngReg c r)) := by
  cases n with
  | zero => exact absurd rfl hz
  | succ n => rfl

theorem PhiA13_eq (c : Dev nD) :
    (Pipeline.ΦA spec13 c : sProp 𝕄)
      = iprop(iprop((∃ d, owns (c : Thread nD τ) scM13 fullShare d)
          ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem owed13 (c : Dev nD) (t : Fin (cfg13.N + 1)) : (dat13 V c).owed t = 0 := rfl
theorem q13 (c : Dev nD) (w : Fin cfg13.W) : (dat13 V c).q w = fullShare := rfl

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13 V c t := by dsimp only [dat13]
theorem after13_2_last (c : Dev nD) (t : Fin cfg13.N) (ht : t.val + 1 = cfg13.N) :
    (dat13 V c).after 2 t = accAt13 V c cfg13.N le_rfl := by
  rw [after13_2]; unfold out13; congr 1

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl,
    PhiS13_pos V c (t.val + 1) t.isLt (Nat.succ_ne_zero _), accAt13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 98 := lt_of_lt_of_eq t.isLt (show cfg13.N = 98 from N_13)
  by_cases h0 : t.val = 0
  · have h1 : ¬t.val = 97 := by omega
    have hc1 : cond13_1 (grid13.coords t) := (hcond13_1 t).mpr h0
    have hc2 : ¬cond13_2 (grid13.coords t) := fun h => h1 ((hcond13_2 t).mp h)
    rw [Dat.leavesExact_idle (dat13 V c) 2 t (idleAt13_2 t hc2) (noFlush13_2 t hc2)]
    rw [PhiS13_castSucc V c t, PhiS13_zero V c _ _ h0, PhiA13_eq, accAt13_zero V c _ _ h0]
    iintro ⟨⟨⟨HS, HR⟩, Hg⟩, Ho, ⟨%d0, H0⟩, ⟨%d1, H1⟩, ⟨%d2, H2⟩⟩
    iapply (sound_kernel13_first c Set.univ (grid13.coords t) _ _ _ _ _ _ _ _ hc1 hc2 (iblk13 V c 0 t) (iblk13 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hc1 : ¬cond13_1 (grid13.coords t) := fun h => h0 ((hcond13_1 t).mp h)
    rw [PhiS13_castSucc V c t, PhiS13_pos V c _ _ h0]
    by_cases h1 : t.val = 97
    · have hc2 : cond13_2 (grid13.coords t) := (hcond13_2 t).mpr h1
      rw [show (dat13 V c).leavesExact 2 t = owns (c : Thread nD τ) (st13_2 t) fullShare ((dat13 V c).after 2 t) from by
        unfold Dat.leavesExact; rw [liveAt13_2 t hc2], after13_2]
      unfold out13; rw [accAt13_succ]
      iintro ⟨⟨⟨HS, HR⟩, Hg⟩, Ho, ⟨%d0, H0⟩, ⟨%d1, H1⟩, ⟨%d2, H2⟩⟩
      iapply (sound_kernel13_last c Set.univ (grid13.coords t) _ _ _ _ _ _ _ _ hc1 hc2 (iblk13 V c 0 t) (iblk13 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc2 : ¬cond13_2 (grid13.coords t) := fun h => h1 ((hcond13_2 t).mp h)
      rw [Dat.leavesExact_idle (dat13 V c) 2 t (idleAt13_2 t hc2) (noFlush13_2 t hc2)]
      iintro ⟨⟨⟨HS, HR⟩, Hg⟩, Ho, ⟨%d0, H0⟩, ⟨%d1, H1⟩, ⟨%d2, H2⟩⟩
      iapply (sound_kernel13_mid c Set.univ (grid13.coords t) _ _ _ _ _ _ _ _ hc1 hc2 (iblk13 V c 0 t) (iblk13 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation13 (c : Dev nD) : BodyObligation (dat13 (F := F) V c) (defs₀ (F := F)) Variants.none () Set.univ := fun t => by
  rw [bigSep_W13, bigSep_W13]
  exact sound_body13 V c t

theorem PhiIn13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

theorem PhiOut13 (c : Dev nD) : (dat13 V c).Φ (Fin.last _) ⊢ Pipeline.ΦA spec13 c := by
  rw [show (dat13 V c).Φ (Fin.last _) = PhiS13 V c (Fin.last cfg13.N).val (Nat.le_of_lt_succ (Fin.last cfg13.N).isLt) from rfl,
    PhiS13_pos V c _ _ (by rw [Fin.val_last]; have : cfg13.N = 98 := N_13; omega), PhiA13_eq]
  iintro ⟨⟨HS, HR⟩, Hg⟩
  isplitr [Hg]
  · isplitl [HS]
    · iexists _; iexact HS
    iexact HR
  iexact Hg

end Cert.Kernel.Hand

end
-- ==== Proof.K.Reg14.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S512x1 := Rect.unit (s := S512x1) ![0, 0] S512x1.size inb_S512x1_S512x1_0_0
abbrev r14_1 : Rect S1024x1 := Rect.unit (s := S1024x1) ![0, 0] S1024x1.size inb_S1024x1_S1024x1_0_0

def out14 (x0 : Vec F S512x1 .f32) (x1 : Vec F S1024x1 .i32) : Vec F S1024x1 .f32 :=
  View.canon [⟨r14_1, k14_pay1 (View.ld x1 r14_1) (View.ld x0 r14_0)⟩]

theorem cover14 (p0 : Vec F S1024x1 .f32) (y : S1024x1.Idx) :
    ∃ pc ∈ ([⟨r14_1, p0⟩] : List (View.Piece (Elt F) S1024x1 .f32)), y ∈ pc.1.set :=
  View.cover_of_tiled [⟨r14_1, p0⟩] S1024x1.size (by rfl) y

set_option maxHeartbeats 1000000 in
theorem sound_kernel14 (c : Dev nD) (E : Set ℕ) (i : grid14.Coords) (arg1 : Memref sig .tc .vmem S512x1 .f32) (harg1 : arg1.IsWhole) (arg2 : Memref sig .tc .vmem S1024x1 .i32) (harg2 : arg2.IsWhole) (arg3 : Memref sig .tc .vmem S1024x1 .f32) (harg3 : arg3.IsWhole)
    (x0 : Vec F S512x1 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14 x0 x1)) -∗ K ⟨⟩))
      ⊢ wp frame (wpE (defs₀ (F := F)) Variants.none c none) E (cc14_kernel i arg1 harg1 arg2 harg2 arg3 harg3) K := by
  simp only [cc14_kernel_eq_skeleton]; unfold cc14_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (c : Dev nD) : BodyObligation (dat14 (F := F) V c) (defs₀ (F := F)) Variants.none () Set.univ := fun t => by
  rw [bigSep_W14, bigSep_W14]
  exact sound_body14 V c t

theorem PhiIn14 (c : Dev nD) : Pipeline.ΦA spec14 c ⊢ (dat14 V c).Φ 0 := by
  dsimp only [dat14]; exact .rfl

theorem PhiOut14 (c : Dev nD) : (dat14 V c).Φ (Fin.last _) ⊢ Pipeline.ΦA spec14 c := by
  dsimp only [dat14]; exact .rfl

theorem owed14 (c : Dev nD) (t) : (dat14 V c).owed t = 0 := by dsimp only [dat14]

theorem q14 (c : Dev nD) (w) : (dat14 V c).q w = fullShare := by dsimp only [dat14]

end Cert.Kernel.Hand
-- ==== Proof.K.Reg15.lean ====
import proofs.«408151_j68813966016636_2_alg».proof.Proof.Gen.Kernel.Launch
import proofs.«408151_j68813966016636_2_alg».proof.Proof.Gen.Kernel.Skeleton
import proofs.«408151_j68813966016636_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond15_1 (i : grid15.Coords) : Prop :=
  (Scalar.cmpi .ne (Scalar.extui (Scalar.cmpi .eq (BitVec.ofNat 32 (i 0).val) 0#32)) 0#32) = 1#1
theorem hcond15_1 : ∀ t : Fin cfg15.N, cond15_1 (grid15.coords t) ↔ t.val = 0 :=
  (by decide +kernel : ∀ t : Fin grid15.N, cond15_1 (grid15.coords t) ↔ t.val = 0)
abbrev cond15_2 (i : grid15.Coords) : Prop := k15_cond2 i = 1#1
theorem hcond15_2 : ∀ t : Fin cfg15.N, cond15_2 (grid15.coords t) ↔ t.val = 97 :=
  (by decide +kernel : ∀ t : Fin grid15.N, cond15_2 (grid15.coords t) ↔ t.val = 97)

theorem liveAt15_0 : ∀ t : Fin cfg15.N, cfg15.idle 0 (grid15.coords t) = false := fun _ => rfl
theorem liveAt15_1 : ∀ t : Fin cfg15.N, cfg15.idle 1 (grid15.coords t) = false := fun _ => rfl
theorem idleAt15_2 : ∀ t : Fin cfg15.N, ¬cond15_2 (grid15.coords t) → cfg15.idle 2 (grid15.coords t) = true := by decide +kernel
theorem noFlush15_2 : ∀ t : Fin cfg15.N, ¬cond15_2 (grid15.coords t) → (cfg15.win 2).flush t = false := by decide +kernel
theorem liveAt15_2 : ∀ t : Fin cfg15.N, cond15_2 (grid15.coords t) → cfg15.idle 2 (grid15.coords t) = false := by decide +kernel

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem off2_zero15 : (![0, 0] : Fin 2 → ℕ) = fun _ => 0 := by funext a; fin_cases a <;> rfl

abbrev scM15 : Memref sig .tc .vmem S512x65 .f32 := Memref.whole cc15_scratch0

local macro "whole_store_read15" : tactic => `(tactic| (
  sl_unfold_run_names
  refine (View.read_writes_eq_canon _ _ _ (fun y => ⟨_, List.mem_cons_self, View.mem_set_unit_zero off2_zero15 inb_S512x65_S512x65_0_0 y⟩)).trans ?_
  simp only [View.canon_cons_unit_zero (S := S512x65) off2_zero15, View.readCov_cons_toLoadRect, View.readAt_eq_ld,
    View.ld_unit_zero (S := S512x65) off2_zero15, View.ld_unit_zero (S := S1024x65) off2_zero15, View.ld_unit_zero (S := S1024x1) off2_zero15]))

set_option maxHeartbeats 1000000 in
theorem sound_kernel15_first (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : cond15_1 i) (hc2 : ¬cond15_2 i)
    (x0 : Vec F S1024x65 .f32) (x1 : Vec F S1024x1 .i32) (xi : Vec F S512x65 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k15_pay2 x1 x0 (k15_pay1 (F := F)))) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f3, %hf3, H3⟩, ⟨%d4, %f4, -, H4⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read15

set_option maxHeartbeats 1000000 in
theorem sound_kernel15_mid (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : ¬cond15_1 i) (hc2 : ¬cond15_2 i)
    (x0 : Vec F S1024x65 .f32) (x1 : Vec F S1024x1 .i32) (xi : Vec F S512x65 .f32) (xs : Vec F S512x65 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k15_pay2 x1 x0 xs)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f3, %hf3, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read15

set_option maxHeartbeats 1000000 in
theorem sound_kernel15_last (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : ¬cond15_1 i) (hc2 : cond15_2 i)
    (x0 : Vec F S1024x65 .f32) (x1 : Vec F S1024x1 .i32) (xs : Vec F S512x65 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k15_pay2 x1 x0 xs)
            ∗ owns (c : Thread nD τ) arg4 fullShare (k15_pay2 x1 x0 xs)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    whole_store_read15
  iexists _; isplitr
  swap; · iexact H4
  ipureintro
  whole_store_read15

def accAt15 (c : Dev nD) : (n : ℕ) → n ≤ cfg15.N → Vec F S512x65 .f32
  | 0, _ => k15_pay1
  | n + 1, hn => k15_pay2 (iblk15 V c 1 ⟨n, hn⟩) (iblk15 V c 0 ⟨n, hn⟩) (accAt15 c n (Nat.le_of_succ_le hn))

theorem accAt15_zero (c : Dev nD) (n : ℕ) (h : n ≤ cfg15.N) (hz : n = 0) : accAt15 V c n h = k15_pay1 := by
  subst hz; rfl

theorem accAt15_succ (c : Dev nD) (t : Fin cfg15.N) :
    accAt15 V c (t.val + 1) t.isLt = k15_pay2 (iblk15 V c 1 t) (iblk15 V c 0 t) (accAt15 V c t.val (Nat.le_of_lt t.isLt)) := rfl

def out15 (c : Dev nD) (t : Fin cfg15.N) : Vec F S512x65 .f32 := accAt15 V c (t.val + 1) t.isLt

def PhiS15 (c : Dev nD) : (n : ℕ) → n ≤ cfg15.N → sProp 𝕄
  | 0, _ => Pipeline.ΦA spec15 c
  | n + 1, hn => iprop(iprop(owns (c : Thread nD τ) scM15 fullShare (accAt15 V c (n + 1) hn)
      ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_pos (c : Dev nD) (n : ℕ) (h : n ≤ cfg15.N) (hz : n ≠ 0) :
    PhiS15 V c n h = iprop(iprop(owns (c : Thread nD τ) scM15 fullShare (accAt15 V c n h)
      ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

theorem PhiA15_eq (c : Dev nD) :
    (Pipeline.ΦA spec15 c : sProp 𝕄)
      = iprop(iprop((∃ d, owns (c : Thread nD τ) scM15 fullShare d)
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15, owns_whole]; try rfl

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15 V c t
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem owed15 (c : Dev nD) (t : Fin (cfg15.N + 1)) : (dat15 V c).owed t = 0 := rfl
theorem q15 (c : Dev nD) (w : Fin cfg15.W) : (dat15 V c).q w = fullShare := rfl

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15 V c t := by dsimp only [dat15]
theorem after15_2_last (c : Dev nD) (t : Fin cfg15.N) (ht : t.val + 1 = cfg15.N) :
    (dat15 V c).after 2 t = accAt15 V c cfg15.N le_rfl := by
  rw [after15_2]; unfold out15; congr 1

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl,
    PhiS15_pos V c (t.val + 1) t.isLt (Nat.succ_ne_zero _), accAt15_succ]
  rw [show (dat15 V c).leavesExact 0 t = owns (c : Thread nD τ) (st15_0 t) fullShare ((dat15 V c).after 0 t) from by
    unfold Dat.leavesExact; rw [liveAt15_0 t], after15_0]
  rw [show (dat15 V c).leavesExact 1 t = owns (c : Thread nD τ) (st15_1 t) fullShare ((dat15 V c).after 1 t) from by
    unfold Dat.leavesExact; rw [liveAt15_1 t], after15_1]
  have hN : t.val < 98 := lt_of_lt_of_eq t.isLt (show cfg15.N = 98 from N_15)
  by_cases h0 : t.val = 0
  · have h1 : ¬t.val = 97 := by omega
    have hc1 : cond15_1 (grid15.coords t) := (hcond15_1 t).mpr h0
    have hc2 : ¬cond15_2 (grid15.coords t) := fun h => h1 ((hcond15_2 t).mp h)
    rw [Dat.leavesExact_idle (dat15 V c) 2 t (idleAt15_2 t hc2) (noFlush15_2 t hc2)]
    rw [PhiS15_castSucc V c t, PhiS15_zero V c _ _ h0, PhiA15_eq, accAt15_zero V c _ _ h0]
    iintro ⟨⟨⟨HS, HR⟩, Hg⟩, Ho, ⟨%d0, H0⟩, ⟨%d1, H1⟩, ⟨%d2, H2⟩⟩
    iapply (sound_kernel15_first c Set.univ (grid15.coords t) _ _ _ _ _ _ _ _ hc1 hc2 (iblk15 V c 0 t) (iblk15 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hc1 : ¬cond15_1 (grid15.coords t) := fun h => h0 ((hcond15_1 t).mp h)
    rw [PhiS15_castSucc V c t, PhiS15_pos V c _ _ h0]
    by_cases h1 : t.val = 97
    · have hc2 : cond15_2 (grid15.coords t) := (hcond15_2 t).mpr h1
      rw [show (dat15 V c).leavesExact 2 t = owns (c : Thread nD τ) (st15_2 t) fullShare ((dat15 V c).after 2 t) from by
        unfold Dat.leavesExact; rw [liveAt15_2 t hc2], after15_2]
      unfold out15; rw [accAt15_succ]
      iintro ⟨⟨⟨HS, HR⟩, Hg⟩, Ho, ⟨%d0, H0⟩, ⟨%d1, H1⟩, ⟨%d2, H2⟩⟩
      iapply (sound_kernel15_last c Set.univ (grid15.coords t) _ _ _ _ _ _ _ _ hc1 hc2 (iblk15 V c 0 t) (iblk15 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc2 : ¬cond15_2 (grid15.coords t) := fun h => h1 ((hcond15_2 t).mp h)
      rw [Dat.leavesExact_idle (dat15 V c) 2 t (idleAt15_2 t hc2) (noFlush15_2 t hc2)]
      iintro ⟨⟨⟨HS, HR⟩, Hg⟩, Ho, ⟨%d0, H0⟩, ⟨%d1, H1⟩, ⟨%d2, H2⟩⟩
      iapply (sound_kernel15_mid c Set.univ (grid15.coords t) _ _ _ _ _ _ _ _ hc1 hc2 (iblk15 V c 0 t) (iblk15 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation15 (c : Dev nD) : BodyObligation (dat15 (F := F) V c) (defs₀ (F := F)) Variants.none () Set.univ := fun t => by
  rw [bigSep_W15, bigSep_W15]
  exact sound_body15 V c t

theorem PhiIn15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

theorem PhiOut15 (c : Dev nD) : (dat15 V c).Φ (Fin.last _) ⊢ Pipeline.ΦA spec15 c := by
  rw [show (dat15 V c).Φ (Fin.last _) = PhiS15 V c (Fin.last cfg15.N).val (Nat.le_of_lt_succ (Fin.last cfg15.N).isLt) from rfl,
    PhiS15_pos V c _ _ (by rw [Fin.val_last]; have : cfg15.N = 98 := N_15; omega), PhiA15_eq]
  iintro ⟨⟨HS, HR⟩, Hg⟩
  isplitr [Hg]
  · isplitl [HS]
    · iexists _; iexact HS
    iexact HR
  iexact Hg

end Cert.Kernel.Hand

end
-- ==== Proof.K.Stages.lean ====
import proofs.«408151_j68813966016636_2_alg».proof.Proof.K.RegionsP
import proofs.«408151_j68813966016636_2_alg».proof.Proof.K.Reg0
import proofs.«408151_j68813966016636_2_alg».proof.Proof.K.Reg1
import proofs.«408151_j68813966016636_2_alg».proof.Proof.K.Reg2
import proofs.«408151_j68813966016636_2_alg».proof.Proof.K.Reg3
import proofs.«408151_j68813966016636_2_alg».proof.Proof.K.Reg4
import proofs.«408151_j68813966016636_2_alg».proof.Proof.K.Reg5
import proofs.«408151_j68813966016636_2_alg».proof.Proof.K.Reg6
import proofs.«408151_j68813966016636_2_alg».proof.Proof.K.Reg7
import proofs.«408151_j68813966016636_2_alg».proof.Proof.K.Reg8
import proofs.«408151_j68813966016636_2_alg».proof.Proof.K.Reg9
import proofs.«408151_j68813966016636_2_alg».proof.Proof.K.Reg10
import proofs.«408151_j68813966016636_2_alg».proof.Proof.K.Reg11
import proofs.«408151_j68813966016636_2_alg».proof.Proof.K.Reg12
import proofs.«408151_j68813966016636_2_alg».proof.Proof.K.Reg13
import proofs.«408151_j68813966016636_2_alg».proof.Proof.K.Reg14
import proofs.«408151_j68813966016636_2_alg».proof.Proof.K.Reg15
import proofs.«408151_j68813966016636_2_alg».proof.Proof.K.Reg16
import proofs.«408151_j68813966016636_2_alg».proof.Proof.K.Reg17
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev tcOf (W : Dev nD → Valuation τ sig (Elt F)) : (c : Dev nD) → (b : Ref sig .tc) → Buf (Elt F) ((c : Thread nD τ).loc b) :=
  fun c b => W c b

variable {n k : ℕ} {V : Outs (F := F) → Dev nD → Valuation τ sig (Elt F)}

def Agree (n : ℕ) (o o' : Outs (F := F)) : Prop := ∀ j, j ≤ n → o j = o' j

def Reads (n : ℕ) (V : Outs (F := F) → Dev nD → Valuation τ sig (Elt F)) : Prop := ∀ ⦃o o'⦄, Agree n o o' → V o = V o'

theorem Reads.const (W : Dev nD → Valuation τ sig (Elt F)) : Reads 0 fun _ => W := fun _ _ _ => rfl

-- the valuation after a list of operations is a function of the valuation before it
theorem Reads.after {ops : List (HloOp τ sig (Elt F))} (h : Reads n V) : Reads n fun o c => StableHlo.after ops (V o c) :=
  fun _ _ ho => congrArg (fun W c => StableHlo.after ops (W c)) (h ho)

-- the update reads the unknowns at index k only
theorem Reads.upd {r : Ref sig .tc} (h : Reads n V) (hk : n ≤ k) :
    Reads k fun o c => Function.update (V o c) (Proc.devRef .tc r) (o k r c) := fun o o' ho => by
  show (fun c => Function.update (V o c) _ (o k r c)) = fun c => Function.update (V o' c) _ (o' k r c)
  rw [h fun j hj => ho j (hj.trans hk), ho k le_rfl]

section
variable {gr W : ℕ} {spec : Fin W → Pipeline.WinSpec sig gr}
  {A : ((c : Dev nD) → (b : Ref sig .tc) → Buf (Elt F) ((c : Thread nD τ).loc b)) → (c : Dev nD) → (w : Fin W) → Buf (Elt F) ((spec w).arr.view.loc (c : Thread nD τ))}
  {o O : Outs (F := F)}

variable (n V spec A o) in
def next : Outs (F := F) := fun j r c =>
  if j ≤ n then o j r c else Pipeline.withArrays spec c (V o c) (A (tcOf (V o)) c) (Proc.devRef .tc r)

theorem Agree.down (hO : Agree k O (next n V spec A o)) (hk : n ≤ k) : Agree n O o :=
  fun j hj => (hO j (hj.trans hk)).trans (funext fun _ => funext fun _ => if_pos hj)

-- beyond index n the unknowns are defined from V o, and V reads only up to n, where O and o agree
theorem next_arr (hinj : Function.Injective (Pipeline.arrRef spec)) (hk : ¬ k ≤ n) (hV : Reads n V) (hO : Agree k O (next n V spec A o))
    (c : Dev nD) (w : Fin W) : O k (Pipeline.arrRef spec w) c = A (tcOf (V O)) c w := by
  rw [hO k le_rfl, hV (hO.down (Nat.le_of_not_le hk))]
  exact (if_neg hk).trans (Pipeline.withArrays_arr spec hinj c _ _ w)
end

def outs2 : Outs (F := F) := fun _ r c =>
  Pipeline.withArrays spec0 c (V1 m c) (fun w => (dat0 (tcOf (V1 m)) c).arrAt w cfg0.N) (Proc.devRef .tc r)
def outs4 : Outs (F := F) := next 2 (V3 m) spec1 (fun V c w => (dat1 V c).arrAt w cfg1.N) (outs2 m)
def outs6 : Outs (F := F) := next 4 (V5 m) spec2 (fun V c w => (dat2 V c).arrAt w cfg2.N) (outs4 m)
def outs10 : Outs (F := F) := next 6 (V9 m) spec3 (fun V c w => (dat3 V c).arrAt w cfg3.N) (outs6 m)
def outs12 : Outs (F := F) := next 10 (V11 m) spec4 (fun V c w => (dat4 V c).arrAt w cfg4.N) (outs10 m)
def outs14 : Outs (F := F) := next 12 (V13 m) spec5 (fun V c w => (dat5 V c).arrAt w cfg5.N) (outs12 m)
def outs16 : Outs (F := F) := next 14 (V15 m) spec6 (fun V c w => (dat6 V c).arrAt w cfg6.N) (outs14 m)
def outs20 : Outs (F := F) := next 16 (V19 m) spec7 (fun V c w => (dat7 V c).arrAt w cfg7.N) (outs16 m)
def outs22 : Outs (F := F) := next 20 (V21 m) spec8 (fun V c w => (dat8 V c).arrAt w cfg8.N) (outs20 m)
def outs24 : Outs (F := F) := next 22 (V23 m) spec9 (fun V c w => (dat9 V c).arrAt w cfg9.N) (outs22 m)
def outs26 : Outs (F := F) := next 24 (V25 m) spec10 (fun V c w => (dat10 V c).arrAt w cfg10.N) (outs24 m)
def outs30 : Outs (F := F) := next 26 (V29 m) spec11 (fun V c w => (dat11 V c).arrAt w cfg11.N) (outs26 m)
def outs32 : Outs (F := F) := next 30 (V31 m) spec12 (fun V c w => (dat12 V c).arrAt w cfg12.N) (outs30 m)
def outs42 : Outs (F := F) := next 32 (V41 m) spec13 (fun V c w => (dat13 V c).arrAt w cfg13.N) (outs32 m)
def outs46 : Outs (F := F) := next 42 (V45 m) spec14 (fun V c w => (dat14 V c).arrAt w cfg14.N) (outs42 m)
def outs52 : Outs (F := F) := next 46 (V51 m) spec15 (fun V c w => (dat15 V c).arrAt w cfg15.N) (outs46 m)
def outs54 : Outs (F := F) := next 52 (V53 m) spec16 (fun V c w => (dat16 V c).arrAt w cfg16.N) (outs52 m)
def outs56 : Outs (F := F) := next 54 (V55 m) spec17 (fun V c w => (dat17 V c).arrAt w cfg17.N) (outs54 m)

def outs : Outs (F := F) := outs56 m

theorem agree56 : Agree 56 (outs m) (outs56 m) := fun _ _ => rfl
theorem agree54 : Agree 54 (outs m) (outs54 m) := (agree56 m).down (by decide)
theorem agree52 : Agree 52 (outs m) (outs52 m) := (agree54 m).down (by decide)
theorem agree46 : Agree 46 (outs m) (outs46 m) := (agree52 m).down (by decide)
theorem agree42 : Agree 42 (outs m) (outs42 m) := (agree46 m).down (by decide)
theorem agree32 : Agree 32 (outs m) (outs32 m) := (agree42 m).down (by decide)
theorem agree30 : Agree 30 (outs m) (outs30 m) := (agree32 m).down (by decide)
theorem agree26 : Agree 26 (outs m) (outs26 m) := (agree30 m).down (by decide)
theorem agree24 : Agree 24 (outs m) (outs24 m) := (agree26 m).down (by decide)
theorem agree22 : Agree 22 (outs m) (outs22 m) := (agree24 m).down (by decide)
theorem agree20 : Agree 20 (outs m) (outs20 m) := (agree22 m).down (by decide)
theorem agree16 : Agree 16 (outs m) (outs16 m) := (agree20 m).down (by decide)
theorem agree14 : Agree 14 (outs m) (outs14 m) := (agree16 m).down (by decide)
theorem agree12 : Agree 12 (outs m) (outs12 m) := (agree14 m).down (by decide)
theorem agree10 : Agree 10 (outs m) (outs10 m) := (agree12 m).down (by decide)
theorem agree6 : Agree 6 (outs m) (outs6 m) := (agree10 m).down (by decide)
theorem agree4 : Agree 4 (outs m) (outs4 m) := (agree6 m).down (by decide)
theorem agree2 : Agree 2 (outs m) (outs2 m) := (agree4 m).down (by decide)

theorem reads3 : Reads 2 (V3 m) := ((Reads.const _).upd (by decide)).after
theorem reads5 : Reads 4 (V5 m) := ((reads3 m).upd (by decide)).after
theorem reads9 : Reads 6 (V9 m) := ((reads5 m).upd (by decide)).after.after.after
theorem reads11 : Reads 10 (V11 m) := ((reads9 m).upd (by decide)).after
theorem reads13 : Reads 12 (V13 m) := ((reads11 m).upd (by decide)).after
theorem reads15 : Reads 14 (V15 m) := ((reads13 m).upd (by decide)).after
theorem reads19 : Reads 16 (V19 m) := ((reads15 m).upd (by decide)).after.after.after
theorem reads21 : Reads 20 (V21 m) := ((reads19 m).upd (by decide)).after
theorem reads23 : Reads 22 (V23 m) := ((reads21 m).upd (by decide)).after
theorem reads25 : Reads 24 (V25 m) := ((reads23 m).upd (by decide)).after
theorem reads29 : Reads 26 (V29 m) := ((reads25 m).upd (by decide)).after.after.after
theorem reads31 : Reads 30 (V31 m) := ((reads29 m).upd (by decide)).after
theorem reads41 : Reads 32 (V41 m) := ((reads31 m).upd (by decide)).after.after.after.after.after.after.after.after.after
theorem reads45 : Reads 42 (V45 m) := ((reads41 m).upd (by decide)).after.after.after
theorem reads51 : Reads 46 (V51 m) := ((reads45 m).upd (by decide)).after.after.after.after.after
theorem reads53 : Reads 52 (V53 m) := ((reads51 m).upd (by decide)).after
theorem reads55 : Reads 54 (V55 m) := ((reads53 m).upd (by decide)).after

theorem exit0 (c : Dev nD) : V2 m (outs m) c main_v5 = (dat0 (tcOf (V1 m)) c).arrAt 3 cfg0.N :=
  (Function.update_self _ _ _).trans <| (congrFun (congrFun (agree2 m 2 le_rfl) main_v5) c).trans
    (Pipeline.withArrays_arr spec0 launch0.win.arr_inj c _ _ 3)
theorem exit1 (c : Dev nD) : V4 m (outs m) c main_v11 = (dat1 (tcOf (V3 m (outs m))) c).arrAt 3 cfg1.N :=
  (Function.update_self _ _ _).trans (next_arr launch1.win.arr_inj (by decide) (reads3 m) (agree4 m) c 3)
theorem exit2 (c : Dev nD) : V6 m (outs m) c main_v14 = (dat2 (tcOf (V5 m (outs m))) c).arrAt 2 cfg2.N :=
  (Function.update_self _ _ _).trans (next_arr launch2.win.arr_inj (by decide) (reads5 m) (agree6 m) c 2)
theorem exit3 (c : Dev nD) : V10 m (outs m) c main_v18 = (dat3 (tcOf (V9 m (outs m))) c).arrAt 4 cfg3.N :=
  (Function.update_self _ _ _).trans (next_arr launch3.win.arr_inj (by decide) (reads9 m) (agree10 m) c 4)
theorem exit4 (c : Dev nD) : V12 m (outs m) c main_v27 = (dat4 (tcOf (V11 m (outs m))) c).arrAt 4 cfg4.N :=
  (Function.update_self _ _ _).trans (next_arr launch4.win.arr_inj (by decide) (reads11 m) (agree12 m) c 4)
theorem exit5 (c : Dev nD) : V14 m (outs m) c main_v33 = (dat5 (tcOf (V13 m (outs m))) c).arrAt 3 cfg5.N :=
  (Function.update_self _ _ _).trans (next_arr launch5.win.arr_inj (by decide) (reads13 m) (agree14 m) c 3)
theorem exit6 (c : Dev nD) : V16 m (outs m) c main_v36 = (dat6 (tcOf (V15 m (outs m))) c).arrAt 2 cfg6.N :=
  (Function.update_self _ _ _).trans (next_arr launch6.win.arr_inj (by decide) (reads15 m) (agree16 m) c 2)
theorem exit7 (c : Dev nD) : V20 m (outs m) c main_v40 = (dat7 (tcOf (V19 m (outs m))) c).arrAt 4 cfg7.N :=
  (Function.update_self _ _ _).trans (next_arr launch7.win.arr_inj (by decide) (reads19 m) (agree20 m) c 4)
theorem exit8 (c : Dev nD) : V22 m (outs m) c main_v49 = (dat8 (tcOf (V21 m (outs m))) c).arrAt 4 cfg8.N :=
  (Function.update_self _ _ _).trans (next_arr launch8.win.arr_inj (by decide) (reads21 m) (agree22 m) c 4)
theorem exit9 (c : Dev nD) : V24 m (outs m) c main_v55 = (dat9 (tcOf (V23 m (outs m))) c).arrAt 3 cfg9.N :=
  (Function.update_self _ _ _).trans (next_arr launch9.win.arr_inj (by decide) (reads23 m) (agree24 m) c 3)
theorem exit10 (c : Dev nD) : V26 m (outs m) c main_v58 = (dat10 (tcOf (V25 m (outs m))) c).arrAt 2 cfg10.N :=
  (Function.update_self _ _ _).trans (next_arr launch10.win.arr_inj (by decide) (reads25 m) (agree26 m) c 2)
theorem exit11 (c : Dev nD) : V30 m (outs m) c main_v62 = (dat11 (tcOf (V29 m (outs m))) c).arrAt 4 cfg11.N :=
  (Function.update_self _ _ _).trans (next_arr launch11.win.arr_inj (by decide) (reads29 m) (agree30 m) c 4)
theorem exit12 (c : Dev nD) : V32 m (outs m) c main_v71 = (dat12 (tcOf (V31 m (outs m))) c).arrAt 4 cfg12.N :=
  (Function.update_self _ _ _).trans (next_arr launch12.win.arr_inj (by decide) (reads31 m) (agree32 m) c 4)
theorem exit13 (c : Dev nD) : V42 m (outs m) c main_v97 = (dat13 (tcOf (V41 m (outs m))) c).arrAt 2 cfg13.N :=
  (Function.update_self _ _ _).trans (next_arr launch13.win.arr_inj (by decide) (reads41 m) (agree42 m) c 2)
theorem exit14 (c : Dev nD) : V46 m (outs m) c main_v104 = (dat14 (tcOf (V45 m (outs m))) c).arrAt 2 cfg14.N :=
  (Function.update_self _ _ _).trans (next_arr launch14.win.arr_inj (by decide) (reads45 m) (agree46 m) c 2)
theorem exit15 (c : Dev nD) : V52 m (outs m) c main_v112 = (dat15 (tcOf (V51 m (outs m))) c).arrAt 2 cfg15.N :=
  (Function.update_self _ _ _).trans (next_arr launch15.win.arr_inj (by decide) (reads51 m) (agree52 m) c 2)
theorem exit16 (c : Dev nD) : V54 m (outs m) c main_v120 = (dat16 (tcOf (V53 m (outs m))) c).arrAt 3 cfg16.N :=
  (Function.update_self _ _ _).trans (next_arr launch16.win.arr_inj (by decide) (reads53 m) (agree54 m) c 3)
theorem exit17 (c : Dev nD) : V56 m (outs m) c main_v122 = (dat17 (tcOf (V55 m (outs m))) c).arrAt 3 cfg17.N :=
  (Function.update_self _ _ _).trans (next_arr launch17.win.arr_inj (by decide) (reads55 m) (agree56 m) c 3)

def pdats : (p : Fin 18) → (c : Dev nD) → Dat τ (Elt F) Unit ℕ (UR sig nD τ) ℕ (cfgs p) c
  | ⟨0, _⟩ => fun c => dat0 (tcOf (V1 m)) c
  | ⟨1, _⟩ => fun c => dat1 (tcOf (V3 m (outs m))) c
  | ⟨2, _⟩ => fun c => dat2 (tcOf (V5 m (outs m))) c
  | ⟨3, _⟩ => fun c => dat3 (tcOf (V9 m (outs m))) c
  | ⟨4, _⟩ => fun c => dat4 (tcOf (V11 m (outs m))) c
  | ⟨5, _⟩ => fun c => dat5 (tcOf (V13 m (outs m))) c
  | ⟨6, _⟩ => fun c => dat6 (tcOf (V15 m (outs m))) c
  | ⟨7, _⟩ => fun c => dat7 (tcOf (V19 m (outs m))) c
  | ⟨8, _⟩ => fun c => dat8 (tcOf (V21 m (outs m))) c
  | ⟨9, _⟩ => fun c => dat9 (tcOf (V23 m (outs m))) c
  | ⟨10, _⟩ => fun c => dat10 (tcOf (V25 m (outs m))) c
  | ⟨11, _⟩ => fun c => dat11 (tcOf (V29 m (outs m))) c
  | ⟨12, _⟩ => fun c => dat12 (tcOf (V31 m (outs m))) c
  | ⟨13, _⟩ => fun c => dat13 (tcOf (V41 m (outs m))) c
  | ⟨14, _⟩ => fun c => dat14 (tcOf (V45 m (outs m))) c
  | ⟨15, _⟩ => fun c => dat15 (tcOf (V51 m (outs m))) c
  | ⟨16, _⟩ => fun c => dat16 (tcOf (V53 m (outs m))) c
  | ⟨17, _⟩ => fun c => dat17 (tcOf (V55 m (outs m))) c
  | ⟨_ + 18, h⟩ => absurd h (Nat.not_lt.2 (Nat.le_add_left _ _))

end Cert.Kernel.Hand

end
-- ==== Proof.K.Segs.lean ====
import proofs.«408151_j68813966016636_2_alg».proof.Proof.K.Stages

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev L₀ : GSem nD τ sig → Finset Unit := fun _ => ∅
abbrev lv₀ : GSem nD τ sig → Unit → ℕ := fun _ _ => 0
abbrev Rc (c : Dev nD) : sProp 𝕄 := iprop((∃ r, prngReg c r) ∗ ∃ W, owes (c : Thread nD τ) (0 : CellTallies nD τ sig Unit) W)
abbrev Ec : Fin 19 → Dev nD → sProp 𝕄 := fun _ c => Rc c

theorem owesIn_of {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; intro x _; exact Or.inl (hr ▸ trivial)
  iexact HO

theorem owesOut_of {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

abbrev RS (p : Fin 18) := Pipeline.RegionSeg (pcfgs (F := F)) adm (pdats m) () defs₀ Variants.none L₀ lv₀ p

-- the exit valuation is the entry valuation updated at the array of the one window that is an output
set_option backward.isDefEq.respectTransparency.types false in
def mkReg (p : Fin 18) (lf : Pipeline.LaunchFacts (nD := nD) (τ := τ) cfgs p) (V : Dev nD → Valuation τ sig (Elt F)) (o : Fin (cfgs p).W)
    (x : (c : Dev nD) → Buf (Elt F) ((c : Thread nD τ).loc (Pipeline.arrRef (cfgs p).spec o)))
    (hb : ∀ c, BodyObligation (pdats m p c) defs₀ Variants.none () Set.univ)
    (hw : ∀ c t, (pdats m p c).owed t = 0) (hr : ∀ c, (pdats m p c).recorded 0 = Set.univ)
    (hq : ∀ c w, (pdats m p c).q w = fullShare)
    (hA : ∀ c w, (pdats m p c).A w = tcOf V c (Pipeline.arrRef (cfgs p).spec w))
    (hΦi : ∀ c, Pipeline.ΦA (cfgs p).spec c ⊢ (pdats m p c).Φ 0)
    (hΦo : ∀ c, (pdats m p c).Φ (Fin.last _) ⊢ Pipeline.ΦA (cfgs p).spec c)
    (hio : ∀ w, w ≠ o → ((cfgs p).win w).isOut = false)
    (hx : ∀ c, Function.update (V c) (Pipeline.arrRef (cfgs p).spec o) (x c) (Pipeline.arrRef (cfgs p).spec o) = (pdats m p c).arrAt o (cfgs p).N) :
    RS m p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L₀ lv₀ p hw
  pre c := iprop(StableHlo.held (c : Thread nD τ) (Pipeline.ucRefs τ sig) (V c) ∗ Rc c)
  post c := iprop(StableHlo.held (c : Thread nD τ) (Pipeline.ucRefs τ sig) (Function.update (V c) (Pipeline.arrRef (cfgs p).spec o) (x c)) ∗ Rc c)
  X c := iprop(∃ r, prngReg c r)
  Y c := iprop(∃ r, prngReg c r)
  Z c := Pipeline.unscopedRest (Ix := Unit) (Name := ℕ) (U := UR sig nD τ) (Lvl := ℕ) (cfgs p).spec c (tcOf V c)
  hentry c := by
    rw [Pipeline.ownSems0_none]
    have hsplit := Pipeline.arrays_of_unscopedBufs (p := p) (pcfgs (F := F)) adm (pdats m) lf.win lf.arr_whole c
      ((pdats m p c).share_full (hq c)) (tcOf V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesIn_of (pdats m p c) 0 (hw c 0) (hr c)); iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hne : ∀ b : Ref sig .tc, b ≠ Pipeline.arrRef (cfgs p).spec o →
        Function.update (V c) (Pipeline.arrRef (cfgs p).spec o) (x c) b = V c b :=
      fun b h => Function.update_of_ne (fun e => h (Proc.devRef_injective _ e)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (tcOf V c)
      (tcOf (fun c => Function.update (V c) (Pipeline.arrRef (cfgs p).spec o) (x c)) c) ((pdats m p c).arrAt · (cfgs p).N)
      (fun w => by
        by_cases h : w = o
        · subst h; exact (hx c).symm
        · exact ((pdats m p c).arrAt_in w (hio w h) _).trans ((hA c w).trans (hne _ fun e => h (lf.win.arr_inj e)).symm))
      fun b hb => hne b fun e => hb (Finset.mem_image.mpr ⟨o, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesOut_of (pdats m p c) (Fin.last _) (hw c (Fin.last _))); iexact HO

def reg0 : RS m 0 := mkReg m 0 launch0 (V1 m) (3 : Fin 4) (outs m 2 main_v5) (body_obligation0 _) (owed0 _) (fun _ => rfl)
  (q0 _) (A_eq0 _) (PhiIn0 _) (PhiOut0 _) (by decide) (exit0 m)
def reg1 : RS m 1 := mkReg m 1 launch1 (V3 m (outs m)) (3 : Fin 4) (outs m 4 main_v11) (body_obligation1 _) (owed1 _) (fun _ => rfl)
  (q1 _) (A_eq1 _) (PhiIn1 _) (PhiOut1 _) (by decide) (exit1 m)
def reg2 : RS m 2 := mkReg m 2 launch2 (V5 m (outs m)) (2 : Fin 3) (outs m 6 main_v14) (body_obligation2 _) (owed2 _) (fun _ => rfl)
  (q2 _) (A_eq2 _) (PhiIn2 _) (PhiOut2 _) (by decide) (exit2 m)
def reg3 : RS m 3 := mkReg m 3 launch3 (V9 m (outs m)) (4 : Fin 5) (outs m 10 main_v18) (body_obligation3 _) (owed3 _) (fun _ => rfl)
  (q3 _) (A_eq3 _) (PhiIn3 _) (PhiOut3 _) (by decide) (exit3 m)
def reg4 : RS m 4 := mkReg m 4 launch4 (V11 m (outs m)) (4 : Fin 5) (outs m 12 main_v27) (body_obligation4 _) (owed4 _) (fun _ => rfl)
  (q4 _) (A_eq4 _) (PhiIn4 _) (PhiOut4 _) (by decide) (exit4 m)
def reg5 : RS m 5 := mkReg m 5 launch5 (V13 m (outs m)) (3 : Fin 4) (outs m 14 main_v33) (body_obligation5 _) (owed5 _) (fun _ => rfl)
  (q5 _) (A_eq5 _) (PhiIn5 _) (PhiOut5 _) (by decide) (exit5 m)
def reg6 : RS m 6 := mkReg m 6 launch6 (V15 m (outs m)) (2 : Fin 3) (outs m 16 main_v36) (body_obligation6 _) (owed6 _) (fun _ => rfl)
  (q6 _) (A_eq6 _) (PhiIn6 _) (PhiOut6 _) (by decide) (exit6 m)
def reg7 : RS m 7 := mkReg m 7 launch7 (V19 m (outs m)) (4 : Fin 5) (outs m 20 main_v40) (body_obligation7 _) (owed7 _) (fun _ => rfl)
  (q7 _) (A_eq7 _) (PhiIn7 _) (PhiOut7 _) (by decide) (exit7 m)
def reg8 : RS m 8 := mkReg m 8 launch8 (V21 m (outs m)) (4 : Fin 5) (outs m 22 main_v49) (body_obligation8 _) (owed8 _) (fun _ => rfl)
  (q8 _) (A_eq8 _) (PhiIn8 _) (PhiOut8 _) (by decide) (exit8 m)
def reg9 : RS m 9 := mkReg m 9 launch9 (V23 m (outs m)) (3 : Fin 4) (outs m 24 main_v55) (body_obligation9 _) (owed9 _) (fun _ => rfl)
  (q9 _) (A_eq9 _) (PhiIn9 _) (PhiOut9 _) (by decide) (exit9 m)
def reg10 : RS m 10 := mkReg m 10 launch10 (V25 m (outs m)) (2 : Fin 3) (outs m 26 main_v58) (body_obligation10 _) (owed10 _) (fun _ => rfl)
  (q10 _) (A_eq10 _) (PhiIn10 _) (PhiOut10 _) (by decide) (exit10 m)
def reg11 : RS m 11 := mkReg m 11 launch11 (V29 m (outs m)) (4 : Fin 5) (outs m 30 main_v62) (body_obligation11 _) (owed11 _) (fun _ => rfl)
  (q11 _) (A_eq11 _) (PhiIn11 _) (PhiOut11 _) (by decide) (exit11 m)
def reg12 : RS m 12 := mkReg m 12 launch12 (V31 m (outs m)) (4 : Fin 5) (outs m 32 main_v71) (body_obligation12 _) (owed12 _) (fun _ => rfl)
  (q12 _) (A_eq12 _) (PhiIn12 _) (PhiOut12 _) (by decide) (exit12 m)
def reg13 : RS m 13 := mkReg m 13 launch13 (V41 m (outs m)) (2 : Fin 3) (outs m 42 main_v97) (body_obligation13 _) (owed13 _) (fun _ => rfl)
  (q13 _) (A_eq13 _) (PhiIn13 _) (PhiOut13 _) (by decide) (exit13 m)
def reg14 : RS m 14 := mkReg m 14 launch14 (V45 m (outs m)) (2 : Fin 3) (outs m 46 main_v104) (body_obligation14 _) (owed14 _) (fun _ => rfl)
  (q14 _) (A_eq14 _) (PhiIn14 _) (PhiOut14 _) (by decide) (exit14 m)
def reg15 : RS m 15 := mkReg m 15 launch15 (V51 m (outs m)) (2 : Fin 3) (outs m 52 main_v112) (body_obligation15 _) (owed15 _) (fun _ => rfl)
  (q15 _) (A_eq15 _) (PhiIn15 _) (PhiOut15 _) (by decide) (exit15 m)
def reg16 : RS m 16 := mkReg m 16 launch16 (V53 m (outs m)) (3 : Fin 4) (outs m 54 main_v120) (body_obligation16 _) (owed16 _) (fun _ => rfl)
  (q16 _) (A_eq16 _) (PhiIn16 _) (PhiOut16 _) (by decide) (exit16 m)
def reg17 : RS m 17 := mkReg m 17 launch17 (V55 m (outs m)) (3 : Fin 4) (outs m 56 main_v122) (body_obligation17 _) (owed17 _) (fun _ => rfl)
  (q17 _) (A_eq17 _) (PhiIn17 _) (PhiOut17 _) (by decide) (exit17 m)

end Cert.Kernel.Hand

end
-- ==== Proof.K.RunCond.lean ====
import proofs.«408151_j68813966016636_2_alg».proof.Proof.K.RegionsP

set_option maxRecDepth 2180

noncomputable section

namespace Cert.Kernel.GenP

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 18) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 19 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE18 : ∀ c : Dev nD, E 18 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V29 m outs c) ∗ E 11 c) ⊢ R11.pre c)
    (hpost11 : ∀ c : Dev nD, R11.post c ⊢ iprop(StableHlo.held (c : Thread nD τ) (Pipeline.ucRefs τ sig) (V30 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V31 m outs c) ∗ E 12 c) ⊢ R12.pre c)
    (hpost12 : ∀ c : Dev nD, R12.post c ⊢ iprop(StableHlo.held (c : Thread nD τ) (Pipeline.ucRefs τ sig) (V32 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V41 m outs c) ∗ E 13 c) ⊢ R13.pre c)
    (hpost13 : ∀ c : Dev nD, R13.post c ⊢ iprop(StableHlo.held (c : Thread nD τ) (Pipeline.ucRefs τ sig) (V42 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V45 m outs c) ∗ E 14 c) ⊢ R14.pre c)
    (hpost14 : ∀ c : Dev nD, R14.post c ⊢ iprop(StableHlo.held (c : Thread nD τ) (Pipeline.ucRefs τ sig) (V46 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V51 m outs c) ∗ E 15 c) ⊢ R15.pre c)
    (hpost15 : ∀ c : Dev nD, R15.post c ⊢ iprop(StableHlo.held (c : Thread nD τ) (Pipeline.ucRefs τ sig) (V52 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V53 m outs c) ∗ E 16 c) ⊢ R16.pre c)
    (hpost16 : ∀ c : Dev nD, R16.post c ⊢ iprop(StableHlo.held (c : Thread nD τ) (Pipeline.ucRefs τ sig) (V54 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V55 m outs c) ∗ E 17 c) ⊢ R17.pre c)
    (hpost17 : ∀ c : Dev nD, R17.post c ⊢ iprop(StableHlo.held (c : Thread nD τ) (Pipeline.ucRefs τ sig) (V56 m outs c) ∗ E 18 c)) :
    θ_run defs (onTc (τ := τ) (main (F := F))) ⟨m, fun _ => 0, ρ⟩ (fun r => ∀ c : Dev nD,
      r.2.mem ((c.tc : Thread nD τ).loc main_v122) = V56 m outs c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17)
    (fun c Q => by
      rewrite [main_chain c, Seg.run_eq_chain,
        show (segs m outs 𝒱₀ L lv E ι pdats R0 R1 R2 R3 R4 R5 R6 R7 R8 R9 R10 R11 R12 R13 R14 R15 R16 R17 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          Prog.lift (.customCall (Pipeline.entry 11) ()),
          StableHlo.seq hostOps12,
          Prog.lift (.customCall (Pipeline.entry 12) ()),
          StableHlo.seq hostOps13,
          StableHlo.seq hostOps13_1,
          StableHlo.seq hostOps13_2,
          StableHlo.seq hostOps13_3,
          StableHlo.seq hostOps13_4,
          StableHlo.seq hostOps13_5,
          StableHlo.seq hostOps13_6,
          StableHlo.seq hostOps13_7,
          StableHlo.seq hostOps13_8,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          StableHlo.seq hostOps15_1,
          StableHlo.seq hostOps15_2,
          StableHlo.seq hostOps15_3,
          StableHlo.seq hostOps15_4,
          Prog.lift (.customCall (Pipeline.entry 15) ()),
          StableHlo.seq hostOps16,
          Prog.lift (.customCall (Pipeline.entry 16) ()),
          StableHlo.seq hostOps17,
          Prog.lift (.customCall (Pipeline.entry 17) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V56 m outs c))
    (hch := fun c => ⟨.rfl, hpre0 c, hpost0 c, hpre1 c, hpost1 c, hpre2 c, hpost2 c, .rfl, .rfl, hpre3 c, hpost3 c, hpre4 c, hpost4 c, hpre5 c, hpost5 c, hpre6 c, hpost6 c, .rfl, .rfl, hpre7 c, hpost7 c, hpre8 c, hpost8 c, hpre9 c, hpost9 c, hpre10 c, hpost10 c, .rfl, .rfl, hpre11 c, hpost11 c, hpre12 c, hpost12 c, .rfl, .rfl, .rfl, .rfl, .rfl, .rfl, .rfl, .rfl, hpre13 c, hpost13 c, .rfl, .rfl, hpre14 c, hpost14 c, .rfl, .rfl, .rfl, .rfl, hpre15 c, hpost15 c, hpre16 c, hpost16 c, hpre17 c, (hpost17 c).trans (sep_mono .rfl (hE18 c))⟩)
    (hinit := ?_) (QY := fun c s => s.mem ((c.tc : Thread nD τ).loc main_v122) = V56 m outs c main_v122 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V56 m outs c) s') $$ [Hh HSI]
    · isplitl [Hh] <;> iassumption
    icases Hr with ⟨%h, HSI⟩
    imodintro
    isplitr
    · ipureintro
      exact ⟨h (Proc.devRef .tc main_v122) (Finset.mem_filter.mpr ⟨StableHlo.devRef_mem_tcRefs main_v122, by decide⟩),
        (h (Proc.devRef .tc main_arg0) (Finset.mem_filter.mpr ⟨StableHlo.devRef_mem_tcRefs main_arg0, by decide⟩)).trans (V56_arg m outs c _ (by decide)),
        (h (Proc.devRef .tc main_arg1) (Finset.mem_filter.mpr ⟨StableHlo.devRef_mem_tcRefs main_arg1, by decide⟩)).trans (V56_arg m outs c _ (by decide)),
        (h (Proc.devRef .tc main_arg2) (Finset.mem_filter.mpr ⟨StableHlo.devRef_mem_tcRefs main_arg2, by decide⟩)).trans (V56_arg m outs c _ (by decide)),
        (h (Proc.devRef .tc main_arg3) (Finset.mem_filter.mpr ⟨StableHlo.devRef_mem_tcRefs main_arg3, by decide⟩)).trans (V56_arg m outs c _ (by decide)),
        (h (Proc.devRef .tc main_arg4) (Finset.mem_filter.mpr ⟨StableHlo.devRef_mem_tcRefs main_arg4, by decide⟩)).trans (V56_arg m outs c _ (by decide)),
        (h (Proc.devRef .tc main_arg5) (Finset.mem_filter.mpr ⟨StableHlo.devRef_mem_tcRefs main_arg5, by decide⟩)).trans (V56_arg m outs c _ (by decide)),
        (h (Proc.devRef .tc main_arg6) (Finset.mem_filter.mpr ⟨StableHlo.devRef_mem_tcRefs main_arg6, by decide⟩)).trans (V56_arg m outs c _ (by decide)),
        (h (Proc.devRef .tc main_arg7) (Finset.mem_filter.mpr ⟨StableHlo.devRef_mem_tcRefs main_arg7, by decide⟩)).trans (V56_arg m outs c _ (by decide)),
        (h (Proc.devRef .tc main_arg8) (Finset.mem_filter.mpr ⟨StableHlo.devRef_mem_tcRefs main_arg8, by decide⟩)).trans (V56_arg m outs c _ (by decide)),
        (h (Proc.devRef .tc main_arg9) (Finset.mem_filter.mpr ⟨StableHlo.devRef_mem_tcRefs main_arg9, by decide⟩)).trans (V56_arg m outs c _ (by decide)),
        (h (Proc.devRef .tc main_arg10) (Finset.mem_filter.mpr ⟨StableHlo.devRef_mem_tcRefs main_arg10, by decide⟩)).trans (V56_arg m outs c _ (by decide)),
        (h (Proc.devRef .tc main_arg11) (Finset.mem_filter.mpr ⟨StableHlo.devRef_mem_tcRefs main_arg11, by decide⟩)).trans (V56_arg m outs c _ (by decide)),
        (h (Proc.devRef .tc main_arg12) (Finset.mem_filter.mpr ⟨StableHlo.devRef_mem_tcRefs main_arg12, by decide⟩)).trans (V56_arg m outs c _ (by decide)),
        (h (Proc.devRef .tc main_arg13) (Finset.mem_filter.mpr ⟨StableHlo.devRef_mem_tcRefs main_arg13, by decide⟩)).trans (V56_arg m outs c _ (by decide)),
        (h (Proc.devRef .tc main_arg14) (Finset.mem_filter.mpr ⟨StableHlo.devRef_mem_tcRefs main_arg14, by decide⟩)).trans (V56_arg m outs c _ (by decide)),
        (h (Proc.devRef .tc main_arg15) (Finset.mem_filter.mpr ⟨StableHlo.devRef_mem_tcRefs main_arg15, by decide⟩)).trans (V56_arg m outs c _ (by decide))⟩
    · iexact HSI

end Cert.Kernel.GenP

end
-- ==== Proof.K.Run.lean ====
import proofs.«408151_j68813966016636_2_alg».proof.Proof.K.Segs
import proofs.«408151_j68813966016636_2_alg».proof.Proof.K.RunCond

set_option maxRecDepth 16384

noncomputable section

namespace Cert.Kernel.Hand

open Cert.Kernel Cert.Kernel.Gen Cert.Kernel.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v122) = V56 m (outs m) c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Ec)
    (hE0 := by
      refine Pipeline.initEach L₀ lv₀ fun c => ?_
      iintro ⟨⟨-, HO, -, Hp, -⟩, -⟩
      imodintro
      isplitl [Hp]; · iexists _; iexact Hp
      iexists ∅; iexact HO)
    (hE18 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

-- the run's post is the frame's with one more conjunct in front
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.Kernel.Hand

end
-- ==== Proof.KI.RegionsP.lean ====
import proofs.«408151_j68813966016636_2_alg».proof.Proof.Gen.KernelIdeal.Launch
import Idealize.ShloMosaic.Lib.Pipeline.Frame
import Idealize.ShloMosaic.Lib.Pipeline.Regions

set_option maxRecDepth 2180

noncomputable section

namespace Cert.KernelIdeal.GenP

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)
abbrev V1 (c : Dev nD) : Valuation τ sig (Elt F) := StableHlo.after hostOps0 (V0 m c)
abbrev V2 (c : Dev nD) : Valuation τ sig (Elt F) := Function.update (V1 m c) main_v5 (outs 2 main_v5 c)
abbrev V3 (c : Dev nD) : Valuation τ sig (Elt F) := StableHlo.after hostOps1 (V2 m outs c)
abbrev V4 (c : Dev nD) : Valuation τ sig (Elt F) := Function.update (V3 m outs c) main_v11 (outs 4 main_v11 c)
abbrev V5 (c : Dev nD) : Valuation τ sig (Elt F) := StableHlo.after hostOps2 (V4 m outs c)
abbrev V6 (c : Dev nD) : Valuation τ sig (Elt F) := Function.update (V5 m outs c) main_v14 (outs 6 main_v14 c)
abbrev V7 (c : Dev nD) : Valuation τ sig (Elt F) := StableHlo.after hostOps3 (V6 m outs c)
abbrev V8 (c : Dev nD) : Valuation τ sig (Elt F) := StableHlo.after hostOps3_1 (V7 m outs c)
abbrev V9 (c : Dev nD) : Valuation τ sig (Elt F) := StableHlo.after hostOps3_2 (V8 m outs c)
abbrev V10 (c : Dev nD) : Valuation τ sig (Elt F) := Function.update (V9 m outs c) main_v18 (outs 10 main_v18 c)
abbrev V11 (c : Dev nD) : Valuation τ sig (Elt F) := StableHlo.after hostOps4 (V10 m outs c)
abbrev V12 (c : Dev nD) : Valuation τ sig (Elt F) := Function.update (V11 m outs c) main_v27 (outs 12 main_v27 c)
abbrev V13 (c : Dev nD) : Valuation τ sig (Elt F) := StableHlo.after hostOps5 (V12 m outs c)
abbrev V14 (c : Dev nD) : Valuation τ sig (Elt F) := Function.update (V13 m outs c) main_v33 (outs 14 main_v33 c)
abbrev V15 (c : Dev nD) : Valuation τ sig (Elt F) := StableHlo.after hostOps6 (V14 m outs c)
abbrev V16 (c : Dev nD) : Valuation τ sig (Elt F) := Function.update (V15 m outs c) main_v36 (outs 16 main_v36 c)
abbrev V17 (c : Dev nD) : Valuation τ sig (Elt F) := StableHlo.after hostOps7 (V16 m outs c)
abbrev V18 (c : Dev nD) : Valuation τ sig (Elt F) := StableHlo.after hostOps7_1 (V17 m outs c)
abbrev V19 (c : Dev nD) : Valuation τ sig (Elt F) := StableHlo.after hostOps7_2 (V18 m outs c)
abbrev V20 (c : Dev nD) : Valuation τ sig (Elt F) := Function.update (V19 m outs c) main_v40 (outs 20 main_v40 c)
abbrev V21 (c : Dev nD) : Valuation τ sig (Elt F) := StableHlo.after hostOps8 (V20 m outs c)
abbrev V22 (c : Dev nD) : Valuation τ sig (Elt F) := Function.update (V21 m outs c) main_v49 (outs 22 main_v49 c)
abbrev V23 (c : Dev nD) : Valuation τ sig (Elt F) := StableHlo.after hostOps9 (V22 m outs c)
abbrev V24 (c : Dev nD) : Valuation τ sig (Elt F) := Function.update (V23 m outs c) main_v55 (outs 24 main_v55 c)
abbrev V25 (c : Dev nD) : Valuation τ sig (Elt F) := StableHlo.after hostOps10 (V24 m outs c)
abbrev V26 (c : Dev nD) : Valuation τ sig (Elt F) := Function.update (V25 m outs c) main_v58 (outs 26 main_v58 c)
abbrev V27 (c : Dev nD) : Valuation τ sig (Elt F) := StableHlo.after hostOps11 (V26 m outs c)
abbrev V28 (c : Dev nD) : Valuation τ sig (Elt F) := StableHlo.after hostOps11_1 (V27 m outs c)
abbrev V29 (c : Dev nD) : Valuation τ sig (Elt F) := StableHlo.after hostOps11_2 (V28 m outs c)
abbrev V30 (c : Dev nD) : Valuation τ sig (Elt F) := Function.update (V29 m outs c) main_v62 (outs 30 main_v62 c)
abbrev V31 (c : Dev nD) : Valuation τ sig (Elt F) := StableHlo.after hostOps12 (V30 m outs c)
abbrev V32 (c : Dev nD) : Valuation τ sig (Elt F) := Function.update (V31 m outs c) main_v71 (outs 32 main_v71 c)
abbrev V33 (c : Dev nD) : Valuation τ sig (Elt F) := StableHlo.after hostOps13 (V32 m outs c)
abbrev V34 (c : Dev nD) : Valuation τ sig (Elt F) := StableHlo.after hostOps13_1 (V33 m outs c)
abbrev V35 (c : Dev nD) : Valuation τ sig (Elt F) := StableHlo.after hostOps13_2 (V34 m outs c)
abbrev V36 (c : Dev nD) : Valuation τ sig (Elt F) := StableHlo.after hostOps13_3 (V35 m outs c)
abbrev V37 (c : Dev nD) : Valuation τ sig (Elt F) := StableHlo.after hostOps13_4 (V36 m outs c)
abbrev V38 (c : Dev nD) : Valuation τ sig (Elt F) := StableHlo.after hostOps13_5 (V37 m outs c)
abbrev V39 (c : Dev nD) : Valuation τ sig (Elt F) := StableHlo.after hostOps13_6 (V38 m outs c)
abbrev V40 (c : Dev nD) : Valuation τ sig (Elt F) := StableHlo.after hostOps13_7 (V39 m outs c)
abbrev V41 (c : Dev nD) : Valuation τ sig (Elt F) := StableHlo.after hostOps13_8 (V40 m outs c)
abbrev V42 (c : Dev nD) : Valuation τ sig (Elt F) := Function.update (V41 m outs c) main_v97 (outs 42 main_v97 c)
abbrev V43 (c : Dev nD) : Valuation τ sig (Elt F) := StableHlo.after hostOps14 (V42 m outs c)
abbrev V44 (c : Dev nD) : Valuation τ sig (Elt F) := StableHlo.after hostOps14_1 (V43 m outs c)
abbrev V45 (c : Dev nD) : Valuation τ sig (Elt F) := StableHlo.after hostOps14_2 (V44 m outs c)
abbrev V46 (c : Dev nD) : Valuation τ sig (Elt F) := Function.update (V45 m outs c) main_v104 (outs 46 main_v104 c)
abbrev V47 (c : Dev nD) : Valuation τ sig (Elt F) := StableHlo.after hostOps15 (V46 m outs c)
abbrev V48 (c : Dev nD) : Valuation τ sig (Elt F) := StableHlo.after hostOps15_1 (V47 m outs c)
abbrev V49 (c : Dev nD) : Valuation τ sig (Elt F) := StableHlo.after hostOps15_2 (V48 m outs c)
abbrev V50 (c : Dev nD) : Valuation τ sig (Elt F) := StableHlo.after hostOps15_3 (V49 m outs c)
abbrev V51 (c : Dev nD) : Valuation τ sig (Elt F) := StableHlo.after hostOps15_4 (V50 m outs c)
abbrev V52 (c : Dev nD) : Valuation τ sig (Elt F) := Function.update (V51 m outs c) main_v112 (outs 52 main_v112 c)
abbrev V53 (c : Dev nD) : Valuation τ sig (Elt F) := StableHlo.after hostOps16 (V52 m outs c)
abbrev V54 (c : Dev nD) : Valuation τ sig (Elt F) := Function.update (V53 m outs c) main_v120 (outs 54 main_v120 c)
abbrev V55 (c : Dev nD) : Valuation τ sig (Elt F) := StableHlo.after hostOps17 (V54 m outs c)
abbrev V56 (c : Dev nD) : Valuation τ sig (Elt F) := Function.update (V55 m outs c) main_v122 (outs 56 main_v122 c)

theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor
abbrev hostOps1_W : List (Ref sig .tc) := [main_v6, main_v7, main_v8, main_v9, main_v10]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor
abbrev hostOps2_W : List (Ref sig .tc) := [main_v12, main_v13]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_fresh : (hostOps3 : List (HloOp τ sig (Elt F))).Forall fun op => op.fresh = ∅ := by
  simp only [List.Forall]; repeat' constructor
abbrev hostOps3_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v15]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_1_fresh : (hostOps3_1 : List (HloOp τ sig (Elt F))).Forall fun op => op.fresh = ∅ := by
  simp only [List.Forall]; repeat' constructor
abbrev hostOps3_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_2_fresh : (hostOps3_2 : List (HloOp τ sig (Elt F))).Forall fun op => op.fresh = ∅ := by
  simp only [List.Forall]; repeat' constructor
abbrev hostOps3_2_W : List (Ref sig .tc) := [main_v17]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_fresh : (hostOps4 : List (HloOp τ sig (Elt F))).Forall fun op => op.fresh = ∅ := by
  simp only [List.Forall]; repeat' constructor
abbrev hostOps4_W : List (Ref sig .tc) := [main_cst, main_v19, main_v20, main_v21, main_v22, main_v23, main_v24, main_v25, main_v26]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_fresh : (hostOps5 : List (HloOp τ sig (Elt F))).Forall fun op => op.fresh = ∅ := by
  simp only [List.Forall]; repeat' constructor
abbrev hostOps5_W : List (Ref sig .tc) := [main_v28, main_v29, main_v30, main_v31, main_v32]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_fresh : (hostOps6 : List (HloOp τ sig (Elt F))).Forall fun op => op.fresh = ∅ := by
  simp only [List.Forall]; repeat' constructor
abbrev hostOps6_W : List (Ref sig .tc) := [main_v34, main_v35]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_fresh : (hostOps7 : List (HloOp τ sig (Elt F))).Forall fun op => op.fresh = ∅ := by
  simp only [List.Forall]; repeat' constructor
abbrev hostOps7_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v37]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_1_fresh : (hostOps7_1 : List (HloOp τ sig (Elt F))).Forall fun op => op.fresh = ∅ := by
  simp only [List.Forall]; repeat' constructor
abbrev hostOps7_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v38]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_2_fresh : (hostOps7_2 : List (HloOp τ sig (Elt F))).Forall fun op => op.fresh = ∅ := by
  simp only [List.Forall]; repeat' constructor
abbrev hostOps7_2_W : List (Ref sig .tc) := [main_v39]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_fresh : (hostOps8 : List (HloOp τ sig (Elt F))).Forall fun op => op.fresh = ∅ := by
  simp only [List.Forall]; repeat' constructor
abbrev hostOps8_W : List (Ref sig .tc) := [main_cst_0, main_v41, main_v42, main_v43, main_v44, main_v45, main_v46, main_v47, main_v48]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_fresh : (hostOps9 : List (HloOp τ sig (Elt F))).Forall fun op => op.fresh = ∅ := by
  simp only [List.Forall]; repeat' constructor
abbrev hostOps9_W : List (Ref sig .tc) := [main_v50, main_v51, main_v52, main_v53, main_v54]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_fresh : (hostOps10 : List (HloOp τ sig (Elt F))).Forall fun op => op.fresh = ∅ := by
  simp only [List.Forall]; repeat' constructor
abbrev hostOps10_W : List (Ref sig .tc) := [main_v56, main_v57]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_fresh : (hostOps11 : List (HloOp τ sig (Elt F))).Forall fun op => op.fresh = ∅ := by
  simp only [List.Forall]; repeat' constructor
abbrev hostOps11_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v59]
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_1_fresh : (hostOps11_1 : List (HloOp τ sig (Elt F))).Forall fun op => op.fresh = ∅ := by
  simp only [List.Forall]; repeat' constructor
abbrev hostOps11_1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v60]
theorem hostOps11_1_writes : (hostOps11_1 : List (HloOp τ sig (Elt F))).Forall fun op => op.writes ⊆ (hostOps11_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps11_2_fresh : (hostOps11_2 : List (HloOp τ sig (Elt F))).Forall fun op => op.fresh = ∅ := by
  simp only [List.Forall]; repeat' constructor
abbrev hostOps11_2_W : List (Ref sig .tc) := [main_v61]
theorem hostOps11_2_writes : (hostOps11_2 : List (HloOp τ sig (Elt F))).Forall fun op => op.writes ⊆ (hostOps11_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps12_fresh : (hostOps12 : List (HloOp τ sig (Elt F))).Forall fun op => op.fresh = ∅ := by
  simp only [List.Forall]; repeat' constructor
abbrev hostOps12_W : List (Ref sig .tc) := [main_cst_1, main_v63, main_v64, main_v65, main_v66, main_v67, main_v68, main_v69, main_v70]
theorem hostOps12_writes : (hostOps12 : List (HloOp τ sig (Elt F))).Forall fun op => op.writes ⊆ (hostOps12_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_fresh : (hostOps13 : List (HloOp τ sig (Elt F))).Forall fun op => op.fresh = ∅ := by
  simp only [List.Forall]; repeat' constructor
abbrev hostOps13_W : List (Ref sig .tc) := [main_cst_2, main_v72, main_cst_3, main_v73, main_v74, main_v75, main_cst_4, main_v76, main_v77, main_v78, main_v79, main_cst_5, main_v80, main_v81, main_v82, main_cst_6, main_v83, main_v84, main_v85, main_v86, main_cst_7, main_v87, main_v88, main_cst_8]
theorem hostOps13_writes : (hostOps13 : List (HloOp τ sig (Elt F))).Forall fun op => op.writes ⊆ (hostOps13_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_1_fresh : (hostOps13_1 : List (HloOp τ sig (Elt F))).Forall fun op => op.fresh = ∅ := by
  simp only [List.Forall]; repeat' constructor
abbrev hostOps13_1_W : List (Ref sig .tc) := [main_call6_v0, main_call6_v1, main_v89]
theorem hostOps13_1_writes : (hostOps13_1 : List (HloOp τ sig (Elt F))).Forall fun op => op.writes ⊆ (hostOps13_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_2_fresh : (hostOps13_2 : List (HloOp τ sig (Elt F))).Forall fun op => op.fresh = ∅ := by
  simp only [List.Forall]; repeat' constructor
abbrev hostOps13_2_W : List (Ref sig .tc) := [main_v90, main_v91, main_c]
theorem hostOps13_2_writes : (hostOps13_2 : List (HloOp τ sig (Elt F))).Forall fun op => op.writes ⊆ (hostOps13_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_3_fresh : (hostOps13_3 : List (HloOp τ sig (Elt F))).Forall fun op => op.fresh = ∅ := by
  simp only [List.Forall]; repeat' constructor
abbrev hostOps13_3_W : List (Ref sig .tc) := [main_call7_v0, main_v92]
theorem hostOps13_3_writes : (hostOps13_3 : List (HloOp τ sig (Elt F))).Forall fun op => op.writes ⊆ (hostOps13_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_4_fresh : (hostOps13_4 : List (HloOp τ sig (Elt F))).Forall fun op => op.fresh = ∅ := by
  simp only [List.Forall]; repeat' constructor
abbrev hostOps13_4_W : List (Ref sig .tc) := [main_cst_9, main_v93, main_c_10]
theorem hostOps13_4_writes : (hostOps13_4 : List (HloOp τ sig (Elt F))).Forall fun op => op.writes ⊆ (hostOps13_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_5_fresh : (hostOps13_5 : List (HloOp τ sig (Elt F))).Forall fun op => op.fresh = ∅ := by
  simp only [List.Forall]; repeat' constructor
abbrev hostOps13_5_W : List (Ref sig .tc) := [main_call8_v0, main_v94]
theorem hostOps13_5_writes : (hostOps13_5 : List (HloOp τ sig (Elt F))).Forall fun op => op.writes ⊆ (hostOps13_5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_6_fresh : (hostOps13_6 : List (HloOp τ sig (Elt F))).Forall fun op => op.fresh = ∅ := by
  simp only [List.Forall]; repeat' constructor
abbrev hostOps13_6_W : List (Ref sig .tc) := [main_c_11]
theorem hostOps13_6_writes : (hostOps13_6 : List (HloOp τ sig (Elt F))).Forall fun op => op.writes ⊆ (hostOps13_6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_7_fresh : (hostOps13_7 : List (HloOp τ sig (Elt F))).Forall fun op => op.fresh = ∅ := by
  simp only [List.Forall]; repeat' constructor
abbrev hostOps13_7_W : List (Ref sig .tc) := [main_call9_v0, main_v95]
theorem hostOps13_7_writes : (hostOps13_7 : List (HloOp τ sig (Elt F))).Forall fun op => op.writes ⊆ (hostOps13_7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps13_8_fresh : (hostOps13_8 : List (HloOp τ sig (Elt F))).Forall fun op => op.fresh = ∅ := by
  simp only [List.Forall]; repeat' constructor
abbrev hostOps13_8_W : List (Ref sig .tc) := [main_v96]
theorem hostOps13_8_writes : (hostOps13_8 : List (HloOp τ sig (Elt F))).Forall fun op => op.writes ⊆ (hostOps13_8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_fresh : (hostOps14 : List (HloOp τ sig (Elt F))).Forall fun op => op.fresh = ∅ := by
  simp only [List.Forall]; repeat' constructor
abbrev hostOps14_W : List (Ref sig .tc) := [main_v98, main_v99, main_cst_12, main_v100, main_v101, main_cst_13]
theorem hostOps14_writes : (hostOps14 : List (HloOp τ sig (Elt F))).Forall fun op => op.writes ⊆ (hostOps14_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_1_fresh : (hostOps14_1 : List (HloOp τ sig (Elt F))).Forall fun op => op.fresh = ∅ := by
  simp only [List.Forall]; repeat' constructor
abbrev hostOps14_1_W : List (Ref sig .tc) := [main_call10_v0, main_call10_v1, main_v102]
theorem hostOps14_1_writes : (hostOps14_1 : List (HloOp τ sig (Elt F))).Forall fun op => op.writes ⊆ (hostOps14_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps14_2_fresh : (hostOps14_2 : List (HloOp τ sig (Elt F))).Forall fun op => op.fresh = ∅ := by
  simp only [List.Forall]; repeat' constructor
abbrev hostOps14_2_W : List (Ref sig .tc) := [main_v103]
theorem hostOps14_2_writes : (hostOps14_2 : List (HloOp τ sig (Elt F))).Forall fun op => op.writes ⊆ (hostOps14_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_fresh : (hostOps15 : List (HloOp τ sig (Elt F))).Forall fun op => op.fresh = ∅ := by
  simp only [List.Forall]; repeat' constructor
abbrev hostOps15_W : List (Ref sig .tc) := [main_v105, main_v106, main_v107, main_v108, main_c_14]
theorem hostOps15_writes : (hostOps15 : List (HloOp τ sig (Elt F))).Forall fun op => op.writes ⊆ (hostOps15_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_1_fresh : (hostOps15_1 : List (HloOp τ sig (Elt F))).Forall fun op => op.fresh = ∅ := by
  simp only [List.Forall]; repeat' constructor
abbrev hostOps15_1_W : List (Ref sig .tc) := [main_call11_v0, main_v109]
theorem hostOps15_1_writes : (hostOps15_1 : List (HloOp τ sig (Elt F))).Forall fun op => op.writes ⊆ (hostOps15_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_2_fresh : (hostOps15_2 : List (HloOp τ sig (Elt F))).Forall fun op => op.fresh = ∅ := by
  simp only [List.Forall]; repeat' constructor
abbrev hostOps15_2_W : List (Ref sig .tc) := [main_c_15]
theorem hostOps15_2_writes : (hostOps15_2 : List (HloOp τ sig (Elt F))).Forall fun op => op.writes ⊆ (hostOps15_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_3_fresh : (hostOps15_3 : List (HloOp τ sig (Elt F))).Forall fun op => op.fresh = ∅ := by
  simp only [List.Forall]; repeat' constructor
abbrev hostOps15_3_W : List (Ref sig .tc) := [main_call12_v0, main_v110]
theorem hostOps15_3_writes : (hostOps15_3 : List (HloOp τ sig (Elt F))).Forall fun op => op.writes ⊆ (hostOps15_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps15_4_fresh : (hostOps15_4 : List (HloOp τ sig (Elt F))).Forall fun op => op.fresh = ∅ := by
  simp only [List.Forall]; repeat' constructor
abbrev hostOps15_4_W : List (Ref sig .tc) := [main_v111]
theorem hostOps15_4_writes : (hostOps15_4 : List (HloOp τ sig (Elt F))).Forall fun op => op.writes ⊆ (hostOps15_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps16_fresh : (hostOps16 : List (HloOp τ sig (Elt F))).Forall fun op => op.fresh = ∅ := by
  simp only [List.Forall]; repeat' constructor
abbrev hostOps16_W : List (Ref sig .tc) := [main_v113, main_v114, main_cst_16, main_v115, main_v116, main_v117, main_v118, main_v119]
theorem hostOps16_writes : (hostOps16 : List (HloOp τ sig (Elt F))).Forall fun op => op.writes ⊆ (hostOps16_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps17_fresh : (hostOps17 : List (HloOp τ sig (Elt F))).Forall fun op => op.fresh = ∅ := by
  simp only [List.Forall]; repeat' constructor
abbrev hostOps17_W : List (Ref sig .tc) := [main_v121]
theorem hostOps17_writes : (hostOps17 : List (HloOp τ sig (Elt F))).Forall fun op => op.writes ⊆ (hostOps17_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v5] : List (Ref sig .tc))) : V2 m outs c r = V1 m c r := by
  simp only [V2, Function.update_of_ne (StableHlo.devRef_ne_of_ne (List.ne_of_not_mem_cons h) : (Proc.devRef .tc r : DevRef τ sig) ≠ Proc.devRef .tc main_v5)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_v11] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_v11)]
theorem V5_of (c : Dev nD) (r : Ref sig .tc) (h : r ∉ hostOps2_W) : V5 m outs c r = V4 m outs c r :=
  StableHlo.after_of_writes_sub hostOps2 _ hostOps2_writes h
theorem V6_of (c : Dev nD) (r : Ref sig .tc) (h : r ∉ ([main_v14] : List (Ref sig .tc))) : V6 m outs c r = V5 m outs c r := by
  simp only [V6, Function.update_of_ne (StableHlo.devRef_ne_of_ne (List.ne_of_not_mem_cons h) : (Proc.devRef .tc r : DevRef τ sig) ≠ Proc.devRef .tc main_v14)]
theorem V7_of (c : Dev nD) (r : Ref sig .tc) (h : r ∉ hostOps3_W) : V7 m outs c r = V6 m outs c r :=
  StableHlo.after_of_writes_sub hostOps3 _ hostOps3_writes h
theorem V8_of (c : Dev nD) (r : Ref sig .tc) (h : r ∉ hostOps3_1_W) : V8 m outs c r = V7 m outs c r :=
  StableHlo.after_of_writes_sub hostOps3_1 _ hostOps3_1_writes h
theorem V9_of (c : Dev nD) (r : Ref sig .tc) (h : r ∉ hostOps3_2_W) : V9 m outs c r = V8 m outs c r :=
  StableHlo.after_of_writes_sub hostOps3_2 _ hostOps3_2_writes h
theorem V10_of (c : Dev nD) (r : Ref sig .tc) (h : r ∉ ([main_v18] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v18)]
theorem V11_of (c : Dev nD) (r : Ref sig .tc) (h : r ∉ hostOps4_W) : V11 m outs c r = V10 m outs c r :=
  StableHlo.after_of_writes_sub hostOps4 _ hostOps4_writes h
theorem V12_of (c : Dev nD) (r : Ref sig .tc) (h : r ∉ ([main_v27] : List (Ref sig .tc))) : V12 m outs c r = V11 m outs c r := by
  simp only [V12, Function.update_of_ne (StableHlo.devRef_ne_of_ne (List.ne_of_not_mem_cons h) : (Proc.devRef .tc r : DevRef τ sig) ≠ Proc.devRef .tc main_v27)]
theorem V13_of (c : Dev nD) (r : Ref sig .tc) (h : r ∉ hostOps5_W) : V13 m outs c r = V12 m outs c r :=
  StableHlo.after_of_writes_sub hostOps5 _ hostOps5_writes h
theorem V14_of (c : Dev nD) (r : Ref sig .tc) (h : r ∉ ([main_v33] : List (Ref sig .tc))) : V14 m outs c r = V13 m outs c r := by
  simp only [V14, Function.update_of_ne (StableHlo.devRef_ne_of_ne (List.ne_of_not_mem_cons h) : (Proc.devRef .tc r : DevRef τ sig) ≠ Proc.devRef .tc main_v33)]
theorem V15_of (c : Dev nD) (r : Ref sig .tc) (h : r ∉ hostOps6_W) : V15 m outs c r = V14 m outs c r :=
  StableHlo.after_of_writes_sub hostOps6 _ hostOps6_writes h
theorem V16_of (c : Dev nD) (r : Ref sig .tc) (h : r ∉ ([main_v36] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v36)]
theorem V17_of (c : Dev nD) (r : Ref sig .tc) (h : r ∉ hostOps7_W) : V17 m outs c r = V16 m outs c r :=
  StableHlo.after_of_writes_sub hostOps7 _ hostOps7_writes h
theorem V18_of (c : Dev nD) (r : Ref sig .tc) (h : r ∉ hostOps7_1_W) : V18 m outs c r = V17 m outs c r :=
  StableHlo.after_of_writes_sub hostOps7_1 _ hostOps7_1_writes h
theorem V19_of (c : Dev nD) (r : Ref sig .tc) (h : r ∉ hostOps7_2_W) : V19 m outs c r = V18 m outs c r :=
  StableHlo.after_of_writes_sub hostOps7_2 _ hostOps7_2_writes h
theorem V20_of (c : Dev nD) (r : Ref sig .tc) (h : r ∉ ([main_v40] : List (Ref sig .tc))) : V20 m outs c r = V19 m outs c r := by
  simp only [V20, Function.update_of_ne (StableHlo.devRef_ne_of_ne (List.ne_of_not_mem_cons h) : (Proc.devRef .tc r : DevRef τ sig) ≠ Proc.devRef .tc main_v40)]
theorem V21_of (c : Dev nD) (r : Ref sig .tc) (h : r ∉ hostOps8_W) : V21 m outs c r = V20 m outs c r :=
  StableHlo.after_of_writes_sub hostOps8 _ hostOps8_writes h
theorem V22_of (c : Dev nD) (r : Ref sig .tc) (h : r ∉ ([main_v49] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v49)]
theorem V23_of (c : Dev nD) (r : Ref sig .tc) (h : r ∉ hostOps9_W) : V23 m outs c r = V22 m outs c r :=
  StableHlo.after_of_writes_sub hostOps9 _ hostOps9_writes h
theorem V24_of (c : Dev nD) (r : Ref sig .tc) (h : r ∉ ([main_v55] : List (Ref sig .tc))) : V24 m outs c r = V23 m outs c r := by
  simp only [V24, Function.update_of_ne (StableHlo.devRef_ne_of_ne (List.ne_of_not_mem_cons h) : (Proc.devRef .tc r : DevRef τ sig) ≠ Proc.devRef .tc main_v55)]
theorem V25_of (c : Dev nD) (r : Ref sig .tc) (h : r ∉ hostOps10_W) : V25 m outs c r = V24 m outs c r :=
  StableHlo.after_of_writes_sub hostOps10 _ hostOps10_writes h
theorem V26_of (c : Dev nD) (r : Ref sig .tc) (h : r ∉ ([main_v58] : List (Ref sig .tc))) : V26 m outs c r = V25 m outs c r := by
  simp only [V26, Function.update_of_ne (StableHlo.devRef_ne_of_ne (List.ne_of_not_mem_cons h) : (Proc.devRef .tc r : DevRef τ sig) ≠ Proc.devRef .tc main_v58)]
theorem V27_of (c : Dev nD) (r : Ref sig .tc) (h : r ∉ hostOps11_W) : V27 m outs c r = V26 m outs c r :=
  StableHlo.after_of_writes_sub hostOps11 _ hostOps11_writes h
theorem V28_of (c : Dev nD) (r : Ref sig .tc) (h : r ∉ hostOps11_1_W) : V28 m outs c r = V27 m outs c r :=
  StableHlo.after_of_writes_sub hostOps11_1 _ hostOps11_1_writes h
theorem V29_of (c : Dev nD) (r : Ref sig .tc) (h : r ∉ hostOps11_2_W) : V29 m outs c r = V28 m outs c r :=
  StableHlo.after_of_writes_sub hostOps11_2 _ hostOps11_2_writes h
theorem V30_of (c : Dev nD) (r : Ref sig .tc) (h : r ∉ ([main_v62] : List (Ref sig .tc))) : V30 m outs c r = V29 m outs c r := by
  simp only [V30, Function.update_of_ne (StableHlo.devRef_ne_of_ne (List.ne_of_not_mem_cons h) : (Proc.devRef .tc r : DevRef τ sig) ≠ Proc.devRef .tc main_v62)]
theorem V31_of (c : Dev nD) (r : Ref sig .tc) (h : r ∉ hostOps12_W) : V31 m outs c r = V30 m outs c r :=
  StableHlo.after_of_writes_sub hostOps12 _ hostOps12_writes h
theorem V32_of (c : Dev nD) (r : Ref sig .tc) (h : r ∉ ([main_v71] : List (Ref sig .tc))) : V32 m outs c r = V31 m outs c r := by
  simp only [V32, Function.update_of_ne (StableHlo.devRef_ne_of_ne (List.ne_of_not_mem_cons h) : (Proc.devRef .tc r : DevRef τ sig) ≠ Proc.devRef .tc main_v71)]
theorem V33_of (c : Dev nD) (r : Ref sig .tc) (h : r ∉ hostOps13_W) : V33 m outs c r = V32 m outs c r :=
  StableHlo.after_of_writes_sub hostOps13 _ hostOps13_writes h
theorem V34_of (c : Dev nD) (r : Ref sig .tc) (h : r ∉ hostOps13_1_W) : V34 m outs c r = V33 m outs c r :=
  StableHlo.after_of_writes_sub hostOps13_1 _ hostOps13_1_writes h
theorem V35_of (c : Dev nD) (r : Ref sig .tc) (h : r ∉ hostOps13_2_W) : V35 m outs c r = V34 m outs c r :=
  StableHlo.after_of_writes_sub hostOps13_2 _ hostOps13_2_writes h
theorem V36_of (c : Dev nD) (r : Ref sig .tc) (h : r ∉ hostOps13_3_W) : V36 m outs c r = V35 m outs c r :=
  StableHlo.after_of_writes_sub hostOps13_3 _ hostOps13_3_writes h
theorem V37_of (c : Dev nD) (r : Ref sig .tc) (h : r ∉ hostOps13_4_W) : V37 m outs c r = V36 m outs c r :=
  StableHlo.after_of_writes_sub hostOps13_4 _ hostOps13_4_writes h
theorem V38_of (c : Dev nD) (r : Ref sig .tc) (h : r ∉ hostOps13_5_W) : V38 m outs c r = V37 m outs c r :=
  StableHlo.after_of_writes_sub hostOps13_5 _ hostOps13_5_writes h
theorem V39_of (c : Dev nD) (r : Ref sig .tc) (h : r ∉ hostOps13_6_W) : V39 m outs c r = V38 m outs c r :=
  StableHlo.after_of_writes_sub hostOps13_6 _ hostOps13_6_writes h
theorem V40_of (c : Dev nD) (r : Ref sig .tc) (h : r ∉ hostOps13_7_W) : V40 m outs c r = V39 m outs c r :=
  StableHlo.after_of_writes_sub hostOps13_7 _ hostOps13_7_writes h
theorem V41_of (c : Dev nD) (r : Ref sig .tc) (h : r ∉ hostOps13_8_W) : V41 m outs c r = V40 m outs c r :=
  StableHlo.after_of_writes_sub hostOps13_8 _ hostOps13_8_writes h
theorem V42_of (c : Dev nD) (r : Ref sig .tc) (h : r ∉ ([main_v97] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v97)]
theorem V43_of (c : Dev nD) (r : Ref sig .tc) (h : r ∉ hostOps14_W) : V43 m outs c r = V42 m outs c r :=
  StableHlo.after_of_writes_sub hostOps14 _ hostOps14_writes h
theorem V44_of (c : Dev nD) (r : Ref sig .tc) (h : r ∉ hostOps14_1_W) : V44 m outs c r = V43 m outs c r :=
  StableHlo.after_of_writes_sub hostOps14_1 _ hostOps14_1_writes h
theorem V45_of (c : Dev nD) (r : Ref sig .tc) (h : r ∉ hostOps14_2_W) : V45 m outs c r = V44 m outs c r :=
  StableHlo.after_of_writes_sub hostOps14_2 _ hostOps14_2_writes h
theorem V46_of (c : Dev nD) (r : Ref sig .tc) (h : r ∉ ([main_v104] : List (Ref sig .tc))) : V46 m outs c r = V45 m outs c r := by
  simp only [V46, Function.update_of_ne (StableHlo.devRef_ne_of_ne (List.ne_of_not_mem_cons h) : (Proc.devRef .tc r : DevRef τ sig) ≠ Proc.devRef .tc main_v104)]
theorem V47_of (c : Dev nD) (r : Ref sig .tc) (h : r ∉ hostOps15_W) : V47 m outs c r = V46 m outs c r :=
  StableHlo.after_of_writes_sub hostOps15 _ hostOps15_writes h
theorem V48_of (c : Dev nD) (r : Ref sig .tc) (h : r ∉ hostOps15_1_W) : V48 m outs c r = V47 m outs c r :=
  StableHlo.after_of_writes_sub hostOps15_1 _ hostOps15_1_writes h
theorem V49_of (c : Dev nD) (r : Ref sig .tc) (h : r ∉ hostOps15_2_W) : V49 m outs c r = V48 m outs c r :=
  StableHlo.after_of_writes_sub hostOps15_2 _ hostOps15_2_writes h
theorem V50_of (c : Dev nD) (r : Ref sig .tc) (h : r ∉ hostOps15_3_W) : V50 m outs c r = V49 m outs c r :=
  StableHlo.after_of_writes_sub hostOps15_3 _ hostOps15_3_writes h
theorem V51_of (c : Dev nD) (r : Ref sig .tc) (h : r ∉ hostOps15_4_W) : V51 m outs c r = V50 m outs c r :=
  StableHlo.after_of_writes_sub hostOps15_4 _ hostOps15_4_writes h
theorem V52_of (c : Dev nD) (r : Ref sig .tc) (h : r ∉ ([main_v112] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v112)]
theorem V53_of (c : Dev nD) (r : Ref sig .tc) (h : r ∉ hostOps16_W) : V53 m outs c r = V52 m outs c r :=
  StableHlo.after_of_writes_sub hostOps16 _ hostOps16_writes h
theorem V54_of (c : Dev nD) (r : Ref sig .tc) (h : r ∉ ([main_v120] : List (Ref sig .tc))) : V54 m outs c r = V53 m outs c r := by
  simp only [V54, Function.update_of_ne (StableHlo.devRef_ne_of_ne (List.ne_of_not_mem_cons h) : (Proc.devRef .tc r : DevRef τ sig) ≠ Proc.devRef .tc main_v120)]
theorem V55_of (c : Dev nD) (r : Ref sig .tc) (h : r ∉ hostOps17_W) : V55 m outs c r = V54 m outs c r :=
  StableHlo.after_of_writes_sub hostOps17 _ hostOps17_writes h
theorem V56_of (c : Dev nD) (r : Ref sig .tc) (h : r ∉ ([main_v122] : List (Ref sig .tc))) : V56 m outs c r = V55 m outs c r := by
  simp only [V56, Function.update_of_ne (StableHlo.devRef_ne_of_ne (List.ne_of_not_mem_cons h) : (Proc.devRef .tc r : DevRef τ sig) ≠ Proc.devRef .tc main_v122)]

abbrev args : List (Ref sig .tc) := [main_arg0, main_arg1, main_arg2, main_arg3, main_arg4, main_arg5, main_arg6, main_arg7, main_arg8, main_arg9, main_arg10, main_arg11, main_arg12, main_arg13, main_arg14, main_arg15]

-- no host stretch writes an argument and no region may change one, so each is read unchanged through every valuation
theorem V56_arg (c : Dev nD) (r : Ref sig .tc) (h : r ∈ (args : List (Ref sig .tc))) : V56 m outs c r = m ((c : Thread nD τ).loc r) :=
  have n : ∀ {W : List (Ref sig .tc)}, (∀ a ∈ (args : List (Ref sig .tc)), a ∉ W) → r ∉ W := fun hW => hW r h
  (V56_of m outs c r (n (by decide))).trans <|
  (V55_of m outs c r (n (by decide))).trans <|
  (V54_of m outs c r (n (by decide))).trans <|
  (V53_of m outs c r (n (by decide))).trans <|
  (V52_of m outs c r (n (by decide))).trans <|
  (V51_of m outs c r (n (by decide))).trans <|
  (V50_of m outs c r (n (by decide))).trans <|
  (V49_of m outs c r (n (by decide))).trans <|
  (V48_of m outs c r (n (by decide))).trans <|
  (V47_of m outs c r (n (by decide))).trans <|
  (V46_of m outs c r (n (by decide))).trans <|
  (V45_of m outs c r (n (by decide))).trans <|
  (V44_of m outs c r (n (by decide))).trans <|
  (V43_of m outs c r (n (by decide))).trans <|
  (V42_of m outs c r (n (by decide))).trans <|
  (V41_of m outs c r (n (by decide))).trans <|
  (V40_of m outs c r (n (by decide))).trans <|
  (V39_of m outs c r (n (by decide))).trans <|
  (V38_of m outs c r (n (by decide))).trans <|
  (V37_of m outs c r (n (by decide))).trans <|
  (V36_of m outs c r (n (by decide))).trans <|
  (V35_of m outs c r (n (by decide))).trans <|
  (V34_of m outs c r (n (by decide))).trans <|
  (V33_of m outs c r (n (by decide))).trans <|
  (V32_of m outs c r (n (by decide))).trans <|
  (V31_of m outs c r (n (by decide))).trans <|
  (V30_of m outs c r (n (by decide))).trans <|
  (V29_of m outs c r (n (by decide))).trans <|
  (V28_of m outs c r (n (by decide))).trans <|
  (V27_of m outs c r (n (by decide))).trans <|
  (V26_of m outs c r (n (by decide))).trans <|
  (V25_of m outs c r (n (by decide))).trans <|
  (V24_of m outs c r (n (by decide))).trans <|
  (V23_of m outs c r (n (by decide))).trans <|
  (V22_of m outs c r (n (by decide))).trans <|
  (V21_of m outs c r (n (by decide))).trans <|
  (V20_of m outs c r (n (by decide))).trans <|
  (V19_of m outs c r (n (by decide))).trans <|
  (V18_of m outs c r (n (by decide))).trans <|
  (V17_of m outs c r (n (by decide))).trans <|
  (V16_of m outs c r (n (by decide))).trans <|
  (V15_of m outs c r (n (by decide))).trans <|
  (V14_of m outs c r (n (by decide))).trans <|
  (V13_of m outs c r (n (by decide))).trans <|
  (V12_of m outs c r (n (by decide))).trans <|
  (V11_of m outs c r (n (by decide))).trans <|
  (V10_of m outs c r (n (by decide))).trans <|
  (V9_of m outs c r (n (by decide))).trans <|
  (V8_of m outs c r (n (by decide))).trans <|
  (V7_of m outs c r (n (by decide))).trans <|
  (V6_of m outs c r (n (by decide))).trans <|
  (V5_of m outs c r (n (by decide))).trans <|
  (V4_of m outs c r (n (by decide))).trans <|
  (V3_of m outs c r (n (by decide))).trans <|
  (V2_of m outs c r (n (by decide))).trans <|
  (V1_of m c r (n (by decide))).trans rfl

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 19 → Dev nD → sProp (MT nD τ sig Ix (Elt F) ℕ U Lvl))

def hostSeg (ops : List (HloOp τ sig (Elt F))) (hsub : ops.Forall fun op => op.bufs ⊆ StableHlo.tcRefs τ sig) (hfresh : ops.Forall fun op => op.fresh = ∅)
    (V : Dev nD → Valuation τ sig (Elt F)) (Ek : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V Ek

def seg0 : HostSeg (Ix := Ix) (Name := ℕ) (U := U) (Lvl := Lvl) (pcfgs (F := F)) defs₀ 𝒱₀ L lv :=
  hostSeg 𝒱₀ L lv hostOps0 hostOps0_sub hostOps0_fresh (V0 m) (E 0)
def seg2 : HostSeg (Ix := Ix) (Name := ℕ) (U := U) (Lvl := Lvl) (pcfgs (F := F)) defs₀ 𝒱₀ L lv :=
  hostSeg 𝒱₀ L lv hostOps1 hostOps1_sub hostOps1_fresh (V2 m outs) (E 1)
def seg4 : HostSeg (Ix := Ix) (Name := ℕ) (U := U) (Lvl := Lvl) (pcfgs (F := F)) defs₀ 𝒱₀ L lv :=
  hostSeg 𝒱₀ L lv hostOps2 hostOps2_sub hostOps2_fresh (V4 m outs) (E 2)
def seg6 : HostSeg (Ix := Ix) (Name := ℕ) (U := U) (Lvl := Lvl) (pcfgs (F := F)) defs₀ 𝒱₀ L lv :=
  hostSeg 𝒱₀ L lv hostOps3 hostOps3_sub hostOps3_fresh (V6 m outs) (E 3)
def seg7 : HostSeg (Ix := Ix) (Name := ℕ) (U := U) (Lvl := Lvl) (pcfgs (F := F)) defs₀ 𝒱₀ L lv :=
  hostSeg 𝒱₀ L lv hostOps3_1 hostOps3_1_sub hostOps3_1_fresh (V7 m outs) (E 3)
def seg8 : HostSeg (Ix := Ix) (Name := ℕ) (U := U) (Lvl := Lvl) (pcfgs (F := F)) defs₀ 𝒱₀ L lv :=
  hostSeg 𝒱₀ L lv hostOps3_2 hostOps3_2_sub hostOps3_2_fresh (V8 m outs) (E 3)
def seg10 : HostSeg (Ix := Ix) (Name := ℕ) (U := U) (Lvl := Lvl) (pcfgs (F := F)) defs₀ 𝒱₀ L lv :=
  hostSeg 𝒱₀ L lv hostOps4 hostOps4_sub hostOps4_fresh (V10 m outs) (E 4)
def seg12 : HostSeg (Ix := Ix) (Name := ℕ) (U := U) (Lvl := Lvl) (pcfgs (F := F)) defs₀ 𝒱₀ L lv :=
  hostSeg 𝒱₀ L lv hostOps5 hostOps5_sub hostOps5_fresh (V12 m outs) (E 5)
def seg14 : HostSeg (Ix := Ix) (Name := ℕ) (U := U) (Lvl := Lvl) (pcfgs (F := F)) defs₀ 𝒱₀ L lv :=
  hostSeg 𝒱₀ L lv hostOps6 hostOps6_sub hostOps6_fresh (V14 m outs) (E 6)
def seg16 : HostSeg (Ix := Ix) (Name := ℕ) (U := U) (Lvl := Lvl) (pcfgs (F := F)) defs₀ 𝒱₀ L lv :=
  hostSeg 𝒱₀ L lv hostOps7 hostOps7_sub hostOps7_fresh (V16 m outs) (E 7)
def seg17 : HostSeg (Ix := Ix) (Name := ℕ) (U := U) (Lvl := Lvl) (pcfgs (F := F)) defs₀ 𝒱₀ L lv :=
  hostSeg 𝒱₀ L lv hostOps7_1 hostOps7_1_sub hostOps7_1_fresh (V17 m outs) (E 7)
def seg18 : HostSeg (Ix := Ix) (Name := ℕ) (U := U) (Lvl := Lvl) (pcfgs (F := F)) defs₀ 𝒱₀ L lv :=
  hostSeg 𝒱₀ L lv hostOps7_2 hostOps7_2_sub hostOps7_2_fresh (V18 m outs) (E 7)
def seg20 : HostSeg (Ix := Ix) (Name := ℕ) (U := U) (Lvl := Lvl) (pcfgs (F := F)) defs₀ 𝒱₀ L lv :=
  hostSeg 𝒱₀ L lv hostOps8 hostOps8_sub hostOps8_fresh (V20 m outs) (E 8)
def seg22 : HostSeg (Ix := Ix) (Name := ℕ) (U := U) (Lvl := Lvl) (pcfgs (F := F)) defs₀ 𝒱₀ L lv :=
  hostSeg 𝒱₀ L lv hostOps9 hostOps9_sub hostOps9_fresh (V22 m outs) (E 9)
def seg24 : HostSeg (Ix := Ix) (Name := ℕ) (U := U) (Lvl := Lvl) (pcfgs (F := F)) defs₀ 𝒱₀ L lv :=
  hostSeg 𝒱₀ L lv hostOps10 hostOps10_sub hostOps10_fresh (V24 m outs) (E 10)
def seg26 : HostSeg (Ix := Ix) (Name := ℕ) (U := U) (Lvl := Lvl) (pcfgs (F := F)) defs₀ 𝒱₀ L lv :=
  hostSeg 𝒱₀ L lv hostOps11 hostOps11_sub hostOps11_fresh (V26 m outs) (E 11)
def seg27 : HostSeg (Ix := Ix) (Name := ℕ) (U := U) (Lvl := Lvl) (pcfgs (F := F)) defs₀ 𝒱₀ L lv :=
  hostSeg 𝒱₀ L lv hostOps11_1 hostOps11_1_sub hostOps11_1_fresh (V27 m outs) (E 11)
def seg28 : HostSeg (Ix := Ix) (Name := ℕ) (U := U) (Lvl := Lvl) (pcfgs (F := F)) defs₀ 𝒱₀ L lv :=
  hostSeg 𝒱₀ L lv hostOps11_2 hostOps11_2_sub hostOps11_2_fresh (V28 m outs) (E 11)
def seg30 : HostSeg (Ix := Ix) (Name := ℕ) (U := U) (Lvl := Lvl) (pcfgs (F := F)) defs₀ 𝒱₀ L lv :=
  hostSeg 𝒱₀ L lv hostOps12 hostOps12_sub hostOps12_fresh (V30 m outs) (E 12)
def seg32 : HostSeg (Ix := Ix) (Name := ℕ) (U := U) (Lvl := Lvl) (pcfgs (F := F)) defs₀ 𝒱₀ L lv :=
  hostSeg 𝒱₀ L lv hostOps13 hostOps13_sub hostOps13_fresh (V32 m outs) (E 13)
def seg33 : HostSeg (Ix := Ix) (Name := ℕ) (U := U) (Lvl := Lvl) (pcfgs (F := F)) defs₀ 𝒱₀ L lv :=
  hostSeg 𝒱₀ L lv hostOps13_1 hostOps13_1_sub hostOps13_1_fresh (V33 m outs) (E 13)
def seg34 : HostSeg (Ix := Ix) (Name := ℕ) (U := U) (Lvl := Lvl) (pcfgs (F := F)) defs₀ 𝒱₀ L lv :=
  hostSeg 𝒱₀ L lv hostOps13_2 hostOps13_2_sub hostOps13_2_fresh (V34 m outs) (E 13)
def seg35 : HostSeg (Ix := Ix) (Name := ℕ) (U := U) (Lvl := Lvl) (pcfgs (F := F)) defs₀ 𝒱₀ L lv :=
  hostSeg 𝒱₀ L lv hostOps13_3 hostOps13_3_sub hostOps13_3_fresh (V35 m outs) (E 13)
def seg36 : HostSeg (Ix := Ix) (Name := ℕ) (U := U) (Lvl := Lvl) (pcfgs (F := F)) defs₀ 𝒱₀ L lv :=
  hostSeg 𝒱₀ L lv hostOps13_4 hostOps13_4_sub hostOps13_4_fresh (V36 m outs) (E 13)
def seg37 : HostSeg (Ix := Ix) (Name := ℕ) (U := U) (Lvl := Lvl) (pcfgs (F := F)) defs₀ 𝒱₀ L lv :=
  hostSeg 𝒱₀ L lv hostOps13_5 hostOps13_5_sub hostOps13_5_fresh (V37 m outs) (E 13)
def seg38 : HostSeg (Ix := Ix) (Name := ℕ) (U := U) (Lvl := Lvl) (pcfgs (F := F)) defs₀ 𝒱₀ L lv :=
  hostSeg 𝒱₀ L lv hostOps13_6 hostOps13_6_sub hostOps13_6_fresh (V38 m outs) (E 13)
def seg39 : HostSeg (Ix := Ix) (Name := ℕ) (U := U) (Lvl := Lvl) (pcfgs (F := F)) defs₀ 𝒱₀ L lv :=
  hostSeg 𝒱₀ L lv hostOps13_7 hostOps13_7_sub hostOps13_7_fresh (V39 m outs) (E 13)
def seg40 : HostSeg (Ix := Ix) (Name := ℕ) (U := U) (Lvl := Lvl) (pcfgs (F := F)) defs₀ 𝒱₀ L lv :=
  hostSeg 𝒱₀ L lv hostOps13_8 hostOps13_8_sub hostOps13_8_fresh (V40 m outs) (E 13)
def seg42 : HostSeg (Ix := Ix) (Name := ℕ) (U := U) (Lvl := Lvl) (pcfgs (F := F)) defs₀ 𝒱₀ L lv :=
  hostSeg 𝒱₀ L lv hostOps14 hostOps14_sub hostOps14_fresh (V42 m outs) (E 14)
def seg43 : HostSeg (Ix := Ix) (Name := ℕ) (U := U) (Lvl := Lvl) (pcfgs (F := F)) defs₀ 𝒱₀ L lv :=
  hostSeg 𝒱₀ L lv hostOps14_1 hostOps14_1_sub hostOps14_1_fresh (V43 m outs) (E 14)
def seg44 : HostSeg (Ix := Ix) (Name := ℕ) (U := U) (Lvl := Lvl) (pcfgs (F := F)) defs₀ 𝒱₀ L lv :=
  hostSeg 𝒱₀ L lv hostOps14_2 hostOps14_2_sub hostOps14_2_fresh (V44 m outs) (E 14)
def seg46 : HostSeg (Ix := Ix) (Name := ℕ) (U := U) (Lvl := Lvl) (pcfgs (F := F)) defs₀ 𝒱₀ L lv :=
  hostSeg 𝒱₀ L lv hostOps15 hostOps15_sub hostOps15_fresh (V46 m outs) (E 15)
def seg47 : HostSeg (Ix := Ix) (Name := ℕ) (U := U) (Lvl := Lvl) (pcfgs (F := F)) defs₀ 𝒱₀ L lv :=
  hostSeg 𝒱₀ L lv hostOps15_1 hostOps15_1_sub hostOps15_1_fresh (V47 m outs) (E 15)
def seg48 : HostSeg (Ix := Ix) (Name := ℕ) (U := U) (Lvl := Lvl) (pcfgs (F := F)) defs₀ 𝒱₀ L lv :=
  hostSeg 𝒱₀ L lv hostOps15_2 hostOps15_2_sub hostOps15_2_fresh (V48 m outs) (E 15)
def seg49 : HostSeg (Ix := Ix) (Name := ℕ) (U := U) (Lvl := Lvl) (pcfgs (F := F)) defs₀ 𝒱₀ L lv :=
  hostSeg 𝒱₀ L lv hostOps15_3 hostOps15_3_sub hostOps15_3_fresh (V49 m outs) (E 15)
def seg50 : HostSeg (Ix := Ix) (Name := ℕ) (U := U) (Lvl := Lvl) (pcfgs (F := F)) defs₀ 𝒱₀ L lv :=
  hostSeg 𝒱₀ L lv hostOps15_4 hostOps15_4_sub hostOps15_4_fresh (V50 m outs) (E 15)
def seg52 : HostSeg (Ix := Ix) (Name := ℕ) (U := U) (Lvl := Lvl) (pcfgs (F := F)) defs₀ 𝒱₀ L lv :=
  hostSeg 𝒱₀ L lv hostOps16 hostOps16_sub hostOps16_fresh (V52 m outs) (E 16)
def seg54 : HostSeg (Ix := Ix) (Name := ℕ) (U := U) (Lvl := Lvl) (pcfgs (F := F)) defs₀ 𝒱₀ L lv :=
  hostSeg 𝒱₀ L lv hostOps17 hostOps17_sub hostOps17_fresh (V54 m outs) (E 17)

end Segs

section

variable {Ix : Type} [DecidableEq Ix] {U : Type} [URA U] {Lvl : Type} [Preorder Lvl]

abbrev adm : (p : Fin 18) → (pcfgs (F := F) p).Adm := fun p => (cfgs p).toPCfg_adm

abbrev segs (𝒱₀ : Variants) (L : GSem nD τ sig → Finset Ix) (lv : GSem nD τ sig → Ix → Lvl) (E : Fin 19 → Dev nD → sProp (MT nD τ sig Ix (Elt F) ℕ U Lvl)) (ι : Ix)
    (pdats : (p : Fin 18) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (R11 : RegionSeg (pcfgs (F := F)) adm pdats ι defs₀ 𝒱₀ L lv 11) (R12 : RegionSeg (pcfgs (F := F)) adm pdats ι defs₀ 𝒱₀ L lv 12) (R13 : RegionSeg (pcfgs (F := F)) adm pdats ι defs₀ 𝒱₀ L lv 13) (R14 : RegionSeg (pcfgs (F := F)) adm pdats ι defs₀ 𝒱₀ L lv 14) (R15 : RegionSeg (pcfgs (F := F)) adm pdats ι defs₀ 𝒱₀ L lv 15) (R16 : RegionSeg (pcfgs (F := F)) adm pdats ι defs₀ 𝒱₀ L lv 16) (R17 : RegionSeg (pcfgs (F := F)) adm pdats ι defs₀ 𝒱₀ L lv 17) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E), .region R2, .host (seg6 m outs 𝒱₀ L lv E), .host (seg7 m outs 𝒱₀ L lv E), .host (seg8 m outs 𝒱₀ L lv E), .region R3, .host (seg10 m outs 𝒱₀ L lv E), .region R4, .host (seg12 m outs 𝒱₀ L lv E), .region R5, .host (seg14 m outs 𝒱₀ L lv E), .region R6, .host (seg16 m outs 𝒱₀ L lv E), .host (seg17 m outs 𝒱₀ L lv E), .host (seg18 m outs 𝒱₀ L lv E), .region R7, .host (seg20 m outs 𝒱₀ L lv E), .region R8, .host (seg22 m outs 𝒱₀ L lv E), .region R9, .host (seg24 m outs 𝒱₀ L lv E), .region R10, .host (seg26 m outs 𝒱₀ L lv E), .host (seg27 m outs 𝒱₀ L lv E), .host (seg28 m outs 𝒱₀ L lv E), .region R11, .host (seg30 m outs 𝒱₀ L lv E), .region R12, .host (seg32 m outs 𝒱₀ L lv E), .host (seg33 m outs 𝒱₀ L lv E), .host (seg34 m outs 𝒱₀ L lv E), .host (seg35 m outs 𝒱₀ L lv E), .host (seg36 m outs 𝒱₀ L lv E), .host (seg37 m outs 𝒱₀ L lv E), .host (seg38 m outs 𝒱₀ L lv E), .host (seg39 m outs 𝒱₀ L lv E), .host (seg40 m outs 𝒱₀ L lv E), .region R13, .host (seg42 m outs 𝒱₀ L lv E), .host (seg43 m outs 𝒱₀ L lv E), .host (seg44 m outs 𝒱₀ L lv E), .region R14, .host (seg46 m outs 𝒱₀ L lv E), .host (seg47 m outs 𝒱₀ L lv E), .host (seg48 m outs 𝒱₀ L lv E), .host (seg49 m outs 𝒱₀ L lv E), .host (seg50 m outs 𝒱₀ L lv E), .region R15, .host (seg52 m outs 𝒱₀ L lv E), .region R16, .host (seg54 m outs 𝒱₀ L lv E), .region R17]

end

end Cert.KernelIdeal.GenP

end
-- ==== Proof.KI.Reg0.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0 (x0 : Vec F S5000x4 .f32) (x1 : Vec F S4x64 .f32) (x2 : Vec F S1x64 .f32) : Vec F S5000x64 .f32 :=
  View.canon [⟨r0_3, k0_pay1 (View.ld x0 r0_0) (View.ld x1 r0_1) (View.ld x2 r0_2)⟩]

theorem cover0 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
theorem sound_kernel0 (c : Dev nD) (E : Set ℕ) (i : grid0.Coords)
    (arg1 : Memref sig .tc .vmem S5000x4 .f32) (harg1 : arg1.IsWhole) (arg2 : Memref sig .tc .vmem S4x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x4 .f32) (x1 : Vec F S4x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

theorem PhiIn0 (c : Dev nD) : Pipeline.ΦA spec0 c ⊢ (dat0 V c).Φ 0 := .rfl
theorem PhiOut0 (c : Dev nD) : (dat0 V c).Φ (Fin.last _) ⊢ Pipeline.ΦA spec0 c := .rfl
theorem owed0 (c : Dev nD) (t) : (dat0 V c).owed t = 0 := rfl
theorem q0 (c : Dev nD) (w) : (dat0 V c).q w = fullShare := rfl

end Cert.KernelIdeal.Hand
-- ==== Proof.KI.Reg2.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0

def out2 (x0 : Vec F S5000x64 .f32) (x1 : Vec F S64x64 .f32) : Vec F S5000x64 .f32 :=
  View.canon [⟨r2_0, k2_pay1 (View.ld x0 r2_0) (View.ld x1 r2_1)⟩]

theorem cover2 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

theorem PhiIn2 (c : Dev nD) : Pipeline.ΦA spec2 c ⊢ (dat2 V c).Φ 0 := by
  dsimp only [dat2]; exact .rfl

theorem PhiOut2 (c : Dev nD) : (dat2 V c).Φ (Fin.last _) ⊢ Pipeline.ΦA spec2 c := by
  dsimp only [dat2]; exact .rfl

theorem owed2 (c : Dev nD) (t) : (dat2 V c).owed t = 0 := by dsimp only [dat2]

theorem q2 (c : Dev nD) (w) : (dat2 V c).q w = fullShare := by dsimp only [dat2]

end Cert.KernelIdeal.Hand
-- ==== Proof.KI.Reg3.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

abbrev r3_a : Rect S2000x1 := Rect.unit (s := S2000x1) ![0, 0] S2000x1.size inb_S2000x1_S2000x1_0_0
abbrev r3_b : Rect S2000x64 := Rect.unit (s := S2000x64) ![0, 0] S2000x64.size inb_S2000x64_S2000x64_0_0

def out3 (x0 : Vec F S2000x1 .f32) (x1 : Vec F S2000x1 .f32) (x2 : Vec F S2000x64 .f32) (x3 : Vec F S2000x64 .f32) : Vec F S2000x64 .f32 :=
  View.canon [⟨r3_b, k3_pay1 (View.ld x0 r3_a) (View.ld x1 r3_a) (View.ld x2 r3_b) (View.ld x3 r3_b)⟩]

theorem cover3 (p0 : Vec F S2000x64 .f32) (y : S2000x64.Idx) :
    ∃ pc ∈ ([⟨r3_b, p0⟩] : List (View.Piece (Elt F) S2000x64 .f32)), y ∈ pc.1.set :=
  View.cover_of_tiled [⟨r3_b, p0⟩] S2000x64.size (by rfl) y

set_option maxHeartbeats 1000000 in
theorem sound_kernel3 (c : Dev nD) (E : Set ℕ) (i : grid3.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3 x0 x1 x2 x3)) -∗ K ⟨⟩))
      ⊢ wp frame (wpE (defs₀ (F := F)) Variants.none c none) E (cc3__edge_combine_kernel i arg1 harg1 arg2 harg2 arg3 harg3 arg4 harg4 arg5 harg5) K := by
  simp only [cc3__edge_combine_kernel_eq_skeleton]; unfold cc3__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem PhiIn3 (c : Dev nD) : Pipeline.ΦA spec3 c ⊢ (dat3 V c).Φ 0 := by dsimp only [dat3]; exact .rfl
theorem PhiOut3 (c : Dev nD) : (dat3 V c).Φ (Fin.last _) ⊢ Pipeline.ΦA spec3 c := by dsimp only [dat3]; exact .rfl
theorem owed3 (c : Dev nD) (t) : (dat3 V c).owed t = 0 := by dsimp only [dat3]
theorem q3 (c : Dev nD) (w) : (dat3 V c).q w = fullShare := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_S5000x64 : Rect S5000x64 := Rect.unit (s := S5000x64) ![0, 0] S5000x64.size inb_S5000x64_S5000x64_0_0
abbrev r4_S64x64 : Rect S64x64 := Rect.unit (s := S64x64) ![0, 0] S64x64.size inb_S64x64_S64x64_0_0
abbrev r4_S1x64 : Rect S1x64 := Rect.unit (s := S1x64) ![0, 0] S1x64.size inb_S1x64_S1x64_0_0

def out4 (x0 : Vec F S5000x64 .f32) (x1 : Vec F S64x64 .f32) (x2 : Vec F S1x64 .f32) (x3 : Vec F S5000x64 .f32) : Vec F S5000x64 .f32 :=
  View.canon [⟨r4_S5000x64, k4_pay1 (View.ld x0 r4_S5000x64) (View.ld x1 r4_S64x64) (View.ld x2 r4_S1x64) (View.ld x3 r4_S5000x64)⟩]

theorem cover4 (p0 : Vec F S5000x64 .f32) (y : S5000x64.Idx) :
    ∃ pc ∈ ([⟨r4_S5000x64, p0⟩] : List (View.Piece (Elt F) S5000x64 .f32)), y ∈ pc.1.set :=
  View.cover_of_tiled [⟨r4_S5000x64, p0⟩] S5000x64.size (by rfl) y

set_option maxHeartbeats 1000000 in
theorem sound_kernel4 (c : Dev nD) (E : Set ℕ) (i : grid4.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4 x0 x1 x2 x3)) -∗ K ⟨⟩))
      ⊢ wp frame (wpE (defs₀ (F := F)) Variants.none c none) E (cc4_kernel i arg1 harg1 arg2 harg2 arg3 harg3 arg4 harg4 arg5 harg5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4 (iblk4 V c 0 t) (iblk4 V c 1 t) (iblk4 V c 2 t) (iblk4 V c 3 t) := by dsimp only [dat4]

theorem PhiIn4 (c : Dev nD) : Pipeline.ΦA spec4 c ⊢ (dat4 V c).Φ 0 := by dsimp only [dat4]; exact .rfl
theorem PhiOut4 (c : Dev nD) : (dat4 V c).Φ (Fin.last _) ⊢ Pipeline.ΦA spec4 c := by dsimp only [dat4]; exact .rfl
theorem owed4 (c : Dev nD) (t) : (dat4 V c).owed t = 0 := by dsimp only [dat4]
theorem q4 (c : Dev nD) (w) : (dat4 V c).q w = fullShare := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation4 (c : Dev nD) : BodyObligation (dat4 (F := F) V c) (defs₀ (F := F)) Variants.none () Set.univ := fun t => by
  rw [bigSep_W4, bigSep_W4]
  exact sound_body4 V c t

end Cert.KernelIdeal.Hand
-- ==== Proof.KI.Reg6.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0

def out6 (x0 : Vec F S5000x64 .f32) (x1 : Vec F S64x64 .f32) : Vec F S5000x64 .f32 :=
  View.canon [⟨r6_0, k6_pay1 (View.ld x0 r6_0) (View.ld x1 r6_1)⟩]

theorem cover6 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

set_option maxHeartbeats 1000000 in
theorem sound_kernel6 (c : Dev nD) (E : Set ℕ) (i : grid6.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6 x0 x1)) -∗ K ⟨⟩))
      ⊢ wp frame (wpE (defs₀ (F := F)) Variants.none c none) E (cc6_kernel i arg1 harg1 arg2 harg2 arg3 harg3) K := by
  simp only [cc6_kernel_eq_skeleton]; unfold cc6_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

theorem PhiIn6 (c : Dev nD) : Pipeline.ΦA spec6 c ⊢ (dat6 V c).Φ 0 := by
  dsimp only [dat6]; exact .rfl

theorem PhiOut6 (c : Dev nD) : (dat6 V c).Φ (Fin.last _) ⊢ Pipeline.ΦA spec6 c := by
  dsimp only [dat6]; exact .rfl

theorem owed6 (c : Dev nD) (t) : (dat6 V c).owed t = 0 := by dsimp only [dat6]

theorem q6 (c : Dev nD) (w) : (dat6 V c).q w = fullShare := by dsimp only [dat6]

end Cert.KernelIdeal.Hand
-- ==== Proof.KI.Reg7.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

abbrev r7_a : Rect S2000x1 := Rect.unit (s := S2000x1) ![0, 0] S2000x1.size inb_S2000x1_S2000x1_0_0
abbrev r7_b : Rect S2000x64 := Rect.unit (s := S2000x64) ![0, 0] S2000x64.size inb_S2000x64_S2000x64_0_0

def out7 (x0 : Vec F S2000x1 .f32) (x1 : Vec F S2000x1 .f32) (x2 : Vec F S2000x64 .f32) (x3 : Vec F S2000x64 .f32) : Vec F S2000x64 .f32 :=
  View.canon [⟨r7_b, k7_pay1 (View.ld x0 r7_a) (View.ld x1 r7_a) (View.ld x2 r7_b) (View.ld x3 r7_b)⟩]

theorem cover7 (p0 : Vec F S2000x64 .f32) (y : S2000x64.Idx) :
    ∃ pc ∈ ([⟨r7_b, p0⟩] : List (View.Piece (Elt F) S2000x64 .f32)), y ∈ pc.1.set :=
  View.cover_of_tiled [⟨r7_b, p0⟩] S2000x64.size (by rfl) y

set_option maxHeartbeats 1000000 in
theorem sound_kernel7 (c : Dev nD) (E : Set ℕ) (i : grid7.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out7 x0 x1 x2 x3)) -∗ K ⟨⟩))
      ⊢ wp frame (wpE (defs₀ (F := F)) Variants.none c none) E (cc7__edge_combine_kernel i arg1 harg1 arg2 harg2 arg3 harg3 arg4 harg4 arg5 harg5) K := by
  simp only [cc7__edge_combine_kernel_eq_skeleton]; unfold cc7__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7 (iblk7 V c 0 t) (iblk7 V c 1 t) (iblk7 V c 2 t) (iblk7 V c 3 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = out7 (iblk7 V c 0 t) (iblk7 V c 1 t) (iblk7 V c 2 t) (iblk7 V c 3 t) := by dsimp only [dat7]

theorem PhiIn7 (c : Dev nD) : Pipeline.ΦA spec7 c ⊢ (dat7 V c).Φ 0 := by dsimp only [dat7]; exact .rfl
theorem PhiOut7 (c : Dev nD) : (dat7 V c).Φ (Fin.last _) ⊢ Pipeline.ΦA spec7 c := by dsimp only [dat7]; exact .rfl
theorem owed7 (c : Dev nD) (t) : (dat7 V c).owed t = 0 := by dsimp only [dat7]
theorem q7 (c : Dev nD) (w) : (dat7 V c).q w = fullShare := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ _ _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation7 (c : Dev nD) : BodyObligation (dat7 (F := F) V c) (defs₀ (F := F)) Variants.none () Set.univ := fun t => by
  rw [bigSep_W7, bigSep_W7]
  exact sound_body7 V c t

end Cert.KernelIdeal.Hand
-- ==== Proof.KI.Reg8.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev r8_S5000x64 : Rect S5000x64 := Rect.unit (s := S5000x64) ![0, 0] S5000x64.size inb_S5000x64_S5000x64_0_0
abbrev r8_S64x64 : Rect S64x64 := Rect.unit (s := S64x64) ![0, 0] S64x64.size inb_S64x64_S64x64_0_0
abbrev r8_S1x64 : Rect S1x64 := Rect.unit (s := S1x64) ![0, 0] S1x64.size inb_S1x64_S1x64_0_0

def out8 (x0 : Vec F S5000x64 .f32) (x1 : Vec F S64x64 .f32) (x2 : Vec F S1x64 .f32) (x3 : Vec F S5000x64 .f32) : Vec F S5000x64 .f32 :=
  View.canon [⟨r8_S5000x64, k8_pay1 (View.ld x0 r8_S5000x64) (View.ld x1 r8_S64x64) (View.ld x2 r8_S1x64) (View.ld x3 r8_S5000x64)⟩]

theorem cover8 (p0 : Vec F S5000x64 .f32) (y : S5000x64.Idx) :
    ∃ pc ∈ ([⟨r8_S5000x64, p0⟩] : List (View.Piece (Elt F) S5000x64 .f32)), y ∈ pc.1.set :=
  View.cover_of_tiled [⟨r8_S5000x64, p0⟩] S5000x64.size (by rfl) y

set_option maxHeartbeats 1000000 in
theorem sound_kernel8 (c : Dev nD) (E : Set ℕ) (i : grid8.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out8 x0 x1 x2 x3)) -∗ K ⟨⟩))
      ⊢ wp frame (wpE (defs₀ (F := F)) Variants.none c none) E (cc8_kernel i arg1 harg1 arg2 harg2 arg3 harg3 arg4 harg4 arg5 harg5) K := by
  simp only [cc8_kernel_eq_skeleton]; unfold cc8_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover8 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8 (iblk8 V c 0 t) (iblk8 V c 1 t) (iblk8 V c 2 t) (iblk8 V c 3 t) := by dsimp only [dat8]

theorem PhiIn8 (c : Dev nD) : Pipeline.ΦA spec8 c ⊢ (dat8 V c).Φ 0 := by dsimp only [dat8]; exact .rfl
theorem PhiOut8 (c : Dev nD) : (dat8 V c).Φ (Fin.last _) ⊢ Pipeline.ΦA spec8 c := by dsimp only [dat8]; exact .rfl
theorem owed8 (c : Dev nD) (t) : (dat8 V c).owed t = 0 := by dsimp only [dat8]
theorem q8 (c : Dev nD) (w) : (dat8 V c).q w = fullShare := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel8 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

end Cert.KernelIdeal.Hand
-- ==== Proof.KI.Reg10.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S5000x64 := Rect.unit (s := S5000x64) ![0, 0] S5000x64.size inb_S5000x64_S5000x64_0_0
abbrev r10_1 : Rect S64x64 := Rect.unit (s := S64x64) ![0, 0] S64x64.size inb_S64x64_S64x64_0_0

def out10 (x0 : Vec F S5000x64 .f32) (x1 : Vec F S64x64 .f32) : Vec F S5000x64 .f32 :=
  View.canon [⟨r10_0, k10_pay1 (View.ld x0 r10_0) (View.ld x1 r10_1)⟩]

theorem cover10 (p0 : Vec F S5000x64 .f32) (y : S5000x64.Idx) :
    ∃ pc ∈ ([⟨r10_0, p0⟩] : List (View.Piece (Elt F) S5000x64 .f32)), y ∈ pc.1.set :=
  View.cover_of_tiled [⟨r10_0, p0⟩] S5000x64.size (by rfl) y

set_option maxHeartbeats 1000000 in
theorem sound_kernel10 (c : Dev nD) (E : Set ℕ) (i : grid10.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10 x0 x1)) -∗ K ⟨⟩))
      ⊢ wp frame (wpE (defs₀ (F := F)) Variants.none c none) E (cc10_kernel i arg1 harg1 arg2 harg2 arg3 harg3) K := by
  simp only [cc10_kernel_eq_skeleton]; unfold cc10_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact sound_body10 V c t

theorem PhiIn10 (c : Dev nD) : Pipeline.ΦA spec10 c ⊢ (dat10 V c).Φ 0 := by
  dsimp only [dat10]; exact .rfl

theorem PhiOut10 (c : Dev nD) : (dat10 V c).Φ (Fin.last _) ⊢ Pipeline.ΦA spec10 c := by
  dsimp only [dat10]; exact .rfl

theorem owed10 (c : Dev nD) (t) : (dat10 V c).owed t = 0 := by dsimp only [dat10]

theorem q10 (c : Dev nD) (w) : (dat10 V c).q w = fullShare := by dsimp only [dat10]

end Cert.KernelIdeal.Hand
-- ==== Proof.KI.Reg11.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

abbrev r11_a : Rect S2000x1 := Rect.unit (s := S2000x1) ![0, 0] S2000x1.size inb_S2000x1_S2000x1_0_0
abbrev r11_b : Rect S2000x64 := Rect.unit (s := S2000x64) ![0, 0] S2000x64.size inb_S2000x64_S2000x64_0_0

def out11 (x0 : Vec F S2000x1 .f32) (x1 : Vec F S2000x1 .f32) (x2 : Vec F S2000x64 .f32) (x3 : Vec F S2000x64 .f32) : Vec F S2000x64 .f32 :=
  View.canon [⟨r11_b, k11_pay1 (View.ld x0 r11_a) (View.ld x1 r11_a) (View.ld x2 r11_b) (View.ld x3 r11_b)⟩]

theorem cover11 (p0 : Vec F S2000x64 .f32) (y : S2000x64.Idx) :
    ∃ pc ∈ ([⟨r11_b, p0⟩] : List (View.Piece (Elt F) S2000x64 .f32)), y ∈ pc.1.set :=
  View.cover_of_tiled [⟨r11_b, p0⟩] S2000x64.size (by rfl) y

set_option maxHeartbeats 1000000 in
theorem sound_kernel11 (c : Dev nD) (E : Set ℕ) (i : grid11.Coords) (arg1 : Memref sig .tc .vmem S2000x1 .f32) (harg1 : arg1.IsWhole) (arg2 : Memref sig .tc .vmem S2000x1 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole)
    (x0 : Vec F S2000x1 .f32) (x1 : Vec F S2000x1 .f32) (x2 : Vec F S2000x64 .f32) (x3 : Vec F S2000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out11 x0 x1 x2 x3)) -∗ K ⟨⟩))
      ⊢ wp frame (wpE (defs₀ (F := F)) Variants.none c none) E (cc11__edge_combine_kernel i arg1 harg1 arg2 harg2 arg3 harg3 arg4 harg4 arg5 harg5) K := by
  simp only [cc11__edge_combine_kernel_eq_skeleton]; unfold cc11__edge_combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11 (iblk11 V c 0 t) (iblk11 V c 1 t) (iblk11 V c 2 t) (iblk11 V c 3 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = out11 (iblk11 V c 0 t) (iblk11 V c 1 t) (iblk11 V c 2 t) (iblk11 V c 3 t) := by dsimp only [dat11]

theorem PhiIn11 (c : Dev nD) : Pipeline.ΦA spec11 c ⊢ (dat11 V c).Φ 0 := by dsimp only [dat11]; exact .rfl
theorem PhiOut11 (c : Dev nD) : (dat11 V c).Φ (Fin.last _) ⊢ Pipeline.ΦA spec11 c := by dsimp only [dat11]; exact .rfl
theorem owed11 (c : Dev nD) (t) : (dat11 V c).owed t = 0 := by dsimp only [dat11]
theorem q11 (c : Dev nD) (w) : (dat11 V c).q w = fullShare := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation11 (c : Dev nD) : BodyObligation (dat11 (F := F) V c) (defs₀ (F := F)) Variants.none () Set.univ := fun t => by
  rw [bigSep_W11, bigSep_W11]
  exact sound_body11 V c t

end Cert.KernelIdeal.Hand
-- ==== Proof.KI.Reg12.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

abbrev r12_S5000x64 : Rect S5000x64 := Rect.unit (s := S5000x64) ![0, 0] S5000x64.size inb_S5000x64_S5000x64_0_0
abbrev r12_S64x64 : Rect S64x64 := Rect.unit (s := S64x64) ![0, 0] S64x64.size inb_S64x64_S64x64_0_0
abbrev r12_S1x64 : Rect S1x64 := Rect.unit (s := S1x64) ![0, 0] S1x64.size inb_S1x64_S1x64_0_0

def out12 (x0 : Vec F S5000x64 .f32) (x1 : Vec F S64x64 .f32) (x2 : Vec F S1x64 .f32) (x3 : Vec F S5000x64 .f32) : Vec F S5000x64 .f32 :=
  View.canon [⟨r12_S5000x64, k12_pay1 (View.ld x0 r12_S5000x64) (View.ld x1 r12_S64x64) (View.ld x2 r12_S1x64) (View.ld x3 r12_S5000x64)⟩]

theorem cover12 (p0 : Vec F S5000x64 .f32) (y : S5000x64.Idx) :
    ∃ pc ∈ ([⟨r12_S5000x64, p0⟩] : List (View.Piece (Elt F) S5000x64 .f32)), y ∈ pc.1.set :=
  View.cover_of_tiled [⟨r12_S5000x64, p0⟩] S5000x64.size (by rfl) y

set_option maxHeartbeats 1000000 in
theorem sound_kernel12 (c : Dev nD) (E : Set ℕ) (i : grid12.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S5000x64 .f32) (harg5 : arg5.IsWhole)
    (x0 : Vec F S5000x64 .f32) (x1 : Vec F S64x64 .f32) (x2 : Vec F S1x64 .f32) (x3 : Vec F S5000x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out12 x0 x1 x2 x3)) -∗ K ⟨⟩))
      ⊢ wp frame (wpE (defs₀ (F := F)) Variants.none c none) E (cc12_kernel i arg1 harg1 arg2 harg2 arg3 harg3 arg4 harg4 arg5 harg5) K := by
  simp only [cc12_kernel_eq_skeleton]; unfold cc12_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = out12 (iblk12 V c 0 t) (iblk12 V c 1 t) (iblk12 V c 2 t) (iblk12 V c 3 t) := by dsimp only [dat12]

theorem PhiIn12 (c : Dev nD) : Pipeline.ΦA spec12 c ⊢ (dat12 V c).Φ 0 := by dsimp only [dat12]; exact .rfl
theorem PhiOut12 (c : Dev nD) : (dat12 V c).Φ (Fin.last _) ⊢ Pipeline.ΦA spec12 c := by dsimp only [dat12]; exact .rfl
theorem owed12 (c : Dev nD) (t) : (dat12 V c).owed t = 0 := by dsimp only [dat12]
theorem q12 (c : Dev nD) (w) : (dat12 V c).q w = fullShare := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.KI.Reg13.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond13_1 (i : grid13.Coords) : Prop :=
  (Scalar.cmpi .ne (Scalar.extui (Scalar.cmpi .eq (BitVec.ofNat 32 (i 0).val) 0#32)) 0#32) = 1#1
theorem hcond13_1 : ∀ t : Fin cfg13.N, cond13_1 (grid13.coords t) ↔ t.val = 0 :=
  (by decide +kernel : ∀ t : Fin grid13.N, cond13_1 (grid13.coords t) ↔ t.val = 0)
abbrev cond13_2 (i : grid13.Coords) : Prop := k13_cond2 i = 1#1
theorem hcond13_2 : ∀ t : Fin cfg13.N, cond13_2 (grid13.coords t) ↔ t.val = 97 :=
  (by decide +kernel : ∀ t : Fin grid13.N, cond13_2 (grid13.coords t) ↔ t.val = 97)

theorem liveAt13_0 : ∀ t : Fin cfg13.N, cfg13.idle 0 (grid13.coords t) = false := fun _ => rfl
theorem liveAt13_1 : ∀ t : Fin cfg13.N, cfg13.idle 1 (grid13.coords t) = false := fun _ => rfl
theorem idleAt13_2 : ∀ t : Fin cfg13.N, ¬cond13_2 (grid13.coords t) → cfg13.idle 2 (grid13.coords t) = true := by decide +kernel
theorem noFlush13_2 : ∀ t : Fin cfg13.N, ¬cond13_2 (grid13.coords t) → (cfg13.win 2).flush t = false := by decide +kernel
theorem liveAt13_2 : ∀ t : Fin cfg13.N, cond13_2 (grid13.coords t) → cfg13.idle 2 (grid13.coords t) = false := by decide +kernel

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

theorem off2_zero13 : (![0, 0] : Fin 2 → ℕ) = fun _ => 0 := by funext a; fin_cases a <;> rfl

abbrev scM13 : Memref sig .tc .vmem S512x2 .f32 := Memref.whole cc13_scratch0

local macro "whole_store_read13" : tactic => `(tactic| (
  sl_unfold_run_names
  refine (View.read_writes_eq_canon _ _ _ (fun y => ⟨_, List.mem_cons_self, View.mem_set_unit_zero off2_zero13 inb_S512x2_S512x2_0_0 y⟩)).trans ?_
  simp only [View.canon_cons_unit_zero (S := S512x2) off2_zero13, View.readCov_cons_toLoadRect, View.readAt_eq_ld,
    View.ld_unit_zero (S := S512x2) off2_zero13, View.ld_unit_zero (S := S1024x2) off2_zero13, View.ld_unit_zero (S := S1024x1) off2_zero13]))

set_option maxHeartbeats 1000000 in
theorem sound_kernel13_first (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : cond13_1 i) (hc2 : ¬cond13_2 i)
    (x0 : Vec F S1024x2 .f32) (x1 : Vec F S1024x1 .i32) (xi : Vec F S512x2 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k13_pay2 x1 x0 (k13_pay1 (F := F)))) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f3, %hf3, H3⟩, ⟨%d4, %f4, -, H4⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read13

set_option maxHeartbeats 1000000 in
theorem sound_kernel13_mid (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : ¬cond13_1 i) (hc2 : ¬cond13_2 i)
    (x0 : Vec F S1024x2 .f32) (x1 : Vec F S1024x1 .i32) (xi : Vec F S512x2 .f32) (xs : Vec F S512x2 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k13_pay2 x1 x0 xs)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%f3, %hf3, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read13

set_option maxHeartbeats 1000000 in
theorem sound_kernel13_last (c : Dev nD) (E : Set ℕ) (i : grid13.Coords)
    (arg1 : Memref sig .tc .vmem S1024x2 .f32) (harg1 : arg1.IsWhole) (arg2 : Memref sig .tc .vmem S1024x1 .i32) (harg2 : arg2.IsWhole)
    (arg3 : Memref sig .tc .vmem S512x2 .f32) (harg3 : arg3.IsWhole) (arg4 : Memref sig .tc .vmem S512x2 .f32) (harg4 : arg4.IsWhole)
    (hc1 : ¬cond13_1 i) (hc2 : cond13_2 i)
    (x0 : Vec F S1024x2 .f32) (x1 : Vec F S1024x1 .i32) (xs : Vec F S512x2 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k13_pay2 x1 x0 xs)
            ∗ owns (c : Thread nD τ) arg4 fullShare (k13_pay2 x1 x0 xs)) -∗ K ⟨⟩))
      ⊢ wp frame (wpE (defs₀ (F := F)) Variants.none c none) E (cc13_kernel i arg1 harg1 arg2 harg2 arg3 harg3 arg4 harg4) K := by
  simp only [cc13_kernel_eq_skeleton]; unfold cc13_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    whole_store_read13
  iexists _; isplitr
  swap; · iexact H4
  ipureintro
  whole_store_read13

def accAt13 (c : Dev nD) : (n : ℕ) → n ≤ cfg13.N → Vec F S512x2 .f32
  | 0, _ => k13_pay1
  | n + 1, hn => k13_pay2 (iblk13 V c 1 ⟨n, hn⟩) (iblk13 V c 0 ⟨n, hn⟩) (accAt13 c n (Nat.le_of_succ_le hn))

theorem accAt13_zero (c : Dev nD) (n : ℕ) (h : n ≤ cfg13.N) (hz : n = 0) : accAt13 V c n h = k13_pay1 := by
  subst hz; rfl

theorem accAt13_succ (c : Dev nD) (t : Fin cfg13.N) :
    accAt13 V c (t.val + 1) t.isLt = k13_pay2 (iblk13 V c 1 t) (iblk13 V c 0 t) (accAt13 V c t.val (Nat.le_of_lt t.isLt)) := rfl

def out13 (c : Dev nD) (t : Fin cfg13.N) : Vec F S512x2 .f32 := accAt13 V c (t.val + 1) t.isLt

def PhiS13 (c : Dev nD) : (n : ℕ) → n ≤ cfg13.N → sProp 𝕄
  | 0, _ => Pipeline.ΦA spec13 c
  | n + 1, hn => iprop(iprop(owns (c : Thread nD τ) scM13 fullShare (accAt13 V c (n + 1) hn)
      ∗ Pipeline.scopedRestBut (Ix := Unit) (Name := ℕ) (U := UR sig nD τ) (Lvl := ℕ) (Val := Elt F) spec13 c [cc13_scratch0]) ∗ (∃ r, prngReg c r))

theorem PhiS13_zero (c : Dev nD) (n : ℕ) (h : n ≤ cfg13.N) (hz : n = 0) : PhiS13 V c n h = Pipeline.ΦA spec13 c := by
  subst hz; rfl

theorem PhiS13_pos (c : Dev nD) (n : ℕ) (h : n ≤ cfg13.N) (hz : n ≠ 0) :
    PhiS13 V c n h = iprop(iprop(owns (c : Thread nD τ) scM13 fullShare (accAt13 V c n h)
      ∗ Pipeline.scopedRestBut (Ix := Unit) (Name := ℕ) (U := UR sig nD τ) (Lvl := ℕ) (Val := Elt F) spec13 c [cc13_scratch0]) ∗ (∃ r, prngReg c r)) := by
  cases n with
  | zero => exact absurd rfl hz
  | succ n => rfl

theorem PhiA13_eq (c : Dev nD) :
    (Pipeline.ΦA spec13 c : sProp 𝕄)
      = iprop(iprop((∃ d, owns (c : Thread nD τ) scM13 fullShare d)
          ∗ Pipeline.scopedRestBut (Ix := Unit) (Name := ℕ) (U := UR sig nD τ) (Lvl := ℕ) (Val := Elt F) spec13 c [cc13_scratch0]) ∗ (∃ r, prngReg c r)) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13 V c t
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]
theorem owed13 (c : Dev nD) (t : Fin (cfg13.N + 1)) : (dat13 V c).owed t = 0 := rfl
theorem q13 (c : Dev nD) (w : Fin cfg13.W) : (dat13 V c).q w = fullShare := rfl

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13 V c t := by dsimp only [dat13]
theorem after13_2_last (c : Dev nD) (t : Fin cfg13.N) (ht : t.val + 1 = cfg13.N) :
    (dat13 V c).after 2 t = accAt13 V c cfg13.N le_rfl := by
  rw [after13_2]; unfold out13; congr 1

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4800000 in
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl]
  rw [show (dat13 V c).Φ t.succ = PhiS13 V c (t.val + 1) t.isLt from rfl,
    PhiS13_pos V c (t.val + 1) t.isLt (Nat.succ_ne_zero _), accAt13_succ]
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  have hN : t.val < 98 := lt_of_lt_of_eq t.isLt (show cfg13.N = 98 from N_13)
  by_cases h0 : t.val = 0
  · have h1 : ¬t.val = 97 := by omega
    have hc1 : cond13_1 (grid13.coords t) := (hcond13_1 t).mpr h0
    have hc2 : ¬cond13_2 (grid13.coords t) := fun h => h1 ((hcond13_2 t).mp h)
    rw [Dat.leavesExact_idle (dat13 V c) 2 t (idleAt13_2 t hc2) (noFlush13_2 t hc2)]
    rw [PhiS13_castSucc V c t, PhiS13_zero V c _ _ h0, PhiA13_eq, accAt13_zero V c _ _ h0]
    iintro ⟨⟨⟨HS, HR⟩, Hg⟩, Ho, ⟨%d0, H0⟩, ⟨%d1, H1⟩, ⟨%d2, H2⟩⟩
    iapply (sound_kernel13_first c Set.univ (grid13.coords t) _ _ _ _ _ _ _ _ hc1 hc2 (iblk13 V c 0 t) (iblk13 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hc1 : ¬cond13_1 (grid13.coords t) := fun h => h0 ((hcond13_1 t).mp h)
    rw [PhiS13_castSucc V c t, PhiS13_pos V c _ _ h0]
    by_cases h1 : t.val = 97
    · have hc2 : cond13_2 (grid13.coords t) := (hcond13_2 t).mpr h1
      rw [show (dat13 V c).leavesExact 2 t = owns (c : Thread nD τ) (st13_2 t) fullShare ((dat13 V c).after 2 t) from by
        unfold Dat.leavesExact; rw [liveAt13_2 t hc2], after13_2]
      unfold out13; rw [accAt13_succ]
      iintro ⟨⟨⟨HS, HR⟩, Hg⟩, Ho, ⟨%d0, H0⟩, ⟨%d1, H1⟩, ⟨%d2, H2⟩⟩
      iapply (sound_kernel13_last c Set.univ (grid13.coords t) _ _ _ _ _ _ _ _ hc1 hc2 (iblk13 V c 0 t) (iblk13 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc2 : ¬cond13_2 (grid13.coords t) := fun h => h1 ((hcond13_2 t).mp h)
      rw [Dat.leavesExact_idle (dat13 V c) 2 t (idleAt13_2 t hc2) (noFlush13_2 t hc2)]
      iintro ⟨⟨⟨HS, HR⟩, Hg⟩, Ho, ⟨%d0, H0⟩, ⟨%d1, H1⟩, ⟨%d2, H2⟩⟩
      iapply (sound_kernel13_mid c Set.univ (grid13.coords t) _ _ _ _ _ _ _ _ hc1 hc2 (iblk13 V c 0 t) (iblk13 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation13 (c : Dev nD) : BodyObligation (dat13 (F := F) V c) (defs₀ (F := F)) Variants.none () Set.univ := fun t => by
  rw [bigSep_W13, bigSep_W13]
  exact sound_body13 V c t

theorem PhiIn13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

theorem PhiOut13 (c : Dev nD) : (dat13 V c).Φ (Fin.last _) ⊢ Pipeline.ΦA spec13 c := by
  rw [show (dat13 V c).Φ (Fin.last _) = PhiS13 V c (Fin.last cfg13.N).val (Nat.le_of_lt_succ (Fin.last cfg13.N).isLt) from rfl,
    PhiS13_pos V c _ _ (by rw [Fin.val_last]; have : cfg13.N = 98 := N_13; omega), PhiA13_eq]
  iintro ⟨⟨HS, HR⟩, Hg⟩
  isplitr [Hg]
  · isplitl [HS]
    · iexists _; iexact HS
    iexact HR
  iexact Hg

end Cert.KernelIdeal.Hand

end
-- ==== Proof.KI.Reg14.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S512x1 := Rect.unit (s := S512x1) ![0, 0] S512x1.size inb_S512x1_S512x1_0_0
abbrev r14_1 : Rect S1024x1 := Rect.unit (s := S1024x1) ![0, 0] S1024x1.size inb_S1024x1_S1024x1_0_0

def out14 (x0 : Vec F S512x1 .f32) (x1 : Vec F S1024x1 .i32) : Vec F S1024x1 .f32 :=
  View.canon [⟨r14_1, k14_pay1 (View.ld x1 r14_1) (View.ld x0 r14_0)⟩]

theorem cover14 (p0 : Vec F S1024x1 .f32) (y : S1024x1.Idx) :
    ∃ pc ∈ ([⟨r14_1, p0⟩] : List (View.Piece (Elt F) S1024x1 .f32)), y ∈ pc.1.set :=
  View.cover_of_tiled [⟨r14_1, p0⟩] S1024x1.size (by rfl) y

set_option maxHeartbeats 1000000 in
theorem sound_kernel14 (c : Dev nD) (E : Set ℕ) (i : grid14.Coords) (arg1 : Memref sig .tc .vmem S512x1 .f32) (harg1 : arg1.IsWhole) (arg2 : Memref sig .tc .vmem S1024x1 .i32) (harg2 : arg2.IsWhole) (arg3 : Memref sig .tc .vmem S1024x1 .f32) (harg3 : arg3.IsWhole)
    (x0 : Vec F S512x1 .f32) (x1 : Vec F S1024x1 .i32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14 x0 x1)) -∗ K ⟨⟩))
      ⊢ wp frame (wpE (defs₀ (F := F)) Variants.none c none) E (cc14_kernel i arg1 harg1 arg2 harg2 arg3 harg3) K := by
  simp only [cc14_kernel_eq_skeleton]; unfold cc14_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14 (iblk14 V c 0 t) (iblk14 V c 1 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation14 (c : Dev nD) : BodyObligation (dat14 (F := F) V c) (defs₀ (F := F)) Variants.none () Set.univ := fun t => by
  rw [bigSep_W14, bigSep_W14]
  exact sound_body14 V c t

theorem PhiIn14 (c : Dev nD) : Pipeline.ΦA spec14 c ⊢ (dat14 V c).Φ 0 := by
  dsimp only [dat14]; exact .rfl

theorem PhiOut14 (c : Dev nD) : (dat14 V c).Φ (Fin.last _) ⊢ Pipeline.ΦA spec14 c := by
  dsimp only [dat14]; exact .rfl

theorem owed14 (c : Dev nD) (t) : (dat14 V c).owed t = 0 := by dsimp only [dat14]

theorem q14 (c : Dev nD) (w) : (dat14 V c).q w = fullShare := by dsimp only [dat14]

end Cert.KernelIdeal.Hand
-- ==== Proof.KI.Reg15.lean ====
import proofs.«408151_j68813966016636_2_alg».proof.Proof.Gen.KernelIdeal.Launch
import proofs.«408151_j68813966016636_2_alg».proof.Proof.Gen.KernelIdeal.Skeleton
import proofs.«408151_j68813966016636_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond15_1 (i : grid15.Coords) : Prop :=
  (Scalar.cmpi .ne (Scalar.extui (Scalar.cmpi .eq (BitVec.ofNat 32 (i 0).val) 0#32)) 0#32) = 1#1
theorem hcond15_1 : ∀ t : Fin cfg15.N, cond15_1 (grid15.coords t) ↔ t.val = 0 :=
  (by decide +kernel : ∀ t : Fin grid15.N, cond15_1 (grid15.coords t) ↔ t.val = 0)
abbrev cond15_2 (i : grid15.Coords) : Prop := k15_cond2 i = 1#1
theorem hcond15_2 : ∀ t : Fin cfg15.N, cond15_2 (grid15.coords t) ↔ t.val = 97 :=
  (by decide +kernel : ∀ t : Fin grid15.N, cond15_2 (grid15.coords t) ↔ t.val = 97)

theorem liveAt15_0 : ∀ t : Fin cfg15.N, cfg15.idle 0 (grid15.coords t) = false := fun _ => rfl
theorem liveAt15_1 : ∀ t : Fin cfg15.N, cfg15.idle 1 (grid15.coords t) = false := fun _ => rfl
theorem idleAt15_2 : ∀ t : Fin cfg15.N, ¬cond15_2 (grid15.coords t) → cfg15.idle 2 (grid15.coords t) = true := by decide +kernel
theorem noFlush15_2 : ∀ t : Fin cfg15.N, ¬cond15_2 (grid15.coords t) → (cfg15.win 2).flush t = false := by decide +kernel
theorem liveAt15_2 : ∀ t : Fin cfg15.N, cond15_2 (grid15.coords t) → cfg15.idle 2 (grid15.coords t) = false := by decide +kernel

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

theorem off2_zero15 : (![0, 0] : Fin 2 → ℕ) = fun _ => 0 := by funext a; fin_cases a <;> rfl

abbrev scM15 : Memref sig .tc .vmem S512x65 .f32 := Memref.whole cc15_scratch0

local macro "whole_store_read15" : tactic => `(tactic| (
  sl_unfold_run_names
  refine (View.read_writes_eq_canon _ _ _ (fun y => ⟨_, List.mem_cons_self, View.mem_set_unit_zero off2_zero15 inb_S512x65_S512x65_0_0 y⟩)).trans ?_
  simp only [View.canon_cons_unit_zero (S := S512x65) off2_zero15, View.readCov_cons_toLoadRect, View.readAt_eq_ld,
    View.ld_unit_zero (S := S512x65) off2_zero15, View.ld_unit_zero (S := S1024x65) off2_zero15, View.ld_unit_zero (S := S1024x1) off2_zero15]))

set_option maxHeartbeats 1000000 in
theorem sound_kernel15_first (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : cond15_1 i) (hc2 : ¬cond15_2 i)
    (x0 : Vec F S1024x65 .f32) (x1 : Vec F S1024x1 .i32) (xi : Vec F S512x65 .f32) (K : PUnit → sProp 𝕄) :
    iprop(owns (c : Thread nD τ) arg1 fullShare x0 ∗ owns (c : Thread nD τ) arg2 fullShare x1 ∗ owns (c : Thread nD τ) arg3 fullShare xi
        ∗ (∃ d, owns (c : Thread nD τ) arg4 fullShare d)
        ∗ (iprop(owns (c : Thread nD τ) arg1 fullShare x0 ∗ owns (c : Thread nD τ) arg2 fullShare x1 ∗ owns (c : Thread nD τ) arg3 fullShare xi
            ∗ owns (c : Thread nD τ) arg4 fullShare (k15_pay2 x1 x0 (k15_pay1 (F := F)))) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f3, %hf3, H3⟩, ⟨%d4, %f4, -, H4⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read15

set_option maxHeartbeats 1000000 in
theorem sound_kernel15_mid (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : ¬cond15_1 i) (hc2 : ¬cond15_2 i)
    (x0 : Vec F S1024x65 .f32) (x1 : Vec F S1024x1 .i32) (xi : Vec F S512x65 .f32) (xs : Vec F S512x65 .f32) (K : PUnit → sProp 𝕄) :
    iprop(owns (c : Thread nD τ) arg1 fullShare x0 ∗ owns (c : Thread nD τ) arg2 fullShare x1 ∗ owns (c : Thread nD τ) arg3 fullShare xi
        ∗ owns (c : Thread nD τ) arg4 fullShare xs
        ∗ (iprop(owns (c : Thread nD τ) arg1 fullShare x0 ∗ owns (c : Thread nD τ) arg2 fullShare x1 ∗ owns (c : Thread nD τ) arg3 fullShare xi
            ∗ owns (c : Thread nD τ) arg4 fullShare (k15_pay2 x1 x0 xs)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%f3, %hf3, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; exact hf3
    iexact H3
  iexists _; isplitr
  swap; · iexact H4
  ipureintro
  whole_store_read15

set_option maxHeartbeats 1000000 in
theorem sound_kernel15_last (c : Dev nD) (E : Set ℕ) (i : grid15.Coords)
    (arg1 : Memref sig .tc .vmem S1024x65 .f32) (harg1 : arg1.IsWhole) (arg2 : Memref sig .tc .vmem S1024x1 .i32) (harg2 : arg2.IsWhole)
    (arg3 : Memref sig .tc .vmem S512x65 .f32) (harg3 : arg3.IsWhole) (arg4 : Memref sig .tc .vmem S512x65 .f32) (harg4 : arg4.IsWhole)
    (hc1 : ¬cond15_1 i) (hc2 : cond15_2 i)
    (x0 : Vec F S1024x65 .f32) (x1 : Vec F S1024x1 .i32) (xs : Vec F S512x65 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs
        ∗ (iprop(owns (c : Thread nD τ) arg1 fullShare x0 ∗ owns (c : Thread nD τ) arg2 fullShare x1
            ∗ owns (c : Thread nD τ) arg3 fullShare (k15_pay2 x1 x0 xs)
            ∗ owns (c : Thread nD τ) arg4 fullShare (k15_pay2 x1 x0 xs)) -∗ K ⟨⟩))
      ⊢ wp frame (wpE (defs₀ (F := F)) Variants.none c none) E (cc15_kernel i arg1 harg1 arg2 harg2 arg3 harg3 arg4 harg4) K := by
  simp only [cc15_kernel_eq_skeleton]; unfold cc15_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    whole_store_read15
  iexists _; isplitr
  swap; · iexact H4
  ipureintro
  whole_store_read15

def accAt15 (c : Dev nD) : (n : ℕ) → n ≤ cfg15.N → Vec F S512x65 .f32
  | 0, _ => k15_pay1
  | n + 1, hn => k15_pay2 (iblk15 V c 1 ⟨n, hn⟩) (iblk15 V c 0 ⟨n, hn⟩) (accAt15 c n (Nat.le_of_succ_le hn))

theorem accAt15_zero (c : Dev nD) (n : ℕ) (h : n ≤ cfg15.N) (hz : n = 0) : accAt15 V c n h = k15_pay1 := by
  subst hz; rfl

theorem accAt15_succ (c : Dev nD) (t : Fin cfg15.N) :
    accAt15 V c (t.val + 1) t.isLt = k15_pay2 (iblk15 V c 1 t) (iblk15 V c 0 t) (accAt15 V c t.val (Nat.le_of_lt t.isLt)) := rfl

def out15 (c : Dev nD) (t : Fin cfg15.N) : Vec F S512x65 .f32 := accAt15 V c (t.val + 1) t.isLt

def PhiS15 (c : Dev nD) : (n : ℕ) → n ≤ cfg15.N → sProp 𝕄
  | 0, _ => Pipeline.ΦA spec15 c
  | n + 1, hn => iprop(iprop(owns (c : Thread nD τ) scM15 fullShare (accAt15 V c (n + 1) hn)
      ∗ Pipeline.scopedRestBut (Ix := Unit) (Name := ℕ) (U := UR sig nD τ) (Lvl := ℕ) (Val := Elt F) spec15 c [cc15_scratch0]) ∗ (∃ r, prngReg c r))

theorem PhiS15_zero (c : Dev nD) (n : ℕ) (h : n ≤ cfg15.N) (hz : n = 0) : PhiS15 V c n h = Pipeline.ΦA spec15 c := by
  subst hz; rfl

theorem PhiS15_pos (c : Dev nD) (n : ℕ) (h : n ≤ cfg15.N) (hz : n ≠ 0) :
    PhiS15 V c n h = iprop(iprop(owns (c : Thread nD τ) scM15 fullShare (accAt15 V c n h)
      ∗ Pipeline.scopedRestBut (Ix := Unit) (Name := ℕ) (U := UR sig nD τ) (Lvl := ℕ) (Val := Elt F) spec15 c [cc15_scratch0]) ∗ (∃ r, prngReg c r)) := by
  cases n with
  | zero => exact absurd rfl hz
  | succ n => rfl

theorem PhiA15_eq (c : Dev nD) :
    (Pipeline.ΦA spec15 c : sProp 𝕄)
      = iprop(iprop((∃ d, owns (c : Thread nD τ) scM15 fullShare d)
          ∗ Pipeline.scopedRestBut (Ix := Unit) (Name := ℕ) (U := UR sig nD τ) (Lvl := ℕ) (Val := Elt F) spec15 c [cc15_scratch0]) ∗ (∃ r, prngReg c r)) := by
  unfold Pipeline.ΦA; rw [scopedRest15_split]; simp only [scM15, owns_whole]; try rfl

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15 V c t
  Φ t := PhiS15 V c t.val (Nat.le_of_lt_succ t.isLt)
  q _ := fullShare
  owed _ := 0

theorem A_eq15 (c : Dev nD) (w : Fin cfg15.W) : (dat15 V c).A w = V c (Pipeline.arrRef spec15 w) := by
  dsimp only [dat15]
theorem owed15 (c : Dev nD) (t : Fin (cfg15.N + 1)) : (dat15 V c).owed t = 0 := rfl
theorem q15 (c : Dev nD) (w : Fin cfg15.W) : (dat15 V c).q w = fullShare := rfl

theorem PhiS15_castSucc (c : Dev nD) (t : Fin cfg15.N) :
    (dat15 V c).Φ t.castSucc = PhiS15 V c t.val (Nat.le_of_lt t.isLt) := by
  dsimp only [dat15]; simp only [Fin.coe_castSucc]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15 V c t := by dsimp only [dat15]
theorem after15_2_last (c : Dev nD) (t : Fin cfg15.N) (ht : t.val + 1 = cfg15.N) :
    (dat15 V c).after 2 t = accAt15 V c cfg15.N le_rfl := by
  rw [after15_2]; unfold out15; congr 1

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ (dat15 V c).leavesExact 0 t
    ∗ (dat15 V c).leavesExact 1 t
    ∗ (dat15 V c).leavesExact 2 t)

set_option maxHeartbeats 4800000 in
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).owesAt () t.succ = (dat15 V c).owesAt () t.castSucc from rfl]
  rw [show (dat15 V c).Φ t.succ = PhiS15 V c (t.val + 1) t.isLt from rfl,
    PhiS15_pos V c (t.val + 1) t.isLt (Nat.succ_ne_zero _), accAt15_succ]
  rw [show (dat15 V c).leavesExact 0 t = owns (c : Thread nD τ) (st15_0 t) fullShare ((dat15 V c).after 0 t) from by
    unfold Dat.leavesExact; rw [liveAt15_0 t], after15_0]
  rw [show (dat15 V c).leavesExact 1 t = owns (c : Thread nD τ) (st15_1 t) fullShare ((dat15 V c).after 1 t) from by
    unfold Dat.leavesExact; rw [liveAt15_1 t], after15_1]
  have hN : t.val < 98 := lt_of_lt_of_eq t.isLt (show cfg15.N = 98 from N_15)
  by_cases h0 : t.val = 0
  · have h1 : ¬t.val = 97 := by omega
    have hc1 : cond15_1 (grid15.coords t) := (hcond15_1 t).mpr h0
    have hc2 : ¬cond15_2 (grid15.coords t) := fun h => h1 ((hcond15_2 t).mp h)
    rw [Dat.leavesExact_idle (dat15 V c) 2 t (idleAt15_2 t hc2) (noFlush15_2 t hc2)]
    rw [PhiS15_castSucc V c t, PhiS15_zero V c _ _ h0, PhiA15_eq, accAt15_zero V c _ _ h0]
    iintro ⟨⟨⟨HS, HR⟩, Hg⟩, Ho, ⟨%d0, H0⟩, ⟨%d1, H1⟩, ⟨%d2, H2⟩⟩
    iapply (sound_kernel15_first c Set.univ (grid15.coords t) _ _ _ _ _ _ _ _ hc1 hc2 (iblk15 V c 0 t) (iblk15 V c 1 t) _ _)
    isplitl [H0]; · iexact H0
    isplitl [H1]; · iexact H1
    isplitl [H2]; · iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexists _; iexact H2
  · have hc1 : ¬cond15_1 (grid15.coords t) := fun h => h0 ((hcond15_1 t).mp h)
    rw [PhiS15_castSucc V c t, PhiS15_pos V c _ _ h0]
    by_cases h1 : t.val = 97
    · have hc2 : cond15_2 (grid15.coords t) := (hcond15_2 t).mpr h1
      rw [show (dat15 V c).leavesExact 2 t = owns (c : Thread nD τ) (st15_2 t) fullShare ((dat15 V c).after 2 t) from by
        unfold Dat.leavesExact; rw [liveAt15_2 t hc2], after15_2]
      unfold out15; rw [accAt15_succ]
      iintro ⟨⟨⟨HS, HR⟩, Hg⟩, Ho, ⟨%d0, H0⟩, ⟨%d1, H1⟩, ⟨%d2, H2⟩⟩
      iapply (sound_kernel15_last c Set.univ (grid15.coords t) _ _ _ _ _ _ _ _ hc1 hc2 (iblk15 V c 0 t) (iblk15 V c 1 t) _ _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · have hc2 : ¬cond15_2 (grid15.coords t) := fun h => h1 ((hcond15_2 t).mp h)
      rw [Dat.leavesExact_idle (dat15 V c) 2 t (idleAt15_2 t hc2) (noFlush15_2 t hc2)]
      iintro ⟨⟨⟨HS, HR⟩, Hg⟩, Ho, ⟨%d0, H0⟩, ⟨%d1, H1⟩, ⟨%d2, H2⟩⟩
      iapply (sound_kernel15_mid c Set.univ (grid15.coords t) _ _ _ _ _ _ _ _ hc1 hc2 (iblk15 V c 0 t) (iblk15 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexists _; iexact H2

theorem body_obligation15 (c : Dev nD) : BodyObligation (dat15 (F := F) V c) (defs₀ (F := F)) Variants.none () Set.univ := fun t => by
  rw [bigSep_W15, bigSep_W15]
  exact sound_body15 V c t

theorem PhiIn15 (c : Dev nD) : Pipeline.ΦA spec15 c ⊢ (dat15 V c).Φ 0 := by
  rw [show (dat15 V c).Φ 0 = PhiS15 V c 0 (Nat.zero_le _) from rfl, PhiS15_zero V c 0 _ rfl]
  try exact Idealize.SL.BI.Entails.refl _

theorem PhiOut15 (c : Dev nD) : (dat15 V c).Φ (Fin.last _) ⊢ Pipeline.ΦA spec15 c := by
  rw [show (dat15 V c).Φ (Fin.last _) = PhiS15 V c (Fin.last cfg15.N).val (Nat.le_of_lt_succ (Fin.last cfg15.N).isLt) from rfl,
    PhiS15_pos V c _ _ (by rw [Fin.val_last]; have : cfg15.N = 98 := N_15; omega), PhiA15_eq]
  iintro ⟨⟨HS, HR⟩, Hg⟩
  isplitr [Hg]
  · isplitl [HS]
    · iexists _; iexact HS
    iexact HR
  iexact Hg

end Cert.KernelIdeal.Hand

end
-- ==== Proof.KI.Stages.lean ====
import proofs.«408151_j68813966016636_2_alg».proof.Proof.KI.RegionsP
import proofs.«408151_j68813966016636_2_alg».proof.Proof.KI.Reg0
import proofs.«408151_j68813966016636_2_alg».proof.Proof.KI.Reg1
import proofs.«408151_j68813966016636_2_alg».proof.Proof.KI.Reg2
import proofs.«408151_j68813966016636_2_alg».proof.Proof.KI.Reg3
import proofs.«408151_j68813966016636_2_alg».proof.Proof.KI.Reg4
import proofs.«408151_j68813966016636_2_alg».proof.Proof.KI.Reg5
import proofs.«408151_j68813966016636_2_alg».proof.Proof.KI.Reg6
import proofs.«408151_j68813966016636_2_alg».proof.Proof.KI.Reg7
import proofs.«408151_j68813966016636_2_alg».proof.Proof.KI.Reg8
import proofs.«408151_j68813966016636_2_alg».proof.Proof.KI.Reg9
import proofs.«408151_j68813966016636_2_alg».proof.Proof.KI.Reg10
import proofs.«408151_j68813966016636_2_alg».proof.Proof.KI.Reg11
import proofs.«408151_j68813966016636_2_alg».proof.Proof.KI.Reg12
import proofs.«408151_j68813966016636_2_alg».proof.Proof.KI.Reg13
import proofs.«408151_j68813966016636_2_alg».proof.Proof.KI.Reg14
import proofs.«408151_j68813966016636_2_alg».proof.Proof.KI.Reg15
import proofs.«408151_j68813966016636_2_alg».proof.Proof.KI.Reg16
import proofs.«408151_j68813966016636_2_alg».proof.Proof.KI.Reg17
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

abbrev tcOf (W : Dev nD → Valuation τ sig (Elt F)) : (c : Dev nD) → (b : Ref sig .tc) → Buf (Elt F) ((c : Thread nD τ).loc b) :=
  fun c b => W c b

variable {n k : ℕ} {V : Outs (F := F) → Dev nD → Valuation τ sig (Elt F)}

def Agree (n : ℕ) (o o' : Outs (F := F)) : Prop := ∀ j, j ≤ n → o j = o' j

def Reads (n : ℕ) (V : Outs (F := F) → Dev nD → Valuation τ sig (Elt F)) : Prop := ∀ ⦃o o'⦄, Agree n o o' → V o = V o'

theorem Reads.const (W : Dev nD → Valuation τ sig (Elt F)) : Reads 0 fun _ => W := fun _ _ _ => rfl

-- the valuation after a list of operations is a function of the valuation before it
theorem Reads.after {ops : List (HloOp τ sig (Elt F))} (h : Reads n V) : Reads n fun o c => StableHlo.after ops (V o c) :=
  fun _ _ ho => congrArg (fun W c => StableHlo.after ops (W c)) (h ho)

-- the update reads the unknowns at index k only
theorem Reads.upd {r : Ref sig .tc} (h : Reads n V) (hk : n ≤ k) :
    Reads k fun o c => Function.update (V o c) (Proc.devRef .tc r) (o k r c) := fun o o' ho => by
  show (fun c => Function.update (V o c) _ (o k r c)) = fun c => Function.update (V o' c) _ (o' k r c)
  rw [h fun j hj => ho j (hj.trans hk), ho k le_rfl]

section
variable {gr W : ℕ} {spec : Fin W → Pipeline.WinSpec sig gr}
  {A : ((c : Dev nD) → (b : Ref sig .tc) → Buf (Elt F) ((c : Thread nD τ).loc b)) → (c : Dev nD) → (w : Fin W) → Buf (Elt F) ((spec w).arr.view.loc (c : Thread nD τ))}
  {o O : Outs (F := F)}

variable (n V spec A o) in
def next : Outs (F := F) := fun j r c =>
  if j ≤ n then o j r c else Pipeline.withArrays spec c (V o c) (A (tcOf (V o)) c) (Proc.devRef .tc r)

theorem Agree.down (hO : Agree k O (next n V spec A o)) (hk : n ≤ k) : Agree n O o :=
  fun j hj => (hO j (hj.trans hk)).trans (funext fun _ => funext fun _ => if_pos hj)

-- beyond index n the unknowns are defined from V o, and V reads only up to n, where O and o agree
theorem next_arr (hinj : Function.Injective (Pipeline.arrRef spec)) (hk : ¬ k ≤ n) (hV : Reads n V) (hO : Agree k O (next n V spec A o))
    (c : Dev nD) (w : Fin W) : O k (Pipeline.arrRef spec w) c = A (tcOf (V O)) c w := by
  rw [hO k le_rfl, hV (hO.down (Nat.le_of_not_le hk))]
  exact (if_neg hk).trans (Pipeline.withArrays_arr spec hinj c _ _ w)
end

def outs2 : Outs (F := F) := fun _ r c =>
  Pipeline.withArrays spec0 c (V1 m c) (fun w => (dat0 (tcOf (V1 m)) c).arrAt w cfg0.N) (Proc.devRef .tc r)
def outs4 : Outs (F := F) := next 2 (V3 m) spec1 (fun V c w => (dat1 V c).arrAt w cfg1.N) (outs2 m)
def outs6 : Outs (F := F) := next 4 (V5 m) spec2 (fun V c w => (dat2 V c).arrAt w cfg2.N) (outs4 m)
def outs10 : Outs (F := F) := next 6 (V9 m) spec3 (fun V c w => (dat3 V c).arrAt w cfg3.N) (outs6 m)
def outs12 : Outs (F := F) := next 10 (V11 m) spec4 (fun V c w => (dat4 V c).arrAt w cfg4.N) (outs10 m)
def outs14 : Outs (F := F) := next 12 (V13 m) spec5 (fun V c w => (dat5 V c).arrAt w cfg5.N) (outs12 m)
def outs16 : Outs (F := F) := next 14 (V15 m) spec6 (fun V c w => (dat6 V c).arrAt w cfg6.N) (outs14 m)
def outs20 : Outs (F := F) := next 16 (V19 m) spec7 (fun V c w => (dat7 V c).arrAt w cfg7.N) (outs16 m)
def outs22 : Outs (F := F) := next 20 (V21 m) spec8 (fun V c w => (dat8 V c).arrAt w cfg8.N) (outs20 m)
def outs24 : Outs (F := F) := next 22 (V23 m) spec9 (fun V c w => (dat9 V c).arrAt w cfg9.N) (outs22 m)
def outs26 : Outs (F := F) := next 24 (V25 m) spec10 (fun V c w => (dat10 V c).arrAt w cfg10.N) (outs24 m)
def outs30 : Outs (F := F) := next 26 (V29 m) spec11 (fun V c w => (dat11 V c).arrAt w cfg11.N) (outs26 m)
def outs32 : Outs (F := F) := next 30 (V31 m) spec12 (fun V c w => (dat12 V c).arrAt w cfg12.N) (outs30 m)
def outs42 : Outs (F := F) := next 32 (V41 m) spec13 (fun V c w => (dat13 V c).arrAt w cfg13.N) (outs32 m)
def outs46 : Outs (F := F) := next 42 (V45 m) spec14 (fun V c w => (dat14 V c).arrAt w cfg14.N) (outs42 m)
def outs52 : Outs (F := F) := next 46 (V51 m) spec15 (fun V c w => (dat15 V c).arrAt w cfg15.N) (outs46 m)
def outs54 : Outs (F := F) := next 52 (V53 m) spec16 (fun V c w => (dat16 V c).arrAt w cfg16.N) (outs52 m)
def outs56 : Outs (F := F) := next 54 (V55 m) spec17 (fun V c w => (dat17 V c).arrAt w cfg17.N) (outs54 m)

def outs : Outs (F := F) := outs56 m

theorem agree56 : Agree 56 (outs m) (outs56 m) := fun _ _ => rfl
theorem agree54 : Agree 54 (outs m) (outs54 m) := (agree56 m).down (by decide)
theorem agree52 : Agree 52 (outs m) (outs52 m) := (agree54 m).down (by decide)
theorem agree46 : Agree 46 (outs m) (outs46 m) := (agree52 m).down (by decide)
theorem agree42 : Agree 42 (outs m) (outs42 m) := (agree46 m).down (by decide)
theorem agree32 : Agree 32 (outs m) (outs32 m) := (agree42 m).down (by decide)
theorem agree30 : Agree 30 (outs m) (outs30 m) := (agree32 m).down (by decide)
theorem agree26 : Agree 26 (outs m) (outs26 m) := (agree30 m).down (by decide)
theorem agree24 : Agree 24 (outs m) (outs24 m) := (agree26 m).down (by decide)
theorem agree22 : Agree 22 (outs m) (outs22 m) := (agree24 m).down (by decide)
theorem agree20 : Agree 20 (outs m) (outs20 m) := (agree22 m).down (by decide)
theorem agree16 : Agree 16 (outs m) (outs16 m) := (agree20 m).down (by decide)
theorem agree14 : Agree 14 (outs m) (outs14 m) := (agree16 m).down (by decide)
theorem agree12 : Agree 12 (outs m) (outs12 m) := (agree14 m).down (by decide)
theorem agree10 : Agree 10 (outs m) (outs10 m) := (agree12 m).down (by decide)
theorem agree6 : Agree 6 (outs m) (outs6 m) := (agree10 m).down (by decide)
theorem agree4 : Agree 4 (outs m) (outs4 m) := (agree6 m).down (by decide)
theorem agree2 : Agree 2 (outs m) (outs2 m) := (agree4 m).down (by decide)

theorem reads3 : Reads 2 (V3 m) := ((Reads.const _).upd (by decide)).after
theorem reads5 : Reads 4 (V5 m) := ((reads3 m).upd (by decide)).after
theorem reads9 : Reads 6 (V9 m) := ((reads5 m).upd (by decide)).after.after.after
theorem reads11 : Reads 10 (V11 m) := ((reads9 m).upd (by decide)).after
theorem reads13 : Reads 12 (V13 m) := ((reads11 m).upd (by decide)).after
theorem reads15 : Reads 14 (V15 m) := ((reads13 m).upd (by decide)).after
theorem reads19 : Reads 16 (V19 m) := ((reads15 m).upd (by decide)).after.after.after
theorem reads21 : Reads 20 (V21 m) := ((reads19 m).upd (by decide)).after
theorem reads23 : Reads 22 (V23 m) := ((reads21 m).upd (by decide)).after
theorem reads25 : Reads 24 (V25 m) := ((reads23 m).upd (by decide)).after
theorem reads29 : Reads 26 (V29 m) := ((reads25 m).upd (by decide)).after.after.after
theorem reads31 : Reads 30 (V31 m) := ((reads29 m).upd (by decide)).after
theorem reads41 : Reads 32 (V41 m) := ((reads31 m).upd (by decide)).after.after.after.after.after.after.after.after.after
theorem reads45 : Reads 42 (V45 m) := ((reads41 m).upd (by decide)).after.after.after
theorem reads51 : Reads 46 (V51 m) := ((reads45 m).upd (by decide)).after.after.after.after.after
theorem reads53 : Reads 52 (V53 m) := ((reads51 m).upd (by decide)).after
theorem reads55 : Reads 54 (V55 m) := ((reads53 m).upd (by decide)).after

theorem exit0 (c : Dev nD) : V2 m (outs m) c main_v5 = (dat0 (tcOf (V1 m)) c).arrAt 3 cfg0.N :=
  (Function.update_self _ _ _).trans <| (congrFun (congrFun (agree2 m 2 le_rfl) main_v5) c).trans
    (Pipeline.withArrays_arr spec0 launch0.win.arr_inj c _ _ 3)
theorem exit1 (c : Dev nD) : V4 m (outs m) c main_v11 = (dat1 (tcOf (V3 m (outs m))) c).arrAt 3 cfg1.N :=
  (Function.update_self _ _ _).trans (next_arr launch1.win.arr_inj (by decide) (reads3 m) (agree4 m) c 3)
theorem exit2 (c : Dev nD) : V6 m (outs m) c main_v14 = (dat2 (tcOf (V5 m (outs m))) c).arrAt 2 cfg2.N :=
  (Function.update_self _ _ _).trans (next_arr launch2.win.arr_inj (by decide) (reads5 m) (agree6 m) c 2)
theorem exit3 (c : Dev nD) : V10 m (outs m) c main_v18 = (dat3 (tcOf (V9 m (outs m))) c).arrAt 4 cfg3.N :=
  (Function.update_self _ _ _).trans (next_arr launch3.win.arr_inj (by decide) (reads9 m) (agree10 m) c 4)
theorem exit4 (c : Dev nD) : V12 m (outs m) c main_v27 = (dat4 (tcOf (V11 m (outs m))) c).arrAt 4 cfg4.N :=
  (Function.update_self _ _ _).trans (next_arr launch4.win.arr_inj (by decide) (reads11 m) (agree12 m) c 4)
theorem exit5 (c : Dev nD) : V14 m (outs m) c main_v33 = (dat5 (tcOf (V13 m (outs m))) c).arrAt 3 cfg5.N :=
  (Function.update_self _ _ _).trans (next_arr launch5.win.arr_inj (by decide) (reads13 m) (agree14 m) c 3)
theorem exit6 (c : Dev nD) : V16 m (outs m) c main_v36 = (dat6 (tcOf (V15 m (outs m))) c).arrAt 2 cfg6.N :=
  (Function.update_self _ _ _).trans (next_arr launch6.win.arr_inj (by decide) (reads15 m) (agree16 m) c 2)
theorem exit7 (c : Dev nD) : V20 m (outs m) c main_v40 = (dat7 (tcOf (V19 m (outs m))) c).arrAt 4 cfg7.N :=
  (Function.update_self _ _ _).trans (next_arr launch7.win.arr_inj (by decide) (reads19 m) (agree20 m) c 4)
theorem exit8 (c : Dev nD) : V22 m (outs m) c main_v49 = (dat8 (tcOf (V21 m (outs m))) c).arrAt 4 cfg8.N :=
  (Function.update_self _ _ _).trans (next_arr launch8.win.arr_inj (by decide) (reads21 m) (agree22 m) c 4)
theorem exit9 (c : Dev nD) : V24 m (outs m) c main_v55 = (dat9 (tcOf (V23 m (outs m))) c).arrAt 3 cfg9.N :=
  (Function.update_self _ _ _).trans (next_arr launch9.win.arr_inj (by decide) (reads23 m) (agree24 m) c 3)
theorem exit10 (c : Dev nD) : V26 m (outs m) c main_v58 = (dat10 (tcOf (V25 m (outs m))) c).arrAt 2 cfg10.N :=
  (Function.update_self _ _ _).trans (next_arr launch10.win.arr_inj (by decide) (reads25 m) (agree26 m) c 2)
theorem exit11 (c : Dev nD) : V30 m (outs m) c main_v62 = (dat11 (tcOf (V29 m (outs m))) c).arrAt 4 cfg11.N :=
  (Function.update_self _ _ _).trans (next_arr launch11.win.arr_inj (by decide) (reads29 m) (agree30 m) c 4)
theorem exit12 (c : Dev nD) : V32 m (outs m) c main_v71 = (dat12 (tcOf (V31 m (outs m))) c).arrAt 4 cfg12.N :=
  (Function.update_self _ _ _).trans (next_arr launch12.win.arr_inj (by decide) (reads31 m) (agree32 m) c 4)
theorem exit13 (c : Dev nD) : V42 m (outs m) c main_v97 = (dat13 (tcOf (V41 m (outs m))) c).arrAt 2 cfg13.N :=
  (Function.update_self _ _ _).trans (next_arr launch13.win.arr_inj (by decide) (reads41 m) (agree42 m) c 2)
theorem exit14 (c : Dev nD) : V46 m (outs m) c main_v104 = (dat14 (tcOf (V45 m (outs m))) c).arrAt 2 cfg14.N :=
  (Function.update_self _ _ _).trans (next_arr launch14.win.arr_inj (by decide) (reads45 m) (agree46 m) c 2)
theorem exit15 (c : Dev nD) : V52 m (outs m) c main_v112 = (dat15 (tcOf (V51 m (outs m))) c).arrAt 2 cfg15.N :=
  (Function.update_self _ _ _).trans (next_arr launch15.win.arr_inj (by decide) (reads51 m) (agree52 m) c 2)
theorem exit16 (c : Dev nD) : V54 m (outs m) c main_v120 = (dat16 (tcOf (V53 m (outs m))) c).arrAt 3 cfg16.N :=
  (Function.update_self _ _ _).trans (next_arr launch16.win.arr_inj (by decide) (reads53 m) (agree54 m) c 3)
theorem exit17 (c : Dev nD) : V56 m (outs m) c main_v122 = (dat17 (tcOf (V55 m (outs m))) c).arrAt 3 cfg17.N :=
  (Function.update_self _ _ _).trans (next_arr launch17.win.arr_inj (by decide) (reads55 m) (agree56 m) c 3)

def pdats : (p : Fin 18) → (c : Dev nD) → Dat τ (Elt F) Unit ℕ (UR sig nD τ) ℕ (cfgs p) c
  | ⟨0, _⟩ => fun c => dat0 (tcOf (V1 m)) c
  | ⟨1, _⟩ => fun c => dat1 (tcOf (V3 m (outs m))) c
  | ⟨2, _⟩ => fun c => dat2 (tcOf (V5 m (outs m))) c
  | ⟨3, _⟩ => fun c => dat3 (tcOf (V9 m (outs m))) c
  | ⟨4, _⟩ => fun c => dat4 (tcOf (V11 m (outs m))) c
  | ⟨5, _⟩ => fun c => dat5 (tcOf (V13 m (outs m))) c
  | ⟨6, _⟩ => fun c => dat6 (tcOf (V15 m (outs m))) c
  | ⟨7, _⟩ => fun c => dat7 (tcOf (V19 m (outs m))) c
  | ⟨8, _⟩ => fun c => dat8 (tcOf (V21 m (outs m))) c
  | ⟨9, _⟩ => fun c => dat9 (tcOf (V23 m (outs m))) c
  | ⟨10, _⟩ => fun c => dat10 (tcOf (V25 m (outs m))) c
  | ⟨11, _⟩ => fun c => dat11 (tcOf (V29 m (outs m))) c
  | ⟨12, _⟩ => fun c => dat12 (tcOf (V31 m (outs m))) c
  | ⟨13, _⟩ => fun c => dat13 (tcOf (V41 m (outs m))) c
  | ⟨14, _⟩ => fun c => dat14 (tcOf (V45 m (outs m))) c
  | ⟨15, _⟩ => fun c => dat15 (tcOf (V51 m (outs m))) c
  | ⟨16, _⟩ => fun c => dat16 (tcOf (V53 m (outs m))) c
  | ⟨17, _⟩ => fun c => dat17 (tcOf (V55 m (outs m))) c
  | ⟨_ + 18, h⟩ => absurd h (Nat.not_lt.2 (Nat.le_add_left _ _))

end Cert.KernelIdeal.Hand

end
-- ==== Proof.KI.Segs.lean ====
import proofs.«408151_j68813966016636_2_alg».proof.Proof.KI.Stages

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev L₀ : GSem nD τ sig → Finset Unit := fun _ => ∅
abbrev lv₀ : GSem nD τ sig → Unit → ℕ := fun _ _ => 0
abbrev Rc (c : Dev nD) : sProp 𝕄 := iprop((∃ r, prngReg c r) ∗ ∃ W, owes (c : Thread nD τ) (0 : CellTallies nD τ sig Unit) W)
abbrev Ec : Fin 19 → Dev nD → sProp 𝕄 := fun _ c => Rc c

theorem owesIn_of {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; intro x _; exact Or.inl (hr ▸ trivial)
  iexact HO

theorem owesOut_of {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

abbrev RS (p : Fin 18) := Pipeline.RegionSeg (pcfgs (F := F)) adm (pdats m) () defs₀ Variants.none L₀ lv₀ p

-- the exit valuation is the entry valuation updated at the array of the one window that is an output
set_option backward.isDefEq.respectTransparency.types false in
def mkReg (p : Fin 18) (lf : Pipeline.LaunchFacts (nD := nD) (τ := τ) cfgs p) (V : Dev nD → Valuation τ sig (Elt F)) (o : Fin (cfgs p).W)
    (x : (c : Dev nD) → Buf (Elt F) ((c : Thread nD τ).loc (Pipeline.arrRef (cfgs p).spec o)))
    (hb : ∀ c, BodyObligation (pdats m p c) defs₀ Variants.none () Set.univ)
    (hw : ∀ c t, (pdats m p c).owed t = 0) (hr : ∀ c, (pdats m p c).recorded 0 = Set.univ)
    (hq : ∀ c w, (pdats m p c).q w = fullShare)
    (hA : ∀ c w, (pdats m p c).A w = tcOf V c (Pipeline.arrRef (cfgs p).spec w))
    (hΦi : ∀ c, Pipeline.ΦA (cfgs p).spec c ⊢ (pdats m p c).Φ 0)
    (hΦo : ∀ c, (pdats m p c).Φ (Fin.last _) ⊢ Pipeline.ΦA (cfgs p).spec c)
    (hio : ∀ w, w ≠ o → ((cfgs p).win w).isOut = false)
    (hx : ∀ c, Function.update (V c) (Pipeline.arrRef (cfgs p).spec o) (x c) (Pipeline.arrRef (cfgs p).spec o) = (pdats m p c).arrAt o (cfgs p).N) :
    RS m p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L₀ lv₀ p hw
  pre c := iprop(StableHlo.held (c : Thread nD τ) (Pipeline.ucRefs τ sig) (V c) ∗ Rc c)
  post c := iprop(StableHlo.held (c : Thread nD τ) (Pipeline.ucRefs τ sig) (Function.update (V c) (Pipeline.arrRef (cfgs p).spec o) (x c)) ∗ Rc c)
  X c := iprop(∃ r, prngReg c r)
  Y c := iprop(∃ r, prngReg c r)
  Z c := Pipeline.unscopedRest (Ix := Unit) (Name := ℕ) (U := UR sig nD τ) (Lvl := ℕ) (cfgs p).spec c (tcOf V c)
  hentry c := by
    rw [Pipeline.ownSems0_none]
    have hsplit := Pipeline.arrays_of_unscopedBufs (p := p) (pcfgs (F := F)) adm (pdats m) lf.win lf.arr_whole c
      ((pdats m p c).share_full (hq c)) (tcOf V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesIn_of (pdats m p c) 0 (hw c 0) (hr c)); iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hne : ∀ b : Ref sig .tc, b ≠ Pipeline.arrRef (cfgs p).spec o →
        Function.update (V c) (Pipeline.arrRef (cfgs p).spec o) (x c) b = V c b :=
      fun b h => Function.update_of_ne (fun e => h (Proc.devRef_injective _ e)) _ _
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (tcOf V c)
      (tcOf (fun c => Function.update (V c) (Pipeline.arrRef (cfgs p).spec o) (x c)) c) ((pdats m p c).arrAt · (cfgs p).N)
      (fun w => by
        by_cases h : w = o
        · subst h; exact (hx c).symm
        · exact ((pdats m p c).arrAt_in w (hio w h) _).trans ((hA c w).trans (hne _ fun e => h (lf.win.arr_inj e)).symm))
      fun b hb => hne b fun e => hb (Finset.mem_image.mpr ⟨o, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesOut_of (pdats m p c) (Fin.last _) (hw c (Fin.last _))); iexact HO

def reg0 : RS m 0 := mkReg m 0 launch0 (V1 m) (3 : Fin 4) (outs m 2 main_v5) (body_obligation0 _) (owed0 _) (fun _ => rfl)
  (q0 _) (A_eq0 _) (PhiIn0 _) (PhiOut0 _) (by decide) (exit0 m)
def reg1 : RS m 1 := mkReg m 1 launch1 (V3 m (outs m)) (3 : Fin 4) (outs m 4 main_v11) (body_obligation1 _) (owed1 _) (fun _ => rfl)
  (q1 _) (A_eq1 _) (PhiIn1 _) (PhiOut1 _) (by decide) (exit1 m)
def reg2 : RS m 2 := mkReg m 2 launch2 (V5 m (outs m)) (2 : Fin 3) (outs m 6 main_v14) (body_obligation2 _) (owed2 _) (fun _ => rfl)
  (q2 _) (A_eq2 _) (PhiIn2 _) (PhiOut2 _) (by decide) (exit2 m)
def reg3 : RS m 3 := mkReg m 3 launch3 (V9 m (outs m)) (4 : Fin 5) (outs m 10 main_v18) (body_obligation3 _) (owed3 _) (fun _ => rfl)
  (q3 _) (A_eq3 _) (PhiIn3 _) (PhiOut3 _) (by decide) (exit3 m)
def reg4 : RS m 4 := mkReg m 4 launch4 (V11 m (outs m)) (4 : Fin 5) (outs m 12 main_v27) (body_obligation4 _) (owed4 _) (fun _ => rfl)
  (q4 _) (A_eq4 _) (PhiIn4 _) (PhiOut4 _) (by decide) (exit4 m)
def reg5 : RS m 5 := mkReg m 5 launch5 (V13 m (outs m)) (3 : Fin 4) (outs m 14 main_v33) (body_obligation5 _) (owed5 _) (fun _ => rfl)
  (q5 _) (A_eq5 _) (PhiIn5 _) (PhiOut5 _) (by decide) (exit5 m)
def reg6 : RS m 6 := mkReg m 6 launch6 (V15 m (outs m)) (2 : Fin 3) (outs m 16 main_v36) (body_obligation6 _) (owed6 _) (fun _ => rfl)
  (q6 _) (A_eq6 _) (PhiIn6 _) (PhiOut6 _) (by decide) (exit6 m)
def reg7 : RS m 7 := mkReg m 7 launch7 (V19 m (outs m)) (4 : Fin 5) (outs m 20 main_v40) (body_obligation7 _) (owed7 _) (fun _ => rfl)
  (q7 _) (A_eq7 _) (PhiIn7 _) (PhiOut7 _) (by decide) (exit7 m)
def reg8 : RS m 8 := mkReg m 8 launch8 (V21 m (outs m)) (4 : Fin 5) (outs m 22 main_v49) (body_obligation8 _) (owed8 _) (fun _ => rfl)
  (q8 _) (A_eq8 _) (PhiIn8 _) (PhiOut8 _) (by decide) (exit8 m)
def reg9 : RS m 9 := mkReg m 9 launch9 (V23 m (outs m)) (3 : Fin 4) (outs m 24 main_v55) (body_obligation9 _) (owed9 _) (fun _ => rfl)
  (q9 _) (A_eq9 _) (PhiIn9 _) (PhiOut9 _) (by decide) (exit9 m)
def reg10 : RS m 10 := mkReg m 10 launch10 (V25 m (outs m)) (2 : Fin 3) (outs m 26 main_v58) (body_obligation10 _) (owed10 _) (fun _ => rfl)
  (q10 _) (A_eq10 _) (PhiIn10 _) (PhiOut10 _) (by decide) (exit10 m)
def reg11 : RS m 11 := mkReg m 11 launch11 (V29 m (outs m)) (4 : Fin 5) (outs m 30 main_v62) (body_obligation11 _) (owed11 _) (fun _ => rfl)
  (q11 _) (A_eq11 _) (PhiIn11 _) (PhiOut11 _) (by decide) (exit11 m)
def reg12 : RS m 12 := mkReg m 12 launch12 (V31 m (outs m)) (4 : Fin 5) (outs m 32 main_v71) (body_obligation12 _) (owed12 _) (fun _ => rfl)
  (q12 _) (A_eq12 _) (PhiIn12 _) (PhiOut12 _) (by decide) (exit12 m)
def reg13 : RS m 13 := mkReg m 13 launch13 (V41 m (outs m)) (2 : Fin 3) (outs m 42 main_v97) (body_obligation13 _) (owed13 _) (fun _ => rfl)
  (q13 _) (A_eq13 _) (PhiIn13 _) (PhiOut13 _) (by decide) (exit13 m)
def reg14 : RS m 14 := mkReg m 14 launch14 (V45 m (outs m)) (2 : Fin 3) (outs m 46 main_v104) (body_obligation14 _) (owed14 _) (fun _ => rfl)
  (q14 _) (A_eq14 _) (PhiIn14 _) (PhiOut14 _) (by decide) (exit14 m)
def reg15 : RS m 15 := mkReg m 15 launch15 (V51 m (outs m)) (2 : Fin 3) (outs m 52 main_v112) (body_obligation15 _) (owed15 _) (fun _ => rfl)
  (q15 _) (A_eq15 _) (PhiIn15 _) (PhiOut15 _) (by decide) (exit15 m)
def reg16 : RS m 16 := mkReg m 16 launch16 (V53 m (outs m)) (3 : Fin 4) (outs m 54 main_v120) (body_obligation16 _) (owed16 _) (fun _ => rfl)
  (q16 _) (A_eq16 _) (PhiIn16 _) (PhiOut16 _) (by decide) (exit16 m)
def reg17 : RS m 17 := mkReg m 17 launch17 (V55 m (outs m)) (3 : Fin 4) (outs m 56 main_v122) (body_obligation17 _) (owed17 _) (fun _ => rfl)
  (q17 _) (A_eq17 _) (PhiIn17 _) (PhiOut17 _) (by decide) (exit17 m)

end Cert.KernelIdeal.Hand

end
-- ==== Proof.KI.RunCond.lean ====
import proofs.«408151_j68813966016636_2_alg».proof.Proof.KI.RegionsP

set_option maxRecDepth 2180

noncomputable section

namespace Cert.KernelIdeal.GenP

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 18) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 19 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE18 : ∀ c : Dev nD, E 18 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V13 m outs c) ∗ E 5 c) ⊢ R5.pre c)
    (hpost5 : ∀ c : Dev nD, R5.post c ⊢ iprop(StableHlo.held (c : Thread nD τ) (Pipeline.ucRefs τ sig) (V14 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V15 m outs c) ∗ E 6 c) ⊢ R6.pre c)
    (hpost6 : ∀ c : Dev nD, R6.post c ⊢ iprop(StableHlo.held (c : Thread nD τ) (Pipeline.ucRefs τ sig) (V16 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V29 m outs c) ∗ E 11 c) ⊢ R11.pre c)
    (hpost11 : ∀ c : Dev nD, R11.post c ⊢ iprop(StableHlo.held (c : Thread nD τ) (Pipeline.ucRefs τ sig) (V30 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V31 m outs c) ∗ E 12 c) ⊢ R12.pre c)
    (hpost12 : ∀ c : Dev nD, R12.post c ⊢ iprop(StableHlo.held (c : Thread nD τ) (Pipeline.ucRefs τ sig) (V32 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V41 m outs c) ∗ E 13 c) ⊢ R13.pre c)
    (hpost13 : ∀ c : Dev nD, R13.post c ⊢ iprop(StableHlo.held (c : Thread nD τ) (Pipeline.ucRefs τ sig) (V42 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V45 m outs c) ∗ E 14 c) ⊢ R14.pre c)
    (hpost14 : ∀ c : Dev nD, R14.post c ⊢ iprop(StableHlo.held (c : Thread nD τ) (Pipeline.ucRefs τ sig) (V46 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V51 m outs c) ∗ E 15 c) ⊢ R15.pre c)
    (hpost15 : ∀ c : Dev nD, R15.post c ⊢ iprop(StableHlo.held (c : Thread nD τ) (Pipeline.ucRefs τ sig) (V52 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V53 m outs c) ∗ E 16 c) ⊢ R16.pre c)
    (hpost16 : ∀ c : Dev nD, R16.post c ⊢ iprop(StableHlo.held (c : Thread nD τ) (Pipeline.ucRefs τ sig) (V54 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V55 m outs c) ∗ E 17 c) ⊢ R17.pre c)
    (hpost17 : ∀ c : Dev nD, R17.post c ⊢ iprop(StableHlo.held (c : Thread nD τ) (Pipeline.ucRefs τ sig) (V56 m outs c) ∗ E 18 c)) :
    θ_run defs (onTc (τ := τ) (main (F := F))) ⟨m, fun _ => 0, ρ⟩ (fun r => ∀ c : Dev nD,
      r.2.mem ((c.tc : Thread nD τ).loc main_v122) = V56 m outs c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17)
    (fun c Q => by
      rewrite [main_chain c, Seg.run_eq_chain,
        show (segs m outs 𝒱₀ L lv E ι pdats R0 R1 R2 R3 R4 R5 R6 R7 R8 R9 R10 R11 R12 R13 R14 R15 R16 R17 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          Prog.lift (.customCall (Pipeline.entry 11) ()),
          StableHlo.seq hostOps12,
          Prog.lift (.customCall (Pipeline.entry 12) ()),
          StableHlo.seq hostOps13,
          StableHlo.seq hostOps13_1,
          StableHlo.seq hostOps13_2,
          StableHlo.seq hostOps13_3,
          StableHlo.seq hostOps13_4,
          StableHlo.seq hostOps13_5,
          StableHlo.seq hostOps13_6,
          StableHlo.seq hostOps13_7,
          StableHlo.seq hostOps13_8,
          Prog.lift (.customCall (Pipeline.entry 13) ()),
          StableHlo.seq hostOps14,
          StableHlo.seq hostOps14_1,
          StableHlo.seq hostOps14_2,
          Prog.lift (.customCall (Pipeline.entry 14) ()),
          StableHlo.seq hostOps15,
          StableHlo.seq hostOps15_1,
          StableHlo.seq hostOps15_2,
          StableHlo.seq hostOps15_3,
          StableHlo.seq hostOps15_4,
          Prog.lift (.customCall (Pipeline.entry 15) ()),
          StableHlo.seq hostOps16,
          Prog.lift (.customCall (Pipeline.entry 16) ()),
          StableHlo.seq hostOps17,
          Prog.lift (.customCall (Pipeline.entry 17) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V56 m outs c))
    (hch := fun c => ⟨.rfl, hpre0 c, hpost0 c, hpre1 c, hpost1 c, hpre2 c, hpost2 c, .rfl, .rfl, hpre3 c, hpost3 c, hpre4 c, hpost4 c, hpre5 c, hpost5 c, hpre6 c, hpost6 c, .rfl, .rfl, hpre7 c, hpost7 c, hpre8 c, hpost8 c, hpre9 c, hpost9 c, hpre10 c, hpost10 c, .rfl, .rfl, hpre11 c, hpost11 c, hpre12 c, hpost12 c, .rfl, .rfl, .rfl, .rfl, .rfl, .rfl, .rfl, .rfl, hpre13 c, hpost13 c, .rfl, .rfl, hpre14 c, hpost14 c, .rfl, .rfl, .rfl, .rfl, hpre15 c, hpost15 c, hpre16 c, hpost16 c, hpre17 c, (hpost17 c).trans (sep_mono .rfl (hE18 c))⟩)
    (hinit := ?_) (QY := fun c s => s.mem ((c.tc : Thread nD τ).loc main_v122) = V56 m outs c main_v122 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V56 m outs c) s') $$ [Hh HSI]
    · isplitl [Hh] <;> iassumption
    icases Hr with ⟨%h, HSI⟩
    imodintro
    isplitr
    · ipureintro
      exact ⟨h (Proc.devRef .tc main_v122) (Finset.mem_filter.mpr ⟨StableHlo.devRef_mem_tcRefs main_v122, by decide⟩),
        (h (Proc.devRef .tc main_arg0) (Finset.mem_filter.mpr ⟨StableHlo.devRef_mem_tcRefs main_arg0, by decide⟩)).trans (V56_arg m outs c _ (by decide)),
        (h (Proc.devRef .tc main_arg1) (Finset.mem_filter.mpr ⟨StableHlo.devRef_mem_tcRefs main_arg1, by decide⟩)).trans (V56_arg m outs c _ (by decide)),
        (h (Proc.devRef .tc main_arg2) (Finset.mem_filter.mpr ⟨StableHlo.devRef_mem_tcRefs main_arg2, by decide⟩)).trans (V56_arg m outs c _ (by decide)),
        (h (Proc.devRef .tc main_arg3) (Finset.mem_filter.mpr ⟨StableHlo.devRef_mem_tcRefs main_arg3, by decide⟩)).trans (V56_arg m outs c _ (by decide)),
        (h (Proc.devRef .tc main_arg4) (Finset.mem_filter.mpr ⟨StableHlo.devRef_mem_tcRefs main_arg4, by decide⟩)).trans (V56_arg m outs c _ (by decide)),
        (h (Proc.devRef .tc main_arg5) (Finset.mem_filter.mpr ⟨StableHlo.devRef_mem_tcRefs main_arg5, by decide⟩)).trans (V56_arg m outs c _ (by decide)),
        (h (Proc.devRef .tc main_arg6) (Finset.mem_filter.mpr ⟨StableHlo.devRef_mem_tcRefs main_arg6, by decide⟩)).trans (V56_arg m outs c _ (by decide)),
        (h (Proc.devRef .tc main_arg7) (Finset.mem_filter.mpr ⟨StableHlo.devRef_mem_tcRefs main_arg7, by decide⟩)).trans (V56_arg m outs c _ (by decide)),
        (h (Proc.devRef .tc main_arg8) (Finset.mem_filter.mpr ⟨StableHlo.devRef_mem_tcRefs main_arg8, by decide⟩)).trans (V56_arg m outs c _ (by decide)),
        (h (Proc.devRef .tc main_arg9) (Finset.mem_filter.mpr ⟨StableHlo.devRef_mem_tcRefs main_arg9, by decide⟩)).trans (V56_arg m outs c _ (by decide)),
        (h (Proc.devRef .tc main_arg10) (Finset.mem_filter.mpr ⟨StableHlo.devRef_mem_tcRefs main_arg10, by decide⟩)).trans (V56_arg m outs c _ (by decide)),
        (h (Proc.devRef .tc main_arg11) (Finset.mem_filter.mpr ⟨StableHlo.devRef_mem_tcRefs main_arg11, by decide⟩)).trans (V56_arg m outs c _ (by decide)),
        (h (Proc.devRef .tc main_arg12) (Finset.mem_filter.mpr ⟨StableHlo.devRef_mem_tcRefs main_arg12, by decide⟩)).trans (V56_arg m outs c _ (by decide)),
        (h (Proc.devRef .tc main_arg13) (Finset.mem_filter.mpr ⟨StableHlo.devRef_mem_tcRefs main_arg13, by decide⟩)).trans (V56_arg m outs c _ (by decide)),
        (h (Proc.devRef .tc main_arg14) (Finset.mem_filter.mpr ⟨StableHlo.devRef_mem_tcRefs main_arg14, by decide⟩)).trans (V56_arg m outs c _ (by decide)),
        (h (Proc.devRef .tc main_arg15) (Finset.mem_filter.mpr ⟨StableHlo.devRef_mem_tcRefs main_arg15, by decide⟩)).trans (V56_arg m outs c _ (by decide))⟩
    · iexact HSI

end Cert.KernelIdeal.GenP

end
-- ==== Proof.KI.Run.lean ====
import proofs.«408151_j68813966016636_2_alg».proof.Proof.KI.Segs
import proofs.«408151_j68813966016636_2_alg».proof.Proof.KI.RunCond

set_option maxRecDepth 16384

noncomputable section

namespace Cert.KernelIdeal.Hand

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
theorem run (ρ : Dev nD → PrngReg) : θ_run defs (onTc (τ := τ) (main (F := F))) ⟨m, fun _ => 0, ρ⟩ (fun r => ∀ c : Dev nD,
      r.2.mem ((c.tc : Thread nD τ).loc main_v122) = V56 m (outs m) c main_v122
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  run_cond m emb₁ () Variants.none L₀ lv₀ (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := Ec)
    (hE0 := by
      refine Pipeline.initEach L₀ lv₀ fun c => ?_
      iintro ⟨⟨-, HO, -, Hp, -⟩, -⟩
      imodintro
      isplitl [Hp]; · iexists _; iexact Hp
      iexists ∅; iexact HO)
    (hE18 := fun c => by iintro ⟨-, HO⟩; iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)
    (R9 := reg9 m) (hpre9 := fun _ => .rfl) (hpost9 := fun _ => .rfl)
    (R10 := reg10 m) (hpre10 := fun _ => .rfl) (hpost10 := fun _ => .rfl)
    (R11 := reg11 m) (hpre11 := fun _ => .rfl) (hpost11 := fun _ => .rfl)
    (R12 := reg12 m) (hpre12 := fun _ => .rfl) (hpost12 := fun _ => .rfl)
    (R13 := reg13 m) (hpre13 := fun _ => .rfl) (hpost13 := fun _ => .rfl)
    (R14 := reg14 m) (hpre14 := fun _ => .rfl) (hpost14 := fun _ => .rfl)
    (R15 := reg15 m) (hpre15 := fun _ => .rfl) (hpost15 := fun _ => .rfl)
    (R16 := reg16 m) (hpre16 := fun _ => .rfl) (hpost16 := fun _ => .rfl)
    (R17 := reg17 m) (hpre17 := fun _ => .rfl) (hpost17 := fun _ => .rfl)

-- the run's post is the frame's with one more conjunct in front
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run m ρ)

end Cert.KernelIdeal.Hand

end
-- ==== Proof.Val.RefRunA.lean ====
import proofs.«408151_j68813966016636_2_alg».proof.Proof.Gen.ReferenceIdeal
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

-- The program's operations in order, cut into four runs; a called function's operations stand in its call's place.
abbrev ops0 : List (HloOp τ sig (Elt F)) :=
  [ unary main_arg1 main_v0 (extractStridedSlice S1x1000000 ![0, 0] · slices_S2x1000000_S1x1000000_0_0),
    reshape main_v0 main_v1 rfl shapeCasts_S1x1000000_S1000000,
    unary main_arg1 main_v2 (extractStridedSlice S1x1000000 ![1, 0] · slices_S2x1000000_S1x1000000_1_0),
    reshape main_v2 main_v3 rfl shapeCasts_S1x1000000_S1000000,
    unary main_arg3 main_v4 (broadcastInDim S1000000x1 ![0] bcast_S1000000_S1000000x1_0),
    binary main_v4 main_arg4 main_v5 mulf,
    binary main_arg0 main_arg5 main_v6 (fun l r => Host.dotGeneral dot_S100000x4_S4x64_S100000x64_1_0_0_1_n_n none l r),
    unary main_arg6 main_v7 (broadcastInDim S1x64 ![1] bcast_S64_S1x64_1),
    unary main_v7 main_v8 (broadcastInDim S100000x64 ![0, 1] bcast_S1x64_S100000x64_0_1),
    binary main_v6 main_v8 main_v9 addf,
    unary main_arg7 main_v10 (extractStridedSlice S1x64x64 ![0, 0, 0] · slices_S3x64x64_S1x64x64_0_0_0),
    reshape main_v10 main_v11 rfl shapeCasts_S1x64x64_S64x64,
    binary main_v9 main_v11 main_v12 (fun l r => Host.dotGeneral dot_S100000x64_S64x64_S100000x64_1_0_0_1_n_n none l r),
    unary main_arg8 main_v13 (extractStridedSlice S1x64 ![0, 0] · slices_S3x64_S1x64_0_0),
    reshape main_v13 main_v14 rfl shapeCasts_S1x64_S64,
    unary main_v14 main_v15 (broadcastInDim S1x64 ![1] bcast_S64_S1x64_1),
    unary main_v15 main_v16 (broadcastInDim S100000x64 ![0, 1] bcast_S1x64_S100000x64_0_1),
    binary main_v12 main_v16 main_v17 addf,
    unary main_arg9 main_v18 (extractStridedSlice S1x64x64 ![0, 0, 0] · slices_S3x64x64_S1x64x64_0_0_0),
    reshape main_v18 main_v19 rfl shapeCasts_S1x64x64_S64x64,
    binary main_v9 main_v19 main_v20 (fun l r => Host.dotGeneral dot_S100000x64_S64x64_S100000x64_1_0_0_1_n_n none l r),
    nullary main_c (constantI S_ 32 0#32),
    unary main_c main_v21 (broadcastInDim S1000000 ![] bcast_S_S1000000),
    binary main_v1 main_v21 main_v22 (cmpi .slt),
    nullary main_c_0 (constantI S_ 32 100000#32),
    unary main_c_0 main_v23 (broadcastInDim S1000000 ![] bcast_S_S1000000),
    binary main_v1 main_v23 main_v24 addi,
    ternary main_v22 main_v24 main_v1 main_v25 select,
    unary main_v25 main_v26 (broadcastInDim S1000000x1 ![0] bcast_S1000000_S1000000x1_0),
    binary main_v17 main_v26 main_v27 (fun x i => Host.gather gather_S100000x64_S1000000x1_S1000000x64_1_0_n_n_0_1_164 x i),
    nullary main_c_1 (constantI S_ 32 0#32),
    unary main_c_1 main_v28 (broadcastInDim S1000000 ![] bcast_S_S1000000),
    binary main_v3 main_v28 main_v29 (cmpi .slt),
    nullary main_c_2 (constantI S_ 32 100000#32),
    unary main_c_2 main_v30 (broadcastInDim S1000000 ![] bcast_S_S1000000),
    binary main_v3 main_v30 main_v31 addi,
    ternary main_v29 main_v31 main_v3 main_v32 select,
    unary main_v32 main_v33 (broadcastInDim S1000000x1 ![0] bcast_S1000000_S1000000x1_0),
    binary main_v20 main_v33 main_v34 (fun x i => Host.gather gather_S100000x64_S1000000x1_S1000000x64_1_0_n_n_0_1_164 x i),
    binary main_v27 main_v34 main_v35 subf,
    unary main_v5 main_v36 (broadcastInDim S1000000x64 ![0, 1] bcast_S1000000x1_S1000000x64_0_1),
    binary main_v36 main_v35 main_v37 mulf,
    nullary main_cst (constant S_ .f32 0x00000000#32),
    unary main_cst main_v38 (broadcastInDim S100000x64 ![] bcast_S_S100000x64),
    unary main_v3 main_v39 (broadcastInDim S1000000x1 ![0] bcast_S1000000_S1000000x1_0),
    ternary main_v38 main_v39 main_v37 main_v40 (fun x i u => Host.scatterAdd scatter_S100000x64_S1000000x1_S1000000x64_1_0_0_1 x i u),
    unary main_arg10 main_v41 (extractStridedSlice S1x64x64 ![0, 0, 0] · slices_S3x64x64_S1x64x64_0_0_0),
    reshape main_v41 main_v42 rfl shapeCasts_S1x64x64_S64x64,
    binary main_v9 main_v42 main_v43 (fun l r => Host.dotGeneral dot_S100000x64_S64x64_S100000x64_1_0_0_1_n_n none l r),
    binary main_v40 main_v43 main_v44 addf,
    unary main_arg11 main_v45 (extractStridedSlice S1x64 ![0, 0] · slices_S3x64_S1x64_0_0),
    reshape main_v45 main_v46 rfl shapeCasts_S1x64_S64,
    unary main_v46 main_v47 (broadcastInDim S1x64 ![1] bcast_S64_S1x64_1),
    unary main_v47 main_v48 (broadcastInDim S100000x64 ![0, 1] bcast_S1x64_S100000x64_0_1),
    binary main_v44 main_v48 main_v49 addf,
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v49) (TRef.of (T := ⟨S100000x64, .f32⟩) main_call0_v0) (TRef.of (T := ⟨S100000x64, .f32⟩) main_v50) maximumf,
    unary main_arg7 main_v51 (extractStridedSlice S1x64x64 ![1, 0, 0] · slices_S3x64x64_S1x64x64_1_0_0),
    reshape main_v51 main_v52 rfl shapeCasts_S1x64x64_S64x64,
    binary main_v50 main_v52 main_v53 (fun l r => Host.dotGeneral dot_S100000x64_S64x64_S100000x64_1_0_0_1_n_n none l r),
    unary main_arg8 main_v54 (extractStridedSlice S1x64 ![1, 0] · slices_S3x64_S1x64_1_0) ]

abbrev ops1 : List (HloOp τ sig (Elt F)) :=
  [ reshape main_v54 main_v55 rfl shapeCasts_S1x64_S64,
    unary main_v55 main_v56 (broadcastInDim S1x64 ![1] bcast_S64_S1x64_1),
    unary main_v56 main_v57 (broadcastInDim S100000x64 ![0, 1] bcast_S1x64_S100000x64_0_1),
    binary main_v53 main_v57 main_v58 addf,
    unary main_arg9 main_v59 (extractStridedSlice S1x64x64 ![1, 0, 0] · slices_S3x64x64_S1x64x64_1_0_0),
    reshape main_v59 main_v60 rfl shapeCasts_S1x64x64_S64x64,
    binary main_v50 main_v60 main_v61 (fun l r => Host.dotGeneral dot_S100000x64_S64x64_S100000x64_1_0_0_1_n_n none l r),
    nullary main_c_3 (constantI S_ 32 0#32),
    unary main_c_3 main_v62 (broadcastInDim S1000000 ![] bcast_S_S1000000),
    binary main_v1 main_v62 main_v63 (cmpi .slt),
    nullary main_c_4 (constantI S_ 32 100000#32),
    unary main_c_4 main_v64 (broadcastInDim S1000000 ![] bcast_S_S1000000),
    binary main_v1 main_v64 main_v65 addi,
    ternary main_v63 main_v65 main_v1 main_v66 select,
    unary main_v66 main_v67 (broadcastInDim S1000000x1 ![0] bcast_S1000000_S1000000x1_0),
    binary main_v58 main_v67 main_v68 (fun x i => Host.gather gather_S100000x64_S1000000x1_S1000000x64_1_0_n_n_0_1_164 x i),
    nullary main_c_5 (constantI S_ 32 0#32),
    unary main_c_5 main_v69 (broadcastInDim S1000000 ![] bcast_S_S1000000),
    binary main_v3 main_v69 main_v70 (cmpi .slt),
    nullary main_c_6 (constantI S_ 32 100000#32),
    unary main_c_6 main_v71 (broadcastInDim S1000000 ![] bcast_S_S1000000),
    binary main_v3 main_v71 main_v72 addi,
    ternary main_v70 main_v72 main_v3 main_v73 select,
    unary main_v73 main_v74 (broadcastInDim S1000000x1 ![0] bcast_S1000000_S1000000x1_0),
    binary main_v61 main_v74 main_v75 (fun x i => Host.gather gather_S100000x64_S1000000x1_S1000000x64_1_0_n_n_0_1_164 x i),
    binary main_v68 main_v75 main_v76 subf,
    unary main_v5 main_v77 (broadcastInDim S1000000x64 ![0, 1] bcast_S1000000x1_S1000000x64_0_1),
    binary main_v77 main_v76 main_v78 mulf,
    nullary main_cst_7 (constant S_ .f32 0x00000000#32),
    unary main_cst_7 main_v79 (broadcastInDim S100000x64 ![] bcast_S_S100000x64),
    unary main_v3 main_v80 (broadcastInDim S1000000x1 ![0] bcast_S1000000_S1000000x1_0),
    ternary main_v79 main_v80 main_v78 main_v81 (fun x i u => Host.scatterAdd scatter_S100000x64_S1000000x1_S1000000x64_1_0_0_1 x i u),
    unary main_arg10 main_v82 (extractStridedSlice S1x64x64 ![1, 0, 0] · slices_S3x64x64_S1x64x64_1_0_0),
    reshape main_v82 main_v83 rfl shapeCasts_S1x64x64_S64x64,
    binary main_v50 main_v83 main_v84 (fun l r => Host.dotGeneral dot_S100000x64_S64x64_S100000x64_1_0_0_1_n_n none l r),
    binary main_v81 main_v84 main_v85 addf,
    unary main_arg11 main_v86 (extractStridedSlice S1x64 ![1, 0] · slices_S3x64_S1x64_1_0),
    reshape main_v86 main_v87 rfl shapeCasts_S1x64_S64,
    unary main_v87 main_v88 (broadcastInDim S1x64 ![1] bcast_S64_S1x64_1),
    unary main_v88 main_v89 (broadcastInDim S100000x64 ![0, 1] bcast_S1x64_S100000x64_0_1),
    binary main_v85 main_v89 main_v90 addf,
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v90) (TRef.of (T := ⟨S100000x64, .f32⟩) main_call1_v0) (TRef.of (T := ⟨S100000x64, .f32⟩) main_v91) maximumf,
    unary main_arg7 main_v92 (extractStridedSlice S1x64x64 ![2, 0, 0] · slices_S3x64x64_S1x64x64_2_0_0),
    reshape main_v92 main_v93 rfl shapeCasts_S1x64x64_S64x64,
    binary main_v91 main_v93 main_v94 (fun l r => Host.dotGeneral dot_S100000x64_S64x64_S100000x64_1_0_0_1_n_n none l r),
    unary main_arg8 main_v95 (extractStridedSlice S1x64 ![2, 0] · slices_S3x64_S1x64_2_0),
    reshape main_v95 main_v96 rfl shapeCasts_S1x64_S64,
    unary main_v96 main_v97 (broadcastInDim S1x64 ![1] bcast_S64_S1x64_1),
    unary main_v97 main_v98 (broadcastInDim S100000x64 ![0, 1] bcast_S1x64_S100000x64_0_1),
    binary main_v94 main_v98 main_v99 addf,
    unary main_arg9 main_v100 (extractStridedSlice S1x64x64 ![2, 0, 0] · slices_S3x64x64_S1x64x64_2_0_0),
    reshape main_v100 main_v101 rfl shapeCasts_S1x64x64_S64x64,
    binary main_v91 main_v101 main_v102 (fun l r => Host.dotGeneral dot_S100000x64_S64x64_S100000x64_1_0_0_1_n_n none l r),
    nullary main_c_8 (constantI S_ 32 0#32),
    unary main_c_8 main_v103 (broadcastInDim S1000000 ![] bcast_S_S1000000),
    binary main_v1 main_v103 main_v104 (cmpi .slt),
    nullary main_c_9 (constantI S_ 32 100000#32),
    unary main_c_9 main_v105 (broadcastInDim S1000000 ![] bcast_S_S1000000),
    binary main_v1 main_v105 main_v106 addi,
    ternary main_v104 main_v106 main_v1 main_v107 select ]

abbrev ops2 : List (HloOp τ sig (Elt F)) :=
  [ unary main_v107 main_v108 (broadcastInDim S1000000x1 ![0] bcast_S1000000_S1000000x1_0),
    binary main_v99 main_v108 main_v109 (fun x i => Host.gather gather_S100000x64_S1000000x1_S1000000x64_1_0_n_n_0_1_164 x i),
    nullary main_c_10 (constantI S_ 32 0#32),
    unary main_c_10 main_v110 (broadcastInDim S1000000 ![] bcast_S_S1000000),
    binary main_v3 main_v110 main_v111 (cmpi .slt),
    nullary main_c_11 (constantI S_ 32 100000#32),
    unary main_c_11 main_v112 (broadcastInDim S1000000 ![] bcast_S_S1000000),
    binary main_v3 main_v112 main_v113 addi,
    ternary main_v111 main_v113 main_v3 main_v114 select,
    unary main_v114 main_v115 (broadcastInDim S1000000x1 ![0] bcast_S1000000_S1000000x1_0),
    binary main_v102 main_v115 main_v116 (fun x i => Host.gather gather_S100000x64_S1000000x1_S1000000x64_1_0_n_n_0_1_164 x i),
    binary main_v109 main_v116 main_v117 subf,
    unary main_v5 main_v118 (broadcastInDim S1000000x64 ![0, 1] bcast_S1000000x1_S1000000x64_0_1),
    binary main_v118 main_v117 main_v119 mulf,
    nullary main_cst_12 (constant S_ .f32 0x00000000#32),
    unary main_cst_12 main_v120 (broadcastInDim S100000x64 ![] bcast_S_S100000x64),
    unary main_v3 main_v121 (broadcastInDim S1000000x1 ![0] bcast_S1000000_S1000000x1_0),
    ternary main_v120 main_v121 main_v119 main_v122 (fun x i u => Host.scatterAdd scatter_S100000x64_S1000000x1_S1000000x64_1_0_0_1 x i u),
    unary main_arg10 main_v123 (extractStridedSlice S1x64x64 ![2, 0, 0] · slices_S3x64x64_S1x64x64_2_0_0),
    reshape main_v123 main_v124 rfl shapeCasts_S1x64x64_S64x64,
    binary main_v91 main_v124 main_v125 (fun l r => Host.dotGeneral dot_S100000x64_S64x64_S100000x64_1_0_0_1_n_n none l r),
    binary main_v122 main_v125 main_v126 addf,
    unary main_arg11 main_v127 (extractStridedSlice S1x64 ![2, 0] · slices_S3x64_S1x64_2_0),
    reshape main_v127 main_v128 rfl shapeCasts_S1x64_S64,
    unary main_v128 main_v129 (broadcastInDim S1x64 ![1] bcast_S64_S1x64_1),
    unary main_v129 main_v130 (broadcastInDim S100000x64 ![0, 1] bcast_S1x64_S100000x64_0_1),
    binary main_v126 main_v130 main_v131 addf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v131) (TRef.of (T := ⟨S100000x64, .f32⟩) main_call2_v0) (TRef.of (T := ⟨S100000x64, .f32⟩) main_v132) maximumf,
    nullary main_cst_13 (constant S_ .f32 0x3F800000#32),
    unary main_cst_13 main_v133 (broadcastInDim S1000000x1 ![] bcast_S_S1000000x1),
    nullary main_cst_14 (constant S_ .f32 0x00000000#32),
    unary main_cst_14 main_v134 (broadcastInDim S100000x1 ![] bcast_S_S100000x1),
    unary main_v3 main_v135 (broadcastInDim S1000000x1 ![0] bcast_S1000000_S1000000x1_0),
    ternary main_v134 main_v135 main_arg4 main_v136 (fun x i u => Host.scatterAdd scatter_S100000x1_S1000000x1_S1000000x1_1_0_0_1 x i u),
    nullary main_cst_15 (constant S_ .f32 0x00000000#32),
    unary main_cst_15 main_v137 (broadcastInDim S100000x1 ![] bcast_S_S100000x1),
    unary main_v1 main_v138 (broadcastInDim S1000000x1 ![0] bcast_S1000000_S1000000x1_0),
    ternary main_v137 main_v138 main_arg4 main_v139 (fun x i u => Host.scatterAdd scatter_S100000x1_S1000000x1_S1000000x1_1_0_0_1 x i u),
    binary main_v136 main_v139 main_v140 addf,
    nullary main_cst_16 (constant S_ .f32 0x00000000#32),
    unary main_cst_16 main_v141 (broadcastInDim S100000x1 ![] bcast_S_S100000x1),
    unary main_v3 main_v142 (broadcastInDim S1000000x1 ![0] bcast_S1000000_S1000000x1_0),
    ternary main_v141 main_v142 main_v133 main_v143 (fun x i u => Host.scatterAdd scatter_S100000x1_S1000000x1_S1000000x1_1_0_0_1 x i u),
    nullary main_cst_17 (constant S_ .f32 0x00000000#32),
    unary main_cst_17 main_v144 (broadcastInDim S100000x1 ![] bcast_S_S100000x1),
    unary main_v1 main_v145 (broadcastInDim S1000000x1 ![0] bcast_S1000000_S1000000x1_0),
    ternary main_v144 main_v145 main_v133 main_v146 (fun x i u => Host.scatterAdd scatter_S100000x1_S1000000x1_S1000000x1_1_0_0_1 x i u),
    binary main_v143 main_v146 main_v147 addf,
    nullary main_cst_18 (constant S_ .f32 0x00000000#32),
    unary main_cst_18 main_v148 (broadcastInDim S100000x1 ![] bcast_S_S100000x1),
    binary main_v147 main_v148 main_v149 (cmpf .oeq),
    nullary main_cst_19 (constant S_ .f32 0x3F800000#32),
    TRef.unary (TRef.of (T := ⟨S_, .f32⟩) main_cst_19) (TRef.of (T := ⟨S_, .f32⟩) main_call3_v0) id,
    TRef.unary (TRef.of (T := ⟨S_, .f32⟩) main_call3_v0) (TRef.of (T := ⟨S100000x1, .f32⟩) main_call3_v1) (broadcastInDim S100000x1 ![] bcast_S_S100000x1),
    TRef.ternary (TRef.of (T := ⟨S100000x1, .i1⟩) main_v149) (TRef.of (T := ⟨S100000x1, .f32⟩) main_call3_v1) (TRef.of (T := ⟨S100000x1, .f32⟩) main_v147) (TRef.of (T := ⟨S100000x1, .f32⟩) main_v150) select,
    binary main_v140 main_v150 main_v151 Host.divf,
    nullary main_cst_20 (constant S_ .f32 0x00000000#32),
    unary main_cst_20 main_v152 (broadcastInDim S512x1 ![] bcast_S_S512x1),
    unary main_arg2 main_v153 (broadcastInDim S100000x1 ![0] bcast_S100000_S100000x1_0),
    ternary main_v152 main_v153 main_v151 main_v154 (fun x i u => Host.scatterAdd scatter_S512x1_S100000x1_S100000x1_1_0_0_1 x i u),
    nullary main_cst_21 (constant S_ .f32 0x00000000#32),
    unary main_cst_21 main_v155 (broadcastInDim S512x1 ![] bcast_S_S512x1) ]

abbrev ops3 : List (HloOp τ sig (Elt F)) :=
  [ binary main_v154 main_v155 main_v156 (cmpf .oeq),
    nullary main_cst_22 (constant S_ .f32 0x3F800000#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S512x1, .f32⟩) main_call4_v1) (broadcastInDim S512x1 ![] bcast_S_S512x1),
    TRef.ternary (TRef.of (T := ⟨S512x1, .i1⟩) main_v156) (TRef.of (T := ⟨S512x1, .f32⟩) main_call4_v1) (TRef.of (T := ⟨S512x1, .f32⟩) main_v154) (TRef.of (T := ⟨S512x1, .f32⟩) main_v157) select,
    nullary main_cst_23 (constant S_ .f32 0x3F800000#32),
    unary main_cst_23 main_v158 (broadcastInDim S100000x1 ![] bcast_S_S100000x1),
    nullary main_cst_24 (constant S_ .f32 0x00000000#32),
    unary main_cst_24 main_v159 (broadcastInDim S512x1 ![] bcast_S_S512x1),
    unary main_arg2 main_v160 (broadcastInDim S100000x1 ![0] bcast_S100000_S100000x1_0),
    ternary main_v159 main_v160 main_v158 main_v161 (fun x i u => Host.scatterAdd scatter_S512x1_S100000x1_S100000x1_1_0_0_1 x i u),
    binary main_v161 main_v157 main_v162 Host.divf,
    nullary main_c_25 (constantI S_ 32 0#32),
    unary main_c_25 main_v163 (broadcastInDim S100000 ![] bcast_S_S100000),
    binary main_arg2 main_v163 main_v164 (cmpi .slt),
    nullary main_c_26 (constantI S_ 32 512#32),
    unary main_c_26 main_v165 (broadcastInDim S100000 ![] bcast_S_S100000),
    binary main_arg2 main_v165 main_v166 addi,
    ternary main_v164 main_v166 main_arg2 main_v167 select,
    unary main_v167 main_v168 (broadcastInDim S100000x1 ![0] bcast_S100000_S100000x1_0),
    binary main_v162 main_v168 main_v169 (fun x i => Host.gather gather_S512x1_S100000x1_S100000x1_1_0_n_n_0_1_11 x i),
    binary main_v151 main_v169 main_v170 mulf,
    unary main_v170 main_v171 (broadcastInDim S100000x64 ![0, 1] bcast_S100000x1_S100000x64_0_1),
    binary main_v132 main_v171 main_v172 mulf,
    nullary main_cst_27 (constant S_ .f32 0x00000000#32),
    unary main_cst_27 main_v173 (broadcastInDim S512x64 ![] bcast_S_S512x64),
    unary main_arg2 main_v174 (broadcastInDim S100000x1 ![0] bcast_S100000_S100000x1_0),
    ternary main_v173 main_v174 main_v172 main_v175 (fun x i u => Host.scatterAdd scatter_S512x64_S100000x1_S100000x64_1_0_0_1 x i u),
    nullary main_cst_28 (constant S_ .f32 0x3F800000#32),
    unary main_cst_28 main_v176 (broadcastInDim S100000x1 ![] bcast_S_S100000x1),
    nullary main_cst_29 (constant S_ .f32 0x00000000#32),
    unary main_cst_29 main_v177 (broadcastInDim S512x1 ![] bcast_S_S512x1),
    unary main_arg2 main_v178 (broadcastInDim S100000x1 ![0] bcast_S100000_S100000x1_0),
    ternary main_v177 main_v178 main_v176 main_v179 (fun x i u => Host.scatterAdd scatter_S512x1_S100000x1_S100000x1_1_0_0_1 x i u),
    nullary main_cst_30 (constant S_ .f32 0x3F800000#32),
    unary main_cst_30 main_v180 (broadcastInDim S512x1 ![] bcast_S_S512x1),
    binary main_v179 main_v180 main_v181 maximumf,
    unary main_v181 main_v182 (broadcastInDim S512x64 ![0, 1] bcast_S512x1_S512x64_0_1),
    binary main_v175 main_v182 main_v183 Host.divf,
    binary main_v183 main_arg12 main_v184 (fun l r => Host.dotGeneral dot_S512x64_S64x128_S512x128_1_0_0_1_n_n none l r),
    unary main_arg13 main_v185 (broadcastInDim S1x128 ![1] bcast_S128_S1x128_1),
    unary main_v185 main_v186 (broadcastInDim S512x128 ![0, 1] bcast_S1x128_S512x128_0_1),
    binary main_v184 main_v186 main_v187 addf,
    TRef.nullary (TRef.of (T := ⟨S_, .f32⟩) main_call5_cst) (constant S_ .f32 0x00000000#32),
    TRef.unary (TRef.of (T := ⟨S_, .f32⟩) main_call5_cst) (TRef.of (T := ⟨S512x128, .f32⟩) main_call5_v0) (broadcastInDim S512x128 ![] bcast_S_S512x128),
    TRef.binary (TRef.of (T := ⟨S512x128, .f32⟩) main_v187) (TRef.of (T := ⟨S512x128, .f32⟩) main_call5_v0) (TRef.of (T := ⟨S512x128, .f32⟩) main_v188) maximumf,
    binary main_v188 main_arg14 main_v189 (fun l r => Host.dotGeneral dot_S512x128_S128x3_S512x3_1_0_0_1_n_n none l r),
    unary main_arg15 main_v190 (broadcastInDim S1x3 ![1] bcast_S3_S1x3_1),
    unary main_v190 main_v191 (broadcastInDim S512x3 ![0, 1] bcast_S1x3_S512x3_0_1),
    binary main_v189 main_v191 main_v192 addf ]

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := rfl
set_option maxRecDepth 8192 in
set_option maxHeartbeats 4000000 in
theorem main_part2_eq (c : Dev nD) : main_part2 (F := F) c = seq ops2 := rfl
set_option maxRecDepth 8192 in
set_option maxHeartbeats 4000000 in
theorem main_part3_eq (c : Dev nD) : main_part3 (F := F) c = seq ops3 := rfl
theorem scopedRefs_eq : (Finset.univ.filter fun b : Ref sig .tc => b.isScoped) = ∅ := by decide
theorem scopedSems_eq : (Finset.univ.filter fun sm : SemLoc sig => sm.isScoped .tc) = ∅ := by decide
-- Every buffer an operation touches is one of the program's own references.
set_option maxRecDepth 8192 in
theorem ops0_sub : (ops0 : List (HloOp τ sig (Elt F))).Forall fun op => op.bufs ⊆ tcRefs τ sig := by
  simp only [ops0, List.Forall, nullary_bufs_sub, unary_bufs_sub, binary_bufs_sub, ternary_bufs_sub, reshape_bufs_sub, and_self]
set_option maxRecDepth 8192 in
theorem ops1_sub : (ops1 : List (HloOp τ sig (Elt F))).Forall fun op => op.bufs ⊆ tcRefs τ sig := by
  simp only [ops1, List.Forall, nullary_bufs_sub, unary_bufs_sub, binary_bufs_sub, ternary_bufs_sub, reshape_bufs_sub, and_self]
set_option maxRecDepth 8192 in
theorem ops2_sub : (ops2 : List (HloOp τ sig (Elt F))).Forall fun op => op.bufs ⊆ tcRefs τ sig := by
  simp only [ops2, List.Forall, nullary_bufs_sub, unary_bufs_sub, binary_bufs_sub, ternary_bufs_sub, reshape_bufs_sub, and_self]
set_option maxRecDepth 8192 in
theorem ops3_sub : (ops3 : List (HloOp τ sig (Elt F))).Forall fun op => op.bufs ⊆ tcRefs τ sig := by
  simp only [ops3, List.Forall, nullary_bufs_sub, unary_bufs_sub, binary_bufs_sub, ternary_bufs_sub, reshape_bufs_sub, and_self]

end Cert.ReferenceIdeal.RunHand

end
-- ==== Proof.Val.RefRead.lean ====
import proofs.«408151_j68813966016636_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

-- A plain matrix product read at an index is the sum over the one contracted axis, the operands read at any indices with these coordinates.
theorem dot_plain_apply {M K N : Nat} (x : FVec Ideal ⟨2, ![M, K]⟩ .f32) (y : FVec Ideal ⟨2, ![K, N]⟩ .f32) (i : (⟨2, ![M, N]⟩ : Shape).Idx)
    (l : Fin K → (⟨2, ![M, K]⟩ : Shape).Idx) (r : Fin K → (⟨2, ![K, N]⟩ : Shape).Idx)
    (hl : ∀ k, (l k 0).val = (i 0).val ∧ (l k 1).val = k.val) (hr : ∀ k, (r k 0).val = k.val ∧ (r k 1).val = (i 1).val) :
    Host.dotGeneral (DotDims.plain M K N) none x y i = ∑ k : Fin K, x (l k) * y (r k) := by
  simp only [Host.dotGeneral]
  rw [Ideal.dotGeneral_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx i ((ValueIdx.contrEquiv1 (DotDims.plain M K N) K rfl rfl).symm k) = l k := funext fun a => Fin.ext (by
    match a with
    | ⟨0, _⟩ => exact (hl k).1.symm
    | ⟨1, _⟩ => exact (((DotDims.plain M K N).lhsIdx_val_of_single rfl i _).trans hk).trans (hl k).2.symm)
  have er : (DotDims.plain M K N).rhsIdx i ((ValueIdx.contrEquiv1 (DotDims.plain M K N) K rfl rfl).symm k) = r k := funext fun a => Fin.ext (by
    match a with
    | ⟨0, _⟩ => exact (((DotDims.plain M K N).rhsIdx_val_of_single rfl i _).trans hk).trans (hr k).1.symm
    | ⟨1, _⟩ => exact (hr k).2.symm)
  rw [el, er]
-- Dropping a leading unit axis keeps the row-major position, so the one remaining coordinate is read unchanged.
theorem shapeCast_drop1 {N : Nat} {α : Type} (x : (⟨2, ![1, N]⟩ : Shape).Idx → α) (h : (⟨2, ![1, N]⟩ : Shape).ShapeCasts ⟨1, ![N]⟩)
    (i : (⟨1, ![N]⟩ : Shape).Idx) (k : (⟨2, ![1, N]⟩ : Shape).Idx) (hk : (k 1).val = (i 0).val % N) :
    shapeCast _ x h i = x k :=
  shapeCast_apply x h i k (by
    have h0 : (k 0).val < 1 := (k 0).isLt
    have hi : (i 0).val < N := (i 0).isLt
    rw [Shape.rowMajor_val_two, Shape.rowMajor_val_one]
    show (k 0).val * N + (k 1).val = (i 0).val
    rw [hk, Nat.mod_eq_of_lt hi, Nat.lt_one_iff.1 h0, Nat.zero_mul, Nat.zero_add])
-- The same for a [1, 64, 64] array viewed [64, 64]: the two remaining coordinates are quotient and remainder of the position.
theorem shapeCast_drop1_64 {α : Type} (x : S1x64x64.Idx → α) (i : S64x64.Idx) (k : S1x64x64.Idx)
    (h1 : (k 1).val = ((i 0).val * 64 + (i 1).val) / 64 % 64) (h2 : (k 2).val = ((i 0).val * 64 + (i 1).val) % 64) :
    shapeCast _ x shapeCasts_S1x64x64_S64x64 i = x k :=
  shapeCast_apply x _ i k (by
    have h0 : (k 0).val < 1 := (k 0).isLt
    have hi0 : (i 0).val < 64 := (i 0).isLt
    have hi1 : (i 1).val < 64 := (i 1).isLt
    rw [Shape.rowMajor_val_three, Shape.rowMajor_val_two]
    show ((k 0).val * 64 + (k 1).val) * 64 + (k 2).val = (i 0).val * 64 + (i 1).val
    omega)

def val_main_v0 (x1 : (⟨S2x1000000, .i32⟩ : BufTy).Contents (Elt F)) : (⟨S1x1000000, .i32⟩ : BufTy).Contents (Elt F) :=
  extractStridedSlice S1x1000000 ![0, 0] (x1) slices_S2x1000000_S1x1000000_0_0
abbrev idx_main_v0 (i : S1x1000000.Idx) : S2x1000000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x1000000, .i32⟩ : BufTy).Contents (Elt F)) (i : S1x1000000.Idx) :
    val_main_v0 (F := F) x1 i = x1 (idx_main_v0 i) :=
  extractStridedSlice_apply _ _ _ i _ fun a => match a with
    | ⟨0, _⟩ => (Nat.zero_add _).symm
    | ⟨1, _⟩ => (Nat.zero_add _).symm
def val_main_v1 (x1 : (⟨S2x1000000, .i32⟩ : BufTy).Contents (Elt F)) : (⟨S1000000, .i32⟩ : BufTy).Contents (Elt F) :=
  shapeCast _ (val_main_v0 (F := F) x1) shapeCasts_S1x1000000_S1000000
abbrev idx_main_v1 (i : S1000000.Idx) : S1x1000000.Idx := fun a => match a with
  | ⟨0, _⟩ => ⟨0, Nat.one_pos⟩
  | ⟨1, _⟩ => ⟨((i 0).val) % 1000000, by have h0 : (i 0).val < 1000000 := (i 0).isLt; show ((i 0).val) % 1000000 < 1000000; omega⟩
theorem val_main_v1_apply (x1 : (⟨S2x1000000, .i32⟩ : BufTy).Contents (Elt F)) (i : S1000000.Idx) :
    val_main_v1 (F := F) x1 i = val_main_v0 (F := F) x1 (idx_main_v1 i) :=
  shapeCast_drop1 _ _ i _ rfl
def val_main_v2 (x1 : (⟨S2x1000000, .i32⟩ : BufTy).Contents (Elt F)) : (⟨S1x1000000, .i32⟩ : BufTy).Contents (Elt F) :=
  extractStridedSlice S1x1000000 ![1, 0] (x1) slices_S2x1000000_S1x1000000_1_0
abbrev idx_main_v2 (i : S1x1000000.Idx) : S2x1000000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x1000000, .i32⟩ : BufTy).Contents (Elt F)) (i : S1x1000000.Idx) :
    val_main_v2 (F := F) x1 i = x1 (idx_main_v2 i) :=
  extractStridedSlice_apply _ _ _ i _ fun a => match a with
    | ⟨0, _⟩ => rfl
    | ⟨1, _⟩ => (Nat.zero_add _).symm
def val_main_v3 (x1 : (⟨S2x1000000, .i32⟩ : BufTy).Contents (Elt F)) : (⟨S1000000, .i32⟩ : BufTy).Contents (Elt F) :=
  shapeCast _ (val_main_v2 (F := F) x1) shapeCasts_S1x1000000_S1000000
abbrev idx_main_v3 (i : S1000000.Idx) : S1x1000000.Idx := fun a => match a with
  | ⟨0, _⟩ => ⟨0, Nat.one_pos⟩
  | ⟨1, _⟩ => ⟨((i 0).val) % 1000000, by have h0 : (i 0).val < 1000000 := (i 0).isLt; show ((i 0).val) % 1000000 < 1000000; omega⟩
theorem val_main_v3_apply (x1 : (⟨S2x1000000, .i32⟩ : BufTy).Contents (Elt F)) (i : S1000000.Idx) :
    val_main_v3 (F := F) x1 i = val_main_v2 (F := F) x1 (idx_main_v3 i) :=
  shapeCast_drop1 _ _ i _ rfl
def val_main_v4 (x3 : (⟨S1000000, .f32⟩ : BufTy).Contents (Elt F)) : (⟨S1000000x1, .f32⟩ : BufTy).Contents (Elt F) :=
  broadcastInDim S1000000x1 ![0] bcast_S1000000_S1000000x1_0 (x3)
abbrev idx_main_v4 (i : S1000000x1.Idx) : S1000000.Idx := fun a => match a with
  | ⟨0, _⟩ => ⟨(i 0).val, (i 0).isLt⟩
theorem val_main_v4_apply (x3 : (⟨S1000000, .f32⟩ : BufTy).Contents (Elt F)) (i : S1000000x1.Idx) :
    val_main_v4 (F := F) x3 i = x3 (idx_main_v4 i) :=
  broadcastInDim_apply _ _ _ i _ fun a => match a with
    | ⟨0, _⟩ => rfl
def val_main_v5 (x3 : (⟨S1000000, .f32⟩ : BufTy).Contents (Elt F)) (x4 : (⟨S1000000x1, .f32⟩ : BufTy).Contents (Elt F)) : (⟨S1000000x1, .f32⟩ : BufTy).Contents (Elt F) :=
  mulf (val_main_v4 (F := F) x3) (x4)
theorem val_main_v5_apply (x3 : (⟨S1000000, .f32⟩ : BufTy).Contents (Elt F)) (x4 : (⟨S1000000x1, .f32⟩ : BufTy).Contents (Elt F)) (i : S1000000x1.Idx) :
    val_main_v5 (F := F) x3 x4 i = FloatOps.mulf (val_main_v4 (F := F) x3 i) (x4 i) := rfl
def val_main_v6 (x0 : (⟨S100000x4, .f32⟩ : BufTy).Contents (Elt F)) (x5 : (⟨S4x64, .f32⟩ : BufTy).Contents (Elt F)) : (⟨S100000x64, .f32⟩ : BufTy).Contents (Elt F) :=
  Host.dotGeneral dot_S100000x4_S4x64_S100000x64_1_0_0_1_n_n none (x0) (x5)
abbrev lidx_main_v6 (i : S100000x64.Idx) (k : Fin 4) : S100000x4.Idx := fun a => match a with
  | ⟨0, _⟩ => ⟨(i 0).val, (i 0).isLt⟩
  | ⟨1, _⟩ => ⟨k.val, k.isLt⟩
abbrev ridx_main_v6 (i : S100000x64.Idx) (k : Fin 4) : S4x64.Idx := fun a => match a with
  | ⟨0, _⟩ => ⟨k.val, k.isLt⟩
  | ⟨1, _⟩ => ⟨(i 1).val, (i 1).isLt⟩
theorem val_main_v6_apply (x0 : (⟨S100000x4, .f32⟩ : BufTy).Contents (Elt Ideal)) (x5 : (⟨S4x64, .f32⟩ : BufTy).Contents (Elt Ideal)) (i : S100000x64.Idx) :
    val_main_v6 (F := Ideal) x0 x5 i = ∑ k : Fin 4, x0 (lidx_main_v6 i k) * x5 (ridx_main_v6 i k) :=
  dot_plain_apply _ _ i _ _ (fun _ => ⟨rfl, rfl⟩) fun _ => ⟨rfl, rfl⟩
def val_main_v7 (x6 : (⟨S64, .f32⟩ : BufTy).Contents (Elt F)) : (⟨S1x64, .f32⟩ : BufTy).Contents (Elt F) :=
  broadcastInDim S1x64 ![1] bcast_S64_S1x64_1 (x6)
abbrev idx_main_v7 (i : S1x64.Idx) : S64.Idx := fun a => match a with
  | ⟨0, _⟩ => ⟨(i 1).val, (i 1).isLt⟩
theorem val_main_v7_apply (x6 : (⟨S64, .f32⟩ : BufTy).Contents (Elt F)) (i : S1x64.Idx) :
    val_main_v7 (F := F) x6 i = x6 (idx_main_v7 i) :=
  broadcastInDim_apply _ _ _ i _ fun a => match a with
    | ⟨0, _⟩ => rfl
def val_main_v8 (x6 : (⟨S64, .f32⟩ : BufTy).Contents (Elt F)) : (⟨S100000x64, .f32⟩ : BufTy).Contents (Elt F) :=
  broadcastInDim S100000x64 ![0, 1] bcast_S1x64_S100000x64_0_1 (val_main_v7 (F := F) x6)
abbrev idx_main_v8 (i : S100000x64.Idx) : S1x64.Idx := fun a => match a with
  | ⟨0, _⟩ => ⟨0, Nat.one_pos⟩
  | ⟨1, _⟩ => ⟨(i 1).val, (i 1).isLt⟩
theorem val_main_v8_apply (x6 : (⟨S64, .f32⟩ : BufTy).Contents (Elt F)) (i : S100000x64.Idx) :
    val_main_v8 (F := F) x6 i = val_main_v7 (F := F) x6 (idx_main_v8 i) :=
  broadcastInDim_apply _ _ _ i _ fun a => match a with
    | ⟨0, _⟩ => rfl
    | ⟨1, _⟩ => rfl
def val_main_v9 (x0 : (⟨S100000x4, .f32⟩ : BufTy).Contents (Elt F)) (x5 : (⟨S4x64, .f32⟩ : BufTy).Contents (Elt F)) (x6 : (⟨S64, .f32⟩ : BufTy).Contents (Elt F)) : (⟨S100000x64, .f32⟩ : BufTy).Contents (Elt F) :=
  addf (val_main_v6 (F := F) x0 x5) (val_main_v8 (F := F) x6)
theorem val_main_v9_apply (x0 : (⟨S100000x4, .f32⟩ : BufTy).Contents (Elt F)) (x5 : (⟨S4x64, .f32⟩ : BufTy).Contents (Elt F)) (x6 : (⟨S64, .f32⟩ : BufTy).Contents (Elt F)) (i : S100000x64.Idx) :
    val_main_v9 (F := F) x0 x5 x6 i = FloatOps.addf (val_main_v6 (F := F) x0 x5 i) (val_main_v8 (F := F) x6 i) := rfl
def val_main_v10 (x7 : (⟨S3x64x64, .f32⟩ : BufTy).Contents (Elt F)) : (⟨S1x64x64, .f32⟩ : BufTy).Contents (Elt F) :=
  extractStridedSlice S1x64x64 ![0, 0, 0] (x7) slices_S3x64x64_S1x64x64_0_0_0
abbrev idx_main_v10 (i : S1x64x64.Idx) : S3x64x64.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v10_apply (x7 : (⟨S3x64x64, .f32⟩ : BufTy).Contents (Elt F)) (i : S1x64x64.Idx) :
    val_main_v10 (F := F) x7 i = x7 (idx_main_v10 i) :=
  extractStridedSlice_apply _ _ _ i _ fun a => match a with
    | ⟨0, _⟩ => (Nat.zero_add _).symm
    | ⟨1, _⟩ => (Nat.zero_add _).symm
    | ⟨2, _⟩ => (Nat.zero_add _).symm
def val_main_v11 (x7 : (⟨S3x64x64, .f32⟩ : BufTy).Contents (Elt F)) : (⟨S64x64, .f32⟩ : BufTy).Contents (Elt F) :=
  shapeCast _ (val_main_v10 (F := F) x7) shapeCasts_S1x64x64_S64x64
abbrev idx_main_v11 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v11_apply (x7 : (⟨S3x64x64, .f32⟩ : BufTy).Contents (Elt F)) (i : S64x64.Idx) :
    val_main_v11 (F := F) x7 i = val_main_v10 (F := F) x7 (idx_main_v11 i) :=
  shapeCast_drop1_64 _ i _ rfl rfl
def val_main_v12 (x0 : (⟨S100000x4, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) : (⟨S100000x64, .f32⟩ : BufTy).Contents (Elt F) :=
  Host.dotGeneral dot_S100000x64_S64x64_S100000x64_1_0_0_1_n_n none (val_main_v9 (F := F) x0 x5 x6) (val_main_v11 (F := F) x7)
abbrev lidx_main_v12 (i : S100000x64.Idx) (k : Fin 64) : S100000x64.Idx := fun a => match a with
  | ⟨0, _⟩ => ⟨(i 0).val, (i 0).isLt⟩
  | ⟨1, _⟩ => ⟨k.val, k.isLt⟩
abbrev ridx_main_v12 (i : S100000x64.Idx) (k : Fin 64) : S64x64.Idx := fun a => match a with
  | ⟨0, _⟩ => ⟨k.val, k.isLt⟩
  | ⟨1, _⟩ => ⟨(i 1).val, (i 1).isLt⟩
theorem val_main_v12_apply (x0 : (⟨S100000x4, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (i : S100000x64.Idx) :
    val_main_v12 (F := Ideal) x0 x5 x6 x7 i = ∑ k : Fin 64, (val_main_v9 (F := Ideal) x0 x5 x6) (lidx_main_v12 i k) * (val_main_v11 (F := Ideal) x7) (ridx_main_v12 i k) :=
  dot_plain_apply _ _ i _ _ (fun _ => ⟨rfl, rfl⟩) fun _ => ⟨rfl, rfl⟩
def val_main_v13 (x8 : (⟨S3x64, .f32⟩ : BufTy).Contents (Elt F)) : (⟨S1x64, .f32⟩ : BufTy).Contents (Elt F) :=
  extractStridedSlice S1x64 ![0, 0] (x8) slices_S3x64_S1x64_0_0
abbrev idx_main_v13 (i : S1x64.Idx) : S3x64.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v13_apply (x8 : (⟨S3x64, .f32⟩ : BufTy).Contents (Elt F)) (i : S1x64.Idx) :
    val_main_v13 (F := F) x8 i = x8 (idx_main_v13 i) :=
  extractStridedSlice_apply _ _ _ i _ fun a => match a with
    | ⟨0, _⟩ => (Nat.zero_add _).symm
    | ⟨1, _⟩ => (Nat.zero_add _).symm
def val_main_v14 (x8 : (⟨S3x64, .f32⟩ : BufTy).Contents (Elt F)) : (⟨S64, .f32⟩ : BufTy).Contents (Elt F) :=
  shapeCast _ (val_main_v13 (F := F) x8) shapeCasts_S1x64_S64
abbrev idx_main_v14 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v14_apply (x8 : (⟨S3x64, .f32⟩ : BufTy).Contents (Elt F)) (i : S64.Idx) :
    val_main_v14 (F := F) x8 i = val_main_v13 (F := F) x8 (idx_main_v14 i) :=
  shapeCast_drop1 _ _ i _ rfl
def val_main_v15 (x8 : (⟨S3x64, .f32⟩ : BufTy).Contents (Elt F)) : (⟨S1x64, .f32⟩ : BufTy).Contents (Elt F) :=
  broadcastInDim S1x64 ![1] bcast_S64_S1x64_1 (val_main_v14 (F := F) x8)
abbrev idx_main_v15 (i : S1x64.Idx) : S64.Idx := fun a => match a with
  | ⟨0, _⟩ => ⟨(i 1).val, (i 1).isLt⟩
theorem val_main_v15_apply (x8 : (⟨S3x64, .f32⟩ : BufTy).Contents (Elt F)) (i : S1x64.Idx) :
    val_main_v15 (F := F) x8 i = val_main_v14 (F := F) x8 (idx_main_v15 i) :=
  broadcastInDim_apply _ _ _ i _ fun a => match a with
    | ⟨0, _⟩ => rfl
def val_main_v16 (x8 : (⟨S3x64, .f32⟩ : BufTy).Contents (Elt F)) : (⟨S100000x64, .f32⟩ : BufTy).Contents (Elt F) :=
  broadcastInDim S100000x64 ![0, 1] bcast_S1x64_S100000x64_0_1 (val_main_v15 (F := F) x8)
abbrev idx_main_v16 (i : S100000x64.Idx) : S1x64.Idx := fun a => match a with
  | ⟨0, _⟩ => ⟨0, Nat.one_pos⟩
  | ⟨1, _⟩ => ⟨(i 1).val, (i 1).isLt⟩
theorem val_main_v16_apply (x8 : (⟨S3x64, .f32⟩ : BufTy).Contents (Elt F)) (i : S100000x64.Idx) :
    val_main_v16 (F := F) x8 i = val_main_v15 (F := F) x8 (idx_main_v16 i) :=
  broadcastInDim_apply _ _ _ i _ fun a => match a with
    | ⟨0, _⟩ => rfl
    | ⟨1, _⟩ => rfl
def val_main_v17 (x0 : (⟨S100000x4, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) : (⟨S100000x64, .f32⟩ : BufTy).Contents (Elt F) :=
  addf (val_main_v12 (F := F) x0 x5 x6 x7) (val_main_v16 (F := F) x8)
theorem val_main_v17_apply (x0 : (⟨S100000x4, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (i : S100000x64.Idx) :
    val_main_v17 (F := F) x0 x5 x6 x7 x8 i = FloatOps.addf (val_main_v12 (F := F) x0 x5 x6 x7 i) (val_main_v16 (F := F) x8 i) := rfl
def val_main_v18 (x9 : (⟨S3x64x64, .f32⟩ : BufTy).Contents (Elt F)) : (⟨S1x64x64, .f32⟩ : BufTy).Contents (Elt F) :=
  extractStridedSlice S1x64x64 ![0, 0, 0] (x9) slices_S3x64x64_S1x64x64_0_0_0
abbrev idx_main_v18 (i : S1x64x64.Idx) : S3x64x64.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v18_apply (x9 : (⟨S3x64x64, .f32⟩ : BufTy).Contents (Elt F)) (i : S1x64x64.Idx) :
    val_main_v18 (F := F) x9 i = x9 (idx_main_v18 i) :=
  extractStridedSlice_apply _ _ _ i _ fun a => match a with
    | ⟨0, _⟩ => (Nat.zero_add _).symm
    | ⟨1, _⟩ => (Nat.zero_add _).symm
    | ⟨2, _⟩ => (Nat.zero_add _).symm
def val_main_v19 (x9 : (⟨S3x64x64, .f32⟩ : BufTy).Contents (Elt F)) : (⟨S64x64, .f32⟩ : BufTy).Contents (Elt F) :=
  shapeCast _ (val_main_v18 (F := F) x9) shapeCasts_S1x64x64_S64x64
abbrev idx_main_v19 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v19_apply (x9 : (⟨S3x64x64, .f32⟩ : BufTy).Contents (Elt F)) (i : S64x64.Idx) :
    val_main_v19 (F := F) x9 i = val_main_v18 (F := F) x9 (idx_main_v19 i) :=
  shapeCast_drop1_64 _ i _ rfl rfl
def val_main_v20 (x0 : (⟨S100000x4, .f32⟩ : BufTy).Contents (Elt F)) (x5 : (⟨S4x64, .f32⟩ : BufTy).Contents (Elt F)) (x6 : (⟨S64, .f32⟩ : BufTy).Contents (Elt F)) (x9 : (⟨S3x64x64, .f32⟩ : BufTy).Contents (Elt F)) : (⟨S100000x64, .f32⟩ : BufTy).Contents (Elt F) :=
  Host.dotGeneral dot_S100000x64_S64x64_S100000x64_1_0_0_1_n_n none (val_main_v9 (F := F) x0 x5 x6) (val_main_v19 (F := F) x9)
abbrev lidx_main_v20 (i : S100000x64.Idx) (k : Fin 64) : S100000x64.Idx := fun a => match a with
  | ⟨0, _⟩ => ⟨(i 0).val, (i 0).isLt⟩
  | ⟨1, _⟩ => ⟨k.val, k.isLt⟩
abbrev ridx_main_v20 (i : S100000x64.Idx) (k : Fin 64) : S64x64.Idx := fun a => match a with
  | ⟨0, _⟩ => ⟨k.val, k.isLt⟩
  | ⟨1, _⟩ => ⟨(i 1).val, (i 1).isLt⟩
theorem val_main_v20_apply (x0 : (⟨S100000x4, .f32⟩ : BufTy).Contents (Elt Ideal)) (x5 : (⟨S4x64, .f32⟩ : BufTy).Contents (Elt Ideal)) (x6 : (⟨S64, .f32⟩ : BufTy).Contents (Elt Ideal)) (x9 : (⟨S3x64x64, .f32⟩ : BufTy).Contents (Elt Ideal)) (i : S100000x64.Idx) :
    val_main_v20 (F := Ideal) x0 x5 x6 x9 i = ∑ k : Fin 64, (val_main_v9 (F := Ideal) x0 x5 x6) (lidx_main_v20 i k) * (val_main_v19 (F := Ideal) x9) (ridx_main_v20 i k) :=
  dot_plain_apply _ _ i _ _ (fun _ => ⟨rfl, rfl⟩) fun _ => ⟨rfl, rfl⟩
def val_main_c : (⟨S_, .i32⟩ : BufTy).Contents (Elt F) :=
  constantI S_ 32 0#32
theorem val_main_c_apply (i : S_.Idx) :
    val_main_c (F := F) i = 0#32 := rfl
def val_main_v21 : (⟨S1000000, .i32⟩ : BufTy).Contents (Elt F) :=
  broadcastInDim S1000000 ![] bcast_S_S1000000 (val_main_c (F := F))
abbrev idx_main_v21 (i : S1000000.Idx) : S_.Idx := fun a => a.elim0
theorem val_main_v21_apply (i : S1000000.Idx) :
    val_main_v21 (F := F) i = val_main_c (F := F) (idx_main_v21 i) :=
  broadcastInDim_apply _ _ _ i _ fun a => a.elim0
def val_main_v22 (x1 : (⟨S2x1000000, .i32⟩ : BufTy).Contents (Elt F)) : (⟨S1000000, .i1⟩ : BufTy).Contents (Elt F) :=
  cmpi .slt (val_main_v1 (F := F) x1) (val_main_v21 (F := F))
theorem val_main_v22_apply (x1 : (⟨S2x1000000, .i32⟩ : BufTy).Contents (Elt F)) (i : S1000000.Idx) :
    val_main_v22 (F := F) x1 i = IntOp.cmpi .slt (val_main_v1 (F := F) x1 i) (val_main_v21 (F := F) i) := rfl
def val_main_c_0 : (⟨S_, .i32⟩ : BufTy).Contents (Elt F) :=
  constantI S_ 32 100000#32
def val_main_v23 : (⟨S1000000, .i32⟩ : BufTy).Contents (Elt F) :=
  broadcastInDim S1000000 ![] bcast_S_S1000000 (val_main_c_0 (F := F))
def val_main_v24 (x1 : (⟨S2x1000000, .i32⟩ : BufTy).Contents (Elt F)) : (⟨S1000000, .i32⟩ : BufTy).Contents (Elt F) :=
  addi (val_main_v1 (F := F) x1) (val_main_v23 (F := F))
def val_main_v25 (x1 : (⟨S2x1000000, .i32⟩ : BufTy).Contents (Elt F)) : (⟨S1000000, .i32⟩ : BufTy).Contents (Elt F) :=
  select (val_main_v22 (F := F) x1) (val_main_v24 (F := F) x1) (val_main_v1 (F := F) x1)
theorem val_main_v25_apply (x1 : (⟨S2x1000000, .i32⟩ : BufTy).Contents (Elt F)) (i : S1000000.Idx) :
    val_main_v25 (F := F) x1 i = Scalar.select (val_main_v22 (F := F) x1 i) (val_main_v24 (F := F) x1 i) (val_main_v1 (F := F) x1 i) := rfl
def val_main_v26 (x1 : (⟨S2x1000000, .i32⟩ : BufTy).Contents (Elt F)) : (⟨S1000000x1, .i32⟩ : BufTy).Contents (Elt F) :=
  broadcastInDim S1000000x1 ![0] bcast_S1000000_S1000000x1_0 (val_main_v25 (F := F) x1)
abbrev idx_main_v26 (i : S1000000x1.Idx) : S1000000.Idx := fun a => match a with
  | ⟨0, _⟩ => ⟨(i 0).val, (i 0).isLt⟩
theorem val_main_v26_apply (x1 : (⟨S2x1000000, .i32⟩ : BufTy).Contents (Elt F)) (i : S1000000x1.Idx) :
    val_main_v26 (F := F) x1 i = val_main_v25 (F := F) x1 (idx_main_v26 i) :=
  broadcastInDim_apply _ _ _ i _ fun a => match a with
    | ⟨0, _⟩ => rfl
def val_main_v27 (x0 : (⟨S100000x4, .f32⟩ : BufTy).Contents (Elt F)) (x1 : (⟨S2x1000000, .i32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) : (⟨S1000000x64, .f32⟩ : BufTy).Contents (Elt F) :=
  Host.gather gather_S100000x64_S1000000x1_S1000000x64_1_0_n_n_0_1_164 (val_main_v17 (F := F) x0 x5 x6 x7 x8) (val_main_v26 (F := F) x1)
def val_main_c_1 : (⟨S_, .i32⟩ : BufTy).Contents (Elt F) :=
  constantI S_ 32 0#32
theorem val_main_c_1_apply (i : S_.Idx) :
    val_main_c_1 (F := F) i = 0#32 := rfl
def val_main_v28 : (⟨S1000000, .i32⟩ : BufTy).Contents (Elt F) :=
  broadcastInDim S1000000 ![] bcast_S_S1000000 (val_main_c_1 (F := F))
abbrev idx_main_v28 (i : S1000000.Idx) : S_.Idx := fun a => a.elim0
theorem val_main_v28_apply (i : S1000000.Idx) :
    val_main_v28 (F := F) i = val_main_c_1 (F := F) (idx_main_v28 i) :=
  broadcastInDim_apply _ _ _ i _ fun a => a.elim0
def val_main_v29 (x1 : (⟨S2x1000000, .i32⟩ : BufTy).Contents (Elt F)) : (⟨S1000000, .i1⟩ : BufTy).Contents (Elt F) :=
  cmpi .slt (val_main_v3 (F := F) x1) (val_main_v28 (F := F))
theorem val_main_v29_apply (x1 : (⟨S2x1000000, .i32⟩ : BufTy).Contents (Elt F)) (i : S1000000.Idx) :
    val_main_v29 (F := F) x1 i = IntOp.cmpi .slt (val_main_v3 (F := F) x1 i) (val_main_v28 (F := F) i) := rfl
def val_main_c_2 : (⟨S_, .i32⟩ : BufTy).Contents (Elt F) :=
  constantI S_ 32 100000#32
def val_main_v30 : (⟨S1000000, .i32⟩ : BufTy).Contents (Elt F) :=
  broadcastInDim S1000000 ![] bcast_S_S1000000 (val_main_c_2 (F := F))
def val_main_v31 (x1 : (⟨S2x1000000, .i32⟩ : BufTy).Contents (Elt F)) : (⟨S1000000, .i32⟩ : BufTy).Contents (Elt F) :=
  addi (val_main_v3 (F := F) x1) (val_main_v30 (F := F))
def val_main_v32 (x1 : (⟨S2x1000000, .i32⟩ : BufTy).Contents (Elt F)) : (⟨S1000000, .i32⟩ : BufTy).Contents (Elt F) :=
  select (val_main_v29 (F := F) x1) (val_main_v31 (F := F) x1) (val_main_v3 (F := F) x1)
theorem val_main_v32_apply (x1 : (⟨S2x1000000, .i32⟩ : BufTy).Contents (Elt F)) (i : S1000000.Idx) :
    val_main_v32 (F := F) x1 i = Scalar.select (val_main_v29 (F := F) x1 i) (val_main_v31 (F := F) x1 i) (val_main_v3 (F := F) x1 i) := rfl
def val_main_v33 (x1 : (⟨S2x1000000, .i32⟩ : BufTy).Contents (Elt F)) : (⟨S1000000x1, .i32⟩ : BufTy).Contents (Elt F) :=
  broadcastInDim S1000000x1 ![0] bcast_S1000000_S1000000x1_0 (val_main_v32 (F := F) x1)
abbrev idx_main_v33 (i : S1000000x1.Idx) : S1000000.Idx := fun a => match a with
  | ⟨0, _⟩ => ⟨(i 0).val, (i 0).isLt⟩
theorem val_main_v33_apply (x1 : (⟨S2x1000000, .i32⟩ : BufTy).Contents (Elt F)) (i : S1000000x1.Idx) :
    val_main_v33 (F := F) x1 i = val_main_v32 (F := F) x1 (idx_main_v33 i) :=
  broadcastInDim_apply _ _ _ i _ fun a => match a with
    | ⟨0, _⟩ => rfl
def val_main_v34 (x0 : (⟨S100000x4, .f32⟩ : BufTy).Contents (Elt F)) (x1 : (⟨S2x1000000, .i32⟩ : BufTy).Contents (Elt F)) (x5 : (⟨S4x64, .f32⟩ : BufTy).Contents (Elt F)) (x6 : (⟨S64, .f32⟩ : BufTy).Contents (Elt F)) (x9 : (⟨S3x64x64, .f32⟩ : BufTy).Contents (Elt F)) : (⟨S1000000x64, .f32⟩ : BufTy).Contents (Elt F) :=
  Host.gather gather_S100000x64_S1000000x1_S1000000x64_1_0_n_n_0_1_164 (val_main_v20 (F := F) x0 x5 x6 x9) (val_main_v33 (F := F) x1)
def val_main_v35 (x0 : (⟨S100000x4, .f32⟩ : BufTy).Contents (Elt F)) (x1 : (⟨S2x1000000, .i32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 : (⟨S3x64x64, .f32⟩ : BufTy).Contents (Elt F)) : (⟨S1000000x64, .f32⟩ : BufTy).Contents (Elt F) :=
  subf (val_main_v27 (F := F) x0 x1 x5 x6 x7 x8) (val_main_v34 (F := F) x0 x1 x5 x6 x9)
theorem val_main_v35_apply (x0 : (⟨S100000x4, .f32⟩ : BufTy).Contents (Elt F)) (x1 : (⟨S2x1000000, .i32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 : (⟨S3x64x64, .f32⟩ : BufTy).Contents (Elt F)) (i : S1000000x64.Idx) :
    val_main_v35 (F := F) x0 x1 x5 x6 x7 x8 x9 i = FloatOps.subf (val_main_v27 (F := F) x0 x1 x5 x6 x7 x8 i) (val_main_v34 (F := F) x0 x1 x5 x6 x9 i) := rfl
def val_main_v36 (x3 : (⟨S1000000, .f32⟩ : BufTy).Contents (Elt F)) (x4 : (⟨S1000000x1, .f32⟩ : BufTy).Contents (Elt F)) : (⟨S1000000x64, .f32⟩ : BufTy).Contents (Elt F) :=
  broadcastInDim S1000000x64 ![0, 1] bcast_S1000000x1_S1000000x64_0_1 (val_main_v5 (F := F) x3 x4)
abbrev idx_main_v36 (i : S1000000x64.Idx) : S1000000x1.Idx := fun a => match a with
  | ⟨0, _⟩ => ⟨(i 0).val, (i 0).isLt⟩
  | ⟨1, _⟩ => ⟨0, Nat.one_pos⟩
theorem val_main_v36_apply (x3 : (⟨S1000000, .f32⟩ : BufTy).Contents (Elt F)) (x4 : (⟨S1000000x1, .f32⟩ : BufTy).Contents (Elt F)) (i : S1000000x64.Idx) :
    val_main_v36 (F := F) x3 x4 i = val_main_v5 (F := F) x3 x4 (idx_main_v36 i) :=
  broadcastInDim_apply _ _ _ i _ fun a => match a with
    | ⟨0, _⟩ => rfl
    | ⟨1, _⟩ => rfl
def val_main_v37 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 : (⟨S3x64x64, .f32⟩ : BufTy).Contents (Elt F)) : (⟨S1000000x64, .f32⟩ : BufTy).Contents (Elt F) :=
  mulf (val_main_v36 (F := F) x3 x4) (val_main_v35 (F := F) x0 x1 x5 x6 x7 x8 x9)
theorem val_main_v37_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 : (⟨S3x64x64, .f32⟩ : BufTy).Contents (Elt F)) (i : S1000000x64.Idx) :
    val_main_v37 (F := F) x0 x1 x3 x4 x5 x6 x7 x8 x9 i = FloatOps.mulf (val_main_v36 (F := F) x3 x4 i) (val_main_v35 (F := F) x0 x1 x5 x6 x7 x8 x9 i) := rfl
def val_main_cst : (⟨S_, .f32⟩ : BufTy).Contents (Elt F) :=
  constant S_ .f32 0x00000000#32
theorem val_main_cst_apply (i : S_.Idx) :
    val_main_cst (F := F) i = FloatOps.ofBits .f32 0x00000000#32 := rfl
def val_main_v38 : (⟨S100000x64, .f32⟩ : BufTy).Contents (Elt F) :=
  broadcastInDim S100000x64 ![] bcast_S_S100000x64 (val_main_cst (F := F))
abbrev idx_main_v38 (i : S100000x64.Idx) : S_.Idx := fun a => a.elim0
theorem val_main_v38_apply (i : S100000x64.Idx) :
    val_main_v38 (F := F) i = val_main_cst (F := F) (idx_main_v38 i) :=
  broadcastInDim_apply _ _ _ i _ fun a => a.elim0
def val_main_v39 (x1 : (⟨S2x1000000, .i32⟩ : BufTy).Contents (Elt F)) : (⟨S1000000x1, .i32⟩ : BufTy).Contents (Elt F) :=
  broadcastInDim S1000000x1 ![0] bcast_S1000000_S1000000x1_0 (val_main_v3 (F := F) x1)
abbrev idx_main_v39 (i : S1000000x1.Idx) : S1000000.Idx := fun a => match a with
  | ⟨0, _⟩ => ⟨(i 0).val, (i 0).isLt⟩
theorem val_main_v39_apply (x1 : (⟨S2x1000000, .i32⟩ : BufTy).Contents (Elt F)) (i : S1000000x1.Idx) :
    val_main_v39 (F := F) x1 i = val_main_v3 (F := F) x1 (idx_main_v39 i) :=
  broadcastInDim_apply _ _ _ i _ fun a => match a with
    | ⟨0, _⟩ => rfl
def val_main_v40 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 : (⟨S3x64x64, .f32⟩ : BufTy).Contents (Elt F)) : (⟨S100000x64, .f32⟩ : BufTy).Contents (Elt F) :=
  Host.scatterAdd scatter_S100000x64_S1000000x1_S1000000x64_1_0_0_1 (val_main_v38 (F := F)) (val_main_v39 (F := F) x1) (val_main_v37 (F := F) x0 x1 x3 x4 x5 x6 x7 x8 x9)
def val_main_v41 (x10 : (⟨S3x64x64, .f32⟩ : BufTy).Contents (Elt F)) : (⟨S1x64x64, .f32⟩ : BufTy).Contents (Elt F) :=
  extractStridedSlice S1x64x64 ![0, 0, 0] (x10) slices_S3x64x64_S1x64x64_0_0_0
abbrev idx_main_v41 (i : S1x64x64.Idx) : S3x64x64.Idx := fun a => match a with
  | ⟨0, _⟩ => ⟨(i 0).val, by have h0 : (i 0).val < 1 := (i 0).isLt; show (i 0).val < 3; omega⟩
  | ⟨1, _⟩ => ⟨(i 1).val, (i 1).isLt⟩
  | ⟨2, _⟩ => ⟨(i 2).val, (i 2).isLt⟩
theorem val_main_v41_apply (x10 : (⟨S3x64x64, .f32⟩ : BufTy).Contents (Elt F)) (i : S1x64x64.Idx) :
    val_main_v41 (F := F) x10 i = x10 (idx_main_v41 i) :=
  extractStridedSlice_apply _ _ _ i _ fun a => match a with
    | ⟨0, _⟩ => (Nat.zero_add _).symm
    | ⟨1, _⟩ => (Nat.zero_add _).symm
    | ⟨2, _⟩ => (Nat.zero_add _).symm
def val_main_v42 (x10 : (⟨S3x64x64, .f32⟩ : BufTy).Contents (Elt F)) : (⟨S64x64, .f32⟩ : BufTy).Contents (Elt F) :=
  shapeCast _ (val_main_v41 (F := F) x10) shapeCasts_S1x64x64_S64x64
abbrev idx_main_v42 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v42_apply (x10 : (⟨S3x64x64, .f32⟩ : BufTy).Contents (Elt F)) (i : S64x64.Idx) :
    val_main_v42 (F := F) x10 i = val_main_v41 (F := F) x10 (idx_main_v42 i) :=
  shapeCast_drop1_64 _ i _ rfl rfl
def val_main_v43 (x0 : (⟨S100000x4, .f32⟩ : BufTy).Contents (Elt F)) (x5 : (⟨S4x64, .f32⟩ : BufTy).Contents (Elt F)) (x6 : (⟨S64, .f32⟩ : BufTy).Contents (Elt F)) (x10 : (⟨S3x64x64, .f32⟩ : BufTy).Contents (Elt F)) : (⟨S100000x64, .f32⟩ : BufTy).Contents (Elt F) :=
  Host.dotGeneral dot_S100000x64_S64x64_S100000x64_1_0_0_1_n_n none (val_main_v9 (F := F) x0 x5 x6) (val_main_v42 (F := F) x10)
abbrev lidx_main_v43 (i : S100000x64.Idx) (k : Fin 64) : S100000x64.Idx := fun a => match a with
  | ⟨0, _⟩ => ⟨(i 0).val, (i 0).isLt⟩
  | ⟨1, _⟩ => ⟨k.val, k.isLt⟩
abbrev ridx_main_v43 (i : S100000x64.Idx) (k : Fin 64) : S64x64.Idx := fun a => match a with
  | ⟨0, _⟩ => ⟨k.val, k.isLt⟩
  | ⟨1, _⟩ => ⟨(i 1).val, (i 1).isLt⟩
theorem val_main_v43_apply (x0 : (⟨S100000x4, .f32⟩ : BufTy).Contents (Elt Ideal)) (x5 : (⟨S4x64, .f32⟩ : BufTy).Contents (Elt Ideal)) (x6 : (⟨S64, .f32⟩ : BufTy).Contents (Elt Ideal)) (x10 : (⟨S3x64x64, .f32⟩ : BufTy).Contents (Elt Ideal)) (i : S100000x64.Idx) :
    val_main_v43 (F := Ideal) x0 x5 x6 x10 i = ∑ k : Fin 64, (val_main_v9 (F := Ideal) x0 x5 x6) (lidx_main_v43 i k) * (val_main_v42 (F := Ideal) x10) (ridx_main_v43 i k) :=
  dot_plain_apply _ _ i _ _ (fun _ => ⟨rfl, rfl⟩) fun _ => ⟨rfl, rfl⟩
def val_main_v44 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) : (⟨S100000x64, .f32⟩ : BufTy).Contents (Elt F) :=
  addf (val_main_v40 (F := F) x0 x1 x3 x4 x5 x6 x7 x8 x9) (val_main_v43 (F := F) x0 x5 x6 x10)
theorem val_main_v44_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (i : S100000x64.Idx) :
    val_main_v44 (F := F) x0 x1 x3 x4 x5 x6 x7 x8 x9 x10 i = FloatOps.addf (val_main_v40 (F := F) x0 x1 x3 x4 x5 x6 x7 x8 x9 i) (val_main_v43 (F := F) x0 x5 x6 x10 i) := rfl
def val_main_v45 (x11 : (⟨S3x64, .f32⟩ : BufTy).Contents (Elt F)) : (⟨S1x64, .f32⟩ : BufTy).Contents (Elt F) :=
  extractStridedSlice S1x64 ![0, 0] (x11) slices_S3x64_S1x64_0_0
abbrev idx_main_v45 (i : S1x64.Idx) : S3x64.Idx := fun a => match a with
  | ⟨0, _⟩ => ⟨(i 0).val, by have h0 : (i 0).val < 1 := (i 0).isLt; show (i 0).val < 3; omega⟩
  | ⟨1, _⟩ => ⟨(i 1).val, (i 1).isLt⟩
theorem val_main_v45_apply (x11 : (⟨S3x64, .f32⟩ : BufTy).Contents (Elt F)) (i : S1x64.Idx) :
    val_main_v45 (F := F) x11 i = x11 (idx_main_v45 i) :=
  extractStridedSlice_apply _ _ _ i _ fun a => match a with
    | ⟨0, _⟩ => (Nat.zero_add _).symm
    | ⟨1, _⟩ => (Nat.zero_add _).symm
def val_main_v46 (x11 : (⟨S3x64, .f32⟩ : BufTy).Contents (Elt F)) : (⟨S64, .f32⟩ : BufTy).Contents (Elt F) :=
  shapeCast _ (val_main_v45 (F := F) x11) shapeCasts_S1x64_S64
abbrev idx_main_v46 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v46_apply (x11 : (⟨S3x64, .f32⟩ : BufTy).Contents (Elt F)) (i : S64.Idx) :
    val_main_v46 (F := F) x11 i = val_main_v45 (F := F) x11 (idx_main_v46 i) :=
  shapeCast_drop1 _ _ i _ rfl
def val_main_v47 (x11 : (⟨S3x64, .f32⟩ : BufTy).Contents (Elt F)) : (⟨S1x64, .f32⟩ : BufTy).Contents (Elt F) :=
  broadcastInDim S1x64 ![1] bcast_S64_S1x64_1 (val_main_v46 (F := F) x11)
abbrev idx_main_v47 (i : S1x64.Idx) : S64.Idx := fun a => match a with
  | ⟨0, _⟩ => ⟨(i 1).val, (i 1).isLt⟩
theorem val_main_v47_apply (x11 : (⟨S3x64, .f32⟩ : BufTy).Contents (Elt F)) (i : S1x64.Idx) :
    val_main_v47 (F := F) x11 i = val_main_v46 (F := F) x11 (idx_main_v47 i) :=
  broadcastInDim_apply _ _ _ i _ fun a => match a with
    | ⟨0, _⟩ => rfl
def val_main_v48 (x11 : (⟨S3x64, .f32⟩ : BufTy).Contents (Elt F)) : (⟨S100000x64, .f32⟩ : BufTy).Contents (Elt F) :=
  broadcastInDim S100000x64 ![0, 1] bcast_S1x64_S100000x64_0_1 (val_main_v47 (F := F) x11)
abbrev idx_main_v48 (i : S100000x64.Idx) : S1x64.Idx := fun a => match a with
  | ⟨0, _⟩ => ⟨0, Nat.one_pos⟩
  | ⟨1, _⟩ => ⟨(i 1).val, (i 1).isLt⟩
theorem val_main_v48_apply (x11 : (⟨S3x64, .f32⟩ : BufTy).Contents (Elt F)) (i : S100000x64.Idx) :
    val_main_v48 (F := F) x11 i = val_main_v47 (F := F) x11 (idx_main_v48 i) :=
  broadcastInDim_apply _ _ _ i _ fun a => match a with
    | ⟨0, _⟩ => rfl
    | ⟨1, _⟩ => rfl
def val_main_v49 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v44 (F := F) x0 x1 x3 x4 x5 x6 x7 x8 x9 x10) (val_main_v48 (F := F) x11)
theorem val_main_v49_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v49 (F := F) x0 x1 x3 x4 x5 x6 x7 x8 x9 x10 x11 i = FloatOps.addf (val_main_v44 (F := F) x0 x1 x3 x4 x5 x6 x7 x8 x9 x10 i) (val_main_v48 (F := F) x11 i) := rfl
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl
def val_main_call0_v0 : (⟨S100000x64, .f32⟩ : BufTy).Contents (Elt F) :=
  broadcastInDim S100000x64 ![] bcast_S_S100000x64 (val_main_call0_cst (F := F))
abbrev idx_main_call0_v0 (i : S100000x64.Idx) : S_.Idx := fun a => a.elim0
theorem val_main_call0_v0_apply (i : S100000x64.Idx) :
    val_main_call0_v0 (F := F) i = val_main_call0_cst (F := F) (idx_main_call0_v0 i) :=
  broadcastInDim_apply _ _ _ i _ fun a => a.elim0
def val_main_v50 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  maximumf (val_main_v49 (F := F) x0 x1 x3 x4 x5 x6 x7 x8 x9 x10 x11) (val_main_call0_v0 (F := F))
theorem val_main_v50_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v50 (F := F) x0 x1 x3 x4 x5 x6 x7 x8 x9 x10 x11 i = FloatOps.maximumf (val_main_v49 (F := F) x0 x1 x3 x4 x5 x6 x7 x8 x9 x10 x11 i) (val_main_call0_v0 (F := F) i) := rfl
def val_main_v51 (x7 : (⟨S3x64x64, .f32⟩ : BufTy).Contents (Elt F)) : (⟨S1x64x64, .f32⟩ : BufTy).Contents (Elt F) :=
  extractStridedSlice S1x64x64 ![1, 0, 0] (x7) slices_S3x64x64_S1x64x64_1_0_0
abbrev idx_main_v51 (i : S1x64x64.Idx) : S3x64x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v51_apply (x7 : (⟨S3x64x64, .f32⟩ : BufTy).Contents (Elt F)) (i : S1x64x64.Idx) :
    val_main_v51 (F := F) x7 i = x7 (idx_main_v51 i) :=
  extractStridedSlice_apply _ _ _ i _ fun a => match a with
    | ⟨0, _⟩ => rfl
    | ⟨1, _⟩ => (Nat.zero_add _).symm
    | ⟨2, _⟩ => (Nat.zero_add _).symm
def val_main_v52 (x7 : (⟨S3x64x64, .f32⟩ : BufTy).Contents (Elt F)) : (⟨S64x64, .f32⟩ : BufTy).Contents (Elt F) :=
  shapeCast _ (val_main_v51 (F := F) x7) shapeCasts_S1x64x64_S64x64
abbrev idx_main_v52 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v52_apply (x7 : (⟨S3x64x64, .f32⟩ : BufTy).Contents (Elt F)) (i : S64x64.Idx) :
    val_main_v52 (F := F) x7 i = val_main_v51 (F := F) x7 (idx_main_v52 i) :=
  shapeCast_drop1_64 _ i _ rfl rfl
def val_main_v53 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v50 (F := F) x0 x1 x3 x4 x5 x6 x7 x8 x9 x10 x11) (val_main_v52 (F := F) x7)
abbrev lidx_main_v53 (i : S100000x64.Idx) (k : Fin 64) : S100000x64.Idx := fun a => match a with
  | ⟨0, _⟩ => ⟨(i 0).val, (i 0).isLt⟩
  | ⟨1, _⟩ => ⟨k.val, k.isLt⟩
abbrev ridx_main_v53 (i : S100000x64.Idx) (k : Fin 64) : S64x64.Idx := fun a => match a with
  | ⟨0, _⟩ => ⟨k.val, k.isLt⟩
  | ⟨1, _⟩ => ⟨(i 1).val, (i 1).isLt⟩
theorem val_main_v53_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v53 (F := Ideal) x0 x1 x3 x4 x5 x6 x7 x8 x9 x10 x11 i = ∑ k : Fin 64, (val_main_v50 (F := Ideal) x0 x1 x3 x4 x5 x6 x7 x8 x9 x10 x11) (lidx_main_v53 i k) * (val_main_v52 (F := Ideal) x7) (ridx_main_v53 i k) :=
  dot_plain_apply _ _ i _ _ (fun _ => ⟨rfl, rfl⟩) fun _ => ⟨rfl, rfl⟩
def val_main_v54 (x8 : (⟨S3x64, .f32⟩ : BufTy).Contents (Elt F)) : (⟨S1x64, .f32⟩ : BufTy).Contents (Elt F) :=
  extractStridedSlice S1x64 ![1, 0] (x8) slices_S3x64_S1x64_1_0
abbrev idx_main_v54 (i : S1x64.Idx) : S3x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v54_apply (x8 : (⟨S3x64, .f32⟩ : BufTy).Contents (Elt F)) (i : S1x64.Idx) :
    val_main_v54 (F := F) x8 i = x8 (idx_main_v54 i) :=
  extractStridedSlice_apply _ _ _ i _ fun a => match a with
    | ⟨0, _⟩ => rfl
    | ⟨1, _⟩ => (Nat.zero_add _).symm
def val_main_v55 (x8 : (⟨S3x64, .f32⟩ : BufTy).Contents (Elt F)) : (⟨S64, .f32⟩ : BufTy).Contents (Elt F) :=
  shapeCast _ (val_main_v54 (F := F) x8) shapeCasts_S1x64_S64
abbrev idx_main_v55 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v55_apply (x8 : (⟨S3x64, .f32⟩ : BufTy).Contents (Elt F)) (i : S64.Idx) :
    val_main_v55 (F := F) x8 i = val_main_v54 (F := F) x8 (idx_main_v55 i) :=
  shapeCast_drop1 _ _ i _ rfl
def val_main_v56 (x8 : (⟨S3x64, .f32⟩ : BufTy).Contents (Elt F)) : (⟨S1x64, .f32⟩ : BufTy).Contents (Elt F) :=
  broadcastInDim S1x64 ![1] bcast_S64_S1x64_1 (val_main_v55 (F := F) x8)
abbrev idx_main_v56 (i : S1x64.Idx) : S64.Idx := fun a => match a with
  | ⟨0, _⟩ => ⟨(i 1).val, (i 1).isLt⟩
theorem val_main_v56_apply (x8 : (⟨S3x64, .f32⟩ : BufTy).Contents (Elt F)) (i : S1x64.Idx) :
    val_main_v56 (F := F) x8 i = val_main_v55 (F := F) x8 (idx_main_v56 i) :=
  broadcastInDim_apply _ _ _ i _ fun a => match a with
    | ⟨0, _⟩ => rfl
def val_main_v57 (x8 : (⟨S3x64, .f32⟩ : BufTy).Contents (Elt F)) : (⟨S100000x64, .f32⟩ : BufTy).Contents (Elt F) :=
  broadcastInDim S100000x64 ![0, 1] bcast_S1x64_S100000x64_0_1 (val_main_v56 (F := F) x8)
abbrev idx_main_v57 (i : S100000x64.Idx) : S1x64.Idx := fun a => match a with
  | ⟨0, _⟩ => ⟨0, Nat.one_pos⟩
  | ⟨1, _⟩ => ⟨(i 1).val, (i 1).isLt⟩
theorem val_main_v57_apply (x8 : (⟨S3x64, .f32⟩ : BufTy).Contents (Elt F)) (i : S100000x64.Idx) :
    val_main_v57 (F := F) x8 i = val_main_v56 (F := F) x8 (idx_main_v57 i) :=
  broadcastInDim_apply _ _ _ i _ fun a => match a with
    | ⟨0, _⟩ => rfl
    | ⟨1, _⟩ => rfl
def val_main_v58 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v53 (F := F) x0 x1 x3 x4 x5 x6 x7 x8 x9 x10 x11) (val_main_v57 (F := F) x8)
theorem val_main_v58_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v58 (F := F) x0 x1 x3 x4 x5 x6 x7 x8 x9 x10 x11 i = FloatOps.addf (val_main_v53 (F := F) x0 x1 x3 x4 x5 x6 x7 x8 x9 x10 x11 i) (val_main_v57 (F := F) x8 i) := rfl
def val_main_v59 (x9 : (⟨S3x64x64, .f32⟩ : BufTy).Contents (Elt F)) : (⟨S1x64x64, .f32⟩ : BufTy).Contents (Elt F) :=
  extractStridedSlice S1x64x64 ![1, 0, 0] (x9) slices_S3x64x64_S1x64x64_1_0_0
abbrev idx_main_v59 (i : S1x64x64.Idx) : S3x64x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v59_apply (x9 : (⟨S3x64x64, .f32⟩ : BufTy).Contents (Elt F)) (i : S1x64x64.Idx) :
    val_main_v59 (F := F) x9 i = x9 (idx_main_v59 i) :=
  extractStridedSlice_apply _ _ _ i _ fun a => match a with
    | ⟨0, _⟩ => rfl
    | ⟨1, _⟩ => (Nat.zero_add _).symm
    | ⟨2, _⟩ => (Nat.zero_add _).symm
def val_main_v60 (x9 : (⟨S3x64x64, .f32⟩ : BufTy).Contents (Elt F)) : (⟨S64x64, .f32⟩ : BufTy).Contents (Elt F) :=
  shapeCast _ (val_main_v59 (F := F) x9) shapeCasts_S1x64x64_S64x64
abbrev idx_main_v60 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v60_apply (x9 : (⟨S3x64x64, .f32⟩ : BufTy).Contents (Elt F)) (i : S64x64.Idx) :
    val_main_v60 (F := F) x9 i = val_main_v59 (F := F) x9 (idx_main_v60 i) :=
  shapeCast_drop1_64 _ i _ rfl rfl
def val_main_v61 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v50 (F := F) x0 x1 x3 x4 x5 x6 x7 x8 x9 x10 x11) (val_main_v60 (F := F) x9)
abbrev lidx_main_v61 (i : S100000x64.Idx) (k : Fin 64) : S100000x64.Idx := fun a => match a with
  | ⟨0, _⟩ => ⟨(i 0).val, (i 0).isLt⟩
  | ⟨1, _⟩ => ⟨k.val, k.isLt⟩
abbrev ridx_main_v61 (i : S100000x64.Idx) (k : Fin 64) : S64x64.Idx := fun a => match a with
  | ⟨0, _⟩ => ⟨k.val, k.isLt⟩
  | ⟨1, _⟩ => ⟨(i 1).val, (i 1).isLt⟩
theorem val_main_v61_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v61 (F := Ideal) x0 x1 x3 x4 x5 x6 x7 x8 x9 x10 x11 i = ∑ k : Fin 64, (val_main_v50 (F := Ideal) x0 x1 x3 x4 x5 x6 x7 x8 x9 x10 x11) (lidx_main_v61 i k) * (val_main_v60 (F := Ideal) x9) (ridx_main_v61 i k) :=
  dot_plain_apply _ _ i _ _ (fun _ => ⟨rfl, rfl⟩) fun _ => ⟨rfl, rfl⟩
def val_main_c_3 : (⟨S_, .i32⟩ : BufTy).Contents (Elt F) :=
  constantI S_ 32 0#32
theorem val_main_c_3_apply (i : S_.Idx) :
    val_main_c_3 (F := F) i = 0#32 := rfl
def val_main_v62 : (⟨S1000000, .i32⟩ : BufTy).Contents (Elt F) :=
  broadcastInDim S1000000 ![] bcast_S_S1000000 (val_main_c_3 (F := F))
abbrev idx_main_v62 (i : S1000000.Idx) : S_.Idx := fun a => a.elim0
theorem val_main_v62_apply (i : S1000000.Idx) :
    val_main_v62 (F := F) i = val_main_c_3 (F := F) (idx_main_v62 i) :=
  broadcastInDim_apply _ _ _ i _ fun a => a.elim0
def val_main_v63 (x1 : (⟨S2x1000000, .i32⟩ : BufTy).Contents (Elt F)) : (⟨S1000000, .i1⟩ : BufTy).Contents (Elt F) :=
  cmpi .slt (val_main_v1 (F := F) x1) (val_main_v62 (F := F))
theorem val_main_v63_apply (x1 : (⟨S2x1000000, .i32⟩ : BufTy).Contents (Elt F)) (i : S1000000.Idx) :
    val_main_v63 (F := F) x1 i = IntOp.cmpi .slt (val_main_v1 (F := F) x1 i) (val_main_v62 (F := F) i) := rfl
def val_main_c_4 : (⟨S_, .i32⟩ : BufTy).Contents (Elt F) :=
  constantI S_ 32 100000#32
def val_main_v64 : (⟨S1000000, .i32⟩ : BufTy).Contents (Elt F) :=
  broadcastInDim S1000000 ![] bcast_S_S1000000 (val_main_c_4 (F := F))
def val_main_v65 (x1 : (⟨S2x1000000, .i32⟩ : BufTy).Contents (Elt F)) : (⟨S1000000, .i32⟩ : BufTy).Contents (Elt F) :=
  addi (val_main_v1 (F := F) x1) (val_main_v64 (F := F))
def val_main_v66 (x1 : (⟨S2x1000000, .i32⟩ : BufTy).Contents (Elt F)) : (⟨S1000000, .i32⟩ : BufTy).Contents (Elt F) :=
  select (val_main_v63 (F := F) x1) (val_main_v65 (F := F) x1) (val_main_v1 (F := F) x1)
theorem val_main_v66_apply (x1 : (⟨S2x1000000, .i32⟩ : BufTy).Contents (Elt F)) (i : S1000000.Idx) :
    val_main_v66 (F := F) x1 i = Scalar.select (val_main_v63 (F := F) x1 i) (val_main_v65 (F := F) x1 i) (val_main_v1 (F := F) x1 i) := rfl
def val_main_v67 (x1 : (⟨S2x1000000, .i32⟩ : BufTy).Contents (Elt F)) : (⟨S1000000x1, .i32⟩ : BufTy).Contents (Elt F) :=
  broadcastInDim S1000000x1 ![0] bcast_S1000000_S1000000x1_0 (val_main_v66 (F := F) x1)
abbrev idx_main_v67 (i : S1000000x1.Idx) : S1000000.Idx := fun a => match a with
  | ⟨0, _⟩ => ⟨(i 0).val, (i 0).isLt⟩
theorem val_main_v67_apply (x1 : (⟨S2x1000000, .i32⟩ : BufTy).Contents (Elt F)) (i : S1000000x1.Idx) :
    val_main_v67 (F := F) x1 i = val_main_v66 (F := F) x1 (idx_main_v67 i) :=
  broadcastInDim_apply _ _ _ i _ fun a => match a with
    | ⟨0, _⟩ => rfl
def val_main_v68 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  Host.gather gather_S100000x64_S1000000x1_S1000000x64_1_0_n_n_0_1_164 (val_main_v58 (F := F) x0 x1 x3 x4 x5 x6 x7 x8 x9 x10 x11) (val_main_v67 (F := F) x1)
def val_main_c_5 : (⟨S_, .i32⟩ : BufTy).Contents (Elt F) :=
  constantI S_ 32 0#32
theorem val_main_c_5_apply (i : S_.Idx) :
    val_main_c_5 (F := F) i = 0#32 := rfl
def val_main_v69 : (⟨S1000000, .i32⟩ : BufTy).Contents (Elt F) :=
  broadcastInDim S1000000 ![] bcast_S_S1000000 (val_main_c_5 (F := F))
abbrev idx_main_v69 (i : S1000000.Idx) : S_.Idx := fun a => a.elim0
theorem val_main_v69_apply (i : S1000000.Idx) :
    val_main_v69 (F := F) i = val_main_c_5 (F := F) (idx_main_v69 i) :=
  broadcastInDim_apply _ _ _ i _ fun a => a.elim0
def val_main_v70 (x1 : (⟨S2x1000000, .i32⟩ : BufTy).Contents (Elt F)) : (⟨S1000000, .i1⟩ : BufTy).Contents (Elt F) :=
  cmpi .slt (val_main_v3 (F := F) x1) (val_main_v69 (F := F))
theorem val_main_v70_apply (x1 : (⟨S2x1000000, .i32⟩ : BufTy).Contents (Elt F)) (i : S1000000.Idx) :
    val_main_v70 (F := F) x1 i = IntOp.cmpi .slt (val_main_v3 (F := F) x1 i) (val_main_v69 (F := F) i) := rfl
def val_main_c_6 : (⟨S_, .i32⟩ : BufTy).Contents (Elt F) :=
  constantI S_ 32 100000#32
def val_main_v71 : (⟨S1000000, .i32⟩ : BufTy).Contents (Elt F) :=
  broadcastInDim S1000000 ![] bcast_S_S1000000 (val_main_c_6 (F := F))
def val_main_v72 (x1 : (⟨S2x1000000, .i32⟩ : BufTy).Contents (Elt F)) : (⟨S1000000, .i32⟩ : BufTy).Contents (Elt F) :=
  addi (val_main_v3 (F := F) x1) (val_main_v71 (F := F))
def val_main_v73 (x1 : (⟨S2x1000000, .i32⟩ : BufTy).Contents (Elt F)) : (⟨S1000000, .i32⟩ : BufTy).Contents (Elt F) :=
  select (val_main_v70 (F := F) x1) (val_main_v72 (F := F) x1) (val_main_v3 (F := F) x1)
theorem val_main_v73_apply (x1 : (⟨S2x1000000, .i32⟩ : BufTy).Contents (Elt F)) (i : S1000000.Idx) :
    val_main_v73 (F := F) x1 i = Scalar.select (val_main_v70 (F := F) x1 i) (val_main_v72 (F := F) x1 i) (val_main_v3 (F := F) x1 i) := rfl
def val_main_v74 (x1 : (⟨S2x1000000, .i32⟩ : BufTy).Contents (Elt F)) : (⟨S1000000x1, .i32⟩ : BufTy).Contents (Elt F) :=
  broadcastInDim S1000000x1 ![0] bcast_S1000000_S1000000x1_0 (val_main_v73 (F := F) x1)
abbrev idx_main_v74 (i : S1000000x1.Idx) : S1000000.Idx := fun a => match a with
  | ⟨0, _⟩ => ⟨(i 0).val, (i 0).isLt⟩
theorem val_main_v74_apply (x1 : (⟨S2x1000000, .i32⟩ : BufTy).Contents (Elt F)) (i : S1000000x1.Idx) :
    val_main_v74 (F := F) x1 i = val_main_v73 (F := F) x1 (idx_main_v74 i) :=
  broadcastInDim_apply _ _ _ i _ fun a => match a with
    | ⟨0, _⟩ => rfl
def val_main_v75 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  Host.gather gather_S100000x64_S1000000x1_S1000000x64_1_0_n_n_0_1_164 (val_main_v61 (F := F) x0 x1 x3 x4 x5 x6 x7 x8 x9 x10 x11) (val_main_v74 (F := F) x1)
def val_main_v76 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  subf (val_main_v68 (F := F) x0 x1 x3 x4 x5 x6 x7 x8 x9 x10 x11) (val_main_v75 (F := F) x0 x1 x3 x4 x5 x6 x7 x8 x9 x10 x11)
theorem val_main_v76_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S1000000x64.Idx) :
    val_main_v76 (F := F) x0 x1 x3 x4 x5 x6 x7 x8 x9 x10 x11 i = FloatOps.subf (val_main_v68 (F := F) x0 x1 x3 x4 x5 x6 x7 x8 x9 x10 x11 i) (val_main_v75 (F := F) x0 x1 x3 x4 x5 x6 x7 x8 x9 x10 x11 i) := rfl
def val_main_v77 (x3 : (⟨S1000000, .f32⟩ : BufTy).Contents (Elt F)) (x4 : (⟨S1000000x1, .f32⟩ : BufTy).Contents (Elt F)) : (⟨S1000000x64, .f32⟩ : BufTy).Contents (Elt F) :=
  broadcastInDim S1000000x64 ![0, 1] bcast_S1000000x1_S1000000x64_0_1 (val_main_v5 (F := F) x3 x4)
abbrev idx_main_v77 (i : S1000000x64.Idx) : S1000000x1.Idx := fun a => match a with
  | ⟨0, _⟩ => ⟨(i 0).val, (i 0).isLt⟩
  | ⟨1, _⟩ => ⟨0, Nat.one_pos⟩
theorem val_main_v77_apply (x3 : (⟨S1000000, .f32⟩ : BufTy).Contents (Elt F)) (x4 : (⟨S1000000x1, .f32⟩ : BufTy).Contents (Elt F)) (i : S1000000x64.Idx) :
    val_main_v77 (F := F) x3 x4 i = val_main_v5 (F := F) x3 x4 (idx_main_v77 i) :=
  broadcastInDim_apply _ _ _ i _ fun a => match a with
    | ⟨0, _⟩ => rfl
    | ⟨1, _⟩ => rfl
def val_main_v78 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  mulf (val_main_v77 (F := F) x3 x4) (val_main_v76 (F := F) x0 x1 x3 x4 x5 x6 x7 x8 x9 x10 x11)
theorem val_main_v78_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S1000000x64.Idx) :
    val_main_v78 (F := F) x0 x1 x3 x4 x5 x6 x7 x8 x9 x10 x11 i = FloatOps.mulf (val_main_v77 (F := F) x3 x4 i) (val_main_v76 (F := F) x0 x1 x3 x4 x5 x6 x7 x8 x9 x10 x11 i) := rfl
def val_main_cst_7 : (⟨S_, .f32⟩ : BufTy).Contents (Elt F) :=
  constant S_ .f32 0x00000000#32
theorem val_main_cst_7_apply (i : S_.Idx) :
    val_main_cst_7 (F := F) i = FloatOps.ofBits .f32 0x00000000#32 := rfl
def val_main_v79 : (⟨S100000x64, .f32⟩ : BufTy).Contents (Elt F) :=
  broadcastInDim S100000x64 ![] bcast_S_S100000x64 (val_main_cst_7 (F := F))
abbrev idx_main_v79 (i : S100000x64.Idx) : S_.Idx := fun a => a.elim0
theorem val_main_v79_apply (i : S100000x64.Idx) :
    val_main_v79 (F := F) i = val_main_cst_7 (F := F) (idx_main_v79 i) :=
  broadcastInDim_apply _ _ _ i _ fun a => a.elim0
def val_main_v80 (x1 : (⟨S2x1000000, .i32⟩ : BufTy).Contents (Elt F)) : (⟨S1000000x1, .i32⟩ : BufTy).Contents (Elt F) :=
  broadcastInDim S1000000x1 ![0] bcast_S1000000_S1000000x1_0 (val_main_v3 (F := F) x1)
abbrev idx_main_v80 (i : S1000000x1.Idx) : S1000000.Idx := fun a => match a with
  | ⟨0, _⟩ => ⟨(i 0).val, (i 0).isLt⟩
theorem val_main_v80_apply (x1 : (⟨S2x1000000, .i32⟩ : BufTy).Contents (Elt F)) (i : S1000000x1.Idx) :
    val_main_v80 (F := F) x1 i = val_main_v3 (F := F) x1 (idx_main_v80 i) :=
  broadcastInDim_apply _ _ _ i _ fun a => match a with
    | ⟨0, _⟩ => rfl
def val_main_v81 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.scatterAdd scatter_S100000x64_S1000000x1_S1000000x64_1_0_0_1 (val_main_v79 (F := F)) (val_main_v80 (F := F) x1) (val_main_v78 (F := F) x0 x1 x3 x4 x5 x6 x7 x8 x9 x10 x11)
def val_main_v82 (x10 : (⟨S3x64x64, .f32⟩ : BufTy).Contents (Elt F)) : (⟨S1x64x64, .f32⟩ : BufTy).Contents (Elt F) :=
  extractStridedSlice S1x64x64 ![1, 0, 0] (x10) slices_S3x64x64_S1x64x64_1_0_0
abbrev idx_main_v82 (i : S1x64x64.Idx) : S3x64x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
  | ⟨2, _⟩ => ⟨(i 2).val, (i 2).isLt⟩
theorem val_main_v82_apply (x10 : (⟨S3x64x64, .f32⟩ : BufTy).Contents (Elt F)) (i : S1x64x64.Idx) :
    val_main_v82 (F := F) x10 i = x10 (idx_main_v82 i) :=
  extractStridedSlice_apply _ _ _ i _ fun a => match a with
    | ⟨0, _⟩ => rfl
    | ⟨1, _⟩ => (Nat.zero_add _).symm
    | ⟨2, _⟩ => (Nat.zero_add _).symm
def val_main_v83 (x10 : (⟨S3x64x64, .f32⟩ : BufTy).Contents (Elt F)) : (⟨S64x64, .f32⟩ : BufTy).Contents (Elt F) :=
  shapeCast _ (val_main_v82 (F := F) x10) shapeCasts_S1x64x64_S64x64
abbrev idx_main_v83 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v83_apply (x10 : (⟨S3x64x64, .f32⟩ : BufTy).Contents (Elt F)) (i : S64x64.Idx) :
    val_main_v83 (F := F) x10 i = val_main_v82 (F := F) x10 (idx_main_v83 i) :=
  shapeCast_drop1_64 _ i _ rfl rfl
def val_main_v84 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v50 (F := F) x0 x1 x3 x4 x5 x6 x7 x8 x9 x10 x11) (val_main_v83 (F := F) x10)
abbrev lidx_main_v84 (i : S100000x64.Idx) (k : Fin 64) : S100000x64.Idx := fun a => match a with
  | ⟨0, _⟩ => ⟨(i 0).val, (i 0).isLt⟩
  | ⟨1, _⟩ => ⟨k.val, k.isLt⟩
abbrev ridx_main_v84 (i : S100000x64.Idx) (k : Fin 64) : S64x64.Idx := fun a => match a with
  | ⟨0, _⟩ => ⟨k.val, k.isLt⟩
  | ⟨1, _⟩ => ⟨(i 1).val, (i 1).isLt⟩
theorem val_main_v84_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v84 (F := Ideal) x0 x1 x3 x4 x5 x6 x7 x8 x9 x10 x11 i = ∑ k : Fin 64, (val_main_v50 (F := Ideal) x0 x1 x3 x4 x5 x6 x7 x8 x9 x10 x11) (lidx_main_v84 i k) * (val_main_v83 (F := Ideal) x10) (ridx_main_v84 i k) :=
  dot_plain_apply _ _ i _ _ (fun _ => ⟨rfl, rfl⟩) fun _ => ⟨rfl, rfl⟩
def val_main_v85 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v81 (F := F) x0 x1 x3 x4 x5 x6 x7 x8 x9 x10 x11) (val_main_v84 (F := F) x0 x1 x3 x4 x5 x6 x7 x8 x9 x10 x11)
theorem val_main_v85_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v85 (F := F) x0 x1 x3 x4 x5 x6 x7 x8 x9 x10 x11 i = FloatOps.addf (val_main_v81 (F := F) x0 x1 x3 x4 x5 x6 x7 x8 x9 x10 x11 i) (val_main_v84 (F := F) x0 x1 x3 x4 x5 x6 x7 x8 x9 x10 x11 i) := rfl
def val_main_v86 (x11 : (⟨S3x64, .f32⟩ : BufTy).Contents (Elt F)) : (⟨S1x64, .f32⟩ : BufTy).Contents (Elt F) :=
  extractStridedSlice S1x64 ![1, 0] (x11) slices_S3x64_S1x64_1_0
abbrev idx_main_v86 (i : S1x64.Idx) : S3x64.Idx := fun a => match a with
  | ⟨0, _⟩ => ⟨1 + (i 0).val, by have h0 : (i 0).val < 1 := (i 0).isLt; show 1 + (i 0).val < 3; omega⟩
  | ⟨1, _⟩ => ⟨(i 1).val, (i 1).isLt⟩
theorem val_main_v86_apply (x11 : (⟨S3x64, .f32⟩ : BufTy).Contents (Elt F)) (i : S1x64.Idx) :
    val_main_v86 (F := F) x11 i = x11 (idx_main_v86 i) :=
  extractStridedSlice_apply _ _ _ i _ fun a => match a with
    | ⟨0, _⟩ => rfl
    | ⟨1, _⟩ => (Nat.zero_add _).symm
def val_main_v87 (x11 : (⟨S3x64, .f32⟩ : BufTy).Contents (Elt F)) : (⟨S64, .f32⟩ : BufTy).Contents (Elt F) :=
  shapeCast _ (val_main_v86 (F := F) x11) shapeCasts_S1x64_S64
abbrev idx_main_v87 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v87_apply (x11 : (⟨S3x64, .f32⟩ : BufTy).Contents (Elt F)) (i : S64.Idx) :
    val_main_v87 (F := F) x11 i = val_main_v86 (F := F) x11 (idx_main_v87 i) :=
  shapeCast_drop1 _ _ i _ rfl
def val_main_v88 (x11 : (⟨S3x64, .f32⟩ : BufTy).Contents (Elt F)) : (⟨S1x64, .f32⟩ : BufTy).Contents (Elt F) :=
  broadcastInDim S1x64 ![1] bcast_S64_S1x64_1 (val_main_v87 (F := F) x11)
abbrev idx_main_v88 (i : S1x64.Idx) : S64.Idx := fun a => match a with
  | ⟨0, _⟩ => ⟨(i 1).val, (i 1).isLt⟩
theorem val_main_v88_apply (x11 : (⟨S3x64, .f32⟩ : BufTy).Contents (Elt F)) (i : S1x64.Idx) :
    val_main_v88 (F := F) x11 i = val_main_v87 (F := F) x11 (idx_main_v88 i) :=
  broadcastInDim_apply _ _ _ i _ fun a => match a with
    | ⟨0, _⟩ => rfl
def val_main_v89 (x11 : (⟨S3x64, .f32⟩ : BufTy).Contents (Elt F)) : (⟨S100000x64, .f32⟩ : BufTy).Contents (Elt F) :=
  broadcastInDim S100000x64 ![0, 1] bcast_S1x64_S100000x64_0_1 (val_main_v88 (F := F) x11)
abbrev idx_main_v89 (i : S100000x64.Idx) : S1x64.Idx := fun a => match a with
  | ⟨0, _⟩ => ⟨0, Nat.one_pos⟩
  | ⟨1, _⟩ => ⟨(i 1).val, (i 1).isLt⟩
theorem val_main_v89_apply (x11 : (⟨S3x64, .f32⟩ : BufTy).Contents (Elt F)) (i : S100000x64.Idx) :
    val_main_v89 (F := F) x11 i = val_main_v88 (F := F) x11 (idx_main_v89 i) :=
  broadcastInDim_apply _ _ _ i _ fun a => match a with
    | ⟨0, _⟩ => rfl
    | ⟨1, _⟩ => rfl
def val_main_v90 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v85 (F := F) x0 x1 x3 x4 x5 x6 x7 x8 x9 x10 x11) (val_main_v89 (F := F) x11)
theorem val_main_v90_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v90 (F := F) x0 x1 x3 x4 x5 x6 x7 x8 x9 x10 x11 i = FloatOps.addf (val_main_v85 (F := F) x0 x1 x3 x4 x5 x6 x7 x8 x9 x10 x11 i) (val_main_v89 (F := F) x11 i) := rfl
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl
def val_main_call1_v0 : (⟨S100000x64, .f32⟩ : BufTy).Contents (Elt F) :=
  broadcastInDim S100000x64 ![] bcast_S_S100000x64 (val_main_call1_cst (F := F))
abbrev idx_main_call1_v0 (i : S100000x64.Idx) : S_.Idx := fun a => a.elim0
theorem val_main_call1_v0_apply (i : S100000x64.Idx) :
    val_main_call1_v0 (F := F) i = val_main_call1_cst (F := F) (idx_main_call1_v0 i) :=
  broadcastInDim_apply _ _ _ i _ fun a => a.elim0
def val_main_v91 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  maximumf (val_main_v90 (F := F) x0 x1 x3 x4 x5 x6 x7 x8 x9 x10 x11) (val_main_call1_v0 (F := F))
theorem val_main_v91_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v91 (F := F) x0 x1 x3 x4 x5 x6 x7 x8 x9 x10 x11 i = FloatOps.maximumf (val_main_v90 (F := F) x0 x1 x3 x4 x5 x6 x7 x8 x9 x10 x11 i) (val_main_call1_v0 (F := F) i) := rfl
def val_main_v92 (x7 : (⟨S3x64x64, .f32⟩ : BufTy).Contents (Elt F)) : (⟨S1x64x64, .f32⟩ : BufTy).Contents (Elt F) :=
  extractStridedSlice S1x64x64 ![2, 0, 0] (x7) slices_S3x64x64_S1x64x64_2_0_0
abbrev idx_main_v92 (i : S1x64x64.Idx) : S3x64x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v92_apply (x7 : (⟨S3x64x64, .f32⟩ : BufTy).Contents (Elt F)) (i : S1x64x64.Idx) :
    val_main_v92 (F := F) x7 i = x7 (idx_main_v92 i) :=
  extractStridedSlice_apply _ _ _ i _ fun a => match a with
    | ⟨0, _⟩ => rfl
    | ⟨1, _⟩ => (Nat.zero_add _).symm
    | ⟨2, _⟩ => (Nat.zero_add _).symm
def val_main_v93 (x7 : (⟨S3x64x64, .f32⟩ : BufTy).Contents (Elt F)) : (⟨S64x64, .f32⟩ : BufTy).Contents (Elt F) :=
  shapeCast _ (val_main_v92 (F := F) x7) shapeCasts_S1x64x64_S64x64
abbrev idx_main_v93 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v93_apply (x7 : (⟨S3x64x64, .f32⟩ : BufTy).Contents (Elt F)) (i : S64x64.Idx) :
    val_main_v93 (F := F) x7 i = val_main_v92 (F := F) x7 (idx_main_v93 i) :=
  shapeCast_drop1_64 _ i _ rfl rfl
def val_main_v94 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v91 (F := F) x0 x1 x3 x4 x5 x6 x7 x8 x9 x10 x11) (val_main_v93 (F := F) x7)
abbrev lidx_main_v94 (i : S100000x64.Idx) (k : Fin 64) : S100000x64.Idx := fun a => match a with
  | ⟨0, _⟩ => ⟨(i 0).val, (i 0).isLt⟩
  | ⟨1, _⟩ => ⟨k.val, k.isLt⟩
abbrev ridx_main_v94 (i : S100000x64.Idx) (k : Fin 64) : S64x64.Idx := fun a => match a with
  | ⟨0, _⟩ => ⟨k.val, k.isLt⟩
  | ⟨1, _⟩ => ⟨(i 1).val, (i 1).isLt⟩
theorem val_main_v94_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v94 (F := Ideal) x0 x1 x3 x4 x5 x6 x7 x8 x9 x10 x11 i = ∑ k : Fin 64, (val_main_v91 (F := Ideal) x0 x1 x3 x4 x5 x6 x7 x8 x9 x10 x11) (lidx_main_v94 i k) * (val_main_v93 (F := Ideal) x7) (ridx_main_v94 i k) :=
  dot_plain_apply _ _ i _ _ (fun _ => ⟨rfl, rfl⟩) fun _ => ⟨rfl, rfl⟩
def val_main_v95 (x8 : (⟨S3x64, .f32⟩ : BufTy).Contents (Elt F)) : (⟨S1x64, .f32⟩ : BufTy).Contents (Elt F) :=
  extractStridedSlice S1x64 ![2, 0] (x8) slices_S3x64_S1x64_2_0
abbrev idx_main_v95 (i : S1x64.Idx) : S3x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v95_apply (x8 : (⟨S3x64, .f32⟩ : BufTy).Contents (Elt F)) (i : S1x64.Idx) :
    val_main_v95 (F := F) x8 i = x8 (idx_main_v95 i) :=
  extractStridedSlice_apply _ _ _ i _ fun a => match a with
    | ⟨0, _⟩ => rfl
    | ⟨1, _⟩ => (Nat.zero_add _).symm
def val_main_v96 (x8 : (⟨S3x64, .f32⟩ : BufTy).Contents (Elt F)) : (⟨S64, .f32⟩ : BufTy).Contents (Elt F) :=
  shapeCast _ (val_main_v95 (F := F) x8) shapeCasts_S1x64_S64
abbrev idx_main_v96 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v96_apply (x8 : (⟨S3x64, .f32⟩ : BufTy).Contents (Elt F)) (i : S64.Idx) :
    val_main_v96 (F := F) x8 i = val_main_v95 (F := F) x8 (idx_main_v96 i) :=
  shapeCast_drop1 _ _ i _ rfl
def val_main_v97 (x8 : (⟨S3x64, .f32⟩ : BufTy).Contents (Elt F)) : (⟨S1x64, .f32⟩ : BufTy).Contents (Elt F) :=
  broadcastInDim S1x64 ![1] bcast_S64_S1x64_1 (val_main_v96 (F := F) x8)
abbrev idx_main_v97 (i : S1x64.Idx) : S64.Idx := fun a => match a with
  | ⟨0, _⟩ => ⟨(i 1).val, (i 1).isLt⟩
theorem val_main_v97_apply (x8 : (⟨S3x64, .f32⟩ : BufTy).Contents (Elt F)) (i : S1x64.Idx) :
    val_main_v97 (F := F) x8 i = val_main_v96 (F := F) x8 (idx_main_v97 i) :=
  broadcastInDim_apply _ _ _ i _ fun a => match a with
    | ⟨0, _⟩ => rfl
def val_main_v98 (x8 : (⟨S3x64, .f32⟩ : BufTy).Contents (Elt F)) : (⟨S100000x64, .f32⟩ : BufTy).Contents (Elt F) :=
  broadcastInDim S100000x64 ![0, 1] bcast_S1x64_S100000x64_0_1 (val_main_v97 (F := F) x8)
abbrev idx_main_v98 (i : S100000x64.Idx) : S1x64.Idx := fun a => match a with
  | ⟨0, _⟩ => ⟨0, Nat.one_pos⟩
  | ⟨1, _⟩ => ⟨(i 1).val, (i 1).isLt⟩
theorem val_main_v98_apply (x8 : (⟨S3x64, .f32⟩ : BufTy).Contents (Elt F)) (i : S100000x64.Idx) :
    val_main_v98 (F := F) x8 i = val_main_v97 (F := F) x8 (idx_main_v98 i) :=
  broadcastInDim_apply _ _ _ i _ fun a => match a with
    | ⟨0, _⟩ => rfl
    | ⟨1, _⟩ => rfl
def val_main_v99 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v94 (F := F) x0 x1 x3 x4 x5 x6 x7 x8 x9 x10 x11) (val_main_v98 (F := F) x8)
theorem val_main_v99_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v99 (F := F) x0 x1 x3 x4 x5 x6 x7 x8 x9 x10 x11 i = FloatOps.addf (val_main_v94 (F := F) x0 x1 x3 x4 x5 x6 x7 x8 x9 x10 x11 i) (val_main_v98 (F := F) x8 i) := rfl
def val_main_v100 (x9 : (⟨S3x64x64, .f32⟩ : BufTy).Contents (Elt F)) : (⟨S1x64x64, .f32⟩ : BufTy).Contents (Elt F) :=
  extractStridedSlice S1x64x64 ![2, 0, 0] (x9) slices_S3x64x64_S1x64x64_2_0_0
abbrev idx_main_v100 (i : S1x64x64.Idx) : S3x64x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v100_apply (x9 : (⟨S3x64x64, .f32⟩ : BufTy).Contents (Elt F)) (i : S1x64x64.Idx) :
    val_main_v100 (F := F) x9 i = x9 (idx_main_v100 i) :=
  extractStridedSlice_apply _ _ _ i _ fun a => match a with
    | ⟨0, _⟩ => rfl
    | ⟨1, _⟩ => (Nat.zero_add _).symm
    | ⟨2, _⟩ => (Nat.zero_add _).symm
def val_main_v101 (x9 : (⟨S3x64x64, .f32⟩ : BufTy).Contents (Elt F)) : (⟨S64x64, .f32⟩ : BufTy).Contents (Elt F) :=
  shapeCast _ (val_main_v100 (F := F) x9) shapeCasts_S1x64x64_S64x64
abbrev idx_main_v101 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v101_apply (x9 : (⟨S3x64x64, .f32⟩ : BufTy).Contents (Elt F)) (i : S64x64.Idx) :
    val_main_v101 (F := F) x9 i = val_main_v100 (F := F) x9 (idx_main_v101 i) :=
  shapeCast_drop1_64 _ i _ rfl rfl
def val_main_v102 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v91 (F := F) x0 x1 x3 x4 x5 x6 x7 x8 x9 x10 x11) (val_main_v101 (F := F) x9)
abbrev lidx_main_v102 (i : S100000x64.Idx) (k : Fin 64) : S100000x64.Idx := fun a => match a with
  | ⟨0, _⟩ => ⟨(i 0).val, (i 0).isLt⟩
  | ⟨1, _⟩ => ⟨k.val, k.isLt⟩
abbrev ridx_main_v102 (i : S100000x64.Idx) (k : Fin 64) : S64x64.Idx := fun a => match a with
  | ⟨0, _⟩ => ⟨k.val, k.isLt⟩
  | ⟨1, _⟩ => ⟨(i 1).val, (i 1).isLt⟩
theorem val_main_v102_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v102 (F := Ideal) x0 x1 x3 x4 x5 x6 x7 x8 x9 x10 x11 i = ∑ k : Fin 64, (val_main_v91 (F := Ideal) x0 x1 x3 x4 x5 x6 x7 x8 x9 x10 x11) (lidx_main_v102 i k) * (val_main_v101 (F := Ideal) x9) (ridx_main_v102 i k) :=
  dot_plain_apply _ _ i _ _ (fun _ => ⟨rfl, rfl⟩) fun _ => ⟨rfl, rfl⟩
def val_main_c_8 : (⟨S_, .i32⟩ : BufTy).Contents (Elt F) :=
  constantI S_ 32 0#32
theorem val_main_c_8_apply (i : S_.Idx) :
    val_main_c_8 (F := F) i = 0#32 := rfl
def val_main_v103 : (⟨S1000000, .i32⟩ : BufTy).Contents (Elt F) :=
  broadcastInDim S1000000 ![] bcast_S_S1000000 (val_main_c_8 (F := F))
abbrev idx_main_v103 (i : S1000000.Idx) : S_.Idx := fun a => a.elim0
theorem val_main_v103_apply (i : S1000000.Idx) :
    val_main_v103 (F := F) i = val_main_c_8 (F := F) (idx_main_v103 i) :=
  broadcastInDim_apply _ _ _ i _ fun a => a.elim0
def val_main_v104 (x1 : (⟨S2x1000000, .i32⟩ : BufTy).Contents (Elt F)) : (⟨S1000000, .i1⟩ : BufTy).Contents (Elt F) :=
  cmpi .slt (val_main_v1 (F := F) x1) (val_main_v103 (F := F))
theorem val_main_v104_apply (x1 : (⟨S2x1000000, .i32⟩ : BufTy).Contents (Elt F)) (i : S1000000.Idx) :
    val_main_v104 (F := F) x1 i = IntOp.cmpi .slt (val_main_v1 (F := F) x1 i) (val_main_v103 (F := F) i) := rfl
def val_main_c_9 : (⟨S_, .i32⟩ : BufTy).Contents (Elt F) :=
  constantI S_ 32 100000#32
def val_main_v105 : (⟨S1000000, .i32⟩ : BufTy).Contents (Elt F) :=
  broadcastInDim S1000000 ![] bcast_S_S1000000 (val_main_c_9 (F := F))
def val_main_v106 (x1 : (⟨S2x1000000, .i32⟩ : BufTy).Contents (Elt F)) : (⟨S1000000, .i32⟩ : BufTy).Contents (Elt F) :=
  addi (val_main_v1 (F := F) x1) (val_main_v105 (F := F))
def val_main_v107 (x1 : (⟨S2x1000000, .i32⟩ : BufTy).Contents (Elt F)) : (⟨S1000000, .i32⟩ : BufTy).Contents (Elt F) :=
  select (val_main_v104 (F := F) x1) (val_main_v106 (F := F) x1) (val_main_v1 (F := F) x1)
theorem val_main_v107_apply (x1 : (⟨S2x1000000, .i32⟩ : BufTy).Contents (Elt F)) (i : S1000000.Idx) :
    val_main_v107 (F := F) x1 i = Scalar.select (val_main_v104 (F := F) x1 i) (val_main_v106 (F := F) x1 i) (val_main_v1 (F := F) x1 i) := rfl
def val_main_v108 (x1 : (⟨S2x1000000, .i32⟩ : BufTy).Contents (Elt F)) : (⟨S1000000x1, .i32⟩ : BufTy).Contents (Elt F) :=
  broadcastInDim S1000000x1 ![0] bcast_S1000000_S1000000x1_0 (val_main_v107 (F := F) x1)
abbrev idx_main_v108 (i : S1000000x1.Idx) : S1000000.Idx := fun a => match a with
  | ⟨0, _⟩ => ⟨(i 0).val, (i 0).isLt⟩
theorem val_main_v108_apply (x1 : (⟨S2x1000000, .i32⟩ : BufTy).Contents (Elt F)) (i : S1000000x1.Idx) :
    val_main_v108 (F := F) x1 i = val_main_v107 (F := F) x1 (idx_main_v108 i) :=
  broadcastInDim_apply _ _ _ i _ fun a => match a with
    | ⟨0, _⟩ => rfl
def val_main_v109 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  Host.gather gather_S100000x64_S1000000x1_S1000000x64_1_0_n_n_0_1_164 (val_main_v99 (F := F) x0 x1 x3 x4 x5 x6 x7 x8 x9 x10 x11) (val_main_v108 (F := F) x1)
def val_main_c_10 : (⟨S_, .i32⟩ : BufTy).Contents (Elt F) :=
  constantI S_ 32 0#32
theorem val_main_c_10_apply (i : S_.Idx) :
    val_main_c_10 (F := F) i = 0#32 := rfl
def val_main_v110 : (⟨S1000000, .i32⟩ : BufTy).Contents (Elt F) :=
  broadcastInDim S1000000 ![] bcast_S_S1000000 (val_main_c_10 (F := F))
abbrev idx_main_v110 (i : S1000000.Idx) : S_.Idx := fun a => a.elim0
theorem val_main_v110_apply (i : S1000000.Idx) :
    val_main_v110 (F := F) i = val_main_c_10 (F := F) (idx_main_v110 i) :=
  broadcastInDim_apply _ _ _ i _ fun a => a.elim0
def val_main_v111 (x1 : (⟨S2x1000000, .i32⟩ : BufTy).Contents (Elt F)) : (⟨S1000000, .i1⟩ : BufTy).Contents (Elt F) :=
  cmpi .slt (val_main_v3 (F := F) x1) (val_main_v110 (F := F))
theorem val_main_v111_apply (x1 : (⟨S2x1000000, .i32⟩ : BufTy).Contents (Elt F)) (i : S1000000.Idx) :
    val_main_v111 (F := F) x1 i = IntOp.cmpi .slt (val_main_v3 (F := F) x1 i) (val_main_v110 (F := F) i) := rfl
def val_main_c_11 : (⟨S_, .i32⟩ : BufTy).Contents (Elt F) :=
  constantI S_ 32 100000#32
def val_main_v112 : (⟨S1000000, .i32⟩ : BufTy).Contents (Elt F) :=
  broadcastInDim S1000000 ![] bcast_S_S1000000 (val_main_c_11 (F := F))
def val_main_v113 (x1 : (⟨S2x1000000, .i32⟩ : BufTy).Contents (Elt F)) : (⟨S1000000, .i32⟩ : BufTy).Contents (Elt F) :=
  addi (val_main_v3 (F := F) x1) (val_main_v112 (F := F))
def val_main_v114 (x1 : (⟨S2x1000000, .i32⟩ : BufTy).Contents (Elt F)) : (⟨S1000000, .i32⟩ : BufTy).Contents (Elt F) :=
  select (val_main_v111 (F := F) x1) (val_main_v113 (F := F) x1) (val_main_v3 (F := F) x1)
theorem val_main_v114_apply (x1 : (⟨S2x1000000, .i32⟩ : BufTy).Contents (Elt F)) (i : S1000000.Idx) :
    val_main_v114 (F := F) x1 i = Scalar.select (val_main_v111 (F := F) x1 i) (val_main_v113 (F := F) x1 i) (val_main_v3 (F := F) x1 i) := rfl
def val_main_v115 (x1 : (⟨S2x1000000, .i32⟩ : BufTy).Contents (Elt F)) : (⟨S1000000x1, .i32⟩ : BufTy).Contents (Elt F) :=
  broadcastInDim S1000000x1 ![0] bcast_S1000000_S1000000x1_0 (val_main_v114 (F := F) x1)
abbrev idx_main_v115 (i : S1000000x1.Idx) : S1000000.Idx := fun a => match a with
  | ⟨0, _⟩ => ⟨(i 0).val, (i 0).isLt⟩
theorem val_main_v115_apply (x1 : (⟨S2x1000000, .i32⟩ : BufTy).Contents (Elt F)) (i : S1000000x1.Idx) :
    val_main_v115 (F := F) x1 i = val_main_v114 (F := F) x1 (idx_main_v115 i) :=
  broadcastInDim_apply _ _ _ i _ fun a => match a with
    | ⟨0, _⟩ => rfl
def val_main_v116 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  Host.gather gather_S100000x64_S1000000x1_S1000000x64_1_0_n_n_0_1_164 (val_main_v102 (F := F) x0 x1 x3 x4 x5 x6 x7 x8 x9 x10 x11) (val_main_v115 (F := F) x1)
def val_main_v117 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  subf (val_main_v109 (F := F) x0 x1 x3 x4 x5 x6 x7 x8 x9 x10 x11) (val_main_v116 (F := F) x0 x1 x3 x4 x5 x6 x7 x8 x9 x10 x11)
theorem val_main_v117_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S1000000x64.Idx) :
    val_main_v117 (F := F) x0 x1 x3 x4 x5 x6 x7 x8 x9 x10 x11 i = FloatOps.subf (val_main_v109 (F := F) x0 x1 x3 x4 x5 x6 x7 x8 x9 x10 x11 i) (val_main_v116 (F := F) x0 x1 x3 x4 x5 x6 x7 x8 x9 x10 x11 i) := rfl
def val_main_v118 (x3 : (⟨S1000000, .f32⟩ : BufTy).Contents (Elt F)) (x4 : (⟨S1000000x1, .f32⟩ : BufTy).Contents (Elt F)) : (⟨S1000000x64, .f32⟩ : BufTy).Contents (Elt F) :=
  broadcastInDim S1000000x64 ![0, 1] bcast_S1000000x1_S1000000x64_0_1 (val_main_v5 (F := F) x3 x4)
abbrev idx_main_v118 (i : S1000000x64.Idx) : S1000000x1.Idx := fun a => match a with
  | ⟨0, _⟩ => ⟨(i 0).val, (i 0).isLt⟩
  | ⟨1, _⟩ => ⟨0, Nat.one_pos⟩
theorem val_main_v118_apply (x3 : (⟨S1000000, .f32⟩ : BufTy).Contents (Elt F)) (x4 : (⟨S1000000x1, .f32⟩ : BufTy).Contents (Elt F)) (i : S1000000x64.Idx) :
    val_main_v118 (F := F) x3 x4 i = val_main_v5 (F := F) x3 x4 (idx_main_v118 i) :=
  broadcastInDim_apply _ _ _ i _ fun a => match a with
    | ⟨0, _⟩ => rfl
    | ⟨1, _⟩ => rfl
def val_main_v119 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S1000000x64, .f32⟩ : BufTy).Contents (Elt F) :=
  mulf (val_main_v118 (F := F) x3 x4) (val_main_v117 (F := F) x0 x1 x3 x4 x5 x6 x7 x8 x9 x10 x11)
theorem val_main_v119_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S1000000x64.Idx) :
    val_main_v119 (F := F) x0 x1 x3 x4 x5 x6 x7 x8 x9 x10 x11 i = FloatOps.mulf (val_main_v118 (F := F) x3 x4 i) (val_main_v117 (F := F) x0 x1 x3 x4 x5 x6 x7 x8 x9 x10 x11 i) := rfl
def val_main_cst_12 : (⟨S_, .f32⟩ : BufTy).Contents (Elt F) :=
  constant S_ .f32 0x00000000#32
theorem val_main_cst_12_apply (i : S_.Idx) :
    val_main_cst_12 (F := F) i = FloatOps.ofBits .f32 0x00000000#32 := rfl
def val_main_v120 : (⟨S100000x64, .f32⟩ : BufTy).Contents (Elt F) :=
  broadcastInDim S100000x64 ![] bcast_S_S100000x64 (val_main_cst_12 (F := F))
abbrev idx_main_v120 (i : S100000x64.Idx) : S_.Idx := fun a => a.elim0
theorem val_main_v120_apply (i : S100000x64.Idx) :
    val_main_v120 (F := F) i = val_main_cst_12 (F := F) (idx_main_v120 i) :=
  broadcastInDim_apply _ _ _ i _ fun a => a.elim0
def val_main_v121 (x1 : (⟨S2x1000000, .i32⟩ : BufTy).Contents (Elt F)) : (⟨S1000000x1, .i32⟩ : BufTy).Contents (Elt F) :=
  broadcastInDim S1000000x1 ![0] bcast_S1000000_S1000000x1_0 (val_main_v3 (F := F) x1)
abbrev idx_main_v121 (i : S1000000x1.Idx) : S1000000.Idx := fun a => match a with
  | ⟨0, _⟩ => ⟨(i 0).val, (i 0).isLt⟩
theorem val_main_v121_apply (x1 : (⟨S2x1000000, .i32⟩ : BufTy).Contents (Elt F)) (i : S1000000x1.Idx) :
    val_main_v121 (F := F) x1 i = val_main_v3 (F := F) x1 (idx_main_v121 i) :=
  broadcastInDim_apply _ _ _ i _ fun a => match a with
    | ⟨0, _⟩ => rfl
def val_main_v122 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.scatterAdd scatter_S100000x64_S1000000x1_S1000000x64_1_0_0_1 (val_main_v120 (F := F)) (val_main_v121 (F := F) x1) (val_main_v119 (F := F) x0 x1 x3 x4 x5 x6 x7 x8 x9 x10 x11)
def val_main_v123 (x10 : (⟨S3x64x64, .f32⟩ : BufTy).Contents (Elt F)) : (⟨S1x64x64, .f32⟩ : BufTy).Contents (Elt F) :=
  extractStridedSlice S1x64x64 ![2, 0, 0] (x10) slices_S3x64x64_S1x64x64_2_0_0
abbrev idx_main_v123 (i : S1x64x64.Idx) : S3x64x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
  | ⟨2, _⟩ => ⟨(i 2).val, (i 2).isLt⟩
theorem val_main_v123_apply (x10 : (⟨S3x64x64, .f32⟩ : BufTy).Contents (Elt F)) (i : S1x64x64.Idx) :
    val_main_v123 (F := F) x10 i = x10 (idx_main_v123 i) :=
  extractStridedSlice_apply _ _ _ i _ fun a => match a with
    | ⟨0, _⟩ => rfl
    | ⟨1, _⟩ => (Nat.zero_add _).symm
    | ⟨2, _⟩ => (Nat.zero_add _).symm
def val_main_v124 (x10 : (⟨S3x64x64, .f32⟩ : BufTy).Contents (Elt F)) : (⟨S64x64, .f32⟩ : BufTy).Contents (Elt F) :=
  shapeCast _ (val_main_v123 (F := F) x10) shapeCasts_S1x64x64_S64x64
abbrev idx_main_v124 (i : S64x64.Idx) : S1x64x64.Idx := fun a => match a with
  | ⟨0, _⟩ => ⟨0, Nat.one_pos⟩
  | ⟨1, _⟩ => ⟨((i 0).val * 64 + (i 1).val) / 64 % 64, by have h0 : (i 0).val < 64 := (i 0).isLt; have h1 : (i 1).val < 64 := (i 1).isLt; show ((i 0).val * 64 + (i 1).val) / 64 % 64 < 64; omega⟩
  | ⟨2, _⟩ => ⟨((i 0).val * 64 + (i 1).val) % 64, by have h0 : (i 0).val < 64 := (i 0).isLt; have h1 : (i 1).val < 64 := (i 1).isLt; show ((i 0).val * 64 + (i 1).val) % 64 < 64; omega⟩
theorem val_main_v124_apply (x10 : (⟨S3x64x64, .f32⟩ : BufTy).Contents (Elt F)) (i : S64x64.Idx) :
    val_main_v124 (F := F) x10 i = val_main_v123 (F := F) x10 (idx_main_v124 i) :=
  shapeCast_drop1_64 _ i _ rfl rfl
def val_main_v125 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  Host.dotGeneral dot_S100000x64_S64x64_S100000x64_1_0_0_1_n_n none (val_main_v91 (F := F) x0 x1 x3 x4 x5 x6 x7 x8 x9 x10 x11) (val_main_v124 (F := F) x10)
abbrev lidx_main_v125 (i : S100000x64.Idx) (k : Fin 64) : S100000x64.Idx := fun a => match a with
  | ⟨0, _⟩ => ⟨(i 0).val, (i 0).isLt⟩
  | ⟨1, _⟩ => ⟨k.val, k.isLt⟩
abbrev ridx_main_v125 (i : S100000x64.Idx) (k : Fin 64) : S64x64.Idx := fun a => match a with
  | ⟨0, _⟩ => ⟨k.val, k.isLt⟩
  | ⟨1, _⟩ => ⟨(i 1).val, (i 1).isLt⟩
theorem val_main_v125_apply (x0 : (⟨S100000x4, .f32⟩ : BufTy).Contents (Elt Ideal)) (x1 : (⟨S2x1000000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (i : S100000x64.Idx) :
    val_main_v125 (F := Ideal) x0 x1 x3 x4 x5 x6 x7 x8 x9 x10 x11 i = ∑ k : Fin 64, (val_main_v91 (F := Ideal) x0 x1 x3 x4 x5 x6 x7 x8 x9 x10 x11) (lidx_main_v125 i k) * (val_main_v124 (F := Ideal) x10) (ridx_main_v125 i k) :=
  dot_plain_apply _ _ i _ _ (fun _ => ⟨rfl, rfl⟩) fun _ => ⟨rfl, rfl⟩
def val_main_v126 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v122 (F := F) x0 x1 x3 x4 x5 x6 x7 x8 x9 x10 x11) (val_main_v125 (F := F) x0 x1 x3 x4 x5 x6 x7 x8 x9 x10 x11)
theorem val_main_v126_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v126 (F := F) x0 x1 x3 x4 x5 x6 x7 x8 x9 x10 x11 i = FloatOps.addf (val_main_v122 (F := F) x0 x1 x3 x4 x5 x6 x7 x8 x9 x10 x11 i) (val_main_v125 (F := F) x0 x1 x3 x4 x5 x6 x7 x8 x9 x10 x11 i) := rfl
def val_main_v127 (x11 : (⟨S3x64, .f32⟩ : BufTy).Contents (Elt F)) : (⟨S1x64, .f32⟩ : BufTy).Contents (Elt F) :=
  extractStridedSlice S1x64 ![2, 0] (x11) slices_S3x64_S1x64_2_0
abbrev idx_main_v127 (i : S1x64.Idx) : S3x64.Idx := fun a => match a with
  | ⟨0, _⟩ => ⟨2 + (i 0).val, by have h0 : (i 0).val < 1 := (i 0).isLt; show 2 + (i 0).val < 3; omega⟩
  | ⟨1, _⟩ => ⟨(i 1).val, (i 1).isLt⟩
theorem val_main_v127_apply (x11 : (⟨S3x64, .f32⟩ : BufTy).Contents (Elt F)) (i : S1x64.Idx) :
    val_main_v127 (F := F) x11 i = x11 (idx_main_v127 i) :=
  extractStridedSlice_apply _ _ _ i _ fun a => match a with
    | ⟨0, _⟩ => rfl
    | ⟨1, _⟩ => (Nat.zero_add _).symm
def val_main_v128 (x11 : (⟨S3x64, .f32⟩ : BufTy).Contents (Elt F)) : (⟨S64, .f32⟩ : BufTy).Contents (Elt F) :=
  shapeCast _ (val_main_v127 (F := F) x11) shapeCasts_S1x64_S64
abbrev idx_main_v128 (i : S64.Idx) : S1x64.Idx := fun a => match a with
  | ⟨0, _⟩ => ⟨0, Nat.one_pos⟩
  | ⟨1, _⟩ => ⟨((i 0).val) % 64, by have h0 : (i 0).val < 64 := (i 0).isLt; show ((i 0).val) % 64 < 64; omega⟩
theorem val_main_v128_apply (x11 : (⟨S3x64, .f32⟩ : BufTy).Contents (Elt F)) (i : S64.Idx) :
    val_main_v128 (F := F) x11 i = val_main_v127 (F := F) x11 (idx_main_v128 i) :=
  shapeCast_drop1 _ _ i _ rfl
def val_main_v129 (x11 : (⟨S3x64, .f32⟩ : BufTy).Contents (Elt F)) : (⟨S1x64, .f32⟩ : BufTy).Contents (Elt F) :=
  broadcastInDim S1x64 ![1] bcast_S64_S1x64_1 (val_main_v128 (F := F) x11)
abbrev idx_main_v129 (i : S1x64.Idx) : S64.Idx := fun a => match a with
  | ⟨0, _⟩ => ⟨(i 1).val, (i 1).isLt⟩
theorem val_main_v129_apply (x11 : (⟨S3x64, .f32⟩ : BufTy).Contents (Elt F)) (i : S1x64.Idx) :
    val_main_v129 (F := F) x11 i = val_main_v128 (F := F) x11 (idx_main_v129 i) :=
  broadcastInDim_apply _ _ _ i _ fun a => match a with
    | ⟨0, _⟩ => rfl
def val_main_v130 (x11 : (⟨S3x64, .f32⟩ : BufTy).Contents (Elt F)) : (⟨S100000x64, .f32⟩ : BufTy).Contents (Elt F) :=
  broadcastInDim S100000x64 ![0, 1] bcast_S1x64_S100000x64_0_1 (val_main_v129 (F := F) x11)
abbrev idx_main_v130 (i : S100000x64.Idx) : S1x64.Idx := fun a => match a with
  | ⟨0, _⟩ => ⟨0, Nat.one_pos⟩
  | ⟨1, _⟩ => ⟨(i 1).val, (i 1).isLt⟩
theorem val_main_v130_apply (x11 : (⟨S3x64, .f32⟩ : BufTy).Contents (Elt F)) (i : S100000x64.Idx) :
    val_main_v130 (F := F) x11 i = val_main_v129 (F := F) x11 (idx_main_v130 i) :=
  broadcastInDim_apply _ _ _ i _ fun a => match a with
    | ⟨0, _⟩ => rfl
    | ⟨1, _⟩ => rfl
def val_main_v131 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  addf (val_main_v126 (F := F) x0 x1 x3 x4 x5 x6 x7 x8 x9 x10 x11) (val_main_v130 (F := F) x11)
theorem val_main_v131_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v131 (F := F) x0 x1 x3 x4 x5 x6 x7 x8 x9 x10 x11 i = FloatOps.addf (val_main_v126 (F := F) x0 x1 x3 x4 x5 x6 x7 x8 x9 x10 x11 i) (val_main_v130 (F := F) x11 i) := rfl
def val_main_call2_cst : (⟨S_, .f32⟩ : BufTy).Contents (Elt F) :=
  constant S_ .f32 0x00000000#32
theorem val_main_call2_cst_apply (i : S_.Idx) :
    val_main_call2_cst (F := F) i = FloatOps.ofBits .f32 0x00000000#32 := rfl
def val_main_call2_v0 : (⟨S100000x64, .f32⟩ : BufTy).Contents (Elt F) :=
  broadcastInDim S100000x64 ![] bcast_S_S100000x64 (val_main_call2_cst (F := F))
abbrev idx_main_call2_v0 (i : S100000x64.Idx) : S_.Idx := fun a => a.elim0
theorem val_main_call2_v0_apply (i : S100000x64.Idx) :
    val_main_call2_v0 (F := F) i = val_main_call2_cst (F := F) (idx_main_call2_v0 i) :=
  broadcastInDim_apply _ _ _ i _ fun a => a.elim0
def val_main_v132 (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  maximumf (val_main_v131 (F := F) x0 x1 x3 x4 x5 x6 x7 x8 x9 x10 x11) (val_main_call2_v0 (F := F))
theorem val_main_v132_apply (x0 : (⟨S100000x4, .f32⟩ : BufTy).Contents (Elt F)) (x1 : (⟨S2x1000000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v132 (F := F) x0 x1 x3 x4 x5 x6 x7 x8 x9 x10 x11 i = FloatOps.maximumf (val_main_v131 (F := F) x0 x1 x3 x4 x5 x6 x7 x8 x9 x10 x11 i) (val_main_call2_v0 (F := F) i) := rfl
def val_main_cst_13 : (⟨S_, .f32⟩ : BufTy).Contents (Elt F) :=
  constant S_ .f32 0x3F800000#32
def val_main_v133 : (⟨S1000000x1, .f32⟩ : BufTy).Contents (Elt F) :=
  broadcastInDim S1000000x1 ![] bcast_S_S1000000x1 (val_main_cst_13 (F := F))
def val_main_cst_14 : (⟨S_, .f32⟩ : BufTy).Contents (Elt F) :=
  constant S_ .f32 0x00000000#32
def val_main_v134 : (⟨S100000x1, .f32⟩ : BufTy).Contents (Elt F) :=
  broadcastInDim S100000x1 ![] bcast_S_S100000x1 (val_main_cst_14 (F := F))
def val_main_v135 (x1 : (⟨S2x1000000, .i32⟩ : BufTy).Contents (Elt F)) : (⟨S1000000x1, .i32⟩ : BufTy).Contents (Elt F) :=
  broadcastInDim S1000000x1 ![0] bcast_S1000000_S1000000x1_0 (val_main_v3 (F := F) x1)
def val_main_v136 (x1 : (⟨S2x1000000, .i32⟩ : BufTy).Contents (Elt F)) (x4 : (⟨S1000000x1, .f32⟩ : BufTy).Contents (Elt F)) : (⟨S100000x1, .f32⟩ : BufTy).Contents (Elt F) :=
  Host.scatterAdd scatter_S100000x1_S1000000x1_S1000000x1_1_0_0_1 (val_main_v134 (F := F)) (val_main_v135 (F := F) x1) (x4)
def val_main_cst_15 : (⟨S_, .f32⟩ : BufTy).Contents (Elt F) :=
  constant S_ .f32 0x00000000#32
def val_main_v137 : (⟨S100000x1, .f32⟩ : BufTy).Contents (Elt F) :=
  broadcastInDim S100000x1 ![] bcast_S_S100000x1 (val_main_cst_15 (F := F))
def val_main_v138 (x1 : (⟨S2x1000000, .i32⟩ : BufTy).Contents (Elt F)) : (⟨S1000000x1, .i32⟩ : BufTy).Contents (Elt F) :=
  broadcastInDim S1000000x1 ![0] bcast_S1000000_S1000000x1_0 (val_main_v1 (F := F) x1)
def val_main_v139 (x1 : (⟨S2x1000000, .i32⟩ : BufTy).Contents (Elt F)) (x4 : (⟨S1000000x1, .f32⟩ : BufTy).Contents (Elt F)) : (⟨S100000x1, .f32⟩ : BufTy).Contents (Elt F) :=
  Host.scatterAdd scatter_S100000x1_S1000000x1_S1000000x1_1_0_0_1 (val_main_v137 (F := F)) (val_main_v138 (F := F) x1) (x4)
def val_main_v140 (x1 : (⟨S2x1000000, .i32⟩ : BufTy).Contents (Elt F)) (x4 : (⟨S1000000x1, .f32⟩ : BufTy).Contents (Elt F)) : (⟨S100000x1, .f32⟩ : BufTy).Contents (Elt F) :=
  addf (val_main_v136 (F := F) x1 x4) (val_main_v139 (F := F) x1 x4)
def val_main_cst_16 : (⟨S_, .f32⟩ : BufTy).Contents (Elt F) :=
  constant S_ .f32 0x00000000#32
def val_main_v141 : (⟨S100000x1, .f32⟩ : BufTy).Contents (Elt F) :=
  broadcastInDim S100000x1 ![] bcast_S_S100000x1 (val_main_cst_16 (F := F))
def val_main_v142 (x1 : (⟨S2x1000000, .i32⟩ : BufTy).Contents (Elt F)) : (⟨S1000000x1, .i32⟩ : BufTy).Contents (Elt F) :=
  broadcastInDim S1000000x1 ![0] bcast_S1000000_S1000000x1_0 (val_main_v3 (F := F) x1)
def val_main_v143 (x1 : (⟨S2x1000000, .i32⟩ : BufTy).Contents (Elt F)) : (⟨S100000x1, .f32⟩ : BufTy).Contents (Elt F) :=
  Host.scatterAdd scatter_S100000x1_S1000000x1_S1000000x1_1_0_0_1 (val_main_v141 (F := F)) (val_main_v142 (F := F) x1) (val_main_v133 (F := F))
def val_main_cst_17 : (⟨S_, .f32⟩ : BufTy).Contents (Elt F) :=
  constant S_ .f32 0x00000000#32
def val_main_v144 : (⟨S100000x1, .f32⟩ : BufTy).Contents (Elt F) :=
  broadcastInDim S100000x1 ![] bcast_S_S100000x1 (val_main_cst_17 (F := F))
def val_main_v145 (x1 : (⟨S2x1000000, .i32⟩ : BufTy).Contents (Elt F)) : (⟨S1000000x1, .i32⟩ : BufTy).Contents (Elt F) :=
  broadcastInDim S1000000x1 ![0] bcast_S1000000_S1000000x1_0 (val_main_v1 (F := F) x1)
def val_main_v146 (x1 : (⟨S2x1000000, .i32⟩ : BufTy).Contents (Elt F)) : (⟨S100000x1, .f32⟩ : BufTy).Contents (Elt F) :=
  Host.scatterAdd scatter_S100000x1_S1000000x1_S1000000x1_1_0_0_1 (val_main_v144 (F := F)) (val_main_v145 (F := F) x1) (val_main_v133 (F := F))
def val_main_v147 (x1 : (⟨S2x1000000, .i32⟩ : BufTy).Contents (Elt F)) : (⟨S100000x1, .f32⟩ : BufTy).Contents (Elt F) :=
  addf (val_main_v143 (F := F) x1) (val_main_v146 (F := F) x1)
def val_main_cst_18 : (⟨S_, .f32⟩ : BufTy).Contents (Elt F) :=
  constant S_ .f32 0x00000000#32
def val_main_v148 : (⟨S100000x1, .f32⟩ : BufTy).Contents (Elt F) :=
  broadcastInDim S100000x1 ![] bcast_S_S100000x1 (val_main_cst_18 (F := F))
def val_main_v149 (x1 : (⟨S2x1000000, .i32⟩ : BufTy).Contents (Elt F)) : (⟨S100000x1, .i1⟩ : BufTy).Contents (Elt F) :=
  cmpf .oeq (val_main_v147 (F := F) x1) (val_main_v148 (F := F))
def val_main_cst_19 : (⟨S_, .f32⟩ : BufTy).Contents (Elt F) :=
  constant S_ .f32 0x3F800000#32
def val_main_call3_v0 : (⟨S_, .f32⟩ : BufTy).Contents (Elt F) :=
  id (val_main_cst_19 (F := F))
def val_main_call3_v1 : (⟨S100000x1, .f32⟩ : BufTy).Contents (Elt F) :=
  broadcastInDim S100000x1 ![] bcast_S_S100000x1 (val_main_call3_v0 (F := F))
def val_main_v150 (x1 : (⟨S2x1000000, .i32⟩ : BufTy).Contents (Elt F)) : (⟨S100000x1, .f32⟩ : BufTy).Contents (Elt F) :=
  select (val_main_v149 (F := F) x1) (val_main_call3_v1 (F := F)) (val_main_v147 (F := F) x1)
def val_main_v151 (x1 : (⟨S2x1000000, .i32⟩ : BufTy).Contents (Elt F)) (x4 : (⟨S1000000x1, .f32⟩ : BufTy).Contents (Elt F)) : (⟨S100000x1, .f32⟩ : BufTy).Contents (Elt F) :=
  Host.divf (val_main_v140 (F := F) x1 x4) (val_main_v150 (F := F) x1)
def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl
def val_main_v152 : (⟨S512x1, .f32⟩ : BufTy).Contents (Elt F) :=
  broadcastInDim S512x1 ![] bcast_S_S512x1 (val_main_cst_20 (F := F))
abbrev idx_main_v152 (i : S512x1.Idx) : S_.Idx := fun a => a.elim0
theorem val_main_v152_apply (i : S512x1.Idx) :
    val_main_v152 (F := F) i = val_main_cst_20 (F := F) (idx_main_v152 i) :=
  broadcastInDim_apply _ _ _ i _ fun a => a.elim0
def val_main_v153 (x2 : (⟨S100000, .i32⟩ : BufTy).Contents (Elt F)) : (⟨S100000x1, .i32⟩ : BufTy).Contents (Elt F) :=
  broadcastInDim S100000x1 ![0] bcast_S100000_S100000x1_0 (x2)
abbrev idx_main_v153 (i : S100000x1.Idx) : S100000.Idx := fun a => match a with
  | ⟨0, _⟩ => ⟨(i 0).val, (i 0).isLt⟩
theorem val_main_v153_apply (x2 : (⟨S100000, .i32⟩ : BufTy).Contents (Elt F)) (i : S100000x1.Idx) :
    val_main_v153 (F := F) x2 i = x2 (idx_main_v153 i) :=
  broadcastInDim_apply _ _ _ i _ fun a => match a with
    | ⟨0, _⟩ => rfl
def val_main_v154 (x1 : (⟨S2x1000000, .i32⟩ : BufTy).Contents (Elt F)) (x2 : (⟨S100000, .i32⟩ : BufTy).Contents (Elt F)) (x4 : (⟨S1000000x1, .f32⟩ : BufTy).Contents (Elt F)) : (⟨S512x1, .f32⟩ : BufTy).Contents (Elt F) :=
  Host.scatterAdd scatter_S512x1_S100000x1_S100000x1_1_0_0_1 (val_main_v152 (F := F)) (val_main_v153 (F := F) x2) (val_main_v151 (F := F) x1 x4)
def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl
def val_main_v155 : (⟨S512x1, .f32⟩ : BufTy).Contents (Elt F) :=
  broadcastInDim S512x1 ![] bcast_S_S512x1 (val_main_cst_21 (F := F))
abbrev idx_main_v155 (i : S512x1.Idx) : S_.Idx := fun a => a.elim0
theorem val_main_v155_apply (i : S512x1.Idx) :
    val_main_v155 (F := F) i = val_main_cst_21 (F := F) (idx_main_v155 i) :=
  broadcastInDim_apply _ _ _ i _ fun a => a.elim0
def val_main_v156 (x1 : (⟨S2x1000000, .i32⟩ : BufTy).Contents (Elt F)) (x2 : (⟨S100000, .i32⟩ : BufTy).Contents (Elt F)) (x4 : (⟨S1000000x1, .f32⟩ : BufTy).Contents (Elt F)) : (⟨S512x1, .i1⟩ : BufTy).Contents (Elt F) :=
  cmpf .oeq (val_main_v154 (F := F) x1 x2 x4) (val_main_v155 (F := F))
theorem val_main_v156_apply (x1 : (⟨S2x1000000, .i32⟩ : BufTy).Contents (Elt F)) (x2 : (⟨S100000, .i32⟩ : BufTy).Contents (Elt F)) (x4 : (⟨S1000000x1, .f32⟩ : BufTy).Contents (Elt F)) (i : S512x1.Idx) :
    val_main_v156 (F := F) x1 x2 x4 i = FloatOps.cmpf .oeq (val_main_v154 (F := F) x1 x2 x4 i) (val_main_v155 (F := F) i) := rfl
def val_main_cst_22 : (⟨S_, .f32⟩ : BufTy).Contents (Elt F) :=
  constant S_ .f32 0x3F800000#32
theorem val_main_cst_22_apply (i : S_.Idx) :
    val_main_cst_22 (F := F) i = FloatOps.ofBits .f32 0x3F800000#32 := rfl
def val_main_call4_v0 : (⟨S_, .f32⟩ : BufTy).Contents (Elt F) :=
  id (val_main_cst_22 (F := F))
theorem val_main_call4_v0_apply (i : S_.Idx) :
    val_main_call4_v0 (F := F) i = (val_main_cst_22 (F := F) i) := rfl
def val_main_call4_v1 : (⟨S512x1, .f32⟩ : BufTy).Contents (Elt F) :=
  broadcastInDim S512x1 ![] bcast_S_S512x1 (val_main_call4_v0 (F := F))
abbrev idx_main_call4_v1 (i : S512x1.Idx) : S_.Idx := fun a => a.elim0
theorem val_main_call4_v1_apply (i : S512x1.Idx) :
    val_main_call4_v1 (F := F) i = val_main_call4_v0 (F := F) (idx_main_call4_v1 i) :=
  broadcastInDim_apply _ _ _ i _ fun a => a.elim0
def val_main_v157 (x1 : (⟨S2x1000000, .i32⟩ : BufTy).Contents (Elt F)) (x2 : (⟨S100000, .i32⟩ : BufTy).Contents (Elt F)) (x4 : (⟨S1000000x1, .f32⟩ : BufTy).Contents (Elt F)) : (⟨S512x1, .f32⟩ : BufTy).Contents (Elt F) :=
  select (val_main_v156 (F := F) x1 x2 x4) (val_main_call4_v1 (F := F)) (val_main_v154 (F := F) x1 x2 x4)
theorem val_main_v157_apply (x1 : (⟨S2x1000000, .i32⟩ : BufTy).Contents (Elt F)) (x2 : (⟨S100000, .i32⟩ : BufTy).Contents (Elt F)) (x4 : (⟨S1000000x1, .f32⟩ : BufTy).Contents (Elt F)) (i : S512x1.Idx) :
    val_main_v157 (F := F) x1 x2 x4 i = Scalar.select (val_main_v156 (F := F) x1 x2 x4 i) (val_main_call4_v1 (F := F) i) (val_main_v154 (F := F) x1 x2 x4 i) := rfl
def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl
def val_main_v158 : (⟨S100000x1, .f32⟩ : BufTy).Contents (Elt F) :=
  broadcastInDim S100000x1 ![] bcast_S_S100000x1 (val_main_cst_23 (F := F))
abbrev idx_main_v158 (i : S100000x1.Idx) : S_.Idx := fun a => a.elim0
theorem val_main_v158_apply (i : S100000x1.Idx) :
    val_main_v158 (F := F) i = val_main_cst_23 (F := F) (idx_main_v158 i) :=
  broadcastInDim_apply _ _ _ i _ fun a => a.elim0
def val_main_cst_24 : (⟨S_, .f32⟩ : BufTy).Contents (Elt F) :=
  constant S_ .f32 0x00000000#32
theorem val_main_cst_24_apply (i : S_.Idx) :
    val_main_cst_24 (F := F) i = FloatOps.ofBits .f32 0x00000000#32 := rfl
def val_main_v159 : (⟨S512x1, .f32⟩ : BufTy).Contents (Elt F) :=
  broadcastInDim S512x1 ![] bcast_S_S512x1 (val_main_cst_24 (F := F))
abbrev idx_main_v159 (i : S512x1.Idx) : S_.Idx := fun a => a.elim0
theorem val_main_v159_apply (i : S512x1.Idx) :
    val_main_v159 (F := F) i = val_main_cst_24 (F := F) (idx_main_v159 i) :=
  broadcastInDim_apply _ _ _ i _ fun a => a.elim0
def val_main_v160 (x2 : (⟨S100000, .i32⟩ : BufTy).Contents (Elt F)) : (⟨S100000x1, .i32⟩ : BufTy).Contents (Elt F) :=
  broadcastInDim S100000x1 ![0] bcast_S100000_S100000x1_0 (x2)
abbrev idx_main_v160 (i : S100000x1.Idx) : S100000.Idx := fun a => match a with
  | ⟨0, _⟩ => ⟨(i 0).val, (i 0).isLt⟩
theorem val_main_v160_apply (x2 : (⟨S100000, .i32⟩ : BufTy).Contents (Elt F)) (i : S100000x1.Idx) :
    val_main_v160 (F := F) x2 i = x2 (idx_main_v160 i) :=
  broadcastInDim_apply _ _ _ i _ fun a => match a with
    | ⟨0, _⟩ => rfl
def val_main_v161 (x2 : (⟨S100000, .i32⟩ : BufTy).Contents (Elt F)) : (⟨S512x1, .f32⟩ : BufTy).Contents (Elt F) :=
  Host.scatterAdd scatter_S512x1_S100000x1_S100000x1_1_0_0_1 (val_main_v159 (F := F)) (val_main_v160 (F := F) x2) (val_main_v158 (F := F))
def val_main_v162 (x1 : (⟨S2x1000000, .i32⟩ : BufTy).Contents (Elt F)) (x2 : (⟨S100000, .i32⟩ : BufTy).Contents (Elt F)) (x4 : (⟨S1000000x1, .f32⟩ : BufTy).Contents (Elt F)) : (⟨S512x1, .f32⟩ : BufTy).Contents (Elt F) :=
  Host.divf (val_main_v161 (F := F) x2) (val_main_v157 (F := F) x1 x2 x4)
theorem val_main_v162_apply (x1 : (⟨S2x1000000, .i32⟩ : BufTy).Contents (Elt F)) (x2 : (⟨S100000, .i32⟩ : BufTy).Contents (Elt F)) (x4 : (⟨S1000000x1, .f32⟩ : BufTy).Contents (Elt F)) (i : S512x1.Idx) :
    val_main_v162 (F := F) x1 x2 x4 i = FloatOps.hostDivf (val_main_v161 (F := F) x2 i) (val_main_v157 (F := F) x1 x2 x4 i) := rfl
def val_main_c_25 : (⟨S_, .i32⟩ : BufTy).Contents (Elt F) :=
  constantI S_ 32 0#32
theorem val_main_c_25_apply (i : S_.Idx) :
    val_main_c_25 (F := F) i = 0#32 := rfl
def val_main_v163 : (⟨S100000, .i32⟩ : BufTy).Contents (Elt F) :=
  broadcastInDim S100000 ![] bcast_S_S100000 (val_main_c_25 (F := F))
abbrev idx_main_v163 (i : S100000.Idx) : S_.Idx := fun a => a.elim0
theorem val_main_v163_apply (i : S100000.Idx) :
    val_main_v163 (F := F) i = val_main_c_25 (F := F) (idx_main_v163 i) :=
  broadcastInDim_apply _ _ _ i _ fun a => a.elim0
def val_main_v164 (x2 : (⟨S100000, .i32⟩ : BufTy).Contents (Elt F)) : (⟨S100000, .i1⟩ : BufTy).Contents (Elt F) :=
  cmpi .slt (x2) (val_main_v163 (F := F))
theorem val_main_v164_apply (x2 : (⟨S100000, .i32⟩ : BufTy).Contents (Elt F)) (i : S100000.Idx) :
    val_main_v164 (F := F) x2 i = IntOp.cmpi .slt (x2 i) (val_main_v163 (F := F) i) := rfl
def val_main_c_26 : (⟨S_, .i32⟩ : BufTy).Contents (Elt F) :=
  constantI S_ 32 512#32
def val_main_v165 : (⟨S100000, .i32⟩ : BufTy).Contents (Elt F) :=
  broadcastInDim S100000 ![] bcast_S_S100000 (val_main_c_26 (F := F))
def val_main_v166 (x2 : (⟨S100000, .i32⟩ : BufTy).Contents (Elt F)) : (⟨S100000, .i32⟩ : BufTy).Contents (Elt F) :=
  addi (x2) (val_main_v165 (F := F))
def val_main_v167 (x2 : (⟨S100000, .i32⟩ : BufTy).Contents (Elt F)) : (⟨S100000, .i32⟩ : BufTy).Contents (Elt F) :=
  select (val_main_v164 (F := F) x2) (val_main_v166 (F := F) x2) (x2)
theorem val_main_v167_apply (x2 : (⟨S100000, .i32⟩ : BufTy).Contents (Elt F)) (i : S100000.Idx) :
    val_main_v167 (F := F) x2 i = Scalar.select (val_main_v164 (F := F) x2 i) (val_main_v166 (F := F) x2 i) (x2 i) := rfl
def val_main_v168 (x2 : (⟨S100000, .i32⟩ : BufTy).Contents (Elt F)) : (⟨S100000x1, .i32⟩ : BufTy).Contents (Elt F) :=
  broadcastInDim S100000x1 ![0] bcast_S100000_S100000x1_0 (val_main_v167 (F := F) x2)
abbrev idx_main_v168 (i : S100000x1.Idx) : S100000.Idx := fun a => match a with
  | ⟨0, _⟩ => ⟨(i 0).val, (i 0).isLt⟩
theorem val_main_v168_apply (x2 : (⟨S100000, .i32⟩ : BufTy).Contents (Elt F)) (i : S100000x1.Idx) :
    val_main_v168 (F := F) x2 i = val_main_v167 (F := F) x2 (idx_main_v168 i) :=
  broadcastInDim_apply _ _ _ i _ fun a => match a with
    | ⟨0, _⟩ => rfl
def val_main_v169 (x1 : (⟨S2x1000000, .i32⟩ : BufTy).Contents (Elt F)) (x2 : (⟨S100000, .i32⟩ : BufTy).Contents (Elt F)) (x4 : (⟨S1000000x1, .f32⟩ : BufTy).Contents (Elt F)) : (⟨S100000x1, .f32⟩ : BufTy).Contents (Elt F) :=
  Host.gather gather_S512x1_S100000x1_S100000x1_1_0_n_n_0_1_11 (val_main_v162 (F := F) x1 x2 x4) (val_main_v168 (F := F) x2)
def val_main_v170 (x1 : (⟨S2x1000000, .i32⟩ : BufTy).Contents (Elt F)) (x2 : (⟨S100000, .i32⟩ : BufTy).Contents (Elt F)) (x4 : (⟨S1000000x1, .f32⟩ : BufTy).Contents (Elt F)) : (⟨S100000x1, .f32⟩ : BufTy).Contents (Elt F) :=
  mulf (val_main_v151 (F := F) x1 x4) (val_main_v169 (F := F) x1 x2 x4)
theorem val_main_v170_apply (x1 : (⟨S2x1000000, .i32⟩ : BufTy).Contents (Elt F)) (x2 : (⟨S100000, .i32⟩ : BufTy).Contents (Elt F)) (x4 : (⟨S1000000x1, .f32⟩ : BufTy).Contents (Elt F)) (i : S100000x1.Idx) :
    val_main_v170 (F := F) x1 x2 x4 i = FloatOps.mulf (val_main_v151 (F := F) x1 x4 i) (val_main_v169 (F := F) x1 x2 x4 i) := rfl
def val_main_v171 (x1 : (⟨S2x1000000, .i32⟩ : BufTy).Contents (Elt F)) (x2 : (⟨S100000, .i32⟩ : BufTy).Contents (Elt F)) (x4 : (⟨S1000000x1, .f32⟩ : BufTy).Contents (Elt F)) : (⟨S100000x64, .f32⟩ : BufTy).Contents (Elt F) :=
  broadcastInDim S100000x64 ![0, 1] bcast_S100000x1_S100000x64_0_1 (val_main_v170 (F := F) x1 x2 x4)
abbrev idx_main_v171 (i : S100000x64.Idx) : S100000x1.Idx := fun a => match a with
  | ⟨0, _⟩ => ⟨(i 0).val, (i 0).isLt⟩
  | ⟨1, _⟩ => ⟨0, Nat.one_pos⟩
theorem val_main_v171_apply (x1 : (⟨S2x1000000, .i32⟩ : BufTy).Contents (Elt F)) (x2 : (⟨S100000, .i32⟩ : BufTy).Contents (Elt F)) (x4 : (⟨S1000000x1, .f32⟩ : BufTy).Contents (Elt F)) (i : S100000x64.Idx) :
    val_main_v171 (F := F) x1 x2 x4 i = val_main_v170 (F := F) x1 x2 x4 (idx_main_v171 i) :=
  broadcastInDim_apply _ _ _ i _ fun a => match a with
    | ⟨0, _⟩ => rfl
    | ⟨1, _⟩ => rfl
def val_main_v172 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S100000x64, .f32⟩ : BufTy).Contents (Elt F) :=
  mulf (val_main_v132 (F := F) x0 x1 x3 x4 x5 x6 x7 x8 x9 x10 x11) (val_main_v171 (F := F) x1 x2 x4)
theorem val_main_v172_apply (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S100000x64.Idx) :
    val_main_v172 (F := F) x0 x1 x2 x3 x4 x5 x6 x7 x8 x9 x10 x11 i = FloatOps.mulf (val_main_v132 (F := F) x0 x1 x3 x4 x5 x6 x7 x8 x9 x10 x11 i) (val_main_v171 (F := F) x1 x2 x4 i) := rfl
def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl
def val_main_v173 : (⟨S512x64, .f32⟩ : BufTy).Contents (Elt F) :=
  broadcastInDim S512x64 ![] bcast_S_S512x64 (val_main_cst_27 (F := F))
abbrev idx_main_v173 (i : S512x64.Idx) : S_.Idx := fun a => a.elim0
theorem val_main_v173_apply (i : S512x64.Idx) :
    val_main_v173 (F := F) i = val_main_cst_27 (F := F) (idx_main_v173 i) :=
  broadcastInDim_apply _ _ _ i _ fun a => a.elim0
def val_main_v174 (x2 : (⟨S100000, .i32⟩ : BufTy).Contents (Elt F)) : (⟨S100000x1, .i32⟩ : BufTy).Contents (Elt F) :=
  broadcastInDim S100000x1 ![0] bcast_S100000_S100000x1_0 (x2)
abbrev idx_main_v174 (i : S100000x1.Idx) : S100000.Idx := fun a => match a with
  | ⟨0, _⟩ => ⟨(i 0).val, (i 0).isLt⟩
theorem val_main_v174_apply (x2 : (⟨S100000, .i32⟩ : BufTy).Contents (Elt F)) (i : S100000x1.Idx) :
    val_main_v174 (F := F) x2 i = x2 (idx_main_v174 i) :=
  broadcastInDim_apply _ _ _ i _ fun a => match a with
    | ⟨0, _⟩ => rfl
def val_main_v175 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S512x64, .f32⟩ : BufTy).Contents (Elt F) :=
  Host.scatterAdd scatter_S512x64_S100000x1_S100000x64_1_0_0_1 (val_main_v173 (F := F)) (val_main_v174 (F := F) x2) (val_main_v172 (F := F) x0 x1 x2 x3 x4 x5 x6 x7 x8 x9 x10 x11)
def val_main_cst_28 : (⟨S_, .f32⟩ : BufTy).Contents (Elt F) :=
  constant S_ .f32 0x3F800000#32
theorem val_main_cst_28_apply (i : S_.Idx) :
    val_main_cst_28 (F := F) i = FloatOps.ofBits .f32 0x3F800000#32 := rfl
def val_main_v176 : (⟨S100000x1, .f32⟩ : BufTy).Contents (Elt F) :=
  broadcastInDim S100000x1 ![] bcast_S_S100000x1 (val_main_cst_28 (F := F))
abbrev idx_main_v176 (i : S100000x1.Idx) : S_.Idx := fun a => a.elim0
theorem val_main_v176_apply (i : S100000x1.Idx) :
    val_main_v176 (F := F) i = val_main_cst_28 (F := F) (idx_main_v176 i) :=
  broadcastInDim_apply _ _ _ i _ fun a => a.elim0
def val_main_cst_29 : (⟨S_, .f32⟩ : BufTy).Contents (Elt F) :=
  constant S_ .f32 0x00000000#32
theorem val_main_cst_29_apply (i : S_.Idx) :
    val_main_cst_29 (F := F) i = FloatOps.ofBits .f32 0x00000000#32 := rfl
def val_main_v177 : (⟨S512x1, .f32⟩ : BufTy).Contents (Elt F) :=
  broadcastInDim S512x1 ![] bcast_S_S512x1 (val_main_cst_29 (F := F))
abbrev idx_main_v177 (i : S512x1.Idx) : S_.Idx := fun a => a.elim0
theorem val_main_v177_apply (i : S512x1.Idx) :
    val_main_v177 (F := F) i = val_main_cst_29 (F := F) (idx_main_v177 i) :=
  broadcastInDim_apply _ _ _ i _ fun a => a.elim0
def val_main_v178 (x2 : (⟨S100000, .i32⟩ : BufTy).Contents (Elt F)) : (⟨S100000x1, .i32⟩ : BufTy).Contents (Elt F) :=
  broadcastInDim S100000x1 ![0] bcast_S100000_S100000x1_0 (x2)
abbrev idx_main_v178 (i : S100000x1.Idx) : S100000.Idx := fun a => match a with
  | ⟨0, _⟩ => ⟨(i 0).val, (i 0).isLt⟩
theorem val_main_v178_apply (x2 : (⟨S100000, .i32⟩ : BufTy).Contents (Elt F)) (i : S100000x1.Idx) :
    val_main_v178 (F := F) x2 i = x2 (idx_main_v178 i) :=
  broadcastInDim_apply _ _ _ i _ fun a => match a with
    | ⟨0, _⟩ => rfl
def val_main_v179 (x2 : (⟨S100000, .i32⟩ : BufTy).Contents (Elt F)) : (⟨S512x1, .f32⟩ : BufTy).Contents (Elt F) :=
  Host.scatterAdd scatter_S512x1_S100000x1_S100000x1_1_0_0_1 (val_main_v177 (F := F)) (val_main_v178 (F := F) x2) (val_main_v176 (F := F))
def val_main_cst_30 : (⟨S_, .f32⟩ : BufTy).Contents (Elt F) :=
  constant S_ .f32 0x3F800000#32
theorem val_main_cst_30_apply (i : S_.Idx) :
    val_main_cst_30 (F := F) i = FloatOps.ofBits .f32 0x3F800000#32 := rfl
def val_main_v180 : (⟨S512x1, .f32⟩ : BufTy).Contents (Elt F) :=
  broadcastInDim S512x1 ![] bcast_S_S512x1 (val_main_cst_30 (F := F))
abbrev idx_main_v180 (i : S512x1.Idx) : S_.Idx := fun a => a.elim0
theorem val_main_v180_apply (i : S512x1.Idx) :
    val_main_v180 (F := F) i = val_main_cst_30 (F := F) (idx_main_v180 i) :=
  broadcastInDim_apply _ _ _ i _ fun a => a.elim0
def val_main_v181 (x2 : (⟨S100000, .i32⟩ : BufTy).Contents (Elt F)) : (⟨S512x1, .f32⟩ : BufTy).Contents (Elt F) :=
  maximumf (val_main_v179 (F := F) x2) (val_main_v180 (F := F))
theorem val_main_v181_apply (x2 : (⟨S100000, .i32⟩ : BufTy).Contents (Elt F)) (i : S512x1.Idx) :
    val_main_v181 (F := F) x2 i = FloatOps.maximumf (val_main_v179 (F := F) x2 i) (val_main_v180 (F := F) i) := rfl
def val_main_v182 (x2 : (⟨S100000, .i32⟩ : BufTy).Contents (Elt F)) : (⟨S512x64, .f32⟩ : BufTy).Contents (Elt F) :=
  broadcastInDim S512x64 ![0, 1] bcast_S512x1_S512x64_0_1 (val_main_v181 (F := F) x2)
abbrev idx_main_v182 (i : S512x64.Idx) : S512x1.Idx := fun a => match a with
  | ⟨0, _⟩ => ⟨(i 0).val, (i 0).isLt⟩
  | ⟨1, _⟩ => ⟨0, Nat.one_pos⟩
theorem val_main_v182_apply (x2 : (⟨S100000, .i32⟩ : BufTy).Contents (Elt F)) (i : S512x64.Idx) :
    val_main_v182 (F := F) x2 i = val_main_v181 (F := F) x2 (idx_main_v182 i) :=
  broadcastInDim_apply _ _ _ i _ fun a => match a with
    | ⟨0, _⟩ => rfl
    | ⟨1, _⟩ => rfl
def val_main_v183 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) : (⟨S512x64, .f32⟩ : BufTy).Contents (Elt F) :=
  Host.divf (val_main_v175 (F := F) x0 x1 x2 x3 x4 x5 x6 x7 x8 x9 x10 x11) (val_main_v182 (F := F) x2)
theorem val_main_v183_apply (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (i : S512x64.Idx) :
    val_main_v183 (F := F) x0 x1 x2 x3 x4 x5 x6 x7 x8 x9 x10 x11 i = FloatOps.hostDivf (val_main_v175 (F := F) x0 x1 x2 x3 x4 x5 x6 x7 x8 x9 x10 x11 i) (val_main_v182 (F := F) x2 i) := rfl
def val_main_v184 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) : (⟨S512x128, .f32⟩ : BufTy).Contents (Elt F) :=
  Host.dotGeneral dot_S512x64_S64x128_S512x128_1_0_0_1_n_n none (val_main_v183 (F := F) x0 x1 x2 x3 x4 x5 x6 x7 x8 x9 x10 x11) (x12)
abbrev lidx_main_v184 (i : S512x128.Idx) (k : Fin 64) : S512x64.Idx := fun a => match a with
  | ⟨0, _⟩ => ⟨(i 0).val, (i 0).isLt⟩
  | ⟨1, _⟩ => ⟨k.val, k.isLt⟩
abbrev ridx_main_v184 (i : S512x128.Idx) (k : Fin 64) : S64x128.Idx := fun a => match a with
  | ⟨0, _⟩ => ⟨k.val, k.isLt⟩
  | ⟨1, _⟩ => ⟨(i 1).val, (i 1).isLt⟩
theorem val_main_v184_apply (x0 : (⟨S100000x4, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (x12 : (⟨S64x128, .f32⟩ : BufTy).Contents (Elt Ideal)) (i : S512x128.Idx) :
    val_main_v184 (F := Ideal) x0 x1 x2 x3 x4 x5 x6 x7 x8 x9 x10 x11 x12 i = ∑ k : Fin 64, (val_main_v183 (F := Ideal) x0 x1 x2 x3 x4 x5 x6 x7 x8 x9 x10 x11) (lidx_main_v184 i k) * x12 (ridx_main_v184 i k) :=
  dot_plain_apply _ _ i _ _ (fun _ => ⟨rfl, rfl⟩) fun _ => ⟨rfl, rfl⟩
def val_main_v185 (x13 : (⟨S128, .f32⟩ : BufTy).Contents (Elt F)) : (⟨S1x128, .f32⟩ : BufTy).Contents (Elt F) :=
  broadcastInDim S1x128 ![1] bcast_S128_S1x128_1 (x13)
abbrev idx_main_v185 (i : S1x128.Idx) : S128.Idx := fun a => match a with
  | ⟨0, _⟩ => ⟨(i 1).val, (i 1).isLt⟩
theorem val_main_v185_apply (x13 : (⟨S128, .f32⟩ : BufTy).Contents (Elt F)) (i : S1x128.Idx) :
    val_main_v185 (F := F) x13 i = x13 (idx_main_v185 i) :=
  broadcastInDim_apply _ _ _ i _ fun a => match a with
    | ⟨0, _⟩ => rfl
def val_main_v186 (x13 : (⟨S128, .f32⟩ : BufTy).Contents (Elt F)) : (⟨S512x128, .f32⟩ : BufTy).Contents (Elt F) :=
  broadcastInDim S512x128 ![0, 1] bcast_S1x128_S512x128_0_1 (val_main_v185 (F := F) x13)
abbrev idx_main_v186 (i : S512x128.Idx) : S1x128.Idx := fun a => match a with
  | ⟨0, _⟩ => ⟨0, Nat.one_pos⟩
  | ⟨1, _⟩ => ⟨(i 1).val, (i 1).isLt⟩
theorem val_main_v186_apply (x13 : (⟨S128, .f32⟩ : BufTy).Contents (Elt F)) (i : S512x128.Idx) :
    val_main_v186 (F := F) x13 i = val_main_v185 (F := F) x13 (idx_main_v186 i) :=
  broadcastInDim_apply _ _ _ i _ fun a => match a with
    | ⟨0, _⟩ => rfl
    | ⟨1, _⟩ => rfl
def val_main_v187 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) : (⟨S512x128, .f32⟩ : BufTy).Contents (Elt F) :=
  addf (val_main_v184 (F := F) x0 x1 x2 x3 x4 x5 x6 x7 x8 x9 x10 x11 x12) (val_main_v186 (F := F) x13)
theorem val_main_v187_apply (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) (i : S512x128.Idx) :
    val_main_v187 (F := F) x0 x1 x2 x3 x4 x5 x6 x7 x8 x9 x10 x11 x12 x13 i = FloatOps.addf (val_main_v184 (F := F) x0 x1 x2 x3 x4 x5 x6 x7 x8 x9 x10 x11 x12 i) (val_main_v186 (F := F) x13 i) := rfl
def val_main_call5_cst : (⟨S_, .f32⟩ : BufTy).Contents (Elt F) :=
  constant S_ .f32 0x00000000#32
theorem val_main_call5_cst_apply (i : S_.Idx) :
    val_main_call5_cst (F := F) i = FloatOps.ofBits .f32 0x00000000#32 := rfl
def val_main_call5_v0 : (⟨S512x128, .f32⟩ : BufTy).Contents (Elt F) :=
  broadcastInDim S512x128 ![] bcast_S_S512x128 (val_main_call5_cst (F := F))
abbrev idx_main_call5_v0 (i : S512x128.Idx) : S_.Idx := fun a => a.elim0
theorem val_main_call5_v0_apply (i : S512x128.Idx) :
    val_main_call5_v0 (F := F) i = val_main_call5_cst (F := F) (idx_main_call5_v0 i) :=
  broadcastInDim_apply _ _ _ i _ fun a => a.elim0
def val_main_v188 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) : (⟨S512x128, .f32⟩ : BufTy).Contents (Elt F) :=
  maximumf (val_main_v187 (F := F) x0 x1 x2 x3 x4 x5 x6 x7 x8 x9 x10 x11 x12 x13) (val_main_call5_v0 (F := F))
theorem val_main_v188_apply (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) (i : S512x128.Idx) :
    val_main_v188 (F := F) x0 x1 x2 x3 x4 x5 x6 x7 x8 x9 x10 x11 x12 x13 i = FloatOps.maximumf (val_main_v187 (F := F) x0 x1 x2 x3 x4 x5 x6 x7 x8 x9 x10 x11 x12 x13 i) (val_main_call5_v0 (F := F) i) := rfl
def val_main_v189 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) (x14 : (⟨S128x3, .f32⟩ : BufTy).Contents (Elt F)) : (⟨S512x3, .f32⟩ : BufTy).Contents (Elt F) :=
  Host.dotGeneral dot_S512x128_S128x3_S512x3_1_0_0_1_n_n none (val_main_v188 (F := F) x0 x1 x2 x3 x4 x5 x6 x7 x8 x9 x10 x11 x12 x13) (x14)
abbrev lidx_main_v189 (i : S512x3.Idx) (k : Fin 128) : S512x128.Idx := fun a => match a with
  | ⟨0, _⟩ => ⟨(i 0).val, (i 0).isLt⟩
  | ⟨1, _⟩ => ⟨k.val, k.isLt⟩
abbrev ridx_main_v189 (i : S512x3.Idx) (k : Fin 128) : S128x3.Idx := fun a => match a with
  | ⟨0, _⟩ => ⟨k.val, k.isLt⟩
  | ⟨1, _⟩ => ⟨(i 1).val, (i 1).isLt⟩
theorem val_main_v189_apply (x0 : (⟨S100000x4, .f32⟩ : BufTy).Contents (Elt Ideal)) (x1 : (⟨S2x1000000, .i32⟩ : BufTy).Contents (Elt Ideal)) (x2 : (⟨S100000, .i32⟩ : BufTy).Contents (Elt Ideal)) (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal)) (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal)) (x12 : (⟨S64x128, .f32⟩ : BufTy).Contents (Elt Ideal)) (x13 : (⟨S128, .f32⟩ : BufTy).Contents (Elt Ideal)) (x14 : (⟨S128x3, .f32⟩ : BufTy).Contents (Elt Ideal)) (i : S512x3.Idx) :
    val_main_v189 (F := Ideal) x0 x1 x2 x3 x4 x5 x6 x7 x8 x9 x10 x11 x12 x13 x14 i = ∑ k : Fin 128, (val_main_v188 (F := Ideal) x0 x1 x2 x3 x4 x5 x6 x7 x8 x9 x10 x11 x12 x13) (lidx_main_v189 i k) * x14 (ridx_main_v189 i k) :=
  dot_plain_apply _ _ i _ _ (fun _ => ⟨rfl, rfl⟩) fun _ => ⟨rfl, rfl⟩
def val_main_v190 (x15 : (⟨S3, .f32⟩ : BufTy).Contents (Elt F)) : (⟨S1x3, .f32⟩ : BufTy).Contents (Elt F) :=
  broadcastInDim S1x3 ![1] bcast_S3_S1x3_1 (x15)
abbrev idx_main_v190 (i : S1x3.Idx) : S3.Idx := fun a => match a with
  | ⟨0, _⟩ => ⟨(i 1).val, (i 1).isLt⟩
theorem val_main_v190_apply (x15 : (⟨S3, .f32⟩ : BufTy).Contents (Elt F)) (i : S1x3.Idx) :
    val_main_v190 (F := F) x15 i = x15 (idx_main_v190 i) :=
  broadcastInDim_apply _ _ _ i _ fun a => match a with
    | ⟨0, _⟩ => rfl
def val_main_v191 (x15 : (⟨S3, .f32⟩ : BufTy).Contents (Elt F)) : (⟨S512x3, .f32⟩ : BufTy).Contents (Elt F) :=
  broadcastInDim S512x3 ![0, 1] bcast_S1x3_S512x3_0_1 (val_main_v190 (F := F) x15)
abbrev idx_main_v191 (i : S512x3.Idx) : S1x3.Idx := fun a => match a with
  | ⟨0, _⟩ => ⟨0, Nat.one_pos⟩
  | ⟨1, _⟩ => ⟨(i 1).val, (i 1).isLt⟩
theorem val_main_v191_apply (x15 : (⟨S3, .f32⟩ : BufTy).Contents (Elt F)) (i : S512x3.Idx) :
    val_main_v191 (F := F) x15 i = val_main_v190 (F := F) x15 (idx_main_v191 i) :=
  broadcastInDim_apply _ _ _ i _ fun a => match a with
    | ⟨0, _⟩ => rfl
    | ⟨1, _⟩ => rfl
def val_main_v192 (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) (x14 : (⟨S128x3, .f32⟩ : BufTy).Contents (Elt F)) (x15 : (⟨S3, .f32⟩ : BufTy).Contents (Elt F)) : (⟨S512x3, .f32⟩ : BufTy).Contents (Elt F) :=
  addf (val_main_v189 (F := F) x0 x1 x2 x3 x4 x5 x6 x7 x8 x9 x10 x11 x12 x13 x14) (val_main_v191 (F := F) x15)
theorem val_main_v192_apply (x0 : (⟨S100000x4, .f32⟩ : BufTy).Contents (Elt F)) (x1 : (⟨S2x1000000, .i32⟩ : BufTy).Contents (Elt F)) (x2 : (⟨S100000, .i32⟩ : BufTy).Contents (Elt F)) (x3 : (⟨S1000000, .f32⟩ : BufTy).Contents (Elt F)) (x4 : (⟨S1000000x1, .f32⟩ : BufTy).Contents (Elt F)) (x5 : (⟨S4x64, .f32⟩ : BufTy).Contents (Elt F)) (x6 : (⟨S64, .f32⟩ : BufTy).Contents (Elt F)) (x7 : (⟨S3x64x64, .f32⟩ : BufTy).Contents (Elt F)) (x8 : (⟨S3x64, .f32⟩ : BufTy).Contents (Elt F)) (x9 x10 : (⟨S3x64x64, .f32⟩ : BufTy).Contents (Elt F)) (x11 : (⟨S3x64, .f32⟩ : BufTy).Contents (Elt F)) (x12 : (⟨S64x128, .f32⟩ : BufTy).Contents (Elt F)) (x13 : (⟨S128, .f32⟩ : BufTy).Contents (Elt F)) (x14 : (⟨S128x3, .f32⟩ : BufTy).Contents (Elt F)) (x15 : (⟨S3, .f32⟩ : BufTy).Contents (Elt F)) (i : S512x3.Idx) :
    val_main_v192 (F := F) x0 x1 x2 x3 x4 x5 x6 x7 x8 x9 x10 x11 x12 x13 x14 x15 i = FloatOps.addf (val_main_v189 (F := F) x0 x1 x2 x3 x4 x5 x6 x7 x8 x9 x10 x11 x12 x13 x14 i) (val_main_v191 (F := F) x15 i) := rfl

end Cert.ReferenceIdeal.ReadP

end
-- ==== Proof.Val.RefRunS.lean ====
import proofs.«408151_j68813966016636_2_alg».proof.Proof.Val.RefRead

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

structure St1 (V0 W : Valuation τ sig (Elt F)) : Prop where
  h_arg0 : W (no_index (Proc.devRef .tc main_arg0)) = V0 (Proc.devRef .tc main_arg0)
  h_arg1 : W (no_index (Proc.devRef .tc main_arg1)) = V0 (Proc.devRef .tc main_arg1)
  h_arg2 : W (no_index (Proc.devRef .tc main_arg2)) = V0 (Proc.devRef .tc main_arg2)
  h_arg3 : W (no_index (Proc.devRef .tc main_arg3)) = V0 (Proc.devRef .tc main_arg3)
  h_arg4 : W (no_index (Proc.devRef .tc main_arg4)) = V0 (Proc.devRef .tc main_arg4)
  h_arg5 : W (no_index (Proc.devRef .tc main_arg5)) = V0 (Proc.devRef .tc main_arg5)
  h_arg6 : W (no_index (Proc.devRef .tc main_arg6)) = V0 (Proc.devRef .tc main_arg6)
  h_arg7 : W (no_index (Proc.devRef .tc main_arg7)) = V0 (Proc.devRef .tc main_arg7)
  h_arg8 : W (no_index (Proc.devRef .tc main_arg8)) = V0 (Proc.devRef .tc main_arg8)
  h_arg9 : W (no_index (Proc.devRef .tc main_arg9)) = V0 (Proc.devRef .tc main_arg9)
  h_arg10 : W (no_index (Proc.devRef .tc main_arg10)) = V0 (Proc.devRef .tc main_arg10)
  h_arg11 : W (no_index (Proc.devRef .tc main_arg11)) = V0 (Proc.devRef .tc main_arg11)
  h_arg12 : W (no_index (Proc.devRef .tc main_arg12)) = V0 (Proc.devRef .tc main_arg12)
  h_arg13 : W (no_index (Proc.devRef .tc main_arg13)) = V0 (Proc.devRef .tc main_arg13)
  h_arg14 : W (no_index (Proc.devRef .tc main_arg14)) = V0 (Proc.devRef .tc main_arg14)
  h_arg15 : W (no_index (Proc.devRef .tc main_arg15)) = V0 (Proc.devRef .tc main_arg15)
  h_v1 : W (no_index (Proc.devRef .tc main_v1)) = ReadP.val_main_v1 (F := F) (V0 (Proc.devRef .tc main_arg1))
  h_v3 : W (no_index (Proc.devRef .tc main_v3)) = ReadP.val_main_v3 (F := F) (V0 (Proc.devRef .tc main_arg1))
  h_v5 : W (no_index (Proc.devRef .tc main_v5)) = ReadP.val_main_v5 (F := F) (V0 (Proc.devRef .tc main_arg3)) (V0 (Proc.devRef .tc main_arg4))
  h_v50 : W (no_index (Proc.devRef .tc main_v50)) = ReadP.val_main_v50 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v53 : W (no_index (Proc.devRef .tc main_v53)) = ReadP.val_main_v53 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v54 : W (no_index (Proc.devRef .tc main_v54)) = ReadP.val_main_v54 (F := F) (V0 (Proc.devRef .tc main_arg8))

structure St2 (V0 W : Valuation τ sig (Elt F)) : Prop where
  h_arg0 : W (no_index (Proc.devRef .tc main_arg0)) = V0 (Proc.devRef .tc main_arg0)
  h_arg1 : W (no_index (Proc.devRef .tc main_arg1)) = V0 (Proc.devRef .tc main_arg1)
  h_arg2 : W (no_index (Proc.devRef .tc main_arg2)) = V0 (Proc.devRef .tc main_arg2)
  h_arg3 : W (no_index (Proc.devRef .tc main_arg3)) = V0 (Proc.devRef .tc main_arg3)
  h_arg4 : W (no_index (Proc.devRef .tc main_arg4)) = V0 (Proc.devRef .tc main_arg4)
  h_arg5 : W (no_index (Proc.devRef .tc main_arg5)) = V0 (Proc.devRef .tc main_arg5)
  h_arg6 : W (no_index (Proc.devRef .tc main_arg6)) = V0 (Proc.devRef .tc main_arg6)
  h_arg7 : W (no_index (Proc.devRef .tc main_arg7)) = V0 (Proc.devRef .tc main_arg7)
  h_arg8 : W (no_index (Proc.devRef .tc main_arg8)) = V0 (Proc.devRef .tc main_arg8)
  h_arg9 : W (no_index (Proc.devRef .tc main_arg9)) = V0 (Proc.devRef .tc main_arg9)
  h_arg10 : W (no_index (Proc.devRef .tc main_arg10)) = V0 (Proc.devRef .tc main_arg10)
  h_arg11 : W (no_index (Proc.devRef .tc main_arg11)) = V0 (Proc.devRef .tc main_arg11)
  h_arg12 : W (no_index (Proc.devRef .tc main_arg12)) = V0 (Proc.devRef .tc main_arg12)
  h_arg13 : W (no_index (Proc.devRef .tc main_arg13)) = V0 (Proc.devRef .tc main_arg13)
  h_arg14 : W (no_index (Proc.devRef .tc main_arg14)) = V0 (Proc.devRef .tc main_arg14)
  h_arg15 : W (no_index (Proc.devRef .tc main_arg15)) = V0 (Proc.devRef .tc main_arg15)
  h_v1 : W (no_index (Proc.devRef .tc main_v1)) = ReadP.val_main_v1 (F := F) (V0 (Proc.devRef .tc main_arg1))
  h_v3 : W (no_index (Proc.devRef .tc main_v3)) = ReadP.val_main_v3 (F := F) (V0 (Proc.devRef .tc main_arg1))
  h_v5 : W (no_index (Proc.devRef .tc main_v5)) = ReadP.val_main_v5 (F := F) (V0 (Proc.devRef .tc main_arg3)) (V0 (Proc.devRef .tc main_arg4))
  h_v91 : W (no_index (Proc.devRef .tc main_v91)) = ReadP.val_main_v91 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v99 : W (no_index (Proc.devRef .tc main_v99)) = ReadP.val_main_v99 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v102 : W (no_index (Proc.devRef .tc main_v102)) = ReadP.val_main_v102 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v107 : W (no_index (Proc.devRef .tc main_v107)) = ReadP.val_main_v107 (F := F) (V0 (Proc.devRef .tc main_arg1))

structure St3 (V0 W : Valuation τ sig (Elt F)) : Prop where
  h_arg0 : W (no_index (Proc.devRef .tc main_arg0)) = V0 (Proc.devRef .tc main_arg0)
  h_arg1 : W (no_index (Proc.devRef .tc main_arg1)) = V0 (Proc.devRef .tc main_arg1)
  h_arg2 : W (no_index (Proc.devRef .tc main_arg2)) = V0 (Proc.devRef .tc main_arg2)
  h_arg3 : W (no_index (Proc.devRef .tc main_arg3)) = V0 (Proc.devRef .tc main_arg3)
  h_arg4 : W (no_index (Proc.devRef .tc main_arg4)) = V0 (Proc.devRef .tc main_arg4)
  h_arg5 : W (no_index (Proc.devRef .tc main_arg5)) = V0 (Proc.devRef .tc main_arg5)
  h_arg6 : W (no_index (Proc.devRef .tc main_arg6)) = V0 (Proc.devRef .tc main_arg6)
  h_arg7 : W (no_index (Proc.devRef .tc main_arg7)) = V0 (Proc.devRef .tc main_arg7)
  h_arg8 : W (no_index (Proc.devRef .tc main_arg8)) = V0 (Proc.devRef .tc main_arg8)
  h_arg9 : W (no_index (Proc.devRef .tc main_arg9)) = V0 (Proc.devRef .tc main_arg9)
  h_arg10 : W (no_index (Proc.devRef .tc main_arg10)) = V0 (Proc.devRef .tc main_arg10)
  h_arg11 : W (no_index (Proc.devRef .tc main_arg11)) = V0 (Proc.devRef .tc main_arg11)
  h_arg12 : W (no_index (Proc.devRef .tc main_arg12)) = V0 (Proc.devRef .tc main_arg12)
  h_arg13 : W (no_index (Proc.devRef .tc main_arg13)) = V0 (Proc.devRef .tc main_arg13)
  h_arg14 : W (no_index (Proc.devRef .tc main_arg14)) = V0 (Proc.devRef .tc main_arg14)
  h_arg15 : W (no_index (Proc.devRef .tc main_arg15)) = V0 (Proc.devRef .tc main_arg15)
  h_v132 : W (no_index (Proc.devRef .tc main_v132)) = ReadP.val_main_v132 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11))
  h_v151 : W (no_index (Proc.devRef .tc main_v151)) = ReadP.val_main_v151 (F := F) (V0 (Proc.devRef .tc main_arg1)) (V0 (Proc.devRef .tc main_arg4))
  h_v154 : W (no_index (Proc.devRef .tc main_v154)) = ReadP.val_main_v154 (F := F) (V0 (Proc.devRef .tc main_arg1)) (V0 (Proc.devRef .tc main_arg2)) (V0 (Proc.devRef .tc main_arg4))
  h_v155 : W (no_index (Proc.devRef .tc main_v155)) = ReadP.val_main_v155 (F := F)

structure St4 (V0 W : Valuation τ sig (Elt F)) : Prop where
  h_arg0 : W (no_index (Proc.devRef .tc main_arg0)) = V0 (Proc.devRef .tc main_arg0)
  h_arg1 : W (no_index (Proc.devRef .tc main_arg1)) = V0 (Proc.devRef .tc main_arg1)
  h_arg2 : W (no_index (Proc.devRef .tc main_arg2)) = V0 (Proc.devRef .tc main_arg2)
  h_arg3 : W (no_index (Proc.devRef .tc main_arg3)) = V0 (Proc.devRef .tc main_arg3)
  h_arg4 : W (no_index (Proc.devRef .tc main_arg4)) = V0 (Proc.devRef .tc main_arg4)
  h_arg5 : W (no_index (Proc.devRef .tc main_arg5)) = V0 (Proc.devRef .tc main_arg5)
  h_arg6 : W (no_index (Proc.devRef .tc main_arg6)) = V0 (Proc.devRef .tc main_arg6)
  h_arg7 : W (no_index (Proc.devRef .tc main_arg7)) = V0 (Proc.devRef .tc main_arg7)
  h_arg8 : W (no_index (Proc.devRef .tc main_arg8)) = V0 (Proc.devRef .tc main_arg8)
  h_arg9 : W (no_index (Proc.devRef .tc main_arg9)) = V0 (Proc.devRef .tc main_arg9)
  h_arg10 : W (no_index (Proc.devRef .tc main_arg10)) = V0 (Proc.devRef .tc main_arg10)
  h_arg11 : W (no_index (Proc.devRef .tc main_arg11)) = V0 (Proc.devRef .tc main_arg11)
  h_arg12 : W (no_index (Proc.devRef .tc main_arg12)) = V0 (Proc.devRef .tc main_arg12)
  h_arg13 : W (no_index (Proc.devRef .tc main_arg13)) = V0 (Proc.devRef .tc main_arg13)
  h_arg14 : W (no_index (Proc.devRef .tc main_arg14)) = V0 (Proc.devRef .tc main_arg14)
  h_arg15 : W (no_index (Proc.devRef .tc main_arg15)) = V0 (Proc.devRef .tc main_arg15)
  h_v192 : W (no_index (Proc.devRef .tc main_v192)) = ReadP.val_main_v192 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

end Cert.ReferenceIdeal.RunHand

end
-- ==== Proof.Val.RefRunC0.lean ====
import proofs.«408151_j68813966016636_2_alg».proof.Proof.Val.RefRunA
import proofs.«408151_j68813966016636_2_alg».proof.Proof.Val.RefRunS

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_v4, main_v5, main_v6, main_v7, main_v8, main_v9, main_v10, main_v11, main_v12, main_v13, main_v14, main_v15, main_v16, main_v17, main_v18, main_v19, main_v20, main_c, main_v21, main_v22, main_c_0, main_v23, main_v24, main_v25, main_v26, main_v27, main_c_1, main_v28, main_v29, main_c_2, main_v30, main_v31, main_v32, main_v33, main_v34, main_v35, main_v36, main_v37, main_cst, main_v38, main_v39, main_v40, main_v41, main_v42, main_v43, main_v44, main_v45, main_v46, main_v47, main_v48, main_v49, main_call0_cst, main_call0_v0, main_v50, main_v51, main_v52, main_v53, main_v54]
-- Each operation writes only its own result buffer, and the list names every one of them.
set_option maxRecDepth 8192 in
theorem ops0_writes : (ops0 : List (HloOp τ sig (Elt F))).Forall fun op => op.writes ⊆ (ops0_W.map (Proc.devRef (τ := τ) .tc)).toFinset := by
  simp only [ops0, List.Forall]
  repeat' apply And.intro
  all_goals exact Finset.singleton_subset_iff.2 (List.mem_toFinset.2 (List.mem_map_of_mem (by decide)))
theorem keep0 (W : Valuation τ sig (Elt F)) (r : Ref sig .tc) (h : r ∉ ops0_W) :
    after ops0 W (Proc.devRef .tc r) = W (Proc.devRef .tc r) :=
  after_of_writes_sub ops0 W ops0_writes h
set_option maxRecDepth 8192 in
theorem ops0_fresh : ∀ op ∈ (ops0 : List (HloOp τ sig (Elt F))), op.fresh = ∅ := by
  intro _ h; (repeat (cases h with | head => rfl | tail _ h => ?_)); exact nomatch h

-- A buffer this run of operations leaves alone keeps its contents; one it writes holds its operations composed, which is the stage function by unfolding.
set_option maxRecDepth 8192 in
set_option maxHeartbeats 4000000 in
theorem step0 (V0 : Valuation τ sig (Elt F)) : St1 V0 (after ops0 V0) where
  h_arg0 := keep0 V0 main_arg0 (by decide)
  h_arg1 := keep0 V0 main_arg1 (by decide)
  h_arg2 := keep0 V0 main_arg2 (by decide)
  h_arg3 := keep0 V0 main_arg3 (by decide)
  h_arg4 := keep0 V0 main_arg4 (by decide)
  h_arg5 := keep0 V0 main_arg5 (by decide)
  h_arg6 := keep0 V0 main_arg6 (by decide)
  h_arg7 := keep0 V0 main_arg7 (by decide)
  h_arg8 := keep0 V0 main_arg8 (by decide)
  h_arg9 := keep0 V0 main_arg9 (by decide)
  h_arg10 := keep0 V0 main_arg10 (by decide)
  h_arg11 := keep0 V0 main_arg11 (by decide)
  h_arg12 := keep0 V0 main_arg12 (by decide)
  h_arg13 := keep0 V0 main_arg13 (by decide)
  h_arg14 := keep0 V0 main_arg14 (by decide)
  h_arg15 := keep0 V0 main_arg15 (by decide)
  h_v1 := by simp only [ops0]; after_results_simp; rfl
  h_v3 := by simp only [ops0]; after_results_simp; rfl
  h_v5 := by simp only [ops0]; after_results_simp; rfl
  h_v50 := by simp only [ops0]; after_results_simp; rfl
  h_v53 := by simp only [ops0]; after_results_simp; rfl
  h_v54 := by simp only [ops0]; after_results_simp; rfl

end Cert.ReferenceIdeal.RunHand

end
-- ==== Proof.Val.RefRunC1.lean ====
import proofs.«408151_j68813966016636_2_alg».proof.Proof.Val.RefRunA
import proofs.«408151_j68813966016636_2_alg».proof.Proof.Val.RefRunS

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops1_W : List (Ref sig .tc) := [main_v55, main_v56, main_v57, main_v58, main_v59, main_v60, main_v61, main_c_3, main_v62, main_v63, main_c_4, main_v64, main_v65, main_v66, main_v67, main_v68, main_c_5, main_v69, main_v70, main_c_6, main_v71, main_v72, main_v73, main_v74, main_v75, main_v76, main_v77, main_v78, main_cst_7, main_v79, main_v80, main_v81, main_v82, main_v83, main_v84, main_v85, main_v86, main_v87, main_v88, main_v89, main_v90, main_call1_cst, main_call1_v0, main_v91, main_v92, main_v93, main_v94, main_v95, main_v96, main_v97, main_v98, main_v99, main_v100, main_v101, main_v102, main_c_8, main_v103, main_v104, main_c_9, main_v105, main_v106, main_v107]
-- Each operation writes only its own result buffer, and the list names every one of them.
set_option maxRecDepth 8192 in
theorem ops1_writes : (ops1 : List (HloOp τ sig (Elt F))).Forall fun op => op.writes ⊆ (ops1_W.map (Proc.devRef (τ := τ) .tc)).toFinset := by
  simp only [ops1, List.Forall]
  repeat' apply And.intro
  all_goals exact Finset.singleton_subset_iff.2 (List.mem_toFinset.2 (List.mem_map_of_mem (by decide)))
theorem keep1 (W : Valuation τ sig (Elt F)) (r : Ref sig .tc) (h : r ∉ ops1_W) :
    after ops1 W (Proc.devRef .tc r) = W (Proc.devRef .tc r) :=
  after_of_writes_sub ops1 W ops1_writes h
set_option maxRecDepth 8192 in
theorem ops1_fresh : ∀ op ∈ (ops1 : List (HloOp τ sig (Elt F))), op.fresh = ∅ := by
  intro _ h; (repeat (cases h with | head => rfl | tail _ h => ?_)); exact nomatch h

-- A buffer this run of operations leaves alone keeps its contents; one it writes holds its operations composed, which is the stage function by unfolding.
set_option maxRecDepth 8192 in
set_option maxHeartbeats 4000000 in
theorem step1 (V0 W : Valuation τ sig (Elt F)) (h : St1 V0 W) : St2 V0 (after ops1 W) where
  h_arg0 := (keep1 W main_arg0 (by decide)).trans h.h_arg0
  h_arg1 := (keep1 W main_arg1 (by decide)).trans h.h_arg1
  h_arg2 := (keep1 W main_arg2 (by decide)).trans h.h_arg2
  h_arg3 := (keep1 W main_arg3 (by decide)).trans h.h_arg3
  h_arg4 := (keep1 W main_arg4 (by decide)).trans h.h_arg4
  h_arg5 := (keep1 W main_arg5 (by decide)).trans h.h_arg5
  h_arg6 := (keep1 W main_arg6 (by decide)).trans h.h_arg6
  h_arg7 := (keep1 W main_arg7 (by decide)).trans h.h_arg7
  h_arg8 := (keep1 W main_arg8 (by decide)).trans h.h_arg8
  h_arg9 := (keep1 W main_arg9 (by decide)).trans h.h_arg9
  h_arg10 := (keep1 W main_arg10 (by decide)).trans h.h_arg10
  h_arg11 := (keep1 W main_arg11 (by decide)).trans h.h_arg11
  h_arg12 := (keep1 W main_arg12 (by decide)).trans h.h_arg12
  h_arg13 := (keep1 W main_arg13 (by decide)).trans h.h_arg13
  h_arg14 := (keep1 W main_arg14 (by decide)).trans h.h_arg14
  h_arg15 := (keep1 W main_arg15 (by decide)).trans h.h_arg15
  h_v1 := (keep1 W main_v1 (by decide)).trans h.h_v1
  h_v3 := (keep1 W main_v3 (by decide)).trans h.h_v3
  h_v5 := (keep1 W main_v5 (by decide)).trans h.h_v5
  h_v91 := by simp only [ops1]; after_results_simp; simp only [h.h_arg11, h.h_arg10, h.h_v50, h.h_v3, h.h_arg9, h.h_v1, h.h_v54, h.h_v53, h.h_v5]; rfl
  h_v99 := by simp only [ops1]; after_results_simp; simp only [h.h_arg8, h.h_arg7, h.h_arg11, h.h_arg10, h.h_v50, h.h_v3, h.h_arg9, h.h_v1, h.h_v54, h.h_v53, h.h_v5]; rfl
  h_v102 := by simp only [ops1]; after_results_simp; simp only [h.h_arg9, h.h_arg11, h.h_arg10, h.h_v50, h.h_v3, h.h_v1, h.h_v54, h.h_v53, h.h_v5]; rfl
  h_v107 := by simp only [ops1]; after_results_simp; simp only [h.h_v1]; rfl

end Cert.ReferenceIdeal.RunHand

end
-- ==== Proof.Val.RefRunC2.lean ====
import proofs.«408151_j68813966016636_2_alg».proof.Proof.Val.RefRunA
import proofs.«408151_j68813966016636_2_alg».proof.Proof.Val.RefRunS

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops2_W : List (Ref sig .tc) := [main_v108, main_v109, main_c_10, main_v110, main_v111, main_c_11, main_v112, main_v113, main_v114, main_v115, main_v116, main_v117, main_v118, main_v119, main_cst_12, main_v120, main_v121, main_v122, main_v123, main_v124, main_v125, main_v126, main_v127, main_v128, main_v129, main_v130, main_v131, main_call2_cst, main_call2_v0, main_v132, main_cst_13, main_v133, main_cst_14, main_v134, main_v135, main_v136, main_cst_15, main_v137, main_v138, main_v139, main_v140, main_cst_16, main_v141, main_v142, main_v143, main_cst_17, main_v144, main_v145, main_v146, main_v147, main_cst_18, main_v148, main_v149, main_cst_19, main_call3_v0, main_call3_v1, main_v150, main_v151, main_cst_20, main_v152, main_v153, main_v154, main_cst_21, main_v155]
-- Each operation writes only its own result buffer, and the list names every one of them.
set_option maxRecDepth 8192 in
theorem ops2_writes : (ops2 : List (HloOp τ sig (Elt F))).Forall fun op => op.writes ⊆ (ops2_W.map (Proc.devRef (τ := τ) .tc)).toFinset := by
  simp only [ops2, List.Forall]
  repeat' apply And.intro
  all_goals exact Finset.singleton_subset_iff.2 (List.mem_toFinset.2 (List.mem_map_of_mem (by decide)))
theorem keep2 (W : Valuation τ sig (Elt F)) (r : Ref sig .tc) (h : r ∉ ops2_W) :
    after ops2 W (Proc.devRef .tc r) = W (Proc.devRef .tc r) :=
  after_of_writes_sub ops2 W ops2_writes h
set_option maxRecDepth 8192 in
theorem ops2_fresh : ∀ op ∈ (ops2 : List (HloOp τ sig (Elt F))), op.fresh = ∅ := by
  intro _ h; (repeat (cases h with | head => rfl | tail _ h => ?_)); exact nomatch h

-- A buffer this run of operations leaves alone keeps its contents; one it writes holds its operations composed, which is the stage function by unfolding.
set_option maxRecDepth 8192 in
set_option maxHeartbeats 4000000 in
theorem step2 (V0 W : Valuation τ sig (Elt F)) (h : St2 V0 W) : St3 V0 (after ops2 W) where
  h_arg0 := (keep2 W main_arg0 (by decide)).trans h.h_arg0
  h_arg1 := (keep2 W main_arg1 (by decide)).trans h.h_arg1
  h_arg2 := (keep2 W main_arg2 (by decide)).trans h.h_arg2
  h_arg3 := (keep2 W main_arg3 (by decide)).trans h.h_arg3
  h_arg4 := (keep2 W main_arg4 (by decide)).trans h.h_arg4
  h_arg5 := (keep2 W main_arg5 (by decide)).trans h.h_arg5
  h_arg6 := (keep2 W main_arg6 (by decide)).trans h.h_arg6
  h_arg7 := (keep2 W main_arg7 (by decide)).trans h.h_arg7
  h_arg8 := (keep2 W main_arg8 (by decide)).trans h.h_arg8
  h_arg9 := (keep2 W main_arg9 (by decide)).trans h.h_arg9
  h_arg10 := (keep2 W main_arg10 (by decide)).trans h.h_arg10
  h_arg11 := (keep2 W main_arg11 (by decide)).trans h.h_arg11
  h_arg12 := (keep2 W main_arg12 (by decide)).trans h.h_arg12
  h_arg13 := (keep2 W main_arg13 (by decide)).trans h.h_arg13
  h_arg14 := (keep2 W main_arg14 (by decide)).trans h.h_arg14
  h_arg15 := (keep2 W main_arg15 (by decide)).trans h.h_arg15
  h_v132 := by simp only [ops2]; after_results_simp; simp only [h.h_arg11, h.h_arg10, h.h_v91, h.h_v3, h.h_v102, h.h_v107, h.h_v99, h.h_v5]; rfl
  h_v151 := by simp only [ops2]; after_results_simp; simp only [h.h_v1, h.h_v3, h.h_arg4]; rfl
  h_v154 := by simp only [ops2]; after_results_simp; simp only [h.h_v1, h.h_v3, h.h_arg4, h.h_arg2]; rfl
  h_v155 := by simp only [ops2]; after_results_simp; rfl

end Cert.ReferenceIdeal.RunHand

end
-- ==== Proof.Val.RefRunC3.lean ====
import proofs.«408151_j68813966016636_2_alg».proof.Proof.Val.RefRunA
import proofs.«408151_j68813966016636_2_alg».proof.Proof.Val.RefRunS

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops3_W : List (Ref sig .tc) := [main_v156, main_cst_22, main_call4_v0, main_call4_v1, main_v157, main_cst_23, main_v158, main_cst_24, main_v159, main_v160, main_v161, main_v162, main_c_25, main_v163, main_v164, main_c_26, main_v165, main_v166, main_v167, main_v168, main_v169, main_v170, main_v171, main_v172, main_cst_27, main_v173, main_v174, main_v175, main_cst_28, main_v176, main_cst_29, main_v177, main_v178, main_v179, main_cst_30, main_v180, main_v181, main_v182, main_v183, main_v184, main_v185, main_v186, main_v187, main_call5_cst, main_call5_v0, main_v188, main_v189, main_v190, main_v191, main_v192]
-- Each operation writes only its own result buffer, and the list names every one of them.
set_option maxRecDepth 8192 in
theorem ops3_writes : (ops3 : List (HloOp τ sig (Elt F))).Forall fun op => op.writes ⊆ (ops3_W.map (Proc.devRef (τ := τ) .tc)).toFinset := by
  simp only [ops3, List.Forall]
  repeat' apply And.intro
  all_goals exact Finset.singleton_subset_iff.2 (List.mem_toFinset.2 (List.mem_map_of_mem (by decide)))
theorem keep3 (W : Valuation τ sig (Elt F)) (r : Ref sig .tc) (h : r ∉ ops3_W) :
    after ops3 W (Proc.devRef .tc r) = W (Proc.devRef .tc r) :=
  after_of_writes_sub ops3 W ops3_writes h
set_option maxRecDepth 8192 in
theorem ops3_fresh : ∀ op ∈ (ops3 : List (HloOp τ sig (Elt F))), op.fresh = ∅ := by
  intro _ h; (repeat (cases h with | head => rfl | tail _ h => ?_)); exact nomatch h

-- A buffer this run of operations leaves alone keeps its contents; one it writes holds its operations composed, which is the stage function by unfolding.
set_option maxRecDepth 8192 in
set_option maxHeartbeats 4000000 in
theorem step3 (V0 W : Valuation τ sig (Elt F)) (h : St3 V0 W) : St4 V0 (after ops3 W) where
  h_arg0 := (keep3 W main_arg0 (by decide)).trans h.h_arg0
  h_arg1 := (keep3 W main_arg1 (by decide)).trans h.h_arg1
  h_arg2 := (keep3 W main_arg2 (by decide)).trans h.h_arg2
  h_arg3 := (keep3 W main_arg3 (by decide)).trans h.h_arg3
  h_arg4 := (keep3 W main_arg4 (by decide)).trans h.h_arg4
  h_arg5 := (keep3 W main_arg5 (by decide)).trans h.h_arg5
  h_arg6 := (keep3 W main_arg6 (by decide)).trans h.h_arg6
  h_arg7 := (keep3 W main_arg7 (by decide)).trans h.h_arg7
  h_arg8 := (keep3 W main_arg8 (by decide)).trans h.h_arg8
  h_arg9 := (keep3 W main_arg9 (by decide)).trans h.h_arg9
  h_arg10 := (keep3 W main_arg10 (by decide)).trans h.h_arg10
  h_arg11 := (keep3 W main_arg11 (by decide)).trans h.h_arg11
  h_arg12 := (keep3 W main_arg12 (by decide)).trans h.h_arg12
  h_arg13 := (keep3 W main_arg13 (by decide)).trans h.h_arg13
  h_arg14 := (keep3 W main_arg14 (by decide)).trans h.h_arg14
  h_arg15 := (keep3 W main_arg15 (by decide)).trans h.h_arg15
  h_v192 := by simp only [ops3]; after_results_simp; simp only [h.h_arg15, h.h_arg14, h.h_arg13, h.h_arg12, h.h_arg2, h.h_v154, h.h_v155, h.h_v151, h.h_v132]; rfl

end Cert.ReferenceIdeal.RunHand

end
-- ==== Proof.Val.RefRunHand.lean ====
import proofs.«408151_j68813966016636_2_alg».proof.Proof.Val.RefRunC0
import proofs.«408151_j68813966016636_2_alg».proof.Proof.Val.RefRunC1
import proofs.«408151_j68813966016636_2_alg».proof.Proof.Val.RefRunC2
import proofs.«408151_j68813966016636_2_alg».proof.Proof.Val.RefRunC3
import Idealize.ShloMosaic.Lib.Pipeline.Frame

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ (ops1 ++ (ops2 ++ ops3))

theorem main_eq (c : Dev nD) : main (F := F) c = seq ops := by
  simp only [ops, seq_append, ← main_part0_eq c, ← main_part1_eq c, ← main_part2_eq c, ← main_part3_eq c]
  rfl

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

theorem ops_fresh : ∀ op ∈ (ops : List (HloOp τ sig (Elt F))), op.fresh = ∅ := fun op h => by
  simp only [ops, List.mem_append] at h
  rcases h with h | h | h | h
  exacts [ops0_fresh op h, ops1_fresh op h, ops2_fresh op h, ops3_fresh op h]

theorem after_ops (V0 : Valuation τ sig (Elt F)) : after ops V0 = after ops3 (after ops2 (after ops1 (after ops0 V0))) := by
  simp only [ops, after_append]

theorem st4 (V0 : Valuation τ sig (Elt F)) : St4 V0 (after ops V0) := by
  rw [after_ops]; exact step3 V0 _ (step2 V0 _ (step1 V0 _ (step0 V0)))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = ReadP.val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      have s := st4 (F := F) (launchContents m c)
      ⟨(h c main_v192).trans s.h_v192,
       (h c main_arg0).trans s.h_arg0,
       (h c main_arg1).trans s.h_arg1,
       (h c main_arg2).trans s.h_arg2,
       (h c main_arg3).trans s.h_arg3,
       (h c main_arg4).trans s.h_arg4,
       (h c main_arg5).trans s.h_arg5,
       (h c main_arg6).trans s.h_arg6,
       (h c main_arg7).trans s.h_arg7,
       (h c main_arg8).trans s.h_arg8,
       (h c main_arg9).trans s.h_arg9,
       (h c main_arg10).trans s.h_arg10,
       (h c main_arg11).trans s.h_arg11,
       (h c main_arg12).trans s.h_arg12,
       (h c main_arg13).trans s.h_arg13,
       (h c main_arg14).trans s.h_arg14,
       (h c main_arg15).trans s.h_arg15⟩)
    (run_seq scopedRefs_eq scopedSems_eq defs main (fun _ => ops) main_eq (fun _ => ops_sub) m ρ (fun _ => ops_fresh))

end Cert.ReferenceIdeal.RunHand

end
-- ==== Proof.Val.Spec.lean ====
import Idealize.ShloMosaic.PureOps.Ideal
import Idealize.ShloMosaic.Lib.ValueIdx

noncomputable section

open scoped BigOperators

namespace Cert.Spec

open Idealize.ShloMosaic Idealize.ShloMosaic.ValueIdx

abbrev M2 (a b : ℕ) : Type := (⟨2, ![a, b]⟩ : Shape).Idx → EReal

def of2 {a b : ℕ} (f : Fin a → Fin b → EReal) : M2 a b := fun i => f (i 0) (i 1)

theorem of2_ix2 {a b : ℕ} (f : Fin a → Fin b → EReal) (p : Fin a) (q : Fin b) : of2 f (ix2 p q) = f p q := rfl

def dot {n k h : ℕ} (x : M2 n k) (w : Fin k → Fin h → EReal) (r : Fin n) (c : Fin h) : EReal :=
  ∑ j : Fin k, x (ix2 r j) * w j c

def lin {n k h : ℕ} (x : M2 n k) (w : Fin k → Fin h → EReal) (b : Fin h → EReal) : M2 n h :=
  of2 fun r c => dot x w r c + b c

def linNB {n k h : ℕ} (x : M2 n k) (w : Fin k → Fin h → EReal) : M2 n h :=
  of2 fun r c => dot x w r c

def linRelu {n k h : ℕ} (x : M2 n k) (w : Fin k → Fin h → EReal) (b : Fin h → EReal) : M2 n h :=
  of2 fun r c => max (dot x w r c + b c) 0

def linRes {n k h : ℕ} (x : M2 n k) (w : Fin k → Fin h → EReal) (b : Fin h → EReal) (res : M2 n h) : M2 n h :=
  of2 fun r c => max ((dot x w r c + b c) + res (ix2 r c)) 0

def edge {E h : ℕ} (attr atten : Fin E → EReal) (a b : M2 E h) : M2 E h :=
  of2 fun e c => (attr e * atten e) * (a (ix2 e c) - b (ix2 e c))

def rowOf (N : ℕ) (hN : 0 < N) (w : BitVec 32) : Fin N := ⟨min w.toNat (N - 1), by omega⟩

def rows {N h E : ℕ} (hN : 0 < N) (t : M2 N h) (key : Fin E → BitVec 32) : M2 E h :=
  of2 fun e c => t (ix2 (rowOf N hN (key e)) c)

def segsum {N h E : ℕ} (key : Fin E → BitVec 32) (u : M2 E h) : M2 N h :=
  of2 fun n c => ∑ e ∈ Finset.univ.filter (fun e : Fin E => (key e).toInt = (n.val : Int)), u (ix2 e c)

structure Args where
  x : M2 100000 4
  ei : IVec ⟨2, ![2, 1000000]⟩ 32
  bat : IVec ⟨1, ![100000]⟩ 32
  attr : (⟨1, ![1000000]⟩ : Shape).Idx → EReal
  atten : M2 1000000 1
  we : M2 4 64
  be : (⟨1, ![64]⟩ : Shape).Idx → EReal
  w1 : (⟨3, ![3, 64, 64]⟩ : Shape).Idx → EReal
  b1 : M2 3 64
  w2 : (⟨3, ![3, 64, 64]⟩ : Shape).Idx → EReal
  w3 : (⟨3, ![3, 64, 64]⟩ : Shape).Idx → EReal
  b3 : M2 3 64
  wf1 : M2 64 128
  bf1 : (⟨1, ![128]⟩ : Shape).Idx → EReal
  wf2 : M2 128 3
  bf2 : (⟨1, ![3]⟩ : Shape).Idx → EReal

namespace Args
variable (A : Args)

def src (e : Fin 1000000) : BitVec 32 := A.ei (ix2 (0 : Fin 2) e)
def dst (e : Fin 1000000) : BitVec 32 := A.ei (ix2 (1 : Fin 2) e)
def key (n : Fin 100000) : BitVec 32 := A.bat (ix1 n)
def attrE (e : Fin 1000000) : EReal := A.attr (ix1 e)
def attenE (e : Fin 1000000) : EReal := A.atten (ix2 e (0 : Fin 1))
def w1L (l : Fin 3) (j c : Fin 64) : EReal := A.w1 (ix3 l j c)
def w2L (l : Fin 3) (j c : Fin 64) : EReal := A.w2 (ix3 l j c)
def w3L (l : Fin 3) (j c : Fin 64) : EReal := A.w3 (ix3 l j c)
def b1L (l : Fin 3) (c : Fin 64) : EReal := A.b1 (ix2 l c)
def b3L (l : Fin 3) (c : Fin 64) : EReal := A.b3 (ix2 l c)

def h0 : M2 100000 64 := lin A.x (fun j c => A.we (ix2 j c)) (fun c => A.be (ix1 c))

def aOf (l : Fin 3) (h : M2 100000 64) : M2 100000 64 := lin h (A.w1L l) (A.b1L l)
def bOf (l : Fin 3) (h : M2 100000 64) : M2 100000 64 := linNB h (A.w2L l)
def msgOf (l : Fin 3) (h : M2 100000 64) : M2 1000000 64 :=
  edge A.attrE A.attenE (rows (by decide) (A.aOf l h) A.src) (rows (by decide) (A.bOf l h) A.dst)
def aggOf (l : Fin 3) (h : M2 100000 64) : M2 100000 64 := segsum A.dst (A.msgOf l h)
def layer (l : Fin 3) (h : M2 100000 64) : M2 100000 64 := linRes h (A.w3L l) (A.b3L l) (A.aggOf l h)

def h1 : M2 100000 64 := A.layer 0 A.h0
def h2 : M2 100000 64 := A.layer 1 A.h1
def h3 : M2 100000 64 := A.layer 2 A.h2

def gatt (natt : M2 100000 1) : M2 512 1 := segsum A.key natt
def gnum : M2 512 1 := segsum A.key (of2 fun _ _ => (1 : EReal))

def orOne (x : EReal) : EReal := if x = 0 then 1 else x

def scale (natt : M2 100000 1) (b : Fin 512) : EReal :=
  Ideal.div (A.gnum (ix2 b (0 : Fin 1))) (orOne (A.gatt natt (ix2 b (0 : Fin 1))))

def nscale (natt : M2 100000 1) (n : Fin 100000) : EReal :=
  ∑ b : Fin 512, (if A.key n = BitVec.ofNat 32 b.val then (1 : EReal) else 0) * A.scale natt b

def nx (h : M2 100000 64) (natt : M2 100000 1) : M2 100000 64 :=
  of2 fun n c => h (ix2 n c) * (natt (ix2 n (0 : Fin 1)) * A.nscale natt n)

def gsum (h : M2 100000 64) (natt : M2 100000 1) : M2 512 64 := segsum A.key (A.nx h natt)
def gx (h : M2 100000 64) (natt : M2 100000 1) : M2 512 64 :=
  of2 fun b c => Ideal.div (A.gsum h natt (ix2 b c)) (max (A.gnum (ix2 b (0 : Fin 1))) 1)

def out (h : M2 100000 64) (natt : M2 100000 1) : M2 512 3 :=
  lin (linRelu (A.gx h natt) (fun j c => A.wf1 (ix2 j c)) (fun c => A.bf1 (ix1 c)))
    (fun j c => A.wf2 (ix2 j c)) (fun c => A.bf2 (ix1 c))

def result (natt : M2 100000 1) : M2 512 3 := A.out A.h3 natt

end Args

end Cert.Spec

end
-- ==== Proof.LibScatterGather.lean ====
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.LibSG

open Idealize.ShloMosaic Idealize.ShloMosaic.ValueIdx

abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (h : Fin C) :
    Host.gather (rowGather N C M wf) x idx (ix2 e h)
      = x (ix2 ⟨min (idx (ix2 e (0 : Fin 1))).toInt.toNat (N - 1), by omega⟩ h) := by
  unfold Host.gather
  congr 1
  funext a
  refine Fin.ext ?_
  match a with
  | ⟨0, _⟩ =>
    show (rowGather N C M wf).start (ix2 e h) idx 0 + (rowGather N C M wf).batchCoord (ix2 e h) 0
      + (rowGather N C M wf).offCoord (ix2 e h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e h) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N C M wf).start (ix2 e h) idx 1 + (rowGather N C M wf).batchCoord (ix2 e h) 1
      + (rowGather N C M wf).offCoord (ix2 e h) 1 = h.val
    have h1 : (1 : Fin 2) ∉ (rowGather N C M wf).startIndexMap := fun hm =>
      absurd (congrArg Fin.val (List.mem_singleton.mp hm)) Nat.one_ne_zero
    have h2 : (1 : Fin 2) ∈ (rowGather N C M wf).sKept :=
      (GatherDims.mem_sKept _ _).mpr ⟨fun hm => absurd (congrArg Fin.val (List.mem_singleton.mp hm)) Nat.one_ne_zero,
        List.not_mem_nil⟩
    rw [GatherDims.batchCoord_eq_zero _ _ _ List.not_mem_nil]
    unfold GatherDims.start GatherDims.offCoord
    rw [dif_neg h1, dif_pos h2]
    simp only [Nat.add_zero, Nat.zero_add]
    rfl

theorem gather_row_apply {α : Type} {N C M w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (h : Fin C) :
    Host.gather d x idx (ix2 e h)
      = x (ix2 ⟨min (idx (ix2 e (0 : Fin 1))).toInt.toNat (N - 1), by omega⟩ h) := by
  obtain ⟨od, cd, ob, sb, sm, iv, ss, wf⟩ := d
  simp only at hod hcd hob hsb hsm hiv hss
  subst hod hcd hob hsb hsm hiv hss
  exact rowGather_apply hN wf x idx e h

theorem gather_row_apply_of_lt {α : Type} {N C M : Nat} (hN : N ≤ 2 ^ 31)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ 32) (e : Fin M) (h : Fin C)
    (hlt : (idx (ix2 e (0 : Fin 1))).toNat < N) :
    Host.gather d x idx (ix2 e h) = x (ix2 ⟨(idx (ix2 e (0 : Fin 1))).toNat, hlt⟩ h) := by
  have hpos : 0 < N := by omega
  have key : min (idx (ix2 e (0 : Fin 1))).toInt.toNat (N - 1) = (idx (ix2 e (0 : Fin 1))).toNat := by
    rw [BitVec.toInt_eq_toNat_of_lt (by omega), Int.toNat_natCast]
    omega
  have hf : (⟨min (idx (ix2 e (0 : Fin 1))).toInt.toNat (N - 1), by omega⟩ : Fin N)
      = ⟨(idx (ix2 e (0 : Fin 1))).toNat, hlt⟩ := Fin.ext key
  rw [gather_row_apply hpos d hod hcd hob hsb hsm hiv hss, hf]

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro H
    split at H
    · rename_i hall
      have hf := Option.some.inj H
      intro a
      have ha : (d.start j idx a + (d.window j a : Int)).toNat = (i a).val := by
        rw [← hf]
      have := (hall a).1
      omega
    · exact absurd H (by simp)
  · intro H
    have hall : ∀ a, 0 ≤ d.start j idx a + (d.window j a : Int) ∧ d.start j idx a + (d.window j a : Int) < s.size a :=
      fun a => by rw [H a]; exact ⟨Int.natCast_nonneg _, by exact_mod_cast (i a).isLt⟩
    rw [dif_pos hall]
    congr 1
    funext a
    refine Fin.ext ?_
    show (d.start j idx a + (d.window j a : Int)).toNat = (i a).val
    rw [H a]; exact Int.toNat_natCast _

abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowScatter_lands {N C M w : Nat} (wf : ScatterDims.WF ⟨2, ![N, C]⟩ ⟨2, ![M, 1]⟩ ⟨2, ![M, C]⟩ [1] [0] [0] 1)
    (idx : IVec ⟨2, ![M, 1]⟩ w) (e : Fin M) (c : Fin C) (n : Fin N) (h : Fin C) :
    (rowScatter N C M wf).resultIdx? (ix2 e c) idx = some (ix2 n h)
      ↔ (idx (ix2 e (0 : Fin 1))).toInt = (n.val : Int) ∧ c = h := by
  rw [resultIdx?_eq_some_iff]
  have h10 : (1 : Fin 2) ∉ [(0 : Fin 2)] := fun hm => absurd (congrArg Fin.val (List.mem_singleton.mp hm)) Nat.one_ne_zero
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl)]
    have hsi : (rowScatter N C M wf).siIdx (ix2 e c) ⟨List.idxOf (0 : Fin 2) (rowScatter N C M wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatter N C M wf).start (ix2 e c) idx 1 = 0 := by
    unfold ScatterDims.start
    rw [dif_neg (show (1 : Fin 2) ∉ (rowScatter N C M wf).scatterDimsToOperandDims from h10)]
  have hw0 : (rowScatter N C M wf).window (ix2 e c) 0 = 0 := by
    unfold ScatterDims.window
    rw [dif_neg]
    intro hm
    have := (List.mem_filter.mp hm).2
    simp at this
  have hw1 : (rowScatter N C M wf).window (ix2 e c) 1 = c.val := by
    unfold ScatterDims.window
    have hm : (1 : Fin 2) ∈ (rowScatter N C M wf).sKept := by
      refine List.mem_filter.mpr ⟨List.mem_finRange _, ?_⟩
      simp
    rw [dif_pos hm]
    rfl
  constructor
  · intro H
    have H0 : (rowScatter N C M wf).start (ix2 e c) idx 0 + ((rowScatter N C M wf).window (ix2 e c) 0 : Int)
        = (n.val : Int) := H 0
    have H1 : (rowScatter N C M wf).start (ix2 e c) idx 1 + ((rowScatter N C M wf).window (ix2 e c) 1 : Int)
        = (h.val : Int) := H 1
    rw [hs0, hw0] at H0
    rw [hs1, hw1] at H1
    refine ⟨by simpa using H0, Fin.ext ?_⟩
    have : ((c.val : Int)) = (h.val : Int) := by simpa using H1
    exact_mod_cast this
  · rintro ⟨H0, rfl⟩ a
    match a with
    | ⟨0, _⟩ =>
      show (rowScatter N C M wf).start (ix2 e c) idx 0 + ((rowScatter N C M wf).window (ix2 e c) 0 : Int) = (n.val : Int)
      rw [hs0, hw0, H0]; simp
    | ⟨1, _⟩ =>
      show (rowScatter N C M wf).start (ix2 e c) idx 1 + ((rowScatter N C M wf).window (ix2 e c) 1 : Int) = (c.val : Int)
      rw [hs1, hw1]; simp

theorem rowScatter_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd (rowScatter N C M wf) x idx upd (ix2 n h)
      = x (ix2 n h) + ∑ e ∈ Finset.univ.filter (fun e : Fin M => (idx (ix2 e (0 : Fin 1))).toInt = (n.val : Int)),
          upd (ix2 e h) := by
  unfold Ideal.hostScatterAdd
  congr 1
  rw [Finset.sum_filter, sum_idx2, Finset.sum_filter]
  refine Finset.sum_congr rfl fun e _ => ?_
  simp only [rowScatter_lands]
  by_cases hq : (idx (ix2 e (0 : Fin 1))).toInt = (n.val : Int)
  · simp only [hq, true_and, if_true]
    rw [Finset.sum_ite_eq' Finset.univ h (fun c => upd (ix2 e c)), if_pos (Finset.mem_univ _)]
  · simp only [hq, false_and, if_false]
    exact Finset.sum_const_zero

theorem hostScatterAdd_row_apply {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![M, 1]⟩ w) (upd : (⟨2, ![M, C]⟩ : Shape).Idx → EReal)
    (n : Fin N) (h : Fin C) :
    Ideal.hostScatterAdd d x idx upd (ix2 n h)
      = x (ix2 n h) + ∑ e ∈ Finset.univ.filter (fun e : Fin M => (idx (ix2 e (0 : Fin 1))).toInt = (n.val : Int)),
          upd (ix2 e h) := by
  obtain ⟨uw, iw, sd, iv, wf⟩ := d
  simp only at huw hiw hsd hiv
  subst huw hiw hsd hiv
  exact rowScatter_apply wf x idx upd n h

theorem scatterAdd_row_apply {φ : FTy} {N C M w : Nat}
    (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : FVec Ideal ⟨2, ![N, C]⟩ φ) (idx : IVec ⟨2, ![M, 1]⟩ w) (upd : FVec Ideal ⟨2, ![M, C]⟩ φ)
    (n : Fin N) (h : Fin C) :
    Host.scatterAdd d x idx upd (ix2 n h)
      = x (ix2 n h) + ∑ e ∈ Finset.univ.filter (fun e : Fin M => (idx (ix2 e (0 : Fin 1))).toInt = (n.val : Int)),
          upd (ix2 e h) :=
  hostScatterAdd_row_apply d huw hiw hsd hiv x idx upd n h

theorem toInt_eq_toNat (w : BitVec 32) (h : w.toNat < 2 ^ 31) : w.toInt = (w.toNat : Int) :=
  BitVec.toInt_eq_toNat_of_lt (by omega)

theorem toNat_ofNat_lt (k : Nat) (h : k < 2 ^ 32) : (BitVec.ofNat 32 k).toNat = k := by
  rw [BitVec.toNat_ofNat]; exact Nat.mod_eq_of_lt h

theorem ofBits_one_f32 : Ideal.ofBits .f32 0x3F800000#32 = (1 : EReal) := Ideal.ofBits_one_f32

theorem ofBits_zero_f32 : Ideal.ofBits .f32 0#32 = (0 : EReal) := Ideal.ofBits_zero_f32

theorem bit_cases (b : BitVec 1) : b = 0#1 ∨ b = 1#1 := by
  revert b; decide

theorem sitofp_setWidth_bit {φ : FTy} (b : BitVec 1) :
    (FloatOps.sitofp φ (b.setWidth 32) : Ideal φ) = if b = 1#1 then (1 : EReal) else 0 := by
  show ((((b.setWidth 32).toInt : ℝ)) : EReal) = _
  rcases bit_cases b with rfl | rfl
  · rw [if_neg (by decide), show ((0#1 : BitVec 1).setWidth 32).toInt = 0 by decide]; simp
  · rw [if_pos rfl, show ((1#1 : BitVec 1).setWidth 32).toInt = 1 by decide]; simp

theorem ite_one_zero_mul (x : EReal) (c : Prop) [Decidable c] : (if c then (1 : EReal) else 0) * x = if c then x else 0 := by
  split_ifs
  · exact one_mul x
  · exact zero_mul x

end Cert.LibSG

end
-- ==== Proof.Val.Pre.lean ====
import proofs.«408151_j68813966016636_2_alg».proof.Defs
import proofs.«408151_j68813966016636_2_alg».proof.Proof.Val.Spec
import proofs.«408151_j68813966016636_2_alg».proof.Proof.LibScatterGather
import Idealize.ShloMosaic.Lib.ReduceAll
import Idealize.ShloMosaic.Lib.StableHlo.Predicate

set_option maxRecDepth 16384

noncomputable section

namespace Cert.KernelIdeal.Val

open Idealize.ShloMosaic Idealize.ShloMosaic.ValueIdx Idealize.SL.Sem
open Cert.KernelIdeal Cert.KernelIdeal.Facts₀

variable [Cert.KernelIdeal.Facts]

def takeFn (t : FVec Ideal S100000x64 .f32) (k : IVec S1000000 32) : FVec Ideal S1000000x64 .f32 :=
  let c : IVec S_ 32 := constantI S_ 32 0#32
  let v0 : IVec S1000000 32 := broadcastInDim S1000000 ![] bcast_S_S1000000 c
  let v1 : IVec S1000000 1 := cmpi .slt k v0
  let c_0 : IVec S_ 32 := constantI S_ 32 100000#32
  let v2 : IVec S1000000 32 := broadcastInDim S1000000 ![] bcast_S_S1000000 c_0
  let v3 : IVec S1000000 32 := addi k v2
  let v4 : IVec S1000000 32 := select v1 v3 k
  let v5 : IVec S1000000x1 32 := broadcastInDim S1000000x1 ![0] bcast_S1000000_S1000000x1_0 v4
  let c_1 : IVec S1 32 := constantI S1 32 99999#32
  let c_2 : IVec S_ 32 := constantI S_ 32 0#32
  let v6 : IVec S1000000x1 32 := broadcastInDim S1000000x1 ![] bcast_S_S1000000x1 c_2
  let v7 : IVec S1000000x1 1 := cmpi .sge v5 v6
  let v8 : IVec S1x1 32 := broadcastInDim S1x1 ![1] bcast_S1_S1x1_1 c_1
  let v9 : IVec S1000000x1 32 := broadcastInDim S1000000x1 ![0, 1] bcast_S1x1_S1000000x1_0_1 v8
  let v10 : IVec S1000000x1 1 := cmpi .sle v5 v9
  let v11 : IVec S1000000x1 1 := andi v7 v10
  let c_3 : IVec S_ 1 := constantI S_ 1 1#1
  let v12 : IVec S1000000 1 := Host.reduce IntOp.andi v11 c_3 reducesTo_S1000000x1_S1000000_d1 h_S_
  let v13 : FVec Ideal S1000000x64 .f32 := Host.gather gather_S100000x64_S1000000x1_S1000000x64_1_0_n_n_0_1_164 t v5
  let v14 : IVec S1000000x64 1 := broadcastInDim S1000000x64 ![0] bcast_S1000000_S1000000x64_0 v12
  let cst : FVec Ideal S_ .f32 := constant S_ .f32 0x7FC00000#32
  let v15 : FVec Ideal S1000000x64 .f32 := broadcastInDim S1000000x64 ![] bcast_S_S1000000x64 cst
  select v14 v13 v15

theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  have a0 : (0#32 : BitVec 32).sle w = true := (StableHlo.Predicate.ofBool_eq_one_iff _).1 h0
  have a1 : w.slt (BitVec.ofNat 32 n) = true := (StableHlo.Predicate.ofBool_eq_one_iff _).1 h1
  have b0 : (0 : Int) ≤ w.toInt := by
    simp only [BitVec.sle, decide_eq_true_eq] at a0
    simpa using a0
  have b1 : w.toInt < (n : Int) := by
    simp only [BitVec.slt, decide_eq_true_eq, StableHlo.Predicate.toInt_ofNat_small n hn] at a1
    exact a1
  have hw : w.toNat < 2 ^ 31 := by
    have hlt := w.isLt
    rw [BitVec.toInt_eq_toNat_cond] at b0
    split at b0 <;> omega
  have e : w.toInt = (w.toNat : Int) := StableHlo.Predicate.toInt_eq_toNat_of_lt hw
  omega

theorem slt_zero_of_lt (w : BitVec 32) (hw : w.toNat < 2 ^ 31) : IntOp.cmpi .slt w 0#32 = 0#1 := by
  rcases Cert.LibSG.bit_cases (IntOp.cmpi .slt w 0#32) with h | h
  · exact h
  · exact absurd ((StableHlo.Predicate.slt_iff_toNat hw (by decide)).1 h) (Nat.not_lt_zero _)

theorem bcast_axis0 {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  unfold broadcastInDim
  congr 1
  funext a
  match a with
  | ⟨0, _⟩ =>
    apply Fin.ext
    have hp := p.isLt
    split
    · next h1 => change n = 1 at h1; show (0 : Nat) = p.val; omega
    · rfl

theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    have e1 : IntOp.andi 1#1 1#1 = 1#1 := by decide
    rw [List.foldl_cons, hf a List.mem_cons_self, e1]
    exact ih fun n hn => hf n (List.mem_cons_of_mem _ hn)

theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_ones x _ fun n _ => hx n

instance : Subsingleton Cert.Pre_finite_inputs.S_.Idx := ⟨fun a b => funext fun d => d.elim0⟩

theorem edge_in_range [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (r : Fin 2) (e : Fin 1000000) :
    (m ((c.tc : Thread Cert.KernelIdeal.nD Cert.KernelIdeal.τ).loc Cert.KernelIdeal.main_arg1) (ix2 r e)).toNat < 100000 := by
  have e0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at e0
  have e1 := (IntOp.andi_eq_one.1 e0).2
  have e2 := Host.reduce_andi_all _ _ _ _ _ e1 (ix2 r e)
  obtain ⟨g0, g1⟩ := IntOp.andi_eq_one.1 e2
  exact toNat_lt_of_signed _ 100000 (by decide) g0 g1

theorem take_eq_rows (t : FVec Ideal S100000x64 .f32) (k : IVec S1000000 32)
    (hk : ∀ e : Fin 1000000, (k (ix1 e)).toNat < 100000) :
    takeFn t k = Cert.Spec.rows (by decide) t (fun e => k (ix1 e)) := by
  funext i
  obtain ⟨e, f, rfl⟩ : ∃ (e : Fin 1000000) (f : Fin 64), i = ix2 e f := ⟨i 0, i 1, eq_ix2 i⟩
  have hv4 : ∀ e : Fin 1000000,
      select (cmpi .slt k (broadcastInDim S1000000 ![] bcast_S_S1000000 (constantI S_ 32 0#32)))
        (addi k (broadcastInDim S1000000 ![] bcast_S_S1000000 (constantI S_ 32 100000#32))) k (ix1 e) = k (ix1 e) := by
    intro e
    show Scalar.select (IntOp.cmpi .slt (k (ix1 e)) 0#32) _ _ = _
    rw [slt_zero_of_lt _ (by have := hk e; omega)]
    rfl
  have hv5 : ∀ (e : Fin 1000000) (q : Fin 1),
      broadcastInDim S1000000x1 ![0] bcast_S1000000_S1000000x1_0
        (select (cmpi .slt k (broadcastInDim S1000000 ![] bcast_S_S1000000 (constantI S_ 32 0#32)))
          (addi k (broadcastInDim S1000000 ![] bcast_S_S1000000 (constantI S_ 32 100000#32))) k) (ix2 e q) = k (ix1 e) := by
    intro e q
    rw [bcast_axis0, hv4]
  have hv11 : ∀ j : S1000000x1.Idx,
      andi
        (cmpi .sge
          (broadcastInDim S1000000x1 ![0] bcast_S1000000_S1000000x1_0
            (select (cmpi .slt k (broadcastInDim S1000000 ![] bcast_S_S1000000 (constantI S_ 32 0#32)))
              (addi k (broadcastInDim S1000000 ![] bcast_S_S1000000 (constantI S_ 32 100000#32))) k))
          (broadcastInDim S1000000x1 ![] bcast_S_S1000000x1 (constantI S_ 32 0#32)))
        (cmpi .sle
          (broadcastInDim S1000000x1 ![0] bcast_S1000000_S1000000x1_0
            (select (cmpi .slt k (broadcastInDim S1000000 ![] bcast_S_S1000000 (constantI S_ 32 0#32)))
              (addi k (broadcastInDim S1000000 ![] bcast_S_S1000000 (constantI S_ 32 100000#32))) k))
          (broadcastInDim S1000000x1 ![0, 1] bcast_S1x1_S1000000x1_0_1
            (broadcastInDim S1x1 ![1] bcast_S1_S1x1_1 (constantI S1 32 99999#32)))) j = 1#1 := by
    intro j
    obtain ⟨e', q, rfl⟩ : ∃ (e' : Fin 1000000) (q : Fin 1), j = ix2 e' q := ⟨j 0, j 1, eq_ix2 j⟩
    show IntOp.andi (IntOp.cmpi .sge _ 0#32) (IntOp.cmpi .sle _ 99999#32) = 1#1
    rw [hv5]
    have hlt := hk e'
    rw [IntOp.andi_eq_one]
    exact ⟨(StableHlo.Predicate.sge_iff_toNat (by omega) (by decide)).2 (Nat.zero_le _),
      (StableHlo.Predicate.sle_iff_toNat (by omega) (by decide)).2 (by show _ ≤ 99999; omega)⟩
  unfold takeFn
  dsimp only
  show Scalar.select _ _ _ = _
  rw [bcast_axis0, reduce_andi_ones _ _ _ _ _ rfl hv11]
  show Host.gather _ t _ (ix2 e f) = _
  rw [Cert.LibSG.gather_row_apply_of_lt (by decide) _ rfl rfl rfl rfl rfl rfl rfl t _ e f (by rw [hv5]; exact hk e)]
  show t _ = t _
  congr 1
  have hlt := hk e
  funext a
  match a with
  | ⟨0, _⟩ =>
    apply Fin.ext
    refine (congrArg BitVec.toNat (hv5 e (0 : Fin 1))).trans ?_
    show (k (ix1 e)).toNat = min (k (ix1 e)).toNat (100000 - 1)
    omega
  | ⟨1, _⟩ => rfl

end Cert.KernelIdeal.Val

end
-- ==== Proof.Val.KReg0.lean ====
import proofs.«408151_j68813966016636_2_alg».proof.Proof.KI.Reg0
import proofs.«408151_j68813966016636_2_alg».proof.Proof.Val.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

theorem mm0_apply (x : FVec Ideal S5000x4 .bf16) (w : FVec Ideal S4x64 .bf16) (p : Fin 5000) (q : Fin 64) :
    matmul dot_S5000x4_S4x64_S5000x64_1_0_0_1_n_n none x w (constant S5000x64 .f32 0x00000000#32) (ix2 p q)
      = ∑ j : Fin 4, x (ix2 p j) * w (ix2 j q) := by
  simp only [matmul]
  rw [Ideal.matmul_constant_zero_apply, ← Equiv.sum_comp (ValueIdx.contrEquiv1 dot_S5000x4_S4x64_S5000x64_1_0_0_1_n_n 4 rfl rfl).symm]
  refine Finset.sum_congr rfl fun k _ => ?_
  have hk := ValueIdx.contrEquiv1_symm_val dot_S5000x4_S4x64_S5000x64_1_0_0_1_n_n 4 rfl rfl k
  have el : dot_S5000x4_S4x64_S5000x64_1_0_0_1_n_n.lhsIdx (ix2 p q) ((ValueIdx.contrEquiv1 dot_S5000x4_S4x64_S5000x64_1_0_0_1_n_n 4 rfl rfl).symm k) = ix2 p k :=
    funext fun a => Fin.ext (by
      match a with
      | ⟨0, _⟩ => rfl
      | ⟨1, _⟩ => exact hk)
  have er : dot_S5000x4_S4x64_S5000x64_1_0_0_1_n_n.rhsIdx (ix2 p q) ((ValueIdx.contrEquiv1 dot_S5000x4_S4x64_S5000x64_1_0_0_1_n_n 4 rfl rfl).symm k) = ix2 k q :=
    funext fun a => Fin.ext (by
      match a with
      | ⟨0, _⟩ => exact hk
      | ⟨1, _⟩ => rfl)
  rw [el, er]

theorem bias0_apply (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply b _ (ix2 p q) (ix2 0 q) (fun a => ?_)
  match a with
  | ⟨0, _⟩ => rfl
  | ⟨1, _⟩ => rfl

theorem pay0_apply (x : Vec Ideal S5000x4 .f32) (w : Vec Ideal S4x64 .f32) (b : Vec Ideal S1x64 .f32) (p : Fin 5000) (q : Fin 64) :
    k0_pay1 (F := Ideal) x w b (ix2 p q) = (∑ j : Fin 4, (x (ix2 p j) : EReal) * w (ix2 j q)) + b (ix2 0 q) := by
  unfold k0_pay1
  show addf _ _ (ix2 p q) = _
  rw [addf_apply, mm0_apply, bias0_apply]
  rfl

variable (V : (c : Dev nD) → (b : Ref sig .tc) → Buf (Elt Ideal) ((c : Thread nD τ).loc b))

theorem hz0 : (![0, 0] : Fin 2 → Nat) = fun _ => 0 := funext fun a => by fin_cases a <;> rfl

abbrev G0 (c : Dev nD) : S100000x64.Idx → Elt Ideal .f32 :=
  Spec.lin (n := 100000) (k := 4) (h := 64) (V c main_arg0) (fun j c' => V c main_arg5 (ix2 j c')) (fun c' => V c main_v4 (ix2 0 c'))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem xblk0_apply (c : Dev nD) (t : Fin cfg0.N) (p : Fin 5000) (j : Fin 4) (hp : t.val * 5000 + p.val < 100000) :
    (Hand.iblk0 V c 0 t : Vec Ideal S5000x4 .f32) (ix2 p j) = (V c main_arg0 : S100000x4.Idx → Elt Ideal .f32) (ix2 ⟨t.val * 5000 + p.val, hp⟩ j) := by
  obtain ⟨e0, e1, -⟩ := idx_facts0 t
  unfold Hand.iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; omega
  | ⟨1, _⟩ => show win0_0.index t (1 : Fin 2) * 4 + 1 * j.val = j.val; omega

theorem wblk0_apply (c : Dev nD) (t : Fin cfg0.N) (j : Fin 4) (q : Fin 64) :
    (Hand.iblk0 V c 1 t : Vec Ideal S4x64 .f32) (ix2 j q) = (V c main_arg5 : S4x64.Idx → Elt Ideal .f32) (ix2 j q) := by
  obtain ⟨-, -, e0, e1, -⟩ := idx_facts0 t
  unfold Hand.iblk0
  rw [View.read_apply]
  show V c main_arg5 _ = V c main_arg5 _
  congr 1
  funext a
  apply Fin.ext
  match a with
  | ⟨0, _⟩ => show win0_1.index t (0 : Fin 2) * 4 + 1 * j.val = j.val; omega
  | ⟨1, _⟩ => show win0_1.index t (1 : Fin 2) * 64 + 1 * q.val = q.val; omega

theorem bblk0_apply (c : Dev nD) (t : Fin cfg0.N) (q : Fin 64) :
    (Hand.iblk0 V c 2 t : Vec Ideal S1x64 .f32) (ix2 0 q) = (V c main_v4 : S1x64.Idx → Elt Ideal .f32) (ix2 0 q) := by
  obtain ⟨-, -, -, -, e0, e1, -⟩ := idx_facts0 t
  unfold Hand.iblk0
  rw [View.read_apply]
  show V c main_v4 _ = V c main_v4 _
  congr 1
  funext a
  apply Fin.ext
  match a with
  | ⟨0, _⟩ => show win0_2.index t (0 : Fin 2) * 1 + 1 * 0 = 0; omega
  | ⟨1, _⟩ => show win0_2.index t (1 : Fin 2) * 64 + 1 * q.val = q.val; omega

theorem oemb0 (t : Fin cfg0.N) (p : Fin 5000) (q : Fin 64) (hp : t.val * 5000 + p.val < 100000) :
    ((cfg0.win 3).blk t).view.emb (ix2 p q) = (ix2 ⟨t.val * 5000 + p.val, hp⟩ q : S100000x64.Idx) := by
  obtain ⟨-, -, -, -, -, -, e0, e1⟩ := idx_facts0 t
  funext a
  apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

theorem flushed0_eq (c : Dev nD) (t : Fin cfg0.N) :
    (Hand.dat0 (F := Ideal) V c).flushed 3 t = ((cfg0.win 3).blk t).view.read (Elt Ideal) (G0 V c) := by
  show (cfg0.win 3).cut (grid0.coords t) ((Hand.dat0 (F := Ideal) V c).after 3 t) = _
  rw [Hand.after0_3]
  unfold Hand.out0
  rw [View.canon_unit_zero hz0]
  simp only [View.ld_unit_zero (S := S5000x4) hz0, View.ld_unit_zero (S := S4x64) hz0, View.ld_unit_zero (S := S1x64) hz0]
  funext y
  obtain ⟨p, q, rfl⟩ : ∃ (p : Fin 5000) (q : Fin 64), y = ix2 p q := ⟨y 0, y 1, eq_ix2 y⟩
  have hN : cfg0.N = 20 := N_0
  have hp : t.val * 5000 + p.val < 100000 := by have := t.isLt; have := p.isLt; omega
  show k0_pay1 (F := Ideal) (Hand.iblk0 V c 0 t) (Hand.iblk0 V c 1 t) (Hand.iblk0 V c 2 t) (ix2 p q)
    = G0 V c (((cfg0.win 3).blk t).view.emb (ix2 p q))
  refine (pay0_apply _ _ _ p q).trans ?_
  refine Eq.trans ?_ (congrArg (G0 V c) (oemb0 t p q hp)).symm
  refine Eq.trans (congrArg₂ (fun (a b : EReal) => a + b)
    (Finset.sum_congr rfl fun j _ => congrArg₂ (fun (a b : EReal) => a * b) (xblk0_apply V c t p j hp) (wblk0_apply V c t j q))
    (bblk0_apply V c t q)) ?_
  rfl

theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

theorem covered0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem val0 (c : Dev nD) : (Hand.dat0 (F := Ideal) V c).arrAt 3 cfg0.N
    = Spec.lin (n := 100000) (k := 4) (h := 64) (V c main_arg0) (fun j c' => V c main_arg5 (ix2 j c')) (fun c' => V c main_v4 (ix2 0 c')) :=
  (Hand.dat0 (F := Ideal) V c).arrAt_eq_of_cover 3 (G0 V c) (fun t _ => flushed0_eq V c t) covered0

end Cert.KernelIdeal.Val

end
-- ==== Proof.Val.Dot64.lean ====
import proofs.«408151_j68813966016636_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx
open scoped BigOperators

-- A rows-by-columns product into a zero accumulator at (p, q): the contracted axis re-indexed by its coordinate.
theorem plainMatmul_apply {M K N : ℕ} {φ₁ φ₂ : FTy} (x : FVec Ideal ⟨2, ![M, K]⟩ φ₁) (w : FVec Ideal ⟨2, ![K, N]⟩ φ₂) (p : Fin M) (q : Fin N) :
    FloatOps.matmul (DotDims.plain M K N) none x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

-- One row spread over M rows, at (p, q): the row's entry q.
theorem rowBcast_apply {M N : ℕ} {α : Type} (b : (⟨2, ![1, N]⟩ : Shape).Idx → α) (h : (⟨2, ![1, N]⟩ : Shape).Broadcasts ⟨2, ![M, N]⟩)
    (p : Fin M) (q : Fin N) : broadcastTo ⟨2, ![M, N]⟩ b h (ix2 p q) = b (ix2 0 q) :=
  broadcastTo_apply b h (ix2 p q) (ix2 0 q) fun a => by
    match a with
    | ⟨0, _⟩ => rfl
    | ⟨1, _⟩ =>
      show q.val = if N = 1 then 0 else q.val
      have := q.isLt
      split <;> omega

theorem matmul64_apply {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant (F := Ideal) S5000x64 .f32 0x00000000#32) (ix2 p q)
      = ∑ k : Fin 64, x (ix2 p k) * w (ix2 k q) :=
  plainMatmul_apply x w p q

-- x·w at (p, q): the format changes are the identity on extended reals.
theorem pay2_apply (x : Vec Ideal S5000x64 .f32) (w : Vec Ideal S64x64 .f32) (p : Fin 5000) (q : Fin 64) :
    k2_pay1 (F := Ideal) x w (ix2 p q) = ∑ k : Fin 64, x (ix2 p k) * w (ix2 k q) := by
  unfold k2_pay1
  simp only [shapeCast_self]
  exact matmul64_apply (truncf .bf16 x bitsLt_bf16_f32) (truncf .bf16 w bitsLt_bf16_f32) p q

theorem pay4_apply (x : Vec Ideal S5000x64 .f32) (w : Vec Ideal S64x64 .f32) (b : Vec Ideal S1x64 .f32) (res : Vec Ideal S5000x64 .f32)
    (p : Fin 5000) (q : Fin 64) :
    k4_pay1 (F := Ideal) x w b res (ix2 p q)
      = max (((∑ k : Fin 64, x (ix2 p k) * w (ix2 k q)) + b (ix2 0 q)) + res (ix2 p q)) 0 := by
  unfold k4_pay1
  simp only [shapeCast_self]
  rw [maximumf_apply, addf_apply, addf_apply, broadcast_apply, rowBcast_apply]
  rw [show (Scalar.ofBits .f32 0x00000000#32 : Ideal .f32) = 0 from Ideal.ofBits_zero_f32]
  exact congrArg (fun s => max ((s + b (ix2 0 q)) + res (ix2 p q)) 0)
    (matmul64_apply (truncf .bf16 x bitsLt_bf16_f32) (truncf .bf16 w bitsLt_bf16_f32) p q)

end Cert.KernelIdeal.Val

end
-- ==== Proof.Val.PayLin.lean ====
import proofs.«408151_j68813966016636_2_alg».proof.Proof.Gen.KernelIdeal.Skeleton
import proofs.«408151_j68813966016636_2_alg».proof.Proof.Val.Dot64
import Idealize.ShloMosaic.PureOps.Ideal.Laws
import Idealize.ShloMosaic.Lib.ValueIdx
import Idealize.ShloMosaic.Lib.Pipeline.Value

noncomputable section

open scoped BigOperators

namespace Cert.KernelIdeal.Val

open Cert.KernelIdeal Cert.KernelIdeal.Gen
open Idealize.ShloMosaic Idealize.ShloMosaic.ValueIdx

-- Row p of x against column q of w, plus the bias at q: the format changes and the casts to the same shape are the identity.
theorem pay1_apply (x : Vec Ideal S5000x64 .f32) (w : Vec Ideal S64x64 .f32) (b : Vec Ideal S1x64 .f32) (p : Fin 5000) (q : Fin 64) :
    k1_pay1 (F := Ideal) x w b (ix2 p q) = (∑ j : Fin 64, (x (ix2 p j) : EReal) * w (ix2 j q)) + b (ix2 0 q) := by
  unfold k1_pay1
  show addf _ _ (ix2 p q) = _
  rw [addf_apply]
  simp only [matmul, shapeCast_self]
  rw [matmul64_apply, rowBcast_apply]
  rfl

-- Regions 5 and 9 have region 1's payload, word for word.
theorem pay5_apply (x : Vec Ideal S5000x64 .f32) (w : Vec Ideal S64x64 .f32) (b : Vec Ideal S1x64 .f32) (p : Fin 5000) (q : Fin 64) :
    k5_pay1 (F := Ideal) x w b (ix2 p q) = (∑ j : Fin 64, (x (ix2 p j) : EReal) * w (ix2 j q)) + b (ix2 0 q) :=
  pay1_apply x w b p q

theorem pay9_apply (x : Vec Ideal S5000x64 .f32) (w : Vec Ideal S64x64 .f32) (b : Vec Ideal S1x64 .f32) (p : Fin 5000) (q : Fin 64) :
    k9_pay1 (F := Ideal) x w b (ix2 p q) = (∑ j : Fin 64, (x (ix2 p j) : EReal) * w (ix2 j q)) + b (ix2 0 q) :=
  pay1_apply x w b p q

theorem mm16_apply (x : FVec Ideal S512x64 .bf16) (w : FVec Ideal S64x128 .bf16) (p : Fin 512) (q : Fin 128) :
    FloatOps.matmul dot_S512x64_S64x128_S512x128_1_0_0_1_n_n none x w (constant (F := Ideal) S512x128 .f32 0x00000000#32) (ix2 p q)
      = ∑ j : Fin 64, x (ix2 p j) * w (ix2 j q) :=
  plainMatmul_apply x w p q

theorem pay16_apply (x : Vec Ideal S512x64 .f32) (w : Vec Ideal S64x128 .f32) (b : Vec Ideal S1x128 .f32) (p : Fin 512) (q : Fin 128) :
    k16_pay1 (F := Ideal) x w b (ix2 p q) = max ((∑ j : Fin 64, (x (ix2 p j) : EReal) * w (ix2 j q)) + b (ix2 0 q)) 0 := by
  unfold k16_pay1
  show maximumf (addf _ _) _ (ix2 p q) = _
  rw [maximumf_apply, addf_apply, broadcast_apply]
  simp only [matmul, shapeCast_self]
  rw [mm16_apply, rowBcast_apply]
  show max _ (Ideal.ofBits .f32 0x00000000#32) = _
  rw [Ideal.ofBits_zero_f32]
  rfl

theorem mm17_apply (x : FVec Ideal S512x128 .bf16) (w : FVec Ideal S128x3 .bf16) (p : Fin 512) (q : Fin 3) :
    FloatOps.matmul dot_S512x128_S128x3_S512x3_1_0_0_1_n_n none x w (constant (F := Ideal) S512x3 .f32 0x00000000#32) (ix2 p q)
      = ∑ j : Fin 128, x (ix2 p j) * w (ix2 j q) :=
  plainMatmul_apply x w p q

theorem pay17_apply (x : Vec Ideal S512x128 .f32) (w : Vec Ideal S128x3 .f32) (b : Vec Ideal S1x3 .f32) (p : Fin 512) (q : Fin 3) :
    k17_pay1 (F := Ideal) x w b (ix2 p q) = (∑ j : Fin 128, (x (ix2 p j) : EReal) * w (ix2 j q)) + b (ix2 0 q) := by
  unfold k17_pay1
  show addf _ _ (ix2 p q) = _
  rw [addf_apply]
  simp only [matmul, shapeCast_self]
  rw [mm17_apply, rowBcast_apply]
  rfl

end Cert.KernelIdeal.Val

end
-- ==== Proof.Val.Blk2.lean ====
import proofs.«408151_j68813966016636_2_alg».proof.Proof.KI.Reg2
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem iblk2_0_apply (c : Dev nD) (t : Fin cfg2.N) (p : Fin 5000) (k : Fin 64) (r : Fin 100000) (hr : r.val = t.val * 5000 + p.val) :
    (iblk2 V c 0 t : Vec F S5000x64 .f32) (ix2 p k) = (V c main_v5 : S100000x64.Idx → Elt F .f32) (ix2 r k) := by
  obtain ⟨e0, e1, -⟩ := idx_facts2 t
  unfold iblk2
  rw [View.read_apply]
  show V c main_v5 _ = V c main_v5 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

theorem iblk2_1_apply (c : Dev nD) (t : Fin cfg2.N) (k q : Fin 64) :
    (iblk2 V c 1 t : Vec F S64x64 .f32) (ix2 k q) = (V c main_v13 : S64x64.Idx → Elt F .f32) (ix2 k q) := by
  obtain ⟨-, -, e2, e3, -⟩ := idx_facts2 t
  unfold iblk2
  rw [View.read_apply]
  show V c main_v13 _ = V c main_v13 _
  congr 1
  funext a
  apply Fin.ext
  match a with
  | ⟨0, _⟩ => show win2_1.index t (0 : Fin 2) * 64 + 1 * k.val = k.val; rw [e2]; omega
  | ⟨1, _⟩ => show win2_1.index t (1 : Fin 2) * 64 + 1 * q.val = q.val; rw [e3]; omega

theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v14).slice (win2_2.rect t)).set ↔ _
  rw [View.set_slice_whole, Rect.mem_set_unit]
  exact Iff.rfl

theorem arr2_of_out (c : Dev nD) (G : S100000x64.Idx → Elt F .f32)
    (hG : ∀ (t : Fin cfg2.N) (p : Fin 5000) (q : Fin 64) (r : Fin 100000), r.val = t.val * 5000 + p.val →
      ((dat2 V c).after 2 t : Vec F S5000x64 .f32) (ix2 p q) = G (ix2 r q)) :
    (dat2 V c).arrAt 2 cfg2.N = G := by
  refine (dat2 V c).arrAt_eq_of_cover 2 G (fun t _ => ?_) (fun i => ?_)
  · obtain ⟨-, -, -, -, e4, e5⟩ := idx_facts2 t
    show (cfg2.win 2).cut (grid2.coords t) ((dat2 V c).after 2 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win2_2.index t (0 : Fin 2) * 5000 + 1 * p.val; rw [e4]; omega
    | ⟨1, _⟩ => show q.val = win2_2.index t (1 : Fin 2) * 64 + 1 * q.val; rw [e5]; omega
  · have hi0 : (i 0).val < 100000 := (i 0).isLt
    have hi1 : (i 1).val < 64 := (i 1).isLt
    have ht : (i 0).val / 5000 < cfg2.N := by rw [show cfg2.N = 20 from N_2]; omega
    obtain ⟨-, -, -, -, e4, e5⟩ := idx_facts2 ⟨(i 0).val / 5000, ht⟩
    refine ⟨⟨(i 0).val / 5000, ht⟩, flush2_2 _, ?_⟩
    rw [mem_blk2]
    intro a
    match a with
    | ⟨0, _⟩ => show win2_2.index _ (0 : Fin 2) * 5000 ≤ (i 0).val ∧ (i 0).val < win2_2.index _ (0 : Fin 2) * 5000 + 5000; rw [e4]; show (i 0).val / 5000 * 5000 ≤ _ ∧ _ < (i 0).val / 5000 * 5000 + 5000; omega
    | ⟨1, _⟩ => show win2_2.index _ (1 : Fin 2) * 64 ≤ (i 1).val ∧ (i 1).val < win2_2.index _ (1 : Fin 2) * 64 + 64; rw [e5]; omega

end Cert.KernelIdeal.Val

end
-- ==== Proof.Val.KReg2.lean ====
import proofs.«408151_j68813966016636_2_alg».proof.Proof.Val.Blk2
import proofs.«408151_j68813966016636_2_alg».proof.Proof.Val.Dot64

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin2_off_zero : (![0, 0] : Fin 2 → Nat) = fun _ => 0 := funext fun a => by fin_cases a <;> rfl

theorem out2_apply (x0 : Vec Ideal S5000x64 .f32) (x1 : Vec Ideal S64x64 .f32) (p : Fin 5000) (q : Fin 64) :
    out2 x0 x1 (ix2 p q) = ∑ k : Fin 64, x0 (ix2 p k) * x1 (ix2 k q) := by
  unfold out2
  rw [View.canon_unit_zero lin2_off_zero]
  simp only [View.ld_unit_zero (S := S5000x64) lin2_off_zero, View.ld_unit_zero (S := S64x64) lin2_off_zero]
  exact pay2_apply x0 x1 p q

theorem val2 (c : Dev nD) :
    (dat2 (F := Ideal) V c).arrAt 2 cfg2.N = Spec.linNB (V c main_v5) (fun j c' => V c main_v13 (ix2 j c')) := by
  apply arr2_of_out V c
  intro t p q r hr
  rw [after2_2]
  refine (out2_apply (iblk2 V c 0 t) (iblk2 V c 1 t) p q).trans ?_
  unfold Spec.linNB
  rw [Spec.of2_ix2]
  unfold Spec.dot
  refine Finset.sum_congr rfl fun k _ => ?_
  rw [iblk2_0_apply V c t p k r hr, iblk2_1_apply V c t k q]

end Cert.KernelIdeal.Val

end
-- ==== Proof.Val.KReg3.lean ====
import proofs.«408151_j68813966016636_2_alg».proof.Proof.KI.Reg3
import proofs.«408151_j68813966016636_2_alg».proof.Proof.Val.Spec
import proofs.«408151_j68813966016636_2_alg».proof.Proof.LibScatterGather
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeros3 : (![0, 0] : Fin 2 → Nat) = fun _ => 0 := funext fun a => by fin_cases a <;> rfl

theorem pay3_apply (x0 x1 : Vec Ideal S2000x1 .f32) (x2 x3 : Vec Ideal S2000x64 .f32) (p : Fin 2000) (q : Fin 64) :
    k3_pay1 (F := Ideal) x0 x1 x2 x3 (ix2 p q) = (x0 (ix2 p 0) * x1 (ix2 p 0)) * (x2 (ix2 p q) - x3 (ix2 p q)) := by
  unfold k3_pay1
  simp only [shapeCast_self]
  rw [mulf_apply, subf_apply]
  rw [broadcastTo_apply _ _ (ix2 p q) (ix2 p 0) (fun a => by
    match a with
    | ⟨0, _⟩ => rfl
    | ⟨1, _⟩ => rfl)]
  rfl

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem iblk3_0_apply (c : Dev nD) (t : Fin cfg3.N) (x : S2000x1.Idx) (k : S1000000x1.Idx)
    (hk0 : (k 0).val = t.val * 2000 + (x 0).val) (hk1 : (k 1).val = (x 1).val) :
    (Hand.iblk3 (F := Ideal) V c 0 t : Vec Ideal S2000x1 .f32) x = (V c main_v17 : S1000000x1.Idx → EReal) k := by
  obtain ⟨e0, e1, -⟩ := idx3 t
  unfold Hand.iblk3
  rw [View.read_apply]
  show V c main_v17 _ = V c main_v17 _
  congr 1
  funext a
  apply Fin.ext
  match a with
  | ⟨0, _⟩ => show win3_0.index t 0 * 2000 + 1 * (x 0).val = (k 0).val; rw [e0, hk0]; omega
  | ⟨1, _⟩ => show win3_0.index t 1 * 1 + 1 * (x 1).val = (k 1).val; rw [e1, hk1]; omega

theorem iblk3_1_apply (c : Dev nD) (t : Fin cfg3.N) (x : S2000x1.Idx) (k : S1000000x1.Idx)
    (hk0 : (k 0).val = t.val * 2000 + (x 0).val) (hk1 : (k 1).val = (x 1).val) :
    (Hand.iblk3 (F := Ideal) V c 1 t : Vec Ideal S2000x1 .f32) x = (V c main_arg4 : S1000000x1.Idx → EReal) k := by
  obtain ⟨-, -, e0, e1, -⟩ := idx3 t
  unfold Hand.iblk3
  rw [View.read_apply]
  show V c main_arg4 _ = V c main_arg4 _
  congr 1
  funext a
  apply Fin.ext
  match a with
  | ⟨0, _⟩ => show win3_1.index t 0 * 2000 + 1 * (x 0).val = (k 0).val; rw [e0, hk0]; omega
  | ⟨1, _⟩ => show win3_1.index t 1 * 1 + 1 * (x 1).val = (k 1).val; rw [e1, hk1]; omega

theorem iblk3_2_apply (c : Dev nD) (t : Fin cfg3.N) (x : S2000x64.Idx) (k : S1000000x64.Idx)
    (hk0 : (k 0).val = t.val * 2000 + (x 0).val) (hk1 : (k 1).val = (x 1).val) :
    (Hand.iblk3 (F := Ideal) V c 2 t : Vec Ideal S2000x64 .f32) x = (V c main_v15 : S1000000x64.Idx → EReal) k := by
  obtain ⟨-, -, -, -, e0, e1, -⟩ := idx3 t
  unfold Hand.iblk3
  rw [View.read_apply]
  show V c main_v15 _ = V c main_v15 _
  congr 1
  funext a
  apply Fin.ext
  match a with
  | ⟨0, _⟩ => show win3_2.index t 0 * 2000 + 1 * (x 0).val = (k 0).val; rw [e0, hk0]; omega
  | ⟨1, _⟩ => show win3_2.index t 1 * 64 + 1 * (x 1).val = (k 1).val; rw [e1, hk1]; omega

theorem iblk3_3_apply (c : Dev nD) (t : Fin cfg3.N) (x : S2000x64.Idx) (k : S1000000x64.Idx)
    (hk0 : (k 0).val = t.val * 2000 + (x 0).val) (hk1 : (k 1).val = (x 1).val) :
    (Hand.iblk3 (F := Ideal) V c 3 t : Vec Ideal S2000x64 .f32) x = (V c main_v16 : S1000000x64.Idx → EReal) k := by
  obtain ⟨-, -, -, -, -, -, e0, e1, -⟩ := idx3 t
  unfold Hand.iblk3
  rw [View.read_apply]
  show V c main_v16 _ = V c main_v16 _
  congr 1
  funext a
  apply Fin.ext
  match a with
  | ⟨0, _⟩ => show win3_3.index t 0 * 2000 + 1 * (x 0).val = (k 0).val; rw [e0, hk0]; omega
  | ⟨1, _⟩ => show win3_3.index t 1 * 64 + 1 * (x 1).val = (k 1).val; rw [e1, hk1]; omega

abbrev G3 (c : Dev nD) : Spec.M2 1000000 64 :=
  Spec.edge (fun e => V c main_v17 (ix2 e 0)) (fun e => V c main_arg4 (ix2 e 0)) (V c main_v15) (V c main_v16)

theorem point3 (c : Dev nD) (t : Fin cfg3.N) (j : S2000x64.Idx) :
    k3_pay1 (F := Ideal) (Hand.iblk3 V c 0 t) (Hand.iblk3 V c 1 t) (Hand.iblk3 V c 2 t) (Hand.iblk3 V c 3 t) j
      = G3 V c (((cfg3.win 4).blk t).view.emb j) := by
  obtain ⟨p, q, rfl⟩ : ∃ (p : Fin 2000) (q : Fin 64), j = ix2 p q := ⟨j 0, j 1, eq_ix2 j⟩
  have ht : t.val < 500 := by have h := t.isLt; have hN : cfg3.N = 500 := N_3; omega
  have hr : t.val * 2000 + p.val < 1000000 := by have := p.isLt; omega
  obtain ⟨-, -, -, -, -, -, -, -, e0, e1⟩ := idx3 t
  have hi : ((cfg3.win 4).blk t).view.emb (ix2 p q) = (ix2 (⟨t.val * 2000 + p.val, hr⟩ : Fin 1000000) q : S1000000x64.Idx) := by
    funext a
    apply Fin.ext
    match a with
    | ⟨0, _⟩ => show win3_4.index t 0 * 2000 + 1 * p.val = t.val * 2000 + p.val; rw [e0]; omega
    | ⟨1, _⟩ => show win3_4.index t 1 * 64 + 1 * q.val = q.val; rw [e1]; omega
  rw [hi]
  refine (pay3_apply _ _ _ _ p q).trans ?_
  rw [iblk3_0_apply V c t (ix2 p 0) (ix2 (⟨t.val * 2000 + p.val, hr⟩ : Fin 1000000) 0) rfl rfl,
    iblk3_1_apply V c t (ix2 p 0) (ix2 (⟨t.val * 2000 + p.val, hr⟩ : Fin 1000000) 0) rfl rfl,
    iblk3_2_apply V c t (ix2 p q) (ix2 (⟨t.val * 2000 + p.val, hr⟩ : Fin 1000000) q) rfl rfl,
    iblk3_3_apply V c t (ix2 p q) (ix2 (⟨t.val * 2000 + p.val, hr⟩ : Fin 1000000) q) rfl rfl]
  rfl

theorem flushed3_eq (c : Dev nD) (t : Fin cfg3.N) :
    (Hand.dat3 (F := Ideal) V c).flushed 4 t = ((cfg3.win 4).blk t).view.read (Elt Ideal) (G3 V c) := by
  show (cfg3.win 4).cut (grid3.coords t) ((Hand.dat3 V c).after 4 t) = _
  rw [Hand.after3_4]
  unfold Hand.out3
  rw [View.canon_unit_zero zeros3]
  simp only [View.ld_unit_zero (S := S2000x1) zeros3, View.ld_unit_zero (S := S2000x64) zeros3]
  funext j
  exact point3 V c t j

theorem mem_blk3 (t : Fin cfg3.N) (i : S1000000x64.Idx) :
    i ∈ ((cfg3.win 4).blk t).view.set ↔ ∀ a : Fin 2, win3_4.index t a * S2000x64.size a ≤ (i a).val ∧ (i a).val < win3_4.index t a * S2000x64.size a + S2000x64.size a := by
  show i ∈ ((View.whole main_v18).slice (win3_4.rect t)).set ↔ _
  rw [View.set_slice_whole, Rect.mem_set_unit]
  exact Iff.rfl

theorem covered3 (i : S1000000x64.Idx) : ∃ t : Fin cfg3.N, (cfg3.win 4).flush t = true ∧ i ∈ ((cfg3.win 4).blk t).view.set := by
  have hi0 : (i 0).val < 1000000 := (i 0).isLt
  have hi1 : (i 1).val < 64 := (i 1).isLt
  have hN : cfg3.N = 500 := N_3
  have hlt : (i 0).val / 2000 < cfg3.N := by rw [hN]; omega
  obtain ⟨-, -, -, -, -, -, -, -, e0, e1⟩ := idx3 ⟨(i 0).val / 2000, hlt⟩
  refine ⟨⟨(i 0).val / 2000, hlt⟩, flush3_4 _, ?_⟩
  rw [mem_blk3]
  intro a
  match a with
  | ⟨0, _⟩ =>
    show win3_4.index ⟨(i 0).val / 2000, hlt⟩ 0 * 2000 ≤ (i 0).val ∧ (i 0).val < win3_4.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win3_4.index ⟨(i 0).val / 2000, hlt⟩ 1 * 64 ≤ (i 1).val ∧ (i 1).val < win3_4.index ⟨(i 0).val / 2000, hlt⟩ 1 * 64 + 64
    rw [e1]; omega

theorem val3 (c : Dev nD) : (Hand.dat3 (F := Ideal) V c).arrAt 4 cfg3.N
    = Spec.edge (fun e => V c main_v17 (ix2 e 0)) (fun e => V c main_arg4 (ix2 e 0)) (V c main_v15) (V c main_v16) :=
  (Hand.dat3 (F := Ideal) V c).arrAt_eq_of_cover 4 (G3 V c) (fun t _ => flushed3_eq V c t) (covered3)

end Cert.KernelIdeal.Val
end
-- ==== Proof.Val.Blk4.lean ====
import proofs.«408151_j68813966016636_2_alg».proof.Proof.KI.Reg4
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

theorem iblk4_0_apply (c : Dev nD) (t : Fin cfg4.N) (p : Fin 5000) (k : Fin 64) (r : Fin 100000) (hr : r.val = t.val * 5000 + p.val) :
    (iblk4 V c 0 t : Vec F S5000x64 .f32) (ix2 p k) = (V c main_v5 : S100000x64.Idx → Elt F .f32) (ix2 r k) := by
  obtain ⟨e0, e1, -⟩ := idx_facts4 t
  unfold iblk4
  rw [View.read_apply]
  show V c main_v5 _ = V c main_v5 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 64 + 1 * k.val = k.val; rw [e1]; omega

theorem iblk4_1_apply (c : Dev nD) (t : Fin cfg4.N) (k q : Fin 64) :
    (iblk4 V c 1 t : Vec F S64x64 .f32) (ix2 k q) = (V c main_v23 : S64x64.Idx → Elt F .f32) (ix2 k q) := by
  obtain ⟨-, -, e2, e3, -⟩ := idx_facts4 t
  unfold iblk4
  rw [View.read_apply]
  show V c main_v23 _ = V c main_v23 _
  congr 1
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

theorem iblk4_2_apply (c : Dev nD) (t : Fin cfg4.N) (z : Fin 1) (q : Fin 64) :
    (iblk4 V c 2 t : Vec F S1x64 .f32) (ix2 z q) = (V c main_v26 : S1x64.Idx → Elt F .f32) (ix2 z q) := by
  obtain ⟨-, -, -, -, e4, e5, -⟩ := idx_facts4 t
  unfold iblk4
  rw [View.read_apply]
  show V c main_v26 _ = V c main_v26 _
  congr 1
  funext a
  apply Fin.ext
  match a with
  | ⟨0, _⟩ => show win4_2.index t (0 : Fin 2) * 1 + 1 * z.val = z.val; rw [e4]; omega
  | ⟨1, _⟩ => show win4_2.index t (1 : Fin 2) * 64 + 1 * q.val = q.val; rw [e5]; omega

theorem iblk4_3_apply (c : Dev nD) (t : Fin cfg4.N) (p : Fin 5000) (q : Fin 64) (r : Fin 100000) (hr : r.val = t.val * 5000 + p.val) :
    (iblk4 V c 3 t : Vec F S5000x64 .f32) (ix2 p q) = (V c main_v21 : S100000x64.Idx → Elt F .f32) (ix2 r q) := by
  obtain ⟨-, -, -, -, -, -, e6, e7, -⟩ := idx_facts4 t
  unfold iblk4
  rw [View.read_apply]
  show V c main_v21 _ = V c main_v21 _
  congr 1
  funext a
  apply Fin.ext
  match a with
  | ⟨0, _⟩ => show win4_3.index t (0 : Fin 2) * 5000 + 1 * p.val = r.val; rw [e6, hr]; omega
  | ⟨1, _⟩ => show win4_3.index t (1 : Fin 2) * 64 + 1 * q.val = q.val; rw [e7]; omega

theorem mem_blk4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v27).slice (win4_4.rect t)).set ↔ _
  rw [View.set_slice_whole, Rect.mem_set_unit]
  exact Iff.rfl

theorem arr4_of_out (c : Dev nD) (G : S100000x64.Idx → Elt F .f32)
    (hG : ∀ (t : Fin cfg4.N) (p : Fin 5000) (q : Fin 64) (r : Fin 100000), r.val = t.val * 5000 + p.val →
      ((dat4 V c).after 4 t : Vec F S5000x64 .f32) (ix2 p q) = G (ix2 r q)) :
    (dat4 V c).arrAt 4 cfg4.N = G := by
  refine (dat4 V c).arrAt_eq_of_cover 4 G (fun t _ => ?_) (fun i => ?_)
  · obtain ⟨-, -, -, -, -, -, -, -, e8, e9⟩ := idx_facts4 t
    show (cfg4.win 4).cut (grid4.coords t) ((dat4 V c).after 4 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win4_4.index t (0 : Fin 2) * 5000 + 1 * p.val; rw [e8]; omega
    | ⟨1, _⟩ => show q.val = win4_4.index t (1 : Fin 2) * 64 + 1 * q.val; rw [e9]; omega
  · have hi0 : (i 0).val < 100000 := (i 0).isLt
    have hi1 : (i 1).val < 64 := (i 1).isLt
    have ht : (i 0).val / 5000 < cfg4.N := by rw [show cfg4.N = 20 from N_4]; omega
    obtain ⟨-, -, -, -, -, -, -, -, e8, e9⟩ := idx_facts4 ⟨(i 0).val / 5000, ht⟩
    refine ⟨⟨(i 0).val / 5000, ht⟩, flush4_4 _, ?_⟩
    rw [mem_blk4]
    intro a
    match a with
    | ⟨0, _⟩ => show win4_4.index _ (0 : Fin 2) * 5000 ≤ (i 0).val ∧ (i 0).val < win4_4.index _ (0 : Fin 2) * 5000 + 5000; rw [e8]; show (i 0).val / 5000 * 5000 ≤ _ ∧ _ < (i 0).val / 5000 * 5000 + 5000; omega
    | ⟨1, _⟩ => show win4_4.index _ (1 : Fin 2) * 64 ≤ (i 1).val ∧ (i 1).val < win4_4.index _ (1 : Fin 2) * 64 + 64; rw [e9]; omega

end Cert.KernelIdeal.Val

end
-- ==== Proof.Val.KReg4.lean ====
import proofs.«408151_j68813966016636_2_alg».proof.Proof.Val.Blk4
import proofs.«408151_j68813966016636_2_alg».proof.Proof.Val.Dot64

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin4_off_zero : (![0, 0] : Fin 2 → Nat) = fun _ => 0 := funext fun a => by fin_cases a <;> rfl

theorem out4_apply (x0 : Vec Ideal S5000x64 .f32) (x1 : Vec Ideal S64x64 .f32) (x2 : Vec Ideal S1x64 .f32) (x3 : Vec Ideal S5000x64 .f32)
    (p : Fin 5000) (q : Fin 64) :
    out4 x0 x1 x2 x3 (ix2 p q) = max (((∑ k : Fin 64, x0 (ix2 p k) * x1 (ix2 k q)) + x2 (ix2 0 q)) + x3 (ix2 p q)) 0 := by
  unfold out4
  rw [View.canon_unit_zero lin4_off_zero]
  simp only [View.ld_unit_zero (S := S5000x64) lin4_off_zero, View.ld_unit_zero (S := S64x64) lin4_off_zero,
    View.ld_unit_zero (S := S1x64) lin4_off_zero]
  exact pay4_apply x0 x1 x2 x3 p q

theorem val4 (c : Dev nD) :
    (dat4 (F := Ideal) V c).arrAt 4 cfg4.N
      = Spec.linRes (V c main_v5) (fun j c' => V c main_v23 (ix2 j c')) (fun c' => V c main_v26 (ix2 0 c')) (V c main_v21) := by
  apply arr4_of_out V c
  intro t p q r hr
  rw [after4_4]
  refine (out4_apply (iblk4 V c 0 t) (iblk4 V c 1 t) (iblk4 V c 2 t) (iblk4 V c 3 t) p q).trans ?_
  unfold Spec.linRes
  rw [Spec.of2_ix2]
  unfold Spec.dot
  rw [iblk4_2_apply V c t 0 q, iblk4_3_apply V c t p q r hr]
  refine congrArg (fun s => max ((s + V c main_v26 (ix2 0 q)) + V c main_v21 (ix2 r q)) 0) (Finset.sum_congr rfl fun k _ => ?_)
  rw [iblk4_0_apply V c t p k r hr, iblk4_1_apply V c t k q]

end Cert.KernelIdeal.Val

end
-- ==== Proof.Val.Blk6.lean ====
import proofs.«408151_j68813966016636_2_alg».proof.Proof.KI.Reg6
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem iblk6_0_apply (c : Dev nD) (t : Fin cfg6.N) (p : Fin 5000) (k : Fin 64) (r : Fin 100000) (hr : r.val = t.val * 5000 + p.val) :
    (iblk6 V c 0 t : Vec F S5000x64 .f32) (ix2 p k) = (V c main_v27 : S100000x64.Idx → Elt F .f32) (ix2 r k) := by
  obtain ⟨e0, e1, -⟩ := idx_facts6 t
  unfold iblk6
  rw [View.read_apply]
  show V c main_v27 _ = V c main_v27 _
  congr 1
  funext a
  apply Fin.ext
  match a with
  | ⟨0, _⟩ => show win6_0.index t (0 : Fin 2) * 5000 + 1 * p.val = r.val; rw [e0, hr]; omega
  | ⟨1, _⟩ => show win6_0.index t (1 : Fin 2) * 64 + 1 * k.val = k.val; rw [e1]; omega

theorem iblk6_1_apply (c : Dev nD) (t : Fin cfg6.N) (k q : Fin 64) :
    (iblk6 V c 1 t : Vec F S64x64 .f32) (ix2 k q) = (V c main_v35 : S64x64.Idx → Elt F .f32) (ix2 k q) := by
  obtain ⟨-, -, e2, e3, -⟩ := idx_facts6 t
  unfold iblk6
  rw [View.read_apply]
  show V c main_v35 _ = V c main_v35 _
  congr 1
  funext a
  apply Fin.ext
  match a with
  | ⟨0, _⟩ => show win6_1.index t (0 : Fin 2) * 64 + 1 * k.val = k.val; rw [e2]; omega
  | ⟨1, _⟩ => show win6_1.index t (1 : Fin 2) * 64 + 1 * q.val = q.val; rw [e3]; omega

theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v36).slice (win6_2.rect t)).set ↔ _
  rw [View.set_slice_whole, Rect.mem_set_unit]
  exact Iff.rfl

theorem arr6_of_out (c : Dev nD) (G : S100000x64.Idx → Elt F .f32)
    (hG : ∀ (t : Fin cfg6.N) (p : Fin 5000) (q : Fin 64) (r : Fin 100000), r.val = t.val * 5000 + p.val →
      ((dat6 V c).after 2 t : Vec F S5000x64 .f32) (ix2 p q) = G (ix2 r q)) :
    (dat6 V c).arrAt 2 cfg6.N = G := by
  refine (dat6 V c).arrAt_eq_of_cover 2 G (fun t _ => ?_) (fun i => ?_)
  · obtain ⟨-, -, -, -, e4, e5⟩ := idx_facts6 t
    show (cfg6.win 2).cut (grid6.coords t) ((dat6 V c).after 2 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win6_2.index t (0 : Fin 2) * 5000 + 1 * p.val; rw [e4]; omega
    | ⟨1, _⟩ => show q.val = win6_2.index t (1 : Fin 2) * 64 + 1 * q.val; rw [e5]; omega
  · have hi0 : (i 0).val < 100000 := (i 0).isLt
    have hi1 : (i 1).val < 64 := (i 1).isLt
    have ht : (i 0).val / 5000 < cfg6.N := by rw [show cfg6.N = 20 from N_6]; omega
    obtain ⟨-, -, -, -, e4, e5⟩ := idx_facts6 ⟨(i 0).val / 5000, ht⟩
    refine ⟨⟨(i 0).val / 5000, ht⟩, flush6_2 _, ?_⟩
    rw [mem_blk6]
    intro a
    match a with
    | ⟨0, _⟩ => show win6_2.index _ (0 : Fin 2) * 5000 ≤ (i 0).val ∧ (i 0).val < win6_2.index _ (0 : Fin 2) * 5000 + 5000; rw [e4]; show (i 0).val / 5000 * 5000 ≤ _ ∧ _ < (i 0).val / 5000 * 5000 + 5000; omega
    | ⟨1, _⟩ => show win6_2.index _ (1 : Fin 2) * 64 ≤ (i 1).val ∧ (i 1).val < win6_2.index _ (1 : Fin 2) * 64 + 64; rw [e5]; omega

end Cert.KernelIdeal.Val

end
-- ==== Proof.Val.Pay68.lean ====
import proofs.«408151_j68813966016636_2_alg».proof.Proof.Val.Dot64

noncomputable section

namespace Cert.KernelIdeal.Val

open Cert.KernelIdeal Cert.KernelIdeal.Gen
open Idealize.ShloMosaic Idealize.ShloMosaic.ValueIdx
open scoped BigOperators

-- The sibling regions' payloads are the template's, word for word.
theorem pay6_apply (x : Vec Ideal S5000x64 .f32) (w : Vec Ideal S64x64 .f32) (p : Fin 5000) (q : Fin 64) :
    k6_pay1 (F := Ideal) x w (ix2 p q) = ∑ k : Fin 64, x (ix2 p k) * w (ix2 k q) :=
  pay2_apply x w p q

theorem pay8_apply (x : Vec Ideal S5000x64 .f32) (w : Vec Ideal S64x64 .f32) (b : Vec Ideal S1x64 .f32) (res : Vec Ideal S5000x64 .f32)
    (p : Fin 5000) (q : Fin 64) :
    k8_pay1 (F := Ideal) x w b res (ix2 p q)
      = max (((∑ k : Fin 64, x (ix2 p k) * w (ix2 k q)) + b (ix2 0 q)) + res (ix2 p q)) 0 :=
  pay4_apply x w b res p q

end Cert.KernelIdeal.Val

end
-- ==== Proof.Val.KReg6.lean ====
import proofs.«408151_j68813966016636_2_alg».proof.Proof.Val.Blk6
import proofs.«408151_j68813966016636_2_alg».proof.Proof.Val.Pay68

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin6_off_zero : (![0, 0] : Fin 2 → Nat) = fun _ => 0 := funext fun a => by fin_cases a <;> rfl

theorem out6_apply (x0 : Vec Ideal S5000x64 .f32) (x1 : Vec Ideal S64x64 .f32) (p : Fin 5000) (q : Fin 64) :
    out6 x0 x1 (ix2 p q) = ∑ k : Fin 64, x0 (ix2 p k) * x1 (ix2 k q) := by
  unfold out6
  rw [View.canon_unit_zero lin6_off_zero]
  simp only [View.ld_unit_zero (S := S5000x64) lin6_off_zero, View.ld_unit_zero (S := S64x64) lin6_off_zero]
  exact pay6_apply x0 x1 p q

theorem val6 (c : Dev nD) :
    (dat6 (F := Ideal) V c).arrAt 2 cfg6.N = Spec.linNB (V c main_v27) (fun j c' => V c main_v35 (ix2 j c')) := by
  apply arr6_of_out V c
  intro t p q r hr
  rw [after6_2]
  refine (out6_apply (iblk6 V c 0 t) (iblk6 V c 1 t) p q).trans ?_
  unfold Spec.linNB
  rw [Spec.of2_ix2]
  unfold Spec.dot
  refine Finset.sum_congr rfl fun k _ => ?_
  rw [iblk6_0_apply V c t p k r hr, iblk6_1_apply V c t k q]

end Cert.KernelIdeal.Val

end
-- ==== Proof.Val.KReg7.lean ====
import proofs.«408151_j68813966016636_2_alg».proof.Proof.KI.Reg7
import proofs.«408151_j68813966016636_2_alg».proof.Proof.Val.Spec
import proofs.«408151_j68813966016636_2_alg».proof.Proof.LibScatterGather
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeros7 : (![0, 0] : Fin 2 → Nat) = fun _ => 0 := funext fun a => by fin_cases a <;> rfl

theorem pay7_apply (x0 x1 : Vec Ideal S2000x1 .f32) (x2 x3 : Vec Ideal S2000x64 .f32) (p : Fin 2000) (q : Fin 64) :
    k7_pay1 (F := Ideal) x0 x1 x2 x3 (ix2 p q) = (x0 (ix2 p 0) * x1 (ix2 p 0)) * (x2 (ix2 p q) - x3 (ix2 p q)) := by
  unfold k7_pay1
  simp only [shapeCast_self]
  rw [mulf_apply, subf_apply]
  rw [broadcastTo_apply _ _ (ix2 p q) (ix2 p 0) (fun a => by
    match a with
    | ⟨0, _⟩ => rfl
    | ⟨1, _⟩ => rfl)]
  rfl

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

theorem iblk7_0_apply (c : Dev nD) (t : Fin cfg7.N) (x : S2000x1.Idx) (k : S1000000x1.Idx)
    (hk0 : (k 0).val = t.val * 2000 + (x 0).val) (hk1 : (k 1).val = (x 1).val) :
    (Hand.iblk7 (F := Ideal) V c 0 t : Vec Ideal S2000x1 .f32) x = (V c main_v39 : S1000000x1.Idx → EReal) k := by
  obtain ⟨e0, e1, -⟩ := idx7 t
  unfold Hand.iblk7
  rw [View.read_apply]
  show V c main_v39 _ = V c main_v39 _
  congr 1
  funext a
  apply Fin.ext
  match a with
  | ⟨0, _⟩ => show win7_0.index t 0 * 2000 + 1 * (x 0).val = (k 0).val; rw [e0, hk0]; omega
  | ⟨1, _⟩ => show win7_0.index t 1 * 1 + 1 * (x 1).val = (k 1).val; rw [e1, hk1]; omega

theorem iblk7_1_apply (c : Dev nD) (t : Fin cfg7.N) (x : S2000x1.Idx) (k : S1000000x1.Idx)
    (hk0 : (k 0).val = t.val * 2000 + (x 0).val) (hk1 : (k 1).val = (x 1).val) :
    (Hand.iblk7 (F := Ideal) V c 1 t : Vec Ideal S2000x1 .f32) x = (V c main_arg4 : S1000000x1.Idx → EReal) k := by
  obtain ⟨-, -, e0, e1, -⟩ := idx7 t
  unfold Hand.iblk7
  rw [View.read_apply]
  show V c main_arg4 _ = V c main_arg4 _
  congr 1
  funext a
  apply Fin.ext
  match a with
  | ⟨0, _⟩ => show win7_1.index t 0 * 2000 + 1 * (x 0).val = (k 0).val; rw [e0, hk0]; omega
  | ⟨1, _⟩ => show win7_1.index t 1 * 1 + 1 * (x 1).val = (k 1).val; rw [e1, hk1]; omega

theorem iblk7_2_apply (c : Dev nD) (t : Fin cfg7.N) (x : S2000x64.Idx) (k : S1000000x64.Idx)
    (hk0 : (k 0).val = t.val * 2000 + (x 0).val) (hk1 : (k 1).val = (x 1).val) :
    (Hand.iblk7 (F := Ideal) V c 2 t : Vec Ideal S2000x64 .f32) x = (V c main_v37 : S1000000x64.Idx → EReal) k := by
  obtain ⟨-, -, -, -, e0, e1, -⟩ := idx7 t
  unfold Hand.iblk7
  rw [View.read_apply]
  show V c main_v37 _ = V c main_v37 _
  congr 1
  funext a
  apply Fin.ext
  match a with
  | ⟨0, _⟩ => show win7_2.index t 0 * 2000 + 1 * (x 0).val = (k 0).val; rw [e0, hk0]; omega
  | ⟨1, _⟩ => show win7_2.index t 1 * 64 + 1 * (x 1).val = (k 1).val; rw [e1, hk1]; omega

theorem iblk7_3_apply (c : Dev nD) (t : Fin cfg7.N) (x : S2000x64.Idx) (k : S1000000x64.Idx)
    (hk0 : (k 0).val = t.val * 2000 + (x 0).val) (hk1 : (k 1).val = (x 1).val) :
    (Hand.iblk7 (F := Ideal) V c 3 t : Vec Ideal S2000x64 .f32) x = (V c main_v38 : S1000000x64.Idx → EReal) k := by
  obtain ⟨-, -, -, -, -, -, e0, e1, -⟩ := idx7 t
  unfold Hand.iblk7
  rw [View.read_apply]
  show V c main_v38 _ = V c main_v38 _
  congr 1
  funext a
  apply Fin.ext
  match a with
  | ⟨0, _⟩ => show win7_3.index t 0 * 2000 + 1 * (x 0).val = (k 0).val; rw [e0, hk0]; omega
  | ⟨1, _⟩ => show win7_3.index t 1 * 64 + 1 * (x 1).val = (k 1).val; rw [e1, hk1]; omega

abbrev G7 (c : Dev nD) : Spec.M2 1000000 64 :=
  Spec.edge (fun e => V c main_v39 (ix2 e 0)) (fun e => V c main_arg4 (ix2 e 0)) (V c main_v37) (V c main_v38)

theorem point7 (c : Dev nD) (t : Fin cfg7.N) (j : S2000x64.Idx) :
    k7_pay1 (F := Ideal) (Hand.iblk7 V c 0 t) (Hand.iblk7 V c 1 t) (Hand.iblk7 V c 2 t) (Hand.iblk7 V c 3 t) j
      = G7 V c (((cfg7.win 4).blk t).view.emb j) := by
  obtain ⟨p, q, rfl⟩ : ∃ (p : Fin 2000) (q : Fin 64), j = ix2 p q := ⟨j 0, j 1, eq_ix2 j⟩
  have ht : t.val < 500 := by have h := t.isLt; have hN : cfg7.N = 500 := N_7; omega
  have hr : t.val * 2000 + p.val < 1000000 := by have := p.isLt; omega
  obtain ⟨-, -, -, -, -, -, -, -, e0, e1⟩ := idx7 t
  have hi : ((cfg7.win 4).blk t).view.emb (ix2 p q) = (ix2 (⟨t.val * 2000 + p.val, hr⟩ : Fin 1000000) q : S1000000x64.Idx) := by
    funext a
    apply Fin.ext
    match a with
    | ⟨0, _⟩ => show win7_4.index t 0 * 2000 + 1 * p.val = t.val * 2000 + p.val; rw [e0]; omega
    | ⟨1, _⟩ => show win7_4.index t 1 * 64 + 1 * q.val = q.val; rw [e1]; omega
  rw [hi]
  refine (pay7_apply _ _ _ _ p q).trans ?_
  rw [iblk7_0_apply V c t (ix2 p 0) (ix2 (⟨t.val * 2000 + p.val, hr⟩ : Fin 1000000) 0) rfl rfl,
    iblk7_1_apply V c t (ix2 p 0) (ix2 (⟨t.val * 2000 + p.val, hr⟩ : Fin 1000000) 0) rfl rfl,
    iblk7_2_apply V c t (ix2 p q) (ix2 (⟨t.val * 2000 + p.val, hr⟩ : Fin 1000000) q) rfl rfl,
    iblk7_3_apply V c t (ix2 p q) (ix2 (⟨t.val * 2000 + p.val, hr⟩ : Fin 1000000) q) rfl rfl]
  rfl

theorem flushed7_eq (c : Dev nD) (t : Fin cfg7.N) :
    (Hand.dat7 (F := Ideal) V c).flushed 4 t = ((cfg7.win 4).blk t).view.read (Elt Ideal) (G7 V c) := by
  show (cfg7.win 4).cut (grid7.coords t) ((Hand.dat7 V c).after 4 t) = _
  rw [Hand.after7_4]
  unfold Hand.out7
  rw [View.canon_unit_zero zeros7]
  simp only [View.ld_unit_zero (S := S2000x1) zeros7, View.ld_unit_zero (S := S2000x64) zeros7]
  funext j
  exact point7 V c t j

theorem mem_blk7 (t : Fin cfg7.N) (i : S1000000x64.Idx) :
    i ∈ ((cfg7.win 4).blk t).view.set ↔ ∀ a : Fin 2, win7_4.index t a * S2000x64.size a ≤ (i a).val ∧ (i a).val < win7_4.index t a * S2000x64.size a + S2000x64.size a := by
  show i ∈ ((View.whole main_v40).slice (win7_4.rect t)).set ↔ _
  rw [View.set_slice_whole, Rect.mem_set_unit]
  exact Iff.rfl

theorem covered7 (i : S1000000x64.Idx) : ∃ t : Fin cfg7.N, (cfg7.win 4).flush t = true ∧ i ∈ ((cfg7.win 4).blk t).view.set := by
  have hi0 : (i 0).val < 1000000 := (i 0).isLt
  have hi1 : (i 1).val < 64 := (i 1).isLt
  have hN : cfg7.N = 500 := N_7
  have hlt : (i 0).val / 2000 < cfg7.N := by rw [hN]; omega
  obtain ⟨-, -, -, -, -, -, -, -, e0, e1⟩ := idx7 ⟨(i 0).val / 2000, hlt⟩
  refine ⟨⟨(i 0).val / 2000, hlt⟩, flush7_4 _, ?_⟩
  rw [mem_blk7]
  intro a
  match a with
  | ⟨0, _⟩ =>
    show win7_4.index ⟨(i 0).val / 2000, hlt⟩ 0 * 2000 ≤ (i 0).val ∧ (i 0).val < win7_4.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win7_4.index ⟨(i 0).val / 2000, hlt⟩ 1 * 64 ≤ (i 1).val ∧ (i 1).val < win7_4.index ⟨(i 0).val / 2000, hlt⟩ 1 * 64 + 64
    rw [e1]; omega

theorem val7 (c : Dev nD) : (Hand.dat7 (F := Ideal) V c).arrAt 4 cfg7.N
    = Spec.edge (fun e => V c main_v39 (ix2 e 0)) (fun e => V c main_arg4 (ix2 e 0)) (V c main_v37) (V c main_v38) :=
  (Hand.dat7 (F := Ideal) V c).arrAt_eq_of_cover 4 (G7 V c) (fun t _ => flushed7_eq V c t) (covered7)

end Cert.KernelIdeal.Val
end
-- ==== Proof.Val.Blk8.lean ====
import proofs.«408151_j68813966016636_2_alg».proof.Proof.KI.Reg8
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

theorem iblk8_0_apply (c : Dev nD) (t : Fin cfg8.N) (p : Fin 5000) (k : Fin 64) (r : Fin 100000) (hr : r.val = t.val * 5000 + p.val) :
    (iblk8 V c 0 t : Vec F S5000x64 .f32) (ix2 p k) = (V c main_v27 : S100000x64.Idx → Elt F .f32) (ix2 r k) := by
  obtain ⟨e0, e1, -⟩ := idx_facts8 t
  unfold iblk8
  rw [View.read_apply]
  show V c main_v27 _ = V c main_v27 _
  congr 1
  funext a
  apply Fin.ext
  match a with
  | ⟨0, _⟩ => show win8_0.index t (0 : Fin 2) * 5000 + 1 * p.val = r.val; rw [e0, hr]; omega
  | ⟨1, _⟩ => show win8_0.index t (1 : Fin 2) * 64 + 1 * k.val = k.val; rw [e1]; omega

theorem iblk8_1_apply (c : Dev nD) (t : Fin cfg8.N) (k q : Fin 64) :
    (iblk8 V c 1 t : Vec F S64x64 .f32) (ix2 k q) = (V c main_v45 : S64x64.Idx → Elt F .f32) (ix2 k q) := by
  obtain ⟨-, -, e2, e3, -⟩ := idx_facts8 t
  unfold iblk8
  rw [View.read_apply]
  show V c main_v45 _ = V c main_v45 _
  congr 1
  funext a
  apply Fin.ext
  match a with
  | ⟨0, _⟩ => show win8_1.index t (0 : Fin 2) * 64 + 1 * k.val = k.val; rw [e2]; omega
  | ⟨1, _⟩ => show win8_1.index t (1 : Fin 2) * 64 + 1 * q.val = q.val; rw [e3]; omega

theorem iblk8_2_apply (c : Dev nD) (t : Fin cfg8.N) (z : Fin 1) (q : Fin 64) :
    (iblk8 V c 2 t : Vec F S1x64 .f32) (ix2 z q) = (V c main_v48 : S1x64.Idx → Elt F .f32) (ix2 z q) := by
  obtain ⟨-, -, -, -, e4, e5, -⟩ := idx_facts8 t
  unfold iblk8
  rw [View.read_apply]
  show V c main_v48 _ = V c main_v48 _
  congr 1
  funext a
  apply Fin.ext
  match a with
  | ⟨0, _⟩ => show win8_2.index t (0 : Fin 2) * 1 + 1 * z.val = z.val; rw [e4]; omega
  | ⟨1, _⟩ => show win8_2.index t (1 : Fin 2) * 64 + 1 * q.val = q.val; rw [e5]; omega

theorem iblk8_3_apply (c : Dev nD) (t : Fin cfg8.N) (p : Fin 5000) (q : Fin 64) (r : Fin 100000) (hr : r.val = t.val * 5000 + p.val) :
    (iblk8 V c 3 t : Vec F S5000x64 .f32) (ix2 p q) = (V c main_v43 : S100000x64.Idx → Elt F .f32) (ix2 r q) := by
  obtain ⟨-, -, -, -, -, -, e6, e7, -⟩ := idx_facts8 t
  unfold iblk8
  rw [View.read_apply]
  show V c main_v43 _ = V c main_v43 _
  congr 1
  funext a
  apply Fin.ext
  match a with
  | ⟨0, _⟩ => show win8_3.index t (0 : Fin 2) * 5000 + 1 * p.val = r.val; rw [e6, hr]; omega
  | ⟨1, _⟩ => show win8_3.index t (1 : Fin 2) * 64 + 1 * q.val = q.val; rw [e7]; omega

theorem mem_blk8 (t : Fin cfg8.N) (i : S100000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v49).slice (win8_4.rect t)).set ↔ _
  rw [View.set_slice_whole, Rect.mem_set_unit]
  exact Iff.rfl

theorem arr8_of_out (c : Dev nD) (G : S100000x64.Idx → Elt F .f32)
    (hG : ∀ (t : Fin cfg8.N) (p : Fin 5000) (q : Fin 64) (r : Fin 100000), r.val = t.val * 5000 + p.val →
      ((dat8 V c).after 4 t : Vec F S5000x64 .f32) (ix2 p q) = G (ix2 r q)) :
    (dat8 V c).arrAt 4 cfg8.N = G := by
  refine (dat8 V c).arrAt_eq_of_cover 4 G (fun t _ => ?_) (fun i => ?_)
  · obtain ⟨-, -, -, -, -, -, -, -, e8, e9⟩ := idx_facts8 t
    show (cfg8.win 4).cut (grid8.coords t) ((dat8 V c).after 4 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win8_4.index t (0 : Fin 2) * 5000 + 1 * p.val; rw [e8]; omega
    | ⟨1, _⟩ => show q.val = win8_4.index t (1 : Fin 2) * 64 + 1 * q.val; rw [e9]; omega
  · have hi0 : (i 0).val < 100000 := (i 0).isLt
    have hi1 : (i 1).val < 64 := (i 1).isLt
    have ht : (i 0).val / 5000 < cfg8.N := by rw [show cfg8.N = 20 from N_8]; omega
    obtain ⟨-, -, -, -, -, -, -, -, e8, e9⟩ := idx_facts8 ⟨(i 0).val / 5000, ht⟩
    refine ⟨⟨(i 0).val / 5000, ht⟩, flush8_4 _, ?_⟩
    rw [mem_blk8]
    intro a
    match a with
    | ⟨0, _⟩ => show win8_4.index _ (0 : Fin 2) * 5000 ≤ (i 0).val ∧ (i 0).val < win8_4.index _ (0 : Fin 2) * 5000 + 5000; rw [e8]; show (i 0).val / 5000 * 5000 ≤ _ ∧ _ < (i 0).val / 5000 * 5000 + 5000; omega
    | ⟨1, _⟩ => show win8_4.index _ (1 : Fin 2) * 64 ≤ (i 1).val ∧ (i 1).val < win8_4.index _ (1 : Fin 2) * 64 + 64; rw [e9]; omega

end Cert.KernelIdeal.Val

end
-- ==== Proof.Val.KReg8.lean ====
import proofs.«408151_j68813966016636_2_alg».proof.Proof.Val.Blk8
import proofs.«408151_j68813966016636_2_alg».proof.Proof.Val.Pay68

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin8_off_zero : (![0, 0] : Fin 2 → Nat) = fun _ => 0 := funext fun a => by fin_cases a <;> rfl

theorem out8_apply (x0 : Vec Ideal S5000x64 .f32) (x1 : Vec Ideal S64x64 .f32) (x2 : Vec Ideal S1x64 .f32) (x3 : Vec Ideal S5000x64 .f32)
    (p : Fin 5000) (q : Fin 64) :
    out8 x0 x1 x2 x3 (ix2 p q) = max (((∑ k : Fin 64, x0 (ix2 p k) * x1 (ix2 k q)) + x2 (ix2 0 q)) + x3 (ix2 p q)) 0 := by
  unfold out8
  rw [View.canon_unit_zero lin8_off_zero]
  simp only [View.ld_unit_zero (S := S5000x64) lin8_off_zero, View.ld_unit_zero (S := S64x64) lin8_off_zero,
    View.ld_unit_zero (S := S1x64) lin8_off_zero]
  exact pay8_apply x0 x1 x2 x3 p q

theorem val8 (c : Dev nD) :
    (dat8 (F := Ideal) V c).arrAt 4 cfg8.N
      = Spec.linRes (V c main_v27) (fun j c' => V c main_v45 (ix2 j c')) (fun c' => V c main_v48 (ix2 0 c')) (V c main_v43) := by
  apply arr8_of_out V c
  intro t p q r hr
  rw [after8_4]
  refine (out8_apply (iblk8 V c 0 t) (iblk8 V c 1 t) (iblk8 V c 2 t) (iblk8 V c 3 t) p q).trans ?_
  unfold Spec.linRes
  rw [Spec.of2_ix2]
  unfold Spec.dot
  rw [iblk8_2_apply V c t 0 q, iblk8_3_apply V c t p q r hr]
  refine congrArg (fun s => max ((s + V c main_v48 (ix2 0 q)) + V c main_v43 (ix2 r q)) 0) (Finset.sum_congr rfl fun k _ => ?_)
  rw [iblk8_0_apply V c t p k r hr, iblk8_1_apply V c t k q]

end Cert.KernelIdeal.Val

end
-- ==== Proof.Val.Blk10.lean ====
import proofs.«408151_j68813966016636_2_alg».proof.Proof.KI.Reg10
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

theorem iblk10_0_apply (c : Dev nD) (t : Fin cfg10.N) (p : Fin 5000) (k : Fin 64) (r : Fin 100000) (hr : r.val = t.val * 5000 + p.val) :
    (iblk10 V c 0 t : Vec F S5000x64 .f32) (ix2 p k) = (V c main_v49 : S100000x64.Idx → Elt F .f32) (ix2 r k) := by
  obtain ⟨e0, e1, -⟩ := idx_facts10 t
  unfold iblk10
  rw [View.read_apply]
  show V c main_v49 _ = V c main_v49 _
  congr 1
  funext a
  apply Fin.ext
  match a with
  | ⟨0, _⟩ => show win10_0.index t (0 : Fin 2) * 5000 + 1 * p.val = r.val; rw [e0, hr]; omega
  | ⟨1, _⟩ => show win10_0.index t (1 : Fin 2) * 64 + 1 * k.val = k.val; rw [e1]; omega

theorem iblk10_1_apply (c : Dev nD) (t : Fin cfg10.N) (k q : Fin 64) :
    (iblk10 V c 1 t : Vec F S64x64 .f32) (ix2 k q) = (V c main_v57 : S64x64.Idx → Elt F .f32) (ix2 k q) := by
  obtain ⟨-, -, e2, e3, -⟩ := idx_facts10 t
  unfold iblk10
  rw [View.read_apply]
  show V c main_v57 _ = V c main_v57 _
  congr 1
  funext a
  apply Fin.ext
  match a with
  | ⟨0, _⟩ => show win10_1.index t (0 : Fin 2) * 64 + 1 * k.val = k.val; rw [e2]; omega
  | ⟨1, _⟩ => show win10_1.index t (1 : Fin 2) * 64 + 1 * q.val = q.val; rw [e3]; omega

theorem mem_blk10 (t : Fin cfg10.N) (i : S100000x64.Idx) :
    i ∈ ((cfg10.win 2).blk t).view.set ↔ ∀ a : Fin 2, win10_2.index t a * S5000x64.size a ≤ (i a).val ∧ (i a).val < win10_2.index t a * S5000x64.size a + S5000x64.size a := by
  show i ∈ ((View.whole main_v58).slice (win10_2.rect t)).set ↔ _
  rw [View.set_slice_whole, Rect.mem_set_unit]
  exact Iff.rfl

theorem arr10_of_out (c : Dev nD) (G : S100000x64.Idx → Elt F .f32)
    (hG : ∀ (t : Fin cfg10.N) (p : Fin 5000) (q : Fin 64) (r : Fin 100000), r.val = t.val * 5000 + p.val →
      ((dat10 V c).after 2 t : Vec F S5000x64 .f32) (ix2 p q) = G (ix2 r q)) :
    (dat10 V c).arrAt 2 cfg10.N = G := by
  refine (dat10 V c).arrAt_eq_of_cover 2 G (fun t _ => ?_) (fun i => ?_)
  · obtain ⟨-, -, -, -, e4, e5⟩ := idx_facts10 t
    show (cfg10.win 2).cut (grid10.coords t) ((dat10 V c).after 2 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win10_2.index t (0 : Fin 2) * 5000 + 1 * p.val; rw [e4]; omega
    | ⟨1, _⟩ => show q.val = win10_2.index t (1 : Fin 2) * 64 + 1 * q.val; rw [e5]; omega
  · have hi0 : (i 0).val < 100000 := (i 0).isLt
    have hi1 : (i 1).val < 64 := (i 1).isLt
    have ht : (i 0).val / 5000 < cfg10.N := by rw [show cfg10.N = 20 from N_10]; omega
    obtain ⟨-, -, -, -, e4, e5⟩ := idx_facts10 ⟨(i 0).val / 5000, ht⟩
    refine ⟨⟨(i 0).val / 5000, ht⟩, flush10_2 _, ?_⟩
    rw [mem_blk10]
    intro a
    match a with
    | ⟨0, _⟩ => show win10_2.index _ (0 : Fin 2) * 5000 ≤ (i 0).val ∧ (i 0).val < win10_2.index _ (0 : Fin 2) * 5000 + 5000; rw [e4]; show (i 0).val / 5000 * 5000 ≤ _ ∧ _ < (i 0).val / 5000 * 5000 + 5000; omega
    | ⟨1, _⟩ => show win10_2.index _ (1 : Fin 2) * 64 ≤ (i 1).val ∧ (i 1).val < win10_2.index _ (1 : Fin 2) * 64 + 64; rw [e5]; omega

end Cert.KernelIdeal.Val

end
-- ==== Proof.Val.Pay1012.lean ====
import proofs.«408151_j68813966016636_2_alg».proof.Proof.Val.Dot64

noncomputable section

namespace Cert.KernelIdeal.Val

open Cert.KernelIdeal Cert.KernelIdeal.Gen
open Idealize.ShloMosaic Idealize.ShloMosaic.ValueIdx
open scoped BigOperators

-- The sibling regions' payloads are the template's, word for word.
theorem pay10_apply (x : Vec Ideal S5000x64 .f32) (w : Vec Ideal S64x64 .f32) (p : Fin 5000) (q : Fin 64) :
    k10_pay1 (F := Ideal) x w (ix2 p q) = ∑ k : Fin 64, x (ix2 p k) * w (ix2 k q) :=
  pay2_apply x w p q

theorem pay12_apply (x : Vec Ideal S5000x64 .f32) (w : Vec Ideal S64x64 .f32) (b : Vec Ideal S1x64 .f32) (res : Vec Ideal S5000x64 .f32)
    (p : Fin 5000) (q : Fin 64) :
    k12_pay1 (F := Ideal) x w b res (ix2 p q)
      = max (((∑ k : Fin 64, x (ix2 p k) * w (ix2 k q)) + b (ix2 0 q)) + res (ix2 p q)) 0 :=
  pay4_apply x w b res p q

end Cert.KernelIdeal.Val

end
-- ==== Proof.Val.KReg10.lean ====
import proofs.«408151_j68813966016636_2_alg».proof.Proof.Val.Blk10
import proofs.«408151_j68813966016636_2_alg».proof.Proof.Val.Pay1012

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin10_off_zero : (![0, 0] : Fin 2 → Nat) = fun _ => 0 := funext fun a => by fin_cases a <;> rfl

theorem out10_apply (x0 : Vec Ideal S5000x64 .f32) (x1 : Vec Ideal S64x64 .f32) (p : Fin 5000) (q : Fin 64) :
    out10 x0 x1 (ix2 p q) = ∑ k : Fin 64, x0 (ix2 p k) * x1 (ix2 k q) := by
  unfold out10
  rw [View.canon_unit_zero lin10_off_zero]
  simp only [View.ld_unit_zero (S := S5000x64) lin10_off_zero, View.ld_unit_zero (S := S64x64) lin10_off_zero]
  exact pay10_apply x0 x1 p q

theorem val10 (c : Dev nD) :
    (dat10 (F := Ideal) V c).arrAt 2 cfg10.N = Spec.linNB (V c main_v49) (fun j c' => V c main_v57 (ix2 j c')) := by
  apply arr10_of_out V c
  intro t p q r hr
  rw [after10_2]
  refine (out10_apply (iblk10 V c 0 t) (iblk10 V c 1 t) p q).trans ?_
  unfold Spec.linNB
  rw [Spec.of2_ix2]
  unfold Spec.dot
  refine Finset.sum_congr rfl fun k _ => ?_
  rw [iblk10_0_apply V c t p k r hr, iblk10_1_apply V c t k q]

end Cert.KernelIdeal.Val

end
-- ==== Proof.Val.KReg11.lean ====
import proofs.«408151_j68813966016636_2_alg».proof.Proof.KI.Reg11
import proofs.«408151_j68813966016636_2_alg».proof.Proof.Val.Spec
import proofs.«408151_j68813966016636_2_alg».proof.Proof.LibScatterGather
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeros11 : (![0, 0] : Fin 2 → Nat) = fun _ => 0 := funext fun a => by fin_cases a <;> rfl

theorem pay11_apply (x0 x1 : Vec Ideal S2000x1 .f32) (x2 x3 : Vec Ideal S2000x64 .f32) (p : Fin 2000) (q : Fin 64) :
    k11_pay1 (F := Ideal) x0 x1 x2 x3 (ix2 p q) = (x0 (ix2 p 0) * x1 (ix2 p 0)) * (x2 (ix2 p q) - x3 (ix2 p q)) := by
  unfold k11_pay1
  simp only [shapeCast_self]
  rw [mulf_apply, subf_apply]
  rw [broadcastTo_apply _ _ (ix2 p q) (ix2 p 0) (fun a => by
    match a with
    | ⟨0, _⟩ => rfl
    | ⟨1, _⟩ => rfl)]
  rfl

theorem idx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = t.val ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

theorem iblk11_0_apply (c : Dev nD) (t : Fin cfg11.N) (x : S2000x1.Idx) (k : S1000000x1.Idx)
    (hk0 : (k 0).val = t.val * 2000 + (x 0).val) (hk1 : (k 1).val = (x 1).val) :
    (Hand.iblk11 (F := Ideal) V c 0 t : Vec Ideal S2000x1 .f32) x = (V c main_v61 : S1000000x1.Idx → EReal) k := by
  obtain ⟨e0, e1, -⟩ := idx11 t
  unfold Hand.iblk11
  rw [View.read_apply]
  show V c main_v61 _ = V c main_v61 _
  congr 1
  funext a
  apply Fin.ext
  match a with
  | ⟨0, _⟩ => show win11_0.index t 0 * 2000 + 1 * (x 0).val = (k 0).val; rw [e0, hk0]; omega
  | ⟨1, _⟩ => show win11_0.index t 1 * 1 + 1 * (x 1).val = (k 1).val; rw [e1, hk1]; omega

theorem iblk11_1_apply (c : Dev nD) (t : Fin cfg11.N) (x : S2000x1.Idx) (k : S1000000x1.Idx)
    (hk0 : (k 0).val = t.val * 2000 + (x 0).val) (hk1 : (k 1).val = (x 1).val) :
    (Hand.iblk11 (F := Ideal) V c 1 t : Vec Ideal S2000x1 .f32) x = (V c main_arg4 : S1000000x1.Idx → EReal) k := by
  obtain ⟨-, -, e0, e1, -⟩ := idx11 t
  unfold Hand.iblk11
  rw [View.read_apply]
  show V c main_arg4 _ = V c main_arg4 _
  congr 1
  funext a
  apply Fin.ext
  match a with
  | ⟨0, _⟩ => show win11_1.index t 0 * 2000 + 1 * (x 0).val = (k 0).val; rw [e0, hk0]; omega
  | ⟨1, _⟩ => show win11_1.index t 1 * 1 + 1 * (x 1).val = (k 1).val; rw [e1, hk1]; omega

theorem iblk11_2_apply (c : Dev nD) (t : Fin cfg11.N) (x : S2000x64.Idx) (k : S1000000x64.Idx)
    (hk0 : (k 0).val = t.val * 2000 + (x 0).val) (hk1 : (k 1).val = (x 1).val) :
    (Hand.iblk11 (F := Ideal) V c 2 t : Vec Ideal S2000x64 .f32) x = (V c main_v59 : S1000000x64.Idx → EReal) k := by
  obtain ⟨-, -, -, -, e0, e1, -⟩ := idx11 t
  unfold Hand.iblk11
  rw [View.read_apply]
  show V c main_v59 _ = V c main_v59 _
  congr 1
  funext a
  apply Fin.ext
  match a with
  | ⟨0, _⟩ => show win11_2.index t 0 * 2000 + 1 * (x 0).val = (k 0).val; rw [e0, hk0]; omega
  | ⟨1, _⟩ => show win11_2.index t 1 * 64 + 1 * (x 1).val = (k 1).val; rw [e1, hk1]; omega

theorem iblk11_3_apply (c : Dev nD) (t : Fin cfg11.N) (x : S2000x64.Idx) (k : S1000000x64.Idx)
    (hk0 : (k 0).val = t.val * 2000 + (x 0).val) (hk1 : (k 1).val = (x 1).val) :
    (Hand.iblk11 (F := Ideal) V c 3 t : Vec Ideal S2000x64 .f32) x = (V c main_v60 : S1000000x64.Idx → EReal) k := by
  obtain ⟨-, -, -, -, -, -, e0, e1, -⟩ := idx11 t
  unfold Hand.iblk11
  rw [View.read_apply]
  show V c main_v60 _ = V c main_v60 _
  congr 1
  funext a
  apply Fin.ext
  match a with
  | ⟨0, _⟩ => show win11_3.index t 0 * 2000 + 1 * (x 0).val = (k 0).val; rw [e0, hk0]; omega
  | ⟨1, _⟩ => show win11_3.index t 1 * 64 + 1 * (x 1).val = (k 1).val; rw [e1, hk1]; omega

abbrev G11 (c : Dev nD) : Spec.M2 1000000 64 :=
  Spec.edge (fun e => V c main_v61 (ix2 e 0)) (fun e => V c main_arg4 (ix2 e 0)) (V c main_v59) (V c main_v60)

theorem point11 (c : Dev nD) (t : Fin cfg11.N) (j : S2000x64.Idx) :
    k11_pay1 (F := Ideal) (Hand.iblk11 V c 0 t) (Hand.iblk11 V c 1 t) (Hand.iblk11 V c 2 t) (Hand.iblk11 V c 3 t) j
      = G11 V c (((cfg11.win 4).blk t).view.emb j) := by
  obtain ⟨p, q, rfl⟩ : ∃ (p : Fin 2000) (q : Fin 64), j = ix2 p q := ⟨j 0, j 1, eq_ix2 j⟩
  have ht : t.val < 500 := by have h := t.isLt; have hN : cfg11.N = 500 := N_11; omega
  have hr : t.val * 2000 + p.val < 1000000 := by have := p.isLt; omega
  obtain ⟨-, -, -, -, -, -, -, -, e0, e1⟩ := idx11 t
  have hi : ((cfg11.win 4).blk t).view.emb (ix2 p q) = (ix2 (⟨t.val * 2000 + p.val, hr⟩ : Fin 1000000) q : S1000000x64.Idx) := by
    funext a
    apply Fin.ext
    match a with
    | ⟨0, _⟩ => show win11_4.index t 0 * 2000 + 1 * p.val = t.val * 2000 + p.val; rw [e0]; omega
    | ⟨1, _⟩ => show win11_4.index t 1 * 64 + 1 * q.val = q.val; rw [e1]; omega
  rw [hi]
  refine (pay11_apply _ _ _ _ p q).trans ?_
  rw [iblk11_0_apply V c t (ix2 p 0) (ix2 (⟨t.val * 2000 + p.val, hr⟩ : Fin 1000000) 0) rfl rfl,
    iblk11_1_apply V c t (ix2 p 0) (ix2 (⟨t.val * 2000 + p.val, hr⟩ : Fin 1000000) 0) rfl rfl,
    iblk11_2_apply V c t (ix2 p q) (ix2 (⟨t.val * 2000 + p.val, hr⟩ : Fin 1000000) q) rfl rfl,
    iblk11_3_apply V c t (ix2 p q) (ix2 (⟨t.val * 2000 + p.val, hr⟩ : Fin 1000000) q) rfl rfl]
  rfl

theorem flushed11_eq (c : Dev nD) (t : Fin cfg11.N) :
    (Hand.dat11 (F := Ideal) V c).flushed 4 t = ((cfg11.win 4).blk t).view.read (Elt Ideal) (G11 V c) := by
  show (cfg11.win 4).cut (grid11.coords t) ((Hand.dat11 V c).after 4 t) = _
  rw [Hand.after11_4]
  unfold Hand.out11
  rw [View.canon_unit_zero zeros11]
  simp only [View.ld_unit_zero (S := S2000x1) zeros11, View.ld_unit_zero (S := S2000x64) zeros11]
  funext j
  exact point11 V c t j

theorem mem_blk11 (t : Fin cfg11.N) (i : S1000000x64.Idx) :
    i ∈ ((cfg11.win 4).blk t).view.set ↔ ∀ a : Fin 2, win11_4.index t a * S2000x64.size a ≤ (i a).val ∧ (i a).val < win11_4.index t a * S2000x64.size a + S2000x64.size a := by
  show i ∈ ((View.whole main_v62).slice (win11_4.rect t)).set ↔ _
  rw [View.set_slice_whole, Rect.mem_set_unit]
  exact Iff.rfl

theorem covered11 (i : S1000000x64.Idx) : ∃ t : Fin cfg11.N, (cfg11.win 4).flush t = true ∧ i ∈ ((cfg11.win 4).blk t).view.set := by
  have hi0 : (i 0).val < 1000000 := (i 0).isLt
  have hi1 : (i 1).val < 64 := (i 1).isLt
  have hN : cfg11.N = 500 := N_11
  have hlt : (i 0).val / 2000 < cfg11.N := by rw [hN]; omega
  obtain ⟨-, -, -, -, -, -, -, -, e0, e1⟩ := idx11 ⟨(i 0).val / 2000, hlt⟩
  refine ⟨⟨(i 0).val / 2000, hlt⟩, flush11_4 _, ?_⟩
  rw [mem_blk11]
  intro a
  match a with
  | ⟨0, _⟩ =>
    show win11_4.index ⟨(i 0).val / 2000, hlt⟩ 0 * 2000 ≤ (i 0).val ∧ (i 0).val < win11_4.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win11_4.index ⟨(i 0).val / 2000, hlt⟩ 1 * 64 ≤ (i 1).val ∧ (i 1).val < win11_4.index ⟨(i 0).val / 2000, hlt⟩ 1 * 64 + 64
    rw [e1]; omega

theorem val11 (c : Dev nD) : (Hand.dat11 (F := Ideal) V c).arrAt 4 cfg11.N
    = Spec.edge (fun e => V c main_v61 (ix2 e 0)) (fun e => V c main_arg4 (ix2 e 0)) (V c main_v59) (V c main_v60) :=
  (Hand.dat11 (F := Ideal) V c).arrAt_eq_of_cover 4 (G11 V c) (fun t _ => flushed11_eq V c t) (covered11)

end Cert.KernelIdeal.Val
end
-- ==== Proof.Val.Blk12.lean ====
import proofs.«408151_j68813966016636_2_alg».proof.Proof.KI.Reg12
import proofs.«408151_j68813966016636_2_alg».proof.Proof.Val.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

theorem iblk12_0_apply (c : Dev nD) (t : Fin cfg12.N) (p : Fin 5000) (k : Fin 64) (r : Fin 100000) (hr : r.val = t.val * 5000 + p.val) :
    (iblk12 V c 0 t : Vec F S5000x64 .f32) (ix2 p k) = (V c main_v49 : S100000x64.Idx → Elt F .f32) (ix2 r k) := by
  obtain ⟨e0, e1, -⟩ := idx_facts12 t
  unfold iblk12
  rw [View.read_apply]
  show V c main_v49 _ = V c main_v49 _
  congr 1
  funext a
  apply Fin.ext
  match a with
  | ⟨0, _⟩ => show win12_0.index t (0 : Fin 2) * 5000 + 1 * p.val = r.val; rw [e0, hr]; omega
  | ⟨1, _⟩ => show win12_0.index t (1 : Fin 2) * 64 + 1 * k.val = k.val; rw [e1]; omega

theorem iblk12_1_apply (c : Dev nD) (t : Fin cfg12.N) (k q : Fin 64) :
    (iblk12 V c 1 t : Vec F S64x64 .f32) (ix2 k q) = (V c main_v67 : S64x64.Idx → Elt F .f32) (ix2 k q) := by
  obtain ⟨-, -, e2, e3, -⟩ := idx_facts12 t
  unfold iblk12
  rw [View.read_apply]
  show V c main_v67 _ = V c main_v67 _
  congr 1
  funext a
  apply Fin.ext
  match a with
  | ⟨0, _⟩ => show win12_1.index t (0 : Fin 2) * 64 + 1 * k.val = k.val; rw [e2]; omega
  | ⟨1, _⟩ => show win12_1.index t (1 : Fin 2) * 64 + 1 * q.val = q.val; rw [e3]; omega

theorem iblk12_2_apply (c : Dev nD) (t : Fin cfg12.N) (z : Fin 1) (q : Fin 64) :
    (iblk12 V c 2 t : Vec F S1x64 .f32) (ix2 z q) = (V c main_v70 : S1x64.Idx → Elt F .f32) (ix2 z q) := by
  obtain ⟨-, -, -, -, e4, e5, -⟩ := idx_facts12 t
  unfold iblk12
  rw [View.read_apply]
  show V c main_v70 _ = V c main_v70 _
  congr 1
  funext a
  apply Fin.ext
  match a with
  | ⟨0, _⟩ => show win12_2.index t (0 : Fin 2) * 1 + 1 * z.val = z.val; rw [e4]; omega
  | ⟨1, _⟩ => show win12_2.index t (1 : Fin 2) * 64 + 1 * q.val = q.val; rw [e5]; omega

theorem iblk12_3_apply (c : Dev nD) (t : Fin cfg12.N) (p : Fin 5000) (q : Fin 64) (r : Fin 100000) (hr : r.val = t.val * 5000 + p.val) :
    (iblk12 V c 3 t : Vec F S5000x64 .f32) (ix2 p q) = (V c main_v65 : S100000x64.Idx → Elt F .f32) (ix2 r q) := by
  obtain ⟨-, -, -, -, -, -, e6, e7, -⟩ := idx_facts12 t
  unfold iblk12
  rw [View.read_apply]
  show V c main_v65 _ = V c main_v65 _
  congr 1
  funext a
  apply Fin.ext
  match a with
  | ⟨0, _⟩ => show win12_3.index t (0 : Fin 2) * 5000 + 1 * p.val = r.val; rw [e6, hr]; omega
  | ⟨1, _⟩ => show win12_3.index t (1 : Fin 2) * 64 + 1 * q.val = q.val; rw [e7]; omega

theorem mem_blk12 (t : Fin cfg12.N) (i : S100000x64.Idx) :
    i ∈ ((cfg12.win 4).blk t).view.set ↔ ∀ a : Fin 2, win12_4.index t a * S5000x64.size a ≤ (i a).val ∧ (i a).val < win12_4.index t a * S5000x64.size a + S5000x64.size a := by
  show i ∈ ((View.whole main_v71).slice (win12_4.rect t)).set ↔ _
  rw [View.set_slice_whole, Rect.mem_set_unit]
  exact Iff.rfl

theorem arr12_of_out (c : Dev nD) (G : S100000x64.Idx → Elt F .f32)
    (hG : ∀ (t : Fin cfg12.N) (p : Fin 5000) (q : Fin 64) (r : Fin 100000), r.val = t.val * 5000 + p.val →
      ((dat12 V c).after 4 t : Vec F S5000x64 .f32) (ix2 p q) = G (ix2 r q)) :
    (dat12 V c).arrAt 4 cfg12.N = G := by
  refine (dat12 V c).arrAt_eq_of_cover 4 G (fun t _ => ?_) (fun i => ?_)
  · obtain ⟨-, -, -, -, -, -, -, -, e8, e9⟩ := idx_facts12 t
    show (cfg12.win 4).cut (grid12.coords t) ((dat12 V c).after 4 t) = _
    refine funext fun (j : S5000x64.Idx) => ?_
    obtain ⟨p, q, rfl⟩ : ∃ (p : Fin 5000) (q : Fin 64), j = ix2 p q := ⟨j 0, j 1, eq_ix2 j⟩
    have hp : p.val < 5000 := p.isLt
    have hN : t.val < 20 := t.isLt
    refine (hG t p q ⟨t.val * 5000 + p.val, by omega⟩ rfl).trans ?_
    rw [View.read_apply]
    show G _ = G _
    congr 1
    funext a
    apply Fin.ext
    match a with
    | ⟨0, _⟩ => show t.val * 5000 + p.val = win12_4.index t (0 : Fin 2) * 5000 + 1 * p.val; rw [e8]; omega
    | ⟨1, _⟩ => show q.val = win12_4.index t (1 : Fin 2) * 64 + 1 * q.val; rw [e9]; omega
  · have hi0 : (i 0).val < 100000 := (i 0).isLt
    have hi1 : (i 1).val < 64 := (i 1).isLt
    have ht : (i 0).val / 5000 < cfg12.N := by rw [show cfg12.N = 20 from N_12]; omega
    obtain ⟨-, -, -, -, -, -, -, -, e8, e9⟩ := idx_facts12 ⟨(i 0).val / 5000, ht⟩
    refine ⟨⟨(i 0).val / 5000, ht⟩, flush12_4 _, ?_⟩
    rw [mem_blk12]
    intro a
    match a with
    | ⟨0, _⟩ => show win12_4.index _ (0 : Fin 2) * 5000 ≤ (i 0).val ∧ (i 0).val < win12_4.index _ (0 : Fin 2) * 5000 + 5000; rw [e8]; show (i 0).val / 5000 * 5000 ≤ _ ∧ _ < (i 0).val / 5000 * 5000 + 5000; omega
    | ⟨1, _⟩ => show win12_4.index _ (1 : Fin 2) * 64 ≤ (i 1).val ∧ (i 1).val < win12_4.index _ (1 : Fin 2) * 64 + 64; rw [e9]; omega

end Cert.KernelIdeal.Val

end
-- ==== Proof.Val.KReg12.lean ====
import proofs.«408151_j68813966016636_2_alg».proof.Proof.Val.Blk12
import proofs.«408151_j68813966016636_2_alg».proof.Proof.Val.Pay1012

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

theorem lin12_off_zero : (![0, 0] : Fin 2 → Nat) = fun _ => 0 := funext fun a => by fin_cases a <;> rfl

theorem out12_apply (x0 : Vec Ideal S5000x64 .f32) (x1 : Vec Ideal S64x64 .f32) (x2 : Vec Ideal S1x64 .f32) (x3 : Vec Ideal S5000x64 .f32)
    (p : Fin 5000) (q : Fin 64) :
    out12 x0 x1 x2 x3 (ix2 p q) = max (((∑ k : Fin 64, x0 (ix2 p k) * x1 (ix2 k q)) + x2 (ix2 0 q)) + x3 (ix2 p q)) 0 := by
  unfold out12
  rw [View.canon_unit_zero lin12_off_zero]
  simp only [View.ld_unit_zero (S := S5000x64) lin12_off_zero, View.ld_unit_zero (S := S64x64) lin12_off_zero,
    View.ld_unit_zero (S := S1x64) lin12_off_zero]
  exact pay12_apply x0 x1 x2 x3 p q

theorem val12 (c : Dev nD) :
    (dat12 (F := Ideal) V c).arrAt 4 cfg12.N
      = Spec.linRes (V c main_v49) (fun j c' => V c main_v67 (ix2 j c')) (fun c' => V c main_v70 (ix2 0 c')) (V c main_v65) := by
  apply arr12_of_out V c
  intro t p q r hr
  rw [after12_4]
  refine (out12_apply (iblk12 V c 0 t) (iblk12 V c 1 t) (iblk12 V c 2 t) (iblk12 V c 3 t) p q).trans ?_
  unfold Spec.linRes
  rw [Spec.of2_ix2]
  unfold Spec.dot
  rw [iblk12_2_apply V c t 0 q, iblk12_3_apply V c t p q r hr]
  refine congrArg (fun s => max ((s + V c main_v70 (ix2 0 q)) + V c main_v65 (ix2 r q)) 0) (Finset.sum_congr rfl fun k _ => ?_)
  rw [iblk12_0_apply V c t p k r hr, iblk12_1_apply V c t k q]

end Cert.KernelIdeal.Val

end
-- ==== Proof.Val.KHostA3.lean ====
import proofs.«408151_j68813966016636_2_alg».proof.Proof.Gen.KernelIdeal.Launch
import proofs.«408151_j68813966016636_2_alg».proof.Proof.Val.Spec
import proofs.«408151_j68813966016636_2_alg».proof.Proof.LibScatterGather
import proofs.«408151_j68813966016636_2_alg».proof.Proof.Val.Pre
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open scoped BigOperators

theorem cast_cast_self {α β : Type} (h1 : α = β) (h2 : β = α) (v : α) : cast h2 (cast h1 v) = v := by
  subst h1; rfl

theorem rd_main_v15 (W : Valuation τ sig (Elt Ideal)) :
    StableHlo.after (hostOps3 (F := Ideal)) W (Proc.devRef .tc main_v15)
      = takeFn (W (Proc.devRef .tc main_v11)) (W (Proc.devRef .tc main_v1)) := by
  show StableHlo.after hostOps3 _ (Proc.devRef .tc main_v15) = _
  after_results_simp
  simp only [StableHlo.TRef.ofBuf, StableHlo.TRef.toBuf, cast_cast_self]
  simp only [cast_eq]
  rfl

theorem rd_main_v15_rows (W : Valuation τ sig (Elt Ideal))
    (hk : ∀ e : Fin 1000000, ((W (Proc.devRef .tc main_v1) : IVec S1000000 32) (ix1 e)).toNat < 100000) :
    (StableHlo.after (hostOps3 (F := Ideal)) W (Proc.devRef .tc main_v15) : Spec.M2 1000000 64)
      = Spec.rows (by decide) (W (Proc.devRef .tc main_v11) : Spec.M2 100000 64)
          (fun e : Fin 1000000 => (W (Proc.devRef .tc main_v1) : IVec S1000000 32) (ix1 e)) := by
  rw [rd_main_v15]
  exact take_eq_rows _ _ hk

theorem rd_main_v16 (W : Valuation τ sig (Elt Ideal)) :
    StableHlo.after (hostOps3_1 (F := Ideal)) W (Proc.devRef .tc main_v16)
      = takeFn (W (Proc.devRef .tc main_v14)) (W (Proc.devRef .tc main_v3)) := by
  show StableHlo.after hostOps3_1 _ (Proc.devRef .tc main_v16) = _
  after_results_simp
  simp only [StableHlo.TRef.ofBuf, StableHlo.TRef.toBuf, cast_cast_self]
  simp only [cast_eq]
  rfl

theorem rd_main_v16_rows (W : Valuation τ sig (Elt Ideal))
    (hk : ∀ e : Fin 1000000, ((W (Proc.devRef .tc main_v3) : IVec S1000000 32) (ix1 e)).toNat < 100000) :
    (StableHlo.after (hostOps3_1 (F := Ideal)) W (Proc.devRef .tc main_v16) : Spec.M2 1000000 64)
      = Spec.rows (by decide) (W (Proc.devRef .tc main_v14) : Spec.M2 100000 64)
          (fun e : Fin 1000000 => (W (Proc.devRef .tc main_v3) : IVec S1000000 32) (ix1 e)) := by
  rw [rd_main_v16]
  exact take_eq_rows _ _ hk

theorem rd_main_v17 (W : Valuation τ sig (Elt Ideal)) :
    StableHlo.after (hostOps3_2 (F := Ideal)) W (Proc.devRef .tc main_v17)
      = (shapeCast S1000000x1 (W (Proc.devRef .tc main_arg3)) shapeCasts_S1000000_S1000000x1 : FVec Ideal S1000000x1 .f32) := by
  show StableHlo.after hostOps3_2 _ (Proc.devRef .tc main_v17) = _
  after_results
  rfl

theorem rd_main_v17_ix (W : Valuation τ sig (Elt Ideal)) (e : Fin 1000000) (u : Fin 1) :
    (StableHlo.after (hostOps3_2 (F := Ideal)) W (Proc.devRef .tc main_v17) : FVec Ideal S1000000x1 .f32) (ix2 e u)
      = (W (Proc.devRef .tc main_arg3) : FVec Ideal S1000000 .f32) (ix1 e) := by
  rw [rd_main_v17]
  refine shapeCast_apply _ _ _ (ix1 e) ?_
  have hu : u.val = 0 := by omega
  rw [Shape.rowMajor_val_one, Shape.rowMajor_val_two]
  show e.val = e.val * 1 + u.val
  omega

theorem rd_main_v37 (W : Valuation τ sig (Elt Ideal)) :
    StableHlo.after (hostOps7 (F := Ideal)) W (Proc.devRef .tc main_v37)
      = takeFn (W (Proc.devRef .tc main_v33)) (W (Proc.devRef .tc main_v1)) := by
  show StableHlo.after hostOps7 _ (Proc.devRef .tc main_v37) = _
  after_results_simp
  simp only [StableHlo.TRef.ofBuf, StableHlo.TRef.toBuf, cast_cast_self]
  simp only [cast_eq]
  rfl

theorem rd_main_v37_rows (W : Valuation τ sig (Elt Ideal))
    (hk : ∀ e : Fin 1000000, ((W (Proc.devRef .tc main_v1) : IVec S1000000 32) (ix1 e)).toNat < 100000) :
    (StableHlo.after (hostOps7 (F := Ideal)) W (Proc.devRef .tc main_v37) : Spec.M2 1000000 64)
      = Spec.rows (by decide) (W (Proc.devRef .tc main_v33) : Spec.M2 100000 64)
          (fun e : Fin 1000000 => (W (Proc.devRef .tc main_v1) : IVec S1000000 32) (ix1 e)) := by
  rw [rd_main_v37]
  exact take_eq_rows _ _ hk

theorem rd_main_v38 (W : Valuation τ sig (Elt Ideal)) :
    StableHlo.after (hostOps7_1 (F := Ideal)) W (Proc.devRef .tc main_v38)
      = takeFn (W (Proc.devRef .tc main_v36)) (W (Proc.devRef .tc main_v3)) := by
  show StableHlo.after hostOps7_1 _ (Proc.devRef .tc main_v38) = _
  after_results_simp
  simp only [StableHlo.TRef.ofBuf, StableHlo.TRef.toBuf, cast_cast_self]
  simp only [cast_eq]
  rfl

theorem rd_main_v38_rows (W : Valuation τ sig (Elt Ideal))
    (hk : ∀ e : Fin 1000000, ((W (Proc.devRef .tc main_v3) : IVec S1000000 32) (ix1 e)).toNat < 100000) :
    (StableHlo.after (hostOps7_1 (F := Ideal)) W (Proc.devRef .tc main_v38) : Spec.M2 1000000 64)
      = Spec.rows (by decide) (W (Proc.devRef .tc main_v36) : Spec.M2 100000 64)
          (fun e : Fin 1000000 => (W (Proc.devRef .tc main_v3) : IVec S1000000 32) (ix1 e)) := by
  rw [rd_main_v38]
  exact take_eq_rows _ _ hk

theorem rd_main_v39 (W : Valuation τ sig (Elt Ideal)) :
    StableHlo.after (hostOps7_2 (F := Ideal)) W (Proc.devRef .tc main_v39)
      = (shapeCast S1000000x1 (W (Proc.devRef .tc main_arg3)) shapeCasts_S1000000_S1000000x1 : FVec Ideal S1000000x1 .f32) := by
  show StableHlo.after hostOps7_2 _ (Proc.devRef .tc main_v39) = _
  after_results
  rfl

theorem rd_main_v39_ix (W : Valuation τ sig (Elt Ideal)) (e : Fin 1000000) (u : Fin 1) :
    (StableHlo.after (hostOps7_2 (F := Ideal)) W (Proc.devRef .tc main_v39) : FVec Ideal S1000000x1 .f32) (ix2 e u)
      = (W (Proc.devRef .tc main_arg3) : FVec Ideal S1000000 .f32) (ix1 e) := by
  rw [rd_main_v39]
  refine shapeCast_apply _ _ _ (ix1 e) ?_
  have hu : u.val = 0 := by omega
  rw [Shape.rowMajor_val_one, Shape.rowMajor_val_two]
  show e.val = e.val * 1 + u.val
  omega

theorem rd_main_v59 (W : Valuation τ sig (Elt Ideal)) :
    StableHlo.after (hostOps11 (F := Ideal)) W (Proc.devRef .tc main_v59)
      = takeFn (W (Proc.devRef .tc main_v55)) (W (Proc.devRef .tc main_v1)) := by
  show StableHlo.after hostOps11 _ (Proc.devRef .tc main_v59) = _
  after_results_simp
  simp only [StableHlo.TRef.ofBuf, StableHlo.TRef.toBuf, cast_cast_self]
  simp only [cast_eq]
  rfl

theorem rd_main_v59_rows (W : Valuation τ sig (Elt Ideal))
    (hk : ∀ e : Fin 1000000, ((W (Proc.devRef .tc main_v1) : IVec S1000000 32) (ix1 e)).toNat < 100000) :
    (StableHlo.after (hostOps11 (F := Ideal)) W (Proc.devRef .tc main_v59) : Spec.M2 1000000 64)
      = Spec.rows (by decide) (W (Proc.devRef .tc main_v55) : Spec.M2 100000 64)
          (fun e : Fin 1000000 => (W (Proc.devRef .tc main_v1) : IVec S1000000 32) (ix1 e)) := by
  rw [rd_main_v59]
  exact take_eq_rows _ _ hk

theorem rd_main_v60 (W : Valuation τ sig (Elt Ideal)) :
    StableHlo.after (hostOps11_1 (F := Ideal)) W (Proc.devRef .tc main_v60)
      = takeFn (W (Proc.devRef .tc main_v58)) (W (Proc.devRef .tc main_v3)) := by
  show StableHlo.after hostOps11_1 _ (Proc.devRef .tc main_v60) = _
  after_results_simp
  simp only [StableHlo.TRef.ofBuf, StableHlo.TRef.toBuf, cast_cast_self]
  simp only [cast_eq]
  rfl

theorem rd_main_v60_rows (W : Valuation τ sig (Elt Ideal))
    (hk : ∀ e : Fin 1000000, ((W (Proc.devRef .tc main_v3) : IVec S1000000 32) (ix1 e)).toNat < 100000) :
    (StableHlo.after (hostOps11_1 (F := Ideal)) W (Proc.devRef .tc main_v60) : Spec.M2 1000000 64)
      = Spec.rows (by decide) (W (Proc.devRef .tc main_v58) : Spec.M2 100000 64)
          (fun e : Fin 1000000 => (W (Proc.devRef .tc main_v3) : IVec S1000000 32) (ix1 e)) := by
  rw [rd_main_v60]
  exact take_eq_rows _ _ hk

theorem rd_main_v61 (W : Valuation τ sig (Elt Ideal)) :
    StableHlo.after (hostOps11_2 (F := Ideal)) W (Proc.devRef .tc main_v61)
      = (shapeCast S1000000x1 (W (Proc.devRef .tc main_arg3)) shapeCasts_S1000000_S1000000x1 : FVec Ideal S1000000x1 .f32) := by
  show StableHlo.after hostOps11_2 _ (Proc.devRef .tc main_v61) = _
  after_results
  rfl

theorem rd_main_v61_ix (W : Valuation τ sig (Elt Ideal)) (e : Fin 1000000) (u : Fin 1) :
    (StableHlo.after (hostOps11_2 (F := Ideal)) W (Proc.devRef .tc main_v61) : FVec Ideal S1000000x1 .f32) (ix2 e u)
      = (W (Proc.devRef .tc main_arg3) : FVec Ideal S1000000 .f32) (ix1 e) := by
  rw [rd_main_v61]
  refine shapeCast_apply _ _ _ (ix1 e) ?_
  have hu : u.val = 0 := by omega
  rw [Shape.rowMajor_val_one, Shape.rowMajor_val_two]
  show e.val = e.val * 1 + u.val
  omega

end Cert.KernelIdeal.Val

end
-- ==== Proof.Val.KHostA4.lean ====
import proofs.«408151_j68813966016636_2_alg».proof.Proof.Gen.KernelIdeal.Launch
import proofs.«408151_j68813966016636_2_alg».proof.Proof.Val.Spec
import proofs.«408151_j68813966016636_2_alg».proof.Proof.LibScatterGather
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open scoped BigOperators

theorem rd_main_v21 (W : Valuation τ sig (Elt Ideal)) :
    StableHlo.after (hostOps4 (F := Ideal)) W (Proc.devRef .tc main_v21)
      = (Host.scatterAdd (F := Ideal) scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W (Proc.devRef .tc main_v3)))
          (W (Proc.devRef .tc main_v18)) : FVec Ideal S100000x64 .f32) := by
  show StableHlo.after hostOps4 _ (Proc.devRef .tc main_v21) = _
  after_results <;> rfl

theorem rd_main_v21_ix (W : Valuation τ sig (Elt Ideal)) (n : Fin 100000) (c : Fin 64) :
    (StableHlo.after (hostOps4 (F := Ideal)) W (Proc.devRef .tc main_v21) : Spec.M2 100000 64) (ix2 n c)
      = Spec.segsum (fun e : Fin 1000000 => (W (Proc.devRef .tc main_v3) : IVec S1000000 32) (ix1 e))
          (W (Proc.devRef .tc main_v18) : Spec.M2 1000000 64) (ix2 n c) := by
  rw [rd_main_v21]
  refine (LibSG.scatterAdd_row_apply scatter_S100000x64_S1000000x1_S1000000x64_1_0_0_1 rfl rfl rfl rfl _ _ _ n c).trans ?_
  rw [Spec.segsum, Spec.of2_ix2]
  have h0 : (broadcastInDim S100000x64 ![] bcast_S_S100000x64 (constant (F := Ideal) S_ .f32 0x00000000#32) : FVec Ideal S100000x64 .f32) (ix2 n c) = (0 : EReal) := by
    refine (broadcastInDim_apply _ _ _ _ ix0 fun a => a.elim0).trans ?_
    exact Ideal.ofBits_zero_f32
  have hk : ∀ e : Fin 1000000, (broadcastInDim S1000000x1 ![0] bcast_S1000000_S1000000x1_0 (W (Proc.devRef .tc main_v3)) : IVec S1000000x1 32) (ix2 e (0 : Fin 1))
      = (W (Proc.devRef .tc main_v3) : IVec S1000000 32) (ix1 e) := fun e =>
    broadcastInDim_apply _ _ _ _ (ix1 e) fun a => match a with | ⟨0, _⟩ => rfl
  rw [h0, zero_add]
  simp only [hk]

theorem rd_main_v21_eq (W : Valuation τ sig (Elt Ideal)) :
    (StableHlo.after (hostOps4 (F := Ideal)) W (Proc.devRef .tc main_v21) : Spec.M2 100000 64)
      = Spec.segsum (fun e : Fin 1000000 => (W (Proc.devRef .tc main_v3) : IVec S1000000 32) (ix1 e))
          (W (Proc.devRef .tc main_v18) : Spec.M2 1000000 64) := by
  funext i
  rw [eq_ix2 i]
  exact rd_main_v21_ix W (i 0) (i 1)

theorem rd_main_v23 (W : Valuation τ sig (Elt Ideal)) :
    StableHlo.after (hostOps4 (F := Ideal)) W (Proc.devRef .tc main_v23)
      = (shapeCast S64x64 (extractStridedSlice S1x64x64 ![0, 0, 0] (W (Proc.devRef .tc main_arg10)) slices_S3x64x64_S1x64x64_0_0_0) shapeCasts_S1x64x64_S64x64 : FVec Ideal S64x64 .f32) := by
  show StableHlo.after hostOps4 _ (Proc.devRef .tc main_v23) = _
  after_results
  rfl

theorem rd_main_v23_ix (W : Valuation τ sig (Elt Ideal)) (j c : Fin 64) :
    (StableHlo.after (hostOps4 (F := Ideal)) W (Proc.devRef .tc main_v23) : FVec Ideal S64x64 .f32) (ix2 j c)
      = (W (Proc.devRef .tc main_arg10) : FVec Ideal S3x64x64 .f32) (ix3 (0 : Fin 3) j c) := by
  rw [rd_main_v23]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v26 (W : Valuation τ sig (Elt Ideal)) :
    StableHlo.after (hostOps4 (F := Ideal)) W (Proc.devRef .tc main_v26)
      = (shapeCast S1x64 (shapeCast S64 (extractStridedSlice S1x64 ![0, 0] (W (Proc.devRef .tc main_arg11)) slices_S3x64_S1x64_0_0) shapeCasts_S1x64_S64) shapeCasts_S64_S1x64 : FVec Ideal S1x64 .f32) := by
  show StableHlo.after hostOps4 _ (Proc.devRef .tc main_v26) = _
  after_results
  rfl

theorem rd_main_v26_ix (W : Valuation τ sig (Elt Ideal)) (u : Fin 1) (c : Fin 64) :
    (StableHlo.after (hostOps4 (F := Ideal)) W (Proc.devRef .tc main_v26) : FVec Ideal S1x64 .f32) (ix2 u c)
      = (W (Proc.devRef .tc main_arg11) : FVec Ideal S3x64 .f32) (ix2 (0 : Fin 3) c) := by
  rw [rd_main_v26]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

theorem rd_main_v43 (W : Valuation τ sig (Elt Ideal)) :
    StableHlo.after (hostOps8 (F := Ideal)) W (Proc.devRef .tc main_v43)
      = (Host.scatterAdd (F := Ideal) scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W (Proc.devRef .tc main_v3)))
          (W (Proc.devRef .tc main_v40)) : FVec Ideal S100000x64 .f32) := by
  show StableHlo.after hostOps8 _ (Proc.devRef .tc main_v43) = _
  after_results <;> rfl

theorem rd_main_v43_ix (W : Valuation τ sig (Elt Ideal)) (n : Fin 100000) (c : Fin 64) :
    (StableHlo.after (hostOps8 (F := Ideal)) W (Proc.devRef .tc main_v43) : Spec.M2 100000 64) (ix2 n c)
      = Spec.segsum (fun e : Fin 1000000 => (W (Proc.devRef .tc main_v3) : IVec S1000000 32) (ix1 e))
          (W (Proc.devRef .tc main_v40) : Spec.M2 1000000 64) (ix2 n c) := by
  rw [rd_main_v43]
  refine (LibSG.scatterAdd_row_apply scatter_S100000x64_S1000000x1_S1000000x64_1_0_0_1 rfl rfl rfl rfl _ _ _ n c).trans ?_
  rw [Spec.segsum, Spec.of2_ix2]
  have h0 : (broadcastInDim S100000x64 ![] bcast_S_S100000x64 (constant (F := Ideal) S_ .f32 0x00000000#32) : FVec Ideal S100000x64 .f32) (ix2 n c) = (0 : EReal) := by
    refine (broadcastInDim_apply _ _ _ _ ix0 fun a => a.elim0).trans ?_
    exact Ideal.ofBits_zero_f32
  have hk : ∀ e : Fin 1000000, (broadcastInDim S1000000x1 ![0] bcast_S1000000_S1000000x1_0 (W (Proc.devRef .tc main_v3)) : IVec S1000000x1 32) (ix2 e (0 : Fin 1))
      = (W (Proc.devRef .tc main_v3) : IVec S1000000 32) (ix1 e) := fun e =>
    broadcastInDim_apply _ _ _ _ (ix1 e) fun a => match a with | ⟨0, _⟩ => rfl
  rw [h0, zero_add]
  simp only [hk]

theorem rd_main_v43_eq (W : Valuation τ sig (Elt Ideal)) :
    (StableHlo.after (hostOps8 (F := Ideal)) W (Proc.devRef .tc main_v43) : Spec.M2 100000 64)
      = Spec.segsum (fun e : Fin 1000000 => (W (Proc.devRef .tc main_v3) : IVec S1000000 32) (ix1 e))
          (W (Proc.devRef .tc main_v40) : Spec.M2 1000000 64) := by
  funext i
  rw [eq_ix2 i]
  exact rd_main_v43_ix W (i 0) (i 1)

theorem rd_main_v45 (W : Valuation τ sig (Elt Ideal)) :
    StableHlo.after (hostOps8 (F := Ideal)) W (Proc.devRef .tc main_v45)
      = (shapeCast S64x64 (extractStridedSlice S1x64x64 ![1, 0, 0] (W (Proc.devRef .tc main_arg10)) slices_S3x64x64_S1x64x64_1_0_0) shapeCasts_S1x64x64_S64x64 : FVec Ideal S64x64 .f32) := by
  show StableHlo.after hostOps8 _ (Proc.devRef .tc main_v45) = _
  after_results
  rfl

theorem rd_main_v45_ix (W : Valuation τ sig (Elt Ideal)) (j c : Fin 64) :
    (StableHlo.after (hostOps8 (F := Ideal)) W (Proc.devRef .tc main_v45) : FVec Ideal S64x64 .f32) (ix2 j c)
      = (W (Proc.devRef .tc main_arg10) : FVec Ideal S3x64x64 .f32) (ix3 (1 : Fin 3) j c) := by
  rw [rd_main_v45]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v48 (W : Valuation τ sig (Elt Ideal)) :
    StableHlo.after (hostOps8 (F := Ideal)) W (Proc.devRef .tc main_v48)
      = (shapeCast S1x64 (shapeCast S64 (extractStridedSlice S1x64 ![1, 0] (W (Proc.devRef .tc main_arg11)) slices_S3x64_S1x64_1_0) shapeCasts_S1x64_S64) shapeCasts_S64_S1x64 : FVec Ideal S1x64 .f32) := by
  show StableHlo.after hostOps8 _ (Proc.devRef .tc main_v48) = _
  after_results
  rfl

theorem rd_main_v48_ix (W : Valuation τ sig (Elt Ideal)) (u : Fin 1) (c : Fin 64) :
    (StableHlo.after (hostOps8 (F := Ideal)) W (Proc.devRef .tc main_v48) : FVec Ideal S1x64 .f32) (ix2 u c)
      = (W (Proc.devRef .tc main_arg11) : FVec Ideal S3x64 .f32) (ix2 (1 : Fin 3) c) := by
  rw [rd_main_v48]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

theorem rd_main_v65 (W : Valuation τ sig (Elt Ideal)) :
    StableHlo.after (hostOps12 (F := Ideal)) W (Proc.devRef .tc main_v65)
      = (Host.scatterAdd (F := Ideal) scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (W (Proc.devRef .tc main_v3)))
          (W (Proc.devRef .tc main_v62)) : FVec Ideal S100000x64 .f32) := by
  show StableHlo.after hostOps12 _ (Proc.devRef .tc main_v65) = _
  after_results <;> rfl

theorem rd_main_v65_ix (W : Valuation τ sig (Elt Ideal)) (n : Fin 100000) (c : Fin 64) :
    (StableHlo.after (hostOps12 (F := Ideal)) W (Proc.devRef .tc main_v65) : Spec.M2 100000 64) (ix2 n c)
      = Spec.segsum (fun e : Fin 1000000 => (W (Proc.devRef .tc main_v3) : IVec S1000000 32) (ix1 e))
          (W (Proc.devRef .tc main_v62) : Spec.M2 1000000 64) (ix2 n c) := by
  rw [rd_main_v65]
  refine (LibSG.scatterAdd_row_apply scatter_S100000x64_S1000000x1_S1000000x64_1_0_0_1 rfl rfl rfl rfl _ _ _ n c).trans ?_
  rw [Spec.segsum, Spec.of2_ix2]
  have h0 : (broadcastInDim S100000x64 ![] bcast_S_S100000x64 (constant (F := Ideal) S_ .f32 0x00000000#32) : FVec Ideal S100000x64 .f32) (ix2 n c) = (0 : EReal) := by
    refine (broadcastInDim_apply _ _ _ _ ix0 fun a => a.elim0).trans ?_
    exact Ideal.ofBits_zero_f32
  have hk : ∀ e : Fin 1000000, (broadcastInDim S1000000x1 ![0] bcast_S1000000_S1000000x1_0 (W (Proc.devRef .tc main_v3)) : IVec S1000000x1 32) (ix2 e (0 : Fin 1))
      = (W (Proc.devRef .tc main_v3) : IVec S1000000 32) (ix1 e) := fun e =>
    broadcastInDim_apply _ _ _ _ (ix1 e) fun a => match a with | ⟨0, _⟩ => rfl
  rw [h0, zero_add]
  simp only [hk]

theorem rd_main_v65_eq (W : Valuation τ sig (Elt Ideal)) :
    (StableHlo.after (hostOps12 (F := Ideal)) W (Proc.devRef .tc main_v65) : Spec.M2 100000 64)
      = Spec.segsum (fun e : Fin 1000000 => (W (Proc.devRef .tc main_v3) : IVec S1000000 32) (ix1 e))
          (W (Proc.devRef .tc main_v62) : Spec.M2 1000000 64) := by
  funext i
  rw [eq_ix2 i]
  exact rd_main_v65_ix W (i 0) (i 1)

theorem rd_main_v67 (W : Valuation τ sig (Elt Ideal)) :
    StableHlo.after (hostOps12 (F := Ideal)) W (Proc.devRef .tc main_v67)
      = (shapeCast S64x64 (extractStridedSlice S1x64x64 ![2, 0, 0] (W (Proc.devRef .tc main_arg10)) slices_S3x64x64_S1x64x64_2_0_0) shapeCasts_S1x64x64_S64x64 : FVec Ideal S64x64 .f32) := by
  show StableHlo.after hostOps12 _ (Proc.devRef .tc main_v67) = _
  after_results
  rfl

theorem rd_main_v67_ix (W : Valuation τ sig (Elt Ideal)) (j c : Fin 64) :
    (StableHlo.after (hostOps12 (F := Ideal)) W (Proc.devRef .tc main_v67) : FVec Ideal S64x64 .f32) (ix2 j c)
      = (W (Proc.devRef .tc main_arg10) : FVec Ideal S3x64x64 .f32) (ix3 (2 : Fin 3) j c) := by
  rw [rd_main_v67]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v70 (W : Valuation τ sig (Elt Ideal)) :
    StableHlo.after (hostOps12 (F := Ideal)) W (Proc.devRef .tc main_v70)
      = (shapeCast S1x64 (shapeCast S64 (extractStridedSlice S1x64 ![2, 0] (W (Proc.devRef .tc main_arg11)) slices_S3x64_S1x64_2_0) shapeCasts_S1x64_S64) shapeCasts_S64_S1x64 : FVec Ideal S1x64 .f32) := by
  show StableHlo.after hostOps12 _ (Proc.devRef .tc main_v70) = _
  after_results
  rfl

theorem rd_main_v70_ix (W : Valuation τ sig (Elt Ideal)) (u : Fin 1) (c : Fin 64) :
    (StableHlo.after (hostOps12 (F := Ideal)) W (Proc.devRef .tc main_v70) : FVec Ideal S1x64 .f32) (ix2 u c)
      = (W (Proc.devRef .tc main_arg11) : FVec Ideal S3x64 .f32) (ix2 (2 : Fin 3) c) := by
  rw [rd_main_v70]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

end Cert.KernelIdeal.Val

end
-- ==== Proof.Val.KChainA0.lean ====
import proofs.«408151_j68813966016636_2_alg».proof.Proof.KI.RegionsP
import proofs.«408151_j68813966016636_2_alg».proof.Proof.Val.Spec

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

open Lean Elab Tactic in
elab "keep_down " hi:num lo:num : tactic => do
  let h := hi.getNat
  let l := lo.getNat
  for k in [0:h - l] do
    let j := h - k
    let nm := mkIdent (Name.mkSimple s!"V{j}_of")
    if j == 1 then
      evalTactic (← `(tactic| refine Eq.trans ($nm _ _ _ (by decide)) ?_))
    else
      evalTactic (← `(tactic| refine Eq.trans ($nm _ _ _ _ (by decide)) ?_))

variable (m : (ℓ : Loc nD τ sig) → Buf (Elt Ideal) ℓ) (outs : GenP.Outs (F := Ideal))

def argsK (c : Dev nD) : Cert.Spec.Args where
  x := m ((c : Thread nD τ).loc main_arg0)
  ei := m ((c : Thread nD τ).loc main_arg1)
  bat := m ((c : Thread nD τ).loc main_arg2)
  attr := m ((c : Thread nD τ).loc main_arg3)
  atten := m ((c : Thread nD τ).loc main_arg4)
  we := m ((c : Thread nD τ).loc main_arg5)
  be := m ((c : Thread nD τ).loc main_arg6)
  w1 := m ((c : Thread nD τ).loc main_arg7)
  b1 := m ((c : Thread nD τ).loc main_arg8)
  w2 := m ((c : Thread nD τ).loc main_arg9)
  w3 := m ((c : Thread nD τ).loc main_arg10)
  b3 := m ((c : Thread nD τ).loc main_arg11)
  wf1 := m ((c : Thread nD τ).loc main_arg12)
  bf1 := m ((c : Thread nD τ).loc main_arg13)
  wf2 := m ((c : Thread nD τ).loc main_arg14)
  bf2 := m ((c : Thread nD τ).loc main_arg15)

def nattG (c : Dev nD) : Cert.Spec.M2 100000 1 := V41 m outs c main_v90

theorem lin_congr {n k h : ℕ} {x x' : Spec.M2 n k} {w w' : Fin k → Fin h → EReal} {b b' : Fin h → EReal}
    (hx : x = x') (hw : ∀ j c, w j c = w' j c) (hb : ∀ c, b c = b' c) : Spec.lin x w b = Spec.lin x' w' b' := by
  obtain rfl := hx
  obtain rfl : w = w' := funext fun j => funext (hw j)
  obtain rfl : b = b' := funext hb
  rfl

theorem linNB_congr {n k h : ℕ} {x x' : Spec.M2 n k} {w w' : Fin k → Fin h → EReal}
    (hx : x = x') (hw : ∀ j c, w j c = w' j c) : Spec.linNB x w = Spec.linNB x' w' := by
  obtain rfl := hx
  obtain rfl : w = w' := funext fun j => funext (hw j)
  rfl

theorem linRes_congr {n k h : ℕ} {x x' : Spec.M2 n k} {w w' : Fin k → Fin h → EReal} {b b' : Fin h → EReal}
    {r r' : Spec.M2 n h} (hx : x = x') (hw : ∀ j c, w j c = w' j c) (hb : ∀ c, b c = b' c) (hr : r = r') :
    Spec.linRes x w b r = Spec.linRes x' w' b' r' := by
  obtain rfl := hx
  obtain rfl : w = w' := funext fun j => funext (hw j)
  obtain rfl : b = b' := funext hb
  obtain rfl := hr
  rfl

theorem edge_congr {E h : ℕ} {p p' q q' : Fin E → EReal} {a a' b b' : Spec.M2 E h}
    (hp : ∀ e, p e = p' e) (hq : ∀ e, q e = q' e) (ha : a = a') (hb : b = b') :
    Spec.edge p q a b = Spec.edge p' q' a' b' := by
  obtain rfl : p = p' := funext hp
  obtain rfl : q = q' := funext hq
  obtain rfl := ha
  obtain rfl := hb
  rfl

theorem rows_congr {N h E : ℕ} (hN : 0 < N) {t t' : Spec.M2 N h} {key key' : Fin E → BitVec 32}
    (ht : t = t') (hk : ∀ e, key e = key' e) : Spec.rows hN t key = Spec.rows hN t' key' := by
  obtain rfl := ht
  obtain rfl : key = key' := funext hk
  rfl

theorem segsum_congr {N h E : ℕ} {key key' : Fin E → BitVec 32} {u u' : Spec.M2 E h}
    (hk : ∀ e, key e = key' e) (hu : u = u') : (Spec.segsum key u : Spec.M2 N h) = Spec.segsum key' u' := by
  obtain rfl : key = key' := funext hk
  obtain rfl := hu
  rfl

end Cert.KernelIdeal.Val

end
-- ==== Proof.Val.KHostA0.lean ====
import proofs.«408151_j68813966016636_2_alg».proof.Proof.Gen.KernelIdeal.Launch
import proofs.«408151_j68813966016636_2_alg».proof.Proof.Val.Spec
import proofs.«408151_j68813966016636_2_alg».proof.Proof.LibScatterGather
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open scoped BigOperators

theorem rd_main_v1 (W : Valuation τ sig (Elt Ideal)) :
    StableHlo.after (hostOps0 (F := Ideal)) W (Proc.devRef .tc main_v1)
      = (shapeCast S1000000 (extractStridedSlice S1x1000000 ![0, 0] (W (Proc.devRef .tc main_arg1)) slices_S2x1000000_S1x1000000_0_0) shapeCasts_S1x1000000_S1000000 : IVec S1000000 32) := by
  show StableHlo.after hostOps0 _ (Proc.devRef .tc main_v1) = _
  after_results
  rfl

theorem rd_main_v1_ix (W : Valuation τ sig (Elt Ideal)) (e : Fin 1000000) :
    (StableHlo.after (hostOps0 (F := Ideal)) W (Proc.devRef .tc main_v1) : IVec S1000000 32) (ix1 e)
      = (W (Proc.devRef .tc main_arg1) : IVec S2x1000000 32) (ix2 (0 : Fin 2) e) := by
  rw [rd_main_v1]
  refine (shapeCast_1a_a_apply _ _ e).trans ?_
  refine extractStridedSlice_apply _ _ _ _ _ fun a => ?_
  match a with
  | ⟨0, _⟩ => rfl
  | ⟨1, _⟩ =>
    show e.val = 0 + e.val
    omega

theorem rd_main_v3 (W : Valuation τ sig (Elt Ideal)) :
    StableHlo.after (hostOps0 (F := Ideal)) W (Proc.devRef .tc main_v3)
      = (shapeCast S1000000 (extractStridedSlice S1x1000000 ![1, 0] (W (Proc.devRef .tc main_arg1)) slices_S2x1000000_S1x1000000_1_0) shapeCasts_S1x1000000_S1000000 : IVec S1000000 32) := by
  show StableHlo.after hostOps0 _ (Proc.devRef .tc main_v3) = _
  after_results
  rfl

theorem rd_main_v3_ix (W : Valuation τ sig (Elt Ideal)) (e : Fin 1000000) :
    (StableHlo.after (hostOps0 (F := Ideal)) W (Proc.devRef .tc main_v3) : IVec S1000000 32) (ix1 e)
      = (W (Proc.devRef .tc main_arg1) : IVec S2x1000000 32) (ix2 (1 : Fin 2) e) := by
  rw [rd_main_v3]
  refine (shapeCast_1a_a_apply _ _ e).trans ?_
  refine extractStridedSlice_apply _ _ _ _ _ fun a => ?_
  match a with
  | ⟨0, _⟩ => rfl
  | ⟨1, _⟩ =>
    show e.val = 0 + e.val
    omega

theorem rd_main_v4 (W : Valuation τ sig (Elt Ideal)) :
    StableHlo.after (hostOps0 (F := Ideal)) W (Proc.devRef .tc main_v4)
      = (shapeCast S1x64 (W (Proc.devRef .tc main_arg6)) shapeCasts_S64_S1x64 : FVec Ideal S1x64 .f32) := by
  show StableHlo.after hostOps0 _ (Proc.devRef .tc main_v4) = _
  after_results
  rfl

theorem rd_main_v4_ix (W : Valuation τ sig (Elt Ideal)) (u : Fin 1) (c : Fin 64) :
    (StableHlo.after (hostOps0 (F := Ideal)) W (Proc.devRef .tc main_v4) : FVec Ideal S1x64 .f32) (ix2 u c)
      = (W (Proc.devRef .tc main_arg6) : FVec Ideal S64 .f32) (ix1 c) := by
  rw [rd_main_v4]
  exact shapeCast_a_1a_apply _ _ u c

end Cert.KernelIdeal.Val

end
-- ==== Proof.Val.KHostA1.lean ====
import proofs.«408151_j68813966016636_2_alg».proof.Proof.Gen.KernelIdeal.Launch
import proofs.«408151_j68813966016636_2_alg».proof.Proof.Val.Spec
import proofs.«408151_j68813966016636_2_alg».proof.Proof.LibScatterGather
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open scoped BigOperators

theorem rd_main_v7 (W : Valuation τ sig (Elt Ideal)) :
    StableHlo.after (hostOps1 (F := Ideal)) W (Proc.devRef .tc main_v7)
      = (shapeCast S64x64 (extractStridedSlice S1x64x64 ![0, 0, 0] (W (Proc.devRef .tc main_arg7)) slices_S3x64x64_S1x64x64_0_0_0) shapeCasts_S1x64x64_S64x64 : FVec Ideal S64x64 .f32) := by
  show StableHlo.after hostOps1 _ (Proc.devRef .tc main_v7) = _
  after_results
  rfl

theorem rd_main_v7_ix (W : Valuation τ sig (Elt Ideal)) (j c : Fin 64) :
    (StableHlo.after (hostOps1 (F := Ideal)) W (Proc.devRef .tc main_v7) : FVec Ideal S64x64 .f32) (ix2 j c)
      = (W (Proc.devRef .tc main_arg7) : FVec Ideal S3x64x64 .f32) (ix3 (0 : Fin 3) j c) := by
  rw [rd_main_v7]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v10 (W : Valuation τ sig (Elt Ideal)) :
    StableHlo.after (hostOps1 (F := Ideal)) W (Proc.devRef .tc main_v10)
      = (shapeCast S1x64 (shapeCast S64 (extractStridedSlice S1x64 ![0, 0] (W (Proc.devRef .tc main_arg8)) slices_S3x64_S1x64_0_0) shapeCasts_S1x64_S64) shapeCasts_S64_S1x64 : FVec Ideal S1x64 .f32) := by
  show StableHlo.after hostOps1 _ (Proc.devRef .tc main_v10) = _
  after_results
  rfl

theorem rd_main_v10_ix (W : Valuation τ sig (Elt Ideal)) (u : Fin 1) (c : Fin 64) :
    (StableHlo.after (hostOps1 (F := Ideal)) W (Proc.devRef .tc main_v10) : FVec Ideal S1x64 .f32) (ix2 u c)
      = (W (Proc.devRef .tc main_arg8) : FVec Ideal S3x64 .f32) (ix2 (0 : Fin 3) c) := by
  rw [rd_main_v10]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

theorem rd_main_v29 (W : Valuation τ sig (Elt Ideal)) :
    StableHlo.after (hostOps5 (F := Ideal)) W (Proc.devRef .tc main_v29)
      = (shapeCast S64x64 (extractStridedSlice S1x64x64 ![1, 0, 0] (W (Proc.devRef .tc main_arg7)) slices_S3x64x64_S1x64x64_1_0_0) shapeCasts_S1x64x64_S64x64 : FVec Ideal S64x64 .f32) := by
  show StableHlo.after hostOps5 _ (Proc.devRef .tc main_v29) = _
  after_results
  rfl

theorem rd_main_v29_ix (W : Valuation τ sig (Elt Ideal)) (j c : Fin 64) :
    (StableHlo.after (hostOps5 (F := Ideal)) W (Proc.devRef .tc main_v29) : FVec Ideal S64x64 .f32) (ix2 j c)
      = (W (Proc.devRef .tc main_arg7) : FVec Ideal S3x64x64 .f32) (ix3 (1 : Fin 3) j c) := by
  rw [rd_main_v29]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v32 (W : Valuation τ sig (Elt Ideal)) :
    StableHlo.after (hostOps5 (F := Ideal)) W (Proc.devRef .tc main_v32)
      = (shapeCast S1x64 (shapeCast S64 (extractStridedSlice S1x64 ![1, 0] (W (Proc.devRef .tc main_arg8)) slices_S3x64_S1x64_1_0) shapeCasts_S1x64_S64) shapeCasts_S64_S1x64 : FVec Ideal S1x64 .f32) := by
  show StableHlo.after hostOps5 _ (Proc.devRef .tc main_v32) = _
  after_results
  rfl

theorem rd_main_v32_ix (W : Valuation τ sig (Elt Ideal)) (u : Fin 1) (c : Fin 64) :
    (StableHlo.after (hostOps5 (F := Ideal)) W (Proc.devRef .tc main_v32) : FVec Ideal S1x64 .f32) (ix2 u c)
      = (W (Proc.devRef .tc main_arg8) : FVec Ideal S3x64 .f32) (ix2 (1 : Fin 3) c) := by
  rw [rd_main_v32]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

theorem rd_main_v51 (W : Valuation τ sig (Elt Ideal)) :
    StableHlo.after (hostOps9 (F := Ideal)) W (Proc.devRef .tc main_v51)
      = (shapeCast S64x64 (extractStridedSlice S1x64x64 ![2, 0, 0] (W (Proc.devRef .tc main_arg7)) slices_S3x64x64_S1x64x64_2_0_0) shapeCasts_S1x64x64_S64x64 : FVec Ideal S64x64 .f32) := by
  show StableHlo.after hostOps9 _ (Proc.devRef .tc main_v51) = _
  after_results
  rfl

theorem rd_main_v51_ix (W : Valuation τ sig (Elt Ideal)) (j c : Fin 64) :
    (StableHlo.after (hostOps9 (F := Ideal)) W (Proc.devRef .tc main_v51) : FVec Ideal S64x64 .f32) (ix2 j c)
      = (W (Proc.devRef .tc main_arg7) : FVec Ideal S3x64x64 .f32) (ix3 (2 : Fin 3) j c) := by
  rw [rd_main_v51]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v54 (W : Valuation τ sig (Elt Ideal)) :
    StableHlo.after (hostOps9 (F := Ideal)) W (Proc.devRef .tc main_v54)
      = (shapeCast S1x64 (shapeCast S64 (extractStridedSlice S1x64 ![2, 0] (W (Proc.devRef .tc main_arg8)) slices_S3x64_S1x64_2_0) shapeCasts_S1x64_S64) shapeCasts_S64_S1x64 : FVec Ideal S1x64 .f32) := by
  show StableHlo.after hostOps9 _ (Proc.devRef .tc main_v54) = _
  after_results
  rfl

theorem rd_main_v54_ix (W : Valuation τ sig (Elt Ideal)) (u : Fin 1) (c : Fin 64) :
    (StableHlo.after (hostOps9 (F := Ideal)) W (Proc.devRef .tc main_v54) : FVec Ideal S1x64 .f32) (ix2 u c)
      = (W (Proc.devRef .tc main_arg8) : FVec Ideal S3x64 .f32) (ix2 (2 : Fin 3) c) := by
  rw [rd_main_v54]
  refine (shapeCast_a_1a_apply _ _ u c).trans ?_
  refine (shapeCast_1a_a_apply _ _ c).trans ?_
  refine extractStridedSlice_apply _ _ _ _ _ fun a => ?_
  match a with
  | ⟨0, _⟩ => rfl
  | ⟨1, _⟩ =>
    show c.val = 0 + c.val
    omega

theorem rd_main_v13 (W : Valuation τ sig (Elt Ideal)) :
    StableHlo.after (hostOps2 (F := Ideal)) W (Proc.devRef .tc main_v13)
      = (shapeCast S64x64 (extractStridedSlice S1x64x64 ![0, 0, 0] (W (Proc.devRef .tc main_arg9)) slices_S3x64x64_S1x64x64_0_0_0) shapeCasts_S1x64x64_S64x64 : FVec Ideal S64x64 .f32) := by
  show StableHlo.after hostOps2 _ (Proc.devRef .tc main_v13) = _
  after_results
  rfl

theorem rd_main_v13_ix (W : Valuation τ sig (Elt Ideal)) (j c : Fin 64) :
    (StableHlo.after (hostOps2 (F := Ideal)) W (Proc.devRef .tc main_v13) : FVec Ideal S64x64 .f32) (ix2 j c)
      = (W (Proc.devRef .tc main_arg9) : FVec Ideal S3x64x64 .f32) (ix3 (0 : Fin 3) j c) := by
  rw [rd_main_v13]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v35 (W : Valuation τ sig (Elt Ideal)) :
    StableHlo.after (hostOps6 (F := Ideal)) W (Proc.devRef .tc main_v35)
      = (shapeCast S64x64 (extractStridedSlice S1x64x64 ![1, 0, 0] (W (Proc.devRef .tc main_arg9)) slices_S3x64x64_S1x64x64_1_0_0) shapeCasts_S1x64x64_S64x64 : FVec Ideal S64x64 .f32) := by
  show StableHlo.after hostOps6 _ (Proc.devRef .tc main_v35) = _
  after_results
  rfl

theorem rd_main_v35_ix (W : Valuation τ sig (Elt Ideal)) (j c : Fin 64) :
    (StableHlo.after (hostOps6 (F := Ideal)) W (Proc.devRef .tc main_v35) : FVec Ideal S64x64 .f32) (ix2 j c)
      = (W (Proc.devRef .tc main_arg9) : FVec Ideal S3x64x64 .f32) (ix3 (1 : Fin 3) j c) := by
  rw [rd_main_v35]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

theorem rd_main_v57 (W : Valuation τ sig (Elt Ideal)) :
    StableHlo.after (hostOps10 (F := Ideal)) W (Proc.devRef .tc main_v57)
      = (shapeCast S64x64 (extractStridedSlice S1x64x64 ![2, 0, 0] (W (Proc.devRef .tc main_arg9)) slices_S3x64x64_S1x64x64_2_0_0) shapeCasts_S1x64x64_S64x64 : FVec Ideal S64x64 .f32) := by
  show StableHlo.after hostOps10 _ (Proc.devRef .tc main_v57) = _
  after_results
  rfl

theorem rd_main_v57_ix (W : Valuation τ sig (Elt Ideal)) (j c : Fin 64) :
    (StableHlo.after (hostOps10 (F := Ideal)) W (Proc.devRef .tc main_v57) : FVec Ideal S64x64 .f32) (ix2 j c)
      = (W (Proc.devRef .tc main_arg9) : FVec Ideal S3x64x64 .f32) (ix3 (2 : Fin 3) j c) := by
  rw [rd_main_v57]
  refine (shapeCast_1ab_ab_apply _ _ j c).trans ?_
  refine extractStridedSlice_apply _ _ _ _ _ fun a => ?_
  match a with
  | ⟨0, _⟩ => rfl
  | ⟨1, _⟩ =>
    show j.val = 0 + j.val
    omega
  | ⟨2, _⟩ =>
    show c.val = 0 + c.val
    omega

end Cert.KernelIdeal.Val

end
-- ==== Proof.Val.KChainA1.lean ====
import proofs.«408151_j68813966016636_2_alg».proof.Proof.Val.KChainA0
import proofs.«408151_j68813966016636_2_alg».proof.Proof.Val.KHostA0
import proofs.«408151_j68813966016636_2_alg».proof.Proof.Val.KHostA1

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : GenP.Outs (F := Ideal)) (c : Dev nD)

theorem src_V1 (e : Fin 1000000) : (V1 m c main_v1 : IVec S1000000 32) (ix1 e) = (argsK m c).src e :=
  rd_main_v1_ix (V0 m c) e

theorem dst_V1 (e : Fin 1000000) : (V1 m c main_v3 : IVec S1000000 32) (ix1 e) = (argsK m c).dst e :=
  rd_main_v3_ix (V0 m c) e

theorem s_h0
    (e0 : V2 m outs c main_v5 = Spec.lin (n := 100000) (k := 4) (h := 64) (V1 m c main_arg0)
      (fun j c' => (V1 m c main_arg5 : Spec.M2 4 64) (ix2 j c')) (fun c' => (V1 m c main_v4 : Spec.M2 1 64) (ix2 0 c'))) :
    V2 m outs c main_v5 = (argsK m c).h0 := by
  refine e0.trans (lin_congr ?_ (fun j c' => ?_) (fun c' => ?_))
  · keep_down 1 0; rfl
  · exact congrFun (show V1 m c main_arg5 = (argsK m c).we from by keep_down 1 0; rfl) _
  · exact rd_main_v4_ix (V0 m c) 0 c'

theorem s_a0
    (e1 : V4 m outs c main_v11 = Spec.lin (n := 100000) (k := 64) (h := 64) (V3 m outs c main_v5)
      (fun j c' => (V3 m outs c main_v7 : Spec.M2 64 64) (ix2 j c')) (fun c' => (V3 m outs c main_v10 : Spec.M2 1 64) (ix2 0 c')))
    (hh : V2 m outs c main_v5 = (argsK m c).h0) :
    V4 m outs c main_v11 = (argsK m c).aOf 0 (argsK m c).h0 := by
  refine e1.trans (lin_congr ?_ (fun j c' => ?_) (fun c' => ?_))
  · keep_down 3 2; exact hh
  · refine (rd_main_v7_ix (V2 m outs c) j c').trans ?_
    exact congrFun (show V2 m outs c main_arg7 = (argsK m c).w1 from by keep_down 2 0; rfl) _
  · refine (rd_main_v10_ix (V2 m outs c) 0 c').trans ?_
    exact congrFun (show V2 m outs c main_arg8 = (argsK m c).b1 from by keep_down 2 0; rfl) _

theorem s_b0
    (e2 : V6 m outs c main_v14 = Spec.linNB (n := 100000) (k := 64) (h := 64) (V5 m outs c main_v5)
      (fun j c' => (V5 m outs c main_v13 : Spec.M2 64 64) (ix2 j c')))
    (hh : V2 m outs c main_v5 = (argsK m c).h0) :
    V6 m outs c main_v14 = (argsK m c).bOf 0 (argsK m c).h0 := by
  refine e2.trans (linNB_congr ?_ (fun j c' => ?_))
  · keep_down 5 2; exact hh
  · refine (rd_main_v13_ix (V4 m outs c) j c').trans ?_
    exact congrFun (show V4 m outs c main_arg9 = (argsK m c).w2 from by keep_down 4 0; rfl) _

theorem s_msg0
    (e3 : V10 m outs c main_v18 = Spec.edge (E := 1000000) (h := 64)
      (fun e => (V9 m outs c main_v17 : Spec.M2 1000000 1) (ix2 e 0)) (fun e => (V9 m outs c main_arg4 : Spec.M2 1000000 1) (ix2 e 0))
      (V9 m outs c main_v15) (V9 m outs c main_v16))
    (hk : ∀ (r : Fin 2) (e : Fin 1000000), ((argsK m c).ei (ix2 r e)).toNat < 100000)
    (t15 : (∀ e : Fin 1000000, ((V6 m outs c main_v1 : IVec S1000000 32) (ix1 e)).toNat < 100000) →
      V7 m outs c main_v15 = Spec.rows (N := 100000) (h := 64) (E := 1000000) (by decide) (V6 m outs c main_v11)
      (fun e => (V6 m outs c main_v1 : IVec S1000000 32) (ix1 e)))
    (t16 : (∀ e : Fin 1000000, ((V7 m outs c main_v3 : IVec S1000000 32) (ix1 e)).toNat < 100000) →
      V8 m outs c main_v16 = Spec.rows (N := 100000) (h := 64) (E := 1000000) (by decide) (V7 m outs c main_v14)
      (fun e => (V7 m outs c main_v3 : IVec S1000000 32) (ix1 e)))
    (r17 : ∀ e : Fin 1000000, (V9 m outs c main_v17 : Spec.M2 1000000 1) (ix2 e 0)
      = (V8 m outs c main_arg3 : (⟨1, ![1000000]⟩ : Shape).Idx → EReal) (ix1 e))
    (ha : V4 m outs c main_v11 = (argsK m c).aOf 0 (argsK m c).h0)
    (hb : V6 m outs c main_v14 = (argsK m c).bOf 0 (argsK m c).h0) :
    V10 m outs c main_v18 = (argsK m c).msgOf 0 (argsK m c).h0 := by
  have k1 : ∀ e : Fin 1000000, (V6 m outs c main_v1 : IVec S1000000 32) (ix1 e) = (argsK m c).src e := fun e =>
    (congrFun (show V6 m outs c main_v1 = V1 m c main_v1 from by keep_down 6 1; rfl) _).trans (src_V1 m c e)
  have k3 : ∀ e : Fin 1000000, (V7 m outs c main_v3 : IVec S1000000 32) (ix1 e) = (argsK m c).dst e := fun e =>
    (congrFun (show V7 m outs c main_v3 = V1 m c main_v3 from by keep_down 7 1; rfl) _).trans (dst_V1 m c e)
  have t15 := t15 fun e => lt_of_eq_of_lt (congrArg BitVec.toNat (k1 e)) (hk 0 e)
  have t16 := t16 fun e => lt_of_eq_of_lt (congrArg BitVec.toNat (k3 e)) (hk 1 e)
  refine e3.trans (edge_congr (fun e => ?_) (fun e => ?_) ?_ ?_)
  · refine (r17 e).trans ?_
    exact congrFun (show V8 m outs c main_arg3 = (argsK m c).attr from by keep_down 8 0; rfl) _
  · exact congrFun (show V9 m outs c main_arg4 = (argsK m c).atten from by keep_down 9 0; rfl) _
  · refine (show V9 m outs c main_v15 = V7 m outs c main_v15 from by keep_down 9 7; rfl).trans
      (t15.trans (rows_congr _ ?_ (fun e => ?_)))
    · keep_down 6 4; exact ha
    · exact k1 e
  · refine (show V9 m outs c main_v16 = V8 m outs c main_v16 from by keep_down 9 8; rfl).trans
      (t16.trans (rows_congr _ ?_ (fun e => ?_)))
    · keep_down 7 6; exact hb
    · exact k3 e

theorem s_agg0
    (g21 : V11 m outs c main_v21 = (Spec.segsum (N := 100000) (h := 64) (E := 1000000)
      (fun e => (V10 m outs c main_v3 : IVec S1000000 32) (ix1 e)) (V10 m outs c main_v18) : Spec.M2 100000 64))
    (hm : V10 m outs c main_v18 = (argsK m c).msgOf 0 (argsK m c).h0) :
    V11 m outs c main_v21 = (argsK m c).aggOf 0 (argsK m c).h0 := by
  refine g21.trans (segsum_congr (fun e => ?_) hm)
  exact (congrFun (show V10 m outs c main_v3 = V1 m c main_v3 from by keep_down 10 1; rfl) _).trans (dst_V1 m c e)

theorem s_h1
    (e4 : V12 m outs c main_v27 = Spec.linRes (n := 100000) (k := 64) (h := 64) (V11 m outs c main_v5)
      (fun j c' => (V11 m outs c main_v23 : Spec.M2 64 64) (ix2 j c')) (fun c' => (V11 m outs c main_v26 : Spec.M2 1 64) (ix2 0 c'))
      (V11 m outs c main_v21))
    (r23 : ∀ j c' : Fin 64, (V11 m outs c main_v23 : Spec.M2 64 64) (ix2 j c')
      = (V10 m outs c main_arg10 : (⟨3, ![3, 64, 64]⟩ : Shape).Idx → EReal) (ix3 (0 : Fin 3) j c'))
    (r26 : ∀ c' : Fin 64, (V11 m outs c main_v26 : Spec.M2 1 64) (ix2 0 c')
      = (V10 m outs c main_arg11 : Spec.M2 3 64) (ix2 (0 : Fin 3) c'))
    (hh : V2 m outs c main_v5 = (argsK m c).h0)
    (hg : V11 m outs c main_v21 = (argsK m c).aggOf 0 (argsK m c).h0) :
    V12 m outs c main_v27 = (argsK m c).h1 := by
  refine e4.trans (linRes_congr ?_ (fun j c' => ?_) (fun c' => ?_) hg)
  · keep_down 11 2; exact hh
  · refine (r23 j c').trans ?_
    exact congrFun (show V10 m outs c main_arg10 = (argsK m c).w3 from by keep_down 10 0; rfl) _
  · refine (r26 c').trans ?_
    exact congrFun (show V10 m outs c main_arg11 = (argsK m c).b3 from by keep_down 10 0; rfl) _

end Cert.KernelIdeal.Val

end
-- ==== Proof.Val.KChainA2.lean ====
import proofs.«408151_j68813966016636_2_alg».proof.Proof.Val.KChainA1

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : GenP.Outs (F := Ideal)) (c : Dev nD)

theorem s_a1
    (e5 : V14 m outs c main_v33 = Spec.lin (n := 100000) (k := 64) (h := 64) (V13 m outs c main_v27)
      (fun j c' => (V13 m outs c main_v29 : Spec.M2 64 64) (ix2 j c')) (fun c' => (V13 m outs c main_v32 : Spec.M2 1 64) (ix2 0 c')))
    (hh : V12 m outs c main_v27 = (argsK m c).h1) :
    V14 m outs c main_v33 = (argsK m c).aOf 1 (argsK m c).h1 := by
  refine e5.trans (lin_congr ?_ (fun j c' => ?_) (fun c' => ?_))
  · keep_down 13 12; exact hh
  · refine (rd_main_v29_ix (V12 m outs c) j c').trans ?_
    exact congrFun (show V12 m outs c main_arg7 = (argsK m c).w1 from by keep_down 12 0; rfl) _
  · refine (rd_main_v32_ix (V12 m outs c) 0 c').trans ?_
    exact congrFun (show V12 m outs c main_arg8 = (argsK m c).b1 from by keep_down 12 0; rfl) _

theorem s_b1
    (e6 : V16 m outs c main_v36 = Spec.linNB (n := 100000) (k := 64) (h := 64) (V15 m outs c main_v27)
      (fun j c' => (V15 m outs c main_v35 : Spec.M2 64 64) (ix2 j c')))
    (hh : V12 m outs c main_v27 = (argsK m c).h1) :
    V16 m outs c main_v36 = (argsK m c).bOf 1 (argsK m c).h1 := by
  refine e6.trans (linNB_congr ?_ (fun j c' => ?_))
  · keep_down 15 12; exact hh
  · refine (rd_main_v35_ix (V14 m outs c) j c').trans ?_
    exact congrFun (show V14 m outs c main_arg9 = (argsK m c).w2 from by keep_down 14 0; rfl) _

theorem s_msg1
    (e7 : V20 m outs c main_v40 = Spec.edge (E := 1000000) (h := 64)
      (fun e => (V19 m outs c main_v39 : Spec.M2 1000000 1) (ix2 e 0)) (fun e => (V19 m outs c main_arg4 : Spec.M2 1000000 1) (ix2 e 0))
      (V19 m outs c main_v37) (V19 m outs c main_v38))
    (hk : ∀ (r : Fin 2) (e : Fin 1000000), ((argsK m c).ei (ix2 r e)).toNat < 100000)
    (t37 : (∀ e : Fin 1000000, ((V16 m outs c main_v1 : IVec S1000000 32) (ix1 e)).toNat < 100000) →
      V17 m outs c main_v37 = Spec.rows (N := 100000) (h := 64) (E := 1000000) (by decide) (V16 m outs c main_v33)
      (fun e => (V16 m outs c main_v1 : IVec S1000000 32) (ix1 e)))
    (t38 : (∀ e : Fin 1000000, ((V17 m outs c main_v3 : IVec S1000000 32) (ix1 e)).toNat < 100000) →
      V18 m outs c main_v38 = Spec.rows (N := 100000) (h := 64) (E := 1000000) (by decide) (V17 m outs c main_v36)
      (fun e => (V17 m outs c main_v3 : IVec S1000000 32) (ix1 e)))
    (r39 : ∀ e : Fin 1000000, (V19 m outs c main_v39 : Spec.M2 1000000 1) (ix2 e 0)
      = (V18 m outs c main_arg3 : (⟨1, ![1000000]⟩ : Shape).Idx → EReal) (ix1 e))
    (ha : V14 m outs c main_v33 = (argsK m c).aOf 1 (argsK m c).h1)
    (hb : V16 m outs c main_v36 = (argsK m c).bOf 1 (argsK m c).h1) :
    V20 m outs c main_v40 = (argsK m c).msgOf 1 (argsK m c).h1 := by
  have k1 : ∀ e : Fin 1000000, (V16 m outs c main_v1 : IVec S1000000 32) (ix1 e) = (argsK m c).src e := fun e =>
    (congrFun (show V16 m outs c main_v1 = V1 m c main_v1 from by keep_down 16 1; rfl) _).trans (src_V1 m c e)
  have k3 : ∀ e : Fin 1000000, (V17 m outs c main_v3 : IVec S1000000 32) (ix1 e) = (argsK m c).dst e := fun e =>
    (congrFun (show V17 m outs c main_v3 = V1 m c main_v3 from by keep_down 17 1; rfl) _).trans (dst_V1 m c e)
  have t37 := t37 fun e => lt_of_eq_of_lt (congrArg BitVec.toNat (k1 e)) (hk 0 e)
  have t38 := t38 fun e => lt_of_eq_of_lt (congrArg BitVec.toNat (k3 e)) (hk 1 e)
  refine e7.trans (edge_congr (fun e => ?_) (fun e => ?_) ?_ ?_)
  · refine (r39 e).trans ?_
    exact congrFun (show V18 m outs c main_arg3 = (argsK m c).attr from by keep_down 18 0; rfl) _
  · exact congrFun (show V19 m outs c main_arg4 = (argsK m c).atten from by keep_down 19 0; rfl) _
  · refine (show V19 m outs c main_v37 = V17 m outs c main_v37 from by keep_down 19 17; rfl).trans
      (t37.trans (rows_congr _ ?_ (fun e => ?_)))
    · keep_down 16 14; exact ha
    · exact k1 e
  · refine (show V19 m outs c main_v38 = V18 m outs c main_v38 from by keep_down 19 18; rfl).trans
      (t38.trans (rows_congr _ ?_ (fun e => ?_)))
    · keep_down 17 16; exact hb
    · exact k3 e

theorem s_agg1
    (g43 : V21 m outs c main_v43 = (Spec.segsum (N := 100000) (h := 64) (E := 1000000)
      (fun e => (V20 m outs c main_v3 : IVec S1000000 32) (ix1 e)) (V20 m outs c main_v40) : Spec.M2 100000 64))
    (hm : V20 m outs c main_v40 = (argsK m c).msgOf 1 (argsK m c).h1) :
    V21 m outs c main_v43 = (argsK m c).aggOf 1 (argsK m c).h1 := by
  refine g43.trans (segsum_congr (fun e => ?_) hm)
  exact (congrFun (show V20 m outs c main_v3 = V1 m c main_v3 from by keep_down 20 1; rfl) _).trans (dst_V1 m c e)

theorem s_h2
    (e8 : V22 m outs c main_v49 = Spec.linRes (n := 100000) (k := 64) (h := 64) (V21 m outs c main_v27)
      (fun j c' => (V21 m outs c main_v45 : Spec.M2 64 64) (ix2 j c')) (fun c' => (V21 m outs c main_v48 : Spec.M2 1 64) (ix2 0 c'))
      (V21 m outs c main_v43))
    (r45 : ∀ j c' : Fin 64, (V21 m outs c main_v45 : Spec.M2 64 64) (ix2 j c')
      = (V20 m outs c main_arg10 : (⟨3, ![3, 64, 64]⟩ : Shape).Idx → EReal) (ix3 (1 : Fin 3) j c'))
    (r48 : ∀ c' : Fin 64, (V21 m outs c main_v48 : Spec.M2 1 64) (ix2 0 c')
      = (V20 m outs c main_arg11 : Spec.M2 3 64) (ix2 (1 : Fin 3) c'))
    (hh : V12 m outs c main_v27 = (argsK m c).h1)
    (hg : V21 m outs c main_v43 = (argsK m c).aggOf 1 (argsK m c).h1) :
    V22 m outs c main_v49 = (argsK m c).h2 := by
  refine e8.trans (linRes_congr ?_ (fun j c' => ?_) (fun c' => ?_) hg)
  · keep_down 21 12; exact hh
  · refine (r45 j c').trans ?_
    exact congrFun (show V20 m outs c main_arg10 = (argsK m c).w3 from by keep_down 20 0; rfl) _
  · refine (r48 c').trans ?_
    exact congrFun (show V20 m outs c main_arg11 = (argsK m c).b3 from by keep_down 20 0; rfl) _

theorem s_a2
    (e9 : V24 m outs c main_v55 = Spec.lin (n := 100000) (k := 64) (h := 64) (V23 m outs c main_v49)
      (fun j c' => (V23 m outs c main_v51 : Spec.M2 64 64) (ix2 j c')) (fun c' => (V23 m outs c main_v54 : Spec.M2 1 64) (ix2 0 c')))
    (hh : V22 m outs c main_v49 = (argsK m c).h2) :
    V24 m outs c main_v55 = (argsK m c).aOf 2 (argsK m c).h2 := by
  refine e9.trans (lin_congr ?_ (fun j c' => ?_) (fun c' => ?_))
  · keep_down 23 22; exact hh
  · refine (rd_main_v51_ix (V22 m outs c) j c').trans ?_
    exact congrFun (show V22 m outs c main_arg7 = (argsK m c).w1 from by keep_down 22 0; rfl) _
  · refine (rd_main_v54_ix (V22 m outs c) 0 c').trans ?_
    exact congrFun (show V22 m outs c main_arg8 = (argsK m c).b1 from by keep_down 22 0; rfl) _

theorem s_b2
    (e10 : V26 m outs c main_v58 = Spec.linNB (n := 100000) (k := 64) (h := 64) (V25 m outs c main_v49)
      (fun j c' => (V25 m outs c main_v57 : Spec.M2 64 64) (ix2 j c')))
    (hh : V22 m outs c main_v49 = (argsK m c).h2) :
    V26 m outs c main_v58 = (argsK m c).bOf 2 (argsK m c).h2 := by
  refine e10.trans (linNB_congr ?_ (fun j c' => ?_))
  · keep_down 25 22; exact hh
  · refine (rd_main_v57_ix (V24 m outs c) j c').trans ?_
    exact congrFun (show V24 m outs c main_arg9 = (argsK m c).w2 from by keep_down 24 0; rfl) _

theorem s_msg2
    (e11 : V30 m outs c main_v62 = Spec.edge (E := 1000000) (h := 64)
      (fun e => (V29 m outs c main_v61 : Spec.M2 1000000 1) (ix2 e 0)) (fun e => (V29 m outs c main_arg4 : Spec.M2 1000000 1) (ix2 e 0))
      (V29 m outs c main_v59) (V29 m outs c main_v60))
    (hk : ∀ (r : Fin 2) (e : Fin 1000000), ((argsK m c).ei (ix2 r e)).toNat < 100000)
    (t59 : (∀ e : Fin 1000000, ((V26 m outs c main_v1 : IVec S1000000 32) (ix1 e)).toNat < 100000) →
      V27 m outs c main_v59 = Spec.rows (N := 100000) (h := 64) (E := 1000000) (by decide) (V26 m outs c main_v55)
      (fun e => (V26 m outs c main_v1 : IVec S1000000 32) (ix1 e)))
    (t60 : (∀ e : Fin 1000000, ((V27 m outs c main_v3 : IVec S1000000 32) (ix1 e)).toNat < 100000) →
      V28 m outs c main_v60 = Spec.rows (N := 100000) (h := 64) (E := 1000000) (by decide) (V27 m outs c main_v58)
      (fun e => (V27 m outs c main_v3 : IVec S1000000 32) (ix1 e)))
    (r61 : ∀ e : Fin 1000000, (V29 m outs c main_v61 : Spec.M2 1000000 1) (ix2 e 0)
      = (V28 m outs c main_arg3 : (⟨1, ![1000000]⟩ : Shape).Idx → EReal) (ix1 e))
    (ha : V24 m outs c main_v55 = (argsK m c).aOf 2 (argsK m c).h2)
    (hb : V26 m outs c main_v58 = (argsK m c).bOf 2 (argsK m c).h2) :
    V30 m outs c main_v62 = (argsK m c).msgOf 2 (argsK m c).h2 := by
  have k1 : ∀ e : Fin 1000000, (V26 m outs c main_v1 : IVec S1000000 32) (ix1 e) = (argsK m c).src e := fun e =>
    (congrFun (show V26 m outs c main_v1 = V1 m c main_v1 from by keep_down 26 1; rfl) _).trans (src_V1 m c e)
  have k3 : ∀ e : Fin 1000000, (V27 m outs c main_v3 : IVec S1000000 32) (ix1 e) = (argsK m c).dst e := fun e =>
    (congrFun (show V27 m outs c main_v3 = V1 m c main_v3 from by keep_down 27 1; rfl) _).trans (dst_V1 m c e)
  have t59 := t59 fun e => lt_of_eq_of_lt (congrArg BitVec.toNat (k1 e)) (hk 0 e)
  have t60 := t60 fun e => lt_of_eq_of_lt (congrArg BitVec.toNat (k3 e)) (hk 1 e)
  refine e11.trans (edge_congr (fun e => ?_) (fun e => ?_) ?_ ?_)
  · refine (r61 e).trans ?_
    exact congrFun (show V28 m outs c main_arg3 = (argsK m c).attr from by keep_down 28 0; rfl) _
  · exact congrFun (show V29 m outs c main_arg4 = (argsK m c).atten from by keep_down 29 0; rfl) _
  · refine (show V29 m outs c main_v59 = V27 m outs c main_v59 from by keep_down 29 27; rfl).trans
      (t59.trans (rows_congr _ ?_ (fun e => ?_)))
    · keep_down 26 24; exact ha
    · exact k1 e
  · refine (show V29 m outs c main_v60 = V28 m outs c main_v60 from by keep_down 29 28; rfl).trans
      (t60.trans (rows_congr _ ?_ (fun e => ?_)))
    · keep_down 27 26; exact hb
    · exact k3 e

theorem s_agg2
    (g65 : V31 m outs c main_v65 = (Spec.segsum (N := 100000) (h := 64) (E := 1000000)
      (fun e => (V30 m outs c main_v3 : IVec S1000000 32) (ix1 e)) (V30 m outs c main_v62) : Spec.M2 100000 64))
    (hm : V30 m outs c main_v62 = (argsK m c).msgOf 2 (argsK m c).h2) :
    V31 m outs c main_v65 = (argsK m c).aggOf 2 (argsK m c).h2 := by
  refine g65.trans (segsum_congr (fun e => ?_) hm)
  exact (congrFun (show V30 m outs c main_v3 = V1 m c main_v3 from by keep_down 30 1; rfl) _).trans (dst_V1 m c e)

theorem s_h3
    (e12 : V32 m outs c main_v71 = Spec.linRes (n := 100000) (k := 64) (h := 64) (V31 m outs c main_v49)
      (fun j c' => (V31 m outs c main_v67 : Spec.M2 64 64) (ix2 j c')) (fun c' => (V31 m outs c main_v70 : Spec.M2 1 64) (ix2 0 c'))
      (V31 m outs c main_v65))
    (r67 : ∀ j c' : Fin 64, (V31 m outs c main_v67 : Spec.M2 64 64) (ix2 j c')
      = (V30 m outs c main_arg10 : (⟨3, ![3, 64, 64]⟩ : Shape).Idx → EReal) (ix3 (2 : Fin 3) j c'))
    (r70 : ∀ c' : Fin 64, (V31 m outs c main_v70 : Spec.M2 1 64) (ix2 0 c')
      = (V30 m outs c main_arg11 : Spec.M2 3 64) (ix2 (2 : Fin 3) c'))
    (hh : V22 m outs c main_v49 = (argsK m c).h2)
    (hg : V31 m outs c main_v65 = (argsK m c).aggOf 2 (argsK m c).h2) :
    V32 m outs c main_v71 = (argsK m c).h3 := by
  refine e12.trans (linRes_congr ?_ (fun j c' => ?_) (fun c' => ?_) hg)
  · keep_down 31 22; exact hh
  · refine (r67 j c').trans ?_
    exact congrFun (show V30 m outs c main_arg10 = (argsK m c).w3 from by keep_down 30 0; rfl) _
  · refine (r70 c').trans ?_
    exact congrFun (show V30 m outs c main_arg11 = (argsK m c).b3 from by keep_down 30 0; rfl) _

end Cert.KernelIdeal.Val

end
-- ==== Proof.Val.KChainA3.lean ====
import proofs.«408151_j68813966016636_2_alg».proof.Proof.Val.KReg0
import proofs.«408151_j68813966016636_2_alg».proof.Proof.Val.KReg1
import proofs.«408151_j68813966016636_2_alg».proof.Proof.Val.KReg2
import proofs.«408151_j68813966016636_2_alg».proof.Proof.Val.KReg3
import proofs.«408151_j68813966016636_2_alg».proof.Proof.Val.KReg4
import proofs.«408151_j68813966016636_2_alg».proof.Proof.Val.KReg5
import proofs.«408151_j68813966016636_2_alg».proof.Proof.Val.KReg6
import proofs.«408151_j68813966016636_2_alg».proof.Proof.Val.KReg7
import proofs.«408151_j68813966016636_2_alg».proof.Proof.Val.KReg8
import proofs.«408151_j68813966016636_2_alg».proof.Proof.Val.KReg9
import proofs.«408151_j68813966016636_2_alg».proof.Proof.Val.KReg10
import proofs.«408151_j68813966016636_2_alg».proof.Proof.Val.KReg11
import proofs.«408151_j68813966016636_2_alg».proof.Proof.Val.KReg12
import proofs.«408151_j68813966016636_2_alg».proof.Proof.Val.KHostA3
import proofs.«408151_j68813966016636_2_alg».proof.Proof.Val.KHostA4
import proofs.«408151_j68813966016636_2_alg».proof.Proof.Val.KChainA2

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

abbrev tc (W : Dev nD → Valuation τ sig (Elt Ideal)) :
    (c : Dev nD) → (b : Ref sig .tc) → Buf (Elt Ideal) ((c : Thread nD τ).loc b) := fun c b => W c b

variable (m : (ℓ : Loc nD τ sig) → Buf (Elt Ideal) ℓ) (outs : GenP.Outs (F := Ideal)) (c : Dev nD)

set_option maxHeartbeats 400000 in
theorem h1_G
    (hk : ∀ (r : Fin 2) (e : Fin 1000000), ((argsK m c).ei (ix2 r e)).toNat < 100000)
    (x0 : V2 m outs c main_v5 = (Hand.dat0 (F := Ideal) (tc (V1 m)) c).arrAt 3 cfg0.N)
    (x1 : V4 m outs c main_v11 = (Hand.dat1 (F := Ideal) (tc (V3 m outs)) c).arrAt 3 cfg1.N)
    (x2 : V6 m outs c main_v14 = (Hand.dat2 (F := Ideal) (tc (V5 m outs)) c).arrAt 2 cfg2.N)
    (x3 : V10 m outs c main_v18 = (Hand.dat3 (F := Ideal) (tc (V9 m outs)) c).arrAt 4 cfg3.N)
    (x4 : V12 m outs c main_v27 = (Hand.dat4 (F := Ideal) (tc (V11 m outs)) c).arrAt 4 cfg4.N) :
    V2 m outs c main_v5 = (argsK m c).h0 ∧ V12 m outs c main_v27 = (argsK m c).h1 := by
  have hh0 := s_h0 m outs c (x0.trans (val0 (tc (V1 m)) c))
  have ha0 := s_a0 m outs c (x1.trans (val1 (tc (V3 m outs)) c)) hh0
  have hb0 := s_b0 m outs c (x2.trans (val2 (tc (V5 m outs)) c)) hh0
  have hm0 := s_msg0 m outs c (x3.trans (val3 (tc (V9 m outs)) c)) hk
    (fun h => rd_main_v15_rows (V6 m outs c) h) (fun h => rd_main_v16_rows (V7 m outs c) h)
    (fun e => rd_main_v17_ix (V8 m outs c) e 0) ha0 hb0
  have hg0 := s_agg0 m outs c (rd_main_v21_eq (V10 m outs c)) hm0
  exact ⟨hh0, s_h1 m outs c (x4.trans (val4 (tc (V11 m outs)) c))
    (fun j c' => rd_main_v23_ix (V10 m outs c) j c') (fun c' => rd_main_v26_ix (V10 m outs c) 0 c') hh0 hg0⟩

set_option maxHeartbeats 400000 in
theorem h2_G
    (hk : ∀ (r : Fin 2) (e : Fin 1000000), ((argsK m c).ei (ix2 r e)).toNat < 100000)
    (hh1 : V12 m outs c main_v27 = (argsK m c).h1)
    (x5 : V14 m outs c main_v33 = (Hand.dat5 (F := Ideal) (tc (V13 m outs)) c).arrAt 3 cfg5.N)
    (x6 : V16 m outs c main_v36 = (Hand.dat6 (F := Ideal) (tc (V15 m outs)) c).arrAt 2 cfg6.N)
    (x7 : V20 m outs c main_v40 = (Hand.dat7 (F := Ideal) (tc (V19 m outs)) c).arrAt 4 cfg7.N)
    (x8 : V22 m outs c main_v49 = (Hand.dat8 (F := Ideal) (tc (V21 m outs)) c).arrAt 4 cfg8.N) :
    V22 m outs c main_v49 = (argsK m c).h2 := by
  have ha1 := s_a1 m outs c (x5.trans (val5 (tc (V13 m outs)) c)) hh1
  have hb1 := s_b1 m outs c (x6.trans (val6 (tc (V15 m outs)) c)) hh1
  have hm1 := s_msg1 m outs c (x7.trans (val7 (tc (V19 m outs)) c)) hk
    (fun h => rd_main_v37_rows (V16 m outs c) h) (fun h => rd_main_v38_rows (V17 m outs c) h)
    (fun e => rd_main_v39_ix (V18 m outs c) e 0) ha1 hb1
  have hg1 := s_agg1 m outs c (rd_main_v43_eq (V20 m outs c)) hm1
  exact s_h2 m outs c (x8.trans (val8 (tc (V21 m outs)) c))
    (fun j c' => rd_main_v45_ix (V20 m outs c) j c') (fun c' => rd_main_v48_ix (V20 m outs c) 0 c') hh1 hg1

set_option maxHeartbeats 400000 in
theorem h3_G
    (hk : ∀ (r : Fin 2) (e : Fin 1000000), ((argsK m c).ei (ix2 r e)).toNat < 100000)
    (hh2 : V22 m outs c main_v49 = (argsK m c).h2)
    (x9 : V24 m outs c main_v55 = (Hand.dat9 (F := Ideal) (tc (V23 m outs)) c).arrAt 3 cfg9.N)
    (x10 : V26 m outs c main_v58 = (Hand.dat10 (F := Ideal) (tc (V25 m outs)) c).arrAt 2 cfg10.N)
    (x11 : V30 m outs c main_v62 = (Hand.dat11 (F := Ideal) (tc (V29 m outs)) c).arrAt 4 cfg11.N)
    (x12 : V32 m outs c main_v71 = (Hand.dat12 (F := Ideal) (tc (V31 m outs)) c).arrAt 4 cfg12.N) :
    V32 m outs c main_v71 = (argsK m c).h3 := by
  have ha2 := s_a2 m outs c (x9.trans (val9 (tc (V23 m outs)) c)) hh2
  have hb2 := s_b2 m outs c (x10.trans (val10 (tc (V25 m outs)) c)) hh2
  have hm2 := s_msg2 m outs c (x11.trans (val11 (tc (V29 m outs)) c)) hk
    (fun h => rd_main_v59_rows (V26 m outs c) h) (fun h => rd_main_v60_rows (V27 m outs c) h)
    (fun e => rd_main_v61_ix (V28 m outs c) e 0) ha2 hb2
  have hg2 := s_agg2 m outs c (rd_main_v65_eq (V30 m outs c)) hm2
  exact s_h3 m outs c (x12.trans (val12 (tc (V31 m outs)) c))
    (fun j c' => rd_main_v67_ix (V30 m outs c) j c') (fun c' => rd_main_v70_ix (V30 m outs c) 0 c') hh2 hg2

end Cert.KernelIdeal.Val

end
-- ==== Proof.Val.KHostBLib.lean ====
import proofs.«408151_j68813966016636_2_alg».proof.Proof.Val.Spec
import proofs.«408151_j68813966016636_2_alg».proof.Proof.LibScatterGather
import Idealize.ShloMosaic.Lib.ValueIdx
import Idealize.ShloMosaic.Lib.ValueLayout
import Idealize.ShloMosaic.Lib.IdealHost
import Idealize.ShloMosaic.Lib.Pipeline.Value
import Idealize.ShloMosaic.Lib.KernelVsHost

noncomputable section

namespace Cert.KernelIdeal.Val

open Idealize.ShloMosaic Idealize.ShloMosaic.ValueIdx

section Layout
variable {α : Type}

theorem hb_padRows_apply {N M C : ℕ} (hi : ℕ) (x : (⟨2, ![N, C]⟩ : Shape).Idx → α) (v : (⟨0, ![]⟩ : Shape).Idx → α)
    (h : (⟨2, ![N, C]⟩ : Shape).Pads (![0, 0] : Fin 2 → ℕ) ![hi, 0] ![0, 0] ⟨2, ![M, C]⟩)
    (hu : 0 < (⟨0, ![]⟩ : Shape).numel) (n : Fin M) (c : Fin C) :
    pad ⟨2, ![M, C]⟩ ![0, 0] ![hi, 0] ![0, 0] x v h hu (ix2 n c)
      = if hn : n.val < N then x (ix2 ⟨n.val, hn⟩ c) else v ix0 := by
  by_cases hn : n.val < N
  · rw [dif_pos hn]
    refine pad_apply_of_inside _ _ _ x v h hu _ _ fun a => ?_
    match a with
    | ⟨0, _⟩ => show n.val = 0 + n.val * (0 + 1); omega
    | ⟨1, _⟩ => show c.val = 0 + c.val * (0 + 1); omega
  · rw [dif_neg hn]
    refine (pad_apply_of_not_inside _ _ _ x v h hu _ (0 : Fin 2) ?_).trans (congrArg v (eq_ix0 _))
    show ¬(0 ≤ n.val ∧ (n.val - 0) % (0 + 1) = 0 ∧ (n.val - 0) / (0 + 1) < N)
    rintro ⟨_, _, h3⟩
    rw [Nat.sub_zero, Nat.zero_add, Nat.div_one] at h3
    exact hn h3

theorem hb_concatCols_left {R C1 C2 C : ℕ} (x1 : (⟨2, ![R, C1]⟩ : Shape).Idx → α) (x2 : (⟨2, ![R, C2]⟩ : Shape).Idx → α)
    (h : Shape.Concatenates [⟨2, ![R, C1]⟩, ⟨2, ![R, C2]⟩] ⟨2, ![R, C]⟩ (1 : Fin 2)) (n : Fin R) (c : Fin C)
    (hc : c.val < C1) :
    concatenate ⟨2, ![R, C]⟩ (1 : Fin 2) [⟨⟨2, ![R, C1]⟩, x1⟩, ⟨⟨2, ![R, C2]⟩, x2⟩] h (ix2 n c)
      = x1 (ix2 n ⟨c.val, hc⟩) :=
  concatenate_pair_apply_left (1 : Fin 2) x1 x2 h (ix2 n c) rfl (ix2 n ⟨c.val, hc⟩) (fun b => by
    match b with
    | ⟨0, _⟩ => rfl
    | ⟨1, _⟩ => rfl)

theorem hb_concatCols_right {R C1 C2 C : ℕ} (x1 : (⟨2, ![R, C1]⟩ : Shape).Idx → α) (x2 : (⟨2, ![R, C2]⟩ : Shape).Idx → α)
    (h : Shape.Concatenates [⟨2, ![R, C1]⟩, ⟨2, ![R, C2]⟩] ⟨2, ![R, C]⟩ (1 : Fin 2)) (n : Fin R) (c : Fin C)
    (hc : C1 ≤ c.val) (hc2 : c.val - C1 < C2) :
    concatenate ⟨2, ![R, C]⟩ (1 : Fin 2) [⟨⟨2, ![R, C1]⟩, x1⟩, ⟨⟨2, ![R, C2]⟩, x2⟩] h (ix2 n c)
      = x2 (ix2 n ⟨c.val - C1, hc2⟩) :=
  concatenate_pair_apply_right (1 : Fin 2) x1 x2 h (ix2 n c) rfl rfl (ix2 n ⟨c.val - C1, hc2⟩)
    (fun b hb => by
      match b, hb with
      | ⟨0, _⟩, _ => rfl
      | ⟨1, _⟩, hb => exact absurd rfl hb)
    (by show (c.val - C1) + C1 = c.val; omega)

theorem hb_bcastCol_apply {R C : ℕ} (h : (⟨2, ![R, 1]⟩ : Shape).BroadcastsInDim ⟨2, ![R, C]⟩ (![0, 1] : Fin 2 → Fin 2))
    (x : (⟨2, ![R, 1]⟩ : Shape).Idx → α) (n : Fin R) (c : Fin C) :
    broadcastInDim ⟨2, ![R, C]⟩ ![0, 1] h x (ix2 n c) = x (ix2 n (0 : Fin 1)) :=
  broadcastInDim_apply _ h x _ _ fun a => by
    match a with
    | ⟨0, _⟩ =>
      show n.val = if R = 1 then 0 else n.val
      have := n.isLt
      split <;> omega
    | ⟨1, _⟩ =>
      show 0 = if 1 = 1 then 0 else c.val
      rfl

theorem hb_shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Layout

section Guards

theorem hb_orOne (g : EReal) :
    Scalar.select (FloatOps.cmpf (F := Ideal) (φ := .f32) .oeq g (Ideal.ofBits .f32 0x00000000#32))
        (Ideal.ofBits .f32 0x3F800000#32) g = Cert.Spec.Args.orOne g := by
  show Scalar.select (Ideal.cmp .oeq g (Ideal.ofBits .f32 0#32)) (Ideal.ofBits .f32 0x3F800000#32) g = _
  rw [Cert.LibSG.ofBits_zero_f32, Cert.LibSG.ofBits_one_f32]
  unfold Cert.Spec.Args.orOne Ideal.cmp Scalar.select
  by_cases hg : g = 0
  · simp [hg]
  · simp [hg]

theorem hb_sitofp_zero : (FloatOps.sitofp (F := Ideal) .f32 (0#32 : BitVec 32) : EReal) = 0 := by
  show (((0#32 : BitVec 32).toInt : ℝ) : EReal) = 0
  rw [show (0#32 : BitVec 32).toInt = 0 by decide]; simp

end Guards

end Cert.KernelIdeal.Val

end
-- ==== Proof.Val.KHostBDefs.lean ====
import proofs.«408151_j68813966016636_2_alg».proof.Proof.Gen.KernelIdeal.Launch
import Idealize.ShloMosaic.Lib.ValueIdx

noncomputable section

namespace Cert.KernelIdeal.Val

open Cert.KernelIdeal Cert.KernelIdeal.Gen
open Idealize.ShloMosaic

abbrev zerosN : FVec Ideal S100000x1 .f32 :=
  broadcastInDim S100000x1 ![] bcast_S_S100000x1 (constant (F := Ideal) S_ .f32 0x00000000#32)

abbrev onesN : FVec Ideal S100000x1 .f32 :=
  broadcastInDim S100000x1 ![] bcast_S_S100000x1 (constant (F := Ideal) S_ .f32 0x3F800000#32)

abbrev onesE : FVec Ideal S1000000x1 .f32 :=
  broadcastInDim S1000000x1 ![] bcast_S_S1000000x1 (constant (F := Ideal) S_ .f32 0x3F800000#32)

abbrev keyCol (k : IVec S1000000 32) : IVec S1000000x1 32 :=
  broadcastInDim S1000000x1 ![0] bcast_S1000000_S1000000x1_0 k

def sumBoth (dstv srcv : IVec S1000000 32) (u : FVec Ideal S1000000x1 .f32) : FVec Ideal S100000x1 .f32 :=
  addf (Host.scatterAdd (F := Ideal) scatter_S100000x1_S1000000x1_S1000000x1_1_0_0_1 zerosN (keyCol dstv) u)
    (Host.scatterAdd (F := Ideal) scatter_S100000x1_S1000000x1_S1000000x1_1_0_0_1 zerosN (keyCol srcv) u)

def degOr1 (deg : FVec Ideal S100000x1 .f32) : FVec Ideal S100000x1 .f32 :=
  select (cmpf .oeq deg zerosN) onesN deg

def nattCore (dstv srcv : IVec S1000000 32) (atten : FVec Ideal S1000000x1 .f32) : FVec Ideal S100000x1 .f32 :=
  Host.divf (F := Ideal) (sumBoth dstv srcv atten) (degOr1 (sumBoth dstv srcv onesE))

abbrev srcRow (ei : IVec S2x1000000 32) : IVec S1000000 32 :=
  shapeCast S1000000 (extractStridedSlice S1x1000000 ![0, 0] ei slices_S2x1000000_S1x1000000_0_0) shapeCasts_S1x1000000_S1000000
abbrev dstRow (ei : IVec S2x1000000 32) : IVec S1000000 32 :=
  shapeCast S1000000 (extractStridedSlice S1x1000000 ![1, 0] ei slices_S2x1000000_S1x1000000_1_0) shapeCasts_S1x1000000_S1000000

def nattTerm (ei : IVec S2x1000000 32) (atten : FVec Ideal S1000000x1 .f32) : FVec Ideal S100000x1 .f32 :=
  nattCore (dstRow ei) (srcRow ei) atten

end Cert.KernelIdeal.Val

end
-- ==== Proof.Val.KHostB13.lean ====
import proofs.«408151_j68813966016636_2_alg».proof.Proof.Gen.KernelIdeal.Launch
import proofs.«408151_j68813966016636_2_alg».proof.Proof.KI.RegionsP
import proofs.«408151_j68813966016636_2_alg».proof.Proof.Val.Spec
import proofs.«408151_j68813966016636_2_alg».proof.Proof.LibScatterGather
import proofs.«408151_j68813966016636_2_alg».proof.Proof.Val.KHostBLib
import proofs.«408151_j68813966016636_2_alg».proof.Proof.Val.KHostBDefs
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

theorem keep13 (W : Valuation τ sig (Elt Ideal)) {r : Ref sig .tc} (hr : r ∉ GenP.hostOps13_W) :
    StableHlo.after (hostOps13 (F := Ideal)) W (Proc.devRef .tc r) = W (Proc.devRef .tc r) :=
  StableHlo.after_of_writes_sub _ _ GenP.hostOps13_writes hr
theorem keep13_1 (W : Valuation τ sig (Elt Ideal)) {r : Ref sig .tc} (hr : r ∉ GenP.hostOps13_1_W) :
    StableHlo.after (hostOps13_1 (F := Ideal)) W (Proc.devRef .tc r) = W (Proc.devRef .tc r) :=
  StableHlo.after_of_writes_sub _ _ GenP.hostOps13_1_writes hr
theorem keep13_3 (W : Valuation τ sig (Elt Ideal)) {r : Ref sig .tc} (hr : r ∉ GenP.hostOps13_3_W) :
    StableHlo.after (hostOps13_3 (F := Ideal)) W (Proc.devRef .tc r) = W (Proc.devRef .tc r) :=
  StableHlo.after_of_writes_sub _ _ GenP.hostOps13_3_writes hr
theorem keep13_4 (W : Valuation τ sig (Elt Ideal)) {r : Ref sig .tc} (hr : r ∉ GenP.hostOps13_4_W) :
    StableHlo.after (hostOps13_4 (F := Ideal)) W (Proc.devRef .tc r) = W (Proc.devRef .tc r) :=
  StableHlo.after_of_writes_sub _ _ GenP.hostOps13_4_writes hr
theorem keep13_5 (W : Valuation τ sig (Elt Ideal)) {r : Ref sig .tc} (hr : r ∉ GenP.hostOps13_5_W) :
    StableHlo.after (hostOps13_5 (F := Ideal)) W (Proc.devRef .tc r) = W (Proc.devRef .tc r) :=
  StableHlo.after_of_writes_sub _ _ GenP.hostOps13_5_writes hr
theorem keep13_6 (W : Valuation τ sig (Elt Ideal)) {r : Ref sig .tc} (hr : r ∉ GenP.hostOps13_6_W) :
    StableHlo.after (hostOps13_6 (F := Ideal)) W (Proc.devRef .tc r) = W (Proc.devRef .tc r) :=
  StableHlo.after_of_writes_sub _ _ GenP.hostOps13_6_writes hr
theorem keep13_7 (W : Valuation τ sig (Elt Ideal)) {r : Ref sig .tc} (hr : r ∉ GenP.hostOps13_7_W) :
    StableHlo.after (hostOps13_7 (F := Ideal)) W (Proc.devRef .tc r) = W (Proc.devRef .tc r) :=
  StableHlo.after_of_writes_sub _ _ GenP.hostOps13_7_writes hr
theorem keep13_8 (W : Valuation τ sig (Elt Ideal)) {r : Ref sig .tc} (hr : r ∉ GenP.hostOps13_8_W) :
    StableHlo.after (hostOps13_8 (F := Ideal)) W (Proc.devRef .tc r) = W (Proc.devRef .tc r) :=
  StableHlo.after_of_writes_sub _ _ GenP.hostOps13_8_writes hr

theorem s13_v79 (W : Valuation τ sig (Elt Ideal)) :
    StableHlo.after (hostOps13 (F := Ideal)) W (Proc.devRef .tc main_v79)
      = sumBoth (W (Proc.devRef .tc main_v3)) (W (Proc.devRef .tc main_v1)) (W (Proc.devRef .tc main_arg4)) := by
  show StableHlo.after hostOps13 _ (Proc.devRef .tc main_v79) = _
  after_results_simp <;> rfl

theorem s13_v86 (W : Valuation τ sig (Elt Ideal)) :
    StableHlo.after (hostOps13 (F := Ideal)) W (Proc.devRef .tc main_v86)
      = sumBoth (W (Proc.devRef .tc main_v3)) (W (Proc.devRef .tc main_v1)) onesE := by
  show StableHlo.after hostOps13 _ (Proc.devRef .tc main_v86) = _
  after_results_simp <;> rfl

theorem s13_v88 (W : Valuation τ sig (Elt Ideal)) :
    StableHlo.after (hostOps13 (F := Ideal)) W (Proc.devRef .tc main_v88)
      = (cmpf .oeq (sumBoth (W (Proc.devRef .tc main_v3)) (W (Proc.devRef .tc main_v1)) onesE) zerosN : IVec S100000x1 1) := by
  show StableHlo.after hostOps13 _ (Proc.devRef .tc main_v88) = _
  after_results_simp <;> rfl

theorem s13_cst8 (W : Valuation τ sig (Elt Ideal)) :
    StableHlo.after (hostOps13 (F := Ideal)) W (Proc.devRef .tc main_cst_8)
      = (constant (F := Ideal) S_ .f32 0x3F800000#32 : FVec Ideal S_ .f32) := by
  show StableHlo.after hostOps13 _ (Proc.devRef .tc main_cst_8) = _
  after_results_simp <;> rfl

theorem s13_1_v89 (W : Valuation τ sig (Elt Ideal)) :
    StableHlo.after (hostOps13_1 (F := Ideal)) W (Proc.devRef .tc main_v89)
      = (select (W (Proc.devRef .tc main_v88) : IVec S100000x1 1)
          (broadcastInDim S100000x1 ![] bcast_S_S100000x1 (W (Proc.devRef .tc main_cst_8) : FVec Ideal S_ .f32))
          (W (Proc.devRef .tc main_v86) : FVec Ideal S100000x1 .f32) : FVec Ideal S100000x1 .f32) := by
  show StableHlo.after hostOps13_1 _ (Proc.devRef .tc main_v89) = _
  after_results <;> rfl

theorem s13_2_v90 (W : Valuation τ sig (Elt Ideal)) :
    StableHlo.after (hostOps13_2 (F := Ideal)) W (Proc.devRef .tc main_v90)
      = (Host.divf (F := Ideal) (W (Proc.devRef .tc main_v79) : FVec Ideal S100000x1 .f32) (W (Proc.devRef .tc main_v89)) : FVec Ideal S100000x1 .f32) := by
  show StableHlo.after hostOps13_2 _ (Proc.devRef .tc main_v90) = _
  after_results <;> rfl

theorem s13_2_v91 (W : Valuation τ sig (Elt Ideal)) :
    StableHlo.after (hostOps13_2 (F := Ideal)) W (Proc.devRef .tc main_v91)
      = (shapeCast S100000x1 (W (Proc.devRef .tc main_arg2) : IVec S100000 32) shapeCasts_S100000_S100000x1 : IVec S100000x1 32) := by
  show StableHlo.after hostOps13_2 _ (Proc.devRef .tc main_v91) = _
  after_results <;> rfl

theorem s13_2_c (W : Valuation τ sig (Elt Ideal)) :
    StableHlo.after (hostOps13_2 (F := Ideal)) W (Proc.devRef .tc main_c)
      = (constantI S_ 32 512#32 : IVec S_ 32) := by
  show StableHlo.after hostOps13_2 _ (Proc.devRef .tc main_c) = _
  after_results <;> rfl

theorem s13_3_v92 (W : Valuation τ sig (Elt Ideal)) :
    StableHlo.after (hostOps13_3 (F := Ideal)) W (Proc.devRef .tc main_v92)
      = (pad S100352x1 ![0, 0] ![352, 0] ![0, 0] (W (Proc.devRef .tc main_v91) : IVec S100000x1 32) (W (Proc.devRef .tc main_c) : IVec S_ 32) pads_S100000x1_S100352x1_03520_000 h_S_ : IVec S100352x1 32) := by
  show StableHlo.after hostOps13_3 _ (Proc.devRef .tc main_v92) = _
  after_results <;> rfl

theorem s13_4_v93 (W : Valuation τ sig (Elt Ideal)) :
    StableHlo.after (hostOps13_4 (F := Ideal)) W (Proc.devRef .tc main_v93)
      = onesN := by
  show StableHlo.after hostOps13_4 _ (Proc.devRef .tc main_v93) = _
  after_results <;> rfl

theorem s13_4_c10 (W : Valuation τ sig (Elt Ideal)) :
    StableHlo.after (hostOps13_4 (F := Ideal)) W (Proc.devRef .tc main_c_10)
      = (constantI S_ 32 0#32 : IVec S_ 32) := by
  show StableHlo.after hostOps13_4 _ (Proc.devRef .tc main_c_10) = _
  after_results <;> rfl

theorem s13_5_v94 (W : Valuation τ sig (Elt Ideal)) :
    StableHlo.after (hostOps13_5 (F := Ideal)) W (Proc.devRef .tc main_v94)
      = (pad S100352x1 ![0, 0] ![352, 0] ![0, 0] (W (Proc.devRef .tc main_v90) : FVec Ideal S100000x1 .f32) (sitofp .f32 (W (Proc.devRef .tc main_c_10) : IVec S_ 32) : FVec Ideal S_ .f32) pads_S100000x1_S100352x1_03520_000 h_S_ : FVec Ideal S100352x1 .f32) := by
  show StableHlo.after hostOps13_5 _ (Proc.devRef .tc main_v94) = _
  after_results <;> rfl

theorem s13_6_c11 (W : Valuation τ sig (Elt Ideal)) :
    StableHlo.after (hostOps13_6 (F := Ideal)) W (Proc.devRef .tc main_c_11)
      = (constantI S_ 32 0#32 : IVec S_ 32) := by
  show StableHlo.after hostOps13_6 _ (Proc.devRef .tc main_c_11) = _
  after_results <;> rfl

theorem s13_7_v95 (W : Valuation τ sig (Elt Ideal)) :
    StableHlo.after (hostOps13_7 (F := Ideal)) W (Proc.devRef .tc main_v95)
      = (pad S100352x1 ![0, 0] ![352, 0] ![0, 0] (W (Proc.devRef .tc main_v93) : FVec Ideal S100000x1 .f32) (sitofp .f32 (W (Proc.devRef .tc main_c_11) : IVec S_ 32) : FVec Ideal S_ .f32) pads_S100000x1_S100352x1_03520_000 h_S_ : FVec Ideal S100352x1 .f32) := by
  show StableHlo.after hostOps13_7 _ (Proc.devRef .tc main_v95) = _
  after_results <;> rfl

theorem s13_8_v96 (W : Valuation τ sig (Elt Ideal)) :
    StableHlo.after (hostOps13_8 (F := Ideal)) W (Proc.devRef .tc main_v96)
      = (concatenate S100352x2 1 [⟨S100352x1, (W (Proc.devRef .tc main_v94) : FVec Ideal S100352x1 .f32)⟩, ⟨S100352x1, (W (Proc.devRef .tc main_v95) : FVec Ideal S100352x1 .f32)⟩]
          concatenates_S100352x1_S100352x1_S100352x2_d1 : FVec Ideal S100352x2 .f32) := by
  show StableHlo.after hostOps13_8 _ (Proc.devRef .tc main_v96) = _
  after_results <;> rfl

abbrev upto13_2 (W : Valuation τ sig (Elt Ideal)) : Valuation τ sig (Elt Ideal) :=
  StableHlo.after hostOps13_2 (StableHlo.after hostOps13_1 (StableHlo.after hostOps13 W))

abbrev ent13 (W : Valuation τ sig (Elt Ideal)) : Valuation τ sig (Elt Ideal) :=
  StableHlo.after hostOps13_8 (StableHlo.after hostOps13_7 (StableHlo.after hostOps13_6 (StableHlo.after hostOps13_5 (StableHlo.after hostOps13_4 (StableHlo.after hostOps13_3 (StableHlo.after hostOps13_2 (StableHlo.after hostOps13_1 (StableHlo.after hostOps13 W))))))))

theorem upto13_2_v90 (W : Valuation τ sig (Elt Ideal)) :
    upto13_2 W (Proc.devRef .tc main_v90) = nattCore (W (Proc.devRef .tc main_v3)) (W (Proc.devRef .tc main_v1)) (W (Proc.devRef .tc main_arg4)) := by
  show StableHlo.after hostOps13_2 (StableHlo.after hostOps13_1 (StableHlo.after hostOps13 W)) (Proc.devRef .tc main_v90) = _
  rw [s13_2_v90, s13_1_v89, keep13_1 _ (r := main_v79) (by decide), s13_v79, s13_v88, s13_cst8, s13_v86]
  rfl

theorem rd_v90 (W : Valuation τ sig (Elt Ideal))
    (h1 : W (Proc.devRef .tc main_v1) = srcRow (W (Proc.devRef .tc main_arg1)))
    (h3 : W (Proc.devRef .tc main_v3) = dstRow (W (Proc.devRef .tc main_arg1))) :
    upto13_2 W (Proc.devRef .tc main_v90) = nattTerm (W (Proc.devRef .tc main_arg1)) (W (Proc.devRef .tc main_arg4)) := by
  rw [upto13_2_v90, h1, h3]; rfl

theorem ent13_v90 (W : Valuation τ sig (Elt Ideal)) :
    ent13 W (Proc.devRef .tc main_v90) = nattCore (W (Proc.devRef .tc main_v3)) (W (Proc.devRef .tc main_v1)) (W (Proc.devRef .tc main_arg4)) := by
  show StableHlo.after hostOps13_8 (StableHlo.after hostOps13_7 (StableHlo.after hostOps13_6 (StableHlo.after hostOps13_5 (StableHlo.after hostOps13_4 (StableHlo.after hostOps13_3 (StableHlo.after hostOps13_2 (StableHlo.after hostOps13_1 (StableHlo.after hostOps13 W)))))))) (Proc.devRef .tc main_v90) = _
  rw [keep13_8 _ (r := main_v90) (by decide), keep13_7 _ (r := main_v90) (by decide), keep13_6 _ (r := main_v90) (by decide), keep13_5 _ (r := main_v90) (by decide), keep13_4 _ (r := main_v90) (by decide), keep13_3 _ (r := main_v90) (by decide)]
  exact upto13_2_v90 W

theorem rd_v92 (W : Valuation τ sig (Elt Ideal)) :
    ent13 W (Proc.devRef .tc main_v92)
      = (pad S100352x1 ![0, 0] ![352, 0] ![0, 0] (shapeCast S100000x1 (W (Proc.devRef .tc main_arg2) : IVec S100000 32) shapeCasts_S100000_S100000x1) (constantI S_ 32 512#32) pads_S100000x1_S100352x1_03520_000 h_S_ : IVec S100352x1 32) := by
  show StableHlo.after hostOps13_8 (StableHlo.after hostOps13_7 (StableHlo.after hostOps13_6 (StableHlo.after hostOps13_5 (StableHlo.after hostOps13_4 (StableHlo.after hostOps13_3 (StableHlo.after hostOps13_2 (StableHlo.after hostOps13_1 (StableHlo.after hostOps13 W)))))))) (Proc.devRef .tc main_v92) = _
  rw [keep13_8 _ (r := main_v92) (by decide), keep13_7 _ (r := main_v92) (by decide), keep13_6 _ (r := main_v92) (by decide), keep13_5 _ (r := main_v92) (by decide), keep13_4 _ (r := main_v92) (by decide), s13_3_v92, s13_2_v91, s13_2_c,
    keep13_1 _ (r := main_arg2) (by decide), keep13 _ (r := main_arg2) (by decide)]

theorem v92_at (W : Valuation τ sig (Elt Ideal)) (n : Fin 100352) :
    (ent13 W (Proc.devRef .tc main_v92) : IVec S100352x1 32) (ix2 n (0 : Fin 1))
      = if hn : n.val < 100000 then (W (Proc.devRef .tc main_arg2) : IVec S100000 32) (ix1 ⟨n.val, hn⟩) else 512#32 := by
  rw [rd_v92]
  refine (hb_padRows_apply 352 _ _ pads_S100000x1_S100352x1_03520_000 h_S_ n (0 : Fin 1)).trans ?_
  by_cases hn : n.val < 100000
  · rw [dif_pos hn, dif_pos hn]
    exact hb_shapeCast_a_a1_apply _ shapeCasts_S100000_S100000x1 ⟨n.val, hn⟩ (0 : Fin 1)
  · rw [dif_neg hn, dif_neg hn, constantI_apply]

theorem rd_v93 (W : Valuation τ sig (Elt Ideal)) :
    ent13 W (Proc.devRef .tc main_v93) = onesN := by
  show StableHlo.after hostOps13_8 (StableHlo.after hostOps13_7 (StableHlo.after hostOps13_6 (StableHlo.after hostOps13_5 (StableHlo.after hostOps13_4 (StableHlo.after hostOps13_3 (StableHlo.after hostOps13_2 (StableHlo.after hostOps13_1 (StableHlo.after hostOps13 W)))))))) (Proc.devRef .tc main_v93) = _
  rw [keep13_8 _ (r := main_v93) (by decide), keep13_7 _ (r := main_v93) (by decide), keep13_6 _ (r := main_v93) (by decide), keep13_5 _ (r := main_v93) (by decide), s13_4_v93]

theorem onesN_at (i : S100000x1.Idx) : onesN i = (1 : EReal) := by
  show broadcastInDim S100000x1 ![] bcast_S_S100000x1 (constant (F := Ideal) S_ .f32 0x3F800000#32) i = (1 : EReal)
  rw [broadcastInDim_scalar_apply, constant_apply]; exact Cert.LibSG.ofBits_one_f32

theorem v93_at (W : Valuation τ sig (Elt Ideal)) (i : S100000x1.Idx) :
    (ent13 W (Proc.devRef .tc main_v93) : FVec Ideal S100000x1 .f32) i = (1 : EReal) := by
  rw [rd_v93]; exact onesN_at i

theorem rd_v96 (W : Valuation τ sig (Elt Ideal)) :
    ent13 W (Proc.devRef .tc main_v96)
      = (concatenate S100352x2 1
          [⟨S100352x1, pad S100352x1 ![0, 0] ![352, 0] ![0, 0] (nattCore (W (Proc.devRef .tc main_v3)) (W (Proc.devRef .tc main_v1)) (W (Proc.devRef .tc main_arg4))) (sitofp .f32 (constantI S_ 32 0#32) : FVec Ideal S_ .f32) pads_S100000x1_S100352x1_03520_000 h_S_⟩,
           ⟨S100352x1, pad S100352x1 ![0, 0] ![352, 0] ![0, 0] onesN (sitofp .f32 (constantI S_ 32 0#32) : FVec Ideal S_ .f32) pads_S100000x1_S100352x1_03520_000 h_S_⟩]
          concatenates_S100352x1_S100352x1_S100352x2_d1 : FVec Ideal S100352x2 .f32) := by
  show StableHlo.after hostOps13_8 (StableHlo.after hostOps13_7 (StableHlo.after hostOps13_6 (StableHlo.after hostOps13_5 (StableHlo.after hostOps13_4 (StableHlo.after hostOps13_3 (StableHlo.after hostOps13_2 (StableHlo.after hostOps13_1 (StableHlo.after hostOps13 W)))))))) (Proc.devRef .tc main_v96) = _
  rw [s13_8_v96, keep13_7 _ (r := main_v94) (by decide), keep13_6 _ (r := main_v94) (by decide), s13_5_v94, s13_4_c10, keep13_4 _ (r := main_v90) (by decide), keep13_3 _ (r := main_v90) (by decide),
    show StableHlo.after hostOps13_2 (StableHlo.after hostOps13_1 (StableHlo.after hostOps13 W)) (Proc.devRef .tc main_v90) = _ from upto13_2_v90 W,
    s13_7_v95, s13_6_c11, keep13_6 _ (r := main_v93) (by decide), keep13_5 _ (r := main_v93) (by decide), s13_4_v93]

theorem v96_at0 (W : Valuation τ sig (Elt Ideal)) (n : Fin 100352) :
    (ent13 W (Proc.devRef .tc main_v96) : FVec Ideal S100352x2 .f32) (ix2 n (0 : Fin 2))
      = if hn : n.val < 100000 then nattCore (W (Proc.devRef .tc main_v3)) (W (Proc.devRef .tc main_v1)) (W (Proc.devRef .tc main_arg4)) (ix2 ⟨n.val, hn⟩ (0 : Fin 1)) else (0 : EReal) := by
  rw [rd_v96]
  refine (hb_concatCols_left _ _ concatenates_S100352x1_S100352x1_S100352x2_d1 n (0 : Fin 2) (by decide)).trans ?_
  refine (hb_padRows_apply 352 _ _ pads_S100000x1_S100352x1_03520_000 h_S_ n _).trans ?_
  by_cases hn : n.val < 100000
  · (rw [dif_pos hn, dif_pos hn]) <;> rfl
  · rw [dif_neg hn, dif_neg hn, sitofp_apply, constantI_apply]; exact hb_sitofp_zero

theorem v96_at1 (W : Valuation τ sig (Elt Ideal)) (n : Fin 100352) :
    (ent13 W (Proc.devRef .tc main_v96) : FVec Ideal S100352x2 .f32) (ix2 n (1 : Fin 2))
      = if n.val < 100000 then (1 : EReal) else 0 := by
  rw [rd_v96]
  refine (hb_concatCols_right _ _ concatenates_S100352x1_S100352x1_S100352x2_d1 n (1 : Fin 2) (by decide) (by decide)).trans ?_
  refine (hb_padRows_apply 352 _ _ pads_S100000x1_S100352x1_03520_000 h_S_ n _).trans ?_
  by_cases hn : n.val < 100000
  · rw [dif_pos hn, if_pos hn]; exact onesN_at _
  · rw [dif_neg hn, if_neg hn, sitofp_apply, constantI_apply]; exact hb_sitofp_zero

end Cert.KernelIdeal.Val

end
-- ==== Proof.Val.KChainA4.lean ====
import proofs.«408151_j68813966016636_2_alg».proof.Proof.Val.KChainA1
import proofs.«408151_j68813966016636_2_alg».proof.Proof.Val.KHostB13

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : GenP.Outs (F := Ideal)) (c : Dev nD)

theorem src_V32 : V32 m outs c main_v1 = srcRow (V32 m outs c main_arg1) := by
  have a1 : V32 m outs c main_arg1 = V0 m c main_arg1 := by keep_down 32 0; rfl
  refine (show V32 m outs c main_v1 = V1 m c main_v1 from by keep_down 32 1; rfl).trans ?_
  exact (rd_main_v1 (V0 m c)).trans (congrArg srcRow a1.symm)

theorem dst_V32 : V32 m outs c main_v3 = dstRow (V32 m outs c main_arg1) := by
  have a1 : V32 m outs c main_arg1 = V0 m c main_arg1 := by keep_down 32 0; rfl
  refine (show V32 m outs c main_v3 = V1 m c main_v3 from by keep_down 32 1; rfl).trans ?_
  exact (rd_main_v3 (V0 m c)).trans (congrArg dstRow a1.symm)

theorem nattG_eq :
    nattG m outs c = nattTerm (m ((c : Thread nD τ).loc main_arg1)) (m ((c : Thread nD τ).loc main_arg4)) := by
  have a1 : V32 m outs c main_arg1 = m ((c : Thread nD τ).loc main_arg1) := by keep_down 32 0; rfl
  have a4 : V32 m outs c main_arg4 = m ((c : Thread nD τ).loc main_arg4) := by keep_down 32 0; rfl
  show V41 m outs c main_v90 = _
  keep_down 41 35
  refine (rd_v90 (V32 m outs c) (src_V32 m outs c) (dst_V32 m outs c)).trans ?_
  exact congrArg₂ nattTerm a1 a4

end Cert.KernelIdeal.Val

end
-- ==== Proof.Val.KChainA5.lean ====
import proofs.«408151_j68813966016636_2_alg».proof.Proof.KI.Stages
import proofs.«408151_j68813966016636_2_alg».proof.Proof.Val.KChainA3
import proofs.«408151_j68813966016636_2_alg».proof.Proof.Val.KChainA4

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ)

abbrev nattK (c : Dev nD) : Spec.M2 100000 1 := nattG m (Hand.outs m) c

theorem nattK_eq (c : Dev nD) :
    nattK m c = nattTerm (m ((c.tc : Thread nD τ).loc main_arg1)) (m ((c.tc : Thread nD τ).loc main_arg4)) :=
  nattG_eq m (Hand.outs m) c

theorem h3_value
    (hk : ∀ (c : Dev nD) (r : Fin 2) (e : Fin 1000000), (m ((c.tc : Thread nD τ).loc main_arg1) (ix2 r e)).toNat < 100000)
    (c : Dev nD) : V32 m (Hand.outs m) c main_v71 = (argsK m c).h3 := by
  have hk' : ∀ (r : Fin 2) (e : Fin 1000000), ((argsK m c).ei (ix2 r e)).toNat < 100000 := fun r e => hk c r e
  have h01 := h1_G m (Hand.outs m) c hk' (Hand.exit0 m c) (Hand.exit1 m c) (Hand.exit2 m c) (Hand.exit3 m c) (Hand.exit4 m c)
  have h2 := h2_G m (Hand.outs m) c hk' h01.2 (Hand.exit5 m c) (Hand.exit6 m c) (Hand.exit7 m c) (Hand.exit8 m c)
  exact h3_G m (Hand.outs m) c hk' h2 (Hand.exit9 m c) (Hand.exit10 m c) (Hand.exit11 m c) (Hand.exit12 m c)

end Cert.KernelIdeal.Val

end
-- ==== Proof.Val.Pay13.lean ====
import proofs.«408151_j68813966016636_2_alg».proof.Proof.Gen.KernelIdeal.Skeleton
import proofs.«408151_j68813966016636_2_alg».proof.Proof.LibScatterGather
import Idealize.ShloMosaic.PureOps.Ideal.Laws
import Idealize.ShloMosaic.Lib.ValueIdx
import Idealize.ShloMosaic.Lib.Pipeline.Value

noncomputable section

open scoped BigOperators

namespace Cert.KernelIdeal.Val

open Cert.KernelIdeal Cert.KernelIdeal.Gen
open Idealize.ShloMosaic Idealize.ShloMosaic.ValueIdx

theorem mm13_apply (x : FVec Ideal S1024x512 .bf16) (w : FVec Ideal S1024x2 .bf16) (b : Fin 512) (f : Fin 2) :
    matmul dot_S1024x512_S1024x2_S512x2_0_0_1_1_n_n none x w (constant S512x2 .f32 0x00000000#32) (ix2 b f)
      = ∑ r : Fin 1024, x (ix2 r b) * w (ix2 r f) := by
  simp only [matmul]
  rw [Ideal.matmul_constant_zero_apply, ← Equiv.sum_comp (ValueIdx.contrEquiv1 dot_S1024x512_S1024x2_S512x2_0_0_1_1_n_n 1024 rfl rfl).symm]
  refine Finset.sum_congr rfl fun k _ => ?_
  have hk := ValueIdx.contrEquiv1_symm_val dot_S1024x512_S1024x2_S512x2_0_0_1_1_n_n 1024 rfl rfl k
  have el : dot_S1024x512_S1024x2_S512x2_0_0_1_1_n_n.lhsIdx (ix2 b f) ((ValueIdx.contrEquiv1 dot_S1024x512_S1024x2_S512x2_0_0_1_1_n_n 1024 rfl rfl).symm k) = ix2 k b :=
    funext fun a => Fin.ext (by
      match a with
      | ⟨0, _⟩ => exact hk
      | ⟨1, _⟩ => rfl)
  have er : dot_S1024x512_S1024x2_S512x2_0_0_1_1_n_n.rhsIdx (ix2 b f) ((ValueIdx.contrEquiv1 dot_S1024x512_S1024x2_S512x2_0_0_1_1_n_n 1024 rfl rfl).symm k) = ix2 k f :=
    funext fun a => Fin.ext (by
      match a with
      | ⟨0, _⟩ => exact hk
      | ⟨1, _⟩ => rfl)
  rw [el, er]

theorem cmpi_eq_one_iff {w : Nat} (x y : BitVec w) : IntOp.cmpi .eq x y = 1#1 ↔ x = y := by
  show BitVec.ofBool (x == y) = 1#1 ↔ x = y
  cases hxy : (x == y)
  · have hne : x ≠ y := by intro h; rw [h] at hxy; simp at hxy
    exact ⟨fun h => absurd h (by decide), fun h => absurd h hne⟩
  · exact ⟨fun _ => by simpa using hxy, fun _ => rfl⟩

theorem onehot13_apply (keys : Vec Ideal S1024x1 .i32) (r : Fin 1024) (b : Fin 512) :
    (truncf .bf16 (sitofp .f32 (extui 32 (cmpi .eq (broadcastTo S1024x512 (shapeCast S1024x1 keys shapeCasts_S1024x1_S1024x1) broadcasts_S1024x1_S1024x512)
        (iota .tc S1024x512 32 [1] iota_S1024x512_d1_w32)) natLt_1_32) : FVec Ideal S1024x512 .f32) bitsLt_bf16_f32 : FVec Ideal S1024x512 .bf16) (ix2 r b)
      = if keys (ix2 r 0) = BitVec.ofNat 32 b.val then (1 : EReal) else 0 := by
  rw [truncf_apply, sitofp_apply, extui_apply]
  show (FloatOps.sitofp .f32 ((IntOp.cmpi .eq (broadcastTo S1024x512 (shapeCast S1024x1 keys shapeCasts_S1024x1_S1024x1) broadcasts_S1024x1_S1024x512 (ix2 r b))
    (iota .tc S1024x512 32 [1] iota_S1024x512_d1_w32 (ix2 r b))).setWidth 32) : Ideal .f32) = _
  rw [LibSG.sitofp_setWidth_bit, iota_single_apply, shapeCast_self]
  have hb : broadcastTo S1024x512 keys broadcasts_S1024x1_S1024x512 (ix2 r b) = keys (ix2 r 0) := by
    refine broadcastTo_apply keys _ (ix2 r b) (ix2 r 0) (fun a => ?_)
    match a with
    | ⟨0, _⟩ => rfl
    | ⟨1, _⟩ => rfl
  rw [hb]
  exact if_congr (cmpi_eq_one_iff _ _) rfl rfl

theorem pay13_2_apply (keys : Vec Ideal S1024x1 .i32) (feats : Vec Ideal S1024x2 .f32) (acc : Vec Ideal S512x2 .f32) (b : Fin 512) (f : Fin 2) :
    k13_pay2 (F := Ideal) keys feats acc (ix2 b f)
      = acc (ix2 b f) + ∑ r : Fin 1024, (if keys (ix2 r 0) = BitVec.ofNat 32 b.val then (1 : EReal) else 0) * feats (ix2 r f) := by
  unfold k13_pay2
  show shapeCast S512x2 (addf (F := Ideal) (s := S512x2) (φ := .f32) acc _) _ (ix2 b f) = _
  rw [shapeCast_self, addf_apply, mm13_apply]
  refine congrArg (acc (ix2 b f) + ·) (Finset.sum_congr rfl fun r _ => ?_)
  rw [onehot13_apply, truncf_apply, shapeCast_self]

theorem pay13_1_apply (b : Fin 512) (f : Fin 2) : k13_pay1 (F := Ideal) (ix2 b f) = (0 : EReal) := by
  unfold k13_pay1
  show shapeCast S512x2 (broadcast S512x2 _) _ (ix2 b f) = _
  rw [shapeCast_self, broadcast_apply]
  exact Ideal.ofBits_zero_f32

end Cert.KernelIdeal.Val

end
-- ==== Proof.Val.KReg13.lean ====
import proofs.«408151_j68813966016636_2_alg».proof.Proof.KI.Reg13
import proofs.«408151_j68813966016636_2_alg».proof.Proof.Val.Spec
import proofs.«408151_j68813966016636_2_alg».proof.Proof.Val.Pay13
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

def term13 (K : Fin 100352 → BitVec 32) (X : Fin 100352 → EReal) (b : Fin 512) (r : ℕ) : EReal :=
  if h : r < 100352 then (if K ⟨r, h⟩ = BitVec.ofNat 32 b.val then (1 : EReal) else 0) * X ⟨r, h⟩ else 0

theorem term13_block (K : Fin 100352 → BitVec 32) (X : Fin 100352 → EReal) (b : Fin 512) (n : ℕ)
    (hr : ∀ r : Fin 1024, n * 1024 + r.val < 100352) :
    (∑ r ∈ Finset.range (n * 1024), term13 K X b r)
        + ∑ r : Fin 1024, (if K ⟨n * 1024 + r.val, hr r⟩ = BitVec.ofNat 32 b.val then (1 : EReal) else 0) * X ⟨n * 1024 + r.val, hr r⟩
      = ∑ r ∈ Finset.range ((n + 1) * 1024), term13 K X b r := by
  rw [show (n + 1) * 1024 = n * 1024 + 1024 by ring, Finset.sum_range_add]
  congr 1
  rw [← Fin.sum_univ_eq_sum_range (fun x => term13 K X b (n * 1024 + x)) 1024]
  refine Finset.sum_congr rfl fun r _ => ?_
  unfold term13
  rw [dif_pos (hr r)]

theorem term13_total (K : Fin 100352 → BitVec 32) (X : Fin 100352 → EReal) (b : Fin 512) :
    ∑ r ∈ Finset.range 100352, term13 K X b r
      = ∑ m : Fin 100352, (if K m = BitVec.ofNat 32 b.val then (1 : EReal) else 0) * X m := by
  rw [← Fin.sum_univ_eq_sum_range (fun r => term13 K X b r) 100352]
  refine Finset.sum_congr rfl fun m _ => ?_
  unfold term13
  rw [dif_pos m.isLt]

variable (V : (c : Dev nD) → (b : Ref sig .tc) → Buf (Elt Ideal) ((c : Thread nD τ).loc b))

theorem idx_facts13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0 :=
  (by decide +kernel : ∀ t : Fin grid13.N, _)

theorem fblk13_apply (c : Dev nD) (t : Fin cfg13.N) (r : Fin 1024) (f : Fin 2) (hr : t.val * 1024 + r.val < 100352) :
    (Hand.iblk13 V c 0 t : Vec Ideal S1024x2 .f32) (ix2 r f) = (V c main_v96 : S100352x2.Idx → Elt Ideal .f32) (ix2 ⟨t.val * 1024 + r.val, hr⟩ f) := by
  obtain ⟨e0, e1, -⟩ := idx_facts13 t
  unfold Hand.iblk13
  rw [View.read_apply]
  show V c main_v96 _ = V c main_v96 _
  congr 1
  funext a
  apply Fin.ext
  match a with
  | ⟨0, _⟩ => show win13_0.index t (0 : Fin 2) * 1024 + 1 * r.val = t.val * 1024 + r.val; omega
  | ⟨1, _⟩ => show win13_0.index t (1 : Fin 2) * 2 + 1 * f.val = f.val; omega

theorem kblk13_apply (c : Dev nD) (t : Fin cfg13.N) (r : Fin 1024) (hr : t.val * 1024 + r.val < 100352) :
    (Hand.iblk13 V c 1 t : Vec Ideal S1024x1 .i32) (ix2 r 0) = (V c main_v92 : S100352x1.Idx → Elt Ideal .i32) (ix2 ⟨t.val * 1024 + r.val, hr⟩ 0) := by
  obtain ⟨-, -, e0, e1, -⟩ := idx_facts13 t
  unfold Hand.iblk13
  rw [View.read_apply]
  show V c main_v92 _ = V c main_v92 _
  congr 1
  funext a
  apply Fin.ext
  match a with
  | ⟨0, _⟩ => show win13_1.index t (0 : Fin 2) * 1024 + 1 * r.val = t.val * 1024 + r.val; omega
  | ⟨1, _⟩ => show win13_1.index t (1 : Fin 2) * 1 + 1 * 0 = 0; omega

abbrev keys13 (c : Dev nD) : Fin 100352 → BitVec 32 := fun m => (V c main_v92 : S100352x1.Idx → Elt Ideal .i32) (ix2 m 0)
abbrev col13 (c : Dev nD) (f : Fin 2) : Fin 100352 → EReal := fun m => (V c main_v96 : S100352x2.Idx → Elt Ideal .f32) (ix2 m f)

theorem acc13_apply (c : Dev nD) (b : Fin 512) (f : Fin 2) : ∀ (n : ℕ) (hn : n ≤ cfg13.N),
    (Hand.accAt13 (F := Ideal) V c n hn : Vec Ideal S512x2 .f32) (ix2 b f)
      = ∑ r ∈ Finset.range (n * 1024), term13 (keys13 V c) (col13 V c f) b r
  | 0, _ => by
    rw [Hand.accAt13_zero V c 0 _ rfl]
    refine (pay13_1_apply b f).trans ?_
    simp
  | n + 1, hn => by
    have ih := acc13_apply c b f n (Nat.le_of_succ_le hn)
    have hN : cfg13.N = 98 := N_13
    have hr : ∀ r : Fin 1024, n * 1024 + r.val < 100352 := fun r => by have := r.isLt; omega
    show k13_pay2 (F := Ideal) (Hand.iblk13 V c 1 ⟨n, hn⟩) (Hand.iblk13 V c 0 ⟨n, hn⟩) (Hand.accAt13 V c n (Nat.le_of_succ_le hn)) (ix2 b f) = _
    refine (pay13_2_apply _ _ _ b f).trans ?_
    refine Eq.trans (congrArg₂ (fun (x y : EReal) => x + y) ih
      (Finset.sum_congr rfl fun r _ => congrArg₂ (fun (x y : EReal) => x * y)
        (congrArg (fun k : BitVec 32 => if k = BitVec.ofNat 32 b.val then (1 : EReal) else 0) (kblk13_apply V c ⟨n, hn⟩ r (hr r)))
        (fblk13_apply V c ⟨n, hn⟩ r f (hr r)))) ?_
    exact term13_block (keys13 V c) (col13 V c f) b n hr

abbrev G13 (c : Dev nD) : S512x2.Idx → Elt Ideal .f32 :=
  Spec.of2 fun b f => ∑ n : Fin 100352, (if (V c main_v92 : S100352x1.Idx → Elt Ideal .i32) (ix2 n 0) = BitVec.ofNat 32 b.val then (1 : EReal) else 0)
    * (V c main_v96 : S100352x2.Idx → Elt Ideal .f32) (ix2 n f)

theorem oemb13 (t : Fin cfg13.N) (b : Fin 512) (f : Fin 2) :
    ((cfg13.win 2).blk t).view.emb (ix2 b f) = (ix2 b f : S512x2.Idx) := by
  obtain ⟨-, -, -, -, e0, e1⟩ := idx_facts13 t
  funext a
  apply Fin.ext
  match a with
  | ⟨0, _⟩ => show win13_2.index t (0 : Fin 2) * 512 + 1 * b.val = b.val; omega
  | ⟨1, _⟩ => show win13_2.index t (1 : Fin 2) * 2 + 1 * f.val = f.val; omega

theorem cut13_apply (t : Fin cfg13.N) (A : Vec Ideal S512x2 .f32) (b : Fin 512) (f : Fin 2) :
    (cfg13.win 2).cut (grid13.coords t) A (ix2 b f) = A (ix2 b f) := by
  show A _ = A _
  rfl

theorem read13_apply (t : Fin cfg13.N) (G : S512x2.Idx → Elt Ideal .f32) (b : Fin 512) (f : Fin 2) :
    ((cfg13.win 2).blk t).view.read (Elt Ideal) G (ix2 b f) = G (ix2 b f) := by
  rw [View.read_apply]
  exact congrArg G (oemb13 t b f)

theorem flushed13_eq (c : Dev nD) (t : Fin cfg13.N) (hf : (cfg13.win 2).flush t = true) :
    (Hand.dat13 (F := Ideal) V c).flushed 2 t = ((cfg13.win 2).blk t).view.read (Elt Ideal) (G13 V c) := by
  have hN : cfg13.N = 98 := N_13
  have ht : t.val + 1 = cfg13.N := by have := (flush13_2 t).mp hf; have := t.isLt; omega
  show (cfg13.win 2).cut (grid13.coords t) ((Hand.dat13 (F := Ideal) V c).after 2 t) = _
  rw [Hand.after13_2_last V c t ht]
  funext y
  obtain ⟨b, f, rfl⟩ : ∃ (b : Fin 512) (f : Fin 2), y = ix2 b f := ⟨y 0, y 1, eq_ix2 y⟩
  refine (cut13_apply t _ b f).trans ?_
  refine Eq.trans ?_ (read13_apply t (G13 V c) b f).symm
  refine (acc13_apply V c b f cfg13.N le_rfl).trans ?_
  refine Eq.trans ?_ (Spec.of2_ix2 _ b f).symm
  rw [show cfg13.N * 1024 = 100352 from by rw [hN]]
  exact term13_total (keys13 V c) (col13 V c f) b

theorem mem_blk13 (t : Fin cfg13.N) (i : S512x2.Idx) :
    i ∈ ((cfg13.win 2).blk t).view.set ↔ ∀ a : Fin 2, win13_2.index t a * S512x2.size a ≤ (i a).val ∧ (i a).val < win13_2.index t a * S512x2.size a + S512x2.size a := by
  show i ∈ ((View.whole main_v97).slice (win13_2.rect t)).set ↔ _
  rw [View.set_slice_whole, Rect.mem_set_unit]
  exact Iff.rfl

theorem covered13 (i : S512x2.Idx) : ∃ t : Fin cfg13.N, (cfg13.win 2).flush t = true ∧ i ∈ ((cfg13.win 2).blk t).view.set := by
  have hi0 : (i 0).val < 512 := (i 0).isLt
  have hi1 : (i 1).val < 2 := (i 1).isLt
  obtain ⟨t, ht⟩ : ∃ t : Fin cfg13.N, t.val = 97 := ⟨⟨97, by rw [show cfg13.N = 98 from N_13]; omega⟩, rfl⟩
  obtain ⟨-, -, -, -, e0, e1⟩ := idx_facts13 t
  refine ⟨t, (flush13_2 t).mpr (by rw [ht]), ?_⟩
  rw [mem_blk13]
  intro a
  match a with
  | ⟨0, _⟩ => show win13_2.index t (0 : Fin 2) * 512 ≤ (i 0).val ∧ (i 0).val < win13_2.index t (0 : Fin 2) * 512 + 512; omega
  | ⟨1, _⟩ => show win13_2.index t (1 : Fin 2) * 2 ≤ (i 1).val ∧ (i 1).val < win13_2.index t (1 : Fin 2) * 2 + 2; omega

theorem val13 (c : Dev nD) : (Hand.dat13 (F := Ideal) V c).arrAt 2 cfg13.N
    = Spec.of2 fun b f => ∑ n : Fin 100352, (if V c main_v92 (ix2 n 0) = BitVec.ofNat 32 b.val then (1 : EReal) else 0) * V c main_v96 (ix2 n f) :=
  (Hand.dat13 (F := Ideal) V c).arrAt_eq_of_cover 2 (G13 V c) (fun t hf => flushed13_eq V c t hf) covered13

end Cert.KernelIdeal.Val

end
-- ==== Proof.Val.KReg14.lean ====
import proofs.«408151_j68813966016636_2_alg».proof.Proof.KI.Reg14
import proofs.«408151_j68813966016636_2_alg».proof.Proof.Val.Spec
import proofs.«408151_j68813966016636_2_alg».proof.Proof.LibScatterGather
import Idealize.ShloMosaic.Lib.ValueIdx
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

theorem zeros14 : (![0, 0] : Fin 2 → Nat) = fun _ => 0 := funext fun a => by fin_cases a <;> rfl

theorem onehot14_apply (v1 : Vec Ideal S1024x1 .i32) (n : Fin 1024) (b : Fin 512) :
    (truncf .bf16 (sitofp .f32 (extui 32 (cmpi .eq (broadcastTo S1024x512 (shapeCast S1024x1 v1 shapeCasts_S1024x1_S1024x1) broadcasts_S1024x1_S1024x512) (iota .tc S1024x512 32 [1] iota_S1024x512_d1_w32)) natLt_1_32) : FVec Ideal S1024x512 .f32) bitsLt_bf16_f32 : FVec Ideal S1024x512 .bf16) (ix2 n b)
      = if v1 (ix2 n 0) = BitVec.ofNat 32 b.val then (1 : EReal) else 0 := by
  rw [truncf_apply, sitofp_apply, extui_apply, Cert.LibSG.sitofp_setWidth_bit]
  refine if_congr ?_ rfl rfl
  show IntOp.cmpi .eq (broadcastTo S1024x512 (shapeCast S1024x1 v1 shapeCasts_S1024x1_S1024x1) broadcasts_S1024x1_S1024x512 (ix2 n b)) (iota .tc S1024x512 32 [1] iota_S1024x512_d1_w32 (ix2 n b)) = 1#1 ↔ _
  rw [shapeCast_self, broadcastTo_apply _ _ (ix2 n b) (ix2 n 0) (fun a => by
    match a with
    | ⟨0, _⟩ => rfl
    | ⟨1, _⟩ => rfl), iota_single_apply]
  exact IntOp.cmpi_eq

theorem pay14_apply (v1 : Vec Ideal S1024x1 .i32) (v8 : Vec Ideal S512x1 .f32) (n : Fin 1024) (f : Fin 1) :
    k14_pay1 (F := Ideal) v1 v8 (ix2 n f) = ∑ b : Fin 512, (if v1 (ix2 n 0) = BitVec.ofNat 32 b.val then (1 : EReal) else 0) * v8 (ix2 b f) := by
  unfold k14_pay1
  dsimp only
  simp only [matmul]
  rw [Ideal.matmul_constant_zero_apply, ← Equiv.sum_comp (contrEquiv1 dot_S1024x512_S512x1_S1024x1_1_0_0_1_n_n 512 rfl rfl).symm]
  refine Finset.sum_congr rfl fun k _ => ?_
  have hk := contrEquiv1_symm_val dot_S1024x512_S512x1_S1024x1_1_0_0_1_n_n 512 rfl rfl k
  have el : dot_S1024x512_S512x1_S1024x1_1_0_0_1_n_n.lhsIdx (ix2 n f) ((contrEquiv1 dot_S1024x512_S512x1_S1024x1_1_0_0_1_n_n 512 rfl rfl).symm k) = ix2 n k := funext fun a => Fin.ext (by
    match a with
    | ⟨0, _⟩ => rfl
    | ⟨1, _⟩ => exact hk)
  have er : dot_S1024x512_S512x1_S1024x1_1_0_0_1_n_n.rhsIdx (ix2 n f) ((contrEquiv1 dot_S1024x512_S512x1_S1024x1_1_0_0_1_n_n 512 rfl rfl).symm k) = ix2 k f := funext fun a => Fin.ext (by
    match a with
    | ⟨0, _⟩ => exact hk
    | ⟨1, _⟩ => rfl)
  rw [el, er, onehot14_apply, truncf_apply, shapeCast_self]

theorem idx14 : ∀ t : Fin cfg14.N,
    win14_0.index t (0 : Fin 2) = 0 ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0 :=
  (by decide +kernel : ∀ t : Fin grid14.N, _)

theorem iblk14_0_apply (c : Dev nD) (t : Fin cfg14.N) (x : S512x1.Idx) :
    (Hand.iblk14 (F := Ideal) V c 0 t : Vec Ideal S512x1 .f32) x = (V c main_v103 : S512x1.Idx → EReal) x := by
  obtain ⟨e0, e1, -⟩ := idx14 t
  unfold Hand.iblk14
  rw [View.read_apply]
  show V c main_v103 _ = V c main_v103 _
  congr 1
  funext a
  apply Fin.ext
  match a with
  | ⟨0, _⟩ => show win14_0.index t 0 * 512 + 1 * (x 0).val = (x 0).val; rw [e0]; omega
  | ⟨1, _⟩ => show win14_0.index t 1 * 1 + 1 * (x 1).val = (x 1).val; rw [e1]; omega

theorem iblk14_1_apply (c : Dev nD) (t : Fin cfg14.N) (x : S1024x1.Idx) (k : S100352x1.Idx)
    (hk0 : (k 0).val = t.val * 1024 + (x 0).val) (hk1 : (k 1).val = (x 1).val) :
    (Hand.iblk14 (F := Ideal) V c 1 t : Vec Ideal S1024x1 .i32) x = (V c main_v92 : S100352x1.Idx → Elt Ideal .i32) k := by
  obtain ⟨-, -, e0, e1, -⟩ := idx14 t
  unfold Hand.iblk14
  rw [View.read_apply]
  show V c main_v92 _ = V c main_v92 _
  congr 1
  funext a
  apply Fin.ext
  match a with
  | ⟨0, _⟩ => show win14_1.index t 0 * 1024 + 1 * (x 0).val = (k 0).val; rw [e0, hk0]; omega
  | ⟨1, _⟩ => show win14_1.index t 1 * 1 + 1 * (x 1).val = (k 1).val; rw [e1, hk1]; omega

abbrev G14 (c : Dev nD) : Spec.M2 100352 1 :=
  Spec.of2 fun n f => ∑ b : Fin 512, (if V c main_v92 (ix2 n 0) = BitVec.ofNat 32 b.val then (1 : EReal) else 0) * V c main_v103 (ix2 b f)

theorem point14 (c : Dev nD) (t : Fin cfg14.N) (j : S1024x1.Idx) :
    k14_pay1 (F := Ideal) (Hand.iblk14 V c 1 t) (Hand.iblk14 V c 0 t) j = G14 V c (((cfg14.win 2).blk t).view.emb j) := by
  obtain ⟨n, f, rfl⟩ : ∃ (n : Fin 1024) (f : Fin 1), j = ix2 n f := ⟨j 0, j 1, eq_ix2 j⟩
  have ht : t.val < 98 := by have h := t.isLt; have hN : cfg14.N = 98 := N_14; omega
  have hr : t.val * 1024 + n.val < 100352 := by have := n.isLt; omega
  obtain ⟨-, -, -, -, e0, e1⟩ := idx14 t
  have hi : ((cfg14.win 2).blk t).view.emb (ix2 n f) = (ix2 (⟨t.val * 1024 + n.val, hr⟩ : Fin 100352) f : S100352x1.Idx) := by
    funext a
    apply Fin.ext
    match a with
    | ⟨0, _⟩ => show win14_2.index t 0 * 1024 + 1 * n.val = t.val * 1024 + n.val; rw [e0]; omega
    | ⟨1, _⟩ => show win14_2.index t 1 * 1 + 1 * f.val = f.val; rw [e1]; omega
  rw [hi]
  refine (pay14_apply _ _ n f).trans ?_
  show _ = ∑ b : Fin 512, (if V c main_v92 (ix2 (⟨t.val * 1024 + n.val, hr⟩ : Fin 100352) 0) = BitVec.ofNat 32 b.val then (1 : EReal) else 0) * V c main_v103 (ix2 b f)
  refine Finset.sum_congr rfl fun b _ => ?_
  rw [iblk14_1_apply V c t (ix2 n 0) (ix2 (⟨t.val * 1024 + n.val, hr⟩ : Fin 100352) 0) rfl rfl, iblk14_0_apply V c t (ix2 b f)]

theorem flushed14_eq (c : Dev nD) (t : Fin cfg14.N) :
    (Hand.dat14 (F := Ideal) V c).flushed 2 t = ((cfg14.win 2).blk t).view.read (Elt Ideal) (G14 V c) := by
  show (cfg14.win 2).cut (grid14.coords t) ((Hand.dat14 V c).after 2 t) = _
  rw [Hand.after14_2]
  unfold Hand.out14
  rw [View.canon_unit_zero zeros14]
  simp only [View.ld_unit_zero (S := S512x1) zeros14, View.ld_unit_zero (S := S1024x1) zeros14]
  funext j
  exact point14 V c t j

theorem mem_blk14 (t : Fin cfg14.N) (i : S100352x1.Idx) :
    i ∈ ((cfg14.win 2).blk t).view.set ↔ ∀ a : Fin 2, win14_2.index t a * S1024x1.size a ≤ (i a).val ∧ (i a).val < win14_2.index t a * S1024x1.size a + S1024x1.size a := by
  show i ∈ ((View.whole main_v104).slice (win14_2.rect t)).set ↔ _
  rw [View.set_slice_whole, Rect.mem_set_unit]
  exact Iff.rfl

theorem covered14 (i : S100352x1.Idx) : ∃ t : Fin cfg14.N, (cfg14.win 2).flush t = true ∧ i ∈ ((cfg14.win 2).blk t).view.set := by
  have hi0 : (i 0).val < 100352 := (i 0).isLt
  have hi1 : (i 1).val < 1 := (i 1).isLt
  have hN : cfg14.N = 98 := N_14
  have hlt : (i 0).val / 1024 < cfg14.N := by rw [hN]; omega
  obtain ⟨-, -, -, -, e0, e1⟩ := idx14 ⟨(i 0).val / 1024, hlt⟩
  refine ⟨⟨(i 0).val / 1024, hlt⟩, flush14_2 _, ?_⟩
  rw [mem_blk14]
  intro a
  match a with
  | ⟨0, _⟩ =>
    show win14_2.index ⟨(i 0).val / 1024, hlt⟩ 0 * 1024 ≤ (i 0).val ∧ (i 0).val < win14_2.index ⟨(i 0).val / 1024, hlt⟩ 0 * 1024 + 1024
    rw [e0]; show (i 0).val / 1024 * 1024 ≤ (i 0).val ∧ (i 0).val < (i 0).val / 1024 * 1024 + 1024; omega
  | ⟨1, _⟩ =>
    show win14_2.index ⟨(i 0).val / 1024, hlt⟩ 1 * 1 ≤ (i 1).val ∧ (i 1).val < win14_2.index ⟨(i 0).val / 1024, hlt⟩ 1 * 1 + 1
    rw [e1]; omega

theorem val14 (c : Dev nD) : (Hand.dat14 (F := Ideal) V c).arrAt 2 cfg14.N
    = Spec.of2 fun n f => ∑ b : Fin 512, (if V c main_v92 (ix2 n 0) = BitVec.ofNat 32 b.val then (1 : EReal) else 0) * V c main_v103 (ix2 b f) :=
  (Hand.dat14 (F := Ideal) V c).arrAt_eq_of_cover 2 (G14 V c) (fun t _ => flushed14_eq V c t) (covered14)

end Cert.KernelIdeal.Val
end
-- ==== Proof.Val.Pay15.lean ====
import proofs.«408151_j68813966016636_2_alg».proof.Proof.Gen.KernelIdeal.Skeleton
import proofs.«408151_j68813966016636_2_alg».proof.Proof.Val.Pay13
import Idealize.ShloMosaic.PureOps.Ideal.Laws
import Idealize.ShloMosaic.Lib.ValueIdx
import Idealize.ShloMosaic.Lib.Pipeline.Value

noncomputable section

open scoped BigOperators

namespace Cert.KernelIdeal.Val

open Cert.KernelIdeal Cert.KernelIdeal.Gen
open Idealize.ShloMosaic Idealize.ShloMosaic.ValueIdx

theorem mm15_apply (x : FVec Ideal S1024x512 .bf16) (w : FVec Ideal S1024x65 .bf16) (b : Fin 512) (f : Fin 65) :
    matmul dot_S1024x512_S1024x65_S512x65_0_0_1_1_n_n none x w (constant S512x65 .f32 0x00000000#32) (ix2 b f)
      = ∑ r : Fin 1024, x (ix2 r b) * w (ix2 r f) := by
  simp only [matmul]
  rw [Ideal.matmul_constant_zero_apply, ← Equiv.sum_comp (ValueIdx.contrEquiv1 dot_S1024x512_S1024x65_S512x65_0_0_1_1_n_n 1024 rfl rfl).symm]
  refine Finset.sum_congr rfl fun k _ => ?_
  have hk := ValueIdx.contrEquiv1_symm_val dot_S1024x512_S1024x65_S512x65_0_0_1_1_n_n 1024 rfl rfl k
  have el : dot_S1024x512_S1024x65_S512x65_0_0_1_1_n_n.lhsIdx (ix2 b f) ((ValueIdx.contrEquiv1 dot_S1024x512_S1024x65_S512x65_0_0_1_1_n_n 1024 rfl rfl).symm k) = ix2 k b :=
    funext fun a => Fin.ext (by
      match a with
      | ⟨0, _⟩ => exact hk
      | ⟨1, _⟩ => rfl)
  have er : dot_S1024x512_S1024x65_S512x65_0_0_1_1_n_n.rhsIdx (ix2 b f) ((ValueIdx.contrEquiv1 dot_S1024x512_S1024x65_S512x65_0_0_1_1_n_n 1024 rfl rfl).symm k) = ix2 k f :=
    funext fun a => Fin.ext (by
      match a with
      | ⟨0, _⟩ => exact hk
      | ⟨1, _⟩ => rfl)
  rw [el, er]

theorem pay15_2_apply (keys : Vec Ideal S1024x1 .i32) (feats : Vec Ideal S1024x65 .f32) (acc : Vec Ideal S512x65 .f32) (b : Fin 512) (f : Fin 65) :
    k15_pay2 (F := Ideal) keys feats acc (ix2 b f)
      = acc (ix2 b f) + ∑ r : Fin 1024, (if keys (ix2 r 0) = BitVec.ofNat 32 b.val then (1 : EReal) else 0) * feats (ix2 r f) := by
  unfold k15_pay2
  show shapeCast S512x65 (addf (F := Ideal) (s := S512x65) (φ := .f32) acc _) _ (ix2 b f) = _
  rw [shapeCast_self, addf_apply, mm15_apply]
  refine congrArg (acc (ix2 b f) + ·) (Finset.sum_congr rfl fun r _ => ?_)
  rw [onehot13_apply, truncf_apply, shapeCast_self]

theorem pay15_1_apply (b : Fin 512) (f : Fin 65) : k15_pay1 (F := Ideal) (ix2 b f) = (0 : EReal) := by
  unfold k15_pay1
  show shapeCast S512x65 (broadcast S512x65 _) _ (ix2 b f) = _
  rw [shapeCast_self, broadcast_apply]
  exact Ideal.ofBits_zero_f32

end Cert.KernelIdeal.Val

end
-- ==== Proof.Val.KReg15.lean ====
import proofs.«408151_j68813966016636_2_alg».proof.Proof.KI.Reg15
import proofs.«408151_j68813966016636_2_alg».proof.Proof.Val.Spec
import proofs.«408151_j68813966016636_2_alg».proof.Proof.Val.Pay15
import proofs.«408151_j68813966016636_2_alg».proof.Proof.Val.KReg13
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem idx_facts15 : ∀ t : Fin cfg15.N, win15_0.index t (0 : Fin 2) = t.val ∧ win15_0.index t (1 : Fin 2) = 0
    ∧ win15_1.index t (0 : Fin 2) = t.val ∧ win15_1.index t (1 : Fin 2) = 0
    ∧ win15_2.index t (0 : Fin 2) = 0 ∧ win15_2.index t (1 : Fin 2) = 0 :=
  (by decide +kernel : ∀ t : Fin grid15.N, _)

theorem fblk15_apply (c : Dev nD) (t : Fin cfg15.N) (r : Fin 1024) (f : Fin 65) (hr : t.val * 1024 + r.val < 100352) :
    (Hand.iblk15 V c 0 t : Vec Ideal S1024x65 .f32) (ix2 r f) = (V c main_v111 : S100352x65.Idx → Elt Ideal .f32) (ix2 ⟨t.val * 1024 + r.val, hr⟩ f) := by
  obtain ⟨e0, e1, -⟩ := idx_facts15 t
  unfold Hand.iblk15
  rw [View.read_apply]
  show V c main_v111 _ = V c main_v111 _
  congr 1
  funext a
  apply Fin.ext
  match a with
  | ⟨0, _⟩ => show win15_0.index t (0 : Fin 2) * 1024 + 1 * r.val = t.val * 1024 + r.val; omega
  | ⟨1, _⟩ => show win15_0.index t (1 : Fin 2) * 65 + 1 * f.val = f.val; omega

theorem kblk15_apply (c : Dev nD) (t : Fin cfg15.N) (r : Fin 1024) (hr : t.val * 1024 + r.val < 100352) :
    (Hand.iblk15 V c 1 t : Vec Ideal S1024x1 .i32) (ix2 r 0) = (V c main_v92 : S100352x1.Idx → Elt Ideal .i32) (ix2 ⟨t.val * 1024 + r.val, hr⟩ 0) := by
  obtain ⟨-, -, e0, e1, -⟩ := idx_facts15 t
  unfold Hand.iblk15
  rw [View.read_apply]
  show V c main_v92 _ = V c main_v92 _
  congr 1
  funext a
  apply Fin.ext
  match a with
  | ⟨0, _⟩ => show win15_1.index t (0 : Fin 2) * 1024 + 1 * r.val = t.val * 1024 + r.val; omega
  | ⟨1, _⟩ => show win15_1.index t (1 : Fin 2) * 1 + 1 * 0 = 0; omega

abbrev keys15 (c : Dev nD) : Fin 100352 → BitVec 32 := fun m => (V c main_v92 : S100352x1.Idx → Elt Ideal .i32) (ix2 m 0)
abbrev col15 (c : Dev nD) (f : Fin 65) : Fin 100352 → EReal := fun m => (V c main_v111 : S100352x65.Idx → Elt Ideal .f32) (ix2 m f)

theorem acc15_apply (c : Dev nD) (b : Fin 512) (f : Fin 65) : ∀ (n : ℕ) (hn : n ≤ cfg15.N),
    (Hand.accAt15 (F := Ideal) V c n hn : Vec Ideal S512x65 .f32) (ix2 b f)
      = ∑ r ∈ Finset.range (n * 1024), term13 (keys15 V c) (col15 V c f) b r
  | 0, _ => by
    rw [Hand.accAt15_zero V c 0 _ rfl]
    refine (pay15_1_apply b f).trans ?_
    simp
  | n + 1, hn => by
    have ih := acc15_apply c b f n (Nat.le_of_succ_le hn)
    have hN : cfg15.N = 98 := N_15
    have hr : ∀ r : Fin 1024, n * 1024 + r.val < 100352 := fun r => by have := r.isLt; omega
    show k15_pay2 (F := Ideal) (Hand.iblk15 V c 1 ⟨n, hn⟩) (Hand.iblk15 V c 0 ⟨n, hn⟩) (Hand.accAt15 V c n (Nat.le_of_succ_le hn)) (ix2 b f) = _
    refine (pay15_2_apply _ _ _ b f).trans ?_
    refine Eq.trans (congrArg₂ (fun (x y : EReal) => x + y) ih
      (Finset.sum_congr rfl fun r _ => congrArg₂ (fun (x y : EReal) => x * y)
        (congrArg (fun k : BitVec 32 => if k = BitVec.ofNat 32 b.val then (1 : EReal) else 0) (kblk15_apply V c ⟨n, hn⟩ r (hr r)))
        (fblk15_apply V c ⟨n, hn⟩ r f (hr r)))) ?_
    exact term13_block (keys15 V c) (col15 V c f) b n hr

abbrev G15 (c : Dev nD) : S512x65.Idx → Elt Ideal .f32 :=
  Spec.of2 fun b f => ∑ n : Fin 100352, (if (V c main_v92 : S100352x1.Idx → Elt Ideal .i32) (ix2 n 0) = BitVec.ofNat 32 b.val then (1 : EReal) else 0)
    * (V c main_v111 : S100352x65.Idx → Elt Ideal .f32) (ix2 n f)

theorem oemb15 (t : Fin cfg15.N) (b : Fin 512) (f : Fin 65) :
    ((cfg15.win 2).blk t).view.emb (ix2 b f) = (ix2 b f : S512x65.Idx) := by
  obtain ⟨-, -, -, -, e0, e1⟩ := idx_facts15 t
  funext a
  apply Fin.ext
  match a with
  | ⟨0, _⟩ => show win15_2.index t (0 : Fin 2) * 512 + 1 * b.val = b.val; omega
  | ⟨1, _⟩ => show win15_2.index t (1 : Fin 2) * 65 + 1 * f.val = f.val; omega

theorem cut15_apply (t : Fin cfg15.N) (A : Vec Ideal S512x65 .f32) (b : Fin 512) (f : Fin 65) :
    (cfg15.win 2).cut (grid15.coords t) A (ix2 b f) = A (ix2 b f) := by
  show A _ = A _
  rfl

theorem read15_apply (t : Fin cfg15.N) (G : S512x65.Idx → Elt Ideal .f32) (b : Fin 512) (f : Fin 65) :
    ((cfg15.win 2).blk t).view.read (Elt Ideal) G (ix2 b f) = G (ix2 b f) := by
  rw [View.read_apply]
  exact congrArg G (oemb15 t b f)

theorem flushed15_eq (c : Dev nD) (t : Fin cfg15.N) (hf : (cfg15.win 2).flush t = true) :
    (Hand.dat15 (F := Ideal) V c).flushed 2 t = ((cfg15.win 2).blk t).view.read (Elt Ideal) (G15 V c) := by
  have hN : cfg15.N = 98 := N_15
  have ht : t.val + 1 = cfg15.N := by have := (flush15_2 t).mp hf; have := t.isLt; omega
  show (cfg15.win 2).cut (grid15.coords t) ((Hand.dat15 (F := Ideal) V c).after 2 t) = _
  rw [Hand.after15_2_last V c t ht]
  funext y
  obtain ⟨b, f, rfl⟩ : ∃ (b : Fin 512) (f : Fin 65), y = ix2 b f := ⟨y 0, y 1, eq_ix2 y⟩
  refine (cut15_apply t _ b f).trans ?_
  refine Eq.trans ?_ (read15_apply t (G15 V c) b f).symm
  refine (acc15_apply V c b f cfg15.N le_rfl).trans ?_
  refine Eq.trans ?_ (Spec.of2_ix2 _ b f).symm
  rw [show cfg15.N * 1024 = 100352 from by rw [hN]]
  exact term13_total (keys15 V c) (col15 V c f) b

theorem mem_blk15 (t : Fin cfg15.N) (i : S512x65.Idx) :
    i ∈ ((cfg15.win 2).blk t).view.set ↔ ∀ a : Fin 2, win15_2.index t a * S512x65.size a ≤ (i a).val ∧ (i a).val < win15_2.index t a * S512x65.size a + S512x65.size a := by
  show i ∈ ((View.whole main_v112).slice (win15_2.rect t)).set ↔ _
  rw [View.set_slice_whole, Rect.mem_set_unit]
  exact Iff.rfl

theorem covered15 (i : S512x65.Idx) : ∃ t : Fin cfg15.N, (cfg15.win 2).flush t = true ∧ i ∈ ((cfg15.win 2).blk t).view.set := by
  have hi0 : (i 0).val < 512 := (i 0).isLt
  have hi1 : (i 1).val < 65 := (i 1).isLt
  obtain ⟨t, ht⟩ : ∃ t : Fin cfg15.N, t.val = 97 := ⟨⟨97, by rw [show cfg15.N = 98 from N_15]; omega⟩, rfl⟩
  obtain ⟨-, -, -, -, e0, e1⟩ := idx_facts15 t
  refine ⟨t, (flush15_2 t).mpr (by rw [ht]), ?_⟩
  rw [mem_blk15]
  intro a
  match a with
  | ⟨0, _⟩ => show win15_2.index t (0 : Fin 2) * 512 ≤ (i 0).val ∧ (i 0).val < win15_2.index t (0 : Fin 2) * 512 + 512; omega
  | ⟨1, _⟩ => show win15_2.index t (1 : Fin 2) * 65 ≤ (i 1).val ∧ (i 1).val < win15_2.index t (1 : Fin 2) * 65 + 65; omega

theorem val15 (c : Dev nD) : (Hand.dat15 (F := Ideal) V c).arrAt 2 cfg15.N
    = Spec.of2 fun b f => ∑ n : Fin 100352, (if V c main_v92 (ix2 n 0) = BitVec.ofNat 32 b.val then (1 : EReal) else 0) * V c main_v111 (ix2 n f) :=
  (Hand.dat15 (F := Ideal) V c).arrAt_eq_of_cover 2 (G15 V c) (fun t hf => flushed15_eq V c t hf) covered15

end Cert.KernelIdeal.Val

end
-- ==== Proof.Val.KChainB0.lean ====
import proofs.«408151_j68813966016636_2_alg».proof.Proof.Val.Spec
import proofs.«408151_j68813966016636_2_alg».proof.Proof.LibScatterGather

noncomputable section

open scoped BigOperators

namespace Cert.KernelIdeal.Val

open Idealize.ShloMosaic Idealize.ShloMosaic.ValueIdx

theorem cb_word_iff (k : BitVec 32) (b : ℕ) (hb : b < 2 ^ 31) : k = BitVec.ofNat 32 b ↔ k.toInt = (b : Int) := by
  have hk := k.isLt
  constructor
  · rintro rfl
    rw [Cert.LibSG.toInt_eq_toNat _ (by rw [Cert.LibSG.toNat_ofNat_lt b (by omega)]; exact hb),
      Cert.LibSG.toNat_ofNat_lt b (by omega)]
  · intro h
    have h2 : k.toNat = b := by
      rw [BitVec.toInt_eq_toNat_cond] at h
      split at h <;> omega
    apply BitVec.eq_of_toNat_eq
    rw [Cert.LibSG.toNat_ofNat_lt b (by omega)]; exact h2

theorem cb_sum_fin_dite_lt {N P : ℕ} (hNP : N ≤ P) (f : Fin N → EReal) :
    ∑ n : Fin P, (if h : n.val < N then f ⟨n.val, h⟩ else 0) = ∑ e : Fin N, f e := by
  let G : ℕ → EReal := fun i => if h : i < N then f ⟨i, h⟩ else 0
  have hP : ∑ n : Fin P, (if h : n.val < N then f ⟨n.val, h⟩ else 0) = ∑ i ∈ Finset.range P, G i :=
    Fin.sum_univ_eq_sum_range G P
  have hN : ∑ e : Fin N, f e = ∑ i ∈ Finset.range N, G i := by
    rw [← Fin.sum_univ_eq_sum_range G N]
    exact Finset.sum_congr rfl fun e _ => by show f e = if h : e.val < N then f ⟨e.val, h⟩ else 0; rw [dif_pos e.isLt]
  rw [hP, hN]
  symm
  apply Finset.sum_subset (Finset.range_subset_range.2 hNP)
  intro i _ hi
  have hi' : ¬ i < N := by simpa using hi
  show (if h : i < N then f ⟨i, h⟩ else 0) = 0
  rw [dif_neg hi']

theorem cb_padded_sum {N P : ℕ} (hNP : N ≤ P) (keys : Fin P → BitVec 32) (feats : Fin P → EReal)
    (key : Fin N → BitVec 32) (u : Fin N → EReal) (padw : BitVec 32)
    (hk : ∀ n : Fin P, keys n = if hn : n.val < N then key ⟨n.val, hn⟩ else padw)
    (hf : ∀ (n : Fin P) (hn : n.val < N), feats n = u ⟨n.val, hn⟩)
    (b : ℕ) (hb : b < 2 ^ 31) (hne : padw ≠ BitVec.ofNat 32 b) :
    ∑ n : Fin P, (if keys n = BitVec.ofNat 32 b then (1 : EReal) else 0) * feats n
      = ∑ e ∈ Finset.univ.filter (fun e : Fin N => (key e).toInt = (b : Int)), u e := by
  rw [Finset.sum_filter, ← cb_sum_fin_dite_lt hNP]
  refine Finset.sum_congr rfl fun n _ => ?_
  rw [Cert.LibSG.ite_one_zero_mul, hk n]
  by_cases hn : n.val < N
  · rw [dif_pos hn, dif_pos hn, hf n hn]
    by_cases hq : key ⟨n.val, hn⟩ = BitVec.ofNat 32 b
    · rw [if_pos hq, if_pos ((cb_word_iff _ b hb).1 hq)]
    · rw [if_neg hq, if_neg fun h => hq ((cb_word_iff _ b hb).2 h)]
  · rw [dif_neg hn, dif_neg hn, if_neg hne]

theorem cb_pad_ne (b : Fin 512) : (512#32 : BitVec 32) ≠ BitVec.ofNat 32 b.val := by
  intro h
  have h2 := congrArg BitVec.toNat h
  rw [Cert.LibSG.toNat_ofNat_lt b.val (by have := b.isLt; omega)] at h2
  have := b.isLt
  have h3 : (512#32 : BitVec 32).toNat = 512 := by decide
  omega

section Tail

variable (A : Spec.Args) (natt : Spec.M2 100000 1) (h3 : Spec.M2 100000 64)
variable (k92 : (⟨2, ![100352, 1]⟩ : Shape).Idx → BitVec 32)
  (hk : ∀ n : Fin 100352, k92 (ix2 n (0 : Fin 1)) = if hn : n.val < 100000 then A.bat (ix1 ⟨n.val, hn⟩) else 512#32)

include hk in
theorem cb_seg (feats : Fin 100352 → EReal) (u : Fin 100000 → EReal)
    (hf : ∀ (n : Fin 100352) (hn : n.val < 100000), feats n = u ⟨n.val, hn⟩) (b : Fin 512) :
    ∑ n : Fin 100352, (if k92 (ix2 n (0 : Fin 1)) = BitVec.ofNat 32 b.val then (1 : EReal) else 0) * feats n
      = ∑ e ∈ Finset.univ.filter (fun e : Fin 100000 => (A.key e).toInt = (b.val : Int)), u e :=
  cb_padded_sum (by decide) (fun n => k92 (ix2 n (0 : Fin 1))) feats A.key u 512#32 hk hf b.val
    (by have := b.isLt; omega) (cb_pad_ne b)

variable (v96 : Spec.M2 100352 2)
  (h96_0 : ∀ n : Fin 100352, v96 (ix2 n (0 : Fin 2)) = if hn : n.val < 100000 then natt (ix2 ⟨n.val, hn⟩ (0 : Fin 1)) else 0)
  (h96_1 : ∀ n : Fin 100352, v96 (ix2 n (1 : Fin 2)) = if n.val < 100000 then 1 else 0)
  (v97 : Spec.M2 512 2)
  (hv97 : v97 = Spec.of2 fun b f => ∑ n : Fin 100352,
    (if k92 (ix2 n (0 : Fin 1)) = BitVec.ofNat 32 b.val then (1 : EReal) else 0) * v96 (ix2 n f))

include hk h96_0 hv97 in
theorem cb_gatt (b : Fin 512) : v97 (ix2 b (0 : Fin 2)) = A.gatt natt (ix2 b (0 : Fin 1)) := by
  rw [hv97, Spec.of2_ix2]
  exact cb_seg A k92 hk (fun n => v96 (ix2 n (0 : Fin 2))) (fun e => natt (ix2 e (0 : Fin 1)))
    (fun n hn => by rw [h96_0 n, dif_pos hn]) b

include hk h96_1 hv97 in
theorem cb_gnum (b : Fin 512) : v97 (ix2 b (1 : Fin 2)) = A.gnum (ix2 b (0 : Fin 1)) := by
  rw [hv97, Spec.of2_ix2]
  exact cb_seg A k92 hk (fun n => v96 (ix2 n (1 : Fin 2))) (fun _ => (1 : EReal))
    (fun n hn => by rw [h96_1 n, if_pos hn]) b

variable (v103 : Spec.M2 512 1)
  (hv103 : ∀ b : Fin 512, v103 (ix2 b (0 : Fin 1))
    = Ideal.div (v97 (ix2 b (1 : Fin 2))) (Spec.Args.orOne (v97 (ix2 b (0 : Fin 2)))))

include hk h96_0 h96_1 hv97 hv103 in
theorem cb_scale (b : Fin 512) : v103 (ix2 b (0 : Fin 1)) = A.scale natt b := by
  rw [hv103, cb_gatt A natt k92 hk v96 h96_0 v97 hv97, cb_gnum A k92 hk v96 h96_1 v97 hv97]
  rfl

variable (v104 : Spec.M2 100352 1)
  (hv104 : v104 = Spec.of2 fun n f => ∑ b : Fin 512,
    (if k92 (ix2 n (0 : Fin 1)) = BitVec.ofNat 32 b.val then (1 : EReal) else 0) * v103 (ix2 b f))

include hk h96_0 h96_1 hv97 hv103 hv104 in
theorem cb_nscale (n : Fin 100352) (hn : n.val < 100000) :
    v104 (ix2 n (0 : Fin 1)) = A.nscale natt ⟨n.val, hn⟩ := by
  rw [hv104, Spec.of2_ix2]
  unfold Spec.Args.nscale
  refine Finset.sum_congr rfl fun b _ => ?_
  rw [hk n, dif_pos hn, cb_scale A natt k92 hk v96 h96_0 h96_1 v97 hv97 v103 hv103 b]
  rfl

variable (v111 : Spec.M2 100352 65)
  (h111_lt : ∀ (n : Fin 100352) (c : Fin 65) (hc : c.val < 64), v111 (ix2 n c)
    = if hn : n.val < 100000 then h3 (ix2 ⟨n.val, hn⟩ ⟨c.val, hc⟩) * (natt (ix2 ⟨n.val, hn⟩ (0 : Fin 1)) * v104 (ix2 n (0 : Fin 1))) else 0)
  (h111_64 : ∀ n : Fin 100352, v111 (ix2 n (64 : Fin 65)) = if n.val < 100000 then 1 else 0)
  (v112 : Spec.M2 512 65)
  (hv112 : v112 = Spec.of2 fun b f => ∑ n : Fin 100352,
    (if k92 (ix2 n (0 : Fin 1)) = BitVec.ofNat 32 b.val then (1 : EReal) else 0) * v111 (ix2 n f))

include hk h96_0 h96_1 hv97 hv103 hv104 h111_lt hv112 in
theorem cb_gsum (b : Fin 512) (c : Fin 65) (hc : c.val < 64) :
    v112 (ix2 b c) = A.gsum h3 natt (ix2 b ⟨c.val, hc⟩) := by
  rw [hv112, Spec.of2_ix2]
  exact cb_seg A k92 hk (fun n => v111 (ix2 n c)) (fun e => A.nx h3 natt (ix2 e ⟨c.val, hc⟩))
    (fun n hn => by
      rw [h111_lt n c hc, dif_pos hn,
        cb_nscale A natt k92 hk v96 h96_0 h96_1 v97 hv97 v103 hv103 v104 hv104 n hn]
      rfl) b

include hk h111_64 hv112 in
theorem cb_cnt (b : Fin 512) : v112 (ix2 b (64 : Fin 65)) = A.gnum (ix2 b (0 : Fin 1)) := by
  rw [hv112, Spec.of2_ix2]
  exact cb_seg A k92 hk (fun n => v111 (ix2 n (64 : Fin 65))) (fun _ => (1 : EReal))
    (fun n hn => by rw [h111_64 n, if_pos hn]) b

variable (v118 : Spec.M2 512 64)
  (hv118 : ∀ (b : Fin 512) (c : Fin 64), v118 (ix2 b c)
    = Ideal.div (v112 (ix2 b ⟨c.val, by have := c.isLt; omega⟩)) (max (v112 (ix2 b (64 : Fin 65))) 1))

include hk h96_0 h96_1 hv97 hv103 hv104 h111_lt h111_64 hv112 hv118 in
theorem cb_gx : v118 = A.gx h3 natt := by
  funext i
  obtain ⟨b, c, rfl⟩ : ∃ (b : Fin 512) (c : Fin 64), i = ix2 b c := ⟨i 0, i 1, eq_ix2 i⟩
  rw [hv118 b c,
    cb_gsum A natt h3 k92 hk v96 h96_0 h96_1 v97 hv97 v103 hv103 v104 hv104 v111 h111_lt v112 hv112 b
      ⟨c.val, by have := c.isLt; omega⟩ c.isLt,
    cb_cnt A k92 hk v111 h111_64 v112 hv112 b]
  rfl

variable (w1 : Spec.M2 64 128) (b1 : Spec.M2 1 128) (v120 : Spec.M2 512 128)
  (hw1 : w1 = A.wf1) (hb1 : ∀ (u : Fin 1) (c : Fin 128), b1 (ix2 u c) = A.bf1 (ix1 c))
  (hv120 : v120 = Spec.linRelu v118 (fun j c' => w1 (ix2 j c')) (fun c' => b1 (ix2 0 c')))
  (w2 : Spec.M2 128 3) (b2 : Spec.M2 1 3) (v122 : Spec.M2 512 3)
  (hw2 : w2 = A.wf2) (hb2 : ∀ (u : Fin 1) (c : Fin 3), b2 (ix2 u c) = A.bf2 (ix1 c))
  (hv122 : v122 = Spec.lin v120 (fun j c' => w2 (ix2 j c')) (fun c' => b2 (ix2 0 c')))

include hk h96_0 h96_1 hv97 hv103 hv104 h111_lt h111_64 hv112 hv118 hw1 hb1 hv120 hw2 hb2 hv122 in
theorem cb_out : v122 = A.out h3 natt := by
  rw [hv122, hv120,
    cb_gx A natt h3 k92 hk v96 h96_0 h96_1 v97 hv97 v103 hv103 v104 hv104 v111 h111_lt h111_64 v112 hv112 v118 hv118,
    hw1, hw2,
    show (fun c' => b1 (ix2 0 c')) = fun c' => A.bf1 (ix1 c') from funext fun c' => hb1 0 c',
    show (fun c' => b2 (ix2 0 c')) = fun c' => A.bf2 (ix1 c') from funext fun c' => hb2 0 c']
  rfl

end Tail

end Cert.KernelIdeal.Val

end
-- ==== Proof.Val.KHostB14.lean ====
import proofs.«408151_j68813966016636_2_alg».proof.Proof.Gen.KernelIdeal.Launch
import proofs.«408151_j68813966016636_2_alg».proof.Proof.Val.Spec
import proofs.«408151_j68813966016636_2_alg».proof.Proof.LibScatterGather
import proofs.«408151_j68813966016636_2_alg».proof.Proof.Val.KHostBLib
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

abbrev ent14 (W : Valuation τ sig (Elt Ideal)) : Valuation τ sig (Elt Ideal) :=
  StableHlo.after hostOps14_2 (StableHlo.after hostOps14_1 (StableHlo.after hostOps14 W))

abbrev gAtt (r : FVec Ideal S512x2 .f32) : FVec Ideal S512x1 .f32 := extractStridedSlice S512x1 ![0, 0] r slices_S512x2_S512x1_0_0
abbrev gNum (r : FVec Ideal S512x2 .f32) : FVec Ideal S512x1 .f32 := extractStridedSlice S512x1 ![0, 1] r slices_S512x2_S512x1_0_1

theorem rd_v103 (W : Valuation τ sig (Elt Ideal)) :
    ent14 W (Proc.devRef .tc main_v103)
      = (Host.divf (F := Ideal) (gNum (W (Proc.devRef .tc main_v97)))
          (select (cmpf .oeq (gAtt (W (Proc.devRef .tc main_v97)))
              (broadcastInDim S512x1 ![] bcast_S_S512x1 (constant (F := Ideal) S_ .f32 0x00000000#32)))
            (broadcastInDim S512x1 ![] bcast_S_S512x1 (constant (F := Ideal) S_ .f32 0x3F800000#32))
            (gAtt (W (Proc.devRef .tc main_v97)))) : FVec Ideal S512x1 .f32) := by
  show StableHlo.after hostOps14_2 _ (Proc.devRef .tc main_v103) = _
  after_results
  rfl

theorem v103_at (W : Valuation τ sig (Elt Ideal)) (b : Fin 512) :
    (ent14 W (Proc.devRef .tc main_v103) : FVec Ideal S512x1 .f32) (ix2 b (0 : Fin 1))
      = Ideal.div ((W (Proc.devRef .tc main_v97) : FVec Ideal S512x2 .f32) (ix2 b (1 : Fin 2)))
          (Cert.Spec.Args.orOne ((W (Proc.devRef .tc main_v97) : FVec Ideal S512x2 .f32) (ix2 b (0 : Fin 2)))) := by
  rw [rd_v103]
  have e0 : gAtt (W (Proc.devRef .tc main_v97)) (ix2 b (0 : Fin 1))
      = (W (Proc.devRef .tc main_v97) : FVec Ideal S512x2 .f32) (ix2 b (0 : Fin 2)) :=
    slice2_axis1_apply 0 _ slices_S512x2_S512x1_0_0 b (0 : Fin 1) (0 : Fin 2) rfl
  have e1 : gNum (W (Proc.devRef .tc main_v97)) (ix2 b (0 : Fin 1))
      = (W (Proc.devRef .tc main_v97) : FVec Ideal S512x2 .f32) (ix2 b (1 : Fin 2)) :=
    slice2_axis1_apply 1 _ slices_S512x2_S512x1_0_1 b (0 : Fin 1) (1 : Fin 2) rfl
  rw [hostDivf_apply, select_apply, cmpf_apply, broadcastInDim_scalar_apply, broadcastInDim_scalar_apply,
    constant_apply, constant_apply, e0, e1, hb_orOne]

end Cert.KernelIdeal.Val

end
-- ==== Proof.Val.KHostB15.lean ====
import proofs.«408151_j68813966016636_2_alg».proof.Proof.Gen.KernelIdeal.Launch
import proofs.«408151_j68813966016636_2_alg».proof.Proof.Val.Spec
import proofs.«408151_j68813966016636_2_alg».proof.Proof.LibScatterGather
import proofs.«408151_j68813966016636_2_alg».proof.Proof.Val.KHostBLib
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

abbrev asF (s : Shape) (x : FVec Ideal s .f32) : FVec Ideal s .f32 := x

abbrev ent15 (W : Valuation τ sig (Elt Ideal)) : Valuation τ sig (Elt Ideal) :=
  StableHlo.after hostOps15_4 (StableHlo.after hostOps15_3 (StableHlo.after hostOps15_2 (StableHlo.after hostOps15_1
    (StableHlo.after hostOps15 W))))

abbrev upRow (n : Fin 100000) : Fin 100352 := ⟨n.val, Nat.lt_of_lt_of_le n.isLt (by decide)⟩

abbrev wgt (natt : FVec Ideal S100000x1 .f32) (bc : FVec Ideal S100352x1 .f32) : FVec Ideal S100000x1 .f32 :=
  mulf natt (extractStridedSlice S100000x1 ![0, 0] bc slices_S100352x1_S100000x1_0_0)

abbrev wfeat (h : FVec Ideal S100000x64 .f32) (natt : FVec Ideal S100000x1 .f32) (bc : FVec Ideal S100352x1 .f32) :
    FVec Ideal S100000x64 .f32 :=
  mulf h (broadcastInDim S100000x64 ![0, 1] bcast_S100000x1_S100000x64_0_1 (wgt natt bc))

theorem wgt_at (natt : FVec Ideal S100000x1 .f32) (bc : FVec Ideal S100352x1 .f32) (n : Fin 100000) :
    wgt natt bc (ix2 n (0 : Fin 1)) = natt (ix2 n (0 : Fin 1)) * bc (ix2 (upRow n) (0 : Fin 1)) := by
  show natt (ix2 n (0 : Fin 1)) * extractStridedSlice S100000x1 ![0, 0] bc slices_S100352x1_S100000x1_0_0 (ix2 n (0 : Fin 1)) = _
  rw [slice2_axis0_apply 0 bc slices_S100352x1_S100000x1_0_0 n (0 : Fin 1) (upRow n) (by show n.val = 0 + n.val; omega)]

theorem wfeat_at (h : FVec Ideal S100000x64 .f32) (natt : FVec Ideal S100000x1 .f32) (bc : FVec Ideal S100352x1 .f32)
    (n : Fin 100000) (c : Fin 64) :
    wfeat h natt bc (ix2 n c) = h (ix2 n c) * (natt (ix2 n (0 : Fin 1)) * bc (ix2 (upRow n) (0 : Fin 1))) := by
  show h (ix2 n c) * broadcastInDim S100000x64 ![0, 1] bcast_S100000x1_S100000x64_0_1 (wgt natt bc) (ix2 n c) = _
  rw [hb_bcastCol_apply bcast_S100000x1_S100000x64_0_1 (wgt natt bc) n c, wgt_at]

theorem rd_v111 (W : Valuation τ sig (Elt Ideal)) :
    ent15 W (Proc.devRef .tc main_v111)
      = (concatenate S100352x65 1
          [⟨S100352x64, pad S100352x64 ![0, 0] ![352, 0] ![0, 0]
              (wfeat (W (Proc.devRef .tc main_v71)) (W (Proc.devRef .tc main_v90)) (W (Proc.devRef .tc main_v104)))
              (sitofp .f32 (constantI S_ 32 0#32) : FVec Ideal S_ .f32) pads_S100000x64_S100352x64_03520_000 h_S_⟩,
           ⟨S100352x1, pad S100352x1 ![0, 0] ![352, 0] ![0, 0]
              (W (Proc.devRef .tc main_v93) : FVec Ideal S100000x1 .f32)
              (sitofp .f32 (constantI S_ 32 0#32) : FVec Ideal S_ .f32) pads_S100000x1_S100352x1_03520_000 h_S_⟩]
          concatenates_S100352x64_S100352x1_S100352x65_d1 : FVec Ideal S100352x65 .f32) := by
  show StableHlo.after hostOps15_4 _ (Proc.devRef .tc main_v111) = _
  after_results <;> rfl

theorem v111_at_lt (W : Valuation τ sig (Elt Ideal)) (n : Fin 100352) (c : Fin 65) (hc : c.val < 64) :
    (ent15 W (Proc.devRef .tc main_v111) : FVec Ideal S100352x65 .f32) (ix2 n c)
      = if hn : n.val < 100000 then
          asF S100000x64 (W (Proc.devRef .tc main_v71)) (ix2 ⟨n.val, hn⟩ ⟨c.val, hc⟩)
            * (asF S100000x1 (W (Proc.devRef .tc main_v90)) (ix2 ⟨n.val, hn⟩ (0 : Fin 1))
              * asF S100352x1 (W (Proc.devRef .tc main_v104)) (ix2 n (0 : Fin 1)))
        else (0 : EReal) := by
  rw [rd_v111]
  refine (hb_concatCols_left _ _ concatenates_S100352x64_S100352x1_S100352x65_d1 n c hc).trans ?_
  refine (hb_padRows_apply 352 _ _ pads_S100000x64_S100352x64_03520_000 h_S_ n _).trans ?_
  by_cases hn : n.val < 100000
  · rw [dif_pos hn, dif_pos hn, wfeat_at]
  · rw [dif_neg hn, dif_neg hn, sitofp_apply, constantI_apply]; exact hb_sitofp_zero

theorem v111_at_64 (W : Valuation τ sig (Elt Ideal)) (n : Fin 100352) :
    (ent15 W (Proc.devRef .tc main_v111) : FVec Ideal S100352x65 .f32) (ix2 n (64 : Fin 65))
      = if hn : n.val < 100000 then asF S100000x1 (W (Proc.devRef .tc main_v93)) (ix2 ⟨n.val, hn⟩ (0 : Fin 1))
        else (0 : EReal) := by
  rw [rd_v111]
  refine (hb_concatCols_right _ _ concatenates_S100352x64_S100352x1_S100352x65_d1 n (64 : Fin 65) (by decide) (by decide)).trans ?_
  refine (hb_padRows_apply 352 _ _ pads_S100000x1_S100352x1_03520_000 h_S_ n _).trans ?_
  by_cases hn : n.val < 100000
  · (rw [dif_pos hn, dif_pos hn]) <;> rfl
  · rw [dif_neg hn, dif_neg hn, sitofp_apply, constantI_apply]; exact hb_sitofp_zero

end Cert.KernelIdeal.Val

end
-- ==== Proof.Val.KHostB16.lean ====
import proofs.«408151_j68813966016636_2_alg».proof.Proof.Gen.KernelIdeal.Launch
import proofs.«408151_j68813966016636_2_alg».proof.Proof.Val.Spec
import proofs.«408151_j68813966016636_2_alg».proof.Proof.LibScatterGather
import proofs.«408151_j68813966016636_2_alg».proof.Proof.Val.KHostBLib
import proofs.«408151_j68813966016636_2_alg».proof.Proof.Val.KHostB15
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

theorem rd_v118 (W : Valuation τ sig (Elt Ideal)) :
    StableHlo.after (hostOps16 (F := Ideal)) W (Proc.devRef .tc main_v118)
      = (Host.divf (F := Ideal)
          (extractStridedSlice S512x64 ![0, 0] (W (Proc.devRef .tc main_v112) : FVec Ideal S512x65 .f32) slices_S512x65_S512x64_0_0)
          (broadcastInDim S512x64 ![0, 1] bcast_S512x1_S512x64_0_1
            (maximumf (extractStridedSlice S512x1 ![0, 64] (W (Proc.devRef .tc main_v112) : FVec Ideal S512x65 .f32) slices_S512x65_S512x1_0_64)
              (broadcastInDim S512x1 ![] bcast_S_S512x1 (constant (F := Ideal) S_ .f32 0x3F800000#32)))) : FVec Ideal S512x64 .f32) := by
  show StableHlo.after hostOps16 _ (Proc.devRef .tc main_v118) = _
  after_results <;> rfl

theorem v118_at (W : Valuation τ sig (Elt Ideal)) (b : Fin 512) (c : Fin 64) :
    (StableHlo.after (hostOps16 (F := Ideal)) W (Proc.devRef .tc main_v118) : FVec Ideal S512x64 .f32) (ix2 b c)
      = Ideal.div (asF S512x65 (W (Proc.devRef .tc main_v112)) (ix2 b ⟨c.val, Nat.lt_of_lt_of_le c.isLt (by decide)⟩))
          (max (asF S512x65 (W (Proc.devRef .tc main_v112)) (ix2 b (64 : Fin 65))) (1 : EReal)) := by
  rw [rd_v118, hostDivf_apply,
    slice2_axis1_apply 0 _ slices_S512x65_S512x64_0_0 b c ⟨c.val, Nat.lt_of_lt_of_le c.isLt (by decide)⟩ (by show c.val = 0 + c.val; omega),
    hb_bcastCol_apply bcast_S512x1_S512x64_0_1 _ b c, maximumf_apply,
    slice2_axis1_apply 64 _ slices_S512x65_S512x1_0_64 b (0 : Fin 1) (64 : Fin 65) rfl,
    broadcastInDim_scalar_apply, constant_apply, Cert.LibSG.ofBits_one_f32]

theorem rd_v119 (W : Valuation τ sig (Elt Ideal)) :
    StableHlo.after (hostOps16 (F := Ideal)) W (Proc.devRef .tc main_v119)
      = (shapeCast S1x128 (W (Proc.devRef .tc main_arg13) : FVec Ideal S128 .f32) shapeCasts_S128_S1x128 : FVec Ideal S1x128 .f32) := by
  show StableHlo.after hostOps16 _ (Proc.devRef .tc main_v119) = _
  after_results <;> rfl

theorem v119_at (W : Valuation τ sig (Elt Ideal)) (u : Fin 1) (c : Fin 128) :
    (StableHlo.after (hostOps16 (F := Ideal)) W (Proc.devRef .tc main_v119) : FVec Ideal S1x128 .f32) (ix2 u c)
      = (W (Proc.devRef .tc main_arg13) : FVec Ideal S128 .f32) (ix1 c) := by
  rw [rd_v119]; exact shapeCast_a_1a_apply _ shapeCasts_S128_S1x128 u c

theorem rd_v121 (W : Valuation τ sig (Elt Ideal)) :
    StableHlo.after (hostOps17 (F := Ideal)) W (Proc.devRef .tc main_v121)
      = (shapeCast S1x3 (W (Proc.devRef .tc main_arg15) : FVec Ideal S3 .f32) shapeCasts_S3_S1x3 : FVec Ideal S1x3 .f32) := by
  show StableHlo.after hostOps17 _ (Proc.devRef .tc main_v121) = _
  after_results <;> rfl

theorem v121_at (W : Valuation τ sig (Elt Ideal)) (u : Fin 1) (c : Fin 3) :
    (StableHlo.after (hostOps17 (F := Ideal)) W (Proc.devRef .tc main_v121) : FVec Ideal S1x3 .f32) (ix2 u c)
      = (W (Proc.devRef .tc main_arg15) : FVec Ideal S3 .f32) (ix1 c) := by
  rw [rd_v121]; exact shapeCast_a_1a_apply _ shapeCasts_S3_S1x3 u c

end Cert.KernelIdeal.Val

end
-- ==== Proof.Val.KChainB1.lean ====
import proofs.«408151_j68813966016636_2_alg».proof.Proof.KI.RegionsP
import proofs.«408151_j68813966016636_2_alg».proof.Proof.Val.Spec
import proofs.«408151_j68813966016636_2_alg».proof.Proof.Val.KChainA0
import proofs.«408151_j68813966016636_2_alg».proof.Proof.Val.KChainB0
import proofs.«408151_j68813966016636_2_alg».proof.Proof.Val.KHostB13
import proofs.«408151_j68813966016636_2_alg».proof.Proof.Val.KHostB14
import proofs.«408151_j68813966016636_2_alg».proof.Proof.Val.KHostB15
import proofs.«408151_j68813966016636_2_alg».proof.Proof.Val.KHostB16

set_option maxRecDepth 16384

noncomputable section

open scoped BigOperators

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (outs : GenP.Outs (F := Ideal)) (c : Dev nD)

theorem cbk_hk (n : Fin 100352) :
    (V41 m outs c main_v92 : IVec S100352x1 32) (ix2 n (0 : Fin 1))
      = if hn : n.val < 100000 then (argsK m c).bat (ix1 ⟨n.val, hn⟩) else 512#32 := by
  have e : V32 m outs c main_arg2 = (argsK m c).bat := by keep_down 32 0; rfl
  have h := v92_at (V32 m outs c) n
  rw [e] at h
  exact h

theorem cbk_h96_0 (n : Fin 100352) :
    (V41 m outs c main_v96 : Spec.M2 100352 2) (ix2 n (0 : Fin 2))
      = if hn : n.val < 100000 then nattG m outs c (ix2 ⟨n.val, hn⟩ (0 : Fin 1)) else (0 : EReal) := by
  have e : nattG m outs c
      = nattCore (V32 m outs c main_v3) (V32 m outs c main_v1) (V32 m outs c main_arg4) := ent13_v90 (V32 m outs c)
  rw [e]
  exact v96_at0 (V32 m outs c) n

theorem cbk_h96_1 (n : Fin 100352) :
    (V41 m outs c main_v96 : Spec.M2 100352 2) (ix2 n (1 : Fin 2)) = if n.val < 100000 then (1 : EReal) else 0 :=
  v96_at1 (V32 m outs c) n

theorem cbk_h111_lt (hh3 : V32 m outs c main_v71 = (argsK m c).h3) (n : Fin 100352) (c' : Fin 65) (hc : c'.val < 64) :
    (V51 m outs c main_v111 : Spec.M2 100352 65) (ix2 n c')
      = if hn : n.val < 100000 then
          (argsK m c).h3 (ix2 ⟨n.val, hn⟩ ⟨c'.val, hc⟩)
            * (nattG m outs c (ix2 ⟨n.val, hn⟩ (0 : Fin 1)) * (V46 m outs c main_v104 : Spec.M2 100352 1) (ix2 n (0 : Fin 1)))
        else (0 : EReal) := by
  have e71 : V46 m outs c main_v71 = (argsK m c).h3 := by keep_down 46 32; exact hh3
  have e90 : V46 m outs c main_v90 = nattG m outs c := by keep_down 46 41; rfl
  have h := v111_at_lt (V46 m outs c) n c' hc
  rw [e71, e90] at h
  exact h

theorem cbk_h111_64 (n : Fin 100352) :
    (V51 m outs c main_v111 : Spec.M2 100352 65) (ix2 n (64 : Fin 65)) = if n.val < 100000 then (1 : EReal) else 0 := by
  have e93 : V46 m outs c main_v93 = V41 m outs c main_v93 := by keep_down 46 41; rfl
  refine (v111_at_64 (V46 m outs c) n).trans ?_
  by_cases hn : n.val < 100000
  · rw [dif_pos hn, if_pos hn, e93]
    exact v93_at (V32 m outs c) _
  · rw [dif_neg hn, if_neg hn]

theorem cbk_w1 : V53 m outs c main_arg12 = (argsK m c).wf1 := by keep_down 53 0; rfl
theorem cbk_w2 : V55 m outs c main_arg14 = (argsK m c).wf2 := by keep_down 55 0; rfl

theorem cbk_b1 (u : Fin 1) (c' : Fin 128) :
    (V53 m outs c main_v119 : Spec.M2 1 128) (ix2 u c') = (argsK m c).bf1 (ix1 c') := by
  have e : V52 m outs c main_arg13 = (argsK m c).bf1 := by keep_down 52 0; rfl
  have h := v119_at (V52 m outs c) u c'
  rw [e] at h
  exact h

theorem cbk_b2 (u : Fin 1) (c' : Fin 3) :
    (V55 m outs c main_v121 : Spec.M2 1 3) (ix2 u c') = (argsK m c).bf2 (ix1 c') := by
  have e : V54 m outs c main_arg15 = (argsK m c).bf2 := by keep_down 54 0; rfl
  have h := v121_at (V54 m outs c) u c'
  rw [e] at h
  exact h

set_option maxHeartbeats 1000000 in
theorem chainB_G
    (h13 : V42 m outs c main_v97 = Spec.of2 fun (b : Fin 512) (f : Fin 2) => ∑ n : Fin 100352,
      (if V41 m outs c main_v92 (ix2 n 0) = BitVec.ofNat 32 b.val then (1 : EReal) else 0) * V41 m outs c main_v96 (ix2 n f))
    (h14 : V46 m outs c main_v104 = Spec.of2 fun (n : Fin 100352) (f : Fin 1) => ∑ b : Fin 512,
      (if V45 m outs c main_v92 (ix2 n 0) = BitVec.ofNat 32 b.val then (1 : EReal) else 0) * V45 m outs c main_v103 (ix2 b f))
    (h15 : V52 m outs c main_v112 = Spec.of2 fun (b : Fin 512) (f : Fin 65) => ∑ n : Fin 100352,
      (if V51 m outs c main_v92 (ix2 n 0) = BitVec.ofNat 32 b.val then (1 : EReal) else 0) * V51 m outs c main_v111 (ix2 n f))
    (h16 : V54 m outs c main_v120 = Spec.linRelu (n := 512) (k := 64) (h := 128) (V53 m outs c main_v118)
      (fun j c' => V53 m outs c main_arg12 (ix2 j c')) (fun c' => V53 m outs c main_v119 (ix2 0 c')))
    (h17 : V56 m outs c main_v122 = Spec.lin (n := 512) (k := 128) (h := 3) (V55 m outs c main_v120)
      (fun j c' => V55 m outs c main_arg14 (ix2 j c')) (fun c' => V55 m outs c main_v121 (ix2 0 c')))
    (hh3 : V32 m outs c main_v71 = (argsK m c).h3) :
    V56 m outs c main_v122 = (argsK m c).out (argsK m c).h3 (nattG m outs c) := by
  have k45 : V45 m outs c main_v92 = V41 m outs c main_v92 := by keep_down 45 41; rfl
  have k51 : V51 m outs c main_v92 = V41 m outs c main_v92 := by keep_down 51 41; rfl
  have k120 : V55 m outs c main_v120 = V54 m outs c main_v120 := by keep_down 55 54; rfl
  rw [k45] at h14
  rw [k51] at h15
  rw [k120] at h17
  exact cb_out (argsK m c) (nattG m outs c) (argsK m c).h3 (V41 m outs c main_v92) (cbk_hk m outs c)
    (V41 m outs c main_v96) (cbk_h96_0 m outs c) (cbk_h96_1 m outs c) (V42 m outs c main_v97) h13
    (V45 m outs c main_v103) (fun b => v103_at (V42 m outs c) b)
    (V46 m outs c main_v104) h14
    (V51 m outs c main_v111) (cbk_h111_lt m outs c hh3) (cbk_h111_64 m outs c) (V52 m outs c main_v112) h15
    (V53 m outs c main_v118) (fun b c' => v118_at (V52 m outs c) b c')
    (V53 m outs c main_arg12) (V53 m outs c main_v119) (V54 m outs c main_v120)
    (cbk_w1 m outs c) (cbk_b1 m outs c) h16
    (V55 m outs c main_arg14) (V55 m outs c main_v121) (V56 m outs c main_v122)
    (cbk_w2 m outs c) (cbk_b2 m outs c) h17

end Cert.KernelIdeal.Val

end
-- ==== Proof.Val.KChainB2.lean ====
import proofs.«408151_j68813966016636_2_alg».proof.Proof.KI.Stages
import proofs.«408151_j68813966016636_2_alg».proof.Proof.Val.KReg13
import proofs.«408151_j68813966016636_2_alg».proof.Proof.Val.KReg14
import proofs.«408151_j68813966016636_2_alg».proof.Proof.Val.KReg15
import proofs.«408151_j68813966016636_2_alg».proof.Proof.Val.KReg16
import proofs.«408151_j68813966016636_2_alg».proof.Proof.Val.KReg17
import proofs.«408151_j68813966016636_2_alg».proof.Proof.Val.KChainB1

set_option maxRecDepth 16384

noncomputable section

open scoped BigOperators

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (c : Dev nD)

theorem chainB_value (hh3 : V32 m (Hand.outs m) c main_v71 = (argsK m c).h3) :
    V56 m (Hand.outs m) c main_v122 = (argsK m c).out (argsK m c).h3 (nattG m (Hand.outs m) c) :=
  chainB_G m (Hand.outs m) c
    ((Hand.exit13 m c).trans (val13 (Hand.tcOf (V41 m (Hand.outs m))) c))
    ((Hand.exit14 m c).trans (val14 (Hand.tcOf (V45 m (Hand.outs m))) c))
    ((Hand.exit15 m c).trans (val15 (Hand.tcOf (V51 m (Hand.outs m))) c))
    ((Hand.exit16 m c).trans (val16 (Hand.tcOf (V53 m (Hand.outs m))) c))
    ((Hand.exit17 m c).trans (val17 (Hand.tcOf (V55 m (Hand.outs m))) c))
    hh3

end Cert.KernelIdeal.Val

end
-- ==== Proof.Val.KChain.lean ====
import proofs.«408151_j68813966016636_2_alg».proof.Proof.Val.KChainA5
import proofs.«408151_j68813966016636_2_alg».proof.Proof.Val.KChainB2

set_option maxRecDepth 16384

noncomputable section

namespace Cert.KernelIdeal.Val

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ)

theorem kernel_value
    (hk : ∀ (c : Dev nD) (r : Fin 2) (e : Fin 1000000), (m ((c.tc : Thread nD τ).loc main_arg1) (ix2 r e)).toNat < 100000)
    (c : Dev nD) : V56 m (Hand.outs m) c main_v122 = (argsK m c).result (nattK m c) :=
  chainB_value m c (h3_value m hk c)

end Cert.KernelIdeal.Val

end
-- ==== Proof.Val.RefA0.lean ====
import proofs.«408151_j68813966016636_2_alg».proof.Proof.Val.RefRead
import proofs.«408151_j68813966016636_2_alg».proof.Proof.Val.Spec
import proofs.«408151_j68813966016636_2_alg».proof.Proof.LibScatterGather

noncomputable section

open scoped BigOperators

namespace Cert.ReferenceIdeal.RefVal

open Cert.ReferenceIdeal Cert.ReferenceIdeal.ReadP Idealize.ShloMosaic Idealize.ShloMosaic.ValueIdx

theorem add3_comm (a d b : EReal) : (a + d) + b = (d + b) + a := by rw [add_comm a d, add_right_comm]

theorem src_at (x1 : (⟨S2x1000000, .i32⟩ : BufTy).Contents (Elt Ideal)) (e : Fin 1000000) :
    val_main_v1 (F := Ideal) x1 (ix1 e) = x1 (ix2 (0 : Fin 2) e) := by
  rw [val_main_v1_apply, val_main_v0_apply]
  refine congrArg x1 (funext fun a => Fin.ext ?_)
  have he := e.isLt
  match a with
  | ⟨0, _⟩ => rfl
  | ⟨1, _⟩ => show e.val % 1000000 = e.val; omega

theorem dst_at (x1 : (⟨S2x1000000, .i32⟩ : BufTy).Contents (Elt Ideal)) (e : Fin 1000000) :
    val_main_v3 (F := Ideal) x1 (ix1 e) = x1 (ix2 (1 : Fin 2) e) := by
  rw [val_main_v3_apply, val_main_v2_apply]
  refine congrArg x1 (funext fun a => Fin.ext ?_)
  have he := e.isLt
  match a with
  | ⟨0, _⟩ => rfl
  | ⟨1, _⟩ => show e.val % 1000000 = e.val; omega

theorem ew_at (x3 : (⟨S1000000, .f32⟩ : BufTy).Contents (Elt Ideal)) (x4 : (⟨S1000000x1, .f32⟩ : BufTy).Contents (Elt Ideal)) (e : Fin 1000000) :
    val_main_v5 (F := Ideal) x3 x4 (ix2 e (0 : Fin 1)) = x3 (ix1 e) * x4 (ix2 e (0 : Fin 1)) := by
  have h : idx_main_v4 (ix2 e (0 : Fin 1)) = ix1 e := funext fun a => Fin.ext (by match a with | ⟨0, _⟩ => rfl)
  rw [val_main_v5_apply, val_main_v4_apply, h, Ideal.mulf_def]

theorem not_slt_zero (w : BitVec 32) (h : w.toNat < 100000) : IntOp.cmpi .slt w 0#32 = 0#1 := by
  have hlt : w.slt 0#32 = false := by
    simp only [BitVec.slt, BitVec.toInt_zero, decide_eq_false_iff_not, Int.not_lt]
    rw [BitVec.toInt_eq_toNat_of_lt (by omega)]
    omega
  show BitVec.ofBool (w.slt 0#32) = 0#1
  rw [hlt]
  rfl

theorem ref_h0 (x0 : (⟨S100000x4, .f32⟩ : BufTy).Contents (Elt Ideal)) (x5 : (⟨S4x64, .f32⟩ : BufTy).Contents (Elt Ideal)) (x6 : (⟨S64, .f32⟩ : BufTy).Contents (Elt Ideal)) :
    val_main_v9 (F := Ideal) x0 x5 x6 = Spec.lin x0 (fun j c => x5 (ix2 j c)) (fun c => x6 (ix1 c)) := by
  funext i
  obtain ⟨r, c, rfl⟩ : ∃ (r : Fin 100000) (c : Fin 64), i = ix2 r c := ⟨i 0, i 1, eq_ix2 i⟩
  have h8 : idx_main_v7 (idx_main_v8 (ix2 r c)) = ix1 c := funext fun a => Fin.ext (by match a with | ⟨0, _⟩ => rfl)
  have hl : ∀ k : Fin 4, lidx_main_v6 (ix2 r c) k = ix2 r k := fun k => funext fun a => Fin.ext (by match a with | ⟨0, _⟩ => rfl | ⟨1, _⟩ => rfl)
  have hr : ∀ k : Fin 4, ridx_main_v6 (ix2 r c) k = ix2 k c := fun k => funext fun a => Fin.ext (by match a with | ⟨0, _⟩ => rfl | ⟨1, _⟩ => rfl)
  rw [val_main_v9_apply, val_main_v6_apply, val_main_v8_apply, val_main_v7_apply, h8, Ideal.addf_def]
  unfold Spec.lin Spec.dot
  rw [Spec.of2_ix2]
  refine congrArg₂ (· + ·) (Finset.sum_congr rfl fun k _ => ?_) rfl
  rw [hl, hr]

end Cert.ReferenceIdeal.RefVal
-- ==== Proof.Val.RefA1.lean ====
import proofs.«408151_j68813966016636_2_alg».proof.Proof.Val.RefA0

noncomputable section

open scoped BigOperators

namespace Cert.ReferenceIdeal.RefVal

open Cert.ReferenceIdeal Cert.ReferenceIdeal.ReadP Cert.ReferenceIdeal.Gen Idealize.ShloMosaic Idealize.ShloMosaic.ValueIdx

def wSlab (s : Fin 3) (hs : S3x64x64.Slices ![s.val, 0, 0] S1x64x64) (x : FVec Ideal S3x64x64 .f32) : FVec Ideal S64x64 .f32 :=
  shapeCast _ (extractStridedSlice S1x64x64 ![s.val, 0, 0] x hs) shapeCasts_S1x64x64_S64x64

def bRows (s : Fin 3) (hs : S3x64.Slices ![s.val, 0] S1x64) (x : FVec Ideal S3x64 .f32) : FVec Ideal S100000x64 .f32 :=
  broadcastInDim S100000x64 ![0, 1] bcast_S1x64_S100000x64_0_1
    (broadcastInDim S1x64 ![1] bcast_S64_S1x64_1 (shapeCast _ (extractStridedSlice S1x64 ![s.val, 0] x hs) shapeCasts_S1x64_S64))

-- Slab s of the stack read at (j, c): the cast drops the unit axis, the slice starts at row s.
theorem wSlab_apply (s : Fin 3) (hs : S3x64x64.Slices ![s.val, 0, 0] S1x64x64) (x : FVec Ideal S3x64x64 .f32) (j c : Fin 64) :
    wSlab s hs x (ix2 j c) = x (ix3 s j c) := by
  unfold wSlab
  rw [shapeCast_apply _ shapeCasts_S1x64x64_S64x64 (ix2 j c) (ix3 (0 : Fin 1) j c) (by
    rewrite [Shape.rowMajor_val_three, Shape.rowMajor_val_two]
    show (0 * 64 + j.val) * 64 + c.val = j.val * 64 + c.val
    omega)]
  exact extractStridedSlice_apply _ x hs _ (ix3 s j c) fun a => by
    match a with
    | ⟨0, _⟩ => show s.val = s.val + 0; omega
    | ⟨1, _⟩ => show j.val = 0 + j.val; omega
    | ⟨2, _⟩ => show c.val = 0 + c.val; omega

-- Row s of the stack of biases, the same down every node row.
theorem bRows_apply (s : Fin 3) (hs : S3x64.Slices ![s.val, 0] S1x64) (x : FVec Ideal S3x64 .f32) (r : Fin 100000) (c : Fin 64) :
    bRows s hs x (ix2 r c) = x (ix2 s c) := by
  unfold bRows
  rw [broadcastInDim_apply _ bcast_S1x64_S100000x64_0_1 _ (ix2 r c) (ix2 (0 : Fin 1) c) (fun a => by
      match a with
      | ⟨0, _⟩ => show 0 = if (1 : Nat) = 1 then 0 else r.val; rw [if_pos rfl]
      | ⟨1, _⟩ => show c.val = if (64 : Nat) = 1 then 0 else c.val; rw [if_neg (by decide)]),
    broadcastInDim_apply _ bcast_S64_S1x64_1 _ (ix2 (0 : Fin 1) c) (ix1 c) (fun a => by
      match a with
      | ⟨0, _⟩ => show c.val = if (64 : Nat) = 1 then 0 else c.val; rw [if_neg (by decide)]),
    shapeCast_apply _ shapeCasts_S1x64_S64 (ix1 c) (ix2 (0 : Fin 1) c) (by
      rewrite [Shape.rowMajor_val_two, Shape.rowMajor_val_one]
      show 0 * 64 + c.val = c.val
      omega)]
  exact extractStridedSlice_apply _ x hs _ (ix2 s c) fun a => by
    match a with
    | ⟨0, _⟩ => show s.val = s.val + 0; omega
    | ⟨1, _⟩ => show c.val = 0 + c.val; omega

section Stages

variable (h : FVec Ideal S100000x64 .f32) {W : FVec Ideal S64x64 .f32} {B : FVec Ideal S100000x64 .f32}
  {w : Fin 64 → Fin 64 → EReal} {b : Fin 64 → EReal}

-- The product of the node rows by a 64×64 weight at (r, c): the one contracted axis re-indexed by its coordinate.
theorem nodeDot_apply (W : FVec Ideal S64x64 .f32) (r : Fin 100000) (c : Fin 64) :
    Host.dotGeneral (F := Ideal) dot_S100000x64_S64x64_S100000x64_1_0_0_1_n_n none h W (ix2 r c) = ∑ k : Fin 64, h (ix2 r k) * W (ix2 k c) :=
  Cert.ReferenceIdeal.ReadP.dot_plain_apply h W (ix2 r c) (fun k => ix2 r k) (fun k => ix2 k c) (fun _ => ⟨rfl, rfl⟩) fun _ => ⟨rfl, rfl⟩

theorem linNB_of (hW : ∀ j c, W (ix2 j c) = w j c) : Host.dotGeneral (F := Ideal) dot_S100000x64_S64x64_S100000x64_1_0_0_1_n_n none h W = Spec.linNB h w := by
  funext i
  obtain ⟨r, c, rfl⟩ : ∃ (r : Fin 100000) (c : Fin 64), i = ix2 r c := ⟨i 0, i 1, eq_ix2 i⟩
  rw [nodeDot_apply]
  unfold Spec.linNB Spec.dot
  rw [Spec.of2_ix2]
  exact Finset.sum_congr rfl fun k _ => by rw [hW]

theorem lin_of (hW : ∀ j c, W (ix2 j c) = w j c) (hB : ∀ r c, B (ix2 r c) = b c) :
    addf (F := Ideal) (Host.dotGeneral (F := Ideal) dot_S100000x64_S64x64_S100000x64_1_0_0_1_n_n none h W) B = Spec.lin h w b := by
  funext i
  obtain ⟨r, c, rfl⟩ : ∃ (r : Fin 100000) (c : Fin 64), i = ix2 r c := ⟨i 0, i 1, eq_ix2 i⟩
  rw [addf_apply, nodeDot_apply, hB]
  unfold Spec.lin Spec.dot
  rw [Spec.of2_ix2]
  exact congrArg (· + b c) (Finset.sum_congr rfl fun k _ => by rw [hW])

-- The reference adds (agg + h·W) + b where the specification has (h·W + b) + agg.
theorem linRes_of {agg R0 : FVec Ideal S100000x64 .f32} (hW : ∀ j c, W (ix2 j c) = w j c) (hB : ∀ r c, B (ix2 r c) = b c)
    (hR : ∀ i, (R0 i : EReal) = 0) :
    maximumf (F := Ideal) (addf (F := Ideal) (addf (F := Ideal) agg (Host.dotGeneral (F := Ideal) dot_S100000x64_S64x64_S100000x64_1_0_0_1_n_n none h W)) B) R0 = Spec.linRes h w b agg := by
  funext i
  obtain ⟨r, c, rfl⟩ : ∃ (r : Fin 100000) (c : Fin 64), i = ix2 r c := ⟨i 0, i 1, eq_ix2 i⟩
  rw [maximumf_apply, addf_apply, addf_apply, nodeDot_apply, hB, hR, add3_comm]
  unfold Spec.linRes Spec.dot
  rw [Spec.of2_ix2]
  exact congrArg (fun t => max ((t + b c) + agg (ix2 r c)) 0) (Finset.sum_congr rfl fun k _ => by rw [hW])

end Stages

-- A gather of rows at words below 100000 reads the rows the words name.
theorem rows_of {t : FVec Ideal S100000x64 .f32} {idx : IVec S1000000x1 32} {key : Fin 1000000 → BitVec 32}
    (hi : ∀ e, idx (ix2 e (0 : Fin 1)) = key e) (hlt : ∀ e, (key e).toNat < 100000) :
    Host.gather gather_S100000x64_S1000000x1_S1000000x64_1_0_n_n_0_1_164 t idx = Spec.rows (by decide) t key := by
  funext i
  obtain ⟨e, c, rfl⟩ : ∃ (e : Fin 1000000) (c : Fin 64), i = ix2 e c := ⟨i 0, i 1, eq_ix2 i⟩
  have hlt' : (idx (ix2 e (0 : Fin 1))).toNat < 100000 := by rw [hi]; exact hlt e
  rw [Cert.LibSG.gather_row_apply_of_lt (N := 100000) (C := 64) (M := 1000000) (by norm_num) gather_S100000x64_S1000000x1_S1000000x64_1_0_n_n_0_1_164 rfl rfl rfl rfl rfl rfl rfl _ _ e c hlt']
  unfold Spec.rows
  rw [Spec.of2_ix2]
  refine congrArg t (congrArg (fun q => ix2 q c) (Fin.ext ?_))
  show (idx (ix2 e (0 : Fin 1))).toNat = min (key e).toNat (100000 - 1)
  rw [hi]
  have := hlt e
  omega

theorem edge_of {ew ga gb : FVec Ideal S1000000x64 .f32} {attr atten : Fin 1000000 → EReal}
    (hew : ∀ e c, ew (ix2 e c) = attr e * atten e) : mulf (F := Ideal) ew (subf (F := Ideal) ga gb) = Spec.edge attr atten ga gb := by
  funext i
  obtain ⟨e, c, rfl⟩ : ∃ (e : Fin 1000000) (c : Fin 64), i = ix2 e c := ⟨i 0, i 1, eq_ix2 i⟩
  rw [mulf_apply, subf_apply, hew]
  rfl

-- A scatter-add into zeros sums, at each node, the updates whose key names it.
theorem segsum_of {Z : FVec Ideal S100000x64 .f32} {dc : IVec S1000000x1 32} {u : FVec Ideal S1000000x64 .f32}
    {key : Fin 1000000 → BitVec 32} (hZ : ∀ i, (Z i : EReal) = 0) (hdc : ∀ e, dc (ix2 e (0 : Fin 1)) = key e) :
    Host.scatterAdd (F := Ideal) scatter_S100000x64_S1000000x1_S1000000x64_1_0_0_1 Z dc u = Spec.segsum key u := by
  funext i
  obtain ⟨n, c, rfl⟩ : ∃ (n : Fin 100000) (c : Fin 64), i = ix2 n c := ⟨i 0, i 1, eq_ix2 i⟩
  rw [Cert.LibSG.scatterAdd_row_apply (N := 100000) (C := 64) (M := 1000000) scatter_S100000x64_S1000000x1_S1000000x64_1_0_0_1 rfl rfl rfl rfl, hZ, zero_add]
  unfold Spec.segsum
  rw [Spec.of2_ix2]
  exact Finset.sum_congr (Finset.filter_congr fun e _ => by rw [hdc]) fun _ _ => rfl

variable (x0 : (⟨S100000x4, .f32⟩ : BufTy).Contents (Elt Ideal)) (x1 : (⟨S2x1000000, .i32⟩ : BufTy).Contents (Elt Ideal)) (x2 : (⟨S100000, .i32⟩ : BufTy).Contents (Elt Ideal))
  (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal))
  (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal))
  (x12 : (⟨S64x128, .f32⟩ : BufTy).Contents (Elt Ideal)) (x13 : (⟨S128, .f32⟩ : BufTy).Contents (Elt Ideal)) (x14 : (⟨S128x3, .f32⟩ : BufTy).Contents (Elt Ideal)) (x15 : (⟨S3, .f32⟩ : BufTy).Contents (Elt Ideal))

-- The wrap  select(k < 0, k + 100000, k)  is the identity on a word below 100000.
theorem srcw_at (hk : ∀ r e, (x1 (ix2 r e)).toNat < 100000) (e : Fin 1000000) : val_main_v26 (F := Ideal) x1 (ix2 e (0 : Fin 1)) = x1 (ix2 (0 : Fin 2) e) := by
  have h : idx_main_v26 (ix2 e (0 : Fin 1)) = ix1 e := funext fun a => Fin.ext (by match a with | ⟨0, _⟩ => rfl)
  rw [val_main_v26_apply, h, val_main_v25_apply, val_main_v22_apply, val_main_v21_apply, val_main_c_apply, src_at]
  rw [not_slt_zero _ (hk 0 e), select_zero]

theorem dstw_at (hk : ∀ r e, (x1 (ix2 r e)).toNat < 100000) (e : Fin 1000000) : val_main_v33 (F := Ideal) x1 (ix2 e (0 : Fin 1)) = x1 (ix2 (1 : Fin 2) e) := by
  have h : idx_main_v33 (ix2 e (0 : Fin 1)) = ix1 e := funext fun a => Fin.ext (by match a with | ⟨0, _⟩ => rfl)
  rw [val_main_v33_apply, h, val_main_v32_apply, val_main_v29_apply, val_main_v28_apply, val_main_c_1_apply, dst_at]
  rw [not_slt_zero _ (hk 1 e), select_zero]

theorem dstc_at (e : Fin 1000000) : val_main_v39 (F := Ideal) x1 (ix2 e (0 : Fin 1)) = x1 (ix2 (1 : Fin 2) e) := by
  have h : idx_main_v39 (ix2 e (0 : Fin 1)) = ix1 e := funext fun a => Fin.ext (by match a with | ⟨0, _⟩ => rfl)
  rw [val_main_v39_apply, h, dst_at]

theorem ewB_at (e : Fin 1000000) (c : Fin 64) : val_main_v36 (F := Ideal) x3 x4 (ix2 e c) = x3 (ix1 e) * x4 (ix2 e (0 : Fin 1)) := by
  have h : idx_main_v36 (ix2 e c) = ix2 e (0 : Fin 1) := funext fun a => Fin.ext (by match a with | ⟨0, _⟩ => rfl | ⟨1, _⟩ => rfl)
  rw [val_main_v36_apply, h, ew_at]

theorem zeroN_at (i : S100000x64.Idx) : (val_main_v38 (F := Ideal) i : EReal) = 0 := by
  rw [val_main_v38_apply, val_main_cst_apply, Ideal.ofBits_def, Ideal.ofBits_zero_f32]

theorem reluZ_at (i : S100000x64.Idx) : (val_main_call0_v0 (F := Ideal) i : EReal) = 0 := by
  rw [val_main_call0_v0_apply, val_main_call0_cst_apply, Ideal.ofBits_def, Ideal.ofBits_zero_f32]

-- One layer of the reference over features h and slab s of the stacked weights is the specification's layer s at h.
theorem layer_of (s : Fin 3) (h3 : S3x64x64.Slices ![s.val, 0, 0] S1x64x64) (h2 : S3x64.Slices ![s.val, 0] S1x64)
    (h : FVec Ideal S100000x64 .f32) (hk : ∀ r e, (x1 (ix2 r e)).toNat < 100000) :
    maximumf (F := Ideal) (addf (F := Ideal) (addf (F := Ideal) (Host.scatterAdd (F := Ideal) scatter_S100000x64_S1000000x1_S1000000x64_1_0_0_1 (val_main_v38 (F := Ideal)) (val_main_v39 (F := Ideal) x1)
        (mulf (F := Ideal) (val_main_v36 (F := Ideal) x3 x4) (subf (F := Ideal)
          (Host.gather gather_S100000x64_S1000000x1_S1000000x64_1_0_n_n_0_1_164 (addf (F := Ideal) (Host.dotGeneral (F := Ideal) dot_S100000x64_S64x64_S100000x64_1_0_0_1_n_n none h (wSlab s h3 x7)) (bRows s h2 x8)) (val_main_v26 (F := Ideal) x1))
          (Host.gather gather_S100000x64_S1000000x1_S1000000x64_1_0_n_n_0_1_164 (Host.dotGeneral (F := Ideal) dot_S100000x64_S64x64_S100000x64_1_0_0_1_n_n none h (wSlab s h3 x9)) (val_main_v33 (F := Ideal) x1)))))
      (Host.dotGeneral (F := Ideal) dot_S100000x64_S64x64_S100000x64_1_0_0_1_n_n none h (wSlab s h3 x10))) (bRows s h2 x11)) (val_main_call0_v0 (F := Ideal))
      = (Spec.Args.mk x0 x1 x2 x3 x4 x5 x6 x7 x8 x9 x10 x11 x12 x13 x14 x15).layer s h := by
  rw [linRes_of h (wSlab_apply s h3 x10) (bRows_apply s h2 x11) reluZ_at, segsum_of zeroN_at (dstc_at x1), edge_of (ewB_at x3 x4),
    rows_of (srcw_at x1 hk) (hk 0), rows_of (dstw_at x1 hk) (hk 1), lin_of h (wSlab_apply s h3 x7) (bRows_apply s h2 x8),
    linNB_of h (wSlab_apply s h3 x9)]
  rfl

theorem ref_layer_0 (hk : ∀ r e, (x1 (ix2 r e)).toNat < 100000) :
    val_main_v50 (F := Ideal) x0 x1 x3 x4 x5 x6 x7 x8 x9 x10 x11 = (Spec.Args.mk x0 x1 x2 x3 x4 x5 x6 x7 x8 x9 x10 x11 x12 x13 x14 x15).layer (0 : Fin 3) (val_main_v9 (F := Ideal) x0 x5 x6) :=
  layer_of x0 x1 x2 x3 x4 x5 x6 x7 x8 x9 x10 x11 x12 x13 x14 x15 0 slices_S3x64x64_S1x64x64_0_0_0 slices_S3x64_S1x64_0_0 _ hk

theorem ref_layer_1 (hk : ∀ r e, (x1 (ix2 r e)).toNat < 100000) :
    val_main_v91 (F := Ideal) x0 x1 x3 x4 x5 x6 x7 x8 x9 x10 x11 = (Spec.Args.mk x0 x1 x2 x3 x4 x5 x6 x7 x8 x9 x10 x11 x12 x13 x14 x15).layer (1 : Fin 3) (val_main_v50 (F := Ideal) x0 x1 x3 x4 x5 x6 x7 x8 x9 x10 x11) :=
  layer_of x0 x1 x2 x3 x4 x5 x6 x7 x8 x9 x10 x11 x12 x13 x14 x15 1 slices_S3x64x64_S1x64x64_1_0_0 slices_S3x64_S1x64_1_0 _ hk

theorem ref_layer_2 (hk : ∀ r e, (x1 (ix2 r e)).toNat < 100000) :
    val_main_v132 (F := Ideal) x0 x1 x3 x4 x5 x6 x7 x8 x9 x10 x11 = (Spec.Args.mk x0 x1 x2 x3 x4 x5 x6 x7 x8 x9 x10 x11 x12 x13 x14 x15).layer (2 : Fin 3) (val_main_v91 (F := Ideal) x0 x1 x3 x4 x5 x6 x7 x8 x9 x10 x11) :=
  layer_of x0 x1 x2 x3 x4 x5 x6 x7 x8 x9 x10 x11 x12 x13 x14 x15 2 slices_S3x64x64_S1x64x64_2_0_0 slices_S3x64_S1x64_2_0 _ hk

end Cert.ReferenceIdeal.RefVal
-- ==== Proof.Val.RefA.lean ====
import proofs.«408151_j68813966016636_2_alg».proof.Proof.Val.RefA1

noncomputable section

open scoped BigOperators

namespace Cert.ReferenceIdeal.RefVal

open Cert.ReferenceIdeal Cert.ReferenceIdeal.ReadP Idealize.ShloMosaic Idealize.ShloMosaic.ValueIdx

variable (x0 : (⟨S100000x4, .f32⟩ : BufTy).Contents (Elt Ideal)) (x1 : (⟨S2x1000000, .i32⟩ : BufTy).Contents (Elt Ideal)) (x2 : (⟨S100000, .i32⟩ : BufTy).Contents (Elt Ideal))
  (x3 : (⟨S1000000, .f32⟩ : BufTy).Contents (Elt Ideal)) (x4 : (⟨S1000000x1, .f32⟩ : BufTy).Contents (Elt Ideal)) (x5 : (⟨S4x64, .f32⟩ : BufTy).Contents (Elt Ideal)) (x6 : (⟨S64, .f32⟩ : BufTy).Contents (Elt Ideal))
  (x7 : (⟨S3x64x64, .f32⟩ : BufTy).Contents (Elt Ideal)) (x8 : (⟨S3x64, .f32⟩ : BufTy).Contents (Elt Ideal)) (x9 x10 : (⟨S3x64x64, .f32⟩ : BufTy).Contents (Elt Ideal)) (x11 : (⟨S3x64, .f32⟩ : BufTy).Contents (Elt Ideal))
  (x12 : (⟨S64x128, .f32⟩ : BufTy).Contents (Elt Ideal)) (x13 : (⟨S128, .f32⟩ : BufTy).Contents (Elt Ideal)) (x14 : (⟨S128x3, .f32⟩ : BufTy).Contents (Elt Ideal)) (x15 : (⟨S3, .f32⟩ : BufTy).Contents (Elt Ideal))

-- The node embedding, then the three layers one after another, each the specification's layer at the features before it.
theorem ref_h3 (hk : ∀ r e, (x1 (ix2 r e)).toNat < 100000) :
    val_main_v132 (F := Ideal) x0 x1 x3 x4 x5 x6 x7 x8 x9 x10 x11 = (Spec.Args.mk x0 x1 x2 x3 x4 x5 x6 x7 x8 x9 x10 x11 x12 x13 x14 x15).h3 := by
  rw [ref_layer_2 x0 x1 x2 x3 x4 x5 x6 x7 x8 x9 x10 x11 x12 x13 x14 x15 hk, ref_layer_1 x0 x1 x2 x3 x4 x5 x6 x7 x8 x9 x10 x11 x12 x13 x14 x15 hk, ref_layer_0 x0 x1 x2 x3 x4 x5 x6 x7 x8 x9 x10 x11 x12 x13 x14 x15 hk, ref_h0]
  rfl

end Cert.ReferenceIdeal.RefVal
-- ==== Proof.Val.RefB0.lean ====
import proofs.«408151_j68813966016636_2_alg».proof.Proof.Val.RefRead
import proofs.«408151_j68813966016636_2_alg».proof.Proof.Val.Spec
import proofs.«408151_j68813966016636_2_alg».proof.Proof.LibScatterGather

noncomputable section

open scoped BigOperators

namespace Cert.ReferenceIdeal.RefVal

open Cert.ReferenceIdeal Cert.ReferenceIdeal.Gen Cert.ReferenceIdeal.ReadP Idealize.ShloMosaic Idealize.ShloMosaic.ValueIdx

theorem bkey153_at (x2 : (⟨S100000, .i32⟩ : BufTy).Contents (Elt Ideal)) (n : Fin 100000) :
    val_main_v153 (F := Ideal) x2 (ix2 n (0 : Fin 1)) = x2 (ix1 n) := by
  rw [val_main_v153_apply]
  exact congrArg x2 (funext fun a => Fin.ext (by match a with | ⟨0, _⟩ => rfl))

theorem bkey160_at (x2 : (⟨S100000, .i32⟩ : BufTy).Contents (Elt Ideal)) (n : Fin 100000) :
    val_main_v160 (F := Ideal) x2 (ix2 n (0 : Fin 1)) = x2 (ix1 n) :=
  bkey153_at x2 n

theorem bkey174_at (x2 : (⟨S100000, .i32⟩ : BufTy).Contents (Elt Ideal)) (n : Fin 100000) :
    val_main_v174 (F := Ideal) x2 (ix2 n (0 : Fin 1)) = x2 (ix1 n) :=
  bkey153_at x2 n

theorem bzero152 (i : S512x1.Idx) : (val_main_v152 (F := Ideal) i : EReal) = 0 := by
  rw [val_main_v152_apply, val_main_cst_20_apply, Ideal.ofBits_def, Ideal.ofBits_zero_f32]

theorem bzero155 (i : S512x1.Idx) : (val_main_v155 (F := Ideal) i : EReal) = 0 :=
  bzero152 i

theorem bzero159 (i : S512x1.Idx) : (val_main_v159 (F := Ideal) i : EReal) = 0 :=
  bzero152 i

theorem bzero173 (i : S512x64.Idx) : (val_main_v173 (F := Ideal) i : EReal) = 0 := by
  rw [val_main_v173_apply, val_main_cst_27_apply, Ideal.ofBits_def, Ideal.ofBits_zero_f32]

theorem bone158 (i : S100000x1.Idx) : (val_main_v158 (F := Ideal) i : EReal) = 1 := by
  rw [val_main_v158_apply, val_main_cst_23_apply, Ideal.ofBits_def, Ideal.ofBits_one_f32]

theorem bone180 (i : S512x1.Idx) : (val_main_v180 (F := Ideal) i : EReal) = 1 := by
  rw [val_main_v180_apply, val_main_cst_30_apply, Ideal.ofBits_def, Ideal.ofBits_one_f32]

theorem bone_call4 (i : S512x1.Idx) : (val_main_call4_v1 (F := Ideal) i : EReal) = 1 := by
  rw [val_main_call4_v1_apply, val_main_call4_v0_apply, val_main_cst_22_apply, Ideal.ofBits_def, Ideal.ofBits_one_f32]

theorem bzero_call5 (i : S512x128.Idx) : (val_main_call5_v0 (F := Ideal) i : EReal) = 0 := by
  rw [val_main_call5_v0_apply, val_main_call5_cst_apply, Ideal.ofBits_def, Ideal.ofBits_zero_f32]

-- A scatter-add into zeros sums, at each row, the updates whose key read signed names the row.
theorem scatter_zero_eq_segsum {N C M : ℕ} (d : ScatterDims ⟨2, ![N, C]⟩ ⟨2, ![M, 1]⟩ ⟨2, ![M, C]⟩)
    (huw : d.updateWindowDims = [1]) (hiw : d.insertedWindowDims = [0]) (hsd : d.scatterDimsToOperandDims = [0]) (hiv : d.indexVectorDim = 1)
    {Z : FVec Ideal ⟨2, ![N, C]⟩ .f32} {idx : IVec ⟨2, ![M, 1]⟩ 32} (u : FVec Ideal ⟨2, ![M, C]⟩ .f32) {key : Fin M → BitVec 32}
    (hZ : ∀ i, (Z i : EReal) = 0) (hidx : ∀ e, idx (ix2 e (0 : Fin 1)) = key e) :
    Host.scatterAdd d Z idx u = Spec.segsum key u := by
  funext i
  obtain ⟨n, c, rfl⟩ : ∃ (n : Fin N) (c : Fin C), i = ix2 n c := ⟨i 0, i 1, eq_ix2 i⟩
  rw [Cert.LibSG.scatterAdd_row_apply d huw hiw hsd hiv, hZ, zero_add]
  unfold Spec.segsum
  rw [Spec.of2_ix2]
  exact Finset.sum_congr (Finset.filter_congr fun e _ => by rw [hidx]) fun _ _ => rfl

-- The wrap  select(k < 0, k + 512, k)  takes its second branch on a key that is not negative.
theorem bwrap_at (x2 : (⟨S100000, .i32⟩ : BufTy).Contents (Elt Ideal)) (n : Fin 100000)
    (hnn : 0 ≤ (x2 (ix1 n)).toInt) : val_main_v168 (F := Ideal) x2 (ix2 n (0 : Fin 1)) = x2 (ix1 n) := by
  have hi : idx_main_v168 (ix2 n (0 : Fin 1)) = ix1 n := funext fun a => Fin.ext (by match a with | ⟨0, _⟩ => rfl)
  rw [val_main_v168_apply, hi, val_main_v167_apply, val_main_v164_apply, val_main_v163_apply, val_main_c_25_apply]
  unfold Scalar.select
  rw [if_neg]
  intro h
  have h' := IntOp.cmpi_slt.mp h
  rw [BitVec.toInt_zero] at h'
  omega

theorem b_orOne (g : EReal) :
    Scalar.select (FloatOps.cmpf (F := Ideal) (φ := .f32) .oeq g (0 : EReal)) (1 : EReal) g = Spec.Args.orOne g := by
  show Scalar.select (Ideal.cmp .oeq g 0) (1 : EReal) g = _
  unfold Spec.Args.orOne Ideal.cmp Scalar.select
  by_cases hg : g = 0
  · simp [hg]
  · simp [hg]

theorem toNat_ofNat_graph (b : Fin 512) : (BitVec.ofNat 32 b.val).toNat = b.val :=
  LibSG.toNat_ofNat_lt _ (by have := b.isLt; omega)

theorem toInt_ofNat_graph (b : Fin 512) : (BitVec.ofNat 32 b.val).toInt = (b.val : Int) := by
  rw [LibSG.toInt_eq_toNat _ (by rw [toNat_ofNat_graph]; have := b.isLt; omega), toNat_ofNat_graph]

theorem key_eq_ofNat {w : BitVec 32} {b : Fin 512} (h : w.toInt = (b.val : Int)) : w = BitVec.ofNat 32 b.val :=
  BitVec.eq_of_toInt_eq (h.trans (toInt_ofNat_graph b).symm)

end Cert.ReferenceIdeal.RefVal

end
-- ==== Proof.Val.RefB1.lean ====
import proofs.«408151_j68813966016636_2_alg».proof.Proof.Val.RefB0

noncomputable section

open scoped BigOperators

namespace Cert.ReferenceIdeal.RefVal

open Cert.ReferenceIdeal Cert.ReferenceIdeal.Gen Cert.ReferenceIdeal.ReadP Idealize.ShloMosaic Idealize.ShloMosaic.ValueIdx

variable (x0 : (⟨S100000x4, .f32⟩ : BufTy).Contents (Elt Ideal)) (x1 : (⟨S2x1000000, .i32⟩ : BufTy).Contents (Elt Ideal))
  (x2 : (⟨S100000, .i32⟩ : BufTy).Contents (Elt Ideal)) (x3 : (⟨S1000000, .f32⟩ : BufTy).Contents (Elt Ideal))
  (x4 : (⟨S1000000x1, .f32⟩ : BufTy).Contents (Elt Ideal)) (x5 : (⟨S4x64, .f32⟩ : BufTy).Contents (Elt Ideal))
  (x6 : (⟨S64, .f32⟩ : BufTy).Contents (Elt Ideal)) (x7 : (⟨S3x64x64, .f32⟩ : BufTy).Contents (Elt Ideal))
  (x8 : (⟨S3x64, .f32⟩ : BufTy).Contents (Elt Ideal)) (x9 x10 : (⟨S3x64x64, .f32⟩ : BufTy).Contents (Elt Ideal))
  (x11 : (⟨S3x64, .f32⟩ : BufTy).Contents (Elt Ideal)) (x12 : (⟨S64x128, .f32⟩ : BufTy).Contents (Elt Ideal))
  (x13 : (⟨S128, .f32⟩ : BufTy).Contents (Elt Ideal)) (x14 : (⟨S128x3, .f32⟩ : BufTy).Contents (Elt Ideal))
  (x15 : (⟨S3, .f32⟩ : BufTy).Contents (Elt Ideal))

local notation "𝔸" => Spec.Args.mk x0 x1 x2 x3 x4 x5 x6 x7 x8 x9 x10 x11 x12 x13 x14 x15
local notation "hR" => val_main_v132 (F := Ideal) x0 x1 x3 x4 x5 x6 x7 x8 x9 x10 x11
local notation "nattR" => val_main_v151 (F := Ideal) x1 x4

theorem ref_gatt : val_main_v154 (F := Ideal) x1 x2 x4 = Spec.Args.gatt 𝔸 nattR :=
  scatter_zero_eq_segsum scatter_S512x1_S100000x1_S100000x1_1_0_0_1 rfl rfl rfl rfl _ bzero152 (bkey153_at x2)

theorem ref_gnum161 : val_main_v161 (F := Ideal) x2 = Spec.Args.gnum 𝔸 :=
  (scatter_zero_eq_segsum scatter_S512x1_S100000x1_S100000x1_1_0_0_1 rfl rfl rfl rfl _ bzero159 (bkey160_at x2)).trans
    (congrArg (Spec.segsum _) (funext bone158))

-- The node count is computed twice, by the same scatter of ones.
theorem ref_gnum179 : val_main_v179 (F := Ideal) x2 = Spec.Args.gnum 𝔸 :=
  ref_gnum161 x0 x1 x2 x3 x4 x5 x6 x7 x8 x9 x10 x11 x12 x13 x14 x15

theorem ref_scale (b : Fin 512) : val_main_v162 (F := Ideal) x1 x2 x4 (ix2 b (0 : Fin 1)) = Spec.Args.scale 𝔸 nattR b := by
  rw [val_main_v162_apply, val_main_v157_apply, val_main_v156_apply, ref_gnum161 x0 x1 x2 x3 x4 x5 x6 x7 x8 x9 x10 x11 x12 x13 x14 x15,
    ref_gatt x0 x1 x2 x3 x4 x5 x6 x7 x8 x9 x10 x11 x12 x13 x14 x15, bzero155, bone_call4, Ideal.hostDivf_def, b_orOne]
  rfl

end Cert.ReferenceIdeal.RefVal

end
-- ==== Proof.Val.RefB2.lean ====
import proofs.«408151_j68813966016636_2_alg».proof.Proof.Val.RefB1

noncomputable section

open scoped BigOperators

namespace Cert.ReferenceIdeal.RefVal

open Cert.ReferenceIdeal Cert.ReferenceIdeal.Gen Cert.ReferenceIdeal.ReadP Idealize.ShloMosaic Idealize.ShloMosaic.ValueIdx

variable (x0 : (⟨S100000x4, .f32⟩ : BufTy).Contents (Elt Ideal)) (x1 : (⟨S2x1000000, .i32⟩ : BufTy).Contents (Elt Ideal))
  (x2 : (⟨S100000, .i32⟩ : BufTy).Contents (Elt Ideal)) (x3 : (⟨S1000000, .f32⟩ : BufTy).Contents (Elt Ideal))
  (x4 : (⟨S1000000x1, .f32⟩ : BufTy).Contents (Elt Ideal)) (x5 : (⟨S4x64, .f32⟩ : BufTy).Contents (Elt Ideal))
  (x6 : (⟨S64, .f32⟩ : BufTy).Contents (Elt Ideal)) (x7 : (⟨S3x64x64, .f32⟩ : BufTy).Contents (Elt Ideal))
  (x8 : (⟨S3x64, .f32⟩ : BufTy).Contents (Elt Ideal)) (x9 x10 : (⟨S3x64x64, .f32⟩ : BufTy).Contents (Elt Ideal))
  (x11 : (⟨S3x64, .f32⟩ : BufTy).Contents (Elt Ideal)) (x12 : (⟨S64x128, .f32⟩ : BufTy).Contents (Elt Ideal))
  (x13 : (⟨S128, .f32⟩ : BufTy).Contents (Elt Ideal)) (x14 : (⟨S128x3, .f32⟩ : BufTy).Contents (Elt Ideal))
  (x15 : (⟨S3, .f32⟩ : BufTy).Contents (Elt Ideal))

local notation "𝔸" => Spec.Args.mk x0 x1 x2 x3 x4 x5 x6 x7 x8 x9 x10 x11 x12 x13 x14 x15
local notation "hR" => val_main_v132 (F := Ideal) x0 x1 x3 x4 x5 x6 x7 x8 x9 x10 x11
local notation "nattR" => val_main_v151 (F := Ideal) x1 x4

theorem nscale_of_key (natt : Spec.M2 100000 1) (n : Fin 100000) (b : Fin 512)
    (hw : Spec.Args.key 𝔸 n = BitVec.ofNat 32 b.val) : Spec.Args.nscale 𝔸 natt n = Spec.Args.scale 𝔸 natt b := by
  unfold Spec.Args.nscale
  rw [Finset.sum_eq_single b]
  · rw [if_pos hw, one_mul]
  · intro b' _ hne
    rw [if_neg, zero_mul]
    intro heq
    apply hne
    have h := congrArg BitVec.toNat (heq.symm.trans hw)
    rw [toNat_ofNat_graph, toNat_ofNat_graph] at h
    exact Fin.ext h
  · intro h
    exact absurd (Finset.mem_univ b) h

theorem ref_nx_at (n : Fin 100000) (b : Fin 512) (c : Fin 64) (hk : (x2 (ix1 n)).toInt = (b.val : Int)) :
    val_main_v172 (F := Ideal) x0 x1 x2 x3 x4 x5 x6 x7 x8 x9 x10 x11 (ix2 n c) = Spec.Args.nx 𝔸 hR nattR (ix2 n c) := by
  have hw : x2 (ix1 n) = BitVec.ofNat 32 b.val := key_eq_ofNat hk
  have hnn : 0 ≤ (x2 (ix1 n)).toInt := by rw [hk]; exact Int.natCast_nonneg _
  have hi : idx_main_v171 (ix2 n c) = ix2 n (0 : Fin 1) :=
    funext fun a => Fin.ext (by match a with | ⟨0, _⟩ => rfl | ⟨1, _⟩ => rfl)
  have hlt : (val_main_v168 (F := Ideal) x2 (ix2 n (0 : Fin 1))).toNat < 512 := by
    rw [bwrap_at x2 n hnn, hw, toNat_ofNat_graph]; exact b.isLt
  have hrow : (⟨(val_main_v168 (F := Ideal) x2 (ix2 n (0 : Fin 1))).toNat, hlt⟩ : Fin 512) = b :=
    Fin.ext (by show (val_main_v168 (F := Ideal) x2 (ix2 n (0 : Fin 1))).toNat = b.val
                rw [bwrap_at x2 n hnn, hw, toNat_ofNat_graph])
  have hg : val_main_v169 (F := Ideal) x1 x2 x4 (ix2 n (0 : Fin 1)) = Spec.Args.scale 𝔸 nattR b := by
    unfold val_main_v169
    rw [Cert.LibSG.gather_row_apply_of_lt (N := 512) (C := 1) (M := 100000) (by norm_num)
      gather_S512x1_S100000x1_S100000x1_1_0_n_n_0_1_11 rfl rfl rfl rfl rfl rfl rfl _ _ n (0 : Fin 1) hlt, hrow]
    exact ref_scale x0 x1 x2 x3 x4 x5 x6 x7 x8 x9 x10 x11 x12 x13 x14 x15 b
  rw [val_main_v172_apply, val_main_v171_apply, hi, val_main_v170_apply, hg, Ideal.mulf_def, Ideal.mulf_def]
  unfold Spec.Args.nx
  rw [Spec.of2_ix2, nscale_of_key x0 x1 x2 x3 x4 x5 x6 x7 x8 x9 x10 x11 x12 x13 x14 x15 nattR n b hw]

theorem ref_gsum : val_main_v175 (F := Ideal) x0 x1 x2 x3 x4 x5 x6 x7 x8 x9 x10 x11 = Spec.Args.gsum 𝔸 hR nattR := by
  funext i
  obtain ⟨b, c, rfl⟩ : ∃ (b : Fin 512) (c : Fin 64), i = ix2 b c := ⟨i 0, i 1, eq_ix2 i⟩
  unfold val_main_v175
  rw [Cert.LibSG.scatterAdd_row_apply (N := 512) (C := 64) (M := 100000) scatter_S512x64_S100000x1_S100000x64_1_0_0_1 rfl rfl rfl rfl]
  rw [bzero173, zero_add]
  unfold Spec.Args.gsum Spec.segsum
  rw [Spec.of2_ix2]
  have hf : (Finset.univ.filter fun e : Fin 100000 => (val_main_v174 (F := Ideal) x2 (ix2 e (0 : Fin 1))).toInt = (b.val : Int))
      = Finset.univ.filter fun e : Fin 100000 => (Spec.Args.key 𝔸 e).toInt = (b.val : Int) :=
    Finset.filter_congr fun e _ => by rw [bkey174_at]; rfl
  rw [hf]
  refine Finset.sum_congr rfl fun n hn => ?_
  exact ref_nx_at x0 x1 x2 x3 x4 x5 x6 x7 x8 x9 x10 x11 x12 x13 x14 x15 n b c (Finset.mem_filter.mp hn).2

end Cert.ReferenceIdeal.RefVal

end
-- ==== Proof.Val.RefB3.lean ====
import proofs.«408151_j68813966016636_2_alg».proof.Proof.Val.RefB2

noncomputable section

open scoped BigOperators

namespace Cert.ReferenceIdeal.RefVal

open Cert.ReferenceIdeal Cert.ReferenceIdeal.Gen Cert.ReferenceIdeal.ReadP Idealize.ShloMosaic Idealize.ShloMosaic.ValueIdx

variable (x0 : (⟨S100000x4, .f32⟩ : BufTy).Contents (Elt Ideal)) (x1 : (⟨S2x1000000, .i32⟩ : BufTy).Contents (Elt Ideal))
  (x2 : (⟨S100000, .i32⟩ : BufTy).Contents (Elt Ideal)) (x3 : (⟨S1000000, .f32⟩ : BufTy).Contents (Elt Ideal))
  (x4 : (⟨S1000000x1, .f32⟩ : BufTy).Contents (Elt Ideal)) (x5 : (⟨S4x64, .f32⟩ : BufTy).Contents (Elt Ideal))
  (x6 : (⟨S64, .f32⟩ : BufTy).Contents (Elt Ideal)) (x7 : (⟨S3x64x64, .f32⟩ : BufTy).Contents (Elt Ideal))
  (x8 : (⟨S3x64, .f32⟩ : BufTy).Contents (Elt Ideal)) (x9 x10 : (⟨S3x64x64, .f32⟩ : BufTy).Contents (Elt Ideal))
  (x11 : (⟨S3x64, .f32⟩ : BufTy).Contents (Elt Ideal)) (x12 : (⟨S64x128, .f32⟩ : BufTy).Contents (Elt Ideal))
  (x13 : (⟨S128, .f32⟩ : BufTy).Contents (Elt Ideal)) (x14 : (⟨S128x3, .f32⟩ : BufTy).Contents (Elt Ideal))
  (x15 : (⟨S3, .f32⟩ : BufTy).Contents (Elt Ideal))

local notation "𝔸" => Spec.Args.mk x0 x1 x2 x3 x4 x5 x6 x7 x8 x9 x10 x11 x12 x13 x14 x15
local notation "hR" => val_main_v132 (F := Ideal) x0 x1 x3 x4 x5 x6 x7 x8 x9 x10 x11
local notation "nattR" => val_main_v151 (F := Ideal) x1 x4

theorem ref_gx : val_main_v183 (F := Ideal) x0 x1 x2 x3 x4 x5 x6 x7 x8 x9 x10 x11 = Spec.Args.gx 𝔸 hR nattR := by
  funext i
  obtain ⟨b, c, rfl⟩ : ∃ (b : Fin 512) (c : Fin 64), i = ix2 b c := ⟨i 0, i 1, eq_ix2 i⟩
  have hi : idx_main_v182 (ix2 b c) = ix2 b (0 : Fin 1) :=
    funext fun a => Fin.ext (by match a with | ⟨0, _⟩ => rfl | ⟨1, _⟩ => rfl)
  rw [val_main_v183_apply, ref_gsum x0 x1 x2 x3 x4 x5 x6 x7 x8 x9 x10 x11 x12 x13 x14 x15, val_main_v182_apply, hi,
    val_main_v181_apply, ref_gnum179 x0 x1 x2 x3 x4 x5 x6 x7 x8 x9 x10 x11 x12 x13 x14 x15, bone180,
    Ideal.hostDivf_def, Ideal.maximumf_def]
  unfold Spec.Args.gx
  rw [Spec.of2_ix2]

theorem ref_fc1 : val_main_v188 (F := Ideal) x0 x1 x2 x3 x4 x5 x6 x7 x8 x9 x10 x11 x12 x13
    = Spec.linRelu (val_main_v183 (F := Ideal) x0 x1 x2 x3 x4 x5 x6 x7 x8 x9 x10 x11) (fun j c => x12 (ix2 j c)) (fun c => x13 (ix1 c)) := by
  funext i
  obtain ⟨r, c, rfl⟩ : ∃ (r : Fin 512) (c : Fin 128), i = ix2 r c := ⟨i 0, i 1, eq_ix2 i⟩
  have hb : idx_main_v185 (idx_main_v186 (ix2 r c)) = ix1 c := funext fun a => Fin.ext (by match a with | ⟨0, _⟩ => rfl)
  have hl : ∀ k : Fin 64, lidx_main_v184 (ix2 r c) k = ix2 r k := fun k => funext fun a => Fin.ext (by match a with | ⟨0, _⟩ => rfl | ⟨1, _⟩ => rfl)
  have hr : ∀ k : Fin 64, ridx_main_v184 (ix2 r c) k = ix2 k c := fun k => funext fun a => Fin.ext (by match a with | ⟨0, _⟩ => rfl | ⟨1, _⟩ => rfl)
  rw [val_main_v188_apply, val_main_v187_apply, val_main_v184_apply, val_main_v186_apply, val_main_v185_apply, hb, bzero_call5,
    Ideal.addf_def, Ideal.maximumf_def]
  unfold Spec.linRelu Spec.dot
  rw [Spec.of2_ix2]
  refine congrArg (fun z => max z (0 : EReal)) (congrArg₂ (· + ·) (Finset.sum_congr rfl fun k _ => ?_) rfl)
  rw [hl, hr]

theorem ref_fc2 : val_main_v192 (F := Ideal) x0 x1 x2 x3 x4 x5 x6 x7 x8 x9 x10 x11 x12 x13 x14 x15
    = Spec.lin (val_main_v188 (F := Ideal) x0 x1 x2 x3 x4 x5 x6 x7 x8 x9 x10 x11 x12 x13) (fun j c => x14 (ix2 j c)) (fun c => x15 (ix1 c)) := by
  funext i
  obtain ⟨r, c, rfl⟩ : ∃ (r : Fin 512) (c : Fin 3), i = ix2 r c := ⟨i 0, i 1, eq_ix2 i⟩
  have hb : idx_main_v190 (idx_main_v191 (ix2 r c)) = ix1 c := funext fun a => Fin.ext (by match a with | ⟨0, _⟩ => rfl)
  have hl : ∀ k : Fin 128, lidx_main_v189 (ix2 r c) k = ix2 r k := fun k => funext fun a => Fin.ext (by match a with | ⟨0, _⟩ => rfl | ⟨1, _⟩ => rfl)
  have hr : ∀ k : Fin 128, ridx_main_v189 (ix2 r c) k = ix2 k c := fun k => funext fun a => Fin.ext (by match a with | ⟨0, _⟩ => rfl | ⟨1, _⟩ => rfl)
  rw [val_main_v192_apply, val_main_v189_apply, val_main_v191_apply, val_main_v190_apply, hb, Ideal.addf_def]
  unfold Spec.lin Spec.dot
  rw [Spec.of2_ix2]
  refine congrArg₂ (· + ·) (Finset.sum_congr rfl fun k _ => ?_) rfl
  rw [hl, hr]

theorem ref_tail : val_main_v192 (F := Ideal) x0 x1 x2 x3 x4 x5 x6 x7 x8 x9 x10 x11 x12 x13 x14 x15 = Spec.Args.out 𝔸 hR nattR := by
  rw [ref_fc2, ref_fc1, ref_gx x0 x1 x2 x3 x4 x5 x6 x7 x8 x9 x10 x11 x12 x13 x14 x15]
  rfl

end Cert.ReferenceIdeal.RefVal

end
-- ==== Proof.Val.RefBN.lean ====
import proofs.«408151_j68813966016636_2_alg».proof.Proof.Val.RefRead

noncomputable section

open scoped BigOperators

namespace Cert.ReferenceIdeal.RefVal

open Cert.ReferenceIdeal Cert.ReferenceIdeal.Gen Cert.ReferenceIdeal.ReadP Idealize.ShloMosaic Idealize.ShloMosaic.ValueIdx

def nattDstCol (ei : IVec S2x1000000 32) : IVec S1000000x1 32 :=
  broadcastInDim S1000000x1 ![0] bcast_S1000000_S1000000x1_0 (val_main_v3 (F := Ideal) ei)
def nattSrcCol (ei : IVec S2x1000000 32) : IVec S1000000x1 32 :=
  broadcastInDim S1000000x1 ![0] bcast_S1000000_S1000000x1_0 (val_main_v1 (F := Ideal) ei)

def nattZeros : FVec Ideal S100000x1 .f32 :=
  broadcastInDim S100000x1 ![] bcast_S_S100000x1 (constant (F := Ideal) S_ .f32 0x00000000#32)
def nattOnesE : FVec Ideal S1000000x1 .f32 :=
  broadcastInDim S1000000x1 ![] bcast_S_S1000000x1 (constant (F := Ideal) S_ .f32 0x3F800000#32)
def nattOnesN : FVec Ideal S100000x1 .f32 :=
  broadcastInDim S100000x1 ![] bcast_S_S100000x1 (id (constant (F := Ideal) S_ .f32 0x3F800000#32))

def nattBoth (ei : IVec S2x1000000 32) (u : FVec Ideal S1000000x1 .f32) : FVec Ideal S100000x1 .f32 :=
  addf (Host.scatterAdd (F := Ideal) scatter_S100000x1_S1000000x1_S1000000x1_1_0_0_1 nattZeros (nattDstCol ei) u)
    (Host.scatterAdd (F := Ideal) scatter_S100000x1_S1000000x1_S1000000x1_1_0_0_1 nattZeros (nattSrcCol ei) u)

def nattTermR (ei : IVec S2x1000000 32) (atten : FVec Ideal S1000000x1 .f32) : FVec Ideal S100000x1 .f32 :=
  Host.divf (F := Ideal) (nattBoth ei atten)
    (select (cmpf .oeq (nattBoth ei nattOnesE) nattZeros) nattOnesN (nattBoth ei nattOnesE))

theorem nattTermR_eq (x1 : (⟨S2x1000000, .i32⟩ : BufTy).Contents (Elt Ideal)) (x4 : (⟨S1000000x1, .f32⟩ : BufTy).Contents (Elt Ideal)) :
    val_main_v151 (F := Ideal) x1 x4 = nattTermR x1 x4 :=
  rfl

end Cert.ReferenceIdeal.RefVal

end
-- ==== Proof.Val.NAtt.lean ====
import proofs.«408151_j68813966016636_2_alg».proof.Proof.Val.KHostBDefs
import proofs.«408151_j68813966016636_2_alg».proof.Proof.Val.RefBN

noncomputable section

namespace Cert.Val

open Idealize.ShloMosaic

theorem natt_eq (ei : IVec Cert.KernelIdeal.S2x1000000 32) (atten : FVec Ideal Cert.KernelIdeal.S1000000x1 .f32) :
    Cert.KernelIdeal.Val.nattTerm ei atten = Cert.ReferenceIdeal.RefVal.nattTermR ei atten := by
  unfold Cert.KernelIdeal.Val.nattTerm Cert.KernelIdeal.Val.nattCore Cert.KernelIdeal.Val.sumBoth Cert.KernelIdeal.Val.degOr1
  unfold Cert.ReferenceIdeal.RefVal.nattTermR Cert.ReferenceIdeal.RefVal.nattBoth
  rfl

end Cert.Val

end
-- ==== Proof.Val.Algebraic.lean ====
import proofs.«408151_j68813966016636_2_alg».proof.Defs
import proofs.«408151_j68813966016636_2_alg».proof.Proof.Gen.Pre_finite_inputs
import proofs.«408151_j68813966016636_2_alg».proof.Proof.KI.Run
import proofs.«408151_j68813966016636_2_alg».proof.Proof.Val.Spec
import proofs.«408151_j68813966016636_2_alg».proof.Proof.Val.Pre
import proofs.«408151_j68813966016636_2_alg».proof.Proof.Val.KChain
import proofs.«408151_j68813966016636_2_alg».proof.Proof.Val.RefRunHand
import proofs.«408151_j68813966016636_2_alg».proof.Proof.Val.RefA
import proofs.«408151_j68813966016636_2_alg».proof.Proof.Val.RefB3
import proofs.«408151_j68813966016636_2_alg».proof.Proof.Val.RefBN
import proofs.«408151_j68813966016636_2_alg».proof.Proof.Val.NAtt

set_option maxRecDepth 16384

noncomputable section

open Idealize.ShloMosaic Idealize.ShloMosaic.TcCoe Idealize.SL.Sem

namespace Cert.Proof.Alg

open Cert.KernelIdeal.Val Idealize.ShloMosaic.ValueIdx

theorem algebraic : Cert.algebraic_KernelIdeal_ReferenceIdeal := by
  intro m ρ m' ρ' hpre hagree
  have hk : ∀ (c : Dev Cert.KernelIdeal.nD) (r : Fin 2) (e : Fin 1000000),
      (m ((c.tc : Thread Cert.KernelIdeal.nD Cert.KernelIdeal.τ).loc Cert.KernelIdeal.main_arg1) (ix2 r e)).toNat < 100000 :=
    fun c r e => edge_in_range m hpre c r e
  refine ⟨fun c => (argsK m c).result (nattK m c), ?_, ?_⟩
  · exact (θ_run (Cert.KernelIdeal.defs (F := Ideal)) _ _).mono (fun _ h c => ⟨(h c).1.trans (kernel_value m hk c), (h c).2⟩)
      (Cert.KernelIdeal.Hand.run (F := Ideal) m ρ)
  · refine (θ_run (Cert.ReferenceIdeal.defs (F := Ideal)) _ _).mono (fun _ h c => ⟨(h c).1.trans ?_, (h c).2⟩)
      (Cert.ReferenceIdeal.RunHand.run (F := Ideal) m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    rw [Cert.ReferenceIdeal.RefVal.ref_tail,
      Cert.ReferenceIdeal.RefVal.ref_h3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (hk c),
      Cert.ReferenceIdeal.RefVal.nattTermR_eq, ← Cert.Val.natt_eq, ← nattK_eq m c]
    rfl

end Cert.Proof.Alg

end
-- ==== Proof.lean ====
import proofs.«408151_j68813966016636_2_alg».proof.Defs
import proofs.«408151_j68813966016636_2_alg».proof.Proof.Gen.Kernel
import proofs.«408151_j68813966016636_2_alg».proof.Proof.Gen.KernelIdeal
import proofs.«408151_j68813966016636_2_alg».proof.Proof.Gen.ReferenceIdeal
import proofs.«408151_j68813966016636_2_alg».proof.Proof.Gen.Pre_finite_inputs
import proofs.«408151_j68813966016636_2_alg».proof.Proof.K.Run
import proofs.«408151_j68813966016636_2_alg».proof.Proof.KI.Run
import proofs.«408151_j68813966016636_2_alg».proof.Proof.Val.RefRunHand
import proofs.«408151_j68813966016636_2_alg».proof.Proof.Val.Algebraic

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.Alg.algebraic⟩

end Cert.Proof

end
